-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x108 : Shape := ⟨2, ![100000, 108]⟩
abbrev S2x1600000 : Shape := ⟨2, ![2, 1600000]⟩
abbrev S100000 : Shape := ⟨1, ![100000]⟩
abbrev S108x98 : Shape := ⟨2, ![108, 98]⟩
abbrev S98 : Shape := ⟨1, ![98]⟩
abbrev S98x98 : Shape := ⟨2, ![98, 98]⟩
abbrev S98x120 : Shape := ⟨2, ![98, 120]⟩
abbrev S120 : Shape := ⟨1, ![120]⟩
abbrev S_ : Shape := ⟨0, ![]⟩

class Facts : Prop where
  bcast_S_S100000x108 : S_.BroadcastsInDim S100000x108 (![] : Fin 0 → Fin S100000x108.rank)
  reducesTo_S100000x108_S_d0_1 : S100000x108.ReducesTo [0, 1] S_
  h_S_ : 0 < S_.numel
  bcast_S_S108x98 : S_.BroadcastsInDim S108x98 (![] : Fin 0 → Fin S108x98.rank)
  reducesTo_S108x98_S_d0_1 : S108x98.ReducesTo [0, 1] S_
  bcast_S_S98 : S_.BroadcastsInDim S98 (![] : Fin 0 → Fin S98.rank)
  reducesTo_S98_S_d0 : S98.ReducesTo [0] S_
  bcast_S_S98x98 : S_.BroadcastsInDim S98x98 (![] : Fin 0 → Fin S98x98.rank)
  reducesTo_S98x98_S_d0_1 : S98x98.ReducesTo [0, 1] S_
  bcast_S_S98x120 : S_.BroadcastsInDim S98x120 (![] : Fin 0 → Fin S98x120.rank)
  reducesTo_S98x120_S_d0_1 : S98x120.ReducesTo [0, 1] S_
  bcast_S_S120 : S_.BroadcastsInDim S120 (![] : Fin 0 → Fin S120.rank)
  reducesTo_S120_S_d0 : S120.ReducesTo [0] S_

variable [Facts]

def fn_part7 {F : FTy → Type} [FloatOps F] (main_v118 : IVec S_ 1) (main_v119 : FVec F S120 .f32) : IVec S_ 1 :=
  let main_cst_46 : FVec F S_ .f32 := constant S_ .f32 0x7F800000#32
  let main_v120 : FVec F S120 .f32 := broadcastInDim S120 ![] bcast_S_S120 main_cst_46
  let main_v121 : IVec S120 1 := cmpf .olt main_v119 main_v120
  let main_c_47 : IVec S_ 1 := constantI S_ 1 1#1
  let main_v122 : IVec S_ 1 := (fun x v => Host.reduce IntOp.andi x v reducesTo_S120_S_d0 h_S_) main_v121 main_c_47
  let main_v123 : IVec S_ 1 := andi main_v118 main_v122
  main_v123

def fn_part6 {F : FTy → Type} [FloatOps F] (main_arg23 : FVec F S98x120 .f32) (main_arg24 : FVec F S120 .f32) (main_arg25 : FVec F S120 .f32) (main_arg26 : FVec F S120 .f32) (main_v98 : IVec S_ 1) (main_v101 : IVec S98 1) (main_c_39 : IVec S_ 1) : IVec S_ 1 :=
  let main_v102 : IVec S_ 1 := (fun x v => Host.reduce IntOp.andi x v reducesTo_S98_S_d0 h_S_) main_v101 main_c_39
  let main_v103 : IVec S_ 1 := andi main_v98 main_v102
  let main_v104 : FVec F S98x120 .f32 := Host.absf main_arg23
  let main_cst_40 : FVec F S_ .f32 := constant S_ .f32 0x7F800000#32
  let main_v105 : FVec F S98x120 .f32 := broadcastInDim S98x120 ![] bcast_S_S98x120 main_cst_40
  let main_v106 : IVec S98x120 1 := cmpf .olt main_v104 main_v105
  let main_c_41 : IVec S_ 1 := constantI S_ 1 1#1
  let main_v107 : IVec S_ 1 := (fun x v => Host.reduce IntOp.andi x v reducesTo_S98x120_S_d0_1 h_S_) main_v106 main_c_41
  let main_v108 : IVec S_ 1 := andi main_v103 main_v107
  let main_v109 : FVec F S120 .f32 := Host.absf main_arg24
  let main_cst_42 : FVec F S_ .f32 := constant S_ .f32 0x7F800000#32
  let main_v110 : FVec F S120 .f32 := broadcastInDim S120 ![] bcast_S_S120 main_cst_42
  let main_v111 : IVec S120 1 := cmpf .olt main_v109 main_v110
  let main_c_43 : IVec S_ 1 := constantI S_ 1 1#1
  let main_v112 : IVec S_ 1 := (fun x v => Host.reduce IntOp.andi x v reducesTo_S120_S_d0 h_S_) main_v111 main_c_43
  let main_v113 : IVec S_ 1 := andi main_v108 main_v112
  let main_v114 : FVec F S120 .f32 := Host.absf main_arg25
  let main_cst_44 : FVec F S_ .f32 := constant S_ .f32 0x7F800000#32
  let main_v115 : FVec F S120 .f32 := broadcastInDim S120 ![] bcast_S_S120 main_cst_44
  let main_v116 : IVec S120 1 := cmpf .olt main_v114 main_v115
  let main_c_45 : IVec S_ 1 := constantI S_ 1 1#1
  let main_v117 : IVec S_ 1 := (fun x v => Host.reduce IntOp.andi x v reducesTo_S120_S_d0 h_S_) main_v116 main_c_45
  let main_v118 : IVec S_ 1 := andi main_v113 main_v117
  let main_v119 : FVec F S120 .f32 := Host.absf main_arg26
  fn_part7 (F := F) main_v118 main_v119

def fn_part5 {F : FTy → Type} [FloatOps F] (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) (main_v83 : IVec S_ 1) (main_v84 : FVec F S98x98 .f32) (main_cst_32 : FVec F S_ .f32) : IVec S_ 1 :=
  let main_v85 : FVec F S98x98 .f32 := broadcastInDim S98x98 ![] bcast_S_S98x98 main_cst_32
  let main_v86 : IVec S98x98 1 := cmpf .olt main_v84 main_v85
  let main_c_33 : IVec S_ 1 := constantI S_ 1 1#1
  let main_v87 : IVec S_ 1 := (fun x v => Host.reduce IntOp.andi x v reducesTo_S98x98_S_d0_1 h_S_) main_v86 main_c_33
  let main_v88 : IVec S_ 1 := andi main_v83 main_v87
  let main_v89 : FVec F S98 .f32 := Host.absf main_arg20
  let main_cst_34 : FVec F S_ .f32 := constant S_ .f32 0x7F800000#32
  let main_v90 : FVec F S98 .f32 := broadcastInDim S98 ![] bcast_S_S98 main_cst_34
  let main_v91 : IVec S98 1 := cmpf .olt main_v89 main_v90
  let main_c_35 : IVec S_ 1 := constantI S_ 1 1#1
  let main_v92 : IVec S_ 1 := (fun x v => Host.reduce IntOp.andi x v reducesTo_S98_S_d0 h_S_) main_v91 main_c_35
  let main_v93 : IVec S_ 1 := andi main_v88 main_v92
  let main_v94 : FVec F S98x98 .f32 := Host.absf main_arg21
  let main_cst_36 : FVec F S_ .f32 := constant S_ .f32 0x7F800000#32
  let main_v95 : FVec F S98x98 .f32 := broadcastInDim S98x98 ![] bcast_S_S98x98 main_cst_36
  let main_v96 : IVec S98x98 1 := cmpf .olt main_v94 main_v95
  let main_c_37 : IVec S_ 1 := constantI S_ 1 1#1
  let main_v97 : IVec S_ 1 := (fun x v => Host.reduce IntOp.andi x v reducesTo_S98x98_S_d0_1 h_S_) main_v96 main_c_37
  let main_v98 : IVec S_ 1 := andi main_v93 main_v97
  let main_v99 : FVec F S98 .f32 := Host.absf main_arg22
  let main_cst_38 : FVec F S_ .f32 := constant S_ .f32 0x7F800000#32
  let main_v100 : FVec F S98 .f32 := broadcastInDim S98 ![] bcast_S_S98 main_cst_38
  let main_v101 : IVec S98 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S98 .f32) (main_arg17 : FVec F S98x98 .f32) (main_arg18 : FVec F S98 .f32) (main_arg19 : FVec F S98x98 .f32) (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) (main_v63 : IVec S_ 1) (main_v67 : IVec S_ 1) : IVec S_ 1 :=
  let main_v68 : IVec S_ 1 := andi main_v63 main_v67
  let main_v69 : FVec F S98 .f32 := Host.absf main_arg16
  let main_cst_26 : FVec F S_ .f32 := constant S_ .f32 0x7F800000#32
  let main_v70 : FVec F S98 .f32 := broadcastInDim S98 ![] bcast_S_S98 main_cst_26
  let main_v71 : IVec S98 1 := cmpf .olt main_v69 main_v70
  let main_c_27 : IVec S_ 1 := constantI S_ 1 1#1
  let main_v72 : IVec S_ 1 := (fun x v => Host.reduce IntOp.andi x v reducesTo_S98_S_d0 h_S_) main_v71 main_c_27
  let main_v73 : IVec S_ 1 := andi main_v68 main_v72
  let main_v74 : FVec F S98x98 .f32 := Host.absf main_arg17
  let main_cst_28 : FVec F S_ .f32 := constant S_ .f32 0x7F800000#32
  let main_v75 : FVec F S98x98 .f32 := broadcastInDim S98x98 ![] bcast_S_S98x98 main_cst_28
  let main_v76 : IVec S98x98 1 := cmpf .olt main_v74 main_v75
  let main_c_29 : IVec S_ 1 := constantI S_ 1 1#1
  let main_v77 : IVec S_ 1 := (fun x v => Host.reduce IntOp.andi x v reducesTo_S98x98_S_d0_1 h_S_) main_v76 main_c_29
  let main_v78 : IVec S_ 1 := andi main_v73 main_v77
  let main_v79 : FVec F S98 .f32 := Host.absf main_arg18
  let main_cst_30 : FVec F S_ .f32 := constant S_ .f32 0x7F800000#32
  let main_v80 : FVec F S98 .f32 := broadcastInDim S98 ![] bcast_S_S98 main_cst_30
  let main_v81 : IVec S98 1 := cmpf .olt main_v79 main_v80
  let main_c_31 : IVec S_ 1 := constantI S_ 1 1#1
  let main_v82 : IVec S_ 1 := (fun x v => Host.reduce IntOp.andi x v reducesTo_S98_S_d0 h_S_) main_v81 main_c_31
  let main_v83 : IVec S_ 1 := andi main_v78 main_v82
  let main_v84 : FVec F S98x98 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S98x98 .f32) (main_arg14 : FVec F S98 .f32) (main_arg15 : FVec F S98x98 .f32) (main_arg16 : FVec F S98 .f32) (main_arg17 : FVec F S98x98 .f32) (main_arg18 : FVec F S98 .f32) (main_arg19 : FVec F S98x98 .f32) (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) (main_v48 : IVec S_ 1) (main_v49 : FVec F S98 .f32) (main_v50 : FVec F S98 .f32) : IVec S_ 1 :=
  let main_v51 : IVec S98 1 := cmpf .olt main_v49 main_v50
  let main_c_19 : IVec S_ 1 := constantI S_ 1 1#1
  let main_v52 : IVec S_ 1 := (fun x v => Host.reduce IntOp.andi x v reducesTo_S98_S_d0 h_S_) main_v51 main_c_19
  let main_v53 : IVec S_ 1 := andi main_v48 main_v52
  let main_v54 : FVec F S98x98 .f32 := Host.absf main_arg13
  let main_cst_20 : FVec F S_ .f32 := constant S_ .f32 0x7F800000#32
  let main_v55 : FVec F S98x98 .f32 := broadcastInDim S98x98 ![] bcast_S_S98x98 main_cst_20
  let main_v56 : IVec S98x98 1 := cmpf .olt main_v54 main_v55
  let main_c_21 : IVec S_ 1 := constantI S_ 1 1#1
  let main_v57 : IVec S_ 1 := (fun x v => Host.reduce IntOp.andi x v reducesTo_S98x98_S_d0_1 h_S_) main_v56 main_c_21
  let main_v58 : IVec S_ 1 := andi main_v53 main_v57
  let main_v59 : FVec F S98 .f32 := Host.absf main_arg14
  let main_cst_22 : FVec F S_ .f32 := constant S_ .f32 0x7F800000#32
  let main_v60 : FVec F S98 .f32 := broadcastInDim S98 ![] bcast_S_S98 main_cst_22
  let main_v61 : IVec S98 1 := cmpf .olt main_v59 main_v60
  let main_c_23 : IVec S_ 1 := constantI S_ 1 1#1
  let main_v62 : IVec S_ 1 := (fun x v => Host.reduce IntOp.andi x v reducesTo_S98_S_d0 h_S_) main_v61 main_c_23
  let main_v63 : IVec S_ 1 := andi main_v58 main_v62
  let main_v64 : FVec F S98x98 .f32 := Host.absf main_arg15
  let main_cst_24 : FVec F S_ .f32 := constant S_ .f32 0x7F800000#32
  let main_v65 : FVec F S98x98 .f32 := broadcastInDim S98x98 ![] bcast_S_S98x98 main_cst_24
  let main_v66 : IVec S98x98 1 := cmpf .olt main_v64 main_v65
  let main_c_25 : IVec S_ 1 := constantI S_ 1 1#1
  let main_v67 : IVec S_ 1 := (fun x v => Host.reduce IntOp.andi x v reducesTo_S98x98_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S98x98 .f32) (main_arg10 : FVec F S98 .f32) (main_arg11 : FVec F S98x98 .f32) (main_arg12 : FVec F S98 .f32) (main_arg13 : FVec F S98x98 .f32) (main_arg14 : FVec F S98 .f32) (main_arg15 : FVec F S98x98 .f32) (main_arg16 : FVec F S98 .f32) (main_arg17 : FVec F S98x98 .f32) (main_arg18 : FVec F S98 .f32) (main_arg19 : FVec F S98x98 .f32) (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) (main_v33 : IVec S_ 1) : IVec S_ 1 :=
  let main_v34 : FVec F S98x98 .f32 := Host.absf main_arg9
  let main_cst_12 : FVec F S_ .f32 := constant S_ .f32 0x7F800000#32
  let main_v35 : FVec F S98x98 .f32 := broadcastInDim S98x98 ![] bcast_S_S98x98 main_cst_12
  let main_v36 : IVec S98x98 1 := cmpf .olt main_v34 main_v35
  let main_c_13 : IVec S_ 1 := constantI S_ 1 1#1
  let main_v37 : IVec S_ 1 := (fun x v => Host.reduce IntOp.andi x v reducesTo_S98x98_S_d0_1 h_S_) main_v36 main_c_13
  let main_v38 : IVec S_ 1 := andi main_v33 main_v37
  let main_v39 : FVec F S98 .f32 := Host.absf main_arg10
  let main_cst_14 : FVec F S_ .f32 := constant S_ .f32 0x7F800000#32
  let main_v40 : FVec F S98 .f32 := broadcastInDim S98 ![] bcast_S_S98 main_cst_14
  let main_v41 : IVec S98 1 := cmpf .olt main_v39 main_v40
  let main_c_15 : IVec S_ 1 := constantI S_ 1 1#1
  let main_v42 : IVec S_ 1 := (fun x v => Host.reduce IntOp.andi x v reducesTo_S98_S_d0 h_S_) main_v41 main_c_15
  let main_v43 : IVec S_ 1 := andi main_v38 main_v42
  let main_v44 : FVec F S98x98 .f32 := Host.absf main_arg11
  let main_cst_16 : FVec F S_ .f32 := constant S_ .f32 0x7F800000#32
  let main_v45 : FVec F S98x98 .f32 := broadcastInDim S98x98 ![] bcast_S_S98x98 main_cst_16
  let main_v46 : IVec S98x98 1 := cmpf .olt main_v44 main_v45
  let main_c_17 : IVec S_ 1 := constantI S_ 1 1#1
  let main_v47 : IVec S_ 1 := (fun x v => Host.reduce IntOp.andi x v reducesTo_S98x98_S_d0_1 h_S_) main_v46 main_c_17
  let main_v48 : IVec S_ 1 := andi main_v43 main_v47
  let main_v49 : FVec F S98 .f32 := Host.absf main_arg12
  let main_cst_18 : FVec F S_ .f32 := constant S_ .f32 0x7F800000#32
  let main_v50 : FVec F S98 .f32 := broadcastInDim S98 ![] bcast_S_S98 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S98 .f32) (main_arg7 : FVec F S98x98 .f32) (main_arg8 : FVec F S98 .f32) (main_arg9 : FVec F S98x98 .f32) (main_arg10 : FVec F S98 .f32) (main_arg11 : FVec F S98x98 .f32) (main_arg12 : FVec F S98 .f32) (main_arg13 : FVec F S98x98 .f32) (main_arg14 : FVec F S98 .f32) (main_arg15 : FVec F S98x98 .f32) (main_arg16 : FVec F S98 .f32) (main_arg17 : FVec F S98x98 .f32) (main_arg18 : FVec F S98 .f32) (main_arg19 : FVec F S98x98 .f32) (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) (main_v13 : IVec S_ 1) (main_v16 : IVec S98x98 1) : IVec S_ 1 :=
  let main_c_5 : IVec S_ 1 := constantI S_ 1 1#1
  let main_v17 : IVec S_ 1 := (fun x v => Host.reduce IntOp.andi x v reducesTo_S98x98_S_d0_1 h_S_) main_v16 main_c_5
  let main_v18 : IVec S_ 1 := andi main_v13 main_v17
  let main_v19 : FVec F S98 .f32 := Host.absf main_arg6
  let main_cst_6 : FVec F S_ .f32 := constant S_ .f32 0x7F800000#32
  let main_v20 : FVec F S98 .f32 := broadcastInDim S98 ![] bcast_S_S98 main_cst_6
  let main_v21 : IVec S98 1 := cmpf .olt main_v19 main_v20
  let main_c_7 : IVec S_ 1 := constantI S_ 1 1#1
  let main_v22 : IVec S_ 1 := (fun x v => Host.reduce IntOp.andi x v reducesTo_S98_S_d0 h_S_) main_v21 main_c_7
  let main_v23 : IVec S_ 1 := andi main_v18 main_v22
  let main_v24 : FVec F S98x98 .f32 := Host.absf main_arg7
  let main_cst_8 : FVec F S_ .f32 := constant S_ .f32 0x7F800000#32
  let main_v25 : FVec F S98x98 .f32 := broadcastInDim S98x98 ![] bcast_S_S98x98 main_cst_8
  let main_v26 : IVec S98x98 1 := cmpf .olt main_v24 main_v25
  let main_c_9 : IVec S_ 1 := constantI S_ 1 1#1
  let main_v27 : IVec S_ 1 := (fun x v => Host.reduce IntOp.andi x v reducesTo_S98x98_S_d0_1 h_S_) main_v26 main_c_9
  let main_v28 : IVec S_ 1 := andi main_v23 main_v27
  let main_v29 : FVec F S98 .f32 := Host.absf main_arg8
  let main_cst_10 : FVec F S_ .f32 := constant S_ .f32 0x7F800000#32
  let main_v30 : FVec F S98 .f32 := broadcastInDim S98 ![] bcast_S_S98 main_cst_10
  let main_v31 : IVec S98 1 := cmpf .olt main_v29 main_v30
  let main_c_11 : IVec S_ 1 := constantI S_ 1 1#1
  let main_v32 : IVec S_ 1 := (fun x v => Host.reduce IntOp.andi x v reducesTo_S98_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x108 .f32) (main_arg1 : IVec S2x1600000 32) (main_arg2 : IVec S100000 32) (main_arg3 : FVec F S108x98 .f32) (main_arg4 : FVec F S98 .f32) (main_arg5 : FVec F S98x98 .f32) (main_arg6 : FVec F S98 .f32) (main_arg7 : FVec F S98x98 .f32) (main_arg8 : FVec F S98 .f32) (main_arg9 : FVec F S98x98 .f32) (main_arg10 : FVec F S98 .f32) (main_arg11 : FVec F S98x98 .f32) (main_arg12 : FVec F S98 .f32) (main_arg13 : FVec F S98x98 .f32) (main_arg14 : FVec F S98 .f32) (main_arg15 : FVec F S98x98 .f32) (main_arg16 : FVec F S98 .f32) (main_arg17 : FVec F S98x98 .f32) (main_arg18 : FVec F S98 .f32) (main_arg19 : FVec F S98x98 .f32) (main_arg20 : FVec F S98 .f32) (main_arg21 : FVec F S98x98 .f32) (main_arg22 : FVec F S98 .f32) (main_arg23 : FVec F S98x120 .f32) (main_arg24 : FVec F S120 .f32) (main_arg25 : FVec F S120 .f32) (main_arg26 : FVec F S120 .f32) : IVec S_ 1 :=
  let main_v0 : FVec F S100000x108 .f32 := Host.absf main_arg0
  let main_cst : FVec F S_ .f32 := constant S_ .f32 0x7F800000#32
  let main_v1 : FVec F S100000x108 .f32 := broadcastInDim S100000x108 ![] bcast_S_S100000x108 main_cst
  let main_v2 : IVec S100000x108 1 := cmpf .olt main_v0 main_v1
  let main_c : IVec S_ 1 := constantI S_ 1 1#1
  let main_v3 : IVec S_ 1 := (fun x v => Host.reduce IntOp.andi x v reducesTo_S100000x108_S_d0_1 h_S_) main_v2 main_c
  let main_v4 : FVec F S108x98 .f32 := Host.absf main_arg3
  let main_cst_0 : FVec F S_ .f32 := constant S_ .f32 0x7F800000#32
  let main_v5 : FVec F S108x98 .f32 := broadcastInDim S108x98 ![] bcast_S_S108x98 main_cst_0
  let main_v6 : IVec S108x98 1 := cmpf .olt main_v4 main_v5
  let main_c_1 : IVec S_ 1 := constantI S_ 1 1#1
  let main_v7 : IVec S_ 1 := (fun x v => Host.reduce IntOp.andi x v reducesTo_S108x98_S_d0_1 h_S_) main_v6 main_c_1
  let main_v8 : IVec S_ 1 := andi main_v3 main_v7
  let main_v9 : FVec F S98 .f32 := Host.absf main_arg4
  let main_cst_2 : FVec F S_ .f32 := constant S_ .f32 0x7F800000#32
  let main_v10 : FVec F S98 .f32 := broadcastInDim S98 ![] bcast_S_S98 main_cst_2
  let main_v11 : IVec S98 1 := cmpf .olt main_v9 main_v10
  let main_c_3 : IVec S_ 1 := constantI S_ 1 1#1
  let main_v12 : IVec S_ 1 := (fun x v => Host.reduce IntOp.andi x v reducesTo_S98_S_d0 h_S_) main_v11 main_c_3
  let main_v13 : IVec S_ 1 := andi main_v8 main_v12
  let main_v14 : FVec F S98x98 .f32 := Host.absf main_arg5
  let main_cst_4 : FVec F S_ .f32 := constant S_ .f32 0x7F800000#32
  let main_v15 : FVec F S98x98 .f32 := broadcastInDim S98x98 ![] bcast_S_S98x98 main_cst_4
  let main_v16 : IVec S98x98 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x108 : Shape := ⟨2, ![100000, 108]⟩
abbrev S2x1600000 : Shape := ⟨2, ![2, 1600000]⟩
abbrev S100000 : Shape := ⟨1, ![100000]⟩
abbrev S108x98 : Shape := ⟨2, ![108, 98]⟩
abbrev S98 : Shape := ⟨1, ![98]⟩
abbrev S98x98 : Shape := ⟨2, ![98, 98]⟩
abbrev S98x120 : Shape := ⟨2, ![98, 120]⟩
abbrev S120 : Shape := ⟨1, ![120]⟩
abbrev S1x1600000 : Shape := ⟨2, ![1, 1600000]⟩
abbrev S1600000 : Shape := ⟨1, ![1600000]⟩
abbrev S_ : Shape := ⟨0, ![]⟩
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S1600000x128 : Shape := ⟨2, ![1600000, 128]⟩
abbrev S5000x128 : Shape := ⟨2, ![5000, 128]⟩
abbrev S1x120 : Shape := ⟨2, ![1, 120]⟩
abbrev S100000x1 : Shape := ⟨2, ![100000, 1]⟩
abbrev S512x120 : Shape := ⟨2, ![512, 120]⟩
abbrev S1000x128 : Shape := ⟨2, ![1000, 128]⟩
abbrev S1000x1 : Shape := ⟨2, ![1000, 1]⟩
abbrev S512x128 : Shape := ⟨2, ![512, 128]⟩
abbrev S1x512 : Shape := ⟨2, ![1, 512]⟩
abbrev S1000x512 : Shape := ⟨2, ![1000, 512]⟩
abbrev S512 : Shape := ⟨1, ![512]⟩
abbrev S512x1 : Shape := ⟨2, ![512, 1]⟩

abbrev nBuf : Space → Nat
  | .hbm => 185
  | .vmem => 60
  | .smem => 0
  | _ => 0

abbrev hbmTy0_0 (i : Nat) : BufTy := match i % 128 with
  | 0 => ⟨S100000x108, .f32⟩
  | 1 => ⟨S2x1600000, .i32⟩
  | 2 => ⟨S100000, .i32⟩
  | 3 => ⟨S108x98, .f32⟩
  | 4 => ⟨S98, .f32⟩
  | 5 => ⟨S98x98, .f32⟩
  | 6 => ⟨S98, .f32⟩
  | 7 => ⟨S98x98, .f32⟩
  | 8 => ⟨S98, .f32⟩
  | 9 => ⟨S98x98, .f32⟩
  | 10 => ⟨S98, .f32⟩
  | 11 => ⟨S98x98, .f32⟩
  | 12 => ⟨S98, .f32⟩
  | 13 => ⟨S98x98, .f32⟩
  | 14 => ⟨S98, .f32⟩
  | 15 => ⟨S98x98, .f32⟩
  | 16 => ⟨S98, .f32⟩
  | 17 => ⟨S98x98, .f32⟩
  | 18 => ⟨S98, .f32⟩
  | 19 => ⟨S98x98, .f32⟩
  | 20 => ⟨S98, .f32⟩
  | 21 => ⟨S98x98, .f32⟩
  | 22 => ⟨S98, .f32⟩
  | 23 => ⟨S98x120, .f32⟩
  | 24 => ⟨S120, .f32⟩
  | 25 => ⟨S120, .f32⟩
  | 26 => ⟨S120, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S_, .f32⟩
  | 33 => ⟨S100000x128, .f32⟩
  | 34 => ⟨S_, .i32⟩
  | 35 => ⟨S_, .f32⟩
  | 36 => ⟨S128x128, .f32⟩
  | 37 => ⟨S_, .i32⟩
  | 38 => ⟨S_, .f32⟩
  | 39 => ⟨S128, .f32⟩
  | 40 => ⟨S1x128, .f32⟩
  | 41 => ⟨S_, .i32⟩
  | 42 => ⟨S_, .f32⟩
  | 43 => ⟨S128x128, .f32⟩
  | 44 => ⟨S_, .i32⟩
  | 45 => ⟨S_, .f32⟩
  | 46 => ⟨S128, .f32⟩
  | 47 => ⟨S1x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S_, .i32⟩
  | 63 => ⟨S_, .f32⟩
  | 64 => ⟨S128x128, .f32⟩
  | 65 => ⟨S_, .i32⟩
  | 66 => ⟨S_, .f32⟩
  | 67 => ⟨S128, .f32⟩
  | 68 => ⟨S1x128, .f32⟩
  | 69 => ⟨S_, .i32⟩
  | 70 => ⟨S_, .f32⟩
  | 71 => ⟨S128x128, .f32⟩
  | 72 => ⟨S_, .i32⟩
  | 73 => ⟨S_, .f32⟩
  | 74 => ⟨S128, .f32⟩
  | 75 => ⟨S1x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S_, .i32⟩
  | 91 => ⟨S_, .f32⟩
  | 92 => ⟨S128x128, .f32⟩
  | 93 => ⟨S_, .i32⟩
  | 94 => ⟨S_, .f32⟩
  | 95 => ⟨S128, .f32⟩
  | 96 => ⟨S1x128, .f32⟩
  | 97 => ⟨S_, .i32⟩
  | 98 => ⟨S_, .f32⟩
  | 99 => ⟨S128x128, .f32⟩
  | 100 => ⟨S_, .i32⟩
  | 101 => ⟨S_, .f32⟩
  | 102 => ⟨S128, .f32⟩
  | 103 => ⟨S1x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x128, .f32⟩
  | 118 => ⟨S_, .i32⟩
  | 119 => ⟨S_, .f32⟩
  | 120 => ⟨S128x128, .f32⟩
  | 121 => ⟨S_, .i32⟩
  | 122 => ⟨S_, .f32⟩
  | 123 => ⟨S128, .f32⟩
  | 124 => ⟨S1x128, .f32⟩
  | 125 => ⟨S_, .i32⟩
  | 126 => ⟨S_, .f32⟩
  | 127 => ⟨S128x128, .f32⟩
  | _ => ⟨S100000x108, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S_, .i32⟩
  | 19 => ⟨S_, .f32⟩
  | 20 => ⟨S128x128, .f32⟩
  | 21 => ⟨S_, .i32⟩
  | 22 => ⟨S_, .f32⟩
  | 23 => ⟨S128, .f32⟩
  | 24 => ⟨S1x128, .f32⟩
  | 25 => ⟨S_, .i32⟩
  | 26 => ⟨S_, .f32⟩
  | 27 => ⟨S128x128, .f32⟩
  | 28 => ⟨S_, .i32⟩
  | 29 => ⟨S_, .f32⟩
  | 30 => ⟨S128, .f32⟩
  | 31 => ⟨S1x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000x128, .f32⟩
  | 46 => ⟨S_, .i32⟩
  | 47 => ⟨S_, .f32⟩
  | 48 => ⟨S128x128, .f32⟩
  | 49 => ⟨S_, .i32⟩
  | 50 => ⟨S_, .f32⟩
  | 51 => ⟨S128, .f32⟩
  | 52 => ⟨S1x128, .f32⟩
  | 53 => ⟨S1x120, .f32⟩
  | 54 => ⟨S1x120, .f32⟩
  | 55 => ⟨S100000x1, .i32⟩
  | 56 => ⟨S512x120, .f32⟩
  | _ => ⟨S100000x108, .f32⟩

abbrev hbmTy (i : Nat) : BufTy := match i / 128 with
  | 0 => hbmTy0_0 i
  | 1 => hbmTy0_1 i
  | _ => ⟨S100000x108, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1000x128, .f32⟩
  | .local _ .vmem, ⟨51, _⟩ => ⟨S1000x128, .f32⟩
  | .local _ .vmem, ⟨52, _⟩ => ⟨S1000x1, .i32⟩
  | .local _ .vmem, ⟨53, _⟩ => ⟨S1000x1, .i32⟩
  | .local _ .vmem, ⟨54, _⟩ => ⟨S128x128, .f32⟩
  | .local _ .vmem, ⟨55, _⟩ => ⟨S1x128, .f32⟩
  | .local _ .vmem, ⟨56, _⟩ => ⟨S1x120, .f32⟩
  | .local _ .vmem, ⟨57, _⟩ => ⟨S1x120, .f32⟩
  | .local _ .vmem, ⟨58, _⟩ => ⟨S512x120, .f32⟩
  | .local _ .vmem, ⟨59, _⟩ => ⟨S512x128, .f32⟩
  | _, _ => ⟨S100000x108, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_call0_v0 : Ref sig .tc := ⟨.hbm, 32, rfl⟩
abbrev main_v4 : Ref sig .tc := ⟨.hbm, 33, rfl⟩
abbrev main_c_0 : Ref sig .tc := ⟨.hbm, 34, rfl⟩
abbrev main_call1_v0 : Ref sig .tc := ⟨.hbm, 35, rfl⟩
abbrev main_v5 : Ref sig .tc := ⟨.hbm, 36, rfl⟩
abbrev main_c_1 : Ref sig .tc := ⟨.hbm, 37, rfl⟩
abbrev main_call2_v0 : Ref sig .tc := ⟨.hbm, 38, rfl⟩
abbrev main_v6 : Ref sig .tc := ⟨.hbm, 39, rfl⟩
abbrev main_v7 : Ref sig .tc := ⟨.hbm, 40, rfl⟩
abbrev main_c_2 : Ref sig .tc := ⟨.hbm, 41, rfl⟩
abbrev main_call3_v0 : Ref sig .tc := ⟨.hbm, 42, rfl⟩
abbrev main_v8 : Ref sig .tc := ⟨.hbm, 43, rfl⟩
abbrev main_c_3 : Ref sig .tc := ⟨.hbm, 44, rfl⟩
abbrev main_call4_v0 : Ref sig .tc := ⟨.hbm, 45, rfl⟩
abbrev main_v9 : Ref sig .tc := ⟨.hbm, 46, rfl⟩
abbrev main_v10 : Ref sig .tc := ⟨.hbm, 47, rfl⟩
abbrev main_c_4 : Ref sig .tc := ⟨.hbm, 48, rfl⟩
abbrev main_v11 : Ref sig .tc := ⟨.hbm, 49, rfl⟩
abbrev main_v12 : Ref sig .tc := ⟨.hbm, 50, rfl⟩
abbrev main_c_5 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_6 : Ref sig .tc := ⟨.hbm, 62, rfl⟩
abbrev main_call5_v0 : Ref sig .tc := ⟨.hbm, 63, rfl⟩
abbrev main_v22 : Ref sig .tc := ⟨.hbm, 64, rfl⟩
abbrev main_c_7 : Ref sig .tc := ⟨.hbm, 65, rfl⟩
abbrev main_call6_v0 : Ref sig .tc := ⟨.hbm, 66, rfl⟩
abbrev main_v23 : Ref sig .tc := ⟨.hbm, 67, rfl⟩
abbrev main_v24 : Ref sig .tc := ⟨.hbm, 68, rfl⟩
abbrev main_c_8 : Ref sig .tc := ⟨.hbm, 69, rfl⟩
abbrev main_call7_v0 : Ref sig .tc := ⟨.hbm, 70, rfl⟩
abbrev main_v25 : Ref sig .tc := ⟨.hbm, 71, rfl⟩
abbrev main_c_9 : Ref sig .tc := ⟨.hbm, 72, rfl⟩
abbrev main_call8_v0 : Ref sig .tc := ⟨.hbm, 73, rfl⟩
abbrev main_v26 : Ref sig .tc := ⟨.hbm, 74, rfl⟩
abbrev main_v27 : Ref sig .tc := ⟨.hbm, 75, rfl⟩
abbrev main_c_10 : Ref sig .tc := ⟨.hbm, 76, rfl⟩
abbrev main_v28 : Ref sig .tc := ⟨.hbm, 77, rfl⟩
abbrev main_v29 : Ref sig .tc := ⟨.hbm, 78, rfl⟩
abbrev main_c_11 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_12 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_c_13 : Ref sig .tc := ⟨.hbm, 90, rfl⟩
abbrev main_call9_v0 : Ref sig .tc := ⟨.hbm, 91, rfl⟩
abbrev main_v39 : Ref sig .tc := ⟨.hbm, 92, rfl⟩
abbrev main_c_14 : Ref sig .tc := ⟨.hbm, 93, rfl⟩
abbrev main_call10_v0 : Ref sig .tc := ⟨.hbm, 94, rfl⟩
abbrev main_v40 : Ref sig .tc := ⟨.hbm, 95, rfl⟩
abbrev main_v41 : Ref sig .tc := ⟨.hbm, 96, rfl⟩
abbrev main_c_15 : Ref sig .tc := ⟨.hbm, 97, rfl⟩
abbrev main_call11_v0 : Ref sig .tc := ⟨.hbm, 98, rfl⟩
abbrev main_v42 : Ref sig .tc := ⟨.hbm, 99, rfl⟩
abbrev main_c_16 : Ref sig .tc := ⟨.hbm, 100, rfl⟩
abbrev main_call12_v0 : Ref sig .tc := ⟨.hbm, 101, rfl⟩
abbrev main_v43 : Ref sig .tc := ⟨.hbm, 102, rfl⟩
abbrev main_v44 : Ref sig .tc := ⟨.hbm, 103, rfl⟩
abbrev main_c_17 : Ref sig .tc := ⟨.hbm, 104, rfl⟩
abbrev main_v45 : Ref sig .tc := ⟨.hbm, 105, rfl⟩
abbrev main_v46 : Ref sig .tc := ⟨.hbm, 106, rfl⟩
abbrev main_c_18 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_19 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_c_20 : Ref sig .tc := ⟨.hbm, 118, rfl⟩
abbrev main_call13_v0 : Ref sig .tc := ⟨.hbm, 119, rfl⟩
abbrev main_v56 : Ref sig .tc := ⟨.hbm, 120, rfl⟩
abbrev main_c_21 : Ref sig .tc := ⟨.hbm, 121, rfl⟩
abbrev main_call14_v0 : Ref sig .tc := ⟨.hbm, 122, rfl⟩
abbrev main_v57 : Ref sig .tc := ⟨.hbm, 123, rfl⟩
abbrev main_v58 : Ref sig .tc := ⟨.hbm, 124, rfl⟩
abbrev main_c_22 : Ref sig .tc := ⟨.hbm, 125, rfl⟩
abbrev main_call15_v0 : Ref sig .tc := ⟨.hbm, 126, rfl⟩
abbrev main_v59 : Ref sig .tc := ⟨.hbm, 127, rfl⟩
abbrev main_c_23 : Ref sig .tc := ⟨.hbm, 128, rfl⟩
abbrev main_call16_v0 : Ref sig .tc := ⟨.hbm, 129, rfl⟩
abbrev main_v60 : Ref sig .tc := ⟨.hbm, 130, rfl⟩
abbrev main_v61 : Ref sig .tc := ⟨.hbm, 131, rfl⟩
abbrev main_c_24 : Ref sig .tc := ⟨.hbm, 132, rfl⟩
abbrev main_v62 : Ref sig .tc := ⟨.hbm, 133, rfl⟩
abbrev main_v63 : Ref sig .tc := ⟨.hbm, 134, rfl⟩
abbrev main_c_25 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_cst_26 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_c_27 : Ref sig .tc := ⟨.hbm, 146, rfl⟩
abbrev main_call17_v0 : Ref sig .tc := ⟨.hbm, 147, rfl⟩
abbrev main_v73 : Ref sig .tc := ⟨.hbm, 148, rfl⟩
abbrev main_c_28 : Ref sig .tc := ⟨.hbm, 149, rfl⟩
abbrev main_call18_v0 : Ref sig .tc := ⟨.hbm, 150, rfl⟩
abbrev main_v74 : Ref sig .tc := ⟨.hbm, 151, rfl⟩
abbrev main_v75 : Ref sig .tc := ⟨.hbm, 152, rfl⟩
abbrev main_c_29 : Ref sig .tc := ⟨.hbm, 153, rfl⟩
abbrev main_call19_v0 : Ref sig .tc := ⟨.hbm, 154, rfl⟩
abbrev main_v76 : Ref sig .tc := ⟨.hbm, 155, rfl⟩
abbrev main_c_30 : Ref sig .tc := ⟨.hbm, 156, rfl⟩
abbrev main_call20_v0 : Ref sig .tc := ⟨.hbm, 157, rfl⟩
abbrev main_v77 : Ref sig .tc := ⟨.hbm, 158, rfl⟩
abbrev main_v78 : Ref sig .tc := ⟨.hbm, 159, rfl⟩
abbrev main_c_31 : Ref sig .tc := ⟨.hbm, 160, rfl⟩
abbrev main_v79 : Ref sig .tc := ⟨.hbm, 161, rfl⟩
abbrev main_v80 : Ref sig .tc := ⟨.hbm, 162, rfl⟩
abbrev main_c_32 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_33 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_c_34 : Ref sig .tc := ⟨.hbm, 174, rfl⟩
abbrev main_call21_v0 : Ref sig .tc := ⟨.hbm, 175, rfl⟩
abbrev main_v90 : Ref sig .tc := ⟨.hbm, 176, rfl⟩
abbrev main_c_35 : Ref sig .tc := ⟨.hbm, 177, rfl⟩
abbrev main_call22_v0 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def k5_cond2 (i : grid5.Coords) : BitVec 1 :=
  let arg0 : BitVec 32 := BitVec.ofNat 32 (i 0).val
  let c99_i32 : BitVec 32 := 99#32
  let v28 : BitVec 1 := Scalar.cmpi .eq arg0 c99_i32
  let v29 : BitVec 32 := Scalar.extui v28
  let c0_i32_13 : BitVec 32 := 0#32
  let v30 : BitVec 1 := Scalar.cmpi .ne v29 c0_i32_13
  v30

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x120 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x120 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x120 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S100000x108_S100000x128_000_0200 : S100000x108.Pads (![0, 0] : Fin 2 → Nat) ![0, 20] ![0, 0] S100000x128
  h_S_ : 0 < S_.numel
  pads_S108x98_S128x128_0200_0300 : S108x98.Pads (![0, 0] : Fin 2 → Nat) ![20, 30] ![0, 0] S128x128
  pads_S98_S128_0300 : S98.Pads (![0] : Fin 1 → Nat) ![30] ![0] S128
  shapeCasts_S128_S1x128 : S128.ShapeCasts S1x128
  pads_S98x98_S128x128_0300_0300 : S98x98.Pads (![0, 0] : Fin 2 → Nat) ![30, 30] ![0, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S98x120_S128x128_0300_080 : S98x120.Pads (![0, 0] : Fin 2 → Nat) ![30, 8] ![0, 0] S128x128
  pads_S120_S128_080 : S120.Pads (![0] : Fin 1 → Nat) ![8] ![0] S128
  shapeCasts_S120_S1x120 : S120.ShapeCasts S1x120
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1x512_d1_w32 : S1x512.Iotas .tc 32 [1]
  broadcasts_S1000x1_S1000x512 : S1000x1.Broadcasts S1000x512
  broadcasts_S1x512_S1000x512 : S1x512.Broadcasts S1000x512
  natLt_1_32 : 1 < 32
  slices_S512x128_o0_0_S512x120 : S512x128.Slices ![0, 0] S512x120
  reduces_S512x120_S512 : S512x120.Reduces [1] S512
  shapeCasts_S512_S512x1 : S512.ShapeCasts S512x1
  broadcasts_S512x1_S512x120 : S512x1.Broadcasts S512x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S512x120 : S1x120.Broadcasts S512x120
  inb_S512x120_S512x120_0_0 : ∀ a, (![0, 0] : Fin 2 → Nat) a + S512x120.size a ≤ S512x120.size a
  h_S512x120 : 0 < S512x120.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1000x128_S128x128_S1000x128_1_0_0_1_n_n_wf : DotDims.WF S1000x128 S128x128 S1000x128 [1] [0] [0] [1] [] []
  dot_S1000x512_S1000x128_S512x128_0_0_1_1_n_n_wf : DotDims.WF S1000x512 S1000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S100000x1.size a
  hwx5_1 : ∀ i : grid5.Coords, EltTy.bits .i32 = 32 ∨ (Rect.block (s := S100000x1) S1000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x120.size a ≤ S1x120.size a
  hwx5_4 : ∀ i : grid5.Coords, EltTy.bits .f32 = 32 ∨ (Rect.block (s := S1x120) S1x120.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x120.size a ≤ S1x120.size a
  hwx5_5 : ∀ i : grid5.Coords, EltTy.bits .f32 = 32 ∨ (Rect.block (s := S1x120) S1x120.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x120.size a ≤ S512x120.size a
  hwx5_6 : ∀ i : grid5.Coords, EltTy.bits .f32 = 32 ∨ (Rect.block (s := S512x120) S512x120.size (cc5_transform_6 i) (hinb5_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v90) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x120.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v94) S1x120.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v96) S512x120.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

class Facts : Prop extends Facts₀ where

variable [Facts]
-- ==== ReferenceIdeal.lean ====
abbrev S100000x108 : Shape := ⟨2, ![100000, 108]⟩
abbrev S2x1600000 : Shape := ⟨2, ![2, 1600000]⟩
abbrev S100000 : Shape := ⟨1, ![100000]⟩
abbrev S108x98 : Shape := ⟨2, ![108, 98]⟩
abbrev S98 : Shape := ⟨1, ![98]⟩
abbrev S98x98 : Shape := ⟨2, ![98, 98]⟩
abbrev S98x120 : Shape := ⟨2, ![98, 120]⟩
abbrev S120 : Shape := ⟨1, ![120]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x108 : Shape := ⟨2, ![1600000, 108]⟩
abbrev S100000x98 : Shape := ⟨2, ![100000, 98]⟩
abbrev S1x98 : Shape := ⟨2, ![1, 98]⟩
abbrev S1600000x98 : Shape := ⟨2, ![1600000, 98]⟩
abbrev S100000x120 : Shape := ⟨2, ![100000, 120]⟩
abbrev S1x120 : Shape := ⟨2, ![1, 120]⟩
abbrev S512x120 : Shape := ⟨2, ![512, 120]⟩
abbrev S100000x1 : Shape := ⟨2, ![100000, 1]⟩
abbrev S512 : Shape := ⟨1, ![512]⟩
abbrev S512x1 : Shape := ⟨2, ![512, 1]⟩

abbrev nBuf : Space → Nat
  | .hbm => 228
  | .vmem => 0
  | .smem => 0
  | _ => 0

abbrev hbmTy0_0 (i : Nat) : BufTy := match i % 128 with
  | 0 => ⟨S100000x108, .f32⟩
  | 1 => ⟨S2x1600000, .i32⟩
  | 2 => ⟨S100000, .i32⟩
  | 3 => ⟨S108x98, .f32⟩
  | 4 => ⟨S98, .f32⟩
  | 5 => ⟨S98x98, .f32⟩
  | 6 => ⟨S98, .f32⟩
  | 7 => ⟨S98x98, .f32⟩
  | 8 => ⟨S98, .f32⟩
  | 9 => ⟨S98x98, .f32⟩
  | 10 => ⟨S98, .f32⟩
  | 11 => ⟨S98x98, .f32⟩
  | 12 => ⟨S98, .f32⟩
  | 13 => ⟨S98x98, .f32⟩
  | 14 => ⟨S98, .f32⟩
  | 15 => ⟨S98x98, .f32⟩
  | 16 => ⟨S98, .f32⟩
  | 17 => ⟨S98x98, .f32⟩
  | 18 => ⟨S98, .f32⟩
  | 19 => ⟨S98x98, .f32⟩
  | 20 => ⟨S98, .f32⟩
  | 21 => ⟨S98x98, .f32⟩
  | 22 => ⟨S98, .f32⟩
  | 23 => ⟨S98x120, .f32⟩
  | 24 => ⟨S120, .f32⟩
  | 25 => ⟨S120, .f32⟩
  | 26 => ⟨S120, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x108, .f32⟩
  | 40 => ⟨S_, .f32⟩
  | 41 => ⟨S100000x108, .f32⟩
  | 42 => ⟨S1600000x1, .i32⟩
  | 43 => ⟨S100000x108, .f32⟩
  | 44 => ⟨S100000x108, .f32⟩
  | 45 => ⟨S100000x98, .f32⟩
  | 46 => ⟨S1x98, .f32⟩
  | 47 => ⟨S100000x98, .f32⟩
  | 48 => ⟨S100000x98, .f32⟩
  | 49 => ⟨S_, .f32⟩
  | 50 => ⟨S100000x98, .f32⟩
  | 51 => ⟨S100000x98, .f32⟩
  | 52 => ⟨S100000x98, .f32⟩
  | 53 => ⟨S1x98, .f32⟩
  | 54 => ⟨S100000x98, .f32⟩
  | 55 => ⟨S100000x98, .f32⟩
  | 56 => ⟨S_, .f32⟩
  | 57 => ⟨S100000x98, .f32⟩
  | 58 => ⟨S100000x98, .i1⟩
  | 59 => ⟨S_, .f32⟩
  | 60 => ⟨S100000x98, .f32⟩
  | 61 => ⟨S100000x98, .f32⟩
  | 62 => ⟨S100000x98, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x98, .f32⟩
  | 72 => ⟨S_, .f32⟩
  | 73 => ⟨S100000x98, .f32⟩
  | 74 => ⟨S1600000x1, .i32⟩
  | 75 => ⟨S100000x98, .f32⟩
  | 76 => ⟨S100000x98, .f32⟩
  | 77 => ⟨S100000x98, .f32⟩
  | 78 => ⟨S1x98, .f32⟩
  | 79 => ⟨S100000x98, .f32⟩
  | 80 => ⟨S100000x98, .f32⟩
  | 81 => ⟨S_, .f32⟩
  | 82 => ⟨S100000x98, .f32⟩
  | 83 => ⟨S100000x98, .f32⟩
  | 84 => ⟨S100000x98, .f32⟩
  | 85 => ⟨S1x98, .f32⟩
  | 86 => ⟨S100000x98, .f32⟩
  | 87 => ⟨S100000x98, .f32⟩
  | 88 => ⟨S_, .f32⟩
  | 89 => ⟨S100000x98, .f32⟩
  | 90 => ⟨S100000x98, .i1⟩
  | 91 => ⟨S_, .f32⟩
  | 92 => ⟨S100000x98, .f32⟩
  | 93 => ⟨S100000x98, .f32⟩
  | 94 => ⟨S100000x98, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x98, .f32⟩
  | 104 => ⟨S_, .f32⟩
  | 105 => ⟨S100000x98, .f32⟩
  | 106 => ⟨S1600000x1, .i32⟩
  | 107 => ⟨S100000x98, .f32⟩
  | 108 => ⟨S100000x98, .f32⟩
  | 109 => ⟨S100000x98, .f32⟩
  | 110 => ⟨S1x98, .f32⟩
  | 111 => ⟨S100000x98, .f32⟩
  | 112 => ⟨S100000x98, .f32⟩
  | 113 => ⟨S_, .f32⟩
  | 114 => ⟨S100000x98, .f32⟩
  | 115 => ⟨S100000x98, .f32⟩
  | 116 => ⟨S100000x98, .f32⟩
  | 117 => ⟨S1x98, .f32⟩
  | 118 => ⟨S100000x98, .f32⟩
  | 119 => ⟨S100000x98, .f32⟩
  | 120 => ⟨S_, .f32⟩
  | 121 => ⟨S100000x98, .f32⟩
  | 122 => ⟨S100000x98, .i1⟩
  | 123 => ⟨S_, .f32⟩
  | 124 => ⟨S100000x98, .f32⟩
  | 125 => ⟨S100000x98, .f32⟩
  | 126 => ⟨S100000x98, .f32⟩
  | 127 => ⟨S_, .i32⟩
  | _ => ⟨S100000x108, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x98, .f32⟩
  | 8 => ⟨S_, .f32⟩
  | 9 => ⟨S100000x98, .f32⟩
  | 10 => ⟨S1600000x1, .i32⟩
  | 11 => ⟨S100000x98, .f32⟩
  | 12 => ⟨S100000x98, .f32⟩
  | 13 => ⟨S100000x98, .f32⟩
  | 14 => ⟨S1x98, .f32⟩
  | 15 => ⟨S100000x98, .f32⟩
  | 16 => ⟨S100000x98, .f32⟩
  | 17 => ⟨S_, .f32⟩
  | 18 => ⟨S100000x98, .f32⟩
  | 19 => ⟨S100000x98, .f32⟩
  | 20 => ⟨S100000x98, .f32⟩
  | 21 => ⟨S1x98, .f32⟩
  | 22 => ⟨S100000x98, .f32⟩
  | 23 => ⟨S100000x98, .f32⟩
  | 24 => ⟨S_, .f32⟩
  | 25 => ⟨S100000x98, .f32⟩
  | 26 => ⟨S100000x98, .i1⟩
  | 27 => ⟨S_, .f32⟩
  | 28 => ⟨S100000x98, .f32⟩
  | 29 => ⟨S100000x98, .f32⟩
  | 30 => ⟨S100000x98, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x98, .f32⟩
  | 40 => ⟨S_, .f32⟩
  | 41 => ⟨S100000x98, .f32⟩
  | 42 => ⟨S1600000x1, .i32⟩
  | 43 => ⟨S100000x98, .f32⟩
  | 44 => ⟨S100000x98, .f32⟩
  | 45 => ⟨S100000x98, .f32⟩
  | 46 => ⟨S1x98, .f32⟩
  | 47 => ⟨S100000x98, .f32⟩
  | 48 => ⟨S100000x98, .f32⟩
  | 49 => ⟨S_, .f32⟩
  | 50 => ⟨S100000x98, .f32⟩
  | 51 => ⟨S100000x98, .f32⟩
  | 52 => ⟨S100000x98, .f32⟩
  | 53 => ⟨S1x98, .f32⟩
  | 54 => ⟨S100000x98, .f32⟩
  | 55 => ⟨S100000x98, .f32⟩
  | 56 => ⟨S_, .f32⟩
  | 57 => ⟨S100000x98, .f32⟩
  | 58 => ⟨S100000x98, .i1⟩
  | 59 => ⟨S_, .f32⟩
  | 60 => ⟨S100000x98, .f32⟩
  | 61 => ⟨S100000x98, .f32⟩
  | 62 => ⟨S100000x98, .f32⟩
  | 63 => ⟨S100000x120, .f32⟩
  | 64 => ⟨S1x120, .f32⟩
  | 65 => ⟨S100000x120, .f32⟩
  | 66 => ⟨S100000x120, .f32⟩
  | 67 => ⟨S_, .f32⟩
  | 68 => ⟨S512x120, .f32⟩
  | 69 => ⟨S100000x1, .i32⟩
  | 70 => ⟨S512x120, .f32⟩
  | 71 => ⟨S_, .f32⟩
  | 72 => ⟨S512, .f32⟩
  | 73 => ⟨S512x1, .f32⟩
  | 74 => ⟨S_, .f32⟩
  | 75 => ⟨S512x1, .f32⟩
  | 76 => ⟨S512x1, .f32⟩
  | 77 => ⟨S512x120, .f32⟩
  | 78 => ⟨S512x120, .f32⟩
  | 79 => ⟨S512x120, .f32⟩
  | 80 => ⟨S_, .f32⟩
  | 81 => ⟨S512, .f32⟩
  | 82 => ⟨S512x1, .f32⟩
  | 83 => ⟨S_, .f32⟩
  | 84 => ⟨S512x1, .f32⟩
  | 85 => ⟨S512x1, .f32⟩
  | 86 => ⟨S512x120, .f32⟩
  | 87 => ⟨S512x120, .f32⟩
  | 88 => ⟨S_, .f32⟩
  | 89 => ⟨S512x1, .f32⟩
  | 90 => ⟨S512x1, .f32⟩
  | 91 => ⟨S512x1, .f32⟩
  | 92 => ⟨S512x120, .f32⟩
  | 93 => ⟨S512x120, .f32⟩
  | 94 => ⟨S1x120, .f32⟩
  | 95 => ⟨S512x120, .f32⟩
  | 96 => ⟨S512x120, .f32⟩
  | 97 => ⟨S1x120, .f32⟩
  | 98 => ⟨S512x120, .f32⟩
  | 99 => ⟨S512x120, .f32⟩
  | _ => ⟨S100000x108, .f32⟩

abbrev hbmTy (i : Nat) : BufTy := match i / 128 with
  | 0 => hbmTy0_0 i
  | 1 => hbmTy0_1 i
  | _ => ⟨S100000x108, .f32⟩

abbrev bufTy : (tb : Table) → Fin (tcTables nBuf tb) → BufTy
  | .hbm, ⟨i, _⟩ => hbmTy i
  | _, _ => ⟨S100000x108, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_cst : Ref sig .tc := ⟨.hbm, 49, rfl⟩
abbrev main_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_cst : Ref sig .tc := ⟨.hbm, 81, rfl⟩
abbrev main_call2_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_6 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_8 : Ref sig .tc := ⟨.hbm, 95, rfl⟩
abbrev main_v54 : Ref sig .tc := ⟨.hbm, 96, rfl⟩
abbrev main_v55 : Ref sig .tc := ⟨.hbm, 97, rfl⟩
abbrev main_c_9 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_10 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call4_cst : Ref sig .tc := ⟨.hbm, 113, rfl⟩
abbrev main_call4_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_11 : Ref sig .tc := ⟨.hbm, 120, rfl⟩
abbrev main_v74 : Ref sig .tc := ⟨.hbm, 121, rfl⟩
abbrev main_v75 : Ref sig .tc := ⟨.hbm, 122, rfl⟩
abbrev main_cst_12 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_13 : Ref sig .tc := ⟨.hbm, 127, rfl⟩
abbrev main_v79 : Ref sig .tc := ⟨.hbm, 128, rfl⟩
abbrev main_v80 : Ref sig .tc := ⟨.hbm, 129, rfl⟩
abbrev main_c_14 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_15 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call6_cst : Ref sig .tc := ⟨.hbm, 145, rfl⟩
abbrev main_call6_v0 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_16 : Ref sig .tc := ⟨.hbm, 152, rfl⟩
abbrev main_v99 : Ref sig .tc := ⟨.hbm, 153, rfl⟩
abbrev main_v100 : Ref sig .tc := ⟨.hbm, 154, rfl⟩
abbrev main_cst_17 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c_18 : Ref sig .tc := ⟨.hbm, 159, rfl⟩
abbrev main_v104 : Ref sig .tc := ⟨.hbm, 160, rfl⟩
abbrev main_v105 : Ref sig .tc := ⟨.hbm, 161, rfl⟩
abbrev main_c_19 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_20 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_call8_cst : Ref sig .tc := ⟨.hbm, 177, rfl⟩
abbrev main_call8_v0 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_21 : Ref sig .tc := ⟨.hbm, 184, rfl⟩
abbrev main_v124 : Ref sig .tc := ⟨.hbm, 185, rfl⟩
abbrev main_v125 : Ref sig .tc := ⟨.hbm, 186, rfl⟩
abbrev main_cst_22 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_23 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_24 : Ref sig .tc := ⟨.hbm, 199, rfl⟩
abbrev main_v136 : Ref sig .tc := ⟨.hbm, 200, rfl⟩
abbrev main_v137 : Ref sig .tc := ⟨.hbm, 201, rfl⟩
abbrev main_cst_25 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_26 : Ref sig .tc := ⟨.hbm, 208, rfl⟩
abbrev main_v143 : Ref sig .tc := ⟨.hbm, 209, rfl⟩
abbrev main_v144 : Ref sig .tc := ⟨.hbm, 210, rfl⟩
abbrev main_cst_27 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_28 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x108 : S_.BroadcastsInDim S100000x108 (![] : Fin 0 → Fin S100000x108.rank)
  bcast_S98_S1x98_1 : S98.BroadcastsInDim S1x98 (![1] : Fin 1 → Fin S1x98.rank)
  bcast_S1x98_S100000x98_0_1 : S1x98.BroadcastsInDim S100000x98 (![0, 1] : Fin 2 → Fin S100000x98.rank)
  bcast_S_S100000x98 : S_.BroadcastsInDim S100000x98 (![] : Fin 0 → Fin S100000x98.rank)
  bcast_S120_S1x120_1 : S120.BroadcastsInDim S1x120 (![1] : Fin 1 → Fin S1x120.rank)
  bcast_S1x120_S100000x120_0_1 : S1x120.BroadcastsInDim S100000x120 (![0, 1] : Fin 2 → Fin S100000x120.rank)
  bcast_S_S512x120 : S_.BroadcastsInDim S512x120 (![] : Fin 0 → Fin S512x120.rank)
  bcast_S100000_S100000x1_0 : S100000.BroadcastsInDim S100000x1 (![0] : Fin 1 → Fin S100000x1.rank)
  reducesTo_S512x120_S512_d1 : S512x120.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x120_0_1 : S512x1.BroadcastsInDim S512x120 (![0, 1] : Fin 2 → Fin S512x120.rank)
  bcast_S1x120_S512x120_0_1 : S1x120.BroadcastsInDim S512x120 (![0, 1] : Fin 2 → Fin S512x120.rank)
  gather_S100000x108_S1600000x1_S1600000x108_1_0_n_n_0_1_1108_wf : GatherDims.WF S100000x108 S1600000x1 S1600000x108 [1] [0] [] [0] [] 1 ![1, 108]
  scatter_S100000x108_S1600000x1_S1600000x108_1_0_0_1_wf : ScatterDims.WF S100000x108 S1600000x1 S1600000x108 [1] [0] [0] 1
  dot_S100000x108_S108x98_S100000x98_1_0_0_1_n_n_wf : DotDims.WF S100000x108 S108x98 S100000x98 [1] [0] [0] [1] [] []
  dot_S100000x98_S98x98_S100000x98_1_0_0_1_n_n_wf : DotDims.WF S100000x98 S98x98 S100000x98 [1] [0] [0] [1] [] []
  gather_S100000x98_S1600000x1_S1600000x98_1_0_n_n_0_1_198_wf : GatherDims.WF S100000x98 S1600000x1 S1600000x98 [1] [0] [] [0] [] 1 ![1, 98]
  scatter_S100000x98_S1600000x1_S1600000x98_1_0_0_1_wf : ScatterDims.WF S100000x98 S1600000x1 S1600000x98 [1] [0] [0] 1
  dot_S100000x98_S98x120_S100000x120_1_0_0_1_n_n_wf : DotDims.WF S100000x98 S98x120 S100000x120 [1] [0] [0] [1] [] []
  scatter_S512x120_S100000x1_S100000x120_1_0_0_1_wf : ScatterDims.WF S512x120 S100000x1 S100000x120 [1] [0] [0] 1

variable [Facts₀]

def gather_S100000x108_S1600000x1_S1600000x108_1_0_n_n_0_1_1108 : GatherDims S100000x108 S1600000x1 S1600000x108 where
  offsetDims := [1]
  collapsedSliceDims := [0]
  operandBatchingDims := []
  startIndicesBatchingDims := []
  startIndexMap := [0]
  indexVectorDim := 1
  sliceSizes := ![1, 108]
  wf := gather_S100000x108_S1600000x1_S1600000x108_1_0_n_n_0_1_1108_wf
def scatter_S100000x108_S1600000x1_S1600000x108_1_0_0_1 : ScatterDims S100000x108 S1600000x1 S1600000x108 where
  updateWindowDims := [1]
  insertedWindowDims := [0]
  scatterDimsToOperandDims := [0]
  indexVectorDim := 1
  wf := scatter_S100000x108_S1600000x1_S1600000x108_1_0_0_1_wf
def dot_S100000x108_S108x98_S100000x98_1_0_0_1_n_n : DotDims S100000x108 S108x98 S100000x98 where
  lhsContracting := [1]
  rhsContracting := [0]
  lhsNonContracting := [0]
  rhsNonContracting := [1]
  lhsBatch := []
  rhsBatch := []
  wf := dot_S100000x108_S108x98_S100000x98_1_0_0_1_n_n_wf
def dot_S100000x98_S98x98_S100000x98_1_0_0_1_n_n : DotDims S100000x98 S98x98 S100000x98 where
  lhsContracting := [1]
  rhsContracting := [0]
  lhsNonContracting := [0]
  rhsNonContracting := [1]
  lhsBatch := []
  rhsBatch := []
  wf := dot_S100000x98_S98x98_S100000x98_1_0_0_1_n_n_wf
def gather_S100000x98_S1600000x1_S1600000x98_1_0_n_n_0_1_198 : GatherDims S100000x98 S1600000x1 S1600000x98 where
  offsetDims := [1]
  collapsedSliceDims := [0]
  operandBatchingDims := []
  startIndicesBatchingDims := []
  startIndexMap := [0]
  indexVectorDim := 1
  sliceSizes := ![1, 98]
  wf := gather_S100000x98_S1600000x1_S1600000x98_1_0_n_n_0_1_198_wf
def scatter_S100000x98_S1600000x1_S1600000x98_1_0_0_1 : ScatterDims S100000x98 S1600000x1 S1600000x98 where
  updateWindowDims := [1]
  insertedWindowDims := [0]
  scatterDimsToOperandDims := [0]
  indexVectorDim := 1
  wf := scatter_S100000x98_S1600000x1_S1600000x98_1_0_0_1_wf
def dot_S100000x98_S98x120_S100000x120_1_0_0_1_n_n : DotDims S100000x98 S98x120 S100000x120 where
  lhsContracting := [1]
  rhsContracting := [0]
  lhsNonContracting := [0]
  rhsNonContracting := [1]
  lhsBatch := []
  rhsBatch := []
  wf := dot_S100000x98_S98x120_S100000x120_1_0_0_1_n_n_wf
def scatter_S512x120_S100000x1_S100000x120_1_0_0_1 : ScatterDims S512x120 S100000x1 S100000x120 where
  updateWindowDims := [1]
  insertedWindowDims := [0]
  scatterDimsToOperandDims := [0]
  indexVectorDim := 1
  wf := scatter_S512x120_S100000x1_S100000x120_1_0_0_1_wf

class Facts : Prop extends Facts₀ where

variable [Facts]
-- ==== Proof.KernelRegions.lean ====
/- The host stretches and kernel regions of @main as segments: the contents each item is entered with, what each stretch writes, and that an argument array is written by none. -/
import proofs.«420535_j82145544503553_2_alg».proof.Proof.Gen.Kernel.Launch
import Idealize.ShloMosaic.Lib.Pipeline.Frame
import Idealize.ShloMosaic.Lib.Pipeline.Regions

set_option maxRecDepth 1492

noncomputable section

namespace Cert.Kernel.GenP

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := StableHlo.after hostOps0_7 (V7 m c)

abbrev V9 (c : Dev nD) : Valuation τ sig (Elt F) := StableHlo.after hostOps0_8 (V8 m c)

abbrev V10 (c : Dev nD) : Valuation τ sig (Elt F) := StableHlo.after hostOps0_9 (V9 m c)

abbrev V11 (c : Dev nD) : Valuation τ sig (Elt F) := StableHlo.after hostOps0_10 (V10 m c)

abbrev V12 (c : Dev nD) : Valuation τ sig (Elt F) := Function.update (V11 m c) main_v21 (outs 12 main_v21 c)

abbrev V13 (c : Dev nD) : Valuation τ sig (Elt F) := StableHlo.after hostOps1 (V12 m outs c)

abbrev V14 (c : Dev nD) : Valuation τ sig (Elt F) := StableHlo.after hostOps1_1 (V13 m outs c)

abbrev V15 (c : Dev nD) : Valuation τ sig (Elt F) := StableHlo.after hostOps1_2 (V14 m outs c)

abbrev V16 (c : Dev nD) : Valuation τ sig (Elt F) := StableHlo.after hostOps1_3 (V15 m outs c)

abbrev V17 (c : Dev nD) : Valuation τ sig (Elt F) := StableHlo.after hostOps1_4 (V16 m outs c)

abbrev V18 (c : Dev nD) : Valuation τ sig (Elt F) := StableHlo.after hostOps1_5 (V17 m outs c)

abbrev V19 (c : Dev nD) : Valuation τ sig (Elt F) := StableHlo.after hostOps1_6 (V18 m outs c)

abbrev V20 (c : Dev nD) : Valuation τ sig (Elt F) := StableHlo.after hostOps1_7 (V19 m outs c)

abbrev V21 (c : Dev nD) : Valuation τ sig (Elt F) := StableHlo.after hostOps1_8 (V20 m outs c)

abbrev V22 (c : Dev nD) : Valuation τ sig (Elt F) := Function.update (V21 m outs c) main_v38 (outs 22 main_v38 c)

abbrev V23 (c : Dev nD) : Valuation τ sig (Elt F) := StableHlo.after hostOps2 (V22 m outs c)

abbrev V24 (c : Dev nD) : Valuation τ sig (Elt F) := StableHlo.after hostOps2_1 (V23 m outs c)

abbrev V25 (c : Dev nD) : Valuation τ sig (Elt F) := StableHlo.after hostOps2_2 (V24 m outs c)

abbrev V26 (c : Dev nD) : Valuation τ sig (Elt F) := StableHlo.after hostOps2_3 (V25 m outs c)

abbrev V27 (c : Dev nD) : Valuation τ sig (Elt F) := StableHlo.after hostOps2_4 (V26 m outs c)

abbrev V28 (c : Dev nD) : Valuation τ sig (Elt F) := StableHlo.after hostOps2_5 (V27 m outs c)

abbrev V29 (c : Dev nD) : Valuation τ sig (Elt F) := StableHlo.after hostOps2_6 (V28 m outs c)

abbrev V30 (c : Dev nD) : Valuation τ sig (Elt F) := StableHlo.after hostOps2_7 (V29 m outs c)

abbrev V31 (c : Dev nD) : Valuation τ sig (Elt F) := StableHlo.after hostOps2_8 (V30 m outs c)

abbrev V32 (c : Dev nD) : Valuation τ sig (Elt F) := Function.update (V31 m outs c) main_v55 (outs 32 main_v55 c)

abbrev V33 (c : Dev nD) : Valuation τ sig (Elt F) := StableHlo.after hostOps3 (V32 m outs c)

abbrev V34 (c : Dev nD) : Valuation τ sig (Elt F) := StableHlo.after hostOps3_1 (V33 m outs c)

abbrev V35 (c : Dev nD) : Valuation τ sig (Elt F) := StableHlo.after hostOps3_2 (V34 m outs c)

abbrev V36 (c : Dev nD) : Valuation τ sig (Elt F) := StableHlo.after hostOps3_3 (V35 m outs c)

abbrev V37 (c : Dev nD) : Valuation τ sig (Elt F) := StableHlo.after hostOps3_4 (V36 m outs c)

abbrev V38 (c : Dev nD) : Valuation τ sig (Elt F) := StableHlo.after hostOps3_5 (V37 m outs c)

abbrev V39 (c : Dev nD) : Valuation τ sig (Elt F) := StableHlo.after hostOps3_6 (V38 m outs c)

abbrev V40 (c : Dev nD) : Valuation τ sig (Elt F) := StableHlo.after hostOps3_7 (V39 m outs c)

abbrev V41 (c : Dev nD) : Valuation τ sig (Elt F) := StableHlo.after hostOps3_8 (V40 m outs c)

abbrev V42 (c : Dev nD) : Valuation τ sig (Elt F) := Function.update (V41 m outs c) main_v72 (outs 42 main_v72 c)

abbrev V43 (c : Dev nD) : Valuation τ sig (Elt F) := StableHlo.after hostOps4 (V42 m outs c)

abbrev V44 (c : Dev nD) : Valuation τ sig (Elt F) := StableHlo.after hostOps4_1 (V43 m outs c)

abbrev V45 (c : Dev nD) : Valuation τ sig (Elt F) := StableHlo.after hostOps4_2 (V44 m outs c)

abbrev V46 (c : Dev nD) : Valuation τ sig (Elt F) := StableHlo.after hostOps4_3 (V45 m outs c)

abbrev V47 (c : Dev nD) : Valuation τ sig (Elt F) := StableHlo.after hostOps4_4 (V46 m outs c)

abbrev V48 (c : Dev nD) : Valuation τ sig (Elt F) := StableHlo.after hostOps4_5 (V47 m outs c)

abbrev V49 (c : Dev nD) : Valuation τ sig (Elt F) := StableHlo.after hostOps4_6 (V48 m outs c)

abbrev V50 (c : Dev nD) : Valuation τ sig (Elt F) := StableHlo.after hostOps4_7 (V49 m outs c)

abbrev V51 (c : Dev nD) : Valuation τ sig (Elt F) := StableHlo.after hostOps4_8 (V50 m outs c)

abbrev V52 (c : Dev nD) : Valuation τ sig (Elt F) := Function.update (V51 m outs c) main_v89 (outs 52 main_v89 c)

abbrev V53 (c : Dev nD) : Valuation τ sig (Elt F) := StableHlo.after hostOps5 (V52 m outs c)

abbrev V54 (c : Dev nD) : Valuation τ sig (Elt F) := StableHlo.after hostOps5_1 (V53 m outs c)

abbrev V55 (c : Dev nD) : Valuation τ sig (Elt F) := StableHlo.after hostOps5_2 (V54 m outs c)

abbrev V56 (c : Dev nD) : Valuation τ sig (Elt F) := StableHlo.after hostOps5_3 (V55 m outs c)

abbrev V57 (c : Dev nD) : Valuation τ sig (Elt F) := StableHlo.after hostOps5_4 (V56 m outs c)

abbrev V58 (c : Dev nD) : Valuation τ sig (Elt F) := Function.update (V57 m outs c) main_v96 (outs 58 main_v96 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_c]
theorem hostOps0_writes : (hostOps0 : List (HloOp τ sig (Elt F))).Forall fun op => op.writes ⊆ (hostOps0_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor

abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor

abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_3_fresh : (hostOps0_3 : List (HloOp τ sig (Elt F))).Forall fun op => op.fresh = ∅ := by
  simp only [List.Forall]; repeat' constructor

abbrev hostOps0_3_W : List (Ref sig .tc) := [main_call1_v0, main_v5]
theorem hostOps0_3_writes : (hostOps0_3 : List (HloOp τ sig (Elt F))).Forall fun op => op.writes ⊆ (hostOps0_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_4_fresh : (hostOps0_4 : List (HloOp τ sig (Elt F))).Forall fun op => op.fresh = ∅ := by
  simp only [List.Forall]; repeat' constructor

abbrev hostOps0_4_W : List (Ref sig .tc) := [main_c_1]
theorem hostOps0_4_writes : (hostOps0_4 : List (HloOp τ sig (Elt F))).Forall fun op => op.writes ⊆ (hostOps0_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_5_fresh : (hostOps0_5 : List (HloOp τ sig (Elt F))).Forall fun op => op.fresh = ∅ := by
  simp only [List.Forall]; repeat' constructor

abbrev hostOps0_5_W : List (Ref sig .tc) := [main_call2_v0, main_v6]
theorem hostOps0_5_writes : (hostOps0_5 : List (HloOp τ sig (Elt F))).Forall fun op => op.writes ⊆ (hostOps0_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_6_fresh : (hostOps0_6 : List (HloOp τ sig (Elt F))).Forall fun op => op.fresh = ∅ := by
  simp only [List.Forall]; repeat' constructor

abbrev hostOps0_6_W : List (Ref sig .tc) := [main_v7, main_c_2]
theorem hostOps0_6_writes : (hostOps0_6 : List (HloOp τ sig (Elt F))).Forall fun op => op.writes ⊆ (hostOps0_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_7_fresh : (hostOps0_7 : List (HloOp τ sig (Elt F))).Forall fun op => op.fresh = ∅ := by
  simp only [List.Forall]; repeat' constructor

abbrev hostOps0_7_W : List (Ref sig .tc) := [main_call3_v0, main_v8]
theorem hostOps0_7_writes : (hostOps0_7 : List (HloOp τ sig (Elt F))).Forall fun op => op.writes ⊆ (hostOps0_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_8_fresh : (hostOps0_8 : List (HloOp τ sig (Elt F))).Forall fun op => op.fresh = ∅ := by
  simp only [List.Forall]; repeat' constructor

abbrev hostOps0_8_W : List (Ref sig .tc) := [main_c_3]
theorem hostOps0_8_writes : (hostOps0_8 : List (HloOp τ sig (Elt F))).Forall fun op => op.writes ⊆ (hostOps0_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_9_fresh : (hostOps0_9 : List (HloOp τ sig (Elt F))).Forall fun op => op.fresh = ∅ := by
  simp only [List.Forall]; repeat' constructor

abbrev hostOps0_9_W : List (Ref sig .tc) := [main_call4_v0, main_v9]
theorem hostOps0_9_writes : (hostOps0_9 : List (HloOp τ sig (Elt F))).Forall fun op => op.writes ⊆ (hostOps0_9_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_10_fresh : (hostOps0_10 : List (HloOp τ sig (Elt F))).Forall fun op => op.fresh = ∅ := by
  simp only [List.Forall]; repeat' constructor

abbrev hostOps0_10_W : List (Ref sig .tc) := [main_v10, main_c_4, main_v11, main_v12, main_c_5, main_v13, main_v14, main_v15, main_v16, main_v17, main_cst, main_v18, main_v19, main_v20]
theorem hostOps0_10_writes : (hostOps0_10 : List (HloOp τ sig (Elt F))).Forall fun op => op.writes ⊆ (hostOps0_10_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_c_6]
theorem hostOps1_writes : (hostOps1 : List (HloOp τ sig (Elt F))).Forall fun op => op.writes ⊆ (hostOps1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

abbrev hostOps1_1_W : List (Ref sig .tc) := [main_call5_v0, main_v22]
theorem hostOps1_1_writes : (hostOps1_1 : List (HloOp τ sig (Elt F))).Forall fun op => op.writes ⊆ (hostOps1_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor

abbrev hostOps1_2_W : List (Ref sig .tc) := [main_c_7]
theorem hostOps1_2_writes : (hostOps1_2 : List (HloOp τ sig (Elt F))).Forall fun op => op.writes ⊆ (hostOps1_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_3_fresh : (hostOps1_3 : List (HloOp τ sig (Elt F))).Forall fun op => op.fresh = ∅ := by
  simp only [List.Forall]; repeat' constructor

abbrev hostOps1_3_W : List (Ref sig .tc) := [main_call6_v0, main_v23]
theorem hostOps1_3_writes : (hostOps1_3 : List (HloOp τ sig (Elt F))).Forall fun op => op.writes ⊆ (hostOps1_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_4_fresh : (hostOps1_4 : List (HloOp τ sig (Elt F))).Forall fun op => op.fresh = ∅ := by
  simp only [List.Forall]; repeat' constructor

abbrev hostOps1_4_W : List (Ref sig .tc) := [main_v24, main_c_8]
theorem hostOps1_4_writes : (hostOps1_4 : List (HloOp τ sig (Elt F))).Forall fun op => op.writes ⊆ (hostOps1_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_5_fresh : (hostOps1_5 : List (HloOp τ sig (Elt F))).Forall fun op => op.fresh = ∅ := by
  simp only [List.Forall]; repeat' constructor

abbrev hostOps1_5_W : List (Ref sig .tc) := [main_call7_v0, main_v25]
theorem hostOps1_5_writes : (hostOps1_5 : List (HloOp τ sig (Elt F))).Forall fun op => op.writes ⊆ (hostOps1_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_6_fresh : (hostOps1_6 : List (HloOp τ sig (Elt F))).Forall fun op => op.fresh = ∅ := by
  simp only [List.Forall]; repeat' constructor

abbrev hostOps1_6_W : List (Ref sig .tc) := [main_c_9]
theorem hostOps1_6_writes : (hostOps1_6 : List (HloOp τ sig (Elt F))).Forall fun op => op.writes ⊆ (hostOps1_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_7_fresh : (hostOps1_7 : List (HloOp τ sig (Elt F))).Forall fun op => op.fresh = ∅ := by
  simp only [List.Forall]; repeat' constructor

abbrev hostOps1_7_W : List (Ref sig .tc) := [main_call8_v0, main_v26]
theorem hostOps1_7_writes : (hostOps1_7 : List (HloOp τ sig (Elt F))).Forall fun op => op.writes ⊆ (hostOps1_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_8_fresh : (hostOps1_8 : List (HloOp τ sig (Elt F))).Forall fun op => op.fresh = ∅ := by
  simp only [List.Forall]; repeat' constructor

abbrev hostOps1_8_W : List (Ref sig .tc) := [main_v27, main_c_10, main_v28, main_v29, main_c_11, main_v30, main_v31, main_v32, main_v33, main_v34, main_cst_12, main_v35, main_v36, main_v37]
theorem hostOps1_8_writes : (hostOps1_8 : List (HloOp τ sig (Elt F))).Forall fun op => op.writes ⊆ (hostOps1_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_c_13]
theorem hostOps2_writes : (hostOps2 : List (HloOp τ sig (Elt F))).Forall fun op => op.writes ⊆ (hostOps2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_1_fresh : (hostOps2_1 : List (HloOp τ sig (Elt F))).Forall fun op => op.fresh = ∅ := by
  simp only [List.Forall]; repeat' constructor

abbrev hostOps2_1_W : List (Ref sig .tc) := [main_call9_v0, main_v39]
theorem hostOps2_1_writes : (hostOps2_1 : List (HloOp τ sig (Elt F))).Forall fun op => op.writes ⊆ (hostOps2_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_2_fresh : (hostOps2_2 : List (HloOp τ sig (Elt F))).Forall fun op => op.fresh = ∅ := by
  simp only [List.Forall]; repeat' constructor

abbrev hostOps2_2_W : List (Ref sig .tc) := [main_c_14]
theorem hostOps2_2_writes : (hostOps2_2 : List (HloOp τ sig (Elt F))).Forall fun op => op.writes ⊆ (hostOps2_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_3_fresh : (hostOps2_3 : List (HloOp τ sig (Elt F))).Forall fun op => op.fresh = ∅ := by
  simp only [List.Forall]; repeat' constructor

abbrev hostOps2_3_W : List (Ref sig .tc) := [main_call10_v0, main_v40]
theorem hostOps2_3_writes : (hostOps2_3 : List (HloOp τ sig (Elt F))).Forall fun op => op.writes ⊆ (hostOps2_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_4_fresh : (hostOps2_4 : List (HloOp τ sig (Elt F))).Forall fun op => op.fresh = ∅ := by
  simp only [List.Forall]; repeat' constructor

abbrev hostOps2_4_W : List (Ref sig .tc) := [main_v41, main_c_15]
theorem hostOps2_4_writes : (hostOps2_4 : List (HloOp τ sig (Elt F))).Forall fun op => op.writes ⊆ (hostOps2_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_5_fresh : (hostOps2_5 : List (HloOp τ sig (Elt F))).Forall fun op => op.fresh = ∅ := by
  simp only [List.Forall]; repeat' constructor

abbrev hostOps2_5_W : List (Ref sig .tc) := [main_call11_v0, main_v42]
theorem hostOps2_5_writes : (hostOps2_5 : List (HloOp τ sig (Elt F))).Forall fun op => op.writes ⊆ (hostOps2_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_6_fresh : (hostOps2_6 : List (HloOp τ sig (Elt F))).Forall fun op => op.fresh = ∅ := by
  simp only [List.Forall]; repeat' constructor

abbrev hostOps2_6_W : List (Ref sig .tc) := [main_c_16]
theorem hostOps2_6_writes : (hostOps2_6 : List (HloOp τ sig (Elt F))).Forall fun op => op.writes ⊆ (hostOps2_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_7_fresh : (hostOps2_7 : List (HloOp τ sig (Elt F))).Forall fun op => op.fresh = ∅ := by
  simp only [List.Forall]; repeat' constructor

abbrev hostOps2_7_W : List (Ref sig .tc) := [main_call12_v0, main_v43]
theorem hostOps2_7_writes : (hostOps2_7 : List (HloOp τ sig (Elt F))).Forall fun op => op.writes ⊆ (hostOps2_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_8_fresh : (hostOps2_8 : List (HloOp τ sig (Elt F))).Forall fun op => op.fresh = ∅ := by
  simp only [List.Forall]; repeat' constructor

abbrev hostOps2_8_W : List (Ref sig .tc) := [main_v44, main_c_17, main_v45, main_v46, main_c_18, main_v47, main_v48, main_v49, main_v50, main_v51, main_cst_19, main_v52, main_v53, main_v54]
theorem hostOps2_8_writes : (hostOps2_8 : List (HloOp τ sig (Elt F))).Forall fun op => op.writes ⊆ (hostOps2_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_c_20]
theorem hostOps3_writes : (hostOps3 : List (HloOp τ sig (Elt F))).Forall fun op => op.writes ⊆ (hostOps3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

abbrev hostOps3_1_W : List (Ref sig .tc) := [main_call13_v0, main_v56]
theorem hostOps3_1_writes : (hostOps3_1 : List (HloOp τ sig (Elt F))).Forall fun op => op.writes ⊆ (hostOps3_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

abbrev hostOps3_2_W : List (Ref sig .tc) := [main_c_21]
theorem hostOps3_2_writes : (hostOps3_2 : List (HloOp τ sig (Elt F))).Forall fun op => op.writes ⊆ (hostOps3_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

abbrev hostOps3_3_W : List (Ref sig .tc) := [main_call14_v0, main_v57]
theorem hostOps3_3_writes : (hostOps3_3 : List (HloOp τ sig (Elt F))).Forall fun op => op.writes ⊆ (hostOps3_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

abbrev hostOps3_4_W : List (Ref sig .tc) := [main_v58, main_c_22]
theorem hostOps3_4_writes : (hostOps3_4 : List (HloOp τ sig (Elt F))).Forall fun op => op.writes ⊆ (hostOps3_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_5_fresh : (hostOps3_5 : List (HloOp τ sig (Elt F))).Forall fun op => op.fresh = ∅ := by
  simp only [List.Forall]; repeat' constructor

abbrev hostOps3_5_W : List (Ref sig .tc) := [main_call15_v0, main_v59]
theorem hostOps3_5_writes : (hostOps3_5 : List (HloOp τ sig (Elt F))).Forall fun op => op.writes ⊆ (hostOps3_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_6_fresh : (hostOps3_6 : List (HloOp τ sig (Elt F))).Forall fun op => op.fresh = ∅ := by
  simp only [List.Forall]; repeat' constructor

abbrev hostOps3_6_W : List (Ref sig .tc) := [main_c_23]
theorem hostOps3_6_writes : (hostOps3_6 : List (HloOp τ sig (Elt F))).Forall fun op => op.writes ⊆ (hostOps3_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_7_fresh : (hostOps3_7 : List (HloOp τ sig (Elt F))).Forall fun op => op.fresh = ∅ := by
  simp only [List.Forall]; repeat' constructor

abbrev hostOps3_7_W : List (Ref sig .tc) := [main_call16_v0, main_v60]
theorem hostOps3_7_writes : (hostOps3_7 : List (HloOp τ sig (Elt F))).Forall fun op => op.writes ⊆ (hostOps3_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_8_fresh : (hostOps3_8 : List (HloOp τ sig (Elt F))).Forall fun op => op.fresh = ∅ := by
  simp only [List.Forall]; repeat' constructor

abbrev hostOps3_8_W : List (Ref sig .tc) := [main_v61, main_c_24, main_v62, main_v63, main_c_25, main_v64, main_v65, main_v66, main_v67, main_v68, main_cst_26, main_v69, main_v70, main_v71]
theorem hostOps3_8_writes : (hostOps3_8 : List (HloOp τ sig (Elt F))).Forall fun op => op.writes ⊆ (hostOps3_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_c_27]
theorem hostOps4_writes : (hostOps4 : List (HloOp τ sig (Elt F))).Forall fun op => op.writes ⊆ (hostOps4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_1_fresh : (hostOps4_1 : List (HloOp τ sig (Elt F))).Forall fun op => op.fresh = ∅ := by
  simp only [List.Forall]; repeat' constructor

abbrev hostOps4_1_W : List (Ref sig .tc) := [main_call17_v0, main_v73]
theorem hostOps4_1_writes : (hostOps4_1 : List (HloOp τ sig (Elt F))).Forall fun op => op.writes ⊆ (hostOps4_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_2_fresh : (hostOps4_2 : List (HloOp τ sig (Elt F))).Forall fun op => op.fresh = ∅ := by
  simp only [List.Forall]; repeat' constructor

abbrev hostOps4_2_W : List (Ref sig .tc) := [main_c_28]
theorem hostOps4_2_writes : (hostOps4_2 : List (HloOp τ sig (Elt F))).Forall fun op => op.writes ⊆ (hostOps4_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_3_fresh : (hostOps4_3 : List (HloOp τ sig (Elt F))).Forall fun op => op.fresh = ∅ := by
  simp only [List.Forall]; repeat' constructor

abbrev hostOps4_3_W : List (Ref sig .tc) := [main_call18_v0, main_v74]
theorem hostOps4_3_writes : (hostOps4_3 : List (HloOp τ sig (Elt F))).Forall fun op => op.writes ⊆ (hostOps4_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_4_fresh : (hostOps4_4 : List (HloOp τ sig (Elt F))).Forall fun op => op.fresh = ∅ := by
  simp only [List.Forall]; repeat' constructor

abbrev hostOps4_4_W : List (Ref sig .tc) := [main_v75, main_c_29]
theorem hostOps4_4_writes : (hostOps4_4 : List (HloOp τ sig (Elt F))).Forall fun op => op.writes ⊆ (hostOps4_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_5_fresh : (hostOps4_5 : List (HloOp τ sig (Elt F))).Forall fun op => op.fresh = ∅ := by
  simp only [List.Forall]; repeat' constructor

abbrev hostOps4_5_W : List (Ref sig .tc) := [main_call19_v0, main_v76]
theorem hostOps4_5_writes : (hostOps4_5 : List (HloOp τ sig (Elt F))).Forall fun op => op.writes ⊆ (hostOps4_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_6_fresh : (hostOps4_6 : List (HloOp τ sig (Elt F))).Forall fun op => op.fresh = ∅ := by
  simp only [List.Forall]; repeat' constructor

abbrev hostOps4_6_W : List (Ref sig .tc) := [main_c_30]
theorem hostOps4_6_writes : (hostOps4_6 : List (HloOp τ sig (Elt F))).Forall fun op => op.writes ⊆ (hostOps4_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_7_fresh : (hostOps4_7 : List (HloOp τ sig (Elt F))).Forall fun op => op.fresh = ∅ := by
  simp only [List.Forall]; repeat' constructor

abbrev hostOps4_7_W : List (Ref sig .tc) := [main_call20_v0, main_v77]
theorem hostOps4_7_writes : (hostOps4_7 : List (HloOp τ sig (Elt F))).Forall fun op => op.writes ⊆ (hostOps4_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_8_fresh : (hostOps4_8 : List (HloOp τ sig (Elt F))).Forall fun op => op.fresh = ∅ := by
  simp only [List.Forall]; repeat' constructor

abbrev hostOps4_8_W : List (Ref sig .tc) := [main_v78, main_c_31, main_v79, main_v80, main_c_32, main_v81, main_v82, main_v83, main_v84, main_v85, main_cst_33, main_v86, main_v87, main_v88]
theorem hostOps4_8_writes : (hostOps4_8 : List (HloOp τ sig (Elt F))).Forall fun op => op.writes ⊆ (hostOps4_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_c_34]
theorem hostOps5_writes : (hostOps5 : List (HloOp τ sig (Elt F))).Forall fun op => op.writes ⊆ (hostOps5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_1_fresh : (hostOps5_1 : List (HloOp τ sig (Elt F))).Forall fun op => op.fresh = ∅ := by
  simp only [List.Forall]; repeat' constructor

abbrev hostOps5_1_W : List (Ref sig .tc) := [main_call21_v0, main_v90]
theorem hostOps5_1_writes : (hostOps5_1 : List (HloOp τ sig (Elt F))).Forall fun op => op.writes ⊆ (hostOps5_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_2_fresh : (hostOps5_2 : List (HloOp τ sig (Elt F))).Forall fun op => op.fresh = ∅ := by
  simp only [List.Forall]; repeat' constructor

abbrev hostOps5_2_W : List (Ref sig .tc) := [main_c_35]
theorem hostOps5_2_writes : (hostOps5_2 : List (HloOp τ sig (Elt F))).Forall fun op => op.writes ⊆ (hostOps5_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_3_fresh : (hostOps5_3 : List (HloOp τ sig (Elt F))).Forall fun op => op.fresh = ∅ := by
  simp only [List.Forall]; repeat' constructor

abbrev hostOps5_3_W : List (Ref sig .tc) := [main_call22_v0, main_v91]
theorem hostOps5_3_writes : (hostOps5_3 : List (HloOp τ sig (Elt F))).Forall fun op => op.writes ⊆ (hostOps5_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_4_fresh : (hostOps5_4 : List (HloOp τ sig (Elt F))).Forall fun op => op.fresh = ∅ := by
  simp only [List.Forall]; repeat' constructor

abbrev hostOps5_4_W : List (Ref sig .tc) := [main_v92, main_v93, main_v94, main_v95]
theorem hostOps5_4_writes : (hostOps5_4 : List (HloOp τ sig (Elt F))).Forall fun op => op.writes ⊆ (hostOps5_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ hostOps0_5_W) : V6 m c r = V5 m c r :=
  StableHlo.after_of_writes_sub hostOps0_5 _ hostOps0_5_writes h
theorem V7_of (c : Dev nD) (r : Ref sig .tc) (h : r ∉ hostOps0_6_W) : V7 m c r = V6 m c r :=
  StableHlo.after_of_writes_sub hostOps0_6 _ hostOps0_6_writes h
theorem V8_of (c : Dev nD) (r : Ref sig .tc) (h : r ∉ hostOps0_7_W) : V8 m c r = V7 m c r :=
  StableHlo.after_of_writes_sub hostOps0_7 _ hostOps0_7_writes h
theorem V9_of (c : Dev nD) (r : Ref sig .tc) (h : r ∉ hostOps0_8_W) : V9 m c r = V8 m c r :=
  StableHlo.after_of_writes_sub hostOps0_8 _ hostOps0_8_writes h
theorem V10_of (c : Dev nD) (r : Ref sig .tc) (h : r ∉ hostOps0_9_W) : V10 m c r = V9 m c r :=
  StableHlo.after_of_writes_sub hostOps0_9 _ hostOps0_9_writes h
theorem V11_of (c : Dev nD) (r : Ref sig .tc) (h : r ∉ hostOps0_10_W) : V11 m c r = V10 m c r :=
  StableHlo.after_of_writes_sub hostOps0_10 _ hostOps0_10_writes h
theorem V12_of (c : Dev nD) (r : Ref sig .tc) (h : r ∉ ([main_v21] : List (Ref sig .tc))) : V12 m outs c r = V11 m c r := by
  simp only [V12, Function.update_of_ne (StableHlo.devRef_ne_of_ne (List.ne_of_not_mem_cons h) : (Proc.devRef .tc r : DevRef τ sig) ≠ Proc.devRef .tc main_v21)]
theorem V13_of (c : Dev nD) (r : Ref sig .tc) (h : r ∉ hostOps1_W) : V13 m outs c r = V12 m outs c r :=
  StableHlo.after_of_writes_sub hostOps1 _ hostOps1_writes h
theorem V14_of (c : Dev nD) (r : Ref sig .tc) (h : r ∉ hostOps1_1_W) : V14 m outs c r = V13 m outs c r :=
  StableHlo.after_of_writes_sub hostOps1_1 _ hostOps1_1_writes h
theorem V15_of (c : Dev nD) (r : Ref sig .tc) (h : r ∉ hostOps1_2_W) : V15 m outs c r = V14 m outs c r :=
  StableHlo.after_of_writes_sub hostOps1_2 _ hostOps1_2_writes h
theorem V16_of (c : Dev nD) (r : Ref sig .tc) (h : r ∉ hostOps1_3_W) : V16 m outs c r = V15 m outs c r :=
  StableHlo.after_of_writes_sub hostOps1_3 _ hostOps1_3_writes h
theorem V17_of (c : Dev nD) (r : Ref sig .tc) (h : r ∉ hostOps1_4_W) : V17 m outs c r = V16 m outs c r :=
  StableHlo.after_of_writes_sub hostOps1_4 _ hostOps1_4_writes h
theorem V18_of (c : Dev nD) (r : Ref sig .tc) (h : r ∉ hostOps1_5_W) : V18 m outs c r = V17 m outs c r :=
  StableHlo.after_of_writes_sub hostOps1_5 _ hostOps1_5_writes h
theorem V19_of (c : Dev nD) (r : Ref sig .tc) (h : r ∉ hostOps1_6_W) : V19 m outs c r = V18 m outs c r :=
  StableHlo.after_of_writes_sub hostOps1_6 _ hostOps1_6_writes h
theorem V20_of (c : Dev nD) (r : Ref sig .tc) (h : r ∉ hostOps1_7_W) : V20 m outs c r = V19 m outs c r :=
  StableHlo.after_of_writes_sub hostOps1_7 _ hostOps1_7_writes h
theorem V21_of (c : Dev nD) (r : Ref sig .tc) (h : r ∉ hostOps1_8_W) : V21 m outs c r = V20 m outs c r :=
  StableHlo.after_of_writes_sub hostOps1_8 _ hostOps1_8_writes h
theorem V22_of (c : Dev nD) (r : Ref sig .tc) (h : r ∉ ([main_v38] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v38)]
theorem V23_of (c : Dev nD) (r : Ref sig .tc) (h : r ∉ hostOps2_W) : V23 m outs c r = V22 m outs c r :=
  StableHlo.after_of_writes_sub hostOps2 _ hostOps2_writes h
theorem V24_of (c : Dev nD) (r : Ref sig .tc) (h : r ∉ hostOps2_1_W) : V24 m outs c r = V23 m outs c r :=
  StableHlo.after_of_writes_sub hostOps2_1 _ hostOps2_1_writes h
theorem V25_of (c : Dev nD) (r : Ref sig .tc) (h : r ∉ hostOps2_2_W) : V25 m outs c r = V24 m outs c r :=
  StableHlo.after_of_writes_sub hostOps2_2 _ hostOps2_2_writes h
theorem V26_of (c : Dev nD) (r : Ref sig .tc) (h : r ∉ hostOps2_3_W) : V26 m outs c r = V25 m outs c r :=
  StableHlo.after_of_writes_sub hostOps2_3 _ hostOps2_3_writes h
theorem V27_of (c : Dev nD) (r : Ref sig .tc) (h : r ∉ hostOps2_4_W) : V27 m outs c r = V26 m outs c r :=
  StableHlo.after_of_writes_sub hostOps2_4 _ hostOps2_4_writes h
theorem V28_of (c : Dev nD) (r : Ref sig .tc) (h : r ∉ hostOps2_5_W) : V28 m outs c r = V27 m outs c r :=
  StableHlo.after_of_writes_sub hostOps2_5 _ hostOps2_5_writes h
theorem V29_of (c : Dev nD) (r : Ref sig .tc) (h : r ∉ hostOps2_6_W) : V29 m outs c r = V28 m outs c r :=
  StableHlo.after_of_writes_sub hostOps2_6 _ hostOps2_6_writes h
theorem V30_of (c : Dev nD) (r : Ref sig .tc) (h : r ∉ hostOps2_7_W) : V30 m outs c r = V29 m outs c r :=
  StableHlo.after_of_writes_sub hostOps2_7 _ hostOps2_7_writes h
theorem V31_of (c : Dev nD) (r : Ref sig .tc) (h : r ∉ hostOps2_8_W) : V31 m outs c r = V30 m outs c r :=
  StableHlo.after_of_writes_sub hostOps2_8 _ hostOps2_8_writes h
theorem V32_of (c : Dev nD) (r : Ref sig .tc) (h : r ∉ ([main_v55] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v55)]
theorem V33_of (c : Dev nD) (r : Ref sig .tc) (h : r ∉ hostOps3_W) : V33 m outs c r = V32 m outs c r :=
  StableHlo.after_of_writes_sub hostOps3 _ hostOps3_writes h
theorem V34_of (c : Dev nD) (r : Ref sig .tc) (h : r ∉ hostOps3_1_W) : V34 m outs c r = V33 m outs c r :=
  StableHlo.after_of_writes_sub hostOps3_1 _ hostOps3_1_writes h
theorem V35_of (c : Dev nD) (r : Ref sig .tc) (h : r ∉ hostOps3_2_W) : V35 m outs c r = V34 m outs c r :=
  StableHlo.after_of_writes_sub hostOps3_2 _ hostOps3_2_writes h
theorem V36_of (c : Dev nD) (r : Ref sig .tc) (h : r ∉ hostOps3_3_W) : V36 m outs c r = V35 m outs c r :=
  StableHlo.after_of_writes_sub hostOps3_3 _ hostOps3_3_writes h
theorem V37_of (c : Dev nD) (r : Ref sig .tc) (h : r ∉ hostOps3_4_W) : V37 m outs c r = V36 m outs c r :=
  StableHlo.after_of_writes_sub hostOps3_4 _ hostOps3_4_writes h
theorem V38_of (c : Dev nD) (r : Ref sig .tc) (h : r ∉ hostOps3_5_W) : V38 m outs c r = V37 m outs c r :=
  StableHlo.after_of_writes_sub hostOps3_5 _ hostOps3_5_writes h
theorem V39_of (c : Dev nD) (r : Ref sig .tc) (h : r ∉ hostOps3_6_W) : V39 m outs c r = V38 m outs c r :=
  StableHlo.after_of_writes_sub hostOps3_6 _ hostOps3_6_writes h
theorem V40_of (c : Dev nD) (r : Ref sig .tc) (h : r ∉ hostOps3_7_W) : V40 m outs c r = V39 m outs c r :=
  StableHlo.after_of_writes_sub hostOps3_7 _ hostOps3_7_writes h
theorem V41_of (c : Dev nD) (r : Ref sig .tc) (h : r ∉ hostOps3_8_W) : V41 m outs c r = V40 m outs c r :=
  StableHlo.after_of_writes_sub hostOps3_8 _ hostOps3_8_writes h
theorem V42_of (c : Dev nD) (r : Ref sig .tc) (h : r ∉ ([main_v72] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v72)]
theorem V43_of (c : Dev nD) (r : Ref sig .tc) (h : r ∉ hostOps4_W) : V43 m outs c r = V42 m outs c r :=
  StableHlo.after_of_writes_sub hostOps4 _ hostOps4_writes h
theorem V44_of (c : Dev nD) (r : Ref sig .tc) (h : r ∉ hostOps4_1_W) : V44 m outs c r = V43 m outs c r :=
  StableHlo.after_of_writes_sub hostOps4_1 _ hostOps4_1_writes h
theorem V45_of (c : Dev nD) (r : Ref sig .tc) (h : r ∉ hostOps4_2_W) : V45 m outs c r = V44 m outs c r :=
  StableHlo.after_of_writes_sub hostOps4_2 _ hostOps4_2_writes h
theorem V46_of (c : Dev nD) (r : Ref sig .tc) (h : r ∉ hostOps4_3_W) : V46 m outs c r = V45 m outs c r :=
  StableHlo.after_of_writes_sub hostOps4_3 _ hostOps4_3_writes h
theorem V47_of (c : Dev nD) (r : Ref sig .tc) (h : r ∉ hostOps4_4_W) : V47 m outs c r = V46 m outs c r :=
  StableHlo.after_of_writes_sub hostOps4_4 _ hostOps4_4_writes h
theorem V48_of (c : Dev nD) (r : Ref sig .tc) (h : r ∉ hostOps4_5_W) : V48 m outs c r = V47 m outs c r :=
  StableHlo.after_of_writes_sub hostOps4_5 _ hostOps4_5_writes h
theorem V49_of (c : Dev nD) (r : Ref sig .tc) (h : r ∉ hostOps4_6_W) : V49 m outs c r = V48 m outs c r :=
  StableHlo.after_of_writes_sub hostOps4_6 _ hostOps4_6_writes h
theorem V50_of (c : Dev nD) (r : Ref sig .tc) (h : r ∉ hostOps4_7_W) : V50 m outs c r = V49 m outs c r :=
  StableHlo.after_of_writes_sub hostOps4_7 _ hostOps4_7_writes h
theorem V51_of (c : Dev nD) (r : Ref sig .tc) (h : r ∉ hostOps4_8_W) : V51 m outs c r = V50 m outs c r :=
  StableHlo.after_of_writes_sub hostOps4_8 _ hostOps4_8_writes h
theorem V52_of (c : Dev nD) (r : Ref sig .tc) (h : r ∉ ([main_v89] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v89)]
theorem V53_of (c : Dev nD) (r : Ref sig .tc) (h : r ∉ hostOps5_W) : V53 m outs c r = V52 m outs c r :=
  StableHlo.after_of_writes_sub hostOps5 _ hostOps5_writes h
theorem V54_of (c : Dev nD) (r : Ref sig .tc) (h : r ∉ hostOps5_1_W) : V54 m outs c r = V53 m outs c r :=
  StableHlo.after_of_writes_sub hostOps5_1 _ hostOps5_1_writes h
theorem V55_of (c : Dev nD) (r : Ref sig .tc) (h : r ∉ hostOps5_2_W) : V55 m outs c r = V54 m outs c r :=
  StableHlo.after_of_writes_sub hostOps5_2 _ hostOps5_2_writes h
theorem V56_of (c : Dev nD) (r : Ref sig .tc) (h : r ∉ hostOps5_3_W) : V56 m outs c r = V55 m outs c r :=
  StableHlo.after_of_writes_sub hostOps5_3 _ hostOps5_3_writes h
theorem V57_of (c : Dev nD) (r : Ref sig .tc) (h : r ∉ hostOps5_4_W) : V57 m outs c r = V56 m outs c r :=
  StableHlo.after_of_writes_sub hostOps5_4 _ hostOps5_4_writes h
theorem V58_of (c : Dev nD) (r : Ref sig .tc) (h : r ∉ ([main_v96] : List (Ref sig .tc))) : V58 m outs c r = V57 m outs c r := by
  simp only [V58, Function.update_of_ne (StableHlo.devRef_ne_of_ne (List.ne_of_not_mem_cons h) : (Proc.devRef .tc r : DevRef τ sig) ≠ Proc.devRef .tc main_v96)]

abbrev Ws : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, [main_v21], hostOps1_W, hostOps1_1_W, hostOps1_2_W, hostOps1_3_W, hostOps1_4_W, hostOps1_5_W, hostOps1_6_W, hostOps1_7_W, hostOps1_8_W, [main_v38], hostOps2_W, hostOps2_1_W, hostOps2_2_W, hostOps2_3_W, hostOps2_4_W, hostOps2_5_W, hostOps2_6_W, hostOps2_7_W, hostOps2_8_W, [main_v55], hostOps3_W, hostOps3_1_W, hostOps3_2_W, hostOps3_3_W, hostOps3_4_W, hostOps3_5_W, hostOps3_6_W, hostOps3_7_W, hostOps3_8_W, [main_v72], hostOps4_W, hostOps4_1_W, hostOps4_2_W, hostOps4_3_W, hostOps4_4_W, hostOps4_5_W, hostOps4_6_W, hostOps4_7_W, hostOps4_8_W, [main_v89], hostOps5_W, hostOps5_1_W, hostOps5_2_W, hostOps5_3_W, hostOps5_4_W, [main_v96]]

-- A buffer in no stretch's write list, and no region's output, reaches the end as launched.
theorem V58_keep (c : Dev nD) (r : Ref sig .tc) (h : ∀ W ∈ Ws, r ∉ W) :
    V58 m outs c r = m ((c : Thread nD τ).loc r) :=
  (V58_of m outs c r (h _ (by decide))).trans <|
  (V57_of m outs c r (h _ (by decide))).trans <|
  (V56_of m outs c r (h _ (by decide))).trans <|
  (V55_of m outs c r (h _ (by decide))).trans <|
  (V54_of m outs c r (h _ (by decide))).trans <|
  (V53_of m outs c r (h _ (by decide))).trans <|
  (V52_of m outs c r (h _ (by decide))).trans <|
  (V51_of m outs c r (h _ (by decide))).trans <|
  (V50_of m outs c r (h _ (by decide))).trans <|
  (V49_of m outs c r (h _ (by decide))).trans <|
  (V48_of m outs c r (h _ (by decide))).trans <|
  (V47_of m outs c r (h _ (by decide))).trans <|
  (V46_of m outs c r (h _ (by decide))).trans <|
  (V45_of m outs c r (h _ (by decide))).trans <|
  (V44_of m outs c r (h _ (by decide))).trans <|
  (V43_of m outs c r (h _ (by decide))).trans <|
  (V42_of m outs c r (h _ (by decide))).trans <|
  (V41_of m outs c r (h _ (by decide))).trans <|
  (V40_of m outs c r (h _ (by decide))).trans <|
  (V39_of m outs c r (h _ (by decide))).trans <|
  (V38_of m outs c r (h _ (by decide))).trans <|
  (V37_of m outs c r (h _ (by decide))).trans <|
  (V36_of m outs c r (h _ (by decide))).trans <|
  (V35_of m outs c r (h _ (by decide))).trans <|
  (V34_of m outs c r (h _ (by decide))).trans <|
  (V33_of m outs c r (h _ (by decide))).trans <|
  (V32_of m outs c r (h _ (by decide))).trans <|
  (V31_of m outs c r (h _ (by decide))).trans <|
  (V30_of m outs c r (h _ (by decide))).trans <|
  (V29_of m outs c r (h _ (by decide))).trans <|
  (V28_of m outs c r (h _ (by decide))).trans <|
  (V27_of m outs c r (h _ (by decide))).trans <|
  (V26_of m outs c r (h _ (by decide))).trans <|
  (V25_of m outs c r (h _ (by decide))).trans <|
  (V24_of m outs c r (h _ (by decide))).trans <|
  (V23_of m outs c r (h _ (by decide))).trans <|
  (V22_of m outs c r (h _ (by decide))).trans <|
  (V21_of m outs c r (h _ (by decide))).trans <|
  (V20_of m outs c r (h _ (by decide))).trans <|
  (V19_of m outs c r (h _ (by decide))).trans <|
  (V18_of m outs c r (h _ (by decide))).trans <|
  (V17_of m outs c r (h _ (by decide))).trans <|
  (V16_of m outs c r (h _ (by decide))).trans <|
  (V15_of m outs c r (h _ (by decide))).trans <|
  (V14_of m outs c r (h _ (by decide))).trans <|
  (V13_of m outs c r (h _ (by decide))).trans <|
  (V12_of m outs c r (h _ (by decide))).trans <|
  (V11_of m c r (h _ (by decide))).trans <|
  (V10_of m c r (h _ (by decide))).trans <|
  (V9_of m c r (h _ (by decide))).trans <|
  (V8_of m c r (h _ (by decide))).trans <|
  (V7_of m c r (h _ (by decide))).trans <|
  (V6_of m c r (h _ (by decide))).trans <|
  (V5_of m c r (h _ (by decide))).trans <|
  (V4_of m c r (h _ (by decide))).trans <|
  (V3_of m c r (h _ (by decide))).trans <|
  (V2_of m c r (h _ (by decide))).trans <|
  (V1_of m c r (h _ (by decide))).trans rfl

theorem V58_main_arg0 (c : Dev nD) : V58 m outs c main_arg0 = m ((c : Thread nD τ).loc main_arg0) :=
  V58_keep m outs c _ (by decide)
theorem V58_main_arg1 (c : Dev nD) : V58 m outs c main_arg1 = m ((c : Thread nD τ).loc main_arg1) :=
  V58_keep m outs c _ (by decide)
theorem V58_main_arg2 (c : Dev nD) : V58 m outs c main_arg2 = m ((c : Thread nD τ).loc main_arg2) :=
  V58_keep m outs c _ (by decide)
theorem V58_main_arg3 (c : Dev nD) : V58 m outs c main_arg3 = m ((c : Thread nD τ).loc main_arg3) :=
  V58_keep m outs c _ (by decide)
theorem V58_main_arg4 (c : Dev nD) : V58 m outs c main_arg4 = m ((c : Thread nD τ).loc main_arg4) :=
  V58_keep m outs c _ (by decide)
theorem V58_main_arg5 (c : Dev nD) : V58 m outs c main_arg5 = m ((c : Thread nD τ).loc main_arg5) :=
  V58_keep m outs c _ (by decide)
theorem V58_main_arg6 (c : Dev nD) : V58 m outs c main_arg6 = m ((c : Thread nD τ).loc main_arg6) :=
  V58_keep m outs c _ (by decide)
theorem V58_main_arg7 (c : Dev nD) : V58 m outs c main_arg7 = m ((c : Thread nD τ).loc main_arg7) :=
  V58_keep m outs c _ (by decide)
theorem V58_main_arg8 (c : Dev nD) : V58 m outs c main_arg8 = m ((c : Thread nD τ).loc main_arg8) :=
  V58_keep m outs c _ (by decide)
theorem V58_main_arg9 (c : Dev nD) : V58 m outs c main_arg9 = m ((c : Thread nD τ).loc main_arg9) :=
  V58_keep m outs c _ (by decide)
theorem V58_main_arg10 (c : Dev nD) : V58 m outs c main_arg10 = m ((c : Thread nD τ).loc main_arg10) :=
  V58_keep m outs c _ (by decide)
theorem V58_main_arg11 (c : Dev nD) : V58 m outs c main_arg11 = m ((c : Thread nD τ).loc main_arg11) :=
  V58_keep m outs c _ (by decide)
theorem V58_main_arg12 (c : Dev nD) : V58 m outs c main_arg12 = m ((c : Thread nD τ).loc main_arg12) :=
  V58_keep m outs c _ (by decide)
theorem V58_main_arg13 (c : Dev nD) : V58 m outs c main_arg13 = m ((c : Thread nD τ).loc main_arg13) :=
  V58_keep m outs c _ (by decide)
theorem V58_main_arg14 (c : Dev nD) : V58 m outs c main_arg14 = m ((c : Thread nD τ).loc main_arg14) :=
  V58_keep m outs c _ (by decide)
theorem V58_main_arg15 (c : Dev nD) : V58 m outs c main_arg15 = m ((c : Thread nD τ).loc main_arg15) :=
  V58_keep m outs c _ (by decide)
theorem V58_main_arg16 (c : Dev nD) : V58 m outs c main_arg16 = m ((c : Thread nD τ).loc main_arg16) :=
  V58_keep m outs c _ (by decide)
theorem V58_main_arg17 (c : Dev nD) : V58 m outs c main_arg17 = m ((c : Thread nD τ).loc main_arg17) :=
  V58_keep m outs c _ (by decide)
theorem V58_main_arg18 (c : Dev nD) : V58 m outs c main_arg18 = m ((c : Thread nD τ).loc main_arg18) :=
  V58_keep m outs c _ (by decide)
theorem V58_main_arg19 (c : Dev nD) : V58 m outs c main_arg19 = m ((c : Thread nD τ).loc main_arg19) :=
  V58_keep m outs c _ (by decide)
theorem V58_main_arg20 (c : Dev nD) : V58 m outs c main_arg20 = m ((c : Thread nD τ).loc main_arg20) :=
  V58_keep m outs c _ (by decide)
theorem V58_main_arg21 (c : Dev nD) : V58 m outs c main_arg21 = m ((c : Thread nD τ).loc main_arg21) :=
  V58_keep m outs c _ (by decide)
theorem V58_main_arg22 (c : Dev nD) : V58 m outs c main_arg22 = m ((c : Thread nD τ).loc main_arg22) :=
  V58_keep m outs c _ (by decide)
theorem V58_main_arg23 (c : Dev nD) : V58 m outs c main_arg23 = m ((c : Thread nD τ).loc main_arg23) :=
  V58_keep m outs c _ (by decide)
theorem V58_main_arg24 (c : Dev nD) : V58 m outs c main_arg24 = m ((c : Thread nD τ).loc main_arg24) :=
  V58_keep m outs c _ (by decide)
theorem V58_main_arg25 (c : Dev nD) : V58 m outs c main_arg25 = m ((c : Thread nD τ).loc main_arg25) :=
  V58_keep m outs c _ (by decide)
theorem V58_main_arg26 (c : Dev nD) : V58 m outs c main_arg26 = m ((c : Thread nD τ).loc main_arg26) :=
  V58_keep m outs c _ (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 7 → Dev nD → sProp (MT nD τ sig Ix (Elt F) ℕ U Lvl))

-- A host stretch as a segment over the buffers outside every kernel, from the contents it starts at.
def hseg (ops : List (HloOp τ sig (Elt F))) (hs : ops.Forall fun op => op.bufs ⊆ StableHlo.tcRefs τ sig)
    (hf : ops.Forall fun op => op.fresh = ∅) (V : (c : Dev nD) → Valuation τ sig (Elt F))
    (Ej : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V Ej

end Segs

section

variable {Ix : Type} [DecidableEq Ix] {U : Type} [URA U] {Lvl : Type} [Preorder Lvl]

abbrev adm : (p : Fin 6) → (pcfgs (F := F) p).Adm := fun p => (cfgs p).toPCfg_adm

abbrev segs (𝒱₀ : Variants) (L : GSem nD τ sig → Finset Ix) (lv : GSem nD τ sig → Ix → Lvl) (E : Fin 7 → Dev nD → sProp (MT nD τ sig Ix (Elt F) ℕ U Lvl)) (ι : Ix)
    (pdats : (p : Fin 6) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (c : Dev nD) :
    List (Seg (pcfgs (F := F)) adm pdats ι defs₀ 𝒱₀ L lv) :=
  [.host (hseg 𝒱₀ L lv hostOps0 hostOps0_sub hostOps0_fresh (V0 m) (E 0)), .host (hseg 𝒱₀ L lv hostOps0_1 hostOps0_1_sub hostOps0_1_fresh (V1 m) (E 0)), .host (hseg 𝒱₀ L lv hostOps0_2 hostOps0_2_sub hostOps0_2_fresh (V2 m) (E 0)), .host (hseg 𝒱₀ L lv hostOps0_3 hostOps0_3_sub hostOps0_3_fresh (V3 m) (E 0)), .host (hseg 𝒱₀ L lv hostOps0_4 hostOps0_4_sub hostOps0_4_fresh (V4 m) (E 0)), .host (hseg 𝒱₀ L lv hostOps0_5 hostOps0_5_sub hostOps0_5_fresh (V5 m) (E 0)), .host (hseg 𝒱₀ L lv hostOps0_6 hostOps0_6_sub hostOps0_6_fresh (V6 m) (E 0)), .host (hseg 𝒱₀ L lv hostOps0_7 hostOps0_7_sub hostOps0_7_fresh (V7 m) (E 0)), .host (hseg 𝒱₀ L lv hostOps0_8 hostOps0_8_sub hostOps0_8_fresh (V8 m) (E 0)), .host (hseg 𝒱₀ L lv hostOps0_9 hostOps0_9_sub hostOps0_9_fresh (V9 m) (E 0)), .host (hseg 𝒱₀ L lv hostOps0_10 hostOps0_10_sub hostOps0_10_fresh (V10 m) (E 0)), .region R0, .host (hseg 𝒱₀ L lv hostOps1 hostOps1_sub hostOps1_fresh (V12 m outs) (E 1)), .host (hseg 𝒱₀ L lv hostOps1_1 hostOps1_1_sub hostOps1_1_fresh (V13 m outs) (E 1)), .host (hseg 𝒱₀ L lv hostOps1_2 hostOps1_2_sub hostOps1_2_fresh (V14 m outs) (E 1)), .host (hseg 𝒱₀ L lv hostOps1_3 hostOps1_3_sub hostOps1_3_fresh (V15 m outs) (E 1)), .host (hseg 𝒱₀ L lv hostOps1_4 hostOps1_4_sub hostOps1_4_fresh (V16 m outs) (E 1)), .host (hseg 𝒱₀ L lv hostOps1_5 hostOps1_5_sub hostOps1_5_fresh (V17 m outs) (E 1)), .host (hseg 𝒱₀ L lv hostOps1_6 hostOps1_6_sub hostOps1_6_fresh (V18 m outs) (E 1)), .host (hseg 𝒱₀ L lv hostOps1_7 hostOps1_7_sub hostOps1_7_fresh (V19 m outs) (E 1)), .host (hseg 𝒱₀ L lv hostOps1_8 hostOps1_8_sub hostOps1_8_fresh (V20 m outs) (E 1)), .region R1, .host (hseg 𝒱₀ L lv hostOps2 hostOps2_sub hostOps2_fresh (V22 m outs) (E 2)), .host (hseg 𝒱₀ L lv hostOps2_1 hostOps2_1_sub hostOps2_1_fresh (V23 m outs) (E 2)), .host (hseg 𝒱₀ L lv hostOps2_2 hostOps2_2_sub hostOps2_2_fresh (V24 m outs) (E 2)), .host (hseg 𝒱₀ L lv hostOps2_3 hostOps2_3_sub hostOps2_3_fresh (V25 m outs) (E 2)), .host (hseg 𝒱₀ L lv hostOps2_4 hostOps2_4_sub hostOps2_4_fresh (V26 m outs) (E 2)), .host (hseg 𝒱₀ L lv hostOps2_5 hostOps2_5_sub hostOps2_5_fresh (V27 m outs) (E 2)), .host (hseg 𝒱₀ L lv hostOps2_6 hostOps2_6_sub hostOps2_6_fresh (V28 m outs) (E 2)), .host (hseg 𝒱₀ L lv hostOps2_7 hostOps2_7_sub hostOps2_7_fresh (V29 m outs) (E 2)), .host (hseg 𝒱₀ L lv hostOps2_8 hostOps2_8_sub hostOps2_8_fresh (V30 m outs) (E 2)), .region R2, .host (hseg 𝒱₀ L lv hostOps3 hostOps3_sub hostOps3_fresh (V32 m outs) (E 3)), .host (hseg 𝒱₀ L lv hostOps3_1 hostOps3_1_sub hostOps3_1_fresh (V33 m outs) (E 3)), .host (hseg 𝒱₀ L lv hostOps3_2 hostOps3_2_sub hostOps3_2_fresh (V34 m outs) (E 3)), .host (hseg 𝒱₀ L lv hostOps3_3 hostOps3_3_sub hostOps3_3_fresh (V35 m outs) (E 3)), .host (hseg 𝒱₀ L lv hostOps3_4 hostOps3_4_sub hostOps3_4_fresh (V36 m outs) (E 3)), .host (hseg 𝒱₀ L lv hostOps3_5 hostOps3_5_sub hostOps3_5_fresh (V37 m outs) (E 3)), .host (hseg 𝒱₀ L lv hostOps3_6 hostOps3_6_sub hostOps3_6_fresh (V38 m outs) (E 3)), .host (hseg 𝒱₀ L lv hostOps3_7 hostOps3_7_sub hostOps3_7_fresh (V39 m outs) (E 3)), .host (hseg 𝒱₀ L lv hostOps3_8 hostOps3_8_sub hostOps3_8_fresh (V40 m outs) (E 3)), .region R3, .host (hseg 𝒱₀ L lv hostOps4 hostOps4_sub hostOps4_fresh (V42 m outs) (E 4)), .host (hseg 𝒱₀ L lv hostOps4_1 hostOps4_1_sub hostOps4_1_fresh (V43 m outs) (E 4)), .host (hseg 𝒱₀ L lv hostOps4_2 hostOps4_2_sub hostOps4_2_fresh (V44 m outs) (E 4)), .host (hseg 𝒱₀ L lv hostOps4_3 hostOps4_3_sub hostOps4_3_fresh (V45 m outs) (E 4)), .host (hseg 𝒱₀ L lv hostOps4_4 hostOps4_4_sub hostOps4_4_fresh (V46 m outs) (E 4)), .host (hseg 𝒱₀ L lv hostOps4_5 hostOps4_5_sub hostOps4_5_fresh (V47 m outs) (E 4)), .host (hseg 𝒱₀ L lv hostOps4_6 hostOps4_6_sub hostOps4_6_fresh (V48 m outs) (E 4)), .host (hseg 𝒱₀ L lv hostOps4_7 hostOps4_7_sub hostOps4_7_fresh (V49 m outs) (E 4)), .host (hseg 𝒱₀ L lv hostOps4_8 hostOps4_8_sub hostOps4_8_fresh (V50 m outs) (E 4)), .region R4, .host (hseg 𝒱₀ L lv hostOps5 hostOps5_sub hostOps5_fresh (V52 m outs) (E 5)), .host (hseg 𝒱₀ L lv hostOps5_1 hostOps5_1_sub hostOps5_1_fresh (V53 m outs) (E 5)), .host (hseg 𝒱₀ L lv hostOps5_2 hostOps5_2_sub hostOps5_2_fresh (V54 m outs) (E 5)), .host (hseg 𝒱₀ L lv hostOps5_3 hostOps5_3_sub hostOps5_3_fresh (V55 m outs) (E 5)), .host (hseg 𝒱₀ L lv hostOps5_4 hostOps5_4_sub hostOps5_4_fresh (V56 m outs) (E 5)), .region R5]

end

end Cert.Kernel.GenP

end
-- ==== Proof.K.Gin0.lean ====
/- One layer's kernel region at the contents it is entered with: each window's block at a grid point, what the body leaves in the output block (the layer's arithmetic on the six input blocks), and that the body does so. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_vec : Rect S1x128 := Rect.unit (s := S1x128) ![0, 0] S1x128.size inb_S1x128_S1x128_0_0

def out0_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r0_rows, k0_pay1 (View.ld x0 r0_rows) (View.ld x1 r0_rows) (View.ld x2 r0_mat) (View.ld x3 r0_vec) (View.ld x4 r0_mat) (View.ld x5 r0_vec)⟩]

theorem cover0_6 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.Gin1.lean ====
/- One layer's kernel region at the contents it is entered with: each window's block at a grid point, what the body leaves in the output block (the layer's arithmetic on the six input blocks), and that the body does so. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0
abbrev r1_mat : Rect S128x128 := Rect.unit (s := S128x128) ![0, 0] S128x128.size inb_S128x128_S128x128_0_0
abbrev r1_vec : Rect S1x128 := Rect.unit (s := S1x128) ![0, 0] S1x128.size inb_S1x128_S1x128_0_0

def out1_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r1_rows, k1_pay1 (View.ld x0 r1_rows) (View.ld x1 r1_rows) (View.ld x2 r1_mat) (View.ld x3 r1_vec) (View.ld x4 r1_mat) (View.ld x5 r1_vec)⟩]

theorem cover1_6 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in

theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Gin2.lean ====
/- One layer's kernel region at the contents it is entered with: each window's block at a grid point, what the body leaves in the output block (the layer's arithmetic on the six input blocks), and that the body does so. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S5000x128 := Rect.unit (s := S5000x128) ![0, 0] S5000x128.size inb_S5000x128_S5000x128_0_0
abbrev r2_mat : Rect S128x128 := Rect.unit (s := S128x128) ![0, 0] S128x128.size inb_S128x128_S128x128_0_0
abbrev r2_vec : Rect S1x128 := Rect.unit (s := S1x128) ![0, 0] S1x128.size inb_S1x128_S1x128_0_0

def out2_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r2_rows, k2_pay1 (View.ld x0 r2_rows) (View.ld x1 r2_rows) (View.ld x2 r2_mat) (View.ld x3 r2_vec) (View.ld x4 r2_mat) (View.ld x5 r2_vec)⟩]

theorem cover2_6 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 1000000 in

theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.Gin3.lean ====
/- One layer's kernel region at the contents it is entered with: each window's block at a grid point, what the body leaves in the output block (the layer's arithmetic on the six input blocks), and that the body does so. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_rows : Rect S5000x128 := Rect.unit (s := S5000x128) ![0, 0] S5000x128.size inb_S5000x128_S5000x128_0_0
abbrev r3_mat : Rect S128x128 := Rect.unit (s := S128x128) ![0, 0] S128x128.size inb_S128x128_S128x128_0_0
abbrev r3_vec : Rect S1x128 := Rect.unit (s := S1x128) ![0, 0] S1x128.size inb_S1x128_S1x128_0_0

def out3_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r3_rows, k3_pay1 (View.ld x0 r3_rows) (View.ld x1 r3_rows) (View.ld x2 r3_mat) (View.ld x3 r3_vec) (View.ld x4 r3_mat) (View.ld x5 r3_vec)⟩]

theorem cover3_6 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.K.Gin4.lean ====
/- One layer's kernel region at the contents it is entered with: each window's block at a grid point, what the body leaves in the output block (the layer's arithmetic on the six input blocks), and that the body does so. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_rows : Rect S5000x128 := Rect.unit (s := S5000x128) ![0, 0] S5000x128.size inb_S5000x128_S5000x128_0_0
abbrev r4_mat : Rect S128x128 := Rect.unit (s := S128x128) ![0, 0] S128x128.size inb_S128x128_S128x128_0_0
abbrev r4_vec : Rect S1x128 := Rect.unit (s := S1x128) ![0, 0] S1x128.size inb_S1x128_S1x128_0_0

def out4_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r4_rows, k4_pay1 (View.ld x0 r4_rows) (View.ld x1 r4_rows) (View.ld x2 r4_mat) (View.ld x3 r4_vec) (View.ld x4 r4_mat) (View.ld x5 r4_vec)⟩]

theorem cover4_6 (p0 : Vec F S5000x128 .f32) (y : S5000x128.Idx) :
    ∃ pc ∈ ([⟨r4_rows, p0⟩] : List (View.Piece (Elt F) S5000x128 .f32)), y ∈ pc.1.set :=
  View.cover_of_tiled [⟨r4_rows, p0⟩] S5000x128.size (by rfl) y

set_option maxHeartbeats 1000000 in

theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.Fin5Runs.lean ====
/- The final region: what the three cases of its body share. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 100 = 0 :=
  (by decide +kernel : ∀ t : Fin grid5.N, cond5_0 (grid5.coords t) ↔ t.val % 100 = 0)

abbrev cond5_1 (i : grid5.Coords) : Prop := k5_cond2 i = 1#1

theorem hcond5_1 : ∀ t : Fin cfg5.N, cond5_1 (grid5.coords t) ↔ t.val % 100 = 99 :=
  (by decide +kernel : ∀ t : Fin grid5.N, cond5_1 (grid5.coords t) ↔ t.val % 100 = 99)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl
theorem liveAt5_5 : ∀ t : Fin cfg5.N, cfg5.idle 5 (grid5.coords t) = false := fun _ => rfl

theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel

theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel

theorem liveAt5_6_C : ∀ t : Fin cfg5.N, ¬cond5_0 (grid5.coords t) → cond5_1 (grid5.coords t) → cfg5.idle 6 (grid5.coords t) = false := by decide +kernel

abbrev VO5_6 : View sig .tc .vmem S512x120 .f32 := (Memref.whole cc5_stg6_0 : Memref sig .tc .vmem S512x120 .f32).view

abbrev ms5_0 (t : Fin cfg5.N) : Memref sig .tc .vmem S1000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x120 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x120 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S512x120 .f32 := win5_6.stage (cfg5.slots t 6)
abbrev hs5_6 (t : Fin cfg5.N) : (ms5_6 t).IsWhole := hstage5_6 ((cfg5.slots t 6).cast nbuf5_6)

abbrev scM5_0 : Memref sig .tc .vmem S512x128 .f32 := Memref.whole cc5_scratch0

abbrev VS5_0 : View sig .tc .vmem S512x128 .f32 := scM5_0.view

theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Region

end Cert.Kernel.Hand

end
-- ==== Proof.K.Fin5Run.lean ====
/- The final kernel's body in its three cases: first point, middle point, last point. -/
import proofs.«420535_j82145544503553_2_alg».proof.Proof.K.Fin5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun5_A (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) :
    Σ' (L6 : List (View.Piece (Elt F) S512x120 .f32)), { LS0 : List (View.Piece (Elt F) S512x128 .f32) //
      ∀ (xi6 : Vec F S512x120 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨[], ?_, fun xi6 E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in

noncomputable def kernelRun5_B (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    Σ' (L6 : List (View.Piece (Elt F) S512x120 .f32)), { LS0 : List (View.Piece (Elt F) S512x128 .f32) //
      ∀ (xi6 : Vec F S512x120 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨[], ?_, fun xi6 E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in

noncomputable def kernelRun5_C (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    Σ' (L6 : List (View.Piece (Elt F) S512x120 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨?_, ?_, fun E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.K.Fin5.lean ====
/- The final region: what the output block and the carried accumulator hold point by point, and that the body at each point does so. -/
import proofs.«420535_j82145544503553_2_alg».proof.Proof.K.Fin5Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def out5_A_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) : Vec F S512x120 .f32 :=
  VO5_6.read (Elt F) (VO5_6.writes (Elt F) VO5_6.junk (kernelRun5_A c i arg1 harg1 arg2 harg2 arg3 harg3 arg4 harg4 arg5 harg5 arg6 harg6 arg7 harg7 arg8 harg8 hc0 hc1 x0 x1 x2 x3 x4 x5).1)

theorem scover5_A_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (y : S512x128.Idx) :
    ∃ pc ∈ (kernelRun5_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun5_A c i arg1 harg1 arg2 harg2 arg3 harg3 arg4 harg4 arg5 harg5 arg6 harg6 arg7 harg7 arg8 harg8 hc0 hc1 x0 x1 x2 x3 x4 x5).2.1 S512x128.size (by sl_kernel_rfl) y

def sout5_A_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) : Vec F S512x128 .f32 :=
  VS5_0.read (Elt F) (VS5_0.writes (Elt F) VS5_0.junk (kernelRun5_A c i arg1 harg1 arg2 harg2 arg3 harg3 arg4 harg4 arg5 harg5 arg6 harg6 arg7 harg7 arg8 harg8 hc0 hc1 x0 x1 x2 x3 x4 x5).2.1)

def out5_B_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x120 .f32 :=
  VO5_6.read (Elt F) (VO5_6.writes (Elt F) VO5_6.junk (kernelRun5_B c i arg1 harg1 arg2 harg2 arg3 harg3 arg4 harg4 arg5 harg5 arg6 harg6 arg7 harg7 arg8 harg8 hc0 hc1 x0 x1 x2 x3 x4 x5 xs0).1)

theorem scover5_B_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x128.Idx) :
    ∃ pc ∈ (kernelRun5_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun5_B c i arg1 harg1 arg2 harg2 arg3 harg3 arg4 harg4 arg5 harg5 arg6 harg6 arg7 harg7 arg8 harg8 hc0 hc1 x0 x1 x2 x3 x4 x5 xs0).2.1 S512x128.size (by sl_kernel_rfl) y

def sout5_B_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x128 .f32 :=
  VS5_0.read (Elt F) (VS5_0.writes (Elt F) VS5_0.junk (kernelRun5_B c i arg1 harg1 arg2 harg2 arg3 harg3 arg4 harg4 arg5 harg5 arg6 harg6 arg7 harg7 arg8 harg8 hc0 hc1 x0 x1 x2 x3 x4 x5 xs0).2.1)

theorem cover5_C_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x120.Idx) :
    ∃ pc ∈ (kernelRun5_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun5_C c i arg1 harg1 arg2 harg2 arg3 harg3 arg4 harg4 arg5 harg5 arg6 harg6 arg7 harg7 arg8 harg8 hc0 hc1 x0 x1 x2 x3 x4 x5 xs0).1 S512x120.size (by sl_kernel_rfl) y

def out5_C_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x120 .f32 :=
  VO5_6.read (Elt F) (VO5_6.writes (Elt F) VO5_6.junk (kernelRun5_C c i arg1 harg1 arg2 harg2 arg3 harg3 arg4 harg4 arg5 harg5 arg6 harg6 arg7 harg7 arg8 harg8 hc0 hc1 x0 x1 x2 x3 x4 x5 xs0).1)

theorem scover5_C_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x128.Idx) :
    ∃ pc ∈ (kernelRun5_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun5_C c i arg1 harg1 arg2 harg2 arg3 harg3 arg4 harg4 arg5 harg5 arg6 harg6 arg7 harg7 arg8 harg8 hc0 hc1 x0 x1 x2 x3 x4 x5 xs0).2.1 S512x128.size (by sl_kernel_rfl) y

def sout5_C_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x128 .f32 :=
  VS5_0.read (Elt F) (VS5_0.writes (Elt F) VS5_0.junk (kernelRun5_C c i arg1 harg1 arg2 harg2 arg3 harg3 arg4 harg4 arg5 harg5 arg6 harg6 arg7 harg7 arg8 harg8 hc0 hc1 x0 x1 x2 x3 x4 x5 xs0).2.1)

def outsAt5 (c : Dev nD) : (n : ℕ) → n < cfg5.N → Vec F S512x120 .f32 × Vec F S512x128 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 100 = 0 then
      if h1 : (n + 1) % 100 = 99 then
        False.elim (by have hN : n + 1 < 100 := lt_of_lt_of_eq hn (show cfg5.N = 100 from N_5); omega)
      else
        (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      if h1 : (n + 1) % 100 = 99 then
        (out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)
      else
        (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)

theorem outsAt5_A (c : Dev nD) (t : Fin cfg5.N) (h0 : t.val % 100 = 0) (h1 : ¬t.val % 100 = 99) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans ((dif_neg h1).trans rfl)

theorem outsAt5_B (c : Dev nD) (t : Fin cfg5.N) (h0 : ¬t.val % 100 = 0) (h1 : ¬t.val % 100 = 99) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 100 = 0) (h1 : t.val % 100 = 99) :
    outsAt5 V c t.val t.isLt = (out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q5 (c : Dev nD) : (dat5 V c).q = fun _ => fullShare := by dsimp only [dat5]
theorem owed5 (c : Dev nD) : (dat5 V c).owed = fun _ => 0 := by dsimp only [dat5]
theorem recorded5 (c : Dev nD) : (dat5 V c).recorded = fun _ => Set.univ := by dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  have hN : t.val < 100 := lt_of_lt_of_eq t.isLt (show cfg5.N = 100 from N_5)
  by_cases h0 : t.val % 100 = 0
  · by_cases h1 : t.val % 100 = 99
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 100 = 99
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [show (dat5 V c).leavesExact 6 t = owns (c : Thread nD τ) (ms5_6 t) fullShare ((dat5 V c).after 6 t) from by
        unfold Dat.leavesExact; rw [liveAt5_6_C t (fun h => h0 ((hcond5_0 t).mp h)) ((hcond5_1 t).mpr h1)], after5_6]
      rw [outsAt5_C V c t h0 h1]
      unfold out5_C_6 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_C c (grid5.coords t) _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover5_C_6 c _ _ _ _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_B c (grid5.coords t) _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

theorem hout5 (c : Dev nD) : (dat5 V c).Φ (Fin.last cfg5.N) ⊢ Pipeline.ΦA spec5 c :=
  Phi_out5 V c _ (by rw [Fin.val_last]; have : cfg5.N = 100 := N_5; omega)

end Region

end Cert.Kernel.Hand

end
-- ==== Proof.K.Run.lean ====
/- The run of @main region by region: the contents each region is entered with, the six regions as segments, and the launch over them. -/
import proofs.«420535_j82145544503553_2_alg».proof.Proof.Gen.Kernel.Launch
import proofs.«420535_j82145544503553_2_alg».proof.Proof.Gen.Kernel.Skeleton
import proofs.«420535_j82145544503553_2_alg».proof.Proof.Gen.Kernel.Points
import proofs.«420535_j82145544503553_2_alg».proof.Proof.KernelRegions
import proofs.«420535_j82145544503553_2_alg».proof.Proof.K.Gin0
import proofs.«420535_j82145544503553_2_alg».proof.Proof.K.Gin1
import proofs.«420535_j82145544503553_2_alg».proof.Proof.K.Gin2
import proofs.«420535_j82145544503553_2_alg».proof.Proof.K.Gin3
import proofs.«420535_j82145544503553_2_alg».proof.Proof.K.Gin4
import proofs.«420535_j82145544503553_2_alg».proof.Proof.K.Fin5
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def setOut (o : Outs (F := F)) (J : ℕ) (r : Ref sig .tc) (x : (c : Dev nD) → Buf (Elt F) ((c : Thread nD τ).loc r)) : Outs (F := F) :=
  Function.update o J (Function.update (o J) r x)

theorem setOut_self (o : Outs (F := F)) (J : ℕ) (r : Ref sig .tc) (x : (c : Dev nD) → Buf (Elt F) ((c : Thread nD τ).loc r)) (c : Dev nD) :
    setOut o J r x J r c = x c := by
  unfold setOut; rw [Function.update_self, Function.update_self]

theorem setOut_of_ne (o : Outs (F := F)) (J J' : ℕ) (r r' : Ref sig .tc) (x : (c : Dev nD) → Buf (Elt F) ((c : Thread nD τ).loc r)) (c : Dev nD)
    (h : J' ≠ J) : setOut o J r x J' r' c = o J' r' c := by
  unfold setOut; rw [Function.update_of_ne h]

section Congr
variable (o o' : Outs (F := F)) (c : Dev nD)
theorem V21_congr (h12 : o 12 main_v21 c = o' 12 main_v21 c) : V21 m o c = V21 m o' c := by
  unfold V21 V20 V19 V18 V17 V16 V15 V14 V13 V12; rw [h12]
theorem V31_congr (h12 : o 12 main_v21 c = o' 12 main_v21 c) (h22 : o 22 main_v38 c = o' 22 main_v38 c) : V31 m o c = V31 m o' c := by
  unfold V31 V30 V29 V28 V27 V26 V25 V24 V23 V22; rw [V21_congr m o o' c h12, h22]
theorem V41_congr (h12 : o 12 main_v21 c = o' 12 main_v21 c) (h22 : o 22 main_v38 c = o' 22 main_v38 c) (h32 : o 32 main_v55 c = o' 32 main_v55 c) : V41 m o c = V41 m o' c := by
  unfold V41 V40 V39 V38 V37 V36 V35 V34 V33 V32; rw [V31_congr m o o' c h12 h22, h32]
theorem V51_congr (h12 : o 12 main_v21 c = o' 12 main_v21 c) (h22 : o 22 main_v38 c = o' 22 main_v38 c) (h32 : o 32 main_v55 c = o' 32 main_v55 c) (h42 : o 42 main_v72 c = o' 42 main_v72 c) : V51 m o c = V51 m o' c := by
  unfold V51 V50 V49 V48 V47 V46 V45 V44 V43 V42; rw [V41_congr m o o' c h12 h22 h32, h42]
theorem V57_congr (h12 : o 12 main_v21 c = o' 12 main_v21 c) (h22 : o 22 main_v38 c = o' 22 main_v38 c) (h32 : o 32 main_v55 c = o' 32 main_v55 c) (h42 : o 42 main_v72 c = o' 42 main_v72 c) (h52 : o 52 main_v89 c = o' 52 main_v89 c) : V57 m o c = V57 m o' c := by
  unfold V57 V56 V55 V54 V53 V52; rw [V51_congr m o o' c h12 h22 h32 h42, h52]
end Congr

def Vin0 : (c : Dev nD) → (b : Ref sig .tc) → Buf (Elt F) ((c : Thread nD τ).loc b) := fun c b => V11 m c b

def out0 (c : Dev nD) : Buf (Elt F) ((c : Thread nD τ).loc main_v21) := (dat0 (Vin0 m) c).arrAt 6 cfg0.N

def outs0 : Outs (F := F) := setOut (fun _ r c => m ((c : Thread nD τ).loc r)) 12 main_v21 (out0 m)

def Vin1 : (c : Dev nD) → (b : Ref sig .tc) → Buf (Elt F) ((c : Thread nD τ).loc b) := fun c b => V21 m (outs0 m) c b

def out1 (c : Dev nD) : Buf (Elt F) ((c : Thread nD τ).loc main_v38) := (dat1 (Vin1 m) c).arrAt 6 cfg1.N

def outs1 : Outs (F := F) := setOut (outs0 m) 22 main_v38 (out1 m)

def Vin2 : (c : Dev nD) → (b : Ref sig .tc) → Buf (Elt F) ((c : Thread nD τ).loc b) := fun c b => V31 m (outs1 m) c b

def out2 (c : Dev nD) : Buf (Elt F) ((c : Thread nD τ).loc main_v55) := (dat2 (Vin2 m) c).arrAt 6 cfg2.N

def outs2 : Outs (F := F) := setOut (outs1 m) 32 main_v55 (out2 m)

def Vin3 : (c : Dev nD) → (b : Ref sig .tc) → Buf (Elt F) ((c : Thread nD τ).loc b) := fun c b => V41 m (outs2 m) c b

def out3 (c : Dev nD) : Buf (Elt F) ((c : Thread nD τ).loc main_v72) := (dat3 (Vin3 m) c).arrAt 6 cfg3.N

def outs3 : Outs (F := F) := setOut (outs2 m) 42 main_v72 (out3 m)

def Vin4 : (c : Dev nD) → (b : Ref sig .tc) → Buf (Elt F) ((c : Thread nD τ).loc b) := fun c b => V51 m (outs3 m) c b

def out4 (c : Dev nD) : Buf (Elt F) ((c : Thread nD τ).loc main_v89) := (dat4 (Vin4 m) c).arrAt 6 cfg4.N

def outs4 : Outs (F := F) := setOut (outs3 m) 52 main_v89 (out4 m)

def Vin5 : (c : Dev nD) → (b : Ref sig .tc) → Buf (Elt F) ((c : Thread nD τ).loc b) := fun c b => V57 m (outs4 m) c b

def out5 (c : Dev nD) : Buf (Elt F) ((c : Thread nD τ).loc main_v96) := (dat5 (Vin5 m) c).arrAt 6 cfg5.N

def outs5 : Outs (F := F) := setOut (outs4 m) 58 main_v96 (out5 m)

abbrev outs : Outs (F := F) := outs5 m

theorem outs0_12 (c : Dev nD) : outs0 m 12 main_v21 c = out0 m c := setOut_self _ _ _ _ c
theorem outs1_12 (c : Dev nD) : outs1 m 12 main_v21 c = out0 m c := (setOut_of_ne _ _ _ _ _ _ c (by decide)).trans (outs0_12 m c)
theorem outs1_22 (c : Dev nD) : outs1 m 22 main_v38 c = out1 m c := setOut_self _ _ _ _ c
theorem outs2_12 (c : Dev nD) : outs2 m 12 main_v21 c = out0 m c := (setOut_of_ne _ _ _ _ _ _ c (by decide)).trans (outs1_12 m c)
theorem outs2_22 (c : Dev nD) : outs2 m 22 main_v38 c = out1 m c := (setOut_of_ne _ _ _ _ _ _ c (by decide)).trans (outs1_22 m c)
theorem outs2_32 (c : Dev nD) : outs2 m 32 main_v55 c = out2 m c := setOut_self _ _ _ _ c
theorem outs3_12 (c : Dev nD) : outs3 m 12 main_v21 c = out0 m c := (setOut_of_ne _ _ _ _ _ _ c (by decide)).trans (outs2_12 m c)
theorem outs3_22 (c : Dev nD) : outs3 m 22 main_v38 c = out1 m c := (setOut_of_ne _ _ _ _ _ _ c (by decide)).trans (outs2_22 m c)
theorem outs3_32 (c : Dev nD) : outs3 m 32 main_v55 c = out2 m c := (setOut_of_ne _ _ _ _ _ _ c (by decide)).trans (outs2_32 m c)
theorem outs3_42 (c : Dev nD) : outs3 m 42 main_v72 c = out3 m c := setOut_self _ _ _ _ c
theorem outs4_12 (c : Dev nD) : outs4 m 12 main_v21 c = out0 m c := (setOut_of_ne _ _ _ _ _ _ c (by decide)).trans (outs3_12 m c)
theorem outs4_22 (c : Dev nD) : outs4 m 22 main_v38 c = out1 m c := (setOut_of_ne _ _ _ _ _ _ c (by decide)).trans (outs3_22 m c)
theorem outs4_32 (c : Dev nD) : outs4 m 32 main_v55 c = out2 m c := (setOut_of_ne _ _ _ _ _ _ c (by decide)).trans (outs3_32 m c)
theorem outs4_42 (c : Dev nD) : outs4 m 42 main_v72 c = out3 m c := (setOut_of_ne _ _ _ _ _ _ c (by decide)).trans (outs3_42 m c)
theorem outs4_52 (c : Dev nD) : outs4 m 52 main_v89 c = out4 m c := setOut_self _ _ _ _ c
theorem outs5_12 (c : Dev nD) : outs5 m 12 main_v21 c = out0 m c := (setOut_of_ne _ _ _ _ _ _ c (by decide)).trans (outs4_12 m c)
theorem outs5_22 (c : Dev nD) : outs5 m 22 main_v38 c = out1 m c := (setOut_of_ne _ _ _ _ _ _ c (by decide)).trans (outs4_22 m c)
theorem outs5_32 (c : Dev nD) : outs5 m 32 main_v55 c = out2 m c := (setOut_of_ne _ _ _ _ _ _ c (by decide)).trans (outs4_32 m c)
theorem outs5_42 (c : Dev nD) : outs5 m 42 main_v72 c = out3 m c := (setOut_of_ne _ _ _ _ _ _ c (by decide)).trans (outs4_42 m c)
theorem outs5_52 (c : Dev nD) : outs5 m 52 main_v89 c = out4 m c := (setOut_of_ne _ _ _ _ _ _ c (by decide)).trans (outs4_52 m c)
theorem outs5_58 (c : Dev nD) : outs5 m 58 main_v96 c = out5 m c := setOut_self _ _ _ _ c

theorem Vin1_eq (c : Dev nD) (b : Ref sig .tc) : Vin1 m c b = V21 m (outs m) c b :=
  congrFun (V21_congr m (outs0 m) (outs m) c ((outs0_12 m c).trans (outs5_12 m c).symm)) _
theorem Vin2_eq (c : Dev nD) (b : Ref sig .tc) : Vin2 m c b = V31 m (outs m) c b :=
  congrFun (V31_congr m (outs1 m) (outs m) c ((outs1_12 m c).trans (outs5_12 m c).symm) ((outs1_22 m c).trans (outs5_22 m c).symm)) _
theorem Vin3_eq (c : Dev nD) (b : Ref sig .tc) : Vin3 m c b = V41 m (outs m) c b :=
  congrFun (V41_congr m (outs2 m) (outs m) c ((outs2_12 m c).trans (outs5_12 m c).symm) ((outs2_22 m c).trans (outs5_22 m c).symm) ((outs2_32 m c).trans (outs5_32 m c).symm)) _
theorem Vin4_eq (c : Dev nD) (b : Ref sig .tc) : Vin4 m c b = V51 m (outs m) c b :=
  congrFun (V51_congr m (outs3 m) (outs m) c ((outs3_12 m c).trans (outs5_12 m c).symm) ((outs3_22 m c).trans (outs5_22 m c).symm) ((outs3_32 m c).trans (outs5_32 m c).symm) ((outs3_42 m c).trans (outs5_42 m c).symm)) _
theorem Vin5_eq (c : Dev nD) (b : Ref sig .tc) : Vin5 m c b = V57 m (outs m) c b :=
  congrFun (V57_congr m (outs4 m) (outs m) c ((outs4_12 m c).trans (outs5_12 m c).symm) ((outs4_22 m c).trans (outs5_22 m c).symm) ((outs4_32 m c).trans (outs5_32 m c).symm) ((outs4_42 m c).trans (outs5_42 m c).symm) ((outs4_52 m c).trans (outs5_52 m c).symm)) _

theorem V12_out (c : Dev nD) : V12 m (outs m) c main_v21 = (dat0 (Vin0 m) c).arrAt 6 cfg0.N :=
  (Function.update_self _ _ _).trans (outs5_12 m c)
theorem Vin1_out (c : Dev nD) : Vin1 m c main_v21 = (dat0 (Vin0 m) c).arrAt 6 cfg0.N :=
  (Vin1_eq m c main_v21).trans ((V21_of m (outs m) c main_v21 (by decide)).trans ((V20_of m (outs m) c main_v21 (by decide)).trans ((V19_of m (outs m) c main_v21 (by decide)).trans ((V18_of m (outs m) c main_v21 (by decide)).trans ((V17_of m (outs m) c main_v21 (by decide)).trans ((V16_of m (outs m) c main_v21 (by decide)).trans ((V15_of m (outs m) c main_v21 (by decide)).trans ((V14_of m (outs m) c main_v21 (by decide)).trans ((V13_of m (outs m) c main_v21 (by decide)).trans (V12_out m c))))))))))
theorem V22_out (c : Dev nD) : V22 m (outs m) c main_v38 = (dat1 (Vin1 m) c).arrAt 6 cfg1.N :=
  (Function.update_self _ _ _).trans (outs5_22 m c)
theorem Vin2_out (c : Dev nD) : Vin2 m c main_v38 = (dat1 (Vin1 m) c).arrAt 6 cfg1.N :=
  (Vin2_eq m c main_v38).trans ((V31_of m (outs m) c main_v38 (by decide)).trans ((V30_of m (outs m) c main_v38 (by decide)).trans ((V29_of m (outs m) c main_v38 (by decide)).trans ((V28_of m (outs m) c main_v38 (by decide)).trans ((V27_of m (outs m) c main_v38 (by decide)).trans ((V26_of m (outs m) c main_v38 (by decide)).trans ((V25_of m (outs m) c main_v38 (by decide)).trans ((V24_of m (outs m) c main_v38 (by decide)).trans ((V23_of m (outs m) c main_v38 (by decide)).trans (V22_out m c))))))))))
theorem V32_out (c : Dev nD) : V32 m (outs m) c main_v55 = (dat2 (Vin2 m) c).arrAt 6 cfg2.N :=
  (Function.update_self _ _ _).trans (outs5_32 m c)
theorem Vin3_out (c : Dev nD) : Vin3 m c main_v55 = (dat2 (Vin2 m) c).arrAt 6 cfg2.N :=
  (Vin3_eq m c main_v55).trans ((V41_of m (outs m) c main_v55 (by decide)).trans ((V40_of m (outs m) c main_v55 (by decide)).trans ((V39_of m (outs m) c main_v55 (by decide)).trans ((V38_of m (outs m) c main_v55 (by decide)).trans ((V37_of m (outs m) c main_v55 (by decide)).trans ((V36_of m (outs m) c main_v55 (by decide)).trans ((V35_of m (outs m) c main_v55 (by decide)).trans ((V34_of m (outs m) c main_v55 (by decide)).trans ((V33_of m (outs m) c main_v55 (by decide)).trans (V32_out m c))))))))))
theorem V42_out (c : Dev nD) : V42 m (outs m) c main_v72 = (dat3 (Vin3 m) c).arrAt 6 cfg3.N :=
  (Function.update_self _ _ _).trans (outs5_42 m c)
theorem Vin4_out (c : Dev nD) : Vin4 m c main_v72 = (dat3 (Vin3 m) c).arrAt 6 cfg3.N :=
  (Vin4_eq m c main_v72).trans ((V51_of m (outs m) c main_v72 (by decide)).trans ((V50_of m (outs m) c main_v72 (by decide)).trans ((V49_of m (outs m) c main_v72 (by decide)).trans ((V48_of m (outs m) c main_v72 (by decide)).trans ((V47_of m (outs m) c main_v72 (by decide)).trans ((V46_of m (outs m) c main_v72 (by decide)).trans ((V45_of m (outs m) c main_v72 (by decide)).trans ((V44_of m (outs m) c main_v72 (by decide)).trans ((V43_of m (outs m) c main_v72 (by decide)).trans (V42_out m c))))))))))
theorem V52_out (c : Dev nD) : V52 m (outs m) c main_v89 = (dat4 (Vin4 m) c).arrAt 6 cfg4.N :=
  (Function.update_self _ _ _).trans (outs5_52 m c)
theorem Vin5_out (c : Dev nD) : Vin5 m c main_v89 = (dat4 (Vin4 m) c).arrAt 6 cfg4.N :=
  (Vin5_eq m c main_v89).trans ((V57_of m (outs m) c main_v89 (by decide)).trans ((V56_of m (outs m) c main_v89 (by decide)).trans ((V55_of m (outs m) c main_v89 (by decide)).trans ((V54_of m (outs m) c main_v89 (by decide)).trans ((V53_of m (outs m) c main_v89 (by decide)).trans (V52_out m c))))))
theorem V58_out (c : Dev nD) : V58 m (outs m) c main_v96 = (dat5 (Vin5 m) c).arrAt 6 cfg5.N :=
  (Function.update_self _ _ _).trans (outs5_58 m c)

def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c

def resultH (c : Dev nD) : Buf (Elt F) ((c : Thread nD τ).loc main_v96) := (pdats m 5 c).arrAt 6 cfg5.N
theorem resultH_eq (c : Dev nD) : resultH m c = (dat5 (Vin5 m) c).arrAt 6 cfg5.N := rfl

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- An input window's array leaves its region as it entered, and the region's output is not among them.
theorem hF0_in (c : Dev nD) (w : Fin cfg0.W) (hin : (cfg0.win w).isOut = false)
    (hr : Pipeline.arrRef spec0 w ∉ ([main_v21] : List (Ref sig .tc))) :
    (pdats m 0 c).arrAt w cfg0.N = V12 m (outs m) c (Pipeline.arrRef spec0 w) :=
  ((dat0 (Vin0 m) c).arrAt_in w hin _).trans ((A_eq0 (Vin0 m) c w).trans ((V12_of m (outs m) c _ hr).symm))
theorem hF0 (c : Dev nD) : ∀ w : Fin 7, (pdats m 0 c).arrAt w cfg0.N = V12 m (outs m) c (Pipeline.arrRef spec0 w) := by
  intro w; fin_cases w
  on_goal 7 => exact (V12_out m c).symm
  all_goals exact hF0_in m c _ rfl (by decide)
theorem hrest0 (c : Dev nD) : ∀ b : Ref sig .tc, b ∉ Finset.univ.image (Pipeline.arrRef spec0) → V12 m (outs m) c b = V11 m c b :=
  fun b hb => V12_of m (outs m) c b fun hm => hb (Finset.mem_image.mpr ⟨6, Finset.mem_univ _, (List.mem_singleton.mp hm).symm⟩)

theorem hF1_in (c : Dev nD) (w : Fin cfg1.W) (hin : (cfg1.win w).isOut = false)
    (hr : Pipeline.arrRef spec1 w ∉ ([main_v38] : List (Ref sig .tc))) :
    (pdats m 1 c).arrAt w cfg1.N = V22 m (outs m) c (Pipeline.arrRef spec1 w) :=
  ((dat1 (Vin1 m) c).arrAt_in w hin _).trans ((A_eq1 (Vin1 m) c w).trans ((Vin1_eq m c _).trans (V22_of m (outs m) c _ hr).symm))
theorem hF1 (c : Dev nD) : ∀ w : Fin 7, (pdats m 1 c).arrAt w cfg1.N = V22 m (outs m) c (Pipeline.arrRef spec1 w) := by
  intro w; fin_cases w
  on_goal 7 => exact (V22_out m c).symm
  all_goals exact hF1_in m c _ rfl (by decide)
theorem hrest1 (c : Dev nD) : ∀ b : Ref sig .tc, b ∉ Finset.univ.image (Pipeline.arrRef spec1) → V22 m (outs m) c b = V21 m (outs m) c b :=
  fun b hb => V22_of m (outs m) c b fun hm => hb (Finset.mem_image.mpr ⟨6, Finset.mem_univ _, (List.mem_singleton.mp hm).symm⟩)

theorem hF2_in (c : Dev nD) (w : Fin cfg2.W) (hin : (cfg2.win w).isOut = false)
    (hr : Pipeline.arrRef spec2 w ∉ ([main_v55] : List (Ref sig .tc))) :
    (pdats m 2 c).arrAt w cfg2.N = V32 m (outs m) c (Pipeline.arrRef spec2 w) :=
  ((dat2 (Vin2 m) c).arrAt_in w hin _).trans ((A_eq2 (Vin2 m) c w).trans ((Vin2_eq m c _).trans (V32_of m (outs m) c _ hr).symm))
theorem hF2 (c : Dev nD) : ∀ w : Fin 7, (pdats m 2 c).arrAt w cfg2.N = V32 m (outs m) c (Pipeline.arrRef spec2 w) := by
  intro w; fin_cases w
  on_goal 7 => exact (V32_out m c).symm
  all_goals exact hF2_in m c _ rfl (by decide)
theorem hrest2 (c : Dev nD) : ∀ b : Ref sig .tc, b ∉ Finset.univ.image (Pipeline.arrRef spec2) → V32 m (outs m) c b = V31 m (outs m) c b :=
  fun b hb => V32_of m (outs m) c b fun hm => hb (Finset.mem_image.mpr ⟨6, Finset.mem_univ _, (List.mem_singleton.mp hm).symm⟩)

theorem hF3_in (c : Dev nD) (w : Fin cfg3.W) (hin : (cfg3.win w).isOut = false)
    (hr : Pipeline.arrRef spec3 w ∉ ([main_v72] : List (Ref sig .tc))) :
    (pdats m 3 c).arrAt w cfg3.N = V42 m (outs m) c (Pipeline.arrRef spec3 w) :=
  ((dat3 (Vin3 m) c).arrAt_in w hin _).trans ((A_eq3 (Vin3 m) c w).trans ((Vin3_eq m c _).trans (V42_of m (outs m) c _ hr).symm))
theorem hF3 (c : Dev nD) : ∀ w : Fin 7, (pdats m 3 c).arrAt w cfg3.N = V42 m (outs m) c (Pipeline.arrRef spec3 w) := by
  intro w; fin_cases w
  on_goal 7 => exact (V42_out m c).symm
  all_goals exact hF3_in m c _ rfl (by decide)
theorem hrest3 (c : Dev nD) : ∀ b : Ref sig .tc, b ∉ Finset.univ.image (Pipeline.arrRef spec3) → V42 m (outs m) c b = V41 m (outs m) c b :=
  fun b hb => V42_of m (outs m) c b fun hm => hb (Finset.mem_image.mpr ⟨6, Finset.mem_univ _, (List.mem_singleton.mp hm).symm⟩)

theorem hF4_in (c : Dev nD) (w : Fin cfg4.W) (hin : (cfg4.win w).isOut = false)
    (hr : Pipeline.arrRef spec4 w ∉ ([main_v89] : List (Ref sig .tc))) :
    (pdats m 4 c).arrAt w cfg4.N = V52 m (outs m) c (Pipeline.arrRef spec4 w) :=
  ((dat4 (Vin4 m) c).arrAt_in w hin _).trans ((A_eq4 (Vin4 m) c w).trans ((Vin4_eq m c _).trans (V52_of m (outs m) c _ hr).symm))
theorem hF4 (c : Dev nD) : ∀ w : Fin 7, (pdats m 4 c).arrAt w cfg4.N = V52 m (outs m) c (Pipeline.arrRef spec4 w) := by
  intro w; fin_cases w
  on_goal 7 => exact (V52_out m c).symm
  all_goals exact hF4_in m c _ rfl (by decide)
theorem hrest4 (c : Dev nD) : ∀ b : Ref sig .tc, b ∉ Finset.univ.image (Pipeline.arrRef spec4) → V52 m (outs m) c b = V51 m (outs m) c b :=
  fun b hb => V52_of m (outs m) c b fun hm => hb (Finset.mem_image.mpr ⟨6, Finset.mem_univ _, (List.mem_singleton.mp hm).symm⟩)

theorem hF5_in (c : Dev nD) (w : Fin cfg5.W) (hin : (cfg5.win w).isOut = false)
    (hr : Pipeline.arrRef spec5 w ∉ ([main_v96] : List (Ref sig .tc))) :
    (pdats m 5 c).arrAt w cfg5.N = V58 m (outs m) c (Pipeline.arrRef spec5 w) :=
  ((dat5 (Vin5 m) c).arrAt_in w hin _).trans ((A_eq5 (Vin5 m) c w).trans ((Vin5_eq m c _).trans (V58_of m (outs m) c _ hr).symm))
theorem hF5 (c : Dev nD) : ∀ w : Fin 7, (pdats m 5 c).arrAt w cfg5.N = V58 m (outs m) c (Pipeline.arrRef spec5 w) := by
  intro w; fin_cases w
  on_goal 7 => exact (V58_out m c).symm
  all_goals exact hF5_in m c _ rfl (by decide)
theorem hrest5 (c : Dev nD) : ∀ b : Ref sig .tc, b ∉ Finset.univ.image (Pipeline.arrRef spec5) → V58 m (outs m) c b = V57 m (outs m) c b :=
  fun b hb => V58_of m (outs m) c b fun hm => hb (Finset.mem_image.mpr ⟨6, Finset.mem_univ _, (List.mem_singleton.mp hm).symm⟩)

set_option backward.isDefEq.respectTransparency.types false in

def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V11 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V11 m c b) (fun b => V12 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V21 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V21 m (outs m) c b) fun w => (A_eq1 (Vin1 m) c w).trans (Vin1_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V21 m (outs m) c b) (fun b => V22 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V31 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V31 m (outs m) c b) fun w => (A_eq2 (Vin2 m) c w).trans (Vin2_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V31 m (outs m) c b) (fun b => V32 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V41 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V41 m (outs m) c b) fun w => (A_eq3 (Vin3 m) c w).trans (Vin3_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V41 m (outs m) c b) (fun b => V42 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (V51 m (outs m) c) ∗ R c)
  post c := iprop(StableHlo.held (c : Thread nD τ) (Pipeline.ucRefs τ sig) (V52 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V51 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V51 m (outs m) c b) fun w => (A_eq4 (Vin4 m) c w).trans (Vin4_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V51 m (outs m) c b) (fun b => V52 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun c t => congrFun (owed5 (Vin5 m) c) t
  pre c := iprop(StableHlo.held (c : Thread nD τ) (Pipeline.ucRefs τ sig) (V57 m (outs m) c) ∗ R c)
  post c := iprop(StableHlo.held (c : Thread nD τ) (Pipeline.ucRefs τ sig) (V58 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V57 m (outs m) c b)
  hentry c := by
    rw [Pipeline.ownSems0_none]
    have hsplit := Pipeline.arrays_of_unscopedBufs (p := 5) (pcfgs (F := F)) adm (pdats m) launch5.win launch5.arr_whole c
      ((pdats m 5 c).share_full fun w => congrFun (q5 (Vin5 m) c) w) (fun b => V57 m (outs m) c b) fun w => (A_eq5 (Vin5 m) c w).trans (Vin5_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 5 c).owed 0 = 0 from congrFun (owed5 (Vin5 m) c) 0]
      icases HO with ⟨%W, HO⟩; iexists W; isplitr
      · ipureintro; exact fun _ _ => Or.inl (by rw [show (pdats m 5 c).recorded 0 = Set.univ from congrFun (recorded5 (Vin5 m) c) 0]; trivial)
      iexact HO
    isplitl [Hp]; · iexact Hp
    iexact Hrest
  hin c := by
    refine .trans ?_ (hin5 (Vin5 m) c); unfold Pipeline.ΦA
    iintro ⟨Hp, -, Hr⟩
    isplitl [Hr]; · iexact Hr
    iexact Hp
  hout c := by
    rw [Pipeline.ownSems0_none]; refine (hout5 (Vin5 m) c).trans ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => congrFun (q5 (Vin5 m) c) w)
      (fun b => V57 m (outs m) c b) (fun b => V58 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 5 c).owed (Fin.last (Pipeline.pin (pcfgs (F := F)) adm 5).N) = 0 from congrFun (owed5 (Vin5 m) c) _]
    icases HO with ⟨%W, -, HO⟩; iexists W; iexact HO

-- The result buffer holds the last region's output and every argument buffer is as launched.
abbrev Post (mem : (ℓ : Loc nD τ sig) → Buf (Elt F) ℓ) (c : Dev nD) : Prop :=
  mem ((c.tc : Thread nD τ).loc main_v96) = resultH m c
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)
  ∧ mem ((c.tc : Thread nD τ).loc main_arg26) = m ((c.tc : Thread nD τ).loc main_arg26)

set_option backward.isDefEq.respectTransparency.types false in

theorem run_main (ρ : Dev nD → PrngReg) :
    θ_run defs (onTc (τ := τ) (main (F := F))) ⟨m, fun _ => 0, ρ⟩ (fun r => ∀ c : Dev nD, Post m r.2.mem c) := by
  have hlast : ∀ c : Dev nD, (iprop(StableHlo.held (c : Thread nD τ) (Pipeline.ucRefs τ sig) (V58 m (outs m) c) ∗ R c) : sProp 𝕄) ⊢ (iprop(StableHlo.held (c : Thread nD τ) (Pipeline.ucRefs τ sig) (V58 m (outs m) c)
      ∗ ∃ W, owes (c : Thread nD τ) (0 : CellTallies nD τ sig Unit) W) : sProp 𝕄) := fun c => by
    iintro ⟨Hh, -, HO⟩
    isplitl [Hh]; · iexact Hh
    iexact HO
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m) (reg3 m) (reg4 m) (reg5 m))
    (fun c Q => by
      rewrite [main_chain c, Seg.run_eq_chain,
        show (segs m (outs m) Variants.none L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()) ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V58 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hlast c⟩)
    (hinit := ?_)
    (QY := fun c s => Post m s.mem c)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V58 m (outs m) c) s') $$ [Hh HSI]
    · isplitl [Hh] <;> iassumption
    icases Hr with ⟨%h, HSI⟩
    imodintro
    isplitr
    · ipureintro
      exact ⟨(h (Proc.devRef .tc main_v96) (Finset.mem_filter.mpr ⟨StableHlo.devRef_mem_tcRefs main_v96, by decide⟩)).trans (V58_out m c),
        (h (Proc.devRef .tc main_arg0) (Finset.mem_filter.mpr ⟨StableHlo.devRef_mem_tcRefs main_arg0, by decide⟩)).trans (V58_main_arg0 m (outs m) c),
        (h (Proc.devRef .tc main_arg1) (Finset.mem_filter.mpr ⟨StableHlo.devRef_mem_tcRefs main_arg1, by decide⟩)).trans (V58_main_arg1 m (outs m) c),
        (h (Proc.devRef .tc main_arg2) (Finset.mem_filter.mpr ⟨StableHlo.devRef_mem_tcRefs main_arg2, by decide⟩)).trans (V58_main_arg2 m (outs m) c),
        (h (Proc.devRef .tc main_arg3) (Finset.mem_filter.mpr ⟨StableHlo.devRef_mem_tcRefs main_arg3, by decide⟩)).trans (V58_main_arg3 m (outs m) c),
        (h (Proc.devRef .tc main_arg4) (Finset.mem_filter.mpr ⟨StableHlo.devRef_mem_tcRefs main_arg4, by decide⟩)).trans (V58_main_arg4 m (outs m) c),
        (h (Proc.devRef .tc main_arg5) (Finset.mem_filter.mpr ⟨StableHlo.devRef_mem_tcRefs main_arg5, by decide⟩)).trans (V58_main_arg5 m (outs m) c),
        (h (Proc.devRef .tc main_arg6) (Finset.mem_filter.mpr ⟨StableHlo.devRef_mem_tcRefs main_arg6, by decide⟩)).trans (V58_main_arg6 m (outs m) c),
        (h (Proc.devRef .tc main_arg7) (Finset.mem_filter.mpr ⟨StableHlo.devRef_mem_tcRefs main_arg7, by decide⟩)).trans (V58_main_arg7 m (outs m) c),
        (h (Proc.devRef .tc main_arg8) (Finset.mem_filter.mpr ⟨StableHlo.devRef_mem_tcRefs main_arg8, by decide⟩)).trans (V58_main_arg8 m (outs m) c),
        (h (Proc.devRef .tc main_arg9) (Finset.mem_filter.mpr ⟨StableHlo.devRef_mem_tcRefs main_arg9, by decide⟩)).trans (V58_main_arg9 m (outs m) c),
        (h (Proc.devRef .tc main_arg10) (Finset.mem_filter.mpr ⟨StableHlo.devRef_mem_tcRefs main_arg10, by decide⟩)).trans (V58_main_arg10 m (outs m) c),
        (h (Proc.devRef .tc main_arg11) (Finset.mem_filter.mpr ⟨StableHlo.devRef_mem_tcRefs main_arg11, by decide⟩)).trans (V58_main_arg11 m (outs m) c),
        (h (Proc.devRef .tc main_arg12) (Finset.mem_filter.mpr ⟨StableHlo.devRef_mem_tcRefs main_arg12, by decide⟩)).trans (V58_main_arg12 m (outs m) c),
        (h (Proc.devRef .tc main_arg13) (Finset.mem_filter.mpr ⟨StableHlo.devRef_mem_tcRefs main_arg13, by decide⟩)).trans (V58_main_arg13 m (outs m) c),
        (h (Proc.devRef .tc main_arg14) (Finset.mem_filter.mpr ⟨StableHlo.devRef_mem_tcRefs main_arg14, by decide⟩)).trans (V58_main_arg14 m (outs m) c),
        (h (Proc.devRef .tc main_arg15) (Finset.mem_filter.mpr ⟨StableHlo.devRef_mem_tcRefs main_arg15, by decide⟩)).trans (V58_main_arg15 m (outs m) c),
        (h (Proc.devRef .tc main_arg16) (Finset.mem_filter.mpr ⟨StableHlo.devRef_mem_tcRefs main_arg16, by decide⟩)).trans (V58_main_arg16 m (outs m) c),
        (h (Proc.devRef .tc main_arg17) (Finset.mem_filter.mpr ⟨StableHlo.devRef_mem_tcRefs main_arg17, by decide⟩)).trans (V58_main_arg17 m (outs m) c),
        (h (Proc.devRef .tc main_arg18) (Finset.mem_filter.mpr ⟨StableHlo.devRef_mem_tcRefs main_arg18, by decide⟩)).trans (V58_main_arg18 m (outs m) c),
        (h (Proc.devRef .tc main_arg19) (Finset.mem_filter.mpr ⟨StableHlo.devRef_mem_tcRefs main_arg19, by decide⟩)).trans (V58_main_arg19 m (outs m) c),
        (h (Proc.devRef .tc main_arg20) (Finset.mem_filter.mpr ⟨StableHlo.devRef_mem_tcRefs main_arg20, by decide⟩)).trans (V58_main_arg20 m (outs m) c),
        (h (Proc.devRef .tc main_arg21) (Finset.mem_filter.mpr ⟨StableHlo.devRef_mem_tcRefs main_arg21, by decide⟩)).trans (V58_main_arg21 m (outs m) c),
        (h (Proc.devRef .tc main_arg22) (Finset.mem_filter.mpr ⟨StableHlo.devRef_mem_tcRefs main_arg22, by decide⟩)).trans (V58_main_arg22 m (outs m) c),
        (h (Proc.devRef .tc main_arg23) (Finset.mem_filter.mpr ⟨StableHlo.devRef_mem_tcRefs main_arg23, by decide⟩)).trans (V58_main_arg23 m (outs m) c),
        (h (Proc.devRef .tc main_arg24) (Finset.mem_filter.mpr ⟨StableHlo.devRef_mem_tcRefs main_arg24, by decide⟩)).trans (V58_main_arg24 m (outs m) c),
        (h (Proc.devRef .tc main_arg25) (Finset.mem_filter.mpr ⟨StableHlo.devRef_mem_tcRefs main_arg25, by decide⟩)).trans (V58_main_arg25 m (outs m) c),
        (h (Proc.devRef .tc main_arg26) (Finset.mem_filter.mpr ⟨StableHlo.devRef_mem_tcRefs main_arg26, by decide⟩)).trans (V58_main_arg26 m (outs m) c)⟩
    · iexact HSI

end Cert.Kernel.Hand

end
-- ==== Proof.KernelIdealRegions.lean ====
/- The host stretches and kernel regions of @main as segments: the contents each item is entered with, what each stretch writes, and that an argument array is written by none. -/
import proofs.«420535_j82145544503553_2_alg».proof.Proof.Gen.KernelIdeal.Launch
import Idealize.ShloMosaic.Lib.Pipeline.Frame
import Idealize.ShloMosaic.Lib.Pipeline.Regions

set_option maxRecDepth 1492

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := StableHlo.after hostOps0_7 (V7 m c)

abbrev V9 (c : Dev nD) : Valuation τ sig (Elt F) := StableHlo.after hostOps0_8 (V8 m c)

abbrev V10 (c : Dev nD) : Valuation τ sig (Elt F) := StableHlo.after hostOps0_9 (V9 m c)

abbrev V11 (c : Dev nD) : Valuation τ sig (Elt F) := StableHlo.after hostOps0_10 (V10 m c)

abbrev V12 (c : Dev nD) : Valuation τ sig (Elt F) := Function.update (V11 m c) main_v21 (outs 12 main_v21 c)

abbrev V13 (c : Dev nD) : Valuation τ sig (Elt F) := StableHlo.after hostOps1 (V12 m outs c)

abbrev V14 (c : Dev nD) : Valuation τ sig (Elt F) := StableHlo.after hostOps1_1 (V13 m outs c)

abbrev V15 (c : Dev nD) : Valuation τ sig (Elt F) := StableHlo.after hostOps1_2 (V14 m outs c)

abbrev V16 (c : Dev nD) : Valuation τ sig (Elt F) := StableHlo.after hostOps1_3 (V15 m outs c)

abbrev V17 (c : Dev nD) : Valuation τ sig (Elt F) := StableHlo.after hostOps1_4 (V16 m outs c)

abbrev V18 (c : Dev nD) : Valuation τ sig (Elt F) := StableHlo.after hostOps1_5 (V17 m outs c)

abbrev V19 (c : Dev nD) : Valuation τ sig (Elt F) := StableHlo.after hostOps1_6 (V18 m outs c)

abbrev V20 (c : Dev nD) : Valuation τ sig (Elt F) := StableHlo.after hostOps1_7 (V19 m outs c)

abbrev V21 (c : Dev nD) : Valuation τ sig (Elt F) := StableHlo.after hostOps1_8 (V20 m outs c)

abbrev V22 (c : Dev nD) : Valuation τ sig (Elt F) := Function.update (V21 m outs c) main_v38 (outs 22 main_v38 c)

abbrev V23 (c : Dev nD) : Valuation τ sig (Elt F) := StableHlo.after hostOps2 (V22 m outs c)

abbrev V24 (c : Dev nD) : Valuation τ sig (Elt F) := StableHlo.after hostOps2_1 (V23 m outs c)

abbrev V25 (c : Dev nD) : Valuation τ sig (Elt F) := StableHlo.after hostOps2_2 (V24 m outs c)

abbrev V26 (c : Dev nD) : Valuation τ sig (Elt F) := StableHlo.after hostOps2_3 (V25 m outs c)

abbrev V27 (c : Dev nD) : Valuation τ sig (Elt F) := StableHlo.after hostOps2_4 (V26 m outs c)

abbrev V28 (c : Dev nD) : Valuation τ sig (Elt F) := StableHlo.after hostOps2_5 (V27 m outs c)

abbrev V29 (c : Dev nD) : Valuation τ sig (Elt F) := StableHlo.after hostOps2_6 (V28 m outs c)

abbrev V30 (c : Dev nD) : Valuation τ sig (Elt F) := StableHlo.after hostOps2_7 (V29 m outs c)

abbrev V31 (c : Dev nD) : Valuation τ sig (Elt F) := StableHlo.after hostOps2_8 (V30 m outs c)

abbrev V32 (c : Dev nD) : Valuation τ sig (Elt F) := Function.update (V31 m outs c) main_v55 (outs 32 main_v55 c)

abbrev V33 (c : Dev nD) : Valuation τ sig (Elt F) := StableHlo.after hostOps3 (V32 m outs c)

abbrev V34 (c : Dev nD) : Valuation τ sig (Elt F) := StableHlo.after hostOps3_1 (V33 m outs c)

abbrev V35 (c : Dev nD) : Valuation τ sig (Elt F) := StableHlo.after hostOps3_2 (V34 m outs c)

abbrev V36 (c : Dev nD) : Valuation τ sig (Elt F) := StableHlo.after hostOps3_3 (V35 m outs c)

abbrev V37 (c : Dev nD) : Valuation τ sig (Elt F) := StableHlo.after hostOps3_4 (V36 m outs c)

abbrev V38 (c : Dev nD) : Valuation τ sig (Elt F) := StableHlo.after hostOps3_5 (V37 m outs c)

abbrev V39 (c : Dev nD) : Valuation τ sig (Elt F) := StableHlo.after hostOps3_6 (V38 m outs c)

abbrev V40 (c : Dev nD) : Valuation τ sig (Elt F) := StableHlo.after hostOps3_7 (V39 m outs c)

abbrev V41 (c : Dev nD) : Valuation τ sig (Elt F) := StableHlo.after hostOps3_8 (V40 m outs c)

abbrev V42 (c : Dev nD) : Valuation τ sig (Elt F) := Function.update (V41 m outs c) main_v72 (outs 42 main_v72 c)

abbrev V43 (c : Dev nD) : Valuation τ sig (Elt F) := StableHlo.after hostOps4 (V42 m outs c)

abbrev V44 (c : Dev nD) : Valuation τ sig (Elt F) := StableHlo.after hostOps4_1 (V43 m outs c)

abbrev V45 (c : Dev nD) : Valuation τ sig (Elt F) := StableHlo.after hostOps4_2 (V44 m outs c)

abbrev V46 (c : Dev nD) : Valuation τ sig (Elt F) := StableHlo.after hostOps4_3 (V45 m outs c)

abbrev V47 (c : Dev nD) : Valuation τ sig (Elt F) := StableHlo.after hostOps4_4 (V46 m outs c)

abbrev V48 (c : Dev nD) : Valuation τ sig (Elt F) := StableHlo.after hostOps4_5 (V47 m outs c)

abbrev V49 (c : Dev nD) : Valuation τ sig (Elt F) := StableHlo.after hostOps4_6 (V48 m outs c)

abbrev V50 (c : Dev nD) : Valuation τ sig (Elt F) := StableHlo.after hostOps4_7 (V49 m outs c)

abbrev V51 (c : Dev nD) : Valuation τ sig (Elt F) := StableHlo.after hostOps4_8 (V50 m outs c)

abbrev V52 (c : Dev nD) : Valuation τ sig (Elt F) := Function.update (V51 m outs c) main_v89 (outs 52 main_v89 c)

abbrev V53 (c : Dev nD) : Valuation τ sig (Elt F) := StableHlo.after hostOps5 (V52 m outs c)

abbrev V54 (c : Dev nD) : Valuation τ sig (Elt F) := StableHlo.after hostOps5_1 (V53 m outs c)

abbrev V55 (c : Dev nD) : Valuation τ sig (Elt F) := StableHlo.after hostOps5_2 (V54 m outs c)

abbrev V56 (c : Dev nD) : Valuation τ sig (Elt F) := StableHlo.after hostOps5_3 (V55 m outs c)

abbrev V57 (c : Dev nD) : Valuation τ sig (Elt F) := StableHlo.after hostOps5_4 (V56 m outs c)

abbrev V58 (c : Dev nD) : Valuation τ sig (Elt F) := Function.update (V57 m outs c) main_v96 (outs 58 main_v96 c)

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_c]
theorem hostOps0_writes : (hostOps0 : List (HloOp τ sig (Elt F))).Forall fun op => op.writes ⊆ (hostOps0_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_fresh : (hostOps0_1 : List (HloOp τ sig (Elt F))).Forall fun op => op.fresh = ∅ := by
  simp only [List.Forall]; repeat' constructor

abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_fresh : (hostOps0_2 : List (HloOp τ sig (Elt F))).Forall fun op => op.fresh = ∅ := by
  simp only [List.Forall]; repeat' constructor

abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_3_fresh : (hostOps0_3 : List (HloOp τ sig (Elt F))).Forall fun op => op.fresh = ∅ := by
  simp only [List.Forall]; repeat' constructor

abbrev hostOps0_3_W : List (Ref sig .tc) := [main_call1_v0, main_v5]
theorem hostOps0_3_writes : (hostOps0_3 : List (HloOp τ sig (Elt F))).Forall fun op => op.writes ⊆ (hostOps0_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_4_fresh : (hostOps0_4 : List (HloOp τ sig (Elt F))).Forall fun op => op.fresh = ∅ := by
  simp only [List.Forall]; repeat' constructor

abbrev hostOps0_4_W : List (Ref sig .tc) := [main_c_1]
theorem hostOps0_4_writes : (hostOps0_4 : List (HloOp τ sig (Elt F))).Forall fun op => op.writes ⊆ (hostOps0_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_5_fresh : (hostOps0_5 : List (HloOp τ sig (Elt F))).Forall fun op => op.fresh = ∅ := by
  simp only [List.Forall]; repeat' constructor

abbrev hostOps0_5_W : List (Ref sig .tc) := [main_call2_v0, main_v6]
theorem hostOps0_5_writes : (hostOps0_5 : List (HloOp τ sig (Elt F))).Forall fun op => op.writes ⊆ (hostOps0_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_6_fresh : (hostOps0_6 : List (HloOp τ sig (Elt F))).Forall fun op => op.fresh = ∅ := by
  simp only [List.Forall]; repeat' constructor

abbrev hostOps0_6_W : List (Ref sig .tc) := [main_v7, main_c_2]
theorem hostOps0_6_writes : (hostOps0_6 : List (HloOp τ sig (Elt F))).Forall fun op => op.writes ⊆ (hostOps0_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_7_fresh : (hostOps0_7 : List (HloOp τ sig (Elt F))).Forall fun op => op.fresh = ∅ := by
  simp only [List.Forall]; repeat' constructor

abbrev hostOps0_7_W : List (Ref sig .tc) := [main_call3_v0, main_v8]
theorem hostOps0_7_writes : (hostOps0_7 : List (HloOp τ sig (Elt F))).Forall fun op => op.writes ⊆ (hostOps0_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_8_fresh : (hostOps0_8 : List (HloOp τ sig (Elt F))).Forall fun op => op.fresh = ∅ := by
  simp only [List.Forall]; repeat' constructor

abbrev hostOps0_8_W : List (Ref sig .tc) := [main_c_3]
theorem hostOps0_8_writes : (hostOps0_8 : List (HloOp τ sig (Elt F))).Forall fun op => op.writes ⊆ (hostOps0_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_9_fresh : (hostOps0_9 : List (HloOp τ sig (Elt F))).Forall fun op => op.fresh = ∅ := by
  simp only [List.Forall]; repeat' constructor

abbrev hostOps0_9_W : List (Ref sig .tc) := [main_call4_v0, main_v9]
theorem hostOps0_9_writes : (hostOps0_9 : List (HloOp τ sig (Elt F))).Forall fun op => op.writes ⊆ (hostOps0_9_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_10_fresh : (hostOps0_10 : List (HloOp τ sig (Elt F))).Forall fun op => op.fresh = ∅ := by
  simp only [List.Forall]; repeat' constructor

abbrev hostOps0_10_W : List (Ref sig .tc) := [main_v10, main_c_4, main_v11, main_v12, main_c_5, main_v13, main_v14, main_v15, main_v16, main_v17, main_cst, main_v18, main_v19, main_v20]
theorem hostOps0_10_writes : (hostOps0_10 : List (HloOp τ sig (Elt F))).Forall fun op => op.writes ⊆ (hostOps0_10_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

abbrev hostOps1_W : List (Ref sig .tc) := [main_c_6]
theorem hostOps1_writes : (hostOps1 : List (HloOp τ sig (Elt F))).Forall fun op => op.writes ⊆ (hostOps1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor

abbrev hostOps1_1_W : List (Ref sig .tc) := [main_call5_v0, main_v22]
theorem hostOps1_1_writes : (hostOps1_1 : List (HloOp τ sig (Elt F))).Forall fun op => op.writes ⊆ (hostOps1_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_2_fresh : (hostOps1_2 : List (HloOp τ sig (Elt F))).Forall fun op => op.fresh = ∅ := by
  simp only [List.Forall]; repeat' constructor

abbrev hostOps1_2_W : List (Ref sig .tc) := [main_c_7]
theorem hostOps1_2_writes : (hostOps1_2 : List (HloOp τ sig (Elt F))).Forall fun op => op.writes ⊆ (hostOps1_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_3_fresh : (hostOps1_3 : List (HloOp τ sig (Elt F))).Forall fun op => op.fresh = ∅ := by
  simp only [List.Forall]; repeat' constructor

abbrev hostOps1_3_W : List (Ref sig .tc) := [main_call6_v0, main_v23]
theorem hostOps1_3_writes : (hostOps1_3 : List (HloOp τ sig (Elt F))).Forall fun op => op.writes ⊆ (hostOps1_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_4_fresh : (hostOps1_4 : List (HloOp τ sig (Elt F))).Forall fun op => op.fresh = ∅ := by
  simp only [List.Forall]; repeat' constructor

abbrev hostOps1_4_W : List (Ref sig .tc) := [main_v24, main_c_8]
theorem hostOps1_4_writes : (hostOps1_4 : List (HloOp τ sig (Elt F))).Forall fun op => op.writes ⊆ (hostOps1_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_5_fresh : (hostOps1_5 : List (HloOp τ sig (Elt F))).Forall fun op => op.fresh = ∅ := by
  simp only [List.Forall]; repeat' constructor

abbrev hostOps1_5_W : List (Ref sig .tc) := [main_call7_v0, main_v25]
theorem hostOps1_5_writes : (hostOps1_5 : List (HloOp τ sig (Elt F))).Forall fun op => op.writes ⊆ (hostOps1_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_6_fresh : (hostOps1_6 : List (HloOp τ sig (Elt F))).Forall fun op => op.fresh = ∅ := by
  simp only [List.Forall]; repeat' constructor

abbrev hostOps1_6_W : List (Ref sig .tc) := [main_c_9]
theorem hostOps1_6_writes : (hostOps1_6 : List (HloOp τ sig (Elt F))).Forall fun op => op.writes ⊆ (hostOps1_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_7_fresh : (hostOps1_7 : List (HloOp τ sig (Elt F))).Forall fun op => op.fresh = ∅ := by
  simp only [List.Forall]; repeat' constructor

abbrev hostOps1_7_W : List (Ref sig .tc) := [main_call8_v0, main_v26]
theorem hostOps1_7_writes : (hostOps1_7 : List (HloOp τ sig (Elt F))).Forall fun op => op.writes ⊆ (hostOps1_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_8_fresh : (hostOps1_8 : List (HloOp τ sig (Elt F))).Forall fun op => op.fresh = ∅ := by
  simp only [List.Forall]; repeat' constructor

abbrev hostOps1_8_W : List (Ref sig .tc) := [main_v27, main_c_10, main_v28, main_v29, main_c_11, main_v30, main_v31, main_v32, main_v33, main_v34, main_cst_12, main_v35, main_v36, main_v37]
theorem hostOps1_8_writes : (hostOps1_8 : List (HloOp τ sig (Elt F))).Forall fun op => op.writes ⊆ (hostOps1_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

abbrev hostOps2_W : List (Ref sig .tc) := [main_c_13]
theorem hostOps2_writes : (hostOps2 : List (HloOp τ sig (Elt F))).Forall fun op => op.writes ⊆ (hostOps2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_1_fresh : (hostOps2_1 : List (HloOp τ sig (Elt F))).Forall fun op => op.fresh = ∅ := by
  simp only [List.Forall]; repeat' constructor

abbrev hostOps2_1_W : List (Ref sig .tc) := [main_call9_v0, main_v39]
theorem hostOps2_1_writes : (hostOps2_1 : List (HloOp τ sig (Elt F))).Forall fun op => op.writes ⊆ (hostOps2_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_2_fresh : (hostOps2_2 : List (HloOp τ sig (Elt F))).Forall fun op => op.fresh = ∅ := by
  simp only [List.Forall]; repeat' constructor

abbrev hostOps2_2_W : List (Ref sig .tc) := [main_c_14]
theorem hostOps2_2_writes : (hostOps2_2 : List (HloOp τ sig (Elt F))).Forall fun op => op.writes ⊆ (hostOps2_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_3_fresh : (hostOps2_3 : List (HloOp τ sig (Elt F))).Forall fun op => op.fresh = ∅ := by
  simp only [List.Forall]; repeat' constructor

abbrev hostOps2_3_W : List (Ref sig .tc) := [main_call10_v0, main_v40]
theorem hostOps2_3_writes : (hostOps2_3 : List (HloOp τ sig (Elt F))).Forall fun op => op.writes ⊆ (hostOps2_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_4_fresh : (hostOps2_4 : List (HloOp τ sig (Elt F))).Forall fun op => op.fresh = ∅ := by
  simp only [List.Forall]; repeat' constructor

abbrev hostOps2_4_W : List (Ref sig .tc) := [main_v41, main_c_15]
theorem hostOps2_4_writes : (hostOps2_4 : List (HloOp τ sig (Elt F))).Forall fun op => op.writes ⊆ (hostOps2_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_5_fresh : (hostOps2_5 : List (HloOp τ sig (Elt F))).Forall fun op => op.fresh = ∅ := by
  simp only [List.Forall]; repeat' constructor

abbrev hostOps2_5_W : List (Ref sig .tc) := [main_call11_v0, main_v42]
theorem hostOps2_5_writes : (hostOps2_5 : List (HloOp τ sig (Elt F))).Forall fun op => op.writes ⊆ (hostOps2_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_6_fresh : (hostOps2_6 : List (HloOp τ sig (Elt F))).Forall fun op => op.fresh = ∅ := by
  simp only [List.Forall]; repeat' constructor

abbrev hostOps2_6_W : List (Ref sig .tc) := [main_c_16]
theorem hostOps2_6_writes : (hostOps2_6 : List (HloOp τ sig (Elt F))).Forall fun op => op.writes ⊆ (hostOps2_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_7_fresh : (hostOps2_7 : List (HloOp τ sig (Elt F))).Forall fun op => op.fresh = ∅ := by
  simp only [List.Forall]; repeat' constructor

abbrev hostOps2_7_W : List (Ref sig .tc) := [main_call12_v0, main_v43]
theorem hostOps2_7_writes : (hostOps2_7 : List (HloOp τ sig (Elt F))).Forall fun op => op.writes ⊆ (hostOps2_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_8_fresh : (hostOps2_8 : List (HloOp τ sig (Elt F))).Forall fun op => op.fresh = ∅ := by
  simp only [List.Forall]; repeat' constructor

abbrev hostOps2_8_W : List (Ref sig .tc) := [main_v44, main_c_17, main_v45, main_v46, main_c_18, main_v47, main_v48, main_v49, main_v50, main_v51, main_cst_19, main_v52, main_v53, main_v54]
theorem hostOps2_8_writes : (hostOps2_8 : List (HloOp τ sig (Elt F))).Forall fun op => op.writes ⊆ (hostOps2_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

abbrev hostOps3_W : List (Ref sig .tc) := [main_c_20]
theorem hostOps3_writes : (hostOps3 : List (HloOp τ sig (Elt F))).Forall fun op => op.writes ⊆ (hostOps3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_1_fresh : (hostOps3_1 : List (HloOp τ sig (Elt F))).Forall fun op => op.fresh = ∅ := by
  simp only [List.Forall]; repeat' constructor

abbrev hostOps3_1_W : List (Ref sig .tc) := [main_call13_v0, main_v56]
theorem hostOps3_1_writes : (hostOps3_1 : List (HloOp τ sig (Elt F))).Forall fun op => op.writes ⊆ (hostOps3_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_2_fresh : (hostOps3_2 : List (HloOp τ sig (Elt F))).Forall fun op => op.fresh = ∅ := by
  simp only [List.Forall]; repeat' constructor

abbrev hostOps3_2_W : List (Ref sig .tc) := [main_c_21]
theorem hostOps3_2_writes : (hostOps3_2 : List (HloOp τ sig (Elt F))).Forall fun op => op.writes ⊆ (hostOps3_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_3_fresh : (hostOps3_3 : List (HloOp τ sig (Elt F))).Forall fun op => op.fresh = ∅ := by
  simp only [List.Forall]; repeat' constructor

abbrev hostOps3_3_W : List (Ref sig .tc) := [main_call14_v0, main_v57]
theorem hostOps3_3_writes : (hostOps3_3 : List (HloOp τ sig (Elt F))).Forall fun op => op.writes ⊆ (hostOps3_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_4_fresh : (hostOps3_4 : List (HloOp τ sig (Elt F))).Forall fun op => op.fresh = ∅ := by
  simp only [List.Forall]; repeat' constructor

abbrev hostOps3_4_W : List (Ref sig .tc) := [main_v58, main_c_22]
theorem hostOps3_4_writes : (hostOps3_4 : List (HloOp τ sig (Elt F))).Forall fun op => op.writes ⊆ (hostOps3_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_5_fresh : (hostOps3_5 : List (HloOp τ sig (Elt F))).Forall fun op => op.fresh = ∅ := by
  simp only [List.Forall]; repeat' constructor

abbrev hostOps3_5_W : List (Ref sig .tc) := [main_call15_v0, main_v59]
theorem hostOps3_5_writes : (hostOps3_5 : List (HloOp τ sig (Elt F))).Forall fun op => op.writes ⊆ (hostOps3_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_6_fresh : (hostOps3_6 : List (HloOp τ sig (Elt F))).Forall fun op => op.fresh = ∅ := by
  simp only [List.Forall]; repeat' constructor

abbrev hostOps3_6_W : List (Ref sig .tc) := [main_c_23]
theorem hostOps3_6_writes : (hostOps3_6 : List (HloOp τ sig (Elt F))).Forall fun op => op.writes ⊆ (hostOps3_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_7_fresh : (hostOps3_7 : List (HloOp τ sig (Elt F))).Forall fun op => op.fresh = ∅ := by
  simp only [List.Forall]; repeat' constructor

abbrev hostOps3_7_W : List (Ref sig .tc) := [main_call16_v0, main_v60]
theorem hostOps3_7_writes : (hostOps3_7 : List (HloOp τ sig (Elt F))).Forall fun op => op.writes ⊆ (hostOps3_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_8_fresh : (hostOps3_8 : List (HloOp τ sig (Elt F))).Forall fun op => op.fresh = ∅ := by
  simp only [List.Forall]; repeat' constructor

abbrev hostOps3_8_W : List (Ref sig .tc) := [main_v61, main_c_24, main_v62, main_v63, main_c_25, main_v64, main_v65, main_v66, main_v67, main_v68, main_cst_26, main_v69, main_v70, main_v71]
theorem hostOps3_8_writes : (hostOps3_8 : List (HloOp τ sig (Elt F))).Forall fun op => op.writes ⊆ (hostOps3_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor

abbrev hostOps4_W : List (Ref sig .tc) := [main_c_27]
theorem hostOps4_writes : (hostOps4 : List (HloOp τ sig (Elt F))).Forall fun op => op.writes ⊆ (hostOps4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_1_fresh : (hostOps4_1 : List (HloOp τ sig (Elt F))).Forall fun op => op.fresh = ∅ := by
  simp only [List.Forall]; repeat' constructor

abbrev hostOps4_1_W : List (Ref sig .tc) := [main_call17_v0, main_v73]
theorem hostOps4_1_writes : (hostOps4_1 : List (HloOp τ sig (Elt F))).Forall fun op => op.writes ⊆ (hostOps4_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_2_fresh : (hostOps4_2 : List (HloOp τ sig (Elt F))).Forall fun op => op.fresh = ∅ := by
  simp only [List.Forall]; repeat' constructor

abbrev hostOps4_2_W : List (Ref sig .tc) := [main_c_28]
theorem hostOps4_2_writes : (hostOps4_2 : List (HloOp τ sig (Elt F))).Forall fun op => op.writes ⊆ (hostOps4_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_3_fresh : (hostOps4_3 : List (HloOp τ sig (Elt F))).Forall fun op => op.fresh = ∅ := by
  simp only [List.Forall]; repeat' constructor

abbrev hostOps4_3_W : List (Ref sig .tc) := [main_call18_v0, main_v74]
theorem hostOps4_3_writes : (hostOps4_3 : List (HloOp τ sig (Elt F))).Forall fun op => op.writes ⊆ (hostOps4_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_4_fresh : (hostOps4_4 : List (HloOp τ sig (Elt F))).Forall fun op => op.fresh = ∅ := by
  simp only [List.Forall]; repeat' constructor

abbrev hostOps4_4_W : List (Ref sig .tc) := [main_v75, main_c_29]
theorem hostOps4_4_writes : (hostOps4_4 : List (HloOp τ sig (Elt F))).Forall fun op => op.writes ⊆ (hostOps4_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_5_fresh : (hostOps4_5 : List (HloOp τ sig (Elt F))).Forall fun op => op.fresh = ∅ := by
  simp only [List.Forall]; repeat' constructor

abbrev hostOps4_5_W : List (Ref sig .tc) := [main_call19_v0, main_v76]
theorem hostOps4_5_writes : (hostOps4_5 : List (HloOp τ sig (Elt F))).Forall fun op => op.writes ⊆ (hostOps4_5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_6_fresh : (hostOps4_6 : List (HloOp τ sig (Elt F))).Forall fun op => op.fresh = ∅ := by
  simp only [List.Forall]; repeat' constructor

abbrev hostOps4_6_W : List (Ref sig .tc) := [main_c_30]
theorem hostOps4_6_writes : (hostOps4_6 : List (HloOp τ sig (Elt F))).Forall fun op => op.writes ⊆ (hostOps4_6_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_7_fresh : (hostOps4_7 : List (HloOp τ sig (Elt F))).Forall fun op => op.fresh = ∅ := by
  simp only [List.Forall]; repeat' constructor

abbrev hostOps4_7_W : List (Ref sig .tc) := [main_call20_v0, main_v77]
theorem hostOps4_7_writes : (hostOps4_7 : List (HloOp τ sig (Elt F))).Forall fun op => op.writes ⊆ (hostOps4_7_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_8_fresh : (hostOps4_8 : List (HloOp τ sig (Elt F))).Forall fun op => op.fresh = ∅ := by
  simp only [List.Forall]; repeat' constructor

abbrev hostOps4_8_W : List (Ref sig .tc) := [main_v78, main_c_31, main_v79, main_v80, main_c_32, main_v81, main_v82, main_v83, main_v84, main_v85, main_cst_33, main_v86, main_v87, main_v88]
theorem hostOps4_8_writes : (hostOps4_8 : List (HloOp τ sig (Elt F))).Forall fun op => op.writes ⊆ (hostOps4_8_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_fresh : (hostOps5 : List (HloOp τ sig (Elt F))).Forall fun op => op.fresh = ∅ := by
  simp only [List.Forall]; repeat' constructor

abbrev hostOps5_W : List (Ref sig .tc) := [main_c_34]
theorem hostOps5_writes : (hostOps5 : List (HloOp τ sig (Elt F))).Forall fun op => op.writes ⊆ (hostOps5_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_1_fresh : (hostOps5_1 : List (HloOp τ sig (Elt F))).Forall fun op => op.fresh = ∅ := by
  simp only [List.Forall]; repeat' constructor

abbrev hostOps5_1_W : List (Ref sig .tc) := [main_call21_v0, main_v90]
theorem hostOps5_1_writes : (hostOps5_1 : List (HloOp τ sig (Elt F))).Forall fun op => op.writes ⊆ (hostOps5_1_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_2_fresh : (hostOps5_2 : List (HloOp τ sig (Elt F))).Forall fun op => op.fresh = ∅ := by
  simp only [List.Forall]; repeat' constructor

abbrev hostOps5_2_W : List (Ref sig .tc) := [main_c_35]
theorem hostOps5_2_writes : (hostOps5_2 : List (HloOp τ sig (Elt F))).Forall fun op => op.writes ⊆ (hostOps5_2_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_3_fresh : (hostOps5_3 : List (HloOp τ sig (Elt F))).Forall fun op => op.fresh = ∅ := by
  simp only [List.Forall]; repeat' constructor

abbrev hostOps5_3_W : List (Ref sig .tc) := [main_call22_v0, main_v91]
theorem hostOps5_3_writes : (hostOps5_3 : List (HloOp τ sig (Elt F))).Forall fun op => op.writes ⊆ (hostOps5_3_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_4_fresh : (hostOps5_4 : List (HloOp τ sig (Elt F))).Forall fun op => op.fresh = ∅ := by
  simp only [List.Forall]; repeat' constructor

abbrev hostOps5_4_W : List (Ref sig .tc) := [main_v92, main_v93, main_v94, main_v95]
theorem hostOps5_4_writes : (hostOps5_4 : List (HloOp τ sig (Elt F))).Forall fun op => op.writes ⊆ (hostOps5_4_W.map (Proc.devRef (τ := τ) .tc)).toFinset := by
  simp only [List.Forall]; repeat' refine And.intro ?_ ?_
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ hostOps0_5_W) : V6 m c r = V5 m c r :=
  StableHlo.after_of_writes_sub hostOps0_5 _ hostOps0_5_writes h
theorem V7_of (c : Dev nD) (r : Ref sig .tc) (h : r ∉ hostOps0_6_W) : V7 m c r = V6 m c r :=
  StableHlo.after_of_writes_sub hostOps0_6 _ hostOps0_6_writes h
theorem V8_of (c : Dev nD) (r : Ref sig .tc) (h : r ∉ hostOps0_7_W) : V8 m c r = V7 m c r :=
  StableHlo.after_of_writes_sub hostOps0_7 _ hostOps0_7_writes h
theorem V9_of (c : Dev nD) (r : Ref sig .tc) (h : r ∉ hostOps0_8_W) : V9 m c r = V8 m c r :=
  StableHlo.after_of_writes_sub hostOps0_8 _ hostOps0_8_writes h
theorem V10_of (c : Dev nD) (r : Ref sig .tc) (h : r ∉ hostOps0_9_W) : V10 m c r = V9 m c r :=
  StableHlo.after_of_writes_sub hostOps0_9 _ hostOps0_9_writes h
theorem V11_of (c : Dev nD) (r : Ref sig .tc) (h : r ∉ hostOps0_10_W) : V11 m c r = V10 m c r :=
  StableHlo.after_of_writes_sub hostOps0_10 _ hostOps0_10_writes h
theorem V12_of (c : Dev nD) (r : Ref sig .tc) (h : r ∉ ([main_v21] : List (Ref sig .tc))) : V12 m outs c r = V11 m c r := by
  simp only [V12, Function.update_of_ne (StableHlo.devRef_ne_of_ne (List.ne_of_not_mem_cons h) : (Proc.devRef .tc r : DevRef τ sig) ≠ Proc.devRef .tc main_v21)]
theorem V13_of (c : Dev nD) (r : Ref sig .tc) (h : r ∉ hostOps1_W) : V13 m outs c r = V12 m outs c r :=
  StableHlo.after_of_writes_sub hostOps1 _ hostOps1_writes h
theorem V14_of (c : Dev nD) (r : Ref sig .tc) (h : r ∉ hostOps1_1_W) : V14 m outs c r = V13 m outs c r :=
  StableHlo.after_of_writes_sub hostOps1_1 _ hostOps1_1_writes h
theorem V15_of (c : Dev nD) (r : Ref sig .tc) (h : r ∉ hostOps1_2_W) : V15 m outs c r = V14 m outs c r :=
  StableHlo.after_of_writes_sub hostOps1_2 _ hostOps1_2_writes h
theorem V16_of (c : Dev nD) (r : Ref sig .tc) (h : r ∉ hostOps1_3_W) : V16 m outs c r = V15 m outs c r :=
  StableHlo.after_of_writes_sub hostOps1_3 _ hostOps1_3_writes h
theorem V17_of (c : Dev nD) (r : Ref sig .tc) (h : r ∉ hostOps1_4_W) : V17 m outs c r = V16 m outs c r :=
  StableHlo.after_of_writes_sub hostOps1_4 _ hostOps1_4_writes h
theorem V18_of (c : Dev nD) (r : Ref sig .tc) (h : r ∉ hostOps1_5_W) : V18 m outs c r = V17 m outs c r :=
  StableHlo.after_of_writes_sub hostOps1_5 _ hostOps1_5_writes h
theorem V19_of (c : Dev nD) (r : Ref sig .tc) (h : r ∉ hostOps1_6_W) : V19 m outs c r = V18 m outs c r :=
  StableHlo.after_of_writes_sub hostOps1_6 _ hostOps1_6_writes h
theorem V20_of (c : Dev nD) (r : Ref sig .tc) (h : r ∉ hostOps1_7_W) : V20 m outs c r = V19 m outs c r :=
  StableHlo.after_of_writes_sub hostOps1_7 _ hostOps1_7_writes h
theorem V21_of (c : Dev nD) (r : Ref sig .tc) (h : r ∉ hostOps1_8_W) : V21 m outs c r = V20 m outs c r :=
  StableHlo.after_of_writes_sub hostOps1_8 _ hostOps1_8_writes h
theorem V22_of (c : Dev nD) (r : Ref sig .tc) (h : r ∉ ([main_v38] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v38)]
theorem V23_of (c : Dev nD) (r : Ref sig .tc) (h : r ∉ hostOps2_W) : V23 m outs c r = V22 m outs c r :=
  StableHlo.after_of_writes_sub hostOps2 _ hostOps2_writes h
theorem V24_of (c : Dev nD) (r : Ref sig .tc) (h : r ∉ hostOps2_1_W) : V24 m outs c r = V23 m outs c r :=
  StableHlo.after_of_writes_sub hostOps2_1 _ hostOps2_1_writes h
theorem V25_of (c : Dev nD) (r : Ref sig .tc) (h : r ∉ hostOps2_2_W) : V25 m outs c r = V24 m outs c r :=
  StableHlo.after_of_writes_sub hostOps2_2 _ hostOps2_2_writes h
theorem V26_of (c : Dev nD) (r : Ref sig .tc) (h : r ∉ hostOps2_3_W) : V26 m outs c r = V25 m outs c r :=
  StableHlo.after_of_writes_sub hostOps2_3 _ hostOps2_3_writes h
theorem V27_of (c : Dev nD) (r : Ref sig .tc) (h : r ∉ hostOps2_4_W) : V27 m outs c r = V26 m outs c r :=
  StableHlo.after_of_writes_sub hostOps2_4 _ hostOps2_4_writes h
theorem V28_of (c : Dev nD) (r : Ref sig .tc) (h : r ∉ hostOps2_5_W) : V28 m outs c r = V27 m outs c r :=
  StableHlo.after_of_writes_sub hostOps2_5 _ hostOps2_5_writes h
theorem V29_of (c : Dev nD) (r : Ref sig .tc) (h : r ∉ hostOps2_6_W) : V29 m outs c r = V28 m outs c r :=
  StableHlo.after_of_writes_sub hostOps2_6 _ hostOps2_6_writes h
theorem V30_of (c : Dev nD) (r : Ref sig .tc) (h : r ∉ hostOps2_7_W) : V30 m outs c r = V29 m outs c r :=
  StableHlo.after_of_writes_sub hostOps2_7 _ hostOps2_7_writes h
theorem V31_of (c : Dev nD) (r : Ref sig .tc) (h : r ∉ hostOps2_8_W) : V31 m outs c r = V30 m outs c r :=
  StableHlo.after_of_writes_sub hostOps2_8 _ hostOps2_8_writes h
theorem V32_of (c : Dev nD) (r : Ref sig .tc) (h : r ∉ ([main_v55] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v55)]
theorem V33_of (c : Dev nD) (r : Ref sig .tc) (h : r ∉ hostOps3_W) : V33 m outs c r = V32 m outs c r :=
  StableHlo.after_of_writes_sub hostOps3 _ hostOps3_writes h
theorem V34_of (c : Dev nD) (r : Ref sig .tc) (h : r ∉ hostOps3_1_W) : V34 m outs c r = V33 m outs c r :=
  StableHlo.after_of_writes_sub hostOps3_1 _ hostOps3_1_writes h
theorem V35_of (c : Dev nD) (r : Ref sig .tc) (h : r ∉ hostOps3_2_W) : V35 m outs c r = V34 m outs c r :=
  StableHlo.after_of_writes_sub hostOps3_2 _ hostOps3_2_writes h
theorem V36_of (c : Dev nD) (r : Ref sig .tc) (h : r ∉ hostOps3_3_W) : V36 m outs c r = V35 m outs c r :=
  StableHlo.after_of_writes_sub hostOps3_3 _ hostOps3_3_writes h
theorem V37_of (c : Dev nD) (r : Ref sig .tc) (h : r ∉ hostOps3_4_W) : V37 m outs c r = V36 m outs c r :=
  StableHlo.after_of_writes_sub hostOps3_4 _ hostOps3_4_writes h
theorem V38_of (c : Dev nD) (r : Ref sig .tc) (h : r ∉ hostOps3_5_W) : V38 m outs c r = V37 m outs c r :=
  StableHlo.after_of_writes_sub hostOps3_5 _ hostOps3_5_writes h
theorem V39_of (c : Dev nD) (r : Ref sig .tc) (h : r ∉ hostOps3_6_W) : V39 m outs c r = V38 m outs c r :=
  StableHlo.after_of_writes_sub hostOps3_6 _ hostOps3_6_writes h
theorem V40_of (c : Dev nD) (r : Ref sig .tc) (h : r ∉ hostOps3_7_W) : V40 m outs c r = V39 m outs c r :=
  StableHlo.after_of_writes_sub hostOps3_7 _ hostOps3_7_writes h
theorem V41_of (c : Dev nD) (r : Ref sig .tc) (h : r ∉ hostOps3_8_W) : V41 m outs c r = V40 m outs c r :=
  StableHlo.after_of_writes_sub hostOps3_8 _ hostOps3_8_writes h
theorem V42_of (c : Dev nD) (r : Ref sig .tc) (h : r ∉ ([main_v72] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v72)]
theorem V43_of (c : Dev nD) (r : Ref sig .tc) (h : r ∉ hostOps4_W) : V43 m outs c r = V42 m outs c r :=
  StableHlo.after_of_writes_sub hostOps4 _ hostOps4_writes h
theorem V44_of (c : Dev nD) (r : Ref sig .tc) (h : r ∉ hostOps4_1_W) : V44 m outs c r = V43 m outs c r :=
  StableHlo.after_of_writes_sub hostOps4_1 _ hostOps4_1_writes h
theorem V45_of (c : Dev nD) (r : Ref sig .tc) (h : r ∉ hostOps4_2_W) : V45 m outs c r = V44 m outs c r :=
  StableHlo.after_of_writes_sub hostOps4_2 _ hostOps4_2_writes h
theorem V46_of (c : Dev nD) (r : Ref sig .tc) (h : r ∉ hostOps4_3_W) : V46 m outs c r = V45 m outs c r :=
  StableHlo.after_of_writes_sub hostOps4_3 _ hostOps4_3_writes h
theorem V47_of (c : Dev nD) (r : Ref sig .tc) (h : r ∉ hostOps4_4_W) : V47 m outs c r = V46 m outs c r :=
  StableHlo.after_of_writes_sub hostOps4_4 _ hostOps4_4_writes h
theorem V48_of (c : Dev nD) (r : Ref sig .tc) (h : r ∉ hostOps4_5_W) : V48 m outs c r = V47 m outs c r :=
  StableHlo.after_of_writes_sub hostOps4_5 _ hostOps4_5_writes h
theorem V49_of (c : Dev nD) (r : Ref sig .tc) (h : r ∉ hostOps4_6_W) : V49 m outs c r = V48 m outs c r :=
  StableHlo.after_of_writes_sub hostOps4_6 _ hostOps4_6_writes h
theorem V50_of (c : Dev nD) (r : Ref sig .tc) (h : r ∉ hostOps4_7_W) : V50 m outs c r = V49 m outs c r :=
  StableHlo.after_of_writes_sub hostOps4_7 _ hostOps4_7_writes h
theorem V51_of (c : Dev nD) (r : Ref sig .tc) (h : r ∉ hostOps4_8_W) : V51 m outs c r = V50 m outs c r :=
  StableHlo.after_of_writes_sub hostOps4_8 _ hostOps4_8_writes h
theorem V52_of (c : Dev nD) (r : Ref sig .tc) (h : r ∉ ([main_v89] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v89)]
theorem V53_of (c : Dev nD) (r : Ref sig .tc) (h : r ∉ hostOps5_W) : V53 m outs c r = V52 m outs c r :=
  StableHlo.after_of_writes_sub hostOps5 _ hostOps5_writes h
theorem V54_of (c : Dev nD) (r : Ref sig .tc) (h : r ∉ hostOps5_1_W) : V54 m outs c r = V53 m outs c r :=
  StableHlo.after_of_writes_sub hostOps5_1 _ hostOps5_1_writes h
theorem V55_of (c : Dev nD) (r : Ref sig .tc) (h : r ∉ hostOps5_2_W) : V55 m outs c r = V54 m outs c r :=
  StableHlo.after_of_writes_sub hostOps5_2 _ hostOps5_2_writes h
theorem V56_of (c : Dev nD) (r : Ref sig .tc) (h : r ∉ hostOps5_3_W) : V56 m outs c r = V55 m outs c r :=
  StableHlo.after_of_writes_sub hostOps5_3 _ hostOps5_3_writes h
theorem V57_of (c : Dev nD) (r : Ref sig .tc) (h : r ∉ hostOps5_4_W) : V57 m outs c r = V56 m outs c r :=
  StableHlo.after_of_writes_sub hostOps5_4 _ hostOps5_4_writes h
theorem V58_of (c : Dev nD) (r : Ref sig .tc) (h : r ∉ ([main_v96] : List (Ref sig .tc))) : V58 m outs c r = V57 m outs c r := by
  simp only [V58, Function.update_of_ne (StableHlo.devRef_ne_of_ne (List.ne_of_not_mem_cons h) : (Proc.devRef .tc r : DevRef τ sig) ≠ Proc.devRef .tc main_v96)]

abbrev Ws : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, [main_v21], hostOps1_W, hostOps1_1_W, hostOps1_2_W, hostOps1_3_W, hostOps1_4_W, hostOps1_5_W, hostOps1_6_W, hostOps1_7_W, hostOps1_8_W, [main_v38], hostOps2_W, hostOps2_1_W, hostOps2_2_W, hostOps2_3_W, hostOps2_4_W, hostOps2_5_W, hostOps2_6_W, hostOps2_7_W, hostOps2_8_W, [main_v55], hostOps3_W, hostOps3_1_W, hostOps3_2_W, hostOps3_3_W, hostOps3_4_W, hostOps3_5_W, hostOps3_6_W, hostOps3_7_W, hostOps3_8_W, [main_v72], hostOps4_W, hostOps4_1_W, hostOps4_2_W, hostOps4_3_W, hostOps4_4_W, hostOps4_5_W, hostOps4_6_W, hostOps4_7_W, hostOps4_8_W, [main_v89], hostOps5_W, hostOps5_1_W, hostOps5_2_W, hostOps5_3_W, hostOps5_4_W, [main_v96]]

-- A buffer in no stretch's write list, and no region's output, reaches the end as launched.
theorem V58_keep (c : Dev nD) (r : Ref sig .tc) (h : ∀ W ∈ Ws, r ∉ W) :
    V58 m outs c r = m ((c : Thread nD τ).loc r) :=
  (V58_of m outs c r (h _ (by decide))).trans <|
  (V57_of m outs c r (h _ (by decide))).trans <|
  (V56_of m outs c r (h _ (by decide))).trans <|
  (V55_of m outs c r (h _ (by decide))).trans <|
  (V54_of m outs c r (h _ (by decide))).trans <|
  (V53_of m outs c r (h _ (by decide))).trans <|
  (V52_of m outs c r (h _ (by decide))).trans <|
  (V51_of m outs c r (h _ (by decide))).trans <|
  (V50_of m outs c r (h _ (by decide))).trans <|
  (V49_of m outs c r (h _ (by decide))).trans <|
  (V48_of m outs c r (h _ (by decide))).trans <|
  (V47_of m outs c r (h _ (by decide))).trans <|
  (V46_of m outs c r (h _ (by decide))).trans <|
  (V45_of m outs c r (h _ (by decide))).trans <|
  (V44_of m outs c r (h _ (by decide))).trans <|
  (V43_of m outs c r (h _ (by decide))).trans <|
  (V42_of m outs c r (h _ (by decide))).trans <|
  (V41_of m outs c r (h _ (by decide))).trans <|
  (V40_of m outs c r (h _ (by decide))).trans <|
  (V39_of m outs c r (h _ (by decide))).trans <|
  (V38_of m outs c r (h _ (by decide))).trans <|
  (V37_of m outs c r (h _ (by decide))).trans <|
  (V36_of m outs c r (h _ (by decide))).trans <|
  (V35_of m outs c r (h _ (by decide))).trans <|
  (V34_of m outs c r (h _ (by decide))).trans <|
  (V33_of m outs c r (h _ (by decide))).trans <|
  (V32_of m outs c r (h _ (by decide))).trans <|
  (V31_of m outs c r (h _ (by decide))).trans <|
  (V30_of m outs c r (h _ (by decide))).trans <|
  (V29_of m outs c r (h _ (by decide))).trans <|
  (V28_of m outs c r (h _ (by decide))).trans <|
  (V27_of m outs c r (h _ (by decide))).trans <|
  (V26_of m outs c r (h _ (by decide))).trans <|
  (V25_of m outs c r (h _ (by decide))).trans <|
  (V24_of m outs c r (h _ (by decide))).trans <|
  (V23_of m outs c r (h _ (by decide))).trans <|
  (V22_of m outs c r (h _ (by decide))).trans <|
  (V21_of m outs c r (h _ (by decide))).trans <|
  (V20_of m outs c r (h _ (by decide))).trans <|
  (V19_of m outs c r (h _ (by decide))).trans <|
  (V18_of m outs c r (h _ (by decide))).trans <|
  (V17_of m outs c r (h _ (by decide))).trans <|
  (V16_of m outs c r (h _ (by decide))).trans <|
  (V15_of m outs c r (h _ (by decide))).trans <|
  (V14_of m outs c r (h _ (by decide))).trans <|
  (V13_of m outs c r (h _ (by decide))).trans <|
  (V12_of m outs c r (h _ (by decide))).trans <|
  (V11_of m c r (h _ (by decide))).trans <|
  (V10_of m c r (h _ (by decide))).trans <|
  (V9_of m c r (h _ (by decide))).trans <|
  (V8_of m c r (h _ (by decide))).trans <|
  (V7_of m c r (h _ (by decide))).trans <|
  (V6_of m c r (h _ (by decide))).trans <|
  (V5_of m c r (h _ (by decide))).trans <|
  (V4_of m c r (h _ (by decide))).trans <|
  (V3_of m c r (h _ (by decide))).trans <|
  (V2_of m c r (h _ (by decide))).trans <|
  (V1_of m c r (h _ (by decide))).trans rfl

theorem V58_main_arg0 (c : Dev nD) : V58 m outs c main_arg0 = m ((c : Thread nD τ).loc main_arg0) :=
  V58_keep m outs c _ (by decide)
theorem V58_main_arg1 (c : Dev nD) : V58 m outs c main_arg1 = m ((c : Thread nD τ).loc main_arg1) :=
  V58_keep m outs c _ (by decide)
theorem V58_main_arg2 (c : Dev nD) : V58 m outs c main_arg2 = m ((c : Thread nD τ).loc main_arg2) :=
  V58_keep m outs c _ (by decide)
theorem V58_main_arg3 (c : Dev nD) : V58 m outs c main_arg3 = m ((c : Thread nD τ).loc main_arg3) :=
  V58_keep m outs c _ (by decide)
theorem V58_main_arg4 (c : Dev nD) : V58 m outs c main_arg4 = m ((c : Thread nD τ).loc main_arg4) :=
  V58_keep m outs c _ (by decide)
theorem V58_main_arg5 (c : Dev nD) : V58 m outs c main_arg5 = m ((c : Thread nD τ).loc main_arg5) :=
  V58_keep m outs c _ (by decide)
theorem V58_main_arg6 (c : Dev nD) : V58 m outs c main_arg6 = m ((c : Thread nD τ).loc main_arg6) :=
  V58_keep m outs c _ (by decide)
theorem V58_main_arg7 (c : Dev nD) : V58 m outs c main_arg7 = m ((c : Thread nD τ).loc main_arg7) :=
  V58_keep m outs c _ (by decide)
theorem V58_main_arg8 (c : Dev nD) : V58 m outs c main_arg8 = m ((c : Thread nD τ).loc main_arg8) :=
  V58_keep m outs c _ (by decide)
theorem V58_main_arg9 (c : Dev nD) : V58 m outs c main_arg9 = m ((c : Thread nD τ).loc main_arg9) :=
  V58_keep m outs c _ (by decide)
theorem V58_main_arg10 (c : Dev nD) : V58 m outs c main_arg10 = m ((c : Thread nD τ).loc main_arg10) :=
  V58_keep m outs c _ (by decide)
theorem V58_main_arg11 (c : Dev nD) : V58 m outs c main_arg11 = m ((c : Thread nD τ).loc main_arg11) :=
  V58_keep m outs c _ (by decide)
theorem V58_main_arg12 (c : Dev nD) : V58 m outs c main_arg12 = m ((c : Thread nD τ).loc main_arg12) :=
  V58_keep m outs c _ (by decide)
theorem V58_main_arg13 (c : Dev nD) : V58 m outs c main_arg13 = m ((c : Thread nD τ).loc main_arg13) :=
  V58_keep m outs c _ (by decide)
theorem V58_main_arg14 (c : Dev nD) : V58 m outs c main_arg14 = m ((c : Thread nD τ).loc main_arg14) :=
  V58_keep m outs c _ (by decide)
theorem V58_main_arg15 (c : Dev nD) : V58 m outs c main_arg15 = m ((c : Thread nD τ).loc main_arg15) :=
  V58_keep m outs c _ (by decide)
theorem V58_main_arg16 (c : Dev nD) : V58 m outs c main_arg16 = m ((c : Thread nD τ).loc main_arg16) :=
  V58_keep m outs c _ (by decide)
theorem V58_main_arg17 (c : Dev nD) : V58 m outs c main_arg17 = m ((c : Thread nD τ).loc main_arg17) :=
  V58_keep m outs c _ (by decide)
theorem V58_main_arg18 (c : Dev nD) : V58 m outs c main_arg18 = m ((c : Thread nD τ).loc main_arg18) :=
  V58_keep m outs c _ (by decide)
theorem V58_main_arg19 (c : Dev nD) : V58 m outs c main_arg19 = m ((c : Thread nD τ).loc main_arg19) :=
  V58_keep m outs c _ (by decide)
theorem V58_main_arg20 (c : Dev nD) : V58 m outs c main_arg20 = m ((c : Thread nD τ).loc main_arg20) :=
  V58_keep m outs c _ (by decide)
theorem V58_main_arg21 (c : Dev nD) : V58 m outs c main_arg21 = m ((c : Thread nD τ).loc main_arg21) :=
  V58_keep m outs c _ (by decide)
theorem V58_main_arg22 (c : Dev nD) : V58 m outs c main_arg22 = m ((c : Thread nD τ).loc main_arg22) :=
  V58_keep m outs c _ (by decide)
theorem V58_main_arg23 (c : Dev nD) : V58 m outs c main_arg23 = m ((c : Thread nD τ).loc main_arg23) :=
  V58_keep m outs c _ (by decide)
theorem V58_main_arg24 (c : Dev nD) : V58 m outs c main_arg24 = m ((c : Thread nD τ).loc main_arg24) :=
  V58_keep m outs c _ (by decide)
theorem V58_main_arg25 (c : Dev nD) : V58 m outs c main_arg25 = m ((c : Thread nD τ).loc main_arg25) :=
  V58_keep m outs c _ (by decide)
theorem V58_main_arg26 (c : Dev nD) : V58 m outs c main_arg26 = m ((c : Thread nD τ).loc main_arg26) :=
  V58_keep m outs c _ (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 7 → Dev nD → sProp (MT nD τ sig Ix (Elt F) ℕ U Lvl))

-- A host stretch as a segment over the buffers outside every kernel, from the contents it starts at.
def hseg (ops : List (HloOp τ sig (Elt F))) (hs : ops.Forall fun op => op.bufs ⊆ StableHlo.tcRefs τ sig)
    (hf : ops.Forall fun op => op.fresh = ∅) (V : (c : Dev nD) → Valuation τ sig (Elt F))
    (Ej : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V Ej

end Segs

section

variable {Ix : Type} [DecidableEq Ix] {U : Type} [URA U] {Lvl : Type} [Preorder Lvl]

abbrev adm : (p : Fin 6) → (pcfgs (F := F) p).Adm := fun p => (cfgs p).toPCfg_adm

abbrev segs (𝒱₀ : Variants) (L : GSem nD τ sig → Finset Ix) (lv : GSem nD τ sig → Ix → Lvl) (E : Fin 7 → Dev nD → sProp (MT nD τ sig Ix (Elt F) ℕ U Lvl)) (ι : Ix)
    (pdats : (p : Fin 6) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (c : Dev nD) :
    List (Seg (pcfgs (F := F)) adm pdats ι defs₀ 𝒱₀ L lv) :=
  [.host (hseg 𝒱₀ L lv hostOps0 hostOps0_sub hostOps0_fresh (V0 m) (E 0)), .host (hseg 𝒱₀ L lv hostOps0_1 hostOps0_1_sub hostOps0_1_fresh (V1 m) (E 0)), .host (hseg 𝒱₀ L lv hostOps0_2 hostOps0_2_sub hostOps0_2_fresh (V2 m) (E 0)), .host (hseg 𝒱₀ L lv hostOps0_3 hostOps0_3_sub hostOps0_3_fresh (V3 m) (E 0)), .host (hseg 𝒱₀ L lv hostOps0_4 hostOps0_4_sub hostOps0_4_fresh (V4 m) (E 0)), .host (hseg 𝒱₀ L lv hostOps0_5 hostOps0_5_sub hostOps0_5_fresh (V5 m) (E 0)), .host (hseg 𝒱₀ L lv hostOps0_6 hostOps0_6_sub hostOps0_6_fresh (V6 m) (E 0)), .host (hseg 𝒱₀ L lv hostOps0_7 hostOps0_7_sub hostOps0_7_fresh (V7 m) (E 0)), .host (hseg 𝒱₀ L lv hostOps0_8 hostOps0_8_sub hostOps0_8_fresh (V8 m) (E 0)), .host (hseg 𝒱₀ L lv hostOps0_9 hostOps0_9_sub hostOps0_9_fresh (V9 m) (E 0)), .host (hseg 𝒱₀ L lv hostOps0_10 hostOps0_10_sub hostOps0_10_fresh (V10 m) (E 0)), .region R0, .host (hseg 𝒱₀ L lv hostOps1 hostOps1_sub hostOps1_fresh (V12 m outs) (E 1)), .host (hseg 𝒱₀ L lv hostOps1_1 hostOps1_1_sub hostOps1_1_fresh (V13 m outs) (E 1)), .host (hseg 𝒱₀ L lv hostOps1_2 hostOps1_2_sub hostOps1_2_fresh (V14 m outs) (E 1)), .host (hseg 𝒱₀ L lv hostOps1_3 hostOps1_3_sub hostOps1_3_fresh (V15 m outs) (E 1)), .host (hseg 𝒱₀ L lv hostOps1_4 hostOps1_4_sub hostOps1_4_fresh (V16 m outs) (E 1)), .host (hseg 𝒱₀ L lv hostOps1_5 hostOps1_5_sub hostOps1_5_fresh (V17 m outs) (E 1)), .host (hseg 𝒱₀ L lv hostOps1_6 hostOps1_6_sub hostOps1_6_fresh (V18 m outs) (E 1)), .host (hseg 𝒱₀ L lv hostOps1_7 hostOps1_7_sub hostOps1_7_fresh (V19 m outs) (E 1)), .host (hseg 𝒱₀ L lv hostOps1_8 hostOps1_8_sub hostOps1_8_fresh (V20 m outs) (E 1)), .region R1, .host (hseg 𝒱₀ L lv hostOps2 hostOps2_sub hostOps2_fresh (V22 m outs) (E 2)), .host (hseg 𝒱₀ L lv hostOps2_1 hostOps2_1_sub hostOps2_1_fresh (V23 m outs) (E 2)), .host (hseg 𝒱₀ L lv hostOps2_2 hostOps2_2_sub hostOps2_2_fresh (V24 m outs) (E 2)), .host (hseg 𝒱₀ L lv hostOps2_3 hostOps2_3_sub hostOps2_3_fresh (V25 m outs) (E 2)), .host (hseg 𝒱₀ L lv hostOps2_4 hostOps2_4_sub hostOps2_4_fresh (V26 m outs) (E 2)), .host (hseg 𝒱₀ L lv hostOps2_5 hostOps2_5_sub hostOps2_5_fresh (V27 m outs) (E 2)), .host (hseg 𝒱₀ L lv hostOps2_6 hostOps2_6_sub hostOps2_6_fresh (V28 m outs) (E 2)), .host (hseg 𝒱₀ L lv hostOps2_7 hostOps2_7_sub hostOps2_7_fresh (V29 m outs) (E 2)), .host (hseg 𝒱₀ L lv hostOps2_8 hostOps2_8_sub hostOps2_8_fresh (V30 m outs) (E 2)), .region R2, .host (hseg 𝒱₀ L lv hostOps3 hostOps3_sub hostOps3_fresh (V32 m outs) (E 3)), .host (hseg 𝒱₀ L lv hostOps3_1 hostOps3_1_sub hostOps3_1_fresh (V33 m outs) (E 3)), .host (hseg 𝒱₀ L lv hostOps3_2 hostOps3_2_sub hostOps3_2_fresh (V34 m outs) (E 3)), .host (hseg 𝒱₀ L lv hostOps3_3 hostOps3_3_sub hostOps3_3_fresh (V35 m outs) (E 3)), .host (hseg 𝒱₀ L lv hostOps3_4 hostOps3_4_sub hostOps3_4_fresh (V36 m outs) (E 3)), .host (hseg 𝒱₀ L lv hostOps3_5 hostOps3_5_sub hostOps3_5_fresh (V37 m outs) (E 3)), .host (hseg 𝒱₀ L lv hostOps3_6 hostOps3_6_sub hostOps3_6_fresh (V38 m outs) (E 3)), .host (hseg 𝒱₀ L lv hostOps3_7 hostOps3_7_sub hostOps3_7_fresh (V39 m outs) (E 3)), .host (hseg 𝒱₀ L lv hostOps3_8 hostOps3_8_sub hostOps3_8_fresh (V40 m outs) (E 3)), .region R3, .host (hseg 𝒱₀ L lv hostOps4 hostOps4_sub hostOps4_fresh (V42 m outs) (E 4)), .host (hseg 𝒱₀ L lv hostOps4_1 hostOps4_1_sub hostOps4_1_fresh (V43 m outs) (E 4)), .host (hseg 𝒱₀ L lv hostOps4_2 hostOps4_2_sub hostOps4_2_fresh (V44 m outs) (E 4)), .host (hseg 𝒱₀ L lv hostOps4_3 hostOps4_3_sub hostOps4_3_fresh (V45 m outs) (E 4)), .host (hseg 𝒱₀ L lv hostOps4_4 hostOps4_4_sub hostOps4_4_fresh (V46 m outs) (E 4)), .host (hseg 𝒱₀ L lv hostOps4_5 hostOps4_5_sub hostOps4_5_fresh (V47 m outs) (E 4)), .host (hseg 𝒱₀ L lv hostOps4_6 hostOps4_6_sub hostOps4_6_fresh (V48 m outs) (E 4)), .host (hseg 𝒱₀ L lv hostOps4_7 hostOps4_7_sub hostOps4_7_fresh (V49 m outs) (E 4)), .host (hseg 𝒱₀ L lv hostOps4_8 hostOps4_8_sub hostOps4_8_fresh (V50 m outs) (E 4)), .region R4, .host (hseg 𝒱₀ L lv hostOps5 hostOps5_sub hostOps5_fresh (V52 m outs) (E 5)), .host (hseg 𝒱₀ L lv hostOps5_1 hostOps5_1_sub hostOps5_1_fresh (V53 m outs) (E 5)), .host (hseg 𝒱₀ L lv hostOps5_2 hostOps5_2_sub hostOps5_2_fresh (V54 m outs) (E 5)), .host (hseg 𝒱₀ L lv hostOps5_3 hostOps5_3_sub hostOps5_3_fresh (V55 m outs) (E 5)), .host (hseg 𝒱₀ L lv hostOps5_4 hostOps5_4_sub hostOps5_4_fresh (V56 m outs) (E 5)), .region R5]

end

end Cert.KernelIdeal.GenP

end
-- ==== Proof.KI.Gin0.lean ====
/- One layer's kernel region at the contents it is entered with: each window's block at a grid point, what the body leaves in the output block (the layer's arithmetic on the six input blocks), and that the body does so. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0
abbrev r0_mat : Rect S128x128 := Rect.unit (s := S128x128) ![0, 0] S128x128.size inb_S128x128_S128x128_0_0
abbrev r0_vec : Rect S1x128 := Rect.unit (s := S1x128) ![0, 0] S1x128.size inb_S1x128_S1x128_0_0

def out0_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r0_rows, k0_pay1 (View.ld x0 r0_rows) (View.ld x1 r0_rows) (View.ld x2 r0_mat) (View.ld x3 r0_vec) (View.ld x4 r0_mat) (View.ld x5 r0_vec)⟩]

theorem cover0_6 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_layer_kernel i arg1 harg1 arg2 harg2 arg3 harg3 arg4 harg4 arg5 harg5 arg6 harg6 arg7 harg7) K := by
  simp only [cc0__gin_layer_kernel_eq_skeleton]; unfold cc0__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Gin1.lean ====
/- One layer's kernel region at the contents it is entered with: each window's block at a grid point, what the body leaves in the output block (the layer's arithmetic on the six input blocks), and that the body does so. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0
abbrev r1_mat : Rect S128x128 := Rect.unit (s := S128x128) ![0, 0] S128x128.size inb_S128x128_S128x128_0_0
abbrev r1_vec : Rect S1x128 := Rect.unit (s := S1x128) ![0, 0] S1x128.size inb_S1x128_S1x128_0_0

def out1_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r1_rows, k1_pay1 (View.ld x0 r1_rows) (View.ld x1 r1_rows) (View.ld x2 r1_mat) (View.ld x3 r1_vec) (View.ld x4 r1_mat) (View.ld x5 r1_vec)⟩]

theorem cover1_6 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in

theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_layer_kernel i arg1 harg1 arg2 harg2 arg3 harg3 arg4 harg4 arg5 harg5 arg6 harg6 arg7 harg7) K := by
  simp only [cc1__gin_layer_kernel_eq_skeleton]; unfold cc1__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Gin2.lean ====
/- One layer's kernel region at the contents it is entered with: each window's block at a grid point, what the body leaves in the output block (the layer's arithmetic on the six input blocks), and that the body does so. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_rows : Rect S5000x128 := Rect.unit (s := S5000x128) ![0, 0] S5000x128.size inb_S5000x128_S5000x128_0_0
abbrev r2_mat : Rect S128x128 := Rect.unit (s := S128x128) ![0, 0] S128x128.size inb_S128x128_S128x128_0_0
abbrev r2_vec : Rect S1x128 := Rect.unit (s := S1x128) ![0, 0] S1x128.size inb_S1x128_S1x128_0_0

def out2_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r2_rows, k2_pay1 (View.ld x0 r2_rows) (View.ld x1 r2_rows) (View.ld x2 r2_mat) (View.ld x3 r2_vec) (View.ld x4 r2_mat) (View.ld x5 r2_vec)⟩]

theorem cover2_6 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 1000000 in

theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_layer_kernel i arg1 harg1 arg2 harg2 arg3 harg3 arg4 harg4 arg5 harg5 arg6 harg6 arg7 harg7) K := by
  simp only [cc2__gin_layer_kernel_eq_skeleton]; unfold cc2__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Gin3.lean ====
/- One layer's kernel region at the contents it is entered with: each window's block at a grid point, what the body leaves in the output block (the layer's arithmetic on the six input blocks), and that the body does so. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_rows : Rect S5000x128 := Rect.unit (s := S5000x128) ![0, 0] S5000x128.size inb_S5000x128_S5000x128_0_0
abbrev r3_mat : Rect S128x128 := Rect.unit (s := S128x128) ![0, 0] S128x128.size inb_S128x128_S128x128_0_0
abbrev r3_vec : Rect S1x128 := Rect.unit (s := S1x128) ![0, 0] S1x128.size inb_S1x128_S1x128_0_0

def out3_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r3_rows, k3_pay1 (View.ld x0 r3_rows) (View.ld x1 r3_rows) (View.ld x2 r3_mat) (View.ld x3 r3_vec) (View.ld x4 r3_mat) (View.ld x5 r3_vec)⟩]

theorem cover3_6 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_layer_kernel i arg1 harg1 arg2 harg2 arg3 harg3 arg4 harg4 arg5 harg5 arg6 harg6 arg7 harg7) K := by
  simp only [cc3__gin_layer_kernel_eq_skeleton]; unfold cc3__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KI.Gin4.lean ====
/- One layer's kernel region at the contents it is entered with: each window's block at a grid point, what the body leaves in the output block (the layer's arithmetic on the six input blocks), and that the body does so. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_rows : Rect S5000x128 := Rect.unit (s := S5000x128) ![0, 0] S5000x128.size inb_S5000x128_S5000x128_0_0
abbrev r4_mat : Rect S128x128 := Rect.unit (s := S128x128) ![0, 0] S128x128.size inb_S128x128_S128x128_0_0
abbrev r4_vec : Rect S1x128 := Rect.unit (s := S1x128) ![0, 0] S1x128.size inb_S1x128_S1x128_0_0

def out4_6 (x0 x1 : Vec F S5000x128 .f32) (x2 : Vec F S128x128 .f32) (x3 : Vec F S1x128 .f32) (x4 : Vec F S128x128 .f32) (x5 : Vec F S1x128 .f32) : Vec F S5000x128 .f32 :=
  View.canon [⟨r4_rows, k4_pay1 (View.ld x0 r4_rows) (View.ld x1 r4_rows) (View.ld x2 r4_mat) (View.ld x3 r4_vec) (View.ld x4 r4_mat) (View.ld x5 r4_vec)⟩]

theorem cover4_6 (p0 : Vec F S5000x128 .f32) (y : S5000x128.Idx) :
    ∃ pc ∈ ([⟨r4_rows, p0⟩] : List (View.Piece (Elt F) S5000x128 .f32)), y ∈ pc.1.set :=
  View.cover_of_tiled [⟨r4_rows, p0⟩] S5000x128.size (by rfl) y

set_option maxHeartbeats 1000000 in

theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__gin_layer_kernel i arg1 harg1 arg2 harg2 arg3 harg3 arg4 harg4 arg5 harg5 arg6 harg6 arg7 harg7) K := by
  simp only [cc4__gin_layer_kernel_eq_skeleton]; unfold cc4__gin_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t =
    out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.Fin5Runs.lean ====
/- The final region: what the three cases of its body share. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 100 = 0 :=
  (by decide +kernel : ∀ t : Fin grid5.N, cond5_0 (grid5.coords t) ↔ t.val % 100 = 0)

abbrev cond5_1 (i : grid5.Coords) : Prop := k5_cond2 i = 1#1

theorem hcond5_1 : ∀ t : Fin cfg5.N, cond5_1 (grid5.coords t) ↔ t.val % 100 = 99 :=
  (by decide +kernel : ∀ t : Fin grid5.N, cond5_1 (grid5.coords t) ↔ t.val % 100 = 99)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl
theorem liveAt5_5 : ∀ t : Fin cfg5.N, cfg5.idle 5 (grid5.coords t) = false := fun _ => rfl

theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel

theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel

theorem liveAt5_6_C : ∀ t : Fin cfg5.N, ¬cond5_0 (grid5.coords t) → cond5_1 (grid5.coords t) → cfg5.idle 6 (grid5.coords t) = false := by decide +kernel

abbrev VO5_6 : View sig .tc .vmem S512x120 .f32 := (Memref.whole cc5_stg6_0 : Memref sig .tc .vmem S512x120 .f32).view

abbrev ms5_0 (t : Fin cfg5.N) : Memref sig .tc .vmem S1000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x120 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x120 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S512x120 .f32 := win5_6.stage (cfg5.slots t 6)
abbrev hs5_6 (t : Fin cfg5.N) : (ms5_6 t).IsWhole := hstage5_6 ((cfg5.slots t 6).cast nbuf5_6)

abbrev scM5_0 : Memref sig .tc .vmem S512x128 .f32 := Memref.whole cc5_scratch0

abbrev VS5_0 : View sig .tc .vmem S512x128 .f32 := scM5_0.view

theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Region

end Cert.KernelIdeal.Hand

end
-- ==== Proof.KI.Fin5Run.lean ====
/- The final kernel's body in its three cases: first point, middle point, last point. -/
import proofs.«420535_j82145544503553_2_alg».proof.Proof.KI.Fin5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun5_A (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) :
    Σ' (L6 : List (View.Piece (Elt F) S512x120 .f32)), { LS0 : List (View.Piece (Elt F) S512x128 .f32) //
      ∀ (xi6 : Vec F S512x120 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨[], ?_, fun xi6 E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in

noncomputable def kernelRun5_B (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    Σ' (L6 : List (View.Piece (Elt F) S512x120 .f32)), { LS0 : List (View.Piece (Elt F) S512x128 .f32) //
      ∀ (xi6 : Vec F S512x120 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨[], ?_, fun xi6 E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 1000000 in

noncomputable def kernelRun5_C (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    Σ' (L6 : List (View.Piece (Elt F) S512x120 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc5__final_kernel i arg1 harg1 arg2 harg2 arg3 harg3 arg4 harg4 arg5 harg5 arg6 harg6 arg7 harg7 arg8 harg8) K } := by
  refine ⟨?_, ?_, fun E K => ?run⟩
  case run =>
    simp only [cc5__final_kernel_eq_skeleton]; unfold cc5__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KI.Fin5.lean ====
/- The final region: what the output block and the carried accumulator hold point by point, and that the body at each point does so. -/
import proofs.«420535_j82145544503553_2_alg».proof.Proof.KI.Fin5Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def out5_A_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) : Vec F S512x120 .f32 :=
  VO5_6.read (Elt F) (VO5_6.writes (Elt F) VO5_6.junk (kernelRun5_A c i arg1 harg1 arg2 harg2 arg3 harg3 arg4 harg4 arg5 harg5 arg6 harg6 arg7 harg7 arg8 harg8 hc0 hc1 x0 x1 x2 x3 x4 x5).1)

theorem scover5_A_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (y : S512x128.Idx) :
    ∃ pc ∈ (kernelRun5_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun5_A c i arg1 harg1 arg2 harg2 arg3 harg3 arg4 harg4 arg5 harg5 arg6 harg6 arg7 harg7 arg8 harg8 hc0 hc1 x0 x1 x2 x3 x4 x5).2.1 S512x128.size (by sl_kernel_rfl) y

def sout5_A_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) : Vec F S512x128 .f32 :=
  VS5_0.read (Elt F) (VS5_0.writes (Elt F) VS5_0.junk (kernelRun5_A c i arg1 harg1 arg2 harg2 arg3 harg3 arg4 harg4 arg5 harg5 arg6 harg6 arg7 harg7 arg8 harg8 hc0 hc1 x0 x1 x2 x3 x4 x5).2.1)

def out5_B_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x120 .f32 :=
  VO5_6.read (Elt F) (VO5_6.writes (Elt F) VO5_6.junk (kernelRun5_B c i arg1 harg1 arg2 harg2 arg3 harg3 arg4 harg4 arg5 harg5 arg6 harg6 arg7 harg7 arg8 harg8 hc0 hc1 x0 x1 x2 x3 x4 x5 xs0).1)

theorem scover5_B_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x128.Idx) :
    ∃ pc ∈ (kernelRun5_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun5_B c i arg1 harg1 arg2 harg2 arg3 harg3 arg4 harg4 arg5 harg5 arg6 harg6 arg7 harg7 arg8 harg8 hc0 hc1 x0 x1 x2 x3 x4 x5 xs0).2.1 S512x128.size (by sl_kernel_rfl) y

def sout5_B_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x128 .f32 :=
  VS5_0.read (Elt F) (VS5_0.writes (Elt F) VS5_0.junk (kernelRun5_B c i arg1 harg1 arg2 harg2 arg3 harg3 arg4 harg4 arg5 harg5 arg6 harg6 arg7 harg7 arg8 harg8 hc0 hc1 x0 x1 x2 x3 x4 x5 xs0).2.1)

theorem cover5_C_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x120.Idx) :
    ∃ pc ∈ (kernelRun5_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun5_C c i arg1 harg1 arg2 harg2 arg3 harg3 arg4 harg4 arg5 harg5 arg6 harg6 arg7 harg7 arg8 harg8 hc0 hc1 x0 x1 x2 x3 x4 x5 xs0).1 S512x120.size (by sl_kernel_rfl) y

def out5_C_6 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x120 .f32 :=
  VO5_6.read (Elt F) (VO5_6.writes (Elt F) VO5_6.junk (kernelRun5_C c i arg1 harg1 arg2 harg2 arg3 harg3 arg4 harg4 arg5 harg5 arg6 harg6 arg7 harg7 arg8 harg8 hc0 hc1 x0 x1 x2 x3 x4 x5 xs0).1)

theorem scover5_C_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) (y : S512x128.Idx) :
    ∃ pc ∈ (kernelRun5_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun5_C c i arg1 harg1 arg2 harg2 arg3 harg3 arg4 harg4 arg5 harg5 arg6 harg6 arg7 harg7 arg8 harg8 hc0 hc1 x0 x1 x2 x3 x4 x5 xs0).2.1 S512x128.size (by sl_kernel_rfl) y

def sout5_C_0 (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) : Vec F S512x128 .f32 :=
  VS5_0.read (Elt F) (VS5_0.writes (Elt F) VS5_0.junk (kernelRun5_C c i arg1 harg1 arg2 harg2 arg3 harg3 arg4 harg4 arg5 harg5 arg6 harg6 arg7 harg7 arg8 harg8 hc0 hc1 x0 x1 x2 x3 x4 x5 xs0).2.1)

def outsAt5 (c : Dev nD) : (n : ℕ) → n < cfg5.N → Vec F S512x120 .f32 × Vec F S512x128 .f32
  | 0, hn => (out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩))
  | n + 1, hn =>
    if h0 : (n + 1) % 100 = 0 then
      if h1 : (n + 1) % 100 = 99 then
        False.elim (by have hN : n + 1 < 100 := lt_of_lt_of_eq hn (show cfg5.N = 100 from N_5); omega)
      else
        (out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩))
    else
      if h1 : (n + 1) % 100 = 99 then
        (out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)
      else
        (out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2)

theorem outsAt5_A (c : Dev nD) (t : Fin cfg5.N) (h0 : t.val % 100 = 0) (h1 : ¬t.val % 100 = 99) :
    outsAt5 V c t.val t.isLt = (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t)) := by
  obtain ⟨n, hn⟩ := t
  cases n with
  | zero => exact rfl
  | succ n => exact (dif_pos h0).trans ((dif_neg h1).trans rfl)

theorem outsAt5_B (c : Dev nD) (t : Fin cfg5.N) (h0 : ¬t.val % 100 = 0) (h1 : ¬t.val % 100 = 99) :
    outsAt5 V c t.val t.isLt = (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 100 = 0) (h1 : t.val % 100 = 99) :
    outsAt5 V c t.val t.isLt = (out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q5 (c : Dev nD) : (dat5 V c).q = fun _ => fullShare := by dsimp only [dat5]
theorem owed5 (c : Dev nD) : (dat5 V c).owed = fun _ => 0 := by dsimp only [dat5]
theorem recorded5 (c : Dev nD) : (dat5 V c).recorded = fun _ => Set.univ := by dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  have hN : t.val < 100 := lt_of_lt_of_eq t.isLt (show cfg5.N = 100 from N_5)
  by_cases h0 : t.val % 100 = 0
  · by_cases h1 : t.val % 100 = 99
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · exfalso; omega
  · by_cases h1 : t.val % 100 = 99
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [show (dat5 V c).leavesExact 6 t = owns (c : Thread nD τ) (ms5_6 t) fullShare ((dat5 V c).after 6 t) from by
        unfold Dat.leavesExact; rw [liveAt5_6_C t (fun h => h0 ((hcond5_0 t).mp h)) ((hcond5_1 t).mpr h1)], after5_6]
      rw [outsAt5_C V c t h0 h1]
      unfold out5_C_6 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_C c (grid5.coords t) _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover5_C_6 c _ _ _ _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5 t], after5_5]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_B c (grid5.coords t) _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

theorem hout5 (c : Dev nD) : (dat5 V c).Φ (Fin.last cfg5.N) ⊢ Pipeline.ΦA spec5 c :=
  Phi_out5 V c _ (by rw [Fin.val_last]; have : cfg5.N = 100 := N_5; omega)

end Region

end Cert.KernelIdeal.Hand

end
-- ==== Proof.KI.Run.lean ====
/- The run of @main region by region: the contents each region is entered with, the six regions as segments, and the launch over them. -/
import proofs.«420535_j82145544503553_2_alg».proof.Proof.Gen.KernelIdeal.Launch
import proofs.«420535_j82145544503553_2_alg».proof.Proof.Gen.KernelIdeal.Skeleton
import proofs.«420535_j82145544503553_2_alg».proof.Proof.Gen.KernelIdeal.Points
import proofs.«420535_j82145544503553_2_alg».proof.Proof.KernelIdealRegions
import proofs.«420535_j82145544503553_2_alg».proof.Proof.KI.Gin0
import proofs.«420535_j82145544503553_2_alg».proof.Proof.KI.Gin1
import proofs.«420535_j82145544503553_2_alg».proof.Proof.KI.Gin2
import proofs.«420535_j82145544503553_2_alg».proof.Proof.KI.Gin3
import proofs.«420535_j82145544503553_2_alg».proof.Proof.KI.Gin4
import proofs.«420535_j82145544503553_2_alg».proof.Proof.KI.Fin5
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def setOut (o : Outs (F := F)) (J : ℕ) (r : Ref sig .tc) (x : (c : Dev nD) → Buf (Elt F) ((c : Thread nD τ).loc r)) : Outs (F := F) :=
  Function.update o J (Function.update (o J) r x)

theorem setOut_self (o : Outs (F := F)) (J : ℕ) (r : Ref sig .tc) (x : (c : Dev nD) → Buf (Elt F) ((c : Thread nD τ).loc r)) (c : Dev nD) :
    setOut o J r x J r c = x c := by
  unfold setOut; rw [Function.update_self, Function.update_self]

theorem setOut_of_ne (o : Outs (F := F)) (J J' : ℕ) (r r' : Ref sig .tc) (x : (c : Dev nD) → Buf (Elt F) ((c : Thread nD τ).loc r)) (c : Dev nD)
    (h : J' ≠ J) : setOut o J r x J' r' c = o J' r' c := by
  unfold setOut; rw [Function.update_of_ne h]

section Congr
variable (o o' : Outs (F := F)) (c : Dev nD)
theorem V21_congr (h12 : o 12 main_v21 c = o' 12 main_v21 c) : V21 m o c = V21 m o' c := by
  unfold V21 V20 V19 V18 V17 V16 V15 V14 V13 V12; rw [h12]
theorem V31_congr (h12 : o 12 main_v21 c = o' 12 main_v21 c) (h22 : o 22 main_v38 c = o' 22 main_v38 c) : V31 m o c = V31 m o' c := by
  unfold V31 V30 V29 V28 V27 V26 V25 V24 V23 V22; rw [V21_congr m o o' c h12, h22]
theorem V41_congr (h12 : o 12 main_v21 c = o' 12 main_v21 c) (h22 : o 22 main_v38 c = o' 22 main_v38 c) (h32 : o 32 main_v55 c = o' 32 main_v55 c) : V41 m o c = V41 m o' c := by
  unfold V41 V40 V39 V38 V37 V36 V35 V34 V33 V32; rw [V31_congr m o o' c h12 h22, h32]
theorem V51_congr (h12 : o 12 main_v21 c = o' 12 main_v21 c) (h22 : o 22 main_v38 c = o' 22 main_v38 c) (h32 : o 32 main_v55 c = o' 32 main_v55 c) (h42 : o 42 main_v72 c = o' 42 main_v72 c) : V51 m o c = V51 m o' c := by
  unfold V51 V50 V49 V48 V47 V46 V45 V44 V43 V42; rw [V41_congr m o o' c h12 h22 h32, h42]
theorem V57_congr (h12 : o 12 main_v21 c = o' 12 main_v21 c) (h22 : o 22 main_v38 c = o' 22 main_v38 c) (h32 : o 32 main_v55 c = o' 32 main_v55 c) (h42 : o 42 main_v72 c = o' 42 main_v72 c) (h52 : o 52 main_v89 c = o' 52 main_v89 c) : V57 m o c = V57 m o' c := by
  unfold V57 V56 V55 V54 V53 V52; rw [V51_congr m o o' c h12 h22 h32 h42, h52]
end Congr

def Vin0 : (c : Dev nD) → (b : Ref sig .tc) → Buf (Elt F) ((c : Thread nD τ).loc b) := fun c b => V11 m c b

def out0 (c : Dev nD) : Buf (Elt F) ((c : Thread nD τ).loc main_v21) := (dat0 (Vin0 m) c).arrAt 6 cfg0.N

def outs0 : Outs (F := F) := setOut (fun _ r c => m ((c : Thread nD τ).loc r)) 12 main_v21 (out0 m)

def Vin1 : (c : Dev nD) → (b : Ref sig .tc) → Buf (Elt F) ((c : Thread nD τ).loc b) := fun c b => V21 m (outs0 m) c b

def out1 (c : Dev nD) : Buf (Elt F) ((c : Thread nD τ).loc main_v38) := (dat1 (Vin1 m) c).arrAt 6 cfg1.N

def outs1 : Outs (F := F) := setOut (outs0 m) 22 main_v38 (out1 m)

def Vin2 : (c : Dev nD) → (b : Ref sig .tc) → Buf (Elt F) ((c : Thread nD τ).loc b) := fun c b => V31 m (outs1 m) c b

def out2 (c : Dev nD) : Buf (Elt F) ((c : Thread nD τ).loc main_v55) := (dat2 (Vin2 m) c).arrAt 6 cfg2.N

def outs2 : Outs (F := F) := setOut (outs1 m) 32 main_v55 (out2 m)

def Vin3 : (c : Dev nD) → (b : Ref sig .tc) → Buf (Elt F) ((c : Thread nD τ).loc b) := fun c b => V41 m (outs2 m) c b

def out3 (c : Dev nD) : Buf (Elt F) ((c : Thread nD τ).loc main_v72) := (dat3 (Vin3 m) c).arrAt 6 cfg3.N

def outs3 : Outs (F := F) := setOut (outs2 m) 42 main_v72 (out3 m)

def Vin4 : (c : Dev nD) → (b : Ref sig .tc) → Buf (Elt F) ((c : Thread nD τ).loc b) := fun c b => V51 m (outs3 m) c b

def out4 (c : Dev nD) : Buf (Elt F) ((c : Thread nD τ).loc main_v89) := (dat4 (Vin4 m) c).arrAt 6 cfg4.N

def outs4 : Outs (F := F) := setOut (outs3 m) 52 main_v89 (out4 m)

def Vin5 : (c : Dev nD) → (b : Ref sig .tc) → Buf (Elt F) ((c : Thread nD τ).loc b) := fun c b => V57 m (outs4 m) c b

def out5 (c : Dev nD) : Buf (Elt F) ((c : Thread nD τ).loc main_v96) := (dat5 (Vin5 m) c).arrAt 6 cfg5.N

def outs5 : Outs (F := F) := setOut (outs4 m) 58 main_v96 (out5 m)

abbrev outs : Outs (F := F) := outs5 m

theorem outs0_12 (c : Dev nD) : outs0 m 12 main_v21 c = out0 m c := setOut_self _ _ _ _ c
theorem outs1_12 (c : Dev nD) : outs1 m 12 main_v21 c = out0 m c := (setOut_of_ne _ _ _ _ _ _ c (by decide)).trans (outs0_12 m c)
theorem outs1_22 (c : Dev nD) : outs1 m 22 main_v38 c = out1 m c := setOut_self _ _ _ _ c
theorem outs2_12 (c : Dev nD) : outs2 m 12 main_v21 c = out0 m c := (setOut_of_ne _ _ _ _ _ _ c (by decide)).trans (outs1_12 m c)
theorem outs2_22 (c : Dev nD) : outs2 m 22 main_v38 c = out1 m c := (setOut_of_ne _ _ _ _ _ _ c (by decide)).trans (outs1_22 m c)
theorem outs2_32 (c : Dev nD) : outs2 m 32 main_v55 c = out2 m c := setOut_self _ _ _ _ c
theorem outs3_12 (c : Dev nD) : outs3 m 12 main_v21 c = out0 m c := (setOut_of_ne _ _ _ _ _ _ c (by decide)).trans (outs2_12 m c)
theorem outs3_22 (c : Dev nD) : outs3 m 22 main_v38 c = out1 m c := (setOut_of_ne _ _ _ _ _ _ c (by decide)).trans (outs2_22 m c)
theorem outs3_32 (c : Dev nD) : outs3 m 32 main_v55 c = out2 m c := (setOut_of_ne _ _ _ _ _ _ c (by decide)).trans (outs2_32 m c)
theorem outs3_42 (c : Dev nD) : outs3 m 42 main_v72 c = out3 m c := setOut_self _ _ _ _ c
theorem outs4_12 (c : Dev nD) : outs4 m 12 main_v21 c = out0 m c := (setOut_of_ne _ _ _ _ _ _ c (by decide)).trans (outs3_12 m c)
theorem outs4_22 (c : Dev nD) : outs4 m 22 main_v38 c = out1 m c := (setOut_of_ne _ _ _ _ _ _ c (by decide)).trans (outs3_22 m c)
theorem outs4_32 (c : Dev nD) : outs4 m 32 main_v55 c = out2 m c := (setOut_of_ne _ _ _ _ _ _ c (by decide)).trans (outs3_32 m c)
theorem outs4_42 (c : Dev nD) : outs4 m 42 main_v72 c = out3 m c := (setOut_of_ne _ _ _ _ _ _ c (by decide)).trans (outs3_42 m c)
theorem outs4_52 (c : Dev nD) : outs4 m 52 main_v89 c = out4 m c := setOut_self _ _ _ _ c
theorem outs5_12 (c : Dev nD) : outs5 m 12 main_v21 c = out0 m c := (setOut_of_ne _ _ _ _ _ _ c (by decide)).trans (outs4_12 m c)
theorem outs5_22 (c : Dev nD) : outs5 m 22 main_v38 c = out1 m c := (setOut_of_ne _ _ _ _ _ _ c (by decide)).trans (outs4_22 m c)
theorem outs5_32 (c : Dev nD) : outs5 m 32 main_v55 c = out2 m c := (setOut_of_ne _ _ _ _ _ _ c (by decide)).trans (outs4_32 m c)
theorem outs5_42 (c : Dev nD) : outs5 m 42 main_v72 c = out3 m c := (setOut_of_ne _ _ _ _ _ _ c (by decide)).trans (outs4_42 m c)
theorem outs5_52 (c : Dev nD) : outs5 m 52 main_v89 c = out4 m c := (setOut_of_ne _ _ _ _ _ _ c (by decide)).trans (outs4_52 m c)
theorem outs5_58 (c : Dev nD) : outs5 m 58 main_v96 c = out5 m c := setOut_self _ _ _ _ c

theorem Vin1_eq (c : Dev nD) (b : Ref sig .tc) : Vin1 m c b = V21 m (outs m) c b :=
  congrFun (V21_congr m (outs0 m) (outs m) c ((outs0_12 m c).trans (outs5_12 m c).symm)) _
theorem Vin2_eq (c : Dev nD) (b : Ref sig .tc) : Vin2 m c b = V31 m (outs m) c b :=
  congrFun (V31_congr m (outs1 m) (outs m) c ((outs1_12 m c).trans (outs5_12 m c).symm) ((outs1_22 m c).trans (outs5_22 m c).symm)) _
theorem Vin3_eq (c : Dev nD) (b : Ref sig .tc) : Vin3 m c b = V41 m (outs m) c b :=
  congrFun (V41_congr m (outs2 m) (outs m) c ((outs2_12 m c).trans (outs5_12 m c).symm) ((outs2_22 m c).trans (outs5_22 m c).symm) ((outs2_32 m c).trans (outs5_32 m c).symm)) _
theorem Vin4_eq (c : Dev nD) (b : Ref sig .tc) : Vin4 m c b = V51 m (outs m) c b :=
  congrFun (V51_congr m (outs3 m) (outs m) c ((outs3_12 m c).trans (outs5_12 m c).symm) ((outs3_22 m c).trans (outs5_22 m c).symm) ((outs3_32 m c).trans (outs5_32 m c).symm) ((outs3_42 m c).trans (outs5_42 m c).symm)) _
theorem Vin5_eq (c : Dev nD) (b : Ref sig .tc) : Vin5 m c b = V57 m (outs m) c b :=
  congrFun (V57_congr m (outs4 m) (outs m) c ((outs4_12 m c).trans (outs5_12 m c).symm) ((outs4_22 m c).trans (outs5_22 m c).symm) ((outs4_32 m c).trans (outs5_32 m c).symm) ((outs4_42 m c).trans (outs5_42 m c).symm) ((outs4_52 m c).trans (outs5_52 m c).symm)) _

theorem V12_out (c : Dev nD) : V12 m (outs m) c main_v21 = (dat0 (Vin0 m) c).arrAt 6 cfg0.N :=
  (Function.update_self _ _ _).trans (outs5_12 m c)
theorem Vin1_out (c : Dev nD) : Vin1 m c main_v21 = (dat0 (Vin0 m) c).arrAt 6 cfg0.N :=
  (Vin1_eq m c main_v21).trans ((V21_of m (outs m) c main_v21 (by decide)).trans ((V20_of m (outs m) c main_v21 (by decide)).trans ((V19_of m (outs m) c main_v21 (by decide)).trans ((V18_of m (outs m) c main_v21 (by decide)).trans ((V17_of m (outs m) c main_v21 (by decide)).trans ((V16_of m (outs m) c main_v21 (by decide)).trans ((V15_of m (outs m) c main_v21 (by decide)).trans ((V14_of m (outs m) c main_v21 (by decide)).trans ((V13_of m (outs m) c main_v21 (by decide)).trans (V12_out m c))))))))))
theorem V22_out (c : Dev nD) : V22 m (outs m) c main_v38 = (dat1 (Vin1 m) c).arrAt 6 cfg1.N :=
  (Function.update_self _ _ _).trans (outs5_22 m c)
theorem Vin2_out (c : Dev nD) : Vin2 m c main_v38 = (dat1 (Vin1 m) c).arrAt 6 cfg1.N :=
  (Vin2_eq m c main_v38).trans ((V31_of m (outs m) c main_v38 (by decide)).trans ((V30_of m (outs m) c main_v38 (by decide)).trans ((V29_of m (outs m) c main_v38 (by decide)).trans ((V28_of m (outs m) c main_v38 (by decide)).trans ((V27_of m (outs m) c main_v38 (by decide)).trans ((V26_of m (outs m) c main_v38 (by decide)).trans ((V25_of m (outs m) c main_v38 (by decide)).trans ((V24_of m (outs m) c main_v38 (by decide)).trans ((V23_of m (outs m) c main_v38 (by decide)).trans (V22_out m c))))))))))
theorem V32_out (c : Dev nD) : V32 m (outs m) c main_v55 = (dat2 (Vin2 m) c).arrAt 6 cfg2.N :=
  (Function.update_self _ _ _).trans (outs5_32 m c)
theorem Vin3_out (c : Dev nD) : Vin3 m c main_v55 = (dat2 (Vin2 m) c).arrAt 6 cfg2.N :=
  (Vin3_eq m c main_v55).trans ((V41_of m (outs m) c main_v55 (by decide)).trans ((V40_of m (outs m) c main_v55 (by decide)).trans ((V39_of m (outs m) c main_v55 (by decide)).trans ((V38_of m (outs m) c main_v55 (by decide)).trans ((V37_of m (outs m) c main_v55 (by decide)).trans ((V36_of m (outs m) c main_v55 (by decide)).trans ((V35_of m (outs m) c main_v55 (by decide)).trans ((V34_of m (outs m) c main_v55 (by decide)).trans ((V33_of m (outs m) c main_v55 (by decide)).trans (V32_out m c))))))))))
theorem V42_out (c : Dev nD) : V42 m (outs m) c main_v72 = (dat3 (Vin3 m) c).arrAt 6 cfg3.N :=
  (Function.update_self _ _ _).trans (outs5_42 m c)
theorem Vin4_out (c : Dev nD) : Vin4 m c main_v72 = (dat3 (Vin3 m) c).arrAt 6 cfg3.N :=
  (Vin4_eq m c main_v72).trans ((V51_of m (outs m) c main_v72 (by decide)).trans ((V50_of m (outs m) c main_v72 (by decide)).trans ((V49_of m (outs m) c main_v72 (by decide)).trans ((V48_of m (outs m) c main_v72 (by decide)).trans ((V47_of m (outs m) c main_v72 (by decide)).trans ((V46_of m (outs m) c main_v72 (by decide)).trans ((V45_of m (outs m) c main_v72 (by decide)).trans ((V44_of m (outs m) c main_v72 (by decide)).trans ((V43_of m (outs m) c main_v72 (by decide)).trans (V42_out m c))))))))))
theorem V52_out (c : Dev nD) : V52 m (outs m) c main_v89 = (dat4 (Vin4 m) c).arrAt 6 cfg4.N :=
  (Function.update_self _ _ _).trans (outs5_52 m c)
theorem Vin5_out (c : Dev nD) : Vin5 m c main_v89 = (dat4 (Vin4 m) c).arrAt 6 cfg4.N :=
  (Vin5_eq m c main_v89).trans ((V57_of m (outs m) c main_v89 (by decide)).trans ((V56_of m (outs m) c main_v89 (by decide)).trans ((V55_of m (outs m) c main_v89 (by decide)).trans ((V54_of m (outs m) c main_v89 (by decide)).trans ((V53_of m (outs m) c main_v89 (by decide)).trans (V52_out m c))))))
theorem V58_out (c : Dev nD) : V58 m (outs m) c main_v96 = (dat5 (Vin5 m) c).arrAt 6 cfg5.N :=
  (Function.update_self _ _ _).trans (outs5_58 m c)

def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c

def resultH (c : Dev nD) : Buf (Elt F) ((c : Thread nD τ).loc main_v96) := (pdats m 5 c).arrAt 6 cfg5.N
theorem resultH_eq (c : Dev nD) : resultH m c = (dat5 (Vin5 m) c).arrAt 6 cfg5.N := rfl

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- An input window's array leaves its region as it entered, and the region's output is not among them.
theorem hF0_in (c : Dev nD) (w : Fin cfg0.W) (hin : (cfg0.win w).isOut = false)
    (hr : Pipeline.arrRef spec0 w ∉ ([main_v21] : List (Ref sig .tc))) :
    (pdats m 0 c).arrAt w cfg0.N = V12 m (outs m) c (Pipeline.arrRef spec0 w) :=
  ((dat0 (Vin0 m) c).arrAt_in w hin _).trans ((A_eq0 (Vin0 m) c w).trans ((V12_of m (outs m) c _ hr).symm))
theorem hF0 (c : Dev nD) : ∀ w : Fin 7, (pdats m 0 c).arrAt w cfg0.N = V12 m (outs m) c (Pipeline.arrRef spec0 w) := by
  intro w; fin_cases w
  on_goal 7 => exact (V12_out m c).symm
  all_goals exact hF0_in m c _ rfl (by decide)
theorem hrest0 (c : Dev nD) : ∀ b : Ref sig .tc, b ∉ Finset.univ.image (Pipeline.arrRef spec0) → V12 m (outs m) c b = V11 m c b :=
  fun b hb => V12_of m (outs m) c b fun hm => hb (Finset.mem_image.mpr ⟨6, Finset.mem_univ _, (List.mem_singleton.mp hm).symm⟩)

theorem hF1_in (c : Dev nD) (w : Fin cfg1.W) (hin : (cfg1.win w).isOut = false)
    (hr : Pipeline.arrRef spec1 w ∉ ([main_v38] : List (Ref sig .tc))) :
    (pdats m 1 c).arrAt w cfg1.N = V22 m (outs m) c (Pipeline.arrRef spec1 w) :=
  ((dat1 (Vin1 m) c).arrAt_in w hin _).trans ((A_eq1 (Vin1 m) c w).trans ((Vin1_eq m c _).trans (V22_of m (outs m) c _ hr).symm))
theorem hF1 (c : Dev nD) : ∀ w : Fin 7, (pdats m 1 c).arrAt w cfg1.N = V22 m (outs m) c (Pipeline.arrRef spec1 w) := by
  intro w; fin_cases w
  on_goal 7 => exact (V22_out m c).symm
  all_goals exact hF1_in m c _ rfl (by decide)
theorem hrest1 (c : Dev nD) : ∀ b : Ref sig .tc, b ∉ Finset.univ.image (Pipeline.arrRef spec1) → V22 m (outs m) c b = V21 m (outs m) c b :=
  fun b hb => V22_of m (outs m) c b fun hm => hb (Finset.mem_image.mpr ⟨6, Finset.mem_univ _, (List.mem_singleton.mp hm).symm⟩)

theorem hF2_in (c : Dev nD) (w : Fin cfg2.W) (hin : (cfg2.win w).isOut = false)
    (hr : Pipeline.arrRef spec2 w ∉ ([main_v55] : List (Ref sig .tc))) :
    (pdats m 2 c).arrAt w cfg2.N = V32 m (outs m) c (Pipeline.arrRef spec2 w) :=
  ((dat2 (Vin2 m) c).arrAt_in w hin _).trans ((A_eq2 (Vin2 m) c w).trans ((Vin2_eq m c _).trans (V32_of m (outs m) c _ hr).symm))
theorem hF2 (c : Dev nD) : ∀ w : Fin 7, (pdats m 2 c).arrAt w cfg2.N = V32 m (outs m) c (Pipeline.arrRef spec2 w) := by
  intro w; fin_cases w
  on_goal 7 => exact (V32_out m c).symm
  all_goals exact hF2_in m c _ rfl (by decide)
theorem hrest2 (c : Dev nD) : ∀ b : Ref sig .tc, b ∉ Finset.univ.image (Pipeline.arrRef spec2) → V32 m (outs m) c b = V31 m (outs m) c b :=
  fun b hb => V32_of m (outs m) c b fun hm => hb (Finset.mem_image.mpr ⟨6, Finset.mem_univ _, (List.mem_singleton.mp hm).symm⟩)

theorem hF3_in (c : Dev nD) (w : Fin cfg3.W) (hin : (cfg3.win w).isOut = false)
    (hr : Pipeline.arrRef spec3 w ∉ ([main_v72] : List (Ref sig .tc))) :
    (pdats m 3 c).arrAt w cfg3.N = V42 m (outs m) c (Pipeline.arrRef spec3 w) :=
  ((dat3 (Vin3 m) c).arrAt_in w hin _).trans ((A_eq3 (Vin3 m) c w).trans ((Vin3_eq m c _).trans (V42_of m (outs m) c _ hr).symm))
theorem hF3 (c : Dev nD) : ∀ w : Fin 7, (pdats m 3 c).arrAt w cfg3.N = V42 m (outs m) c (Pipeline.arrRef spec3 w) := by
  intro w; fin_cases w
  on_goal 7 => exact (V42_out m c).symm
  all_goals exact hF3_in m c _ rfl (by decide)
theorem hrest3 (c : Dev nD) : ∀ b : Ref sig .tc, b ∉ Finset.univ.image (Pipeline.arrRef spec3) → V42 m (outs m) c b = V41 m (outs m) c b :=
  fun b hb => V42_of m (outs m) c b fun hm => hb (Finset.mem_image.mpr ⟨6, Finset.mem_univ _, (List.mem_singleton.mp hm).symm⟩)

theorem hF4_in (c : Dev nD) (w : Fin cfg4.W) (hin : (cfg4.win w).isOut = false)
    (hr : Pipeline.arrRef spec4 w ∉ ([main_v89] : List (Ref sig .tc))) :
    (pdats m 4 c).arrAt w cfg4.N = V52 m (outs m) c (Pipeline.arrRef spec4 w) :=
  ((dat4 (Vin4 m) c).arrAt_in w hin _).trans ((A_eq4 (Vin4 m) c w).trans ((Vin4_eq m c _).trans (V52_of m (outs m) c _ hr).symm))
theorem hF4 (c : Dev nD) : ∀ w : Fin 7, (pdats m 4 c).arrAt w cfg4.N = V52 m (outs m) c (Pipeline.arrRef spec4 w) := by
  intro w; fin_cases w
  on_goal 7 => exact (V52_out m c).symm
  all_goals exact hF4_in m c _ rfl (by decide)
theorem hrest4 (c : Dev nD) : ∀ b : Ref sig .tc, b ∉ Finset.univ.image (Pipeline.arrRef spec4) → V52 m (outs m) c b = V51 m (outs m) c b :=
  fun b hb => V52_of m (outs m) c b fun hm => hb (Finset.mem_image.mpr ⟨6, Finset.mem_univ _, (List.mem_singleton.mp hm).symm⟩)

theorem hF5_in (c : Dev nD) (w : Fin cfg5.W) (hin : (cfg5.win w).isOut = false)
    (hr : Pipeline.arrRef spec5 w ∉ ([main_v96] : List (Ref sig .tc))) :
    (pdats m 5 c).arrAt w cfg5.N = V58 m (outs m) c (Pipeline.arrRef spec5 w) :=
  ((dat5 (Vin5 m) c).arrAt_in w hin _).trans ((A_eq5 (Vin5 m) c w).trans ((Vin5_eq m c _).trans (V58_of m (outs m) c _ hr).symm))
theorem hF5 (c : Dev nD) : ∀ w : Fin 7, (pdats m 5 c).arrAt w cfg5.N = V58 m (outs m) c (Pipeline.arrRef spec5 w) := by
  intro w; fin_cases w
  on_goal 7 => exact (V58_out m c).symm
  all_goals exact hF5_in m c _ rfl (by decide)
theorem hrest5 (c : Dev nD) : ∀ b : Ref sig .tc, b ∉ Finset.univ.image (Pipeline.arrRef spec5) → V58 m (outs m) c b = V57 m (outs m) c b :=
  fun b hb => V58_of m (outs m) c b fun hm => hb (Finset.mem_image.mpr ⟨6, Finset.mem_univ _, (List.mem_singleton.mp hm).symm⟩)

set_option backward.isDefEq.respectTransparency.types false in

def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V11 m c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V11 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V11 m c b) (fun b => V12 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V21 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V21 m (outs m) c b) fun w => (A_eq1 (Vin1 m) c w).trans (Vin1_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V21 m (outs m) c b) (fun b => V22 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V31 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V31 m (outs m) c b) fun w => (A_eq2 (Vin2 m) c w).trans (Vin2_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V31 m (outs m) c b) (fun b => V32 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V41 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V41 m (outs m) c b) fun w => (A_eq3 (Vin3 m) c w).trans (Vin3_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V41 m (outs m) c b) (fun b => V42 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (V51 m (outs m) c) ∗ R c)
  post c := iprop(StableHlo.held (c : Thread nD τ) (Pipeline.ucRefs τ sig) (V52 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => V51 m (outs m) c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => V51 m (outs m) c b) fun w => (A_eq4 (Vin4 m) c w).trans (Vin4_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => V51 m (outs m) c b) (fun b => V52 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun c t => congrFun (owed5 (Vin5 m) c) t
  pre c := iprop(StableHlo.held (c : Thread nD τ) (Pipeline.ucRefs τ sig) (V57 m (outs m) c) ∗ R c)
  post c := iprop(StableHlo.held (c : Thread nD τ) (Pipeline.ucRefs τ sig) (V58 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => V57 m (outs m) c b)
  hentry c := by
    rw [Pipeline.ownSems0_none]
    have hsplit := Pipeline.arrays_of_unscopedBufs (p := 5) (pcfgs (F := F)) adm (pdats m) launch5.win launch5.arr_whole c
      ((pdats m 5 c).share_full fun w => congrFun (q5 (Vin5 m) c) w) (fun b => V57 m (outs m) c b) fun w => (A_eq5 (Vin5 m) c w).trans (Vin5_eq m c _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 5 c).owed 0 = 0 from congrFun (owed5 (Vin5 m) c) 0]
      icases HO with ⟨%W, HO⟩; iexists W; isplitr
      · ipureintro; exact fun _ _ => Or.inl (by rw [show (pdats m 5 c).recorded 0 = Set.univ from congrFun (recorded5 (Vin5 m) c) 0]; trivial)
      iexact HO
    isplitl [Hp]; · iexact Hp
    iexact Hrest
  hin c := by
    refine .trans ?_ (hin5 (Vin5 m) c); unfold Pipeline.ΦA
    iintro ⟨Hp, -, Hr⟩
    isplitl [Hr]; · iexact Hr
    iexact Hp
  hout c := by
    rw [Pipeline.ownSems0_none]; refine (hout5 (Vin5 m) c).trans ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => congrFun (q5 (Vin5 m) c) w)
      (fun b => V57 m (outs m) c b) (fun b => V58 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 5 c).owed (Fin.last (Pipeline.pin (pcfgs (F := F)) adm 5).N) = 0 from congrFun (owed5 (Vin5 m) c) _]
    icases HO with ⟨%W, -, HO⟩; iexists W; iexact HO

-- The result buffer holds the last region's output and every argument buffer is as launched.
abbrev Post (mem : (ℓ : Loc nD τ sig) → Buf (Elt F) ℓ) (c : Dev nD) : Prop :=
  mem ((c.tc : Thread nD τ).loc main_v96) = resultH m c
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)
  ∧ mem ((c.tc : Thread nD τ).loc main_arg26) = m ((c.tc : Thread nD τ).loc main_arg26)

set_option backward.isDefEq.respectTransparency.types false in

theorem run_main (ρ : Dev nD → PrngReg) :
    θ_run defs (onTc (τ := τ) (main (F := F))) ⟨m, fun _ => 0, ρ⟩ (fun r => ∀ c : Dev nD, Post m r.2.mem c) := by
  have hlast : ∀ c : Dev nD, (iprop(StableHlo.held (c : Thread nD τ) (Pipeline.ucRefs τ sig) (V58 m (outs m) c) ∗ R c) : sProp 𝕄) ⊢ (iprop(StableHlo.held (c : Thread nD τ) (Pipeline.ucRefs τ sig) (V58 m (outs m) c)
      ∗ ∃ W, owes (c : Thread nD τ) (0 : CellTallies nD τ sig Unit) W) : sProp 𝕄) := fun c => by
    iintro ⟨Hh, -, HO⟩
    isplitl [Hh]; · iexact Hh
    iexact HO
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m) (reg3 m) (reg4 m) (reg5 m))
    (fun c Q => by
      rewrite [main_chain c, Seg.run_eq_chain,
        show (segs m (outs m) Variants.none L lv (fun _ c => R c) () (pdats m) (reg0 m) (reg1 m) (reg2 m) (reg3 m) (reg4 m) (reg5 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          StableHlo.seq hostOps3_7,
          StableHlo.seq hostOps3_8,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()) ] from rfl]
      with_reducible exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V58 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hlast c⟩)
    (hinit := ?_)
    (QY := fun c s => Post m s.mem c)
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V58 m (outs m) c) s') $$ [Hh HSI]
    · isplitl [Hh] <;> iassumption
    icases Hr with ⟨%h, HSI⟩
    imodintro
    isplitr
    · ipureintro
      exact ⟨(h (Proc.devRef .tc main_v96) (Finset.mem_filter.mpr ⟨StableHlo.devRef_mem_tcRefs main_v96, by decide⟩)).trans (V58_out m c),
        (h (Proc.devRef .tc main_arg0) (Finset.mem_filter.mpr ⟨StableHlo.devRef_mem_tcRefs main_arg0, by decide⟩)).trans (V58_main_arg0 m (outs m) c),
        (h (Proc.devRef .tc main_arg1) (Finset.mem_filter.mpr ⟨StableHlo.devRef_mem_tcRefs main_arg1, by decide⟩)).trans (V58_main_arg1 m (outs m) c),
        (h (Proc.devRef .tc main_arg2) (Finset.mem_filter.mpr ⟨StableHlo.devRef_mem_tcRefs main_arg2, by decide⟩)).trans (V58_main_arg2 m (outs m) c),
        (h (Proc.devRef .tc main_arg3) (Finset.mem_filter.mpr ⟨StableHlo.devRef_mem_tcRefs main_arg3, by decide⟩)).trans (V58_main_arg3 m (outs m) c),
        (h (Proc.devRef .tc main_arg4) (Finset.mem_filter.mpr ⟨StableHlo.devRef_mem_tcRefs main_arg4, by decide⟩)).trans (V58_main_arg4 m (outs m) c),
        (h (Proc.devRef .tc main_arg5) (Finset.mem_filter.mpr ⟨StableHlo.devRef_mem_tcRefs main_arg5, by decide⟩)).trans (V58_main_arg5 m (outs m) c),
        (h (Proc.devRef .tc main_arg6) (Finset.mem_filter.mpr ⟨StableHlo.devRef_mem_tcRefs main_arg6, by decide⟩)).trans (V58_main_arg6 m (outs m) c),
        (h (Proc.devRef .tc main_arg7) (Finset.mem_filter.mpr ⟨StableHlo.devRef_mem_tcRefs main_arg7, by decide⟩)).trans (V58_main_arg7 m (outs m) c),
        (h (Proc.devRef .tc main_arg8) (Finset.mem_filter.mpr ⟨StableHlo.devRef_mem_tcRefs main_arg8, by decide⟩)).trans (V58_main_arg8 m (outs m) c),
        (h (Proc.devRef .tc main_arg9) (Finset.mem_filter.mpr ⟨StableHlo.devRef_mem_tcRefs main_arg9, by decide⟩)).trans (V58_main_arg9 m (outs m) c),
        (h (Proc.devRef .tc main_arg10) (Finset.mem_filter.mpr ⟨StableHlo.devRef_mem_tcRefs main_arg10, by decide⟩)).trans (V58_main_arg10 m (outs m) c),
        (h (Proc.devRef .tc main_arg11) (Finset.mem_filter.mpr ⟨StableHlo.devRef_mem_tcRefs main_arg11, by decide⟩)).trans (V58_main_arg11 m (outs m) c),
        (h (Proc.devRef .tc main_arg12) (Finset.mem_filter.mpr ⟨StableHlo.devRef_mem_tcRefs main_arg12, by decide⟩)).trans (V58_main_arg12 m (outs m) c),
        (h (Proc.devRef .tc main_arg13) (Finset.mem_filter.mpr ⟨StableHlo.devRef_mem_tcRefs main_arg13, by decide⟩)).trans (V58_main_arg13 m (outs m) c),
        (h (Proc.devRef .tc main_arg14) (Finset.mem_filter.mpr ⟨StableHlo.devRef_mem_tcRefs main_arg14, by decide⟩)).trans (V58_main_arg14 m (outs m) c),
        (h (Proc.devRef .tc main_arg15) (Finset.mem_filter.mpr ⟨StableHlo.devRef_mem_tcRefs main_arg15, by decide⟩)).trans (V58_main_arg15 m (outs m) c),
        (h (Proc.devRef .tc main_arg16) (Finset.mem_filter.mpr ⟨StableHlo.devRef_mem_tcRefs main_arg16, by decide⟩)).trans (V58_main_arg16 m (outs m) c),
        (h (Proc.devRef .tc main_arg17) (Finset.mem_filter.mpr ⟨StableHlo.devRef_mem_tcRefs main_arg17, by decide⟩)).trans (V58_main_arg17 m (outs m) c),
        (h (Proc.devRef .tc main_arg18) (Finset.mem_filter.mpr ⟨StableHlo.devRef_mem_tcRefs main_arg18, by decide⟩)).trans (V58_main_arg18 m (outs m) c),
        (h (Proc.devRef .tc main_arg19) (Finset.mem_filter.mpr ⟨StableHlo.devRef_mem_tcRefs main_arg19, by decide⟩)).trans (V58_main_arg19 m (outs m) c),
        (h (Proc.devRef .tc main_arg20) (Finset.mem_filter.mpr ⟨StableHlo.devRef_mem_tcRefs main_arg20, by decide⟩)).trans (V58_main_arg20 m (outs m) c),
        (h (Proc.devRef .tc main_arg21) (Finset.mem_filter.mpr ⟨StableHlo.devRef_mem_tcRefs main_arg21, by decide⟩)).trans (V58_main_arg21 m (outs m) c),
        (h (Proc.devRef .tc main_arg22) (Finset.mem_filter.mpr ⟨StableHlo.devRef_mem_tcRefs main_arg22, by decide⟩)).trans (V58_main_arg22 m (outs m) c),
        (h (Proc.devRef .tc main_arg23) (Finset.mem_filter.mpr ⟨StableHlo.devRef_mem_tcRefs main_arg23, by decide⟩)).trans (V58_main_arg23 m (outs m) c),
        (h (Proc.devRef .tc main_arg24) (Finset.mem_filter.mpr ⟨StableHlo.devRef_mem_tcRefs main_arg24, by decide⟩)).trans (V58_main_arg24 m (outs m) c),
        (h (Proc.devRef .tc main_arg25) (Finset.mem_filter.mpr ⟨StableHlo.devRef_mem_tcRefs main_arg25, by decide⟩)).trans (V58_main_arg25 m (outs m) c),
        (h (Proc.devRef .tc main_arg26) (Finset.mem_filter.mpr ⟨StableHlo.devRef_mem_tcRefs main_arg26, by decide⟩)).trans (V58_main_arg26 m (outs m) c)⟩
    · iexact HSI

end Cert.KernelIdeal.Hand

end
-- ==== Proof.Spec.lean ====
/- The mathematics of the two programs, index by index over the extended reals. -/
import Idealize.ShloMosaic.PureOps.Ideal

noncomputable section

namespace Cert.Spec

open Idealize.ShloMosaic

abbrev R : Type := EReal

def slope : R := Ideal.ofBits .f32 0x3E6AAAAB#32

def eps : R := Ideal.ofBits .f32 0x3727C5AC#32

def c120 : R := Ideal.ofBits .f32 0x42F00000#32

def rrelu (x : R) : R := if (0 : R) ≤ x then x else x * slope

def mlp {D H : ℕ} (u : Fin D → R) (w1 : Fin D → Fin H → R) (b1 : Fin H → R) (w2 : Fin H → Fin H → R) (b2 : Fin H → R)
    (j : Fin H) : R :=
  rrelu ((∑ k : Fin H, max ((∑ k' : Fin D, u k' * w1 k' k) + b1 k) 0 * w2 k j) + b2 j)

def agg {N E D : ℕ} (hN : 0 < N) (h : Fin N → Fin D → R) (srcN dst : Fin E → BitVec 32) (n : Fin N) (q : Fin D) : R :=
  ∑ e ∈ Finset.univ.filter (fun e : Fin E => (dst e).toInt = (n.val : ℤ)),
    h ⟨min (srcN e).toInt.toNat (N - 1), by omega⟩ q

def layer {N E D H : ℕ} (hN : 0 < N) (h : Fin N → Fin D → R) (srcN dst : Fin E → BitVec 32)
    (w1 : Fin D → Fin H → R) (b1 : Fin H → R) (w2 : Fin H → Fin H → R) (b2 : Fin H → R) (n : Fin N) (j : Fin H) : R :=
  mlp (fun k => h n k + agg hN h srcN dst n k) w1 b1 w2 b2 j

def padc {N D D' : ℕ} (h : Fin N → Fin D → R) : Fin N → Fin D' → R :=
  fun n q => if hq : q.val < D then h n ⟨q.val, hq⟩ else 0
def pad2 {A B A' B' : ℕ} (w : Fin A → Fin B → R) : Fin A' → Fin B' → R :=
  fun a b => if h : a.val < A ∧ b.val < B then w ⟨a.val, h.1⟩ ⟨b.val, h.2⟩ else 0
def padv {B B' : ℕ} (v : Fin B → R) : Fin B' → R :=
  fun b => if h : b.val < B then v ⟨b.val, h⟩ else 0

def proj {N D O : ℕ} (h : Fin N → Fin D → R) (lw : Fin D → Fin O → R) (lb : Fin O → R) (n : Fin N) (j : Fin O) : R :=
  (∑ k : Fin D, h n k * lw k j) + lb j

def segMask {N G O : ℕ} (x : Fin N → Fin O → R) (ids : Fin N → BitVec 32) (s : Fin G) (j : Fin O) : R :=
  ∑ n : Fin N, (if ids n = BitVec.ofNat 32 s.val then (1 : R) else 0) * x n j

def segIdx {N G O : ℕ} (x : Fin N → Fin O → R) (ids : Fin N → BitVec 32) (s : Fin G) (j : Fin O) : R :=
  ∑ n ∈ Finset.univ.filter (fun n : Fin N => (ids n).toInt = (s.val : ℤ)), x n j

def layerNorm {O : ℕ} (g : Fin O → R) (gam bet : Fin O → R) (j : Fin O) : R :=
  (g j - Ideal.div (∑ k : Fin O, g k) c120)
      * Ideal.rsqrt (Ideal.div (∑ k : Fin O, (g k - Ideal.div (∑ k' : Fin O, g k') c120) * (g k - Ideal.div (∑ k' : Fin O, g k') c120)) c120 + eps)
      * gam j + bet j

structure Params where
  w11 : Fin 108 → Fin 98 → R
  b11 : Fin 98 → R
  w12 : Fin 98 → Fin 98 → R
  b12 : Fin 98 → R
  w21 : Fin 98 → Fin 98 → R
  b21 : Fin 98 → R
  w22 : Fin 98 → Fin 98 → R
  b22 : Fin 98 → R
  w31 : Fin 98 → Fin 98 → R
  b31 : Fin 98 → R
  w32 : Fin 98 → Fin 98 → R
  b32 : Fin 98 → R
  w41 : Fin 98 → Fin 98 → R
  b41 : Fin 98 → R
  w42 : Fin 98 → Fin 98 → R
  b42 : Fin 98 → R
  w51 : Fin 98 → Fin 98 → R
  b51 : Fin 98 → R
  w52 : Fin 98 → Fin 98 → R
  b52 : Fin 98 → R
  lw : Fin 98 → Fin 120 → R
  lb : Fin 120 → R
  gam : Fin 120 → R
  bet : Fin 120 → R

section Programs
variable {N E : ℕ} (hN : 0 < N) (x : Fin N → Fin 108 → R) (srcN dst : Fin E → BitVec 32) (batch : Fin N → BitVec 32) (P : Params)

def rH1 : Fin N → Fin 98 → R := layer hN x srcN dst P.w11 P.b11 P.w12 P.b12
def rH2 : Fin N → Fin 98 → R := layer hN (rH1 hN x srcN dst P) srcN dst P.w21 P.b21 P.w22 P.b22
def rH3 : Fin N → Fin 98 → R := layer hN (rH2 hN x srcN dst P) srcN dst P.w31 P.b31 P.w32 P.b32
def rH4 : Fin N → Fin 98 → R := layer hN (rH3 hN x srcN dst P) srcN dst P.w41 P.b41 P.w42 P.b42
def rH5 : Fin N → Fin 98 → R := layer hN (rH4 hN x srcN dst P) srcN dst P.w51 P.b51 P.w52 P.b52
def rG (s : Fin 512) (j : Fin 120) : R := segIdx (proj (rH5 hN x srcN dst P) P.lw P.lb) batch s j
def refOut (s : Fin 512) (j : Fin 120) : R := layerNorm (rG hN x srcN dst batch P s) P.gam P.bet j

def kH0 : Fin N → Fin 128 → R := padc x
def kH1 : Fin N → Fin 128 → R := layer hN (kH0 x) srcN dst (pad2 P.w11) (padv P.b11) (pad2 P.w12) (padv P.b12)
def kH2 : Fin N → Fin 128 → R := layer hN (kH1 hN x srcN dst P) srcN dst (pad2 P.w21) (padv P.b21) (pad2 P.w22) (padv P.b22)
def kH3 : Fin N → Fin 128 → R := layer hN (kH2 hN x srcN dst P) srcN dst (pad2 P.w31) (padv P.b31) (pad2 P.w32) (padv P.b32)
def kH4 : Fin N → Fin 128 → R := layer hN (kH3 hN x srcN dst P) srcN dst (pad2 P.w41) (padv P.b41) (pad2 P.w42) (padv P.b42)
def kH5 : Fin N → Fin 128 → R := layer hN (kH4 hN x srcN dst P) srcN dst (pad2 P.w51) (padv P.b51) (pad2 P.w52) (padv P.b52)
def kAcc (s : Fin 512) (j : Fin 128) : R :=
  segMask (proj (kH5 hN x srcN dst P) (pad2 (A' := 128) (B' := 128) P.lw) (padv (B' := 128) P.lb)) batch s j
def kernelOut (s : Fin 512) (j : Fin 120) : R :=
  layerNorm (fun k : Fin 120 => kAcc hN x srcN dst batch P s ⟨k.val, by omega⟩) P.gam P.bet j

end Programs

end Cert.Spec

end
-- ==== Proof.KI.GinVal0.lean ====
/- One layer region's output array at the extended reals: row by row the two affine maps with the rectifier between and the leaky rectifier after. -/
import proofs.«420535_j82145544503553_2_alg».proof.Proof.KI.Gin0
import proofs.«420535_j82145544503553_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)

theorem gv0_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem gv0_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem gv0_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem gv0_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem gv0_mm_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact gv0_lhs_0 _ _
    | ⟨1, _⟩ => exact (gv0_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (gv0_rhs_0 _ _).trans hk
    | ⟨1, _⟩ => exact gv0_rhs_1 _ _)
  rw [el, er]

theorem gv0_bc_apply (x : FVec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

theorem gv0_rrelu_select (x : EReal) :
    Scalar.select (FloatOps.cmpf (F := Ideal) (φ := .f32) .oge x (Ideal.ofBits .f32 0x00000000#32)) x (x * Ideal.ofBits .f32 0x3E6AAAAB#32) = Cert.Spec.rrelu x := by
  rw [Ideal.ofBits_zero_f32, Ideal.cmpf_def]
  unfold Cert.Spec.rrelu Cert.Spec.slope Scalar.select Ideal.cmp
  by_cases h : (0 : EReal) ≤ x
  · rw [if_pos h, if_pos (by simp [h])]
  · rw [if_neg h, if_neg (by simp [h])]

theorem gv0_pay_apply (v0 v2 : Vec Ideal S5000x128 .f32) (v6 : Vec Ideal S128x128 .f32) (v10 : Vec Ideal S1x128 .f32)
    (v17 : Vec Ideal S128x128 .f32) (v21 : Vec Ideal S1x128 .f32) (p : Fin 5000) (q : Fin 128) :
    k0_pay1 (F := Ideal) v0 v2 v6 v10 v17 v21 (ix2 p q)
      = Cert.Spec.mlp (fun k : Fin 128 => v0 (ix2 p k) + v2 (ix2 p k)) (fun k j => v6 (ix2 k j)) (fun j => v10 (ix2 0 j))
          (fun k j => v17 (ix2 k j)) (fun j => v21 (ix2 0 j)) q := by
  unfold k0_pay1
  simp only [shapeCast_self]
  rw [select_apply, cmpf_apply, mulf_apply, addf_apply, broadcast_apply, broadcast_apply, gv0_mm_apply, gv0_bc_apply]
  simp only [truncf_apply, maximumf_apply, addf_apply, broadcast_apply, gv0_mm_apply, gv0_bc_apply, Ideal.ofBits_zero_f32]
  refine (gv0_rrelu_select _).trans ?_
  unfold Cert.Spec.mlp
  rw [show (FloatOps.ofBits (F := Ideal) .f32 0x00000000#32 : EReal) = 0 from Ideal.ofBits_zero_f32]

theorem gv0_hz : (![0, 0] : Fin 2 → Nat) = fun _ => 0 := funext fun a => by fin_cases a <;> rfl

theorem gv0_out_eq (x0 x1 : Vec Ideal S5000x128 .f32) (x2 : Vec Ideal S128x128 .f32) (x3 : Vec Ideal S1x128 .f32)
    (x4 : Vec Ideal S128x128 .f32) (x5 : Vec Ideal S1x128 .f32) :
    out0_6 (F := Ideal) x0 x1 x2 x3 x4 x5 = k0_pay1 (F := Ideal) x0 x1 x2 x3 x4 x5 := by
  unfold out0_6
  rw [View.canon_unit_zero gv0_hz]
  simp only [View.ld_unit_zero (S := S5000x128) gv0_hz, View.ld_unit_zero (S := S128x128) gv0_hz, View.ld_unit_zero (S := S1x128) gv0_hz]

section Region
variable (V : (c : Dev nD) → (b : Ref sig .tc) → Buf (Elt Ideal) ((c : Thread nD τ).loc b))

abbrev arr0_0 (c : Dev nD) : Vec Ideal S100000x128 .f32 := V c (Pipeline.arrRef spec0 0)
abbrev arr0_1 (c : Dev nD) : Vec Ideal S100000x128 .f32 := V c (Pipeline.arrRef spec0 1)
abbrev arr0_2 (c : Dev nD) : Vec Ideal S128x128 .f32 := V c (Pipeline.arrRef spec0 2)
abbrev arr0_3 (c : Dev nD) : Vec Ideal S1x128 .f32 := V c (Pipeline.arrRef spec0 3)
abbrev arr0_4 (c : Dev nD) : Vec Ideal S128x128 .f32 := V c (Pipeline.arrRef spec0 4)
abbrev arr0_5 (c : Dev nD) : Vec Ideal S1x128 .f32 := V c (Pipeline.arrRef spec0 5)

end Region

def gv0_lay (a0 a1 : Vec Ideal S100000x128 .f32) (a2 : Vec Ideal S128x128 .f32) (a3 : Vec Ideal S1x128 .f32)
    (a4 : Vec Ideal S128x128 .f32) (a5 : Vec Ideal S1x128 .f32) : Vec Ideal S100000x128 .f32 :=
  fun i => Cert.Spec.mlp (fun k : Fin 128 => a0 (ix2 (i 0) k) + a1 (ix2 (i 0) k)) (fun k j => a2 (ix2 k j)) (fun j => a3 (ix2 0 j))
    (fun k j => a4 (ix2 k j)) (fun j => a5 (ix2 0 j)) (i 1)

theorem gv0_lay_apply (a0 a1 : Vec Ideal S100000x128 .f32) (a2 : Vec Ideal S128x128 .f32) (a3 : Vec Ideal S1x128 .f32)
    (a4 : Vec Ideal S128x128 .f32) (a5 : Vec Ideal S1x128 .f32) (p : Fin 100000) (q : Fin 128) :
    gv0_lay a0 a1 a2 a3 a4 a5 (ix2 p q) = Cert.Spec.mlp (fun k : Fin 128 => a0 (ix2 p k) + a1 (ix2 p k)) (fun k j => a2 (ix2 k j))
      (fun j => a3 (ix2 0 j)) (fun k j => a4 (ix2 k j)) (fun j => a5 (ix2 0 j)) q := rfl

theorem gv0_idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

theorem gv0_idx_onto : ∀ q0 : Fin 20, ∃ t : Fin cfg0.N, win0_6.index t = ![q0.val, 0] :=
  (by decide +kernel : ∀ q0 : Fin 20, ∃ t : Fin grid0.N, win0_6.index t = ![q0.val, 0])

section Region
variable (V : (c : Dev nD) → (b : Ref sig .tc) → Buf (Elt Ideal) ((c : Thread nD τ).loc b))

set_option maxHeartbeats 4000000 in

theorem gv0_flushed_eq (c : Dev nD) (t : Fin cfg0.N) :
    (dat0 V c).flushed 6 t = ((cfg0.win 6).blk t).view.read (Elt Ideal)
      (gv0_lay (arr0_0 V c) (arr0_1 V c) (arr0_2 V c) (arr0_3 V c) (arr0_4 V c) (arr0_5 V c)) := by
  show (cfg0.win 6).cut (grid0.coords t) ((dat0 V c).after 6 t) = _
  rw [after0_6, gv0_out_eq]
  obtain ⟨e00, e01, e10, e11, e20, e21, e30, e31, e40, e41, e50, e51, e60, e61⟩ := gv0_idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = gv0_lay (arr0_0 V c) (arr0_1 V c) (arr0_2 V c) (arr0_3 V c) (arr0_4 V c) (arr0_5 V c) (((cfg0.win 6).blk t).view.emb (ix2 p q))
  rw [gv0_pay_apply]
  have hq : (((cfg0.win 6).blk t).view.emb (ix2 p q) : S100000x128.Idx) 1 = q := Fin.ext (by
    show win0_6.index t (1 : Fin 2) * 128 + 1 * q.val = q.val; omega)
  have h0 : ∀ (k : Fin 128), iblk0 V c 0 t (ix2 p k) = arr0_0 V c (ix2 ((((cfg0.win 6).blk t).view.emb (ix2 p q) : S100000x128.Idx) 0) k) := fun k => by
    show V c (Pipeline.arrRef spec0 0) (((cfg0.win 0).blk t).view.emb (ix2 p k)) = V c (Pipeline.arrRef spec0 0) (ix2 ((((cfg0.win 6).blk t).view.emb (ix2 p q) : S100000x128.Idx) 0) k)
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  have h1 : ∀ (k : Fin 128), iblk0 V c 1 t (ix2 p k) = arr0_1 V c (ix2 ((((cfg0.win 6).blk t).view.emb (ix2 p q) : S100000x128.Idx) 0) k) := fun k => by
    show V c (Pipeline.arrRef spec0 1) (((cfg0.win 1).blk t).view.emb (ix2 p k)) = V c (Pipeline.arrRef spec0 1) (ix2 ((((cfg0.win 6).blk t).view.emb (ix2 p q) : S100000x128.Idx) 0) k)
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega
  have h2 : ∀ (k : Fin 128) (j : Fin 128), iblk0 V c 2 t (ix2 k j) = arr0_2 V c (ix2 k j) := fun k j => by
    show V c (Pipeline.arrRef spec0 2) (((cfg0.win 2).blk t).view.emb (ix2 k j)) = V c (Pipeline.arrRef spec0 2) (ix2 k j)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * j.val = j.val; omega
  have h3 : ∀ (j : Fin 128), iblk0 V c 3 t (ix2 (0 : Fin 1) j) = arr0_3 V c (ix2 (0 : Fin 1) j) := fun j => by
    show V c (Pipeline.arrRef spec0 3) (((cfg0.win 3).blk t).view.emb (ix2 (0 : Fin 1) j)) = V c (Pipeline.arrRef spec0 3) (ix2 (0 : Fin 1) j)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  have h4 : ∀ (k : Fin 128) (j : Fin 128), iblk0 V c 4 t (ix2 k j) = arr0_4 V c (ix2 k j) := fun k j => by
    show V c (Pipeline.arrRef spec0 4) (((cfg0.win 4).blk t).view.emb (ix2 k j)) = V c (Pipeline.arrRef spec0 4) (ix2 k j)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * j.val = j.val; omega
  have h5 : ∀ (j : Fin 128), iblk0 V c 5 t (ix2 (0 : Fin 1) j) = arr0_5 V c (ix2 (0 : Fin 1) j) := fun j => by
    show V c (Pipeline.arrRef spec0 5) (((cfg0.win 5).blk t).view.emb (ix2 (0 : Fin 1) j)) = V c (Pipeline.arrRef spec0 5) (ix2 (0 : Fin 1) j)
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  show Cert.Spec.mlp _ _ _ _ _ q = Cert.Spec.mlp (fun k : Fin 128 => arr0_0 V c (ix2 ((((cfg0.win 6).blk t).view.emb (ix2 p q) : S100000x128.Idx) 0) k) + arr0_1 V c (ix2 ((((cfg0.win 6).blk t).view.emb (ix2 p q) : S100000x128.Idx) 0) k))
    (fun k j => arr0_2 V c (ix2 k j)) (fun j => arr0_3 V c (ix2 0 j)) (fun k j => arr0_4 V c (ix2 k j)) (fun j => arr0_5 V c (ix2 0 j)) ((((cfg0.win 6).blk t).view.emb (ix2 p q) : S100000x128.Idx) 1)
  rw [hq]
  simp only [h0, h1, h2, h3, h4, h5]

end Region

section Region
variable (V : (c : Dev nD) → (b : Ref sig .tc) → Buf (Elt Ideal) ((c : Thread nD τ).loc b))

theorem gv0_mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

theorem gv0_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := gv0_idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [gv0_mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

theorem gv0_final (c : Dev nD) :
    (dat0 V c).arrAt 6 cfg0.N = gv0_lay (arr0_0 V c) (arr0_1 V c) (arr0_2 V c) (arr0_3 V c) (arr0_4 V c) (arr0_5 V c) :=
  (dat0 V c).arrAt_eq_of_cover 6 _ (fun t _ => gv0_flushed_eq V c t) gv0_cover

theorem gin0_val (c : Dev nD) (p : Fin 100000) (q : Fin 128) :
    ((dat0 V c).arrAt 6 cfg0.N : Vec Ideal S100000x128 .f32) (ix2 p q)
      = Cert.Spec.mlp (fun k : Fin 128 => arr0_0 V c (ix2 p k) + arr0_1 V c (ix2 p k)) (fun k j => arr0_2 V c (ix2 k j))
          (fun j => arr0_3 V c (ix2 0 j)) (fun k j => arr0_4 V c (ix2 k j)) (fun j => arr0_5 V c (ix2 0 j)) q := by
  rw [gv0_final]
  exact gv0_lay_apply _ _ _ _ _ _ p q

end Region

end Cert.KernelIdeal.Hand

end
-- ==== Proof.KI.GinVal1.lean ====
/- One layer region's output array at the extended reals: row by row the two affine maps with the rectifier between and the leaky rectifier after. -/
import proofs.«420535_j82145544503553_2_alg».proof.Proof.KI.Gin1
import proofs.«420535_j82145544503553_2_alg».proof.Proof.KI.GinVal0
import proofs.«420535_j82145544503553_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)

theorem gv1_pay_apply (v0 v2 : Vec Ideal S5000x128 .f32) (v6 : Vec Ideal S128x128 .f32) (v10 : Vec Ideal S1x128 .f32)
    (v17 : Vec Ideal S128x128 .f32) (v21 : Vec Ideal S1x128 .f32) (p : Fin 5000) (q : Fin 128) :
    k1_pay1 (F := Ideal) v0 v2 v6 v10 v17 v21 (ix2 p q)
      = Cert.Spec.mlp (fun k : Fin 128 => v0 (ix2 p k) + v2 (ix2 p k)) (fun k j => v6 (ix2 k j)) (fun j => v10 (ix2 0 j))
          (fun k j => v17 (ix2 k j)) (fun j => v21 (ix2 0 j)) q := by
  unfold k1_pay1
  simp only [shapeCast_self]
  rw [select_apply, cmpf_apply, mulf_apply, addf_apply, broadcast_apply, broadcast_apply, gv0_mm_apply, gv0_bc_apply]
  simp only [truncf_apply, maximumf_apply, addf_apply, broadcast_apply, gv0_mm_apply, gv0_bc_apply, Ideal.ofBits_zero_f32]
  refine (gv0_rrelu_select _).trans ?_
  unfold Cert.Spec.mlp
  rw [show (FloatOps.ofBits (F := Ideal) .f32 0x00000000#32 : EReal) = 0 from Ideal.ofBits_zero_f32]

theorem gv1_out_eq (x0 x1 : Vec Ideal S5000x128 .f32) (x2 : Vec Ideal S128x128 .f32) (x3 : Vec Ideal S1x128 .f32)
    (x4 : Vec Ideal S128x128 .f32) (x5 : Vec Ideal S1x128 .f32) :
    out1_6 (F := Ideal) x0 x1 x2 x3 x4 x5 = k1_pay1 (F := Ideal) x0 x1 x2 x3 x4 x5 := by
  unfold out1_6
  rw [View.canon_unit_zero gv0_hz]
  simp only [View.ld_unit_zero (S := S5000x128) gv0_hz, View.ld_unit_zero (S := S128x128) gv0_hz, View.ld_unit_zero (S := S1x128) gv0_hz]

section Region
variable (V : (c : Dev nD) → (b : Ref sig .tc) → Buf (Elt Ideal) ((c : Thread nD τ).loc b))

abbrev arr1_0 (c : Dev nD) : Vec Ideal S100000x128 .f32 := V c (Pipeline.arrRef spec1 0)
abbrev arr1_1 (c : Dev nD) : Vec Ideal S100000x128 .f32 := V c (Pipeline.arrRef spec1 1)
abbrev arr1_2 (c : Dev nD) : Vec Ideal S128x128 .f32 := V c (Pipeline.arrRef spec1 2)
abbrev arr1_3 (c : Dev nD) : Vec Ideal S1x128 .f32 := V c (Pipeline.arrRef spec1 3)
abbrev arr1_4 (c : Dev nD) : Vec Ideal S128x128 .f32 := V c (Pipeline.arrRef spec1 4)
abbrev arr1_5 (c : Dev nD) : Vec Ideal S1x128 .f32 := V c (Pipeline.arrRef spec1 5)

end Region

theorem gv1_idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

theorem gv1_idx_onto : ∀ q0 : Fin 20, ∃ t : Fin cfg1.N, win1_6.index t = ![q0.val, 0] :=
  (by decide +kernel : ∀ q0 : Fin 20, ∃ t : Fin grid1.N, win1_6.index t = ![q0.val, 0])

section Region
variable (V : (c : Dev nD) → (b : Ref sig .tc) → Buf (Elt Ideal) ((c : Thread nD τ).loc b))

set_option maxHeartbeats 4000000 in

theorem gv1_flushed_eq (c : Dev nD) (t : Fin cfg1.N) :
    (dat1 V c).flushed 6 t = ((cfg1.win 6).blk t).view.read (Elt Ideal)
      (gv0_lay (arr1_0 V c) (arr1_1 V c) (arr1_2 V c) (arr1_3 V c) (arr1_4 V c) (arr1_5 V c)) := by
  show (cfg1.win 6).cut (grid1.coords t) ((dat1 V c).after 6 t) = _
  rw [after1_6, gv1_out_eq]
  obtain ⟨e00, e01, e10, e11, e20, e21, e30, e31, e40, e41, e50, e51, e60, e61⟩ := gv1_idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = gv0_lay (arr1_0 V c) (arr1_1 V c) (arr1_2 V c) (arr1_3 V c) (arr1_4 V c) (arr1_5 V c) (((cfg1.win 6).blk t).view.emb (ix2 p q))
  rw [gv1_pay_apply]
  have hq : (((cfg1.win 6).blk t).view.emb (ix2 p q) : S100000x128.Idx) 1 = q := Fin.ext (by
    show win1_6.index t (1 : Fin 2) * 128 + 1 * q.val = q.val; omega)
  have h0 : ∀ (k : Fin 128), iblk1 V c 0 t (ix2 p k) = arr1_0 V c (ix2 ((((cfg1.win 6).blk t).view.emb (ix2 p q) : S100000x128.Idx) 0) k) := fun k => by
    show V c (Pipeline.arrRef spec1 0) (((cfg1.win 0).blk t).view.emb (ix2 p k)) = V c (Pipeline.arrRef spec1 0) (ix2 ((((cfg1.win 6).blk t).view.emb (ix2 p q) : S100000x128.Idx) 0) k)
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  have h1 : ∀ (k : Fin 128), iblk1 V c 1 t (ix2 p k) = arr1_1 V c (ix2 ((((cfg1.win 6).blk t).view.emb (ix2 p q) : S100000x128.Idx) 0) k) := fun k => by
    show V c (Pipeline.arrRef spec1 1) (((cfg1.win 1).blk t).view.emb (ix2 p k)) = V c (Pipeline.arrRef spec1 1) (ix2 ((((cfg1.win 6).blk t).view.emb (ix2 p q) : S100000x128.Idx) 0) k)
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  have h2 : ∀ (k : Fin 128) (j : Fin 128), iblk1 V c 2 t (ix2 k j) = arr1_2 V c (ix2 k j) := fun k j => by
    show V c (Pipeline.arrRef spec1 2) (((cfg1.win 2).blk t).view.emb (ix2 k j)) = V c (Pipeline.arrRef spec1 2) (ix2 k j)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * j.val = j.val; omega
  have h3 : ∀ (j : Fin 128), iblk1 V c 3 t (ix2 (0 : Fin 1) j) = arr1_3 V c (ix2 (0 : Fin 1) j) := fun j => by
    show V c (Pipeline.arrRef spec1 3) (((cfg1.win 3).blk t).view.emb (ix2 (0 : Fin 1) j)) = V c (Pipeline.arrRef spec1 3) (ix2 (0 : Fin 1) j)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  have h4 : ∀ (k : Fin 128) (j : Fin 128), iblk1 V c 4 t (ix2 k j) = arr1_4 V c (ix2 k j) := fun k j => by
    show V c (Pipeline.arrRef spec1 4) (((cfg1.win 4).blk t).view.emb (ix2 k j)) = V c (Pipeline.arrRef spec1 4) (ix2 k j)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * j.val = j.val; omega
  have h5 : ∀ (j : Fin 128), iblk1 V c 5 t (ix2 (0 : Fin 1) j) = arr1_5 V c (ix2 (0 : Fin 1) j) := fun j => by
    show V c (Pipeline.arrRef spec1 5) (((cfg1.win 5).blk t).view.emb (ix2 (0 : Fin 1) j)) = V c (Pipeline.arrRef spec1 5) (ix2 (0 : Fin 1) j)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * j.val = j.val; omega
  show Cert.Spec.mlp _ _ _ _ _ q = Cert.Spec.mlp (fun k : Fin 128 => arr1_0 V c (ix2 ((((cfg1.win 6).blk t).view.emb (ix2 p q) : S100000x128.Idx) 0) k) + arr1_1 V c (ix2 ((((cfg1.win 6).blk t).view.emb (ix2 p q) : S100000x128.Idx) 0) k))
    (fun k j => arr1_2 V c (ix2 k j)) (fun j => arr1_3 V c (ix2 0 j)) (fun k j => arr1_4 V c (ix2 k j)) (fun j => arr1_5 V c (ix2 0 j)) ((((cfg1.win 6).blk t).view.emb (ix2 p q) : S100000x128.Idx) 1)
  rw [hq]
  simp only [h0, h1, h2, h3, h4, h5]

end Region

section Region
variable (V : (c : Dev nD) → (b : Ref sig .tc) → Buf (Elt Ideal) ((c : Thread nD τ).loc b))

theorem gv1_mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

theorem gv1_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := gv1_idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [gv1_mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem gv1_final (c : Dev nD) :
    (dat1 V c).arrAt 6 cfg1.N = gv0_lay (arr1_0 V c) (arr1_1 V c) (arr1_2 V c) (arr1_3 V c) (arr1_4 V c) (arr1_5 V c) :=
  (dat1 V c).arrAt_eq_of_cover 6 _ (fun t _ => gv1_flushed_eq V c t) gv1_cover

theorem gin1_val (c : Dev nD) (p : Fin 100000) (q : Fin 128) :
    ((dat1 V c).arrAt 6 cfg1.N : Vec Ideal S100000x128 .f32) (ix2 p q)
      = Cert.Spec.mlp (fun k : Fin 128 => arr1_0 V c (ix2 p k) + arr1_1 V c (ix2 p k)) (fun k j => arr1_2 V c (ix2 k j))
          (fun j => arr1_3 V c (ix2 0 j)) (fun k j => arr1_4 V c (ix2 k j)) (fun j => arr1_5 V c (ix2 0 j)) q := by
  rw [gv1_final]
  exact gv0_lay_apply _ _ _ _ _ _ p q

end Region

end Cert.KernelIdeal.Hand

end
-- ==== Proof.KI.GinVal2.lean ====
/- One layer region's output array at the extended reals: row by row the two affine maps with the rectifier between and the leaky rectifier after. -/
import proofs.«420535_j82145544503553_2_alg».proof.Proof.KI.Gin2
import proofs.«420535_j82145544503553_2_alg».proof.Proof.KI.GinVal0
import proofs.«420535_j82145544503553_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)

theorem gv2_pay_apply (v0 v2 : Vec Ideal S5000x128 .f32) (v6 : Vec Ideal S128x128 .f32) (v10 : Vec Ideal S1x128 .f32)
    (v17 : Vec Ideal S128x128 .f32) (v21 : Vec Ideal S1x128 .f32) (p : Fin 5000) (q : Fin 128) :
    k2_pay1 (F := Ideal) v0 v2 v6 v10 v17 v21 (ix2 p q)
      = Cert.Spec.mlp (fun k : Fin 128 => v0 (ix2 p k) + v2 (ix2 p k)) (fun k j => v6 (ix2 k j)) (fun j => v10 (ix2 0 j))
          (fun k j => v17 (ix2 k j)) (fun j => v21 (ix2 0 j)) q := by
  unfold k2_pay1
  simp only [shapeCast_self]
  rw [select_apply, cmpf_apply, mulf_apply, addf_apply, broadcast_apply, broadcast_apply, gv0_mm_apply, gv0_bc_apply]
  simp only [truncf_apply, maximumf_apply, addf_apply, broadcast_apply, gv0_mm_apply, gv0_bc_apply, Ideal.ofBits_zero_f32]
  refine (gv0_rrelu_select _).trans ?_
  unfold Cert.Spec.mlp
  rw [show (FloatOps.ofBits (F := Ideal) .f32 0x00000000#32 : EReal) = 0 from Ideal.ofBits_zero_f32]

theorem gv2_out_eq (x0 x1 : Vec Ideal S5000x128 .f32) (x2 : Vec Ideal S128x128 .f32) (x3 : Vec Ideal S1x128 .f32)
    (x4 : Vec Ideal S128x128 .f32) (x5 : Vec Ideal S1x128 .f32) :
    out2_6 (F := Ideal) x0 x1 x2 x3 x4 x5 = k2_pay1 (F := Ideal) x0 x1 x2 x3 x4 x5 := by
  unfold out2_6
  rw [View.canon_unit_zero gv0_hz]
  simp only [View.ld_unit_zero (S := S5000x128) gv0_hz, View.ld_unit_zero (S := S128x128) gv0_hz, View.ld_unit_zero (S := S1x128) gv0_hz]

section Region
variable (V : (c : Dev nD) → (b : Ref sig .tc) → Buf (Elt Ideal) ((c : Thread nD τ).loc b))

abbrev arr2_0 (c : Dev nD) : Vec Ideal S100000x128 .f32 := V c (Pipeline.arrRef spec2 0)
abbrev arr2_1 (c : Dev nD) : Vec Ideal S100000x128 .f32 := V c (Pipeline.arrRef spec2 1)
abbrev arr2_2 (c : Dev nD) : Vec Ideal S128x128 .f32 := V c (Pipeline.arrRef spec2 2)
abbrev arr2_3 (c : Dev nD) : Vec Ideal S1x128 .f32 := V c (Pipeline.arrRef spec2 3)
abbrev arr2_4 (c : Dev nD) : Vec Ideal S128x128 .f32 := V c (Pipeline.arrRef spec2 4)
abbrev arr2_5 (c : Dev nD) : Vec Ideal S1x128 .f32 := V c (Pipeline.arrRef spec2 5)

end Region

theorem gv2_idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

theorem gv2_idx_onto : ∀ q0 : Fin 20, ∃ t : Fin cfg2.N, win2_6.index t = ![q0.val, 0] :=
  (by decide +kernel : ∀ q0 : Fin 20, ∃ t : Fin grid2.N, win2_6.index t = ![q0.val, 0])

section Region
variable (V : (c : Dev nD) → (b : Ref sig .tc) → Buf (Elt Ideal) ((c : Thread nD τ).loc b))

set_option maxHeartbeats 4000000 in

theorem gv2_flushed_eq (c : Dev nD) (t : Fin cfg2.N) :
    (dat2 V c).flushed 6 t = ((cfg2.win 6).blk t).view.read (Elt Ideal)
      (gv0_lay (arr2_0 V c) (arr2_1 V c) (arr2_2 V c) (arr2_3 V c) (arr2_4 V c) (arr2_5 V c)) := by
  show (cfg2.win 6).cut (grid2.coords t) ((dat2 V c).after 6 t) = _
  rw [after2_6, gv2_out_eq]
  obtain ⟨e00, e01, e10, e11, e20, e21, e30, e31, e40, e41, e50, e51, e60, e61⟩ := gv2_idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = gv0_lay (arr2_0 V c) (arr2_1 V c) (arr2_2 V c) (arr2_3 V c) (arr2_4 V c) (arr2_5 V c) (((cfg2.win 6).blk t).view.emb (ix2 p q))
  rw [gv2_pay_apply]
  have hq : (((cfg2.win 6).blk t).view.emb (ix2 p q) : S100000x128.Idx) 1 = q := Fin.ext (by
    show win2_6.index t (1 : Fin 2) * 128 + 1 * q.val = q.val; omega)
  have h0 : ∀ (k : Fin 128), iblk2 V c 0 t (ix2 p k) = arr2_0 V c (ix2 ((((cfg2.win 6).blk t).view.emb (ix2 p q) : S100000x128.Idx) 0) k) := fun k => by
    show V c (Pipeline.arrRef spec2 0) (((cfg2.win 0).blk t).view.emb (ix2 p k)) = V c (Pipeline.arrRef spec2 0) (ix2 ((((cfg2.win 6).blk t).view.emb (ix2 p q) : S100000x128.Idx) 0) k)
    refine congrArg _ (funext fun a => Fin.ext ?_)
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  have h1 : ∀ (k : Fin 128), iblk2 V c 1 t (ix2 p k) = arr2_1 V c (ix2 ((((cfg2.win 6).blk t).view.emb (ix2 p q) : S100000x128.Idx) 0) k) := fun k => by
    show V c (Pipeline.arrRef spec2 1) (((cfg2.win 1).blk t).view.emb (ix2 p k)) = V c (Pipeline.arrRef spec2 1) (ix2 ((((cfg2.win 6).blk t).view.emb (ix2 p q) : S100000x128.Idx) 0) k)
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 128 + 1 * k.val = k.val; omega
  have h2 : ∀ (k : Fin 128) (j : Fin 128), iblk2 V c 2 t (ix2 k j) = arr2_2 V c (ix2 k j) := fun k j => by
    show V c (Pipeline.arrRef spec2 2) (((cfg2.win 2).blk t).view.emb (ix2 k j)) = V c (Pipeline.arrRef spec2 2) (ix2 k j)
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * j.val = j.val; omega
  have h3 : ∀ (j : Fin 128), iblk2 V c 3 t (ix2 (0 : Fin 1) j) = arr2_3 V c (ix2 (0 : Fin 1) j) := fun j => by
    show V c (Pipeline.arrRef spec2 3) (((cfg2.win 3).blk t).view.emb (ix2 (0 : Fin 1) j)) = V c (Pipeline.arrRef spec2 3) (ix2 (0 : Fin 1) j)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * j.val = j.val; omega
  have h4 : ∀ (k : Fin 128) (j : Fin 128), iblk2 V c 4 t (ix2 k j) = arr2_4 V c (ix2 k j) := fun k j => by
    show V c (Pipeline.arrRef spec2 4) (((cfg2.win 4).blk t).view.emb (ix2 k j)) = V c (Pipeline.arrRef spec2 4) (ix2 k j)
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * j.val = j.val; omega
  have h5 : ∀ (j : Fin 128), iblk2 V c 5 t (ix2 (0 : Fin 1) j) = arr2_5 V c (ix2 (0 : Fin 1) j) := fun j => by
    show V c (Pipeline.arrRef spec2 5) (((cfg2.win 5).blk t).view.emb (ix2 (0 : Fin 1) j)) = V c (Pipeline.arrRef spec2 5) (ix2 (0 : Fin 1) j)
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * j.val = j.val; omega
  show Cert.Spec.mlp _ _ _ _ _ q = Cert.Spec.mlp (fun k : Fin 128 => arr2_0 V c (ix2 ((((cfg2.win 6).blk t).view.emb (ix2 p q) : S100000x128.Idx) 0) k) + arr2_1 V c (ix2 ((((cfg2.win 6).blk t).view.emb (ix2 p q) : S100000x128.Idx) 0) k))
    (fun k j => arr2_2 V c (ix2 k j)) (fun j => arr2_3 V c (ix2 0 j)) (fun k j => arr2_4 V c (ix2 k j)) (fun j => arr2_5 V c (ix2 0 j)) ((((cfg2.win 6).blk t).view.emb (ix2 p q) : S100000x128.Idx) 1)
  rw [hq]
  simp only [h0, h1, h2, h3, h4, h5]

end Region

section Region
variable (V : (c : Dev nD) → (b : Ref sig .tc) → Buf (Elt Ideal) ((c : Thread nD τ).loc b))

theorem gv2_mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

theorem gv2_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := gv2_idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [gv2_mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

theorem gv2_final (c : Dev nD) :
    (dat2 V c).arrAt 6 cfg2.N = gv0_lay (arr2_0 V c) (arr2_1 V c) (arr2_2 V c) (arr2_3 V c) (arr2_4 V c) (arr2_5 V c) :=
  (dat2 V c).arrAt_eq_of_cover 6 _ (fun t _ => gv2_flushed_eq V c t) gv2_cover

theorem gin2_val (c : Dev nD) (p : Fin 100000) (q : Fin 128) :
    ((dat2 V c).arrAt 6 cfg2.N : Vec Ideal S100000x128 .f32) (ix2 p q)
      = Cert.Spec.mlp (fun k : Fin 128 => arr2_0 V c (ix2 p k) + arr2_1 V c (ix2 p k)) (fun k j => arr2_2 V c (ix2 k j))
          (fun j => arr2_3 V c (ix2 0 j)) (fun k j => arr2_4 V c (ix2 k j)) (fun j => arr2_5 V c (ix2 0 j)) q := by
  rw [gv2_final]
  exact gv0_lay_apply _ _ _ _ _ _ p q

end Region

end Cert.KernelIdeal.Hand

end
-- ==== Proof.KI.GinVal3.lean ====
/- One layer region's output array at the extended reals: row by row the two affine maps with the rectifier between and the leaky rectifier after. -/
import proofs.«420535_j82145544503553_2_alg».proof.Proof.KI.Gin3
import proofs.«420535_j82145544503553_2_alg».proof.Proof.KI.GinVal0
import proofs.«420535_j82145544503553_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)

theorem gv3_pay_apply (v0 v2 : Vec Ideal S5000x128 .f32) (v6 : Vec Ideal S128x128 .f32) (v10 : Vec Ideal S1x128 .f32)
    (v17 : Vec Ideal S128x128 .f32) (v21 : Vec Ideal S1x128 .f32) (p : Fin 5000) (q : Fin 128) :
    k3_pay1 (F := Ideal) v0 v2 v6 v10 v17 v21 (ix2 p q)
      = Cert.Spec.mlp (fun k : Fin 128 => v0 (ix2 p k) + v2 (ix2 p k)) (fun k j => v6 (ix2 k j)) (fun j => v10 (ix2 0 j))
          (fun k j => v17 (ix2 k j)) (fun j => v21 (ix2 0 j)) q := by
  unfold k3_pay1
  simp only [shapeCast_self]
  rw [select_apply, cmpf_apply, mulf_apply, addf_apply, broadcast_apply, broadcast_apply, gv0_mm_apply, gv0_bc_apply]
  simp only [truncf_apply, maximumf_apply, addf_apply, broadcast_apply, gv0_mm_apply, gv0_bc_apply, Ideal.ofBits_zero_f32]
  refine (gv0_rrelu_select _).trans ?_
  unfold Cert.Spec.mlp
  rw [show (FloatOps.ofBits (F := Ideal) .f32 0x00000000#32 : EReal) = 0 from Ideal.ofBits_zero_f32]

theorem gv3_out_eq (x0 x1 : Vec Ideal S5000x128 .f32) (x2 : Vec Ideal S128x128 .f32) (x3 : Vec Ideal S1x128 .f32)
    (x4 : Vec Ideal S128x128 .f32) (x5 : Vec Ideal S1x128 .f32) :
    out3_6 (F := Ideal) x0 x1 x2 x3 x4 x5 = k3_pay1 (F := Ideal) x0 x1 x2 x3 x4 x5 := by
  unfold out3_6
  rw [View.canon_unit_zero gv0_hz]
  simp only [View.ld_unit_zero (S := S5000x128) gv0_hz, View.ld_unit_zero (S := S128x128) gv0_hz, View.ld_unit_zero (S := S1x128) gv0_hz]

section Region
variable (V : (c : Dev nD) → (b : Ref sig .tc) → Buf (Elt Ideal) ((c : Thread nD τ).loc b))

abbrev arr3_0 (c : Dev nD) : Vec Ideal S100000x128 .f32 := V c (Pipeline.arrRef spec3 0)
abbrev arr3_1 (c : Dev nD) : Vec Ideal S100000x128 .f32 := V c (Pipeline.arrRef spec3 1)
abbrev arr3_2 (c : Dev nD) : Vec Ideal S128x128 .f32 := V c (Pipeline.arrRef spec3 2)
abbrev arr3_3 (c : Dev nD) : Vec Ideal S1x128 .f32 := V c (Pipeline.arrRef spec3 3)
abbrev arr3_4 (c : Dev nD) : Vec Ideal S128x128 .f32 := V c (Pipeline.arrRef spec3 4)
abbrev arr3_5 (c : Dev nD) : Vec Ideal S1x128 .f32 := V c (Pipeline.arrRef spec3 5)

end Region

theorem gv3_idx_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 19 ∧ win3_6.index t (1 : Fin 2) = 0 :=
  (by decide +kernel : ∀ t : Fin grid3.N, _)

theorem gv3_idx_onto : ∀ q0 : Fin 20, ∃ t : Fin cfg3.N, win3_6.index t = ![q0.val, 0] :=
  (by decide +kernel : ∀ q0 : Fin 20, ∃ t : Fin grid3.N, win3_6.index t = ![q0.val, 0])

section Region
variable (V : (c : Dev nD) → (b : Ref sig .tc) → Buf (Elt Ideal) ((c : Thread nD τ).loc b))

set_option maxHeartbeats 4000000 in

theorem gv3_flushed_eq (c : Dev nD) (t : Fin cfg3.N) :
    (dat3 V c).flushed 6 t = ((cfg3.win 6).blk t).view.read (Elt Ideal)
      (gv0_lay (arr3_0 V c) (arr3_1 V c) (arr3_2 V c) (arr3_3 V c) (arr3_4 V c) (arr3_5 V c)) := by
  show (cfg3.win 6).cut (grid3.coords t) ((dat3 V c).after 6 t) = _
  rw [after3_6, gv3_out_eq]
  obtain ⟨e00, e01, e10, e11, e20, e21, e30, e31, e40, e41, e50, e51, e60, e61⟩ := gv3_idx_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q)
    = gv0_lay (arr3_0 V c) (arr3_1 V c) (arr3_2 V c) (arr3_3 V c) (arr3_4 V c) (arr3_5 V c) (((cfg3.win 6).blk t).view.emb (ix2 p q))
  rw [gv3_pay_apply]
  have hq : (((cfg3.win 6).blk t).view.emb (ix2 p q) : S100000x128.Idx) 1 = q := Fin.ext (by
    show win3_6.index t (1 : Fin 2) * 128 + 1 * q.val = q.val; omega)
  have h0 : ∀ (k : Fin 128), iblk3 V c 0 t (ix2 p k) = arr3_0 V c (ix2 ((((cfg3.win 6).blk t).view.emb (ix2 p q) : S100000x128.Idx) 0) k) := fun k => by
    show V c (Pipeline.arrRef spec3 0) (((cfg3.win 0).blk t).view.emb (ix2 p k)) = V c (Pipeline.arrRef spec3 0) (ix2 ((((cfg3.win 6).blk t).view.emb (ix2 p q) : S100000x128.Idx) 0) k)
    refine congrArg _ (funext fun a => Fin.ext ?_)
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * k.val = k.val; omega
  have h1 : ∀ (k : Fin 128), iblk3 V c 1 t (ix2 p k) = arr3_1 V c (ix2 ((((cfg3.win 6).blk t).view.emb (ix2 p q) : S100000x128.Idx) 0) k) := fun k => by
    show V c (Pipeline.arrRef spec3 1) (((cfg3.win 1).blk t).view.emb (ix2 p k)) = V c (Pipeline.arrRef spec3 1) (ix2 ((((cfg3.win 6).blk t).view.emb (ix2 p q) : S100000x128.Idx) 0) k)
    refine congrArg _ (funext fun a => Fin.ext ?_)
    match a with
    | ⟨0, _⟩ => show win3_1.index t (0 : Fin 2) * 5000 + 1 * p.val = win3_6.index t (0 : Fin 2) * 5000 + 1 * p.val; omega
    | ⟨1, _⟩ => show win3_1.index t (1 : Fin 2) * 128 + 1 * k.val = k.val; omega
  have h2 : ∀ (k : Fin 128) (j : Fin 128), iblk3 V c 2 t (ix2 k j) = arr3_2 V c (ix2 k j) := fun k j => by
    show V c (Pipeline.arrRef spec3 2) (((cfg3.win 2).blk t).view.emb (ix2 k j)) = V c (Pipeline.arrRef spec3 2) (ix2 k j)
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * j.val = j.val; omega
  have h3 : ∀ (j : Fin 128), iblk3 V c 3 t (ix2 (0 : Fin 1) j) = arr3_3 V c (ix2 (0 : Fin 1) j) := fun j => by
    show V c (Pipeline.arrRef spec3 3) (((cfg3.win 3).blk t).view.emb (ix2 (0 : Fin 1) j)) = V c (Pipeline.arrRef spec3 3) (ix2 (0 : Fin 1) j)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * j.val = j.val; omega
  have h4 : ∀ (k : Fin 128) (j : Fin 128), iblk3 V c 4 t (ix2 k j) = arr3_4 V c (ix2 k j) := fun k j => by
    show V c (Pipeline.arrRef spec3 4) (((cfg3.win 4).blk t).view.emb (ix2 k j)) = V c (Pipeline.arrRef spec3 4) (ix2 k j)
    refine congrArg _ (funext fun a => Fin.ext ?_)
    match a with
    | ⟨0, _⟩ => show win3_4.index t (0 : Fin 2) * 128 + 1 * k.val = k.val; omega
    | ⟨1, _⟩ => show win3_4.index t (1 : Fin 2) * 128 + 1 * j.val = j.val; omega
  have h5 : ∀ (j : Fin 128), iblk3 V c 5 t (ix2 (0 : Fin 1) j) = arr3_5 V c (ix2 (0 : Fin 1) j) := fun j => by
    show V c (Pipeline.arrRef spec3 5) (((cfg3.win 5).blk t).view.emb (ix2 (0 : Fin 1) j)) = V c (Pipeline.arrRef spec3 5) (ix2 (0 : Fin 1) j)
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * j.val = j.val; omega
  show Cert.Spec.mlp _ _ _ _ _ q = Cert.Spec.mlp (fun k : Fin 128 => arr3_0 V c (ix2 ((((cfg3.win 6).blk t).view.emb (ix2 p q) : S100000x128.Idx) 0) k) + arr3_1 V c (ix2 ((((cfg3.win 6).blk t).view.emb (ix2 p q) : S100000x128.Idx) 0) k))
    (fun k j => arr3_2 V c (ix2 k j)) (fun j => arr3_3 V c (ix2 0 j)) (fun k j => arr3_4 V c (ix2 k j)) (fun j => arr3_5 V c (ix2 0 j)) ((((cfg3.win 6).blk t).view.emb (ix2 p q) : S100000x128.Idx) 1)
  rw [hq]
  simp only [h0, h1, h2, h3, h4, h5]

end Region

section Region
variable (V : (c : Dev nD) → (b : Ref sig .tc) → Buf (Elt Ideal) ((c : Thread nD τ).loc b))

theorem gv3_mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole (Pipeline.arrRef spec3 6)).slice (win3_6.rect t)).set ↔ _
  rw [View.set_slice_whole, Rect.mem_set_unit]
  exact Iff.rfl

theorem gv3_cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := gv3_idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [gv3_mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

theorem gv3_final (c : Dev nD) :
    (dat3 V c).arrAt 6 cfg3.N = gv0_lay (arr3_0 V c) (arr3_1 V c) (arr3_2 V c) (arr3_3 V c) (arr3_4 V c) (arr3_5 V c) :=
  (dat3 V c).arrAt_eq_of_cover 6 _ (fun t _ => gv3_flushed_eq V c t) gv3_cover

theorem gin3_val (c : Dev nD) (p : Fin 100000) (q : Fin 128) :
    ((dat3 V c).arrAt 6 cfg3.N : Vec Ideal S100000x128 .f32) (ix2 p q)
      = Cert.Spec.mlp (fun k : Fin 128 => arr3_0 V c (ix2 p k) + arr3_1 V c (ix2 p k)) (fun k j => arr3_2 V c (ix2 k j))
          (fun j => arr3_3 V c (ix2 0 j)) (fun k j => arr3_4 V c (ix2 k j)) (fun j => arr3_5 V c (ix2 0 j)) q := by
  rw [gv3_final]
  exact gv0_lay_apply _ _ _ _ _ _ p q

end Region

end Cert.KernelIdeal.Hand

end
-- ==== Proof.KI.GinVal4.lean ====
/- One layer region's output array at the extended reals: row by row the two affine maps with the rectifier between and the leaky rectifier after. -/
import proofs.«420535_j82145544503553_2_alg».proof.Proof.KI.Gin4
import proofs.«420535_j82145544503553_2_alg».proof.Proof.KI.GinVal0
import proofs.«420535_j82145544503553_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)

theorem gv4_pay_apply (v0 v2 : Vec Ideal S5000x128 .f32) (v6 : Vec Ideal S128x128 .f32) (v10 : Vec Ideal S1x128 .f32)
    (v17 : Vec Ideal S128x128 .f32) (v21 : Vec Ideal S1x128 .f32) (p : Fin 5000) (q : Fin 128) :
    k4_pay1 (F := Ideal) v0 v2 v6 v10 v17 v21 (ix2 p q)
      = Cert.Spec.mlp (fun k : Fin 128 => v0 (ix2 p k) + v2 (ix2 p k)) (fun k j => v6 (ix2 k j)) (fun j => v10 (ix2 0 j))
          (fun k j => v17 (ix2 k j)) (fun j => v21 (ix2 0 j)) q := by
  unfold k4_pay1
  simp only [shapeCast_self]
  rw [select_apply, cmpf_apply, mulf_apply, addf_apply, broadcast_apply, broadcast_apply, gv0_mm_apply, gv0_bc_apply]
  simp only [truncf_apply, maximumf_apply, addf_apply, broadcast_apply, gv0_mm_apply, gv0_bc_apply, Ideal.ofBits_zero_f32]
  refine (gv0_rrelu_select _).trans ?_
  unfold Cert.Spec.mlp
  rw [show (FloatOps.ofBits (F := Ideal) .f32 0x00000000#32 : EReal) = 0 from Ideal.ofBits_zero_f32]

theorem gv4_out_eq (x0 x1 : Vec Ideal S5000x128 .f32) (x2 : Vec Ideal S128x128 .f32) (x3 : Vec Ideal S1x128 .f32)
    (x4 : Vec Ideal S128x128 .f32) (x5 : Vec Ideal S1x128 .f32) :
    out4_6 (F := Ideal) x0 x1 x2 x3 x4 x5 = k4_pay1 (F := Ideal) x0 x1 x2 x3 x4 x5 := by
  unfold out4_6
  rw [View.canon_unit_zero gv0_hz]
  simp only [View.ld_unit_zero (S := S5000x128) gv0_hz, View.ld_unit_zero (S := S128x128) gv0_hz, View.ld_unit_zero (S := S1x128) gv0_hz]

section Region
variable (V : (c : Dev nD) → (b : Ref sig .tc) → Buf (Elt Ideal) ((c : Thread nD τ).loc b))

abbrev arr4_0 (c : Dev nD) : Vec Ideal S100000x128 .f32 := V c (Pipeline.arrRef spec4 0)
abbrev arr4_1 (c : Dev nD) : Vec Ideal S100000x128 .f32 := V c (Pipeline.arrRef spec4 1)
abbrev arr4_2 (c : Dev nD) : Vec Ideal S128x128 .f32 := V c (Pipeline.arrRef spec4 2)
abbrev arr4_3 (c : Dev nD) : Vec Ideal S1x128 .f32 := V c (Pipeline.arrRef spec4 3)
abbrev arr4_4 (c : Dev nD) : Vec Ideal S128x128 .f32 := V c (Pipeline.arrRef spec4 4)
abbrev arr4_5 (c : Dev nD) : Vec Ideal S1x128 .f32 := V c (Pipeline.arrRef spec4 5)

end Region

theorem gv4_idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) ≤ 19 ∧ win4_6.index t (1 : Fin 2) = 0 :=
  (by decide +kernel : ∀ t : Fin grid4.N, _)

theorem gv4_idx_onto : ∀ q0 : Fin 20, ∃ t : Fin cfg4.N, win4_6.index t = ![q0.val, 0] :=
  (by decide +kernel : ∀ q0 : Fin 20, ∃ t : Fin grid4.N, win4_6.index t = ![q0.val, 0])

section Region
variable (V : (c : Dev nD) → (b : Ref sig .tc) → Buf (Elt Ideal) ((c : Thread nD τ).loc b))

set_option maxHeartbeats 4000000 in

theorem gv4_flushed_eq (c : Dev nD) (t : Fin cfg4.N) :
    (dat4 V c).flushed 6 t = ((cfg4.win 6).blk t).view.read (Elt Ideal)
      (gv0_lay (arr4_0 V c) (arr4_1 V c) (arr4_2 V c) (arr4_3 V c) (arr4_4 V c) (arr4_5 V c)) := by
  show (cfg4.win 6).cut (grid4.coords t) ((dat4 V c).after 6 t) = _
  rw [after4_6, gv4_out_eq]
  obtain ⟨e00, e01, e10, e11, e20, e21, e30, e31, e40, e41, e50, e51, e60, e61⟩ := gv4_idx_facts t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q)
    = gv0_lay (arr4_0 V c) (arr4_1 V c) (arr4_2 V c) (arr4_3 V c) (arr4_4 V c) (arr4_5 V c) (((cfg4.win 6).blk t).view.emb (ix2 p q))
  rw [gv4_pay_apply]
  have hq : (((cfg4.win 6).blk t).view.emb (ix2 p q) : S100000x128.Idx) 1 = q := Fin.ext (by
    show win4_6.index t (1 : Fin 2) * 128 + 1 * q.val = q.val; omega)
  have h0 : ∀ (k : Fin 128), iblk4 V c 0 t (ix2 p k) = arr4_0 V c (ix2 ((((cfg4.win 6).blk t).view.emb (ix2 p q) : S100000x128.Idx) 0) k) := fun k => by
    show V c (Pipeline.arrRef spec4 0) (((cfg4.win 0).blk t).view.emb (ix2 p k)) = V c (Pipeline.arrRef spec4 0) (ix2 ((((cfg4.win 6).blk t).view.emb (ix2 p q) : S100000x128.Idx) 0) k)
    refine congrArg _ (funext fun a => Fin.ext ?_)
    match a with
    | ⟨0, _⟩ => show win4_0.index t (0 : Fin 2) * 5000 + 1 * p.val = win4_6.index t (0 : Fin 2) * 5000 + 1 * p.val; omega
    | ⟨1, _⟩ => show win4_0.index t (1 : Fin 2) * 128 + 1 * k.val = k.val; omega
  have h1 : ∀ (k : Fin 128), iblk4 V c 1 t (ix2 p k) = arr4_1 V c (ix2 ((((cfg4.win 6).blk t).view.emb (ix2 p q) : S100000x128.Idx) 0) k) := fun k => by
    show V c (Pipeline.arrRef spec4 1) (((cfg4.win 1).blk t).view.emb (ix2 p k)) = V c (Pipeline.arrRef spec4 1) (ix2 ((((cfg4.win 6).blk t).view.emb (ix2 p q) : S100000x128.Idx) 0) k)
    refine congrArg _ (funext fun a => Fin.ext ?_)
    match a with
    | ⟨0, _⟩ => show win4_1.index t (0 : Fin 2) * 5000 + 1 * p.val = win4_6.index t (0 : Fin 2) * 5000 + 1 * p.val; omega
    | ⟨1, _⟩ => show win4_1.index t (1 : Fin 2) * 128 + 1 * k.val = k.val; omega
  have h2 : ∀ (k : Fin 128) (j : Fin 128), iblk4 V c 2 t (ix2 k j) = arr4_2 V c (ix2 k j) := fun k j => by
    show V c (Pipeline.arrRef spec4 2) (((cfg4.win 2).blk t).view.emb (ix2 k j)) = V c (Pipeline.arrRef spec4 2) (ix2 k j)
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * j.val = j.val; omega
  have h3 : ∀ (j : Fin 128), iblk4 V c 3 t (ix2 (0 : Fin 1) j) = arr4_3 V c (ix2 (0 : Fin 1) j) := fun j => by
    show V c (Pipeline.arrRef spec4 3) (((cfg4.win 3).blk t).view.emb (ix2 (0 : Fin 1) j)) = V c (Pipeline.arrRef spec4 3) (ix2 (0 : Fin 1) j)
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * j.val = j.val; omega
  have h4 : ∀ (k : Fin 128) (j : Fin 128), iblk4 V c 4 t (ix2 k j) = arr4_4 V c (ix2 k j) := fun k j => by
    show V c (Pipeline.arrRef spec4 4) (((cfg4.win 4).blk t).view.emb (ix2 k j)) = V c (Pipeline.arrRef spec4 4) (ix2 k j)
    refine congrArg _ (funext fun a => Fin.ext ?_)
    match a with
    | ⟨0, _⟩ => show win4_4.index t (0 : Fin 2) * 128 + 1 * k.val = k.val; omega
    | ⟨1, _⟩ => show win4_4.index t (1 : Fin 2) * 128 + 1 * j.val = j.val; omega
  have h5 : ∀ (j : Fin 128), iblk4 V c 5 t (ix2 (0 : Fin 1) j) = arr4_5 V c (ix2 (0 : Fin 1) j) := fun j => by
    show V c (Pipeline.arrRef spec4 5) (((cfg4.win 5).blk t).view.emb (ix2 (0 : Fin 1) j)) = V c (Pipeline.arrRef spec4 5) (ix2 (0 : Fin 1) j)
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * j.val = j.val; omega
  show Cert.Spec.mlp _ _ _ _ _ q = Cert.Spec.mlp (fun k : Fin 128 => arr4_0 V c (ix2 ((((cfg4.win 6).blk t).view.emb (ix2 p q) : S100000x128.Idx) 0) k) + arr4_1 V c (ix2 ((((cfg4.win 6).blk t).view.emb (ix2 p q) : S100000x128.Idx) 0) k))
    (fun k j => arr4_2 V c (ix2 k j)) (fun j => arr4_3 V c (ix2 0 j)) (fun k j => arr4_4 V c (ix2 k j)) (fun j => arr4_5 V c (ix2 0 j)) ((((cfg4.win 6).blk t).view.emb (ix2 p q) : S100000x128.Idx) 1)
  rw [hq]
  simp only [h0, h1, h2, h3, h4, h5]

end Region

section Region
variable (V : (c : Dev nD) → (b : Ref sig .tc) → Buf (Elt Ideal) ((c : Thread nD τ).loc b))

theorem gv4_mem_blk (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

theorem gv4_cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  obtain ⟨t, ht⟩ := gv4_idx_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [gv4_mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

theorem gv4_final (c : Dev nD) :
    (dat4 V c).arrAt 6 cfg4.N = gv0_lay (arr4_0 V c) (arr4_1 V c) (arr4_2 V c) (arr4_3 V c) (arr4_4 V c) (arr4_5 V c) :=
  (dat4 V c).arrAt_eq_of_cover 6 _ (fun t _ => gv4_flushed_eq V c t) gv4_cover

theorem gin4_val (c : Dev nD) (p : Fin 100000) (q : Fin 128) :
    ((dat4 V c).arrAt 6 cfg4.N : Vec Ideal S100000x128 .f32) (ix2 p q)
      = Cert.Spec.mlp (fun k : Fin 128 => arr4_0 V c (ix2 p k) + arr4_1 V c (ix2 p k)) (fun k j => arr4_2 V c (ix2 k j))
          (fun j => arr4_3 V c (ix2 0 j)) (fun k j => arr4_4 V c (ix2 k j)) (fun j => arr4_5 V c (ix2 0 j)) q := by
  rw [gv4_final]
  exact gv0_lay_apply _ _ _ _ _ _ p q

end Region

end Cert.KernelIdeal.Hand

end
-- ==== Proof.KI.Fin5Read.lean ====
/- What each case of the final region's body leaves in the accumulator and in the output block, as functions of the blocks it reads. -/
import proofs.«420535_j82145544503553_2_alg».proof.Proof.KI.Fin5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem hz2 : (![0, 0] : Fin 2 → ℕ) = fun _ => 0 := by funext a; fin_cases a <;> rfl

theorem sout5_B_0_eq (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    sout5_B_0 c i arg1 harg1 arg2 harg2 arg3 harg3 arg4 harg4 arg5 harg5 arg6 harg6 arg7 harg7 arg8 harg8 hc0 hc1 x0 x1 x2 x3 x4 x5 xs0 = k5_pay2 x0 x2 x3 x1 xs0 := by
  unfold sout5_B_0
  rw [View.read_writes_eq_canon _ _ _ (scover5_B_0 c i arg1 harg1 arg2 harg2 arg3 harg3 arg4 harg4 arg5 harg5 arg6 harg6 arg7 harg7 arg8 harg8 hc0 hc1 x0 x1 x2 x3 x4 x5 xs0)]
  unfold kernelRun5_B
  dsimp only
  rw [View.canon_unit_zero (S := S512x128) hz2]
  simp only [View.readAt_eq_ld, harg1.read_unread, harg2.read_unread, harg3.read_unread, harg4.read_unread, harg5.read_unread, harg6.read_unread, harg8.read_unread, View.ld_unit_zero (S := S1000x128) hz2, View.ld_unit_zero (S := S1000x1) hz2, View.ld_unit_zero (S := S128x128) hz2, View.ld_unit_zero (S := S1x128) hz2, View.ld_unit_zero (S := S1x120) hz2, View.ld_unit_zero (S := S512x128) hz2, View.ld_unit_zero (S := S512x120) hz2]

theorem sout5_C_0_eq (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    sout5_C_0 c i arg1 harg1 arg2 harg2 arg3 harg3 arg4 harg4 arg5 harg5 arg6 harg6 arg7 harg7 arg8 harg8 hc0 hc1 x0 x1 x2 x3 x4 x5 xs0 = k5_pay2 x0 x2 x3 x1 xs0 := by
  unfold sout5_C_0
  rw [View.read_writes_eq_canon _ _ _ (scover5_C_0 c i arg1 harg1 arg2 harg2 arg3 harg3 arg4 harg4 arg5 harg5 arg6 harg6 arg7 harg7 arg8 harg8 hc0 hc1 x0 x1 x2 x3 x4 x5 xs0)]
  unfold kernelRun5_C
  dsimp only
  sl_unfold_words
  rw [View.canon_unit_zero (S := S512x128) hz2]
  simp only [View.readAt_eq_ld, harg1.read_unread, harg2.read_unread, harg3.read_unread, harg4.read_unread, harg5.read_unread, harg6.read_unread, harg8.read_unread, View.ld_unit_zero (S := S1000x128) hz2, View.ld_unit_zero (S := S1000x1) hz2, View.ld_unit_zero (S := S128x128) hz2, View.ld_unit_zero (S := S1x128) hz2, View.ld_unit_zero (S := S1x120) hz2, View.ld_unit_zero (S := S512x128) hz2, View.ld_unit_zero (S := S512x120) hz2]

theorem sout5_A_0_eq (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : cond5_0 i) (hc1 : ¬cond5_1 i)
    (x0 : Vec F S1000x128 .f32) (x1 : Vec F S1000x1 .i32) (x2 : Vec F S128x128 .f32) (x3 : Vec F S1x128 .f32) (x4 : Vec F S1x120 .f32) (x5 : Vec F S1x120 .f32) :
    sout5_A_0 c i arg1 harg1 arg2 harg2 arg3 harg3 arg4 harg4 arg5 harg5 arg6 harg6 arg7 harg7 arg8 harg8 hc0 hc1 x0 x1 x2 x3 x4 x5 = k5_pay2 x0 x2 x3 x1 k5_pay1 := by
  unfold sout5_A_0
  rw [View.read_writes_eq_canon _ _ _ (scover5_A_0 c i arg1 harg1 arg2 harg2 arg3 harg3 arg4 harg4 arg5 harg5 arg6 harg6 arg7 harg7 arg8 harg8 hc0 hc1 x0 x1 x2 x3 x4 x5)]
  unfold kernelRun5_A
  dsimp only
  sl_unfold_words
  rw [View.canon_cons_unit_zero (S := S512x128) hz2]
  simp only [View.readAt_eq_ld, harg1.read_unread, harg2.read_unread, harg3.read_unread, harg4.read_unread, harg5.read_unread, harg6.read_unread, harg8.read_unread, View.ld_unit_zero (S := S1000x128) hz2, View.ld_unit_zero (S := S1000x1) hz2, View.ld_unit_zero (S := S128x128) hz2, View.ld_unit_zero (S := S1x128) hz2, View.ld_unit_zero (S := S1x120) hz2, View.ld_unit_zero (S := S512x128) hz2, View.ld_unit_zero (S := S512x120) hz2, View.readCov_unit_zero (S := S512x128) _ hz2]

theorem out5_C_6_eq (c : Dev nD) (i : grid5.Coords) (arg1 : Memref sig .tc .vmem S1000x128 .f32) (harg1 : arg1.IsWhole) (arg2 : Memref sig .tc .vmem S1000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x120 .f32) (harg5 : arg5.IsWhole) (arg6 : Memref sig .tc .vmem S1x120 .f32) (harg6 : arg6.IsWhole) (arg7 : Memref sig .tc .vmem S512x120 .f32) (harg7 : arg7.IsWhole) (arg8 : Memref sig .tc .vmem S512x128 .f32) (harg8 : arg8.IsWhole) (hc0 : ¬cond5_0 i) (hc1 : cond5_1 i)
    (x0 : Vec F S1000x128 .f32) (x1 : Vec F S1000x1 .i32) (x2 : Vec F S128x128 .f32) (x3 : Vec F S1x128 .f32) (x4 : Vec F S1x120 .f32) (x5 : Vec F S1x120 .f32) (xs0 : Vec F S512x128 .f32) :
    out5_C_6 c i arg1 harg1 arg2 harg2 arg3 harg3 arg4 harg4 arg5 harg5 arg6 harg6 arg7 harg7 arg8 harg8 hc0 hc1 x0 x1 x2 x3 x4 x5 xs0 = k5_pay3 (k5_pay2 x0 x2 x3 x1 xs0) x4 x5 := by
  unfold out5_C_6
  rw [View.read_writes_eq_canon _ _ _ (cover5_C_6 c i arg1 harg1 arg2 harg2 arg3 harg3 arg4 harg4 arg5 harg5 arg6 harg6 arg7 harg7 arg8 harg8 hc0 hc1 x0 x1 x2 x3 x4 x5 xs0)]
  unfold kernelRun5_C
  dsimp only
  sl_unfold_words
  rw [View.canon_unit_zero (S := S512x120) hz2]
  simp only [View.readAt_eq_ld, harg1.read_unread, harg2.read_unread, harg3.read_unread, harg4.read_unread, harg5.read_unread, harg6.read_unread, harg8.read_unread, View.ld_unit_zero (S := S1000x128) hz2, View.ld_unit_zero (S := S1000x1) hz2, View.ld_unit_zero (S := S128x128) hz2, View.ld_unit_zero (S := S1x128) hz2, View.ld_unit_zero (S := S1x120) hz2, View.ld_unit_zero (S := S512x128) hz2, View.ld_unit_zero (S := S512x120) hz2, View.readCov_unit_zero (S := S512x128) _ hz2]

def accAt5 (c : Dev nD) : (n : ℕ) → n < cfg5.N → Vec F S512x128 .f32
  | 0, hn => k5_pay2 (iblk5 V c 0 ⟨0, hn⟩) (iblk5 V c 2 ⟨0, hn⟩) (iblk5 V c 3 ⟨0, hn⟩) (iblk5 V c 1 ⟨0, hn⟩) k5_pay1
  | n + 1, hn => k5_pay2 (iblk5 V c 0 ⟨n + 1, hn⟩) (iblk5 V c 2 ⟨n + 1, hn⟩) (iblk5 V c 3 ⟨n + 1, hn⟩) (iblk5 V c 1 ⟨n + 1, hn⟩) (accAt5 c n (Nat.lt_of_succ_lt hn))

theorem accAt5_zero (c : Dev nD) (hn : 0 < cfg5.N) :
    accAt5 V c 0 hn = k5_pay2 (iblk5 V c 0 ⟨0, hn⟩) (iblk5 V c 2 ⟨0, hn⟩) (iblk5 V c 3 ⟨0, hn⟩) (iblk5 V c 1 ⟨0, hn⟩) k5_pay1 := rfl
theorem accAt5_succ (c : Dev nD) (n : ℕ) (hn : n + 1 < cfg5.N) :
    accAt5 V c (n + 1) hn = k5_pay2 (iblk5 V c 0 ⟨n + 1, hn⟩) (iblk5 V c 2 ⟨n + 1, hn⟩) (iblk5 V c 3 ⟨n + 1, hn⟩) (iblk5 V c 1 ⟨n + 1, hn⟩) (accAt5 V c n (Nat.lt_of_succ_lt hn)) := rfl

theorem outsAt5_snd (c : Dev nD) : ∀ (n : ℕ) (hn : n < cfg5.N), (outsAt5 V c n hn).2 = accAt5 V c n hn
  | 0, hn => by
    rw [(outsAt5_A V c ⟨0, hn⟩ (Nat.zero_mod _) (by show ¬0 % 100 = 99; decide) : outsAt5 V c 0 hn = _)]
    dsimp only
    rw [sout5_A_0_eq]
    rfl
  | n + 1, hn => by
    have hN : n + 1 < 100 := lt_of_lt_of_eq hn (show cfg5.N = 100 from N_5)
    have h0 : ¬(n + 1) % 100 = 0 := by omega
    have ih := outsAt5_snd c n (Nat.lt_of_succ_lt hn)
    by_cases h1 : (n + 1) % 100 = 99
    · rw [(outsAt5_C V c ⟨n + 1, hn⟩ h0 h1 : outsAt5 V c (n + 1) hn = _)]
      dsimp only
      rw [sout5_C_0_eq, accAt5_succ]
      exact congrArg (k5_pay2 (iblk5 V c 0 ⟨n + 1, hn⟩) (iblk5 V c 2 ⟨n + 1, hn⟩) (iblk5 V c 3 ⟨n + 1, hn⟩) (iblk5 V c 1 ⟨n + 1, hn⟩)) ih
    · rw [(outsAt5_B V c ⟨n + 1, hn⟩ h0 h1 : outsAt5 V c (n + 1) hn = _)]
      dsimp only
      rw [sout5_B_0_eq, accAt5_succ]
      exact congrArg (k5_pay2 (iblk5 V c 0 ⟨n + 1, hn⟩) (iblk5 V c 2 ⟨n + 1, hn⟩) (iblk5 V c 3 ⟨n + 1, hn⟩) (iblk5 V c 1 ⟨n + 1, hn⟩)) ih

theorem outsAt5_fst_last (c : Dev nD) (t : Fin cfg5.N) (h1 : t.val % 100 = 99) :
    (outsAt5 V c t.val t.isLt).1 = k5_pay3 (accAt5 V c t.val t.isLt) (iblk5 V c 4 t) (iblk5 V c 5 t) := by
  have hN : t.val < 100 := lt_of_lt_of_eq t.isLt (show cfg5.N = 100 from N_5)
  have h0 : ¬t.val % 100 = 0 := by omega
  have hs := outsAt5_snd V c t.val t.isLt
  rw [outsAt5_C V c t h0 h1] at hs ⊢
  dsimp only at hs ⊢
  rw [sout5_C_0_eq] at hs
  rw [out5_C_6_eq, hs]

end Region

end Cert.KernelIdeal.Hand

end
-- ==== Proof.KI.Fin5Final.lean ====
/- The final region's arrays after it: the output array holds the normalisation of the accumulation folded over the whole grid. -/
import proofs.«420535_j82145544503553_2_alg».proof.Proof.KI.Fin5Read
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region
variable (V : (c : Dev nD) → (b : Ref sig .tc) → Buf (Elt F) ((c : Thread nD τ).loc b))

abbrev t99 : Fin cfg5.N := ⟨99, lt_of_lt_of_eq (by decide : (99 : ℕ) < 100) (show 100 = cfg5.N from N_5.symm)⟩

theorem idx5_6 : ∀ t : Fin cfg5.N, win5_6.index t (0 : Fin 2) = 0 ∧ win5_6.index t (1 : Fin 2) = 0 :=
  (by decide +kernel : ∀ t : Fin grid5.N, win5_6.index t (0 : Fin 2) = 0 ∧ win5_6.index t (1 : Fin 2) = 0)

def G5_6 (c : Dev nD) : S512x120.Idx → Elt F .f32 :=
  k5_pay3 (accAt5 V c 99 t99.isLt) (iblk5 V c 4 t99) (iblk5 V c 5 t99)

theorem flush5_6_last (t : Fin cfg5.N) (hf : (cfg5.win 6).flush t = true) : t = t99 := by
  have h99 : t.val % 100 = 99 := (flush5_6 t).mp hf
  have hN : t.val < 100 := lt_of_lt_of_eq t.isLt (show cfg5.N = 100 from N_5)
  exact Fin.ext (by show t.val = 99; omega)

theorem emb5_6 (j : S512x120.Idx) : ((cfg5.win 6).blk t99).view.emb j = j := by
  obtain ⟨e0, e1⟩ := idx5_6 t99
  funext a; apply Fin.ext
  match a with
  | ⟨0, _⟩ => show win5_6.index t99 (0 : Fin 2) * 512 + 1 * (j 0).val = (j 0).val; omega
  | ⟨1, _⟩ => show win5_6.index t99 (1 : Fin 2) * 120 + 1 * (j 1).val = (j 1).val; omega

theorem flushed5_6_eq (c : Dev nD) (t : Fin cfg5.N) (hf : (cfg5.win 6).flush t = true) :
    (dat5 V c).flushed 6 t = ((cfg5.win 6).blk t).view.read (Elt F) (G5_6 V c) := by
  obtain rfl := flush5_6_last t hf
  show (cfg5.win 6).cut (grid5.coords t99) ((dat5 V c).after 6 t99) = _
  rw [after5_6, outsAt5_fst_last V c t99 (by show 99 % 100 = 99; decide)]
  funext j
  show k5_pay3 (accAt5 V c 99 t99.isLt) (iblk5 V c 4 t99) (iblk5 V c 5 t99) j = G5_6 V c (((cfg5.win 6).blk t99).view.emb j)
  rw [emb5_6]
  rfl

theorem cover5_6 (i : S512x120.Idx) : ∃ t : Fin cfg5.N, (cfg5.win 6).flush t = true ∧ i ∈ ((cfg5.win 6).blk t).view.set := by
  refine ⟨t99, (flush5_6 t99).mpr (by show 99 % 100 = 99; decide), ?_⟩
  obtain ⟨e0, e1⟩ := idx5_6 t99
  show i ∈ ((View.whole main_v96).slice (win5_6.rect t99)).set
  rw [View.set_slice_whole, Rect.mem_set_unit]
  intro a
  have hi0 : (i 0).val < 512 := (i 0).isLt
  have hi1 : (i 1).val < 120 := (i 1).isLt
  match a with
  | ⟨0, _⟩ => show win5_6.index t99 (0 : Fin 2) * 512 ≤ (i 0).val ∧ (i 0).val < win5_6.index t99 (0 : Fin 2) * 512 + 512; omega
  | ⟨1, _⟩ => show win5_6.index t99 (1 : Fin 2) * 120 ≤ (i 1).val ∧ (i 1).val < win5_6.index t99 (1 : Fin 2) * 120 + 120; omega

theorem final5_6 (c : Dev nD) : (dat5 V c).arrAt 6 cfg5.N = G5_6 V c :=
  (dat5 V c).arrAt_eq_of_cover 6 (G5_6 V c) (fun t hf => flushed5_6_eq V c t hf) cover5_6

end Region

end Cert.KernelIdeal.Hand

end
-- ==== Proof.KI.FinPay.lean ====
/- The three values the final region's body stores, read at an index over the extended reals. -/
import proofs.«420535_j82145544503553_2_alg».proof.Proof.Gen.KernelIdeal.Skeleton
import proofs.«420535_j82145544503553_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

theorem pay1_apply (s : Fin 512) (j : Fin 128) : k5_pay1 (F := Ideal) (ix2 s j) = 0 := by
  unfold k5_pay1
  rw [shapeCast_self]
  exact Ideal.ofBits_zero_f32

theorem lhs_mm1_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_mm1_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_mm1_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_mm1_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

theorem mm1_apply {φ₁ φ₂ : FTy} (prec : Option ContractPrecision) (lhs : FVec Ideal S1000x128 φ₁) (rhs : FVec Ideal S128x128 φ₂)
    (r : Fin 1000) (j : Fin 128) :
    matmul dot_S1000x128_S128x128_S1000x128_1_0_0_1_n_n prec lhs rhs (constant (F := Ideal) S1000x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 r j) ((ValueIdx.contrEquiv1 dot_S1000x128_S128x128_S1000x128_1_0_0_1_n_n 128 rfl rfl).symm k) = ix2 r k := funext fun a => Fin.ext (by
    match a with
    | ⟨0, _⟩ => exact lhs_mm1_0 _ _
    | ⟨1, _⟩ => exact (lhs_mm1_1 _ _).trans hk)
  have er : dot_S1000x128_S128x128_S1000x128_1_0_0_1_n_n.rhsIdx (ix2 r j) ((ValueIdx.contrEquiv1 dot_S1000x128_S128x128_S1000x128_1_0_0_1_n_n 128 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S512x128.Idx) (q : dot_S1000x512_S1000x128_S512x128_0_0_1_1_n_n.contr.Idx) :
    (dot_S1000x512_S1000x128_S512x128_0_0_1_1_n_n.lhsIdx i q 0).val = (q ⟨0, by decide⟩).val :=
  dot_S1000x512_S1000x128_S512x128_0_0_1_1_n_n.lhsIdx_val_of_single rfl i q
theorem lhs_mm2_1 (i : S512x128.Idx) (q : dot_S1000x512_S1000x128_S512x128_0_0_1_1_n_n.contr.Idx) :
    (dot_S1000x512_S1000x128_S512x128_0_0_1_1_n_n.lhsIdx i q 1).val = (i 0).val := by
  unfold DotDims.lhsIdx
  rw [dif_neg (show ¬(1 : Fin S1000x512.rank) ∈ dot_S1000x512_S1000x128_S512x128_0_0_1_1_n_n.lhsBatch by decide), dif_pos (show (1 : Fin S1000x512.rank) ∈ dot_S1000x512_S1000x128_S512x128_0_0_1_1_n_n.lhsNonContracting by decide)]
  rfl
theorem rhs_mm2_0 (i : S512x128.Idx) (q : dot_S1000x512_S1000x128_S512x128_0_0_1_1_n_n.contr.Idx) :
    (dot_S1000x512_S1000x128_S512x128_0_0_1_1_n_n.rhsIdx i q 0).val = (q ⟨0, by decide⟩).val :=
  dot_S1000x512_S1000x128_S512x128_0_0_1_1_n_n.rhsIdx_val_of_single rfl i q
theorem rhs_mm2_1 (i : S512x128.Idx) (q : dot_S1000x512_S1000x128_S512x128_0_0_1_1_n_n.contr.Idx) :
    (dot_S1000x512_S1000x128_S512x128_0_0_1_1_n_n.rhsIdx i q 1).val = (i 1).val := by
  unfold DotDims.rhsIdx
  rw [dif_neg (show ¬(1 : Fin S1000x128.rank) ∈ dot_S1000x512_S1000x128_S512x128_0_0_1_1_n_n.rhsBatch by decide), dif_pos (show (1 : Fin S1000x128.rank) ∈ dot_S1000x512_S1000x128_S512x128_0_0_1_1_n_n.rhsNonContracting by decide)]
  rfl

theorem mm2_apply {φ₁ φ₂ : FTy} (prec : Option ContractPrecision) (lhs : FVec Ideal S1000x512 φ₁) (rhs : FVec Ideal S1000x128 φ₂)
    (s : Fin 512) (j : Fin 128) :
    matmul dot_S1000x512_S1000x128_S512x128_0_0_1_1_n_n prec lhs rhs (constant (F := Ideal) S512x128 .f32 0x00000000#32) (ix2 s j)
      = ∑ r : Fin 1000, lhs (ix2 r s) * rhs (ix2 r j) := by
  simp only [matmul]
  rw [Ideal.matmul_constant_zero_apply, ← Equiv.sum_comp (ValueIdx.contrEquiv1 dot_S1000x512_S1000x128_S512x128_0_0_1_1_n_n 1000 rfl rfl).symm]
  refine Finset.sum_congr rfl fun k _ => ?_
  have hk := ValueIdx.contrEquiv1_symm_val dot_S1000x512_S1000x128_S512x128_0_0_1_1_n_n 1000 rfl rfl k
  have el : dot_S1000x512_S1000x128_S512x128_0_0_1_1_n_n.lhsIdx (ix2 s j) ((ValueIdx.contrEquiv1 dot_S1000x512_S1000x128_S512x128_0_0_1_1_n_n 1000 rfl rfl).symm k) = ix2 k s := funext fun a => Fin.ext (by
    match a with
    | ⟨0, _⟩ => exact (lhs_mm2_0 _ _).trans hk
    | ⟨1, _⟩ => exact lhs_mm2_1 _ _)
  have er : dot_S1000x512_S1000x128_S512x128_0_0_1_1_n_n.rhsIdx (ix2 s j) ((ValueIdx.contrEquiv1 dot_S1000x512_S1000x128_S512x128_0_0_1_1_n_n 1000 rfl rfl).symm k) = ix2 k j := funext fun a => Fin.ext (by
    match a with
    | ⟨0, _⟩ => exact (rhs_mm2_0 _ _).trans hk
    | ⟨1, _⟩ => exact rhs_mm2_1 _ _)
  rw [el, er]

section Layout
variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

theorem rowSum_apply (x : FVec Ideal S512x120 .f32) (hφ : FKind.Formats .f32)
    (hacc : @Eq (BitVec (FTy.bits .f32)) 0x00000000#32 0x00000000#32) (s : Fin 512) :
    multiReduction (F := Ideal) .add [1] S512 x 0x00000000#32 reduces_S512x120_S512 hφ hacc (ix1 s)
      = ∑ k : Fin 120, x (ix2 s k) := by
  refine (Ideal.multiReduction_add_single x 0x00000000#32 reduces_S512x120_S512 hφ hacc (ix1 s)).trans ?_
  refine Finset.sum_congr rfl fun k _ => congrArg x ?_
  funext a
  match a with
  | ⟨0, _⟩ => rfl
  | ⟨1, _⟩ => rfl

theorem bit_one_toInt : (((1#1 : BitVec 1).setWidth 32).toInt : ℤ) = 1 := by decide
theorem bit_zero_toInt : (((0#1 : BitVec 1).setWidth 32).toInt : ℤ) = 0 := by decide

theorem cmpi_eq_one_iff {w : Nat} {a b : BitVec w} : IntOp.cmpi .eq a b = 1#1 ↔ a = b := by
  unfold IntOp.cmpi
  by_cases h : a = b
  · subst h; simp
  · have hb : (a == b) = false := beq_eq_false_iff_ne.mpr h
    simp only [hb, h, iff_false]
    decide

theorem mask_apply (v14 : Vec Ideal S1000x1 .i32) (r : Fin 1000) (s : Fin 512) :
    (sitofp .f32 (extui 32 (cmpi .eq (broadcastTo S1000x512 (shapeCast S1000x1 v14 shapeCasts_S1000x1_S1000x1 : IVec S1000x1 32) broadcasts_S1000x1_S1000x512)
        (broadcastTo S1000x512 (iota .tc S1x512 32 [1] iota_S1x512_d1_w32) broadcasts_S1x512_S1000x512)) natLt_1_32) : FVec Ideal S1000x512 .f32) (ix2 r s)
      = if v14 (ix2 r 0) = BitVec.ofNat 32 s.val then (1 : EReal) else 0 := by
  have e1 : broadcastTo S1000x512 (shapeCast S1000x1 v14 shapeCasts_S1000x1_S1000x1 : IVec S1000x1 32) broadcasts_S1000x1_S1000x512 (ix2 r s) = v14 (ix2 r 0) := by
    rw [shapeCast_self]
    exact broadcastTo_a1_ab_apply _ _ r s
  have e2 : broadcastTo S1000x512 (iota .tc S1x512 32 [1] iota_S1x512_d1_w32) broadcasts_S1x512_S1000x512 (ix2 r s) = BitVec.ofNat 32 s.val := by
    refine (broadcastTo_1b_ab_apply _ _ r s).trans ?_
    exact iota_single_apply .tc S1x512 32 1 iota_S1x512_d1_w32 (ix2 (0 : Fin 1) s)
  show ((((IntOp.cmpi .eq (broadcastTo S1000x512 (shapeCast S1000x1 v14 shapeCasts_S1000x1_S1000x1 : IVec S1000x1 32) broadcasts_S1000x1_S1000x512 (ix2 r s))
      (broadcastTo S1000x512 (iota .tc S1x512 32 [1] iota_S1x512_d1_w32) broadcasts_S1x512_S1000x512 (ix2 r s))).setWidth 32).toInt : ℝ) : EReal) = _
  rw [e1, e2]
  by_cases h : v14 (ix2 r 0) = BitVec.ofNat 32 s.val
  · rw [if_pos h, cmpi_eq_one_iff.2 h, bit_one_toInt]; norm_num
  · rw [if_neg h, eq_zero_of_ne_one (mt cmpi_eq_one_iff.1 h), bit_zero_toInt]; norm_num

theorem pay2_apply (v3 : Vec Ideal S1000x128 .f32) (v6 : Vec Ideal S128x128 .f32) (v10 : Vec Ideal S1x128 .f32)
    (v14 : Vec Ideal S1000x1 .i32) (v23 : Vec Ideal S512x128 .f32) (s : Fin 512) (j : Fin 128) :
    k5_pay2 v3 v6 v10 v14 v23 (ix2 s j)
      = v23 (ix2 s j) + ∑ r : Fin 1000, (if v14 (ix2 r 0) = BitVec.ofNat 32 s.val then (1 : EReal) else 0)
          * ((∑ k : Fin 128, v3 (ix2 r k) * v6 (ix2 k j)) + v10 (ix2 0 j)) := by
  unfold k5_pay2
  dsimp only
  rw [shapeCast_self, addf_apply, mm2_apply]
  refine congrArg (v23 (ix2 s j) + ·) (Finset.sum_congr rfl fun r _ => ?_)
  rw [mask_apply, addf_apply, mm1_apply, broadcastTo_1b_ab_apply]
  simp only [truncf_apply, shapeCast_self]

theorem rsqrt_apply {s : Shape} {φ : FTy} (a : FVec Ideal s φ) (i : s.Idx) : rsqrt a i = Ideal.rsqrt (a i) := rfl

theorem pay3_apply_aux (v31 : FVec Ideal S512x128 .f32) (v51 v55 : FVec Ideal S1x120 .f32) (s : Fin 512) (j : Fin 120) :
    k5_pay3 (F := Ideal) v31 v51 v55 (ix2 s j)
      = Cert.Spec.layerNorm (fun k : Fin 120 => v31 (ix2 s ⟨k.val, by omega⟩)) (fun k => v51 (ix2 0 k)) (fun k => v55 (ix2 0 k)) j := by
  have h32 : ∀ k : Fin 120, extractStridedSlice S512x120 ![0, 0] v31 slices_S512x128_o0_0_S512x120 (ix2 s k) = v31 (ix2 s ⟨k.val, by omega⟩) :=
    fun k => slice2_axis1_apply 0 v31 slices_S512x128_o0_0_S512x120 s k ⟨k.val, by omega⟩ (Nat.zero_add _).symm
  unfold k5_pay3
  dsimp only
  generalize extractStridedSlice S512x120 ![0, 0] v31 slices_S512x128_o0_0_S512x120 = x32 at h32 ⊢
  simp only [addf_apply, mulf_apply, subf_apply, divf_apply, broadcastTo_1b_ab_apply, broadcastTo_a1_ab_apply, shapeCast_self,
    shapeCast_a_a1_apply, broadcast_apply, rsqrt_apply]
  rw [rowSum_apply x32, rowSum_apply]
  simp only [addf_apply, mulf_apply, subf_apply, divf_apply, broadcastTo_1b_ab_apply, broadcastTo_a1_ab_apply, shapeCast_self,
    shapeCast_a_a1_apply, broadcast_apply, rsqrt_apply]
  rw [rowSum_apply x32]
  simp only [h32]
  rfl

theorem pay3_apply (v31 : Vec Ideal S512x128 .f32) (v51 v55 : Vec Ideal S1x120 .f32) (s : Fin 512) (j : Fin 120) :
    k5_pay3 v31 v51 v55 (ix2 s j)
      = Cert.Spec.layerNorm (fun k : Fin 120 => v31 (ix2 s ⟨k.val, by omega⟩)) (fun k => v51 (ix2 0 k)) (fun k => v55 (ix2 0 k)) j :=
  pay3_apply_aux v31 v51 v55 s j

end Cert.KernelIdeal.Hand

end
-- ==== Proof.KI.FinVal.lean ====
/- The final region's result at the extended reals: the per-graph sum of the projected rows, then the layer normalisation. -/
import proofs.«420535_j82145544503553_2_alg».proof.Proof.KI.Fin5Final
import proofs.«420535_j82145544503553_2_alg».proof.Proof.KI.FinPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Value
variable (V : (c : Dev nD) → (b : Ref sig .tc) → Buf (Elt Ideal) ((c : Thread nD τ).loc b))

abbrev arr5_0 (c : Dev nD) : Vec Ideal S100000x128 .f32 := V c (Pipeline.arrRef spec5 0)
abbrev arr5_1 (c : Dev nD) : Vec Ideal S100000x1 .i32 := V c (Pipeline.arrRef spec5 1)
abbrev arr5_2 (c : Dev nD) : Vec Ideal S128x128 .f32 := V c (Pipeline.arrRef spec5 2)
abbrev arr5_3 (c : Dev nD) : Vec Ideal S1x128 .f32 := V c (Pipeline.arrRef spec5 3)
abbrev arr5_4 (c : Dev nD) : Vec Ideal S1x120 .f32 := V c (Pipeline.arrRef spec5 4)
abbrev arr5_5 (c : Dev nD) : Vec Ideal S1x120 .f32 := V c (Pipeline.arrRef spec5 5)

abbrev blk5_0 (c : Dev nD) (t : Fin cfg5.N) : Vec Ideal S1000x128 .f32 := iblk5 V c 0 t
abbrev blk5_1 (c : Dev nD) (t : Fin cfg5.N) : Vec Ideal S1000x1 .i32 := iblk5 V c 1 t
abbrev blk5_2 (c : Dev nD) (t : Fin cfg5.N) : Vec Ideal S128x128 .f32 := iblk5 V c 2 t
abbrev blk5_3 (c : Dev nD) (t : Fin cfg5.N) : Vec Ideal S1x128 .f32 := iblk5 V c 3 t
abbrev blk5_4 (c : Dev nD) (t : Fin cfg5.N) : Vec Ideal S1x120 .f32 := iblk5 V c 4 t
abbrev blk5_5 (c : Dev nD) (t : Fin cfg5.N) : Vec Ideal S1x120 .f32 := iblk5 V c 5 t

theorem N5 : cfg5.N = 100 := N_5

theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = t.val ∧ win5_1.index t 1 = 0 :=
  (by decide +kernel : ∀ t : Fin grid5.N, win5_1.index t 0 = t.val ∧ win5_1.index t 1 = 0)
theorem idx5_2 : ∀ t : Fin cfg5.N, win5_2.index t 0 = 0 ∧ win5_2.index t 1 = 0 :=
  (by decide +kernel : ∀ t : Fin grid5.N, win5_2.index t 0 = 0 ∧ win5_2.index t 1 = 0)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)
theorem idx5_5 : ∀ t : Fin cfg5.N, win5_5.index t 0 = 0 ∧ win5_5.index t 1 = 0 :=
  (by decide +kernel : ∀ t : Fin grid5.N, win5_5.index t 0 = 0 ∧ win5_5.index t 1 = 0)

theorem blk5_0_apply (c : Dev nD) (t : Fin cfg5.N) (r : Fin 1000) (k : Fin 128) :
    blk5_0 V c t (ix2 r k) = arr5_0 V c (ix2 (⟨r.val + 1000 * t.val, by have ht : t.val < 100 := lt_of_lt_of_eq t.isLt N5; have := r.isLt; omega⟩ : Fin 100000) k) := by
  have hi := idx5_0 t
  have he : ((cfg5.win 0).blk t).view.emb (ix2 r k) = ix2 (⟨r.val + 1000 * t.val, by have ht : t.val < 100 := lt_of_lt_of_eq t.isLt N5; have := r.isLt; omega⟩ : Fin 100000) k := by
    funext a; apply Fin.ext
    match a with
    | ⟨0, _⟩ => show win5_0.index t (0 : Fin 2) * 1000 + 1 * r.val = r.val + 1000 * t.val; rw [hi.1] <;> omega
    | ⟨1, _⟩ => show win5_0.index t (1 : Fin 2) * 128 + 1 * k.val = k.val; rw [hi.2] <;> omega
  show V c (Pipeline.arrRef spec5 0) (((cfg5.win 0).blk t).view.emb (ix2 r k)) = V c (Pipeline.arrRef spec5 0) (ix2 (⟨r.val + 1000 * t.val, by have ht : t.val < 100 := lt_of_lt_of_eq t.isLt N5; have := r.isLt; omega⟩ : Fin 100000) k)
  rw [he]

theorem blk5_1_apply (c : Dev nD) (t : Fin cfg5.N) (r : Fin 1000) :
    blk5_1 V c t (ix2 r (0 : Fin 1)) = arr5_1 V c (ix2 (⟨r.val + 1000 * t.val, by have ht : t.val < 100 := lt_of_lt_of_eq t.isLt N5; have := r.isLt; omega⟩ : Fin 100000) (0 : Fin 1)) := by
  have hi := idx5_1 t
  have he : ((cfg5.win 1).blk t).view.emb (ix2 r (0 : Fin 1)) = ix2 (⟨r.val + 1000 * t.val, by have ht : t.val < 100 := lt_of_lt_of_eq t.isLt N5; have := r.isLt; omega⟩ : Fin 100000) (0 : Fin 1) := by
    funext a; apply Fin.ext
    match a with
    | ⟨0, _⟩ => show win5_1.index t (0 : Fin 2) * 1000 + 1 * r.val = r.val + 1000 * t.val; rw [hi.1] <;> omega
    | ⟨1, _⟩ => show win5_1.index t (1 : Fin 2) * 1 + 1 * 0 = 0; rw [hi.2] <;> omega
  show V c (Pipeline.arrRef spec5 1) (((cfg5.win 1).blk t).view.emb (ix2 r (0 : Fin 1))) = V c (Pipeline.arrRef spec5 1) (ix2 (⟨r.val + 1000 * t.val, by have ht : t.val < 100 := lt_of_lt_of_eq t.isLt N5; have := r.isLt; omega⟩ : Fin 100000) (0 : Fin 1))
  rw [he]

theorem blk5_2_apply (c : Dev nD) (t : Fin cfg5.N) (k j : Fin 128) :
    blk5_2 V c t (ix2 k j) = arr5_2 V c (ix2 k j) := by
  have hi := idx5_2 t
  have he : ((cfg5.win 2).blk t).view.emb (ix2 k j) = ix2 k j := by
    funext a; apply Fin.ext
    match a with
    | ⟨0, _⟩ => show win5_2.index t (0 : Fin 2) * 128 + 1 * k.val = k.val; rw [hi.1] <;> omega
    | ⟨1, _⟩ => show win5_2.index t (1 : Fin 2) * 128 + 1 * j.val = j.val; rw [hi.2] <;> omega
  show V c (Pipeline.arrRef spec5 2) (((cfg5.win 2).blk t).view.emb (ix2 k j)) = V c (Pipeline.arrRef spec5 2) (ix2 k j)
  rw [he]

theorem blk5_3_apply (c : Dev nD) (t : Fin cfg5.N) (j : Fin 128) :
    blk5_3 V c t (ix2 (0 : Fin 1) j) = arr5_3 V c (ix2 (0 : Fin 1) j) := by
  have hi := idx5_3 t
  have he : ((cfg5.win 3).blk t).view.emb (ix2 (0 : Fin 1) j) = ix2 (0 : Fin 1) j := by
    funext a; apply Fin.ext
    match a with
    | ⟨0, _⟩ => show win5_3.index t (0 : Fin 2) * 1 + 1 * 0 = 0; rw [hi.1] <;> omega
    | ⟨1, _⟩ => show win5_3.index t (1 : Fin 2) * 128 + 1 * j.val = j.val; rw [hi.2] <;> omega
  show V c (Pipeline.arrRef spec5 3) (((cfg5.win 3).blk t).view.emb (ix2 (0 : Fin 1) j)) = V c (Pipeline.arrRef spec5 3) (ix2 (0 : Fin 1) j)
  rw [he]

theorem blk5_4_apply (c : Dev nD) (t : Fin cfg5.N) (j : Fin 120) :
    blk5_4 V c t (ix2 (0 : Fin 1) j) = arr5_4 V c (ix2 (0 : Fin 1) j) := by
  have hi := idx5_4 t
  have he : ((cfg5.win 4).blk t).view.emb (ix2 (0 : Fin 1) j) = ix2 (0 : Fin 1) j := by
    funext a; apply Fin.ext
    match a with
    | ⟨0, _⟩ => show win5_4.index t (0 : Fin 2) * 1 + 1 * 0 = 0; rw [hi.1] <;> omega
    | ⟨1, _⟩ => show win5_4.index t (1 : Fin 2) * 120 + 1 * j.val = j.val; rw [hi.2] <;> omega
  show V c (Pipeline.arrRef spec5 4) (((cfg5.win 4).blk t).view.emb (ix2 (0 : Fin 1) j)) = V c (Pipeline.arrRef spec5 4) (ix2 (0 : Fin 1) j)
  rw [he]

theorem blk5_5_apply (c : Dev nD) (t : Fin cfg5.N) (j : Fin 120) :
    blk5_5 V c t (ix2 (0 : Fin 1) j) = arr5_5 V c (ix2 (0 : Fin 1) j) := by
  have hi := idx5_5 t
  have he : ((cfg5.win 5).blk t).view.emb (ix2 (0 : Fin 1) j) = ix2 (0 : Fin 1) j := by
    funext a; apply Fin.ext
    match a with
    | ⟨0, _⟩ => show win5_5.index t (0 : Fin 2) * 1 + 1 * 0 = 0; rw [hi.1] <;> omega
    | ⟨1, _⟩ => show win5_5.index t (1 : Fin 2) * 120 + 1 * j.val = j.val; rw [hi.2] <;> omega
  show V c (Pipeline.arrRef spec5 5) (((cfg5.win 5).blk t).view.emb (ix2 (0 : Fin 1) j)) = V c (Pipeline.arrRef spec5 5) (ix2 (0 : Fin 1) j)
  rw [he]

def rowTerm (c : Dev nD) (s : Fin 512) (j : Fin 128) (m : Fin 100000) : EReal :=
  (if arr5_1 V c (ix2 m 0) = BitVec.ofNat 32 s.val then (1 : EReal) else 0)
    * ((∑ k : Fin 128, arr5_0 V c (ix2 m k) * arr5_2 V c (ix2 k j)) + arr5_3 V c (ix2 0 j))

def blkSum (c : Dev nD) (s : Fin 512) (j : Fin 128) (i : ℕ) : EReal :=
  if h : i < 100 then ∑ r : Fin 1000, rowTerm V c s j ⟨r.val + 1000 * i, by have := r.isLt; omega⟩ else 0

theorem sum_blkSum (c : Dev nD) (s : Fin 512) (j : Fin 128) :
    ∑ i ∈ Finset.range 100, blkSum V c s j i = ∑ m : Fin 100000, rowTerm V c s j m := by
  rw [← Fin.sum_univ_eq_sum_range (fun i => blkSum V c s j i) 100]
  rw [← Equiv.sum_comp (finProdFinEquiv (m := 100) (n := 1000)) (fun m : Fin 100000 => rowTerm V c s j m), Fintype.sum_prod_type]
  refine Finset.sum_congr rfl fun i _ => ?_
  unfold blkSum
  rw [dif_pos i.isLt]
  refine Finset.sum_congr rfl fun r _ => ?_
  exact congrArg (rowTerm V c s j) (Fin.ext rfl)

theorem pay2_blk (c : Dev nD) (t : Fin cfg5.N) (acc : Vec Ideal S512x128 .f32) (s : Fin 512) (j : Fin 128) :
    k5_pay2 (blk5_0 V c t) (blk5_2 V c t) (blk5_3 V c t) (blk5_1 V c t) acc (ix2 s j)
      = acc (ix2 s j) + blkSum V c s j t.val := by
  have ht : t.val < 100 := lt_of_lt_of_eq t.isLt N5
  rw [pay2_apply]
  unfold blkSum
  rw [dif_pos ht]
  refine congrArg (acc (ix2 s j) + ·) (Finset.sum_congr rfl fun r _ => ?_)
  unfold rowTerm
  rw [blk5_1_apply, blk5_3_apply]
  simp only [blk5_0_apply, blk5_2_apply]

theorem acc_of_steps (c : Dev nD) (S : (n : ℕ) → n < cfg5.N → Vec Ideal S512x128 .f32)
    (h0 : ∀ h : 0 < cfg5.N, S 0 h = k5_pay2 (blk5_0 V c ⟨0, h⟩) (blk5_2 V c ⟨0, h⟩) (blk5_3 V c ⟨0, h⟩) (blk5_1 V c ⟨0, h⟩) (k5_pay1 (F := Ideal)))
    (hs : ∀ (n : ℕ) (h : n + 1 < cfg5.N), S (n + 1) h
      = k5_pay2 (blk5_0 V c ⟨n + 1, h⟩) (blk5_2 V c ⟨n + 1, h⟩) (blk5_3 V c ⟨n + 1, h⟩) (blk5_1 V c ⟨n + 1, h⟩) (S n (Nat.lt_of_succ_lt h)))
    (s : Fin 512) (j : Fin 128) :
    ∀ (n : ℕ) (h : n < cfg5.N), S n h (ix2 s j) = ∑ i ∈ Finset.range (n + 1), blkSum V c s j i
  | 0, h => by
    rw [h0 h, pay2_blk V c ⟨0, h⟩, pay1_apply, zero_add, Finset.sum_range_one]
  | n + 1, h => by
    rw [hs n h, pay2_blk V c ⟨n + 1, h⟩, acc_of_steps c S h0 hs s j n (Nat.lt_of_succ_lt h), Finset.sum_range_succ _ (n + 1)]

theorem acc5_eq (c : Dev nD) (s : Fin 512) (j : Fin 128) (n : ℕ) (hn : n < cfg5.N) :
    (accAt5 V c n hn : Vec Ideal S512x128 .f32) (ix2 s j) = ∑ i ∈ Finset.range (n + 1), blkSum V c s j i :=
  acc_of_steps V c (accAt5 V c) (accAt5_zero V c) (accAt5_succ V c) s j n hn

theorem sum_rowTerm_eq (c : Dev nD) (s : Fin 512) (j : Fin 128) :
    ∑ m : Fin 100000, rowTerm V c s j m
      = Cert.Spec.segMask (Cert.Spec.proj (fun n k' => arr5_0 V c (ix2 n k')) (fun k' j' => arr5_2 V c (ix2 k' j')) (fun j' => arr5_3 V c (ix2 0 j')))
          (fun n => arr5_1 V c (ix2 n 0)) s j := rfl

theorem acc5_last (c : Dev nD) (s : Fin 512) (j : Fin 128) :
    (accAt5 V c 99 t99.isLt : Vec Ideal S512x128 .f32) (ix2 s j)
      = Cert.Spec.segMask (Cert.Spec.proj (fun n k' => arr5_0 V c (ix2 n k')) (fun k' j' => arr5_2 V c (ix2 k' j')) (fun j' => arr5_3 V c (ix2 0 j')))
          (fun n => arr5_1 V c (ix2 n 0)) s j := by
  rw [acc5_eq V c s j 99 t99.isLt, ← sum_rowTerm_eq, ← sum_blkSum]

theorem fin5_val (c : Dev nD) (s : Fin 512) (j : Fin 120) :
    ((dat5 V c).arrAt 6 cfg5.N : Vec Ideal S512x120 .f32) (ix2 s j)
      = Cert.Spec.layerNorm (fun k : Fin 120 => Cert.Spec.segMask (Cert.Spec.proj (fun n k' => arr5_0 V c (ix2 n k')) (fun k' j' => arr5_2 V c (ix2 k' j')) (fun j' => arr5_3 V c (ix2 0 j'))) (fun n => arr5_1 V c (ix2 n 0)) s ⟨k.val, by omega⟩)
          (fun j' => arr5_4 V c (ix2 0 j')) (fun j' => arr5_5 V c (ix2 0 j')) j := by
  rw [final5_6 V c]
  show k5_pay3 (accAt5 V c 99 t99.isLt) (blk5_4 V c t99) (blk5_5 V c t99) (ix2 s j) = _
  refine (pay3_apply (accAt5 V c 99 t99.isLt) (blk5_4 V c t99) (blk5_5 V c t99) s j).trans ?_
  have hg : (fun k : Fin 120 => (accAt5 V c 99 t99.isLt : Vec Ideal S512x128 .f32) (ix2 s ⟨k.val, by omega⟩))
      = fun k : Fin 120 => Cert.Spec.segMask (Cert.Spec.proj (fun n k' => arr5_0 V c (ix2 n k')) (fun k' j' => arr5_2 V c (ix2 k' j')) (fun j' => arr5_3 V c (ix2 0 j')))
          (fun n => arr5_1 V c (ix2 n 0)) s ⟨k.val, by omega⟩ := funext fun k => acc5_last V c s ⟨k.val, by omega⟩
  have h4 : (fun k : Fin 120 => blk5_4 V c t99 (ix2 0 k)) = fun j' => arr5_4 V c (ix2 0 j') := funext fun k => blk5_4_apply V c t99 k
  have h5 : (fun k : Fin 120 => blk5_5 V c t99 (ix2 0 k)) = fun j' => arr5_5 V c (ix2 0 j') := funext fun k => blk5_5_apply V c t99 k
  rw [hg, h4, h5]

end Value

end Cert.KernelIdeal.Hand

end
-- ==== Proof.SpecArgs.lean ====
/- The argument arrays read as the index functions the mathematics is stated over. -/
import proofs.«420535_j82145544503553_2_alg».proof.Proof.Spec
import Idealize.ShloMosaic.Lib.ValueIdx

noncomputable section

namespace Cert.Spec

open Idealize.ShloMosaic Idealize.ShloMosaic.ValueIdx

def mat {A B : ℕ} (a : (⟨2, ![A, B]⟩ : Shape).Idx → R) : Fin A → Fin B → R := fun i j => a (ix2 i j)

def vec {B : ℕ} (a : (⟨1, ![B]⟩ : Shape).Idx → R) : Fin B → R := fun j => a (ix1 j)

def srcOf (ei : (⟨2, ![2, 1600000]⟩ : Shape).Idx → BitVec 32) (e : Fin 1600000) : BitVec 32 :=
  Scalar.select (IntOp.cmpi .slt (ei (ix2 0 e)) 0#32) (IntOp.addi (ei (ix2 0 e)) 100000#32) (ei (ix2 0 e))

def dstOf (ei : (⟨2, ![2, 1600000]⟩ : Shape).Idx → BitVec 32) (e : Fin 1600000) : BitVec 32 := ei (ix2 1 e)

def batchOf (b : (⟨1, ![100000]⟩ : Shape).Idx → BitVec 32) (n : Fin 100000) : BitVec 32 := b (ix1 n)

def paramsOf
    (a3 : (⟨2, ![108, 98]⟩ : Shape).Idx → R) (a4 : (⟨1, ![98]⟩ : Shape).Idx → R) (a5 : (⟨2, ![98, 98]⟩ : Shape).Idx → R) (a6 : (⟨1, ![98]⟩ : Shape).Idx → R)
    (a7 : (⟨2, ![98, 98]⟩ : Shape).Idx → R) (a8 : (⟨1, ![98]⟩ : Shape).Idx → R) (a9 : (⟨2, ![98, 98]⟩ : Shape).Idx → R) (a10 : (⟨1, ![98]⟩ : Shape).Idx → R)
    (a11 : (⟨2, ![98, 98]⟩ : Shape).Idx → R) (a12 : (⟨1, ![98]⟩ : Shape).Idx → R) (a13 : (⟨2, ![98, 98]⟩ : Shape).Idx → R) (a14 : (⟨1, ![98]⟩ : Shape).Idx → R)
    (a15 : (⟨2, ![98, 98]⟩ : Shape).Idx → R) (a16 : (⟨1, ![98]⟩ : Shape).Idx → R) (a17 : (⟨2, ![98, 98]⟩ : Shape).Idx → R) (a18 : (⟨1, ![98]⟩ : Shape).Idx → R)
    (a19 : (⟨2, ![98, 98]⟩ : Shape).Idx → R) (a20 : (⟨1, ![98]⟩ : Shape).Idx → R) (a21 : (⟨2, ![98, 98]⟩ : Shape).Idx → R) (a22 : (⟨1, ![98]⟩ : Shape).Idx → R)
    (a23 : (⟨2, ![98, 120]⟩ : Shape).Idx → R) (a24 : (⟨1, ![120]⟩ : Shape).Idx → R) (a25 : (⟨1, ![120]⟩ : Shape).Idx → R) (a26 : (⟨1, ![120]⟩ : Shape).Idx → R) : Params where
  w11 := mat a3
  b11 := vec a4
  w12 := mat a5
  b12 := vec a6
  w21 := mat a7
  b21 := vec a8
  w22 := mat a9
  b22 := vec a10
  w31 := mat a11
  b31 := vec a12
  w32 := mat a13
  b32 := vec a14
  w41 := mat a15
  b41 := vec a16
  w42 := mat a17
  b42 := vec a18
  w51 := mat a19
  b51 := vec a20
  w52 := mat a21
  b52 := vec a22
  lw := mat a23
  lb := vec a24
  gam := vec a25
  bet := vec a26

theorem hN : 0 < 100000 := by norm_num

def kernelOf (a0 : (⟨2, ![100000, 108]⟩ : Shape).Idx → R) (a1 : (⟨2, ![2, 1600000]⟩ : Shape).Idx → BitVec 32)
    (a2 : (⟨1, ![100000]⟩ : Shape).Idx → BitVec 32) (P : Params) (s : Fin 512) (j : Fin 120) : R :=
  kernelOut hN (mat a0) (srcOf a1) (dstOf a1) (batchOf a2) P s j
def refOf (a0 : (⟨2, ![100000, 108]⟩ : Shape).Idx → R) (a1 : (⟨2, ![2, 1600000]⟩ : Shape).Idx → BitVec 32)
    (a2 : (⟨1, ![100000]⟩ : Shape).Idx → BitVec 32) (P : Params) (s : Fin 512) (j : Fin 120) : R :=
  refOut hN (mat a0) (srcOf a1) (dstOf a1) (batchOf a2) P s j

end Cert.Spec

end
-- ==== Proof.LibRows.lean ====
/- Row gathers, scatter-adds, pads and reshapes of rank-2 arrays read at one element, for any sizes. -/
import Idealize.ShloMosaic.Lib.ValueIdx
import Idealize.ShloMosaic.PureOps.Ideal
import Idealize.ShloMosaic.PureOps.Ideal.Laws

noncomputable section

open scoped BigOperators

namespace Idealize.ShloMosaic.LibRows

open Idealize.ShloMosaic Idealize.ShloMosaic.ValueIdx

section Gather
variable {α : Type}

abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGatherDims N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGatherDims N E D wf).start (ix2 e q) idx 0 + (rowGatherDims N E D wf).batchCoord (ix2 e q) 0
      + (rowGatherDims N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e q) ⟨List.idxOf (0 : Fin 2) (rowGatherDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E D wf).start (ix2 e q) idx 1 + (rowGatherDims N E D wf).batchCoord (ix2 e q) 1
      + (rowGatherDims N E D wf).offCoord (ix2 e q) 1 = _
    rw [GatherDims.batchCoord_eq_zero _ _ _ List.not_mem_nil]
    unfold GatherDims.start
    rw [dif_neg (show (1 : Fin 2) ∉ (rowGatherDims N E D wf).startIndexMap from
      fun h => absurd (List.mem_singleton.mp h) (show (1 : Fin 2) ≠ 0 by decide))]
    simp only [Nat.add_zero, Nat.zero_add]
    rfl

end Gather

section Scatter

abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem rowScatter_start_zero (idx : IVec ⟨2, ![E, 1]⟩ w) (e : Fin E) (q' : Fin D) :
    (rowScatterDims N E D wf).start (ix2 e q') idx 0 = (idx (ix2 e 0)).toInt := by
  unfold ScatterDims.start
  rw [dif_pos (show (0 : Fin 2) ∈ (rowScatterDims N E D wf).scatterDimsToOperandDims from List.mem_singleton.mpr rfl)]
  have hsi : (rowScatterDims N E D wf).siIdx (ix2 e q')
      ⟨List.idxOf (0 : Fin 2) (rowScatterDims N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start_one (idx : IVec ⟨2, ![E, 1]⟩ w) (e : Fin E) (q' : Fin D) :
    (rowScatterDims N E D wf).start (ix2 e q') idx 1 = 0 := by
  unfold ScatterDims.start
  rw [dif_neg (show (1 : Fin 2) ∉ (rowScatterDims N E D wf).scatterDimsToOperandDims from
    fun h => absurd (List.mem_singleton.mp h) (show (1 : Fin 2) ≠ 0 by decide))]

theorem rowScatter_window_zero (e : Fin E) (q' : Fin D) :
    (rowScatterDims N E D wf).window (ix2 e q') 0 = 0 := by
  unfold ScatterDims.window
  rw [dif_neg]
  intro h
  have : (0 : Fin 2) ∉ [(0 : Fin 2)] := (List.mem_filter.mp h).2 |> fun h' => by simpa using h'
  exact this (List.mem_singleton.mpr rfl)

theorem rowScatter_window_one (e : Fin E) (q' : Fin D) :
    (rowScatterDims N E D wf).window (ix2 e q') 1 = q'.val := by
  unfold ScatterDims.window
  have h1 : (1 : Fin 2) ∈ (rowScatterDims N E D wf).sKept :=
    List.mem_filter.mpr ⟨List.mem_finRange _, by
      show decide ((1 : Fin 2) ∉ [(0 : Fin 2)]) = true
      decide⟩
  rw [dif_pos h1]
  rfl

theorem rowScatter_resultIdx?_eq_some (idx : IVec ⟨2, ![E, 1]⟩ w) (e : Fin E) (q' : Fin D) (n : Fin N) (q : Fin D) :
    (rowScatterDims N E D wf).resultIdx? (ix2 e q') idx = some (ix2 n q)
      ↔ (idx (ix2 e 0)).toInt = (n.val : ℤ) ∧ q' = q := by
  unfold ScatterDims.resultIdx?
  constructor
  · intro h
    split at h
    · rename_i hin
      have hf := Option.some.inj h
      have h0 : ((rowScatterDims N E D wf).start (ix2 e q') idx 0
          + ((rowScatterDims N E D wf).window (ix2 e q') 0 : ℤ)).toNat = n.val :=
        congrArg (fun f => (f 0).val) hf
      have h1 : ((rowScatterDims N E D wf).start (ix2 e q') idx 1
          + ((rowScatterDims N E D wf).window (ix2 e q') 1 : ℤ)).toNat = q.val :=
        congrArg (fun f => (f 1).val) hf
      have hin0 := (hin 0).1
      rw [rowScatter_start_zero, rowScatter_window_zero] at h0 hin0
      rw [rowScatter_start_one, rowScatter_window_one] at h1
      exact ⟨by omega, Fin.ext (by omega)⟩
    · exact absurd h (by simp)
  · rintro ⟨hn, rfl⟩
    have hin : ∀ a, 0 ≤ (rowScatterDims N E D wf).start (ix2 e q') idx a + ((rowScatterDims N E D wf).window (ix2 e q') a : ℤ)
        ∧ (rowScatterDims N E D wf).start (ix2 e q') idx a + ((rowScatterDims N E D wf).window (ix2 e q') a : ℤ)
          < ((⟨2, ![N, D]⟩ : Shape).size a : ℤ) := by
      intro a
      match a with
      | ⟨0, _⟩ =>
        show 0 ≤ (rowScatterDims N E D wf).start (ix2 e q') idx 0 + ((rowScatterDims N E D wf).window (ix2 e q') 0 : ℤ)
          ∧ (rowScatterDims N E D wf).start (ix2 e q') idx 0 + ((rowScatterDims N E D wf).window (ix2 e q') 0 : ℤ) < (N : ℤ)
        rw [rowScatter_start_zero, rowScatter_window_zero, hn]
        have := n.isLt
        constructor <;> omega
      | ⟨1, _⟩ =>
        show 0 ≤ (rowScatterDims N E D wf).start (ix2 e q') idx 1 + ((rowScatterDims N E D wf).window (ix2 e q') 1 : ℤ)
          ∧ (rowScatterDims N E D wf).start (ix2 e q') idx 1 + ((rowScatterDims N E D wf).window (ix2 e q') 1 : ℤ) < (D : ℤ)
        rw [rowScatter_start_one, rowScatter_window_one]
        have := q'.isLt
        constructor <;> omega
    rw [dif_pos hin]
    congr 1
    funext a
    refine Fin.ext ?_
    match a with
    | ⟨0, _⟩ =>
      show ((rowScatterDims N E D wf).start (ix2 e q') idx 0
        + ((rowScatterDims N E D wf).window (ix2 e q') 0 : ℤ)).toNat = n.val
      rw [rowScatter_start_zero, rowScatter_window_zero, hn]
      omega
    | ⟨1, _⟩ =>
      show ((rowScatterDims N E D wf).start (ix2 e q') idx 1
        + ((rowScatterDims N E D wf).window (ix2 e q') 1 : ℤ)).toNat = q'.val
      rw [rowScatter_start_one, rowScatter_window_one]
      omega

theorem scatterAdd_rows_apply (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatterDims N E D wf) x idx upd (ix2 n q)
      = x (ix2 n q) + ∑ e ∈ Finset.univ.filter (fun e : Fin E => (idx (ix2 e 0)).toInt = (n.val : ℤ)), upd (ix2 e q) := by
  unfold Ideal.hostScatterAdd
  congr 1
  refine Finset.sum_bij (fun j _ => (j 0 : Fin E)) ?_ ?_ ?_ ?_
  · intro j hj
    have hj' := (Finset.mem_filter.mp hj).2
    rw [eq_ix2 j] at hj'
    exact Finset.mem_filter.mpr ⟨Finset.mem_univ _, ((rowScatter_resultIdx?_eq_some wf idx _ _ n q).mp hj').1⟩
  · intro j hj j' hj' h0
    have h1 := (Finset.mem_filter.mp hj).2
    have h1' := (Finset.mem_filter.mp hj').2
    rw [eq_ix2 j] at h1
    rw [eq_ix2 j'] at h1'
    have e1 := ((rowScatter_resultIdx?_eq_some wf idx _ _ n q).mp h1).2
    have e1' := ((rowScatter_resultIdx?_eq_some wf idx _ _ n q).mp h1').2
    rw [eq_ix2 j, eq_ix2 j']
    have h0' : j 0 = j' 0 := h0
    rw [h0', e1, e1']
  · intro e he
    have he' := (Finset.mem_filter.mp he).2
    exact ⟨ix2 e q, Finset.mem_filter.mpr ⟨Finset.mem_univ _,
      (rowScatter_resultIdx?_eq_some wf idx e q n q).mpr ⟨he', rfl⟩⟩, rfl⟩
  · intro j hj
    have h1 := (Finset.mem_filter.mp hj).2
    rw [eq_ix2 j] at h1
    have e1 : j 1 = q := ((rowScatter_resultIdx?_eq_some wf idx _ _ n q).mp h1).2
    have hjq : j = ix2 (j 0 : Fin E) q := by rw [← e1]; exact eq_ix2 j
    exact congrArg upd hjq

theorem Host_scatterAdd_rows_apply {φ : FTy} (x : FVec Ideal ⟨2, ![N, D]⟩ φ) (idx : IVec ⟨2, ![E, 1]⟩ w)
    (upd : FVec Ideal ⟨2, ![E, D]⟩ φ) (n : Fin N) (q : Fin D) :
    Host.scatterAdd (F := Ideal) (rowScatterDims N E D wf) x idx upd (ix2 n q)
      = x (ix2 n q) + ∑ e ∈ Finset.univ.filter (fun e : Fin E => (idx (ix2 e 0)).toInt = (n.val : ℤ)), upd (ix2 e q) :=
  scatterAdd_rows_apply wf x idx upd n q

end Scatter

section Pad
variable {α : Type}

theorem pad_cols_apply {A B A' B' ha hb : Nat} (x : (⟨2, ![A, B]⟩ : Shape).Idx → α) {u : Shape} (v : u.Idx → α)
    (hp : (⟨2, ![A, B]⟩ : Shape).Pads ![0, 0] ![ha, hb] ![0, 0] ⟨2, ![A', B']⟩) (hu : 0 < u.numel)
    (a : Fin A') (b : Fin B') :
    pad ⟨2, ![A', B']⟩ ![0, 0] ![ha, hb] ![0, 0] x v hp hu (ix2 a b)
      = if h : a.val < A ∧ b.val < B then x (ix2 ⟨a.val, h.1⟩ ⟨b.val, h.2⟩) else v (Shape.Idx.first hu) := by
  unfold pad
  by_cases h : a.val < A ∧ b.val < B
  · rw [dif_pos h]
    have hin : ∀ c : Fin (⟨2, ![A, B]⟩ : Shape).rank,
        (![0, 0] : Fin 2 → Nat) c ≤ ((ix2 a b) (c.cast hp.1)).val
          ∧ (((ix2 a b) (c.cast hp.1)).val - (![0, 0] : Fin 2 → Nat) c) % ((![0, 0] : Fin 2 → Nat) c + 1) = 0
          ∧ (((ix2 a b) (c.cast hp.1)).val - (![0, 0] : Fin 2 → Nat) c) / ((![0, 0] : Fin 2 → Nat) c + 1)
            < (⟨2, ![A, B]⟩ : Shape).size c := by
      intro c
      match c with
      | ⟨0, _⟩ =>
        show 0 ≤ a.val ∧ (a.val - 0) % (0 + 1) = 0 ∧ (a.val - 0) / (0 + 1) < A
        refine ⟨Nat.zero_le _, Nat.mod_one _, ?_⟩
        rw [Nat.sub_zero, Nat.zero_add, Nat.div_one]; exact h.1
      | ⟨1, _⟩ =>
        show 0 ≤ b.val ∧ (b.val - 0) % (0 + 1) = 0 ∧ (b.val - 0) / (0 + 1) < B
        refine ⟨Nat.zero_le _, Nat.mod_one _, ?_⟩
        rw [Nat.sub_zero, Nat.zero_add, Nat.div_one]; exact h.2
    rw [dif_pos hin]
    congr 1
    funext c
    refine Fin.ext ?_
    match c with
    | ⟨0, _⟩ =>
      show (a.val - 0) / (0 + 1) = a.val
      rw [Nat.sub_zero, Nat.zero_add, Nat.div_one]
    | ⟨1, _⟩ =>
      show (b.val - 0) / (0 + 1) = b.val
      rw [Nat.sub_zero, Nat.zero_add, Nat.div_one]
  · rw [dif_neg h, dif_neg]
    intro hin
    apply h
    have h0 : (a.val - 0) / (0 + 1) < A := (hin 0).2.2
    have h1 : (b.val - 0) / (0 + 1) < B := (hin 1).2.2
    rw [Nat.sub_zero, Nat.zero_add, Nat.div_one] at h0 h1
    exact ⟨h0, h1⟩

theorem pad_vec_apply {A A' ha : Nat} (x : (⟨1, ![A]⟩ : Shape).Idx → α) {u : Shape} (v : u.Idx → α)
    (hp : (⟨1, ![A]⟩ : Shape).Pads ![0] ![ha] ![0] ⟨1, ![A']⟩) (hu : 0 < u.numel) (a : Fin A') :
    pad ⟨1, ![A']⟩ ![0] ![ha] ![0] x v hp hu (ix1 a)
      = if h : a.val < A then x (ix1 ⟨a.val, h⟩) else v (Shape.Idx.first hu) := by
  unfold pad
  by_cases h : a.val < A
  · rw [dif_pos h]
    have hin : ∀ c : Fin (⟨1, ![A]⟩ : Shape).rank,
        (![0] : Fin 1 → Nat) c ≤ ((ix1 a) (c.cast hp.1)).val
          ∧ (((ix1 a) (c.cast hp.1)).val - (![0] : Fin 1 → Nat) c) % ((![0] : Fin 1 → Nat) c + 1) = 0
          ∧ (((ix1 a) (c.cast hp.1)).val - (![0] : Fin 1 → Nat) c) / ((![0] : Fin 1 → Nat) c + 1)
            < (⟨1, ![A]⟩ : Shape).size c := by
      intro c
      match c with
      | ⟨0, _⟩ =>
        show 0 ≤ a.val ∧ (a.val - 0) % (0 + 1) = 0 ∧ (a.val - 0) / (0 + 1) < A
        refine ⟨Nat.zero_le _, Nat.mod_one _, ?_⟩
        rw [Nat.sub_zero, Nat.zero_add, Nat.div_one]; exact h
    rw [dif_pos hin]
    congr 1
    funext c
    refine Fin.ext ?_
    match c with
    | ⟨0, _⟩ =>
      show (a.val - 0) / (0 + 1) = a.val
      rw [Nat.sub_zero, Nat.zero_add, Nat.div_one]
  · rw [dif_neg h, dif_neg]
    intro hin
    apply h
    have h0 : (a.val - 0) / (0 + 1) < A := (hin 0).2.2
    rw [Nat.sub_zero, Nat.zero_add, Nat.div_one] at h0
    exact h0

end Pad

section OfEq
variable {α : Type}

theorem gather_rows_apply_of {N E D w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (e : Fin E) (q : Fin D) :
    Host.gather d x idx (ix2 e q) = x (ix2 ⟨min (idx (ix2 e 0)).toInt.toNat (N - 1), by omega⟩ q) := by
  subst hd
  exact gather_rows_apply hN wf x idx e q

theorem Host_scatterAdd_rows_apply_of {N E D w : Nat} {φ : FTy}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatterDims N E D wf)
    (x : FVec Ideal ⟨2, ![N, D]⟩ φ) (idx : IVec ⟨2, ![E, 1]⟩ w) (upd : FVec Ideal ⟨2, ![E, D]⟩ φ)
    (n : Fin N) (q : Fin D) :
    Host.scatterAdd (F := Ideal) d x idx upd (ix2 n q)
      = x (ix2 n q) + ∑ e ∈ Finset.univ.filter (fun e : Fin E => (idx (ix2 e 0)).toInt = (n.val : ℤ)), upd (ix2 e q) := by
  subst hd
  exact scatterAdd_rows_apply wf x idx upd n q

end OfEq

end Idealize.ShloMosaic.LibRows

end
-- ==== Proof.KI.HostReads.lean ====
/- The buffers the first layer region is entered with, index by index, as functions of the argument arrays. -/
import proofs.«420535_j82145544503553_2_alg».proof.Proof.KernelIdealRegions
import proofs.«420535_j82145544503553_2_alg».proof.Proof.SpecArgs
import proofs.«420535_j82145544503553_2_alg».proof.Proof.LibRows
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.LibRows

syntax "unwritten " "[" term,* "]" : tactic
macro_rules
  | `(tactic| unwritten []) => `(tactic| rfl)
  | `(tactic| unwritten [$l]) => `(tactic| exact ($l _ (by decide)))
  | `(tactic| unwritten [$l, $ls,*]) => `(tactic| (refine ($l _ (by decide)).trans ?_; unwritten [$ls,*]))

theorem padValue_zero (i : S_.Idx) : sitofp (F := Ideal) .f32 (constantI S_ 32 0#32) i = (0 : EReal) := by
  show (((0#32 : BitVec 32).toInt : ℝ) : EReal) = 0
  norm_num

theorem padRows_apply (x : Vec Ideal S100000x108 .f32) (n : Fin 100000) (k : Fin 128) :
    pad S100000x128 ![0, 0] ![0, 20] ![0, 0] x (sitofp (F := Ideal) .f32 (constantI S_ 32 0#32))
        pads_S100000x108_S100000x128_000_0200 h_S_ (ix2 n k)
      = Cert.Spec.padc (Cert.Spec.mat x) n k := by
  refine (pad_cols_apply x _ pads_S100000x108_S100000x128_000_0200 h_S_ n k).trans ?_
  unfold Cert.Spec.padc Cert.Spec.mat
  by_cases hk : k.val < 108
  · rw [dif_pos ⟨n.isLt, hk⟩, dif_pos hk]
  · rw [dif_neg (fun h => hk h.2), dif_neg hk]
    exact padValue_zero _

theorem padMat_apply {A B ha hb : ℕ} (x : (⟨2, ![A, B]⟩ : Shape).Idx → EReal)
    (hp : (⟨2, ![A, B]⟩ : Shape).Pads ![0, 0] ![ha, hb] ![0, 0] S128x128) (k j : Fin 128) :
    pad S128x128 ![0, 0] ![ha, hb] ![0, 0] x (sitofp (F := Ideal) .f32 (constantI S_ 32 0#32)) hp h_S_ (ix2 k j)
      = Cert.Spec.pad2 (Cert.Spec.mat x) k j := by
  refine (pad_cols_apply x _ hp h_S_ k j).trans ?_
  unfold Cert.Spec.pad2 Cert.Spec.mat
  by_cases h : k.val < A ∧ j.val < B
  · rw [dif_pos h, dif_pos h]
  · rw [dif_neg h, dif_neg h]
    exact padValue_zero _

theorem padRow_apply {B hb : ℕ} (x : (⟨1, ![B]⟩ : Shape).Idx → EReal)
    (hp : (⟨1, ![B]⟩ : Shape).Pads ![0] ![hb] ![0] S128) (u : Fin 1) (j : Fin 128) :
    shapeCast S1x128 (pad S128 ![0] ![hb] ![0] x (sitofp (F := Ideal) .f32 (constantI S_ 32 0#32)) hp h_S_)
        shapeCasts_S128_S1x128 (ix2 u j)
      = Cert.Spec.padv (Cert.Spec.vec x) j := by
  rw [shapeCast_a_1a_apply]
  refine (pad_vec_apply x _ hp h_S_ j).trans ?_
  unfold Cert.Spec.padv Cert.Spec.vec
  by_cases h : j.val < B
  · rw [dif_pos h, dif_pos h]
  · rw [dif_neg h, dif_neg h]
    exact padValue_zero _

abbrev srcVec (a1 : IVec S2x1600000 32) : IVec S1600000 32 :=
  shapeCast S1600000 (extractStridedSlice S1x1600000 ![0, 0] a1 slices_S2x1600000_S1x1600000_0_0) shapeCasts_S1x1600000_S1600000
abbrev dstVec (a1 : IVec S2x1600000 32) : IVec S1600000 32 :=
  shapeCast S1600000 (extractStridedSlice S1x1600000 ![1, 0] a1 slices_S2x1600000_S1x1600000_1_0) shapeCasts_S1x1600000_S1600000

theorem srcVec_apply (a1 : IVec S2x1600000 32) (e : Fin 1600000) : srcVec a1 (ix1 e) = a1 (ix2 0 e) := by
  unfold srcVec
  rw [shapeCast_1a_a_apply]
  exact slice2_axis0_apply 0 a1 slices_S2x1600000_S1x1600000_0_0 (0 : Fin 1) e (0 : Fin 2) rfl

theorem dstVec_apply (a1 : IVec S2x1600000 32) (e : Fin 1600000) : dstVec a1 (ix1 e) = a1 (ix2 1 e) := by
  unfold dstVec
  rw [shapeCast_1a_a_apply]
  exact slice2_axis0_apply 1 a1 slices_S2x1600000_S1x1600000_1_0 (0 : Fin 1) e (1 : Fin 2) rfl

def aggTerm (h : Vec Ideal S100000x128 .f32) (v1 v3 : IVec S1600000 32) : Vec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 v3)
    (Host.gather gather_S100000x128_S1600000x1_S1600000x128_1_0_n_n_0_1_1128 h
      (broadcastInDim S1600000x1 ![0] bcast_S1600000_S1600000x1_0
        (select (cmpi .slt v1 (broadcastInDim S1600000 ![] bcast_S_S1600000 (constantI S_ 32 0#32)))
          (addi v1 (broadcastInDim S1600000 ![] bcast_S_S1600000 (constantI S_ 32 100000#32))) v1)))

theorem column_apply (v : IVec S1600000 32) (e : Fin 1600000) :
    broadcastInDim S1600000x1 ![0] bcast_S1600000_S1600000x1_0 v (ix2 e 0) = v (ix1 e) :=
  broadcastInDim_apply _ _ v _ (ix1 e) (fun a => by
    match a with
    | ⟨0, _⟩ => exact (if_neg (by decide : ¬(1600000 : ℕ) = 1)).symm)

theorem aggTerm_apply (h : Vec Ideal S100000x128 .f32) (a1 : IVec S2x1600000 32) (n : Fin 100000) (q : Fin 128) :
    aggTerm h (srcVec a1) (dstVec a1) (ix2 n q)
      = Cert.Spec.agg Cert.Spec.hN (fun n k => h (ix2 n k)) (Cert.Spec.srcOf a1) (Cert.Spec.dstOf a1) n q := by
  unfold aggTerm
  rw [Host_scatterAdd_rows_apply_of scatter_S100000x128_S1600000x1_S1600000x128_1_0_0_1_wf scatter_S100000x128_S1600000x1_S1600000x128_1_0_0_1 rfl]
  have h0 : broadcastInDim S100000x128 ![] bcast_S_S100000x128 (constant (F := Ideal) S_ .f32 0x00000000#32) (ix2 n q) = (0 : EReal) :=
    Ideal.ofBits_zero_f32
  rw [h0, zero_add]
  unfold Cert.Spec.agg
  refine Finset.sum_congr ?_ (fun e _ => ?_)
  · refine Finset.filter_congr (fun e _ => ?_)
    rw [column_apply, dstVec_apply]
    rfl
  · rw [gather_rows_apply_of Cert.Spec.hN gather_S100000x128_S1600000x1_S1600000x128_1_0_n_n_0_1_1128_wf gather_S100000x128_S1600000x1_S1600000x128_1_0_n_n_0_1_1128 rfl]
    have hs : broadcastInDim S1600000x1 ![0] bcast_S1600000_S1600000x1_0
        (select (cmpi .slt (srcVec a1) (broadcastInDim S1600000 ![] bcast_S_S1600000 (constantI S_ 32 0#32)))
          (addi (srcVec a1) (broadcastInDim S1600000 ![] bcast_S_S1600000 (constantI S_ 32 100000#32))) (srcVec a1)) (ix2 e 0)
        = Cert.Spec.srcOf a1 e := by
      rw [column_apply]
      show Scalar.select (IntOp.cmpi .slt (srcVec a1 (ix1 e)) 0#32) (IntOp.addi (srcVec a1 (ix1 e)) 100000#32) (srcVec a1 (ix1 e)) = _
      rw [srcVec_apply]
      rfl
    exact congrArg (fun i : Fin 100000 => h (ix2 i q))
      (Fin.ext (congrArg (fun w : BitVec 32 => min w.toInt.toNat (100000 - 1)) hs))

section Stretches0
variable (W : Valuation τ sig (Elt Ideal))

theorem st0_c : (StableHlo.after hostOps0 W (Proc.devRef .tc main_c) : IVec S_ 32) = constantI S_ 32 0#32 := by
  after_results
theorem st0_v1 : (StableHlo.after hostOps0 W (Proc.devRef .tc main_v1) : IVec S1600000 32)
    = srcVec (W main_arg1 : IVec S2x1600000 32) := by
  after_results; rfl
theorem st0_v3 : (StableHlo.after hostOps0 W (Proc.devRef .tc main_v3) : IVec S1600000 32)
    = dstVec (W main_arg1 : IVec S2x1600000 32) := by
  after_results; rfl
theorem st0_1_v4 : (StableHlo.after hostOps0_1 W (Proc.devRef .tc main_v4) : Vec Ideal S100000x128 .f32)
    = pad S100000x128 ![0, 0] ![0, 20] ![0, 0] (W main_arg0 : Vec Ideal S100000x108 .f32)
        (sitofp (F := Ideal) .f32 (W main_c : IVec S_ 32)) pads_S100000x108_S100000x128_000_0200 h_S_ := by
  after_results; rfl
theorem st0_2_c : (StableHlo.after hostOps0_2 W (Proc.devRef .tc main_c_0) : IVec S_ 32) = constantI S_ 32 0#32 := by
  after_results
theorem st0_3_v5 : (StableHlo.after hostOps0_3 W (Proc.devRef .tc main_v5) : Vec Ideal S128x128 .f32)
    = pad S128x128 ![0, 0] ![20, 30] ![0, 0] (W main_arg3 : Vec Ideal S108x98 .f32)
        (sitofp (F := Ideal) .f32 (W main_c_0 : IVec S_ 32)) pads_S108x98_S128x128_0200_0300 h_S_ := by
  after_results; rfl
theorem st0_4_c : (StableHlo.after hostOps0_4 W (Proc.devRef .tc main_c_1) : IVec S_ 32) = constantI S_ 32 0#32 := by
  after_results
theorem st0_5_v6 : (StableHlo.after hostOps0_5 W (Proc.devRef .tc main_v6) : Vec Ideal S128 .f32)
    = pad S128 ![0] ![30] ![0] (W main_arg4 : Vec Ideal S98 .f32)
        (sitofp (F := Ideal) .f32 (W main_c_1 : IVec S_ 32)) pads_S98_S128_0300 h_S_ := by
  after_results; rfl
theorem st0_6_v7 : (StableHlo.after hostOps0_6 W (Proc.devRef .tc main_v7) : Vec Ideal S1x128 .f32)
    = shapeCast S1x128 (W main_v6 : Vec Ideal S128 .f32) shapeCasts_S128_S1x128 := by
  after_results; rfl
theorem st0_6_c : (StableHlo.after hostOps0_6 W (Proc.devRef .tc main_c_2) : IVec S_ 32) = constantI S_ 32 0#32 := by
  after_results
theorem st0_7_v8 : (StableHlo.after hostOps0_7 W (Proc.devRef .tc main_v8) : Vec Ideal S128x128 .f32)
    = pad S128x128 ![0, 0] ![30, 30] ![0, 0] (W main_arg5 : Vec Ideal S98x98 .f32)
        (sitofp (F := Ideal) .f32 (W main_c_2 : IVec S_ 32)) pads_S98x98_S128x128_0300_0300 h_S_ := by
  after_results; rfl
theorem st0_8_c : (StableHlo.after hostOps0_8 W (Proc.devRef .tc main_c_3) : IVec S_ 32) = constantI S_ 32 0#32 := by
  after_results
theorem st0_9_v9 : (StableHlo.after hostOps0_9 W (Proc.devRef .tc main_v9) : Vec Ideal S128 .f32)
    = pad S128 ![0] ![30] ![0] (W main_arg6 : Vec Ideal S98 .f32)
        (sitofp (F := Ideal) .f32 (W main_c_3 : IVec S_ 32)) pads_S98_S128_0300 h_S_ := by
  after_results; rfl
set_option maxHeartbeats 1000000 in
theorem st0_10_v10 : (StableHlo.after hostOps0_10 W (Proc.devRef .tc main_v10) : Vec Ideal S1x128 .f32)
    = shapeCast S1x128 (W main_v9 : Vec Ideal S128 .f32) shapeCasts_S128_S1x128 := by
  after_results_simp; rfl
set_option maxHeartbeats 1000000 in
theorem st0_10_v20 : (StableHlo.after hostOps0_10 W (Proc.devRef .tc main_v20) : Vec Ideal S100000x128 .f32)
    = aggTerm (W main_v4 : Vec Ideal S100000x128 .f32) (W main_v1 : IVec S1600000 32) (W main_v3 : IVec S1600000 32) := by
  after_results_simp; rfl

end Stretches0

section Layer0
variable (m : (ℓ : Loc nD τ sig) → Buf (Elt Ideal) ℓ) (c : Dev nD)

theorem V11_main_v4 (n : Fin 100000) (k : Fin 128) :
    (V11 m c main_v4 : Vec Ideal S100000x128 .f32) (ix2 n k)
      = Cert.Spec.padc (Cert.Spec.mat (m ((c : Thread nD τ).loc main_arg0) : Vec Ideal S100000x108 .f32)) n k := by
  have e : (V11 m c main_v4 : Vec Ideal S100000x128 .f32) = V2 m c main_v4 := by
    unwritten [V11_of m c, V10_of m c, V9_of m c, V8_of m c, V7_of m c, V6_of m c, V5_of m c, V4_of m c, V3_of m c]
  have e0 : (V1 m c main_arg0 : Vec Ideal S100000x108 .f32) = m ((c : Thread nD τ).loc main_arg0) := by
    unwritten [V1_of m c]
  have hc : (V1 m c main_c : IVec S_ 32) = constantI S_ 32 0#32 := st0_c (V0 m c)
  have hv : (V2 m c main_v4 : Vec Ideal S100000x128 .f32) = _ := st0_1_v4 (V1 m c)
  rw [e, hv, e0, hc]
  exact padRows_apply _ n k

theorem V11_main_v5 (k j : Fin 128) :
    (V11 m c main_v5 : Vec Ideal S128x128 .f32) (ix2 k j)
      = Cert.Spec.pad2 (Cert.Spec.mat (m ((c : Thread nD τ).loc main_arg3) : Vec Ideal S108x98 .f32)) k j := by
  have e : (V11 m c main_v5 : Vec Ideal S128x128 .f32) = V4 m c main_v5 := by
    unwritten [V11_of m c, V10_of m c, V9_of m c, V8_of m c, V7_of m c, V6_of m c, V5_of m c]
  have e0 : (V3 m c main_arg3 : Vec Ideal S108x98 .f32) = m ((c : Thread nD τ).loc main_arg3) := by
    unwritten [V3_of m c, V2_of m c, V1_of m c]
  have hc : (V3 m c main_c_0 : IVec S_ 32) = constantI S_ 32 0#32 := st0_2_c (V2 m c)
  have hv : (V4 m c main_v5 : Vec Ideal S128x128 .f32) = _ := st0_3_v5 (V3 m c)
  rw [e, hv, e0, hc]
  exact padMat_apply _ _ k j

theorem V11_main_v7 (u : Fin 1) (j : Fin 128) :
    (V11 m c main_v7 : Vec Ideal S1x128 .f32) (ix2 u j)
      = Cert.Spec.padv (Cert.Spec.vec (m ((c : Thread nD τ).loc main_arg4) : Vec Ideal S98 .f32)) j := by
  have e : (V11 m c main_v7 : Vec Ideal S1x128 .f32) = V7 m c main_v7 := by
    unwritten [V11_of m c, V10_of m c, V9_of m c, V8_of m c]
  have e0 : (V5 m c main_arg4 : Vec Ideal S98 .f32) = m ((c : Thread nD τ).loc main_arg4) := by
    unwritten [V5_of m c, V4_of m c, V3_of m c, V2_of m c, V1_of m c]
  have hc : (V5 m c main_c_1 : IVec S_ 32) = constantI S_ 32 0#32 := st0_4_c (V4 m c)
  have hp : (V6 m c main_v6 : Vec Ideal S128 .f32) = _ := st0_5_v6 (V5 m c)
  have hv : (V7 m c main_v7 : Vec Ideal S1x128 .f32) = _ := st0_6_v7 (V6 m c)
  rw [e, hv, hp, e0, hc]
  exact padRow_apply _ _ u j

theorem V11_main_v8 (k j : Fin 128) :
    (V11 m c main_v8 : Vec Ideal S128x128 .f32) (ix2 k j)
      = Cert.Spec.pad2 (Cert.Spec.mat (m ((c : Thread nD τ).loc main_arg5) : Vec Ideal S98x98 .f32)) k j := by
  have e : (V11 m c main_v8 : Vec Ideal S128x128 .f32) = V8 m c main_v8 := by
    unwritten [V11_of m c, V10_of m c, V9_of m c]
  have e0 : (V7 m c main_arg5 : Vec Ideal S98x98 .f32) = m ((c : Thread nD τ).loc main_arg5) := by
    unwritten [V7_of m c, V6_of m c, V5_of m c, V4_of m c, V3_of m c, V2_of m c, V1_of m c]
  have hc : (V7 m c main_c_2 : IVec S_ 32) = constantI S_ 32 0#32 := st0_6_c (V6 m c)
  have hv : (V8 m c main_v8 : Vec Ideal S128x128 .f32) = _ := st0_7_v8 (V7 m c)
  rw [e, hv, e0, hc]
  exact padMat_apply _ _ k j

theorem V11_main_v10 (u : Fin 1) (j : Fin 128) :
    (V11 m c main_v10 : Vec Ideal S1x128 .f32) (ix2 u j)
      = Cert.Spec.padv (Cert.Spec.vec (m ((c : Thread nD τ).loc main_arg6) : Vec Ideal S98 .f32)) j := by
  have e0 : (V9 m c main_arg6 : Vec Ideal S98 .f32) = m ((c : Thread nD τ).loc main_arg6) := by
    unwritten [V9_of m c, V8_of m c, V7_of m c, V6_of m c, V5_of m c, V4_of m c, V3_of m c, V2_of m c, V1_of m c]
  have hc : (V9 m c main_c_3 : IVec S_ 32) = constantI S_ 32 0#32 := st0_8_c (V8 m c)
  have hp : (V10 m c main_v9 : Vec Ideal S128 .f32) = _ := st0_9_v9 (V9 m c)
  have hv : (V11 m c main_v10 : Vec Ideal S1x128 .f32) = _ := st0_10_v10 (V10 m c)
  rw [hv, hp, e0, hc]
  exact padRow_apply _ _ u j

theorem V10_main_v1 : (V10 m c main_v1 : IVec S1600000 32) = srcVec (m ((c : Thread nD τ).loc main_arg1) : IVec S2x1600000 32) := by
  have e : (V10 m c main_v1 : IVec S1600000 32) = V1 m c main_v1 := by
    unwritten [V10_of m c, V9_of m c, V8_of m c, V7_of m c, V6_of m c, V5_of m c, V4_of m c, V3_of m c, V2_of m c]
  have hv : (V1 m c main_v1 : IVec S1600000 32) = _ := st0_v1 (V0 m c)
  rw [e, hv]
theorem V10_main_v3 : (V10 m c main_v3 : IVec S1600000 32) = dstVec (m ((c : Thread nD τ).loc main_arg1) : IVec S2x1600000 32) := by
  have e : (V10 m c main_v3 : IVec S1600000 32) = V1 m c main_v3 := by
    unwritten [V10_of m c, V9_of m c, V8_of m c, V7_of m c, V6_of m c, V5_of m c, V4_of m c, V3_of m c, V2_of m c]
  have hv : (V1 m c main_v3 : IVec S1600000 32) = _ := st0_v3 (V0 m c)
  rw [e, hv]

theorem V11_main_v20 (n : Fin 100000) (q : Fin 128) :
    (V11 m c main_v20 : Vec Ideal S100000x128 .f32) (ix2 n q)
      = Cert.Spec.agg Cert.Spec.hN (fun n k => (V11 m c main_v4 : Vec Ideal S100000x128 .f32) (ix2 n k))
          (Cert.Spec.srcOf (m ((c : Thread nD τ).loc main_arg1) : IVec S2x1600000 32))
          (Cert.Spec.dstOf (m ((c : Thread nD τ).loc main_arg1) : IVec S2x1600000 32)) n q := by
  have eh : (V10 m c main_v4 : Vec Ideal S100000x128 .f32) = V11 m c main_v4 := (V11_of m c main_v4 (by decide)).symm
  have hv : (V11 m c main_v20 : Vec Ideal S100000x128 .f32) = _ := st0_10_v20 (V10 m c)
  rw [hv, eh, V10_main_v1, V10_main_v3]
  exact aggTerm_apply _ _ n q

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25, main_arg26]

theorem V11_arg (r : Ref sig .tc) (h : r ∈ argRefs) : V11 m c r = m ((c : Thread nD τ).loc r) :=
  (V11_of m c r ((by decide : ∀ x ∈ argRefs, x ∉ hostOps0_10_W) r h)).trans <|
  (V10_of m c r ((by decide : ∀ x ∈ argRefs, x ∉ hostOps0_9_W) r h)).trans <|
  (V9_of m c r ((by decide : ∀ x ∈ argRefs, x ∉ hostOps0_8_W) r h)).trans <|
  (V8_of m c r ((by decide : ∀ x ∈ argRefs, x ∉ hostOps0_7_W) r h)).trans <|
  (V7_of m c r ((by decide : ∀ x ∈ argRefs, x ∉ hostOps0_6_W) r h)).trans <|
  (V6_of m c r ((by decide : ∀ x ∈ argRefs, x ∉ hostOps0_5_W) r h)).trans <|
  (V5_of m c r ((by decide : ∀ x ∈ argRefs, x ∉ hostOps0_4_W) r h)).trans <|
  (V4_of m c r ((by decide : ∀ x ∈ argRefs, x ∉ hostOps0_3_W) r h)).trans <|
  (V3_of m c r ((by decide : ∀ x ∈ argRefs, x ∉ hostOps0_2_W) r h)).trans <|
  (V2_of m c r ((by decide : ∀ x ∈ argRefs, x ∉ hostOps0_1_W) r h)).trans <|
  (V1_of m c r ((by decide : ∀ x ∈ argRefs, x ∉ hostOps0_W) r h)).trans rfl

end Layer0

end Cert.KernelIdeal.Hand

end
-- ==== Proof.KI.HostReads1.lean ====
/- The buffers the second layer region is entered with, index by index. -/
import proofs.«420535_j82145544503553_2_alg».proof.Proof.KI.HostReads

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.LibRows

section Stretches
variable (W : Valuation τ sig (Elt Ideal))

theorem st1_c : (StableHlo.after hostOps1 W (Proc.devRef .tc main_c_6) : IVec S_ 32) = constantI S_ 32 0#32 := by
  after_results
theorem st1_1_v22 : (StableHlo.after hostOps1_1 W (Proc.devRef .tc main_v22) : Vec Ideal S128x128 .f32)
    = pad S128x128 ![0, 0] ![30, 30] ![0, 0] (W main_arg7 : Vec Ideal S98x98 .f32)
        (sitofp (F := Ideal) .f32 (W main_c_6 : IVec S_ 32)) pads_S98x98_S128x128_0300_0300 h_S_ := by
  after_results; rfl
theorem st1_2_c : (StableHlo.after hostOps1_2 W (Proc.devRef .tc main_c_7) : IVec S_ 32) = constantI S_ 32 0#32 := by
  after_results
theorem st1_3_v23 : (StableHlo.after hostOps1_3 W (Proc.devRef .tc main_v23) : Vec Ideal S128 .f32)
    = pad S128 ![0] ![30] ![0] (W main_arg8 : Vec Ideal S98 .f32)
        (sitofp (F := Ideal) .f32 (W main_c_7 : IVec S_ 32)) pads_S98_S128_0300 h_S_ := by
  after_results; rfl
theorem st1_4_v24 : (StableHlo.after hostOps1_4 W (Proc.devRef .tc main_v24) : Vec Ideal S1x128 .f32)
    = shapeCast S1x128 (W main_v23 : Vec Ideal S128 .f32) shapeCasts_S128_S1x128 := by
  after_results; rfl
theorem st1_4_c : (StableHlo.after hostOps1_4 W (Proc.devRef .tc main_c_8) : IVec S_ 32) = constantI S_ 32 0#32 := by
  after_results
theorem st1_5_v25 : (StableHlo.after hostOps1_5 W (Proc.devRef .tc main_v25) : Vec Ideal S128x128 .f32)
    = pad S128x128 ![0, 0] ![30, 30] ![0, 0] (W main_arg9 : Vec Ideal S98x98 .f32)
        (sitofp (F := Ideal) .f32 (W main_c_8 : IVec S_ 32)) pads_S98x98_S128x128_0300_0300 h_S_ := by
  after_results; rfl
theorem st1_6_c : (StableHlo.after hostOps1_6 W (Proc.devRef .tc main_c_9) : IVec S_ 32) = constantI S_ 32 0#32 := by
  after_results
theorem st1_7_v26 : (StableHlo.after hostOps1_7 W (Proc.devRef .tc main_v26) : Vec Ideal S128 .f32)
    = pad S128 ![0] ![30] ![0] (W main_arg10 : Vec Ideal S98 .f32)
        (sitofp (F := Ideal) .f32 (W main_c_9 : IVec S_ 32)) pads_S98_S128_0300 h_S_ := by
  after_results; rfl
set_option maxHeartbeats 1000000 in
theorem st1_8_v27 : (StableHlo.after hostOps1_8 W (Proc.devRef .tc main_v27) : Vec Ideal S1x128 .f32)
    = shapeCast S1x128 (W main_v26 : Vec Ideal S128 .f32) shapeCasts_S128_S1x128 := by
  after_results_simp; rfl
set_option maxHeartbeats 1000000 in
theorem st1_8_v37 : (StableHlo.after hostOps1_8 W (Proc.devRef .tc main_v37) : Vec Ideal S100000x128 .f32)
    = aggTerm (W main_v21 : Vec Ideal S100000x128 .f32) (W main_v1 : IVec S1600000 32) (W main_v3 : IVec S1600000 32) := by
  after_results_simp; rfl

end Stretches

section Layer
variable (m : (ℓ : Loc nD τ sig) → Buf (Elt Ideal) ℓ) (outs : GenP.Outs (F := Ideal)) (c : Dev nD)

theorem V21_arg (r : Ref sig .tc) (h : r ∈ argRefs) : V21 m outs c r = m ((c : Thread nD τ).loc r) :=
  (V21_of m outs c r ((by decide : ∀ x ∈ argRefs, x ∉ hostOps1_8_W) r h)).trans <|
  (V20_of m outs c r ((by decide : ∀ x ∈ argRefs, x ∉ hostOps1_7_W) r h)).trans <|
  (V19_of m outs c r ((by decide : ∀ x ∈ argRefs, x ∉ hostOps1_6_W) r h)).trans <|
  (V18_of m outs c r ((by decide : ∀ x ∈ argRefs, x ∉ hostOps1_5_W) r h)).trans <|
  (V17_of m outs c r ((by decide : ∀ x ∈ argRefs, x ∉ hostOps1_4_W) r h)).trans <|
  (V16_of m outs c r ((by decide : ∀ x ∈ argRefs, x ∉ hostOps1_3_W) r h)).trans <|
  (V15_of m outs c r ((by decide : ∀ x ∈ argRefs, x ∉ hostOps1_2_W) r h)).trans <|
  (V14_of m outs c r ((by decide : ∀ x ∈ argRefs, x ∉ hostOps1_1_W) r h)).trans <|
  (V13_of m outs c r ((by decide : ∀ x ∈ argRefs, x ∉ hostOps1_W) r h)).trans <|
  (V12_of m outs c r ((by decide : ∀ x ∈ argRefs, x ∉ ([main_v21] : List (Ref sig .tc))) r h)).trans <|
  V11_arg m c r h

theorem V20_main_v1 : (V20 m outs c main_v1 : IVec S1600000 32) = srcVec (m ((c : Thread nD τ).loc main_arg1) : IVec S2x1600000 32) := by
  have e : (V20 m outs c main_v1 : IVec S1600000 32) = V10 m c main_v1 := by
    unwritten [V20_of m outs c, V19_of m outs c, V18_of m outs c, V17_of m outs c, V16_of m outs c, V15_of m outs c, V14_of m outs c, V13_of m outs c, V12_of m outs c, V11_of m c]
  rw [e, V10_main_v1]
theorem V20_main_v3 : (V20 m outs c main_v3 : IVec S1600000 32) = dstVec (m ((c : Thread nD τ).loc main_arg1) : IVec S2x1600000 32) := by
  have e : (V20 m outs c main_v3 : IVec S1600000 32) = V10 m c main_v3 := by
    unwritten [V20_of m outs c, V19_of m outs c, V18_of m outs c, V17_of m outs c, V16_of m outs c, V15_of m outs c, V14_of m outs c, V13_of m outs c, V12_of m outs c, V11_of m c]
  rw [e, V10_main_v3]

theorem V21_main_v37 (n : Fin 100000) (q : Fin 128) :
    (V21 m outs c main_v37 : Vec Ideal S100000x128 .f32) (ix2 n q)
      = Cert.Spec.agg Cert.Spec.hN (fun n k => (V21 m outs c main_v21 : Vec Ideal S100000x128 .f32) (ix2 n k))
          (Cert.Spec.srcOf (m ((c : Thread nD τ).loc main_arg1) : IVec S2x1600000 32))
          (Cert.Spec.dstOf (m ((c : Thread nD τ).loc main_arg1) : IVec S2x1600000 32)) n q := by
  have eh : (V20 m outs c main_v21 : Vec Ideal S100000x128 .f32) = V21 m outs c main_v21 := (V21_of m outs c main_v21 (by decide)).symm
  have hv : (V21 m outs c main_v37 : Vec Ideal S100000x128 .f32) = _ := st1_8_v37 (V20 m outs c)
  rw [hv, eh, V20_main_v1, V20_main_v3]
  exact aggTerm_apply _ _ n q

theorem V21_main_v22 (k j : Fin 128) :
    (V21 m outs c main_v22 : Vec Ideal S128x128 .f32) (ix2 k j)
      = Cert.Spec.pad2 (Cert.Spec.mat (m ((c : Thread nD τ).loc main_arg7) : Vec Ideal S98x98 .f32)) k j := by
  have e : (V21 m outs c main_v22 : Vec Ideal S128x128 .f32) = V14 m outs c main_v22 := by
    unwritten [V21_of m outs c, V20_of m outs c, V19_of m outs c, V18_of m outs c, V17_of m outs c, V16_of m outs c, V15_of m outs c]
  have e0 : (V13 m outs c main_arg7 : Vec Ideal S98x98 .f32) = m ((c : Thread nD τ).loc main_arg7) :=
    (V13_of m outs c _ (by decide)).trans <| (V12_of m outs c _ (by decide)).trans <| V11_arg m c _ (by decide)
  have hc : (V13 m outs c main_c_6 : IVec S_ 32) = constantI S_ 32 0#32 := st1_c (V12 m outs c)
  have hv : (V14 m outs c main_v22 : Vec Ideal S128x128 .f32) = _ := st1_1_v22 (V13 m outs c)
  rw [e, hv, e0, hc]
  exact padMat_apply _ _ k j

theorem V21_main_v24 (u : Fin 1) (j : Fin 128) :
    (V21 m outs c main_v24 : Vec Ideal S1x128 .f32) (ix2 u j)
      = Cert.Spec.padv (Cert.Spec.vec (m ((c : Thread nD τ).loc main_arg8) : Vec Ideal S98 .f32)) j := by
  have e : (V21 m outs c main_v24 : Vec Ideal S1x128 .f32) = V17 m outs c main_v24 := by
    unwritten [V21_of m outs c, V20_of m outs c, V19_of m outs c, V18_of m outs c]
  have e0 : (V15 m outs c main_arg8 : Vec Ideal S98 .f32) = m ((c : Thread nD τ).loc main_arg8) :=
    (V15_of m outs c _ (by decide)).trans <| (V14_of m outs c _ (by decide)).trans <| (V13_of m outs c _ (by decide)).trans <|
      (V12_of m outs c _ (by decide)).trans <| V11_arg m c _ (by decide)
  have hc : (V15 m outs c main_c_7 : IVec S_ 32) = constantI S_ 32 0#32 := st1_2_c (V14 m outs c)
  have hp : (V16 m outs c main_v23 : Vec Ideal S128 .f32) = _ := st1_3_v23 (V15 m outs c)
  have hv : (V17 m outs c main_v24 : Vec Ideal S1x128 .f32) = _ := st1_4_v24 (V16 m outs c)
  rw [e, hv, hp, e0, hc]
  exact padRow_apply _ _ u j

theorem V21_main_v25 (k j : Fin 128) :
    (V21 m outs c main_v25 : Vec Ideal S128x128 .f32) (ix2 k j)
      = Cert.Spec.pad2 (Cert.Spec.mat (m ((c : Thread nD τ).loc main_arg9) : Vec Ideal S98x98 .f32)) k j := by
  have e : (V21 m outs c main_v25 : Vec Ideal S128x128 .f32) = V18 m outs c main_v25 := by
    unwritten [V21_of m outs c, V20_of m outs c, V19_of m outs c]
  have e0 : (V17 m outs c main_arg9 : Vec Ideal S98x98 .f32) = m ((c : Thread nD τ).loc main_arg9) :=
    (V17_of m outs c _ (by decide)).trans <| (V16_of m outs c _ (by decide)).trans <| (V15_of m outs c _ (by decide)).trans <|
      (V14_of m outs c _ (by decide)).trans <| (V13_of m outs c _ (by decide)).trans <|
      (V12_of m outs c _ (by decide)).trans <| V11_arg m c _ (by decide)
  have hc : (V17 m outs c main_c_8 : IVec S_ 32) = constantI S_ 32 0#32 := st1_4_c (V16 m outs c)
  have hv : (V18 m outs c main_v25 : Vec Ideal S128x128 .f32) = _ := st1_5_v25 (V17 m outs c)
  rw [e, hv, e0, hc]
  exact padMat_apply _ _ k j

theorem V21_main_v27 (u : Fin 1) (j : Fin 128) :
    (V21 m outs c main_v27 : Vec Ideal S1x128 .f32) (ix2 u j)
      = Cert.Spec.padv (Cert.Spec.vec (m ((c : Thread nD τ).loc main_arg10) : Vec Ideal S98 .f32)) j := by
  have e0 : (V19 m outs c main_arg10 : Vec Ideal S98 .f32) = m ((c : Thread nD τ).loc main_arg10) :=
    (V19_of m outs c _ (by decide)).trans <| (V18_of m outs c _ (by decide)).trans <| (V17_of m outs c _ (by decide)).trans <|
      (V16_of m outs c _ (by decide)).trans <| (V15_of m outs c _ (by decide)).trans <|
      (V14_of m outs c _ (by decide)).trans <| (V13_of m outs c _ (by decide)).trans <|
      (V12_of m outs c _ (by decide)).trans <| V11_arg m c _ (by decide)
  have hc : (V19 m outs c main_c_9 : IVec S_ 32) = constantI S_ 32 0#32 := st1_6_c (V18 m outs c)
  have hp : (V20 m outs c main_v26 : Vec Ideal S128 .f32) = _ := st1_7_v26 (V19 m outs c)
  have hv : (V21 m outs c main_v27 : Vec Ideal S1x128 .f32) = _ := st1_8_v27 (V20 m outs c)
  rw [hv, hp, e0, hc]
  exact padRow_apply _ _ u j

end Layer

end Cert.KernelIdeal.Hand

end
-- ==== Proof.KI.HostReads2.lean ====
/- The buffers the third layer region is entered with, index by index. -/
import proofs.«420535_j82145544503553_2_alg».proof.Proof.KI.HostReads1

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.LibRows

section Stretches
variable (W : Valuation τ sig (Elt Ideal))

theorem st2_c : (StableHlo.after hostOps2 W (Proc.devRef .tc main_c_13) : IVec S_ 32) = constantI S_ 32 0#32 := by
  after_results
theorem st2_1_v39 : (StableHlo.after hostOps2_1 W (Proc.devRef .tc main_v39) : Vec Ideal S128x128 .f32)
    = pad S128x128 ![0, 0] ![30, 30] ![0, 0] (W main_arg11 : Vec Ideal S98x98 .f32)
        (sitofp (F := Ideal) .f32 (W main_c_13 : IVec S_ 32)) pads_S98x98_S128x128_0300_0300 h_S_ := by
  after_results; rfl
theorem st2_2_c : (StableHlo.after hostOps2_2 W (Proc.devRef .tc main_c_14) : IVec S_ 32) = constantI S_ 32 0#32 := by
  after_results
theorem st2_3_v40 : (StableHlo.after hostOps2_3 W (Proc.devRef .tc main_v40) : Vec Ideal S128 .f32)
    = pad S128 ![0] ![30] ![0] (W main_arg12 : Vec Ideal S98 .f32)
        (sitofp (F := Ideal) .f32 (W main_c_14 : IVec S_ 32)) pads_S98_S128_0300 h_S_ := by
  after_results; rfl
theorem st2_4_v41 : (StableHlo.after hostOps2_4 W (Proc.devRef .tc main_v41) : Vec Ideal S1x128 .f32)
    = shapeCast S1x128 (W main_v40 : Vec Ideal S128 .f32) shapeCasts_S128_S1x128 := by
  after_results; rfl
theorem st2_4_c : (StableHlo.after hostOps2_4 W (Proc.devRef .tc main_c_15) : IVec S_ 32) = constantI S_ 32 0#32 := by
  after_results
theorem st2_5_v42 : (StableHlo.after hostOps2_5 W (Proc.devRef .tc main_v42) : Vec Ideal S128x128 .f32)
    = pad S128x128 ![0, 0] ![30, 30] ![0, 0] (W main_arg13 : Vec Ideal S98x98 .f32)
        (sitofp (F := Ideal) .f32 (W main_c_15 : IVec S_ 32)) pads_S98x98_S128x128_0300_0300 h_S_ := by
  after_results; rfl
theorem st2_6_c : (StableHlo.after hostOps2_6 W (Proc.devRef .tc main_c_16) : IVec S_ 32) = constantI S_ 32 0#32 := by
  after_results
theorem st2_7_v43 : (StableHlo.after hostOps2_7 W (Proc.devRef .tc main_v43) : Vec Ideal S128 .f32)
    = pad S128 ![0] ![30] ![0] (W main_arg14 : Vec Ideal S98 .f32)
        (sitofp (F := Ideal) .f32 (W main_c_16 : IVec S_ 32)) pads_S98_S128_0300 h_S_ := by
  after_results; rfl
set_option maxHeartbeats 1000000 in
theorem st2_8_v44 : (StableHlo.after hostOps2_8 W (Proc.devRef .tc main_v44) : Vec Ideal S1x128 .f32)
    = shapeCast S1x128 (W main_v43 : Vec Ideal S128 .f32) shapeCasts_S128_S1x128 := by
  after_results_simp; rfl
set_option maxHeartbeats 1000000 in
theorem st2_8_v54 : (StableHlo.after hostOps2_8 W (Proc.devRef .tc main_v54) : Vec Ideal S100000x128 .f32)
    = aggTerm (W main_v38 : Vec Ideal S100000x128 .f32) (W main_v1 : IVec S1600000 32) (W main_v3 : IVec S1600000 32) := by
  after_results_simp; rfl

end Stretches

section Layer
variable (m : (ℓ : Loc nD τ sig) → Buf (Elt Ideal) ℓ) (outs : GenP.Outs (F := Ideal)) (c : Dev nD)

theorem V31_arg (r : Ref sig .tc) (h : r ∈ argRefs) : V31 m outs c r = m ((c : Thread nD τ).loc r) :=
  (V31_of m outs c r ((by decide : ∀ x ∈ argRefs, x ∉ hostOps2_8_W) r h)).trans <|
  (V30_of m outs c r ((by decide : ∀ x ∈ argRefs, x ∉ hostOps2_7_W) r h)).trans <|
  (V29_of m outs c r ((by decide : ∀ x ∈ argRefs, x ∉ hostOps2_6_W) r h)).trans <|
  (V28_of m outs c r ((by decide : ∀ x ∈ argRefs, x ∉ hostOps2_5_W) r h)).trans <|
  (V27_of m outs c r ((by decide : ∀ x ∈ argRefs, x ∉ hostOps2_4_W) r h)).trans <|
  (V26_of m outs c r ((by decide : ∀ x ∈ argRefs, x ∉ hostOps2_3_W) r h)).trans <|
  (V25_of m outs c r ((by decide : ∀ x ∈ argRefs, x ∉ hostOps2_2_W) r h)).trans <|
  (V24_of m outs c r ((by decide : ∀ x ∈ argRefs, x ∉ hostOps2_1_W) r h)).trans <|
  (V23_of m outs c r ((by decide : ∀ x ∈ argRefs, x ∉ hostOps2_W) r h)).trans <|
  (V22_of m outs c r ((by decide : ∀ x ∈ argRefs, x ∉ ([main_v38] : List (Ref sig .tc))) r h)).trans <|
  V21_arg m outs c r h

theorem V30_main_v1 : (V30 m outs c main_v1 : IVec S1600000 32) = srcVec (m ((c : Thread nD τ).loc main_arg1) : IVec S2x1600000 32) := by
  have e : (V30 m outs c main_v1 : IVec S1600000 32) = V20 m outs c main_v1 := by
    unwritten [V30_of m outs c, V29_of m outs c, V28_of m outs c, V27_of m outs c, V26_of m outs c, V25_of m outs c, V24_of m outs c, V23_of m outs c, V22_of m outs c, V21_of m outs c]
  rw [e, V20_main_v1]
theorem V30_main_v3 : (V30 m outs c main_v3 : IVec S1600000 32) = dstVec (m ((c : Thread nD τ).loc main_arg1) : IVec S2x1600000 32) := by
  have e : (V30 m outs c main_v3 : IVec S1600000 32) = V20 m outs c main_v3 := by
    unwritten [V30_of m outs c, V29_of m outs c, V28_of m outs c, V27_of m outs c, V26_of m outs c, V25_of m outs c, V24_of m outs c, V23_of m outs c, V22_of m outs c, V21_of m outs c]
  rw [e, V20_main_v3]

theorem V31_main_v54 (n : Fin 100000) (q : Fin 128) :
    (V31 m outs c main_v54 : Vec Ideal S100000x128 .f32) (ix2 n q)
      = Cert.Spec.agg Cert.Spec.hN (fun n k => (V31 m outs c main_v38 : Vec Ideal S100000x128 .f32) (ix2 n k))
          (Cert.Spec.srcOf (m ((c : Thread nD τ).loc main_arg1) : IVec S2x1600000 32))
          (Cert.Spec.dstOf (m ((c : Thread nD τ).loc main_arg1) : IVec S2x1600000 32)) n q := by
  have eh : (V30 m outs c main_v38 : Vec Ideal S100000x128 .f32) = V31 m outs c main_v38 := (V31_of m outs c main_v38 (by decide)).symm
  have hv : (V31 m outs c main_v54 : Vec Ideal S100000x128 .f32) = _ := st2_8_v54 (V30 m outs c)
  rw [hv, eh, V30_main_v1, V30_main_v3]
  exact aggTerm_apply _ _ n q

theorem V31_main_v39 (k j : Fin 128) :
    (V31 m outs c main_v39 : Vec Ideal S128x128 .f32) (ix2 k j)
      = Cert.Spec.pad2 (Cert.Spec.mat (m ((c : Thread nD τ).loc main_arg11) : Vec Ideal S98x98 .f32)) k j := by
  have e : (V31 m outs c main_v39 : Vec Ideal S128x128 .f32) = V24 m outs c main_v39 := by
    unwritten [V31_of m outs c, V30_of m outs c, V29_of m outs c, V28_of m outs c, V27_of m outs c, V26_of m outs c, V25_of m outs c]
  have e0 : (V23 m outs c main_arg11 : Vec Ideal S98x98 .f32) = m ((c : Thread nD τ).loc main_arg11) :=
    (V23_of m outs c _ (by decide)).trans <| (V22_of m outs c _ (by decide)).trans <| V21_arg m outs c _ (by decide)
  have hc : (V23 m outs c main_c_13 : IVec S_ 32) = constantI S_ 32 0#32 := st2_c (V22 m outs c)
  have hv : (V24 m outs c main_v39 : Vec Ideal S128x128 .f32) = _ := st2_1_v39 (V23 m outs c)
  rw [e, hv, e0, hc]
  exact padMat_apply _ _ k j

theorem V31_main_v41 (u : Fin 1) (j : Fin 128) :
    (V31 m outs c main_v41 : Vec Ideal S1x128 .f32) (ix2 u j)
      = Cert.Spec.padv (Cert.Spec.vec (m ((c : Thread nD τ).loc main_arg12) : Vec Ideal S98 .f32)) j := by
  have e : (V31 m outs c main_v41 : Vec Ideal S1x128 .f32) = V27 m outs c main_v41 := by
    unwritten [V31_of m outs c, V30_of m outs c, V29_of m outs c, V28_of m outs c]
  have e0 : (V25 m outs c main_arg12 : Vec Ideal S98 .f32) = m ((c : Thread nD τ).loc main_arg12) :=
    (V25_of m outs c _ (by decide)).trans <| (V24_of m outs c _ (by decide)).trans <| (V23_of m outs c _ (by decide)).trans <|
      (V22_of m outs c _ (by decide)).trans <| V21_arg m outs c _ (by decide)
  have hc : (V25 m outs c main_c_14 : IVec S_ 32) = constantI S_ 32 0#32 := st2_2_c (V24 m outs c)
  have hp : (V26 m outs c main_v40 : Vec Ideal S128 .f32) = _ := st2_3_v40 (V25 m outs c)
  have hv : (V27 m outs c main_v41 : Vec Ideal S1x128 .f32) = _ := st2_4_v41 (V26 m outs c)
  rw [e, hv, hp, e0, hc]
  exact padRow_apply _ _ u j

theorem V31_main_v42 (k j : Fin 128) :
    (V31 m outs c main_v42 : Vec Ideal S128x128 .f32) (ix2 k j)
      = Cert.Spec.pad2 (Cert.Spec.mat (m ((c : Thread nD τ).loc main_arg13) : Vec Ideal S98x98 .f32)) k j := by
  have e : (V31 m outs c main_v42 : Vec Ideal S128x128 .f32) = V28 m outs c main_v42 := by
    unwritten [V31_of m outs c, V30_of m outs c, V29_of m outs c]
  have e0 : (V27 m outs c main_arg13 : Vec Ideal S98x98 .f32) = m ((c : Thread nD τ).loc main_arg13) :=
    (V27_of m outs c _ (by decide)).trans <| (V26_of m outs c _ (by decide)).trans <| (V25_of m outs c _ (by decide)).trans <|
      (V24_of m outs c _ (by decide)).trans <| (V23_of m outs c _ (by decide)).trans <|
      (V22_of m outs c _ (by decide)).trans <| V21_arg m outs c _ (by decide)
  have hc : (V27 m outs c main_c_15 : IVec S_ 32) = constantI S_ 32 0#32 := st2_4_c (V26 m outs c)
  have hv : (V28 m outs c main_v42 : Vec Ideal S128x128 .f32) = _ := st2_5_v42 (V27 m outs c)
  rw [e, hv, e0, hc]
  exact padMat_apply _ _ k j

theorem V31_main_v44 (u : Fin 1) (j : Fin 128) :
    (V31 m outs c main_v44 : Vec Ideal S1x128 .f32) (ix2 u j)
      = Cert.Spec.padv (Cert.Spec.vec (m ((c : Thread nD τ).loc main_arg14) : Vec Ideal S98 .f32)) j := by
  have e0 : (V29 m outs c main_arg14 : Vec Ideal S98 .f32) = m ((c : Thread nD τ).loc main_arg14) :=
    (V29_of m outs c _ (by decide)).trans <| (V28_of m outs c _ (by decide)).trans <| (V27_of m outs c _ (by decide)).trans <|
      (V26_of m outs c _ (by decide)).trans <| (V25_of m outs c _ (by decide)).trans <|
      (V24_of m outs c _ (by decide)).trans <| (V23_of m outs c _ (by decide)).trans <|
      (V22_of m outs c _ (by decide)).trans <| V21_arg m outs c _ (by decide)
  have hc : (V29 m outs c main_c_16 : IVec S_ 32) = constantI S_ 32 0#32 := st2_6_c (V28 m outs c)
  have hp : (V30 m outs c main_v43 : Vec Ideal S128 .f32) = _ := st2_7_v43 (V29 m outs c)
  have hv : (V31 m outs c main_v44 : Vec Ideal S1x128 .f32) = _ := st2_8_v44 (V30 m outs c)
  rw [hv, hp, e0, hc]
  exact padRow_apply _ _ u j

end Layer

end Cert.KernelIdeal.Hand

end
-- ==== Proof.KI.HostReads3.lean ====
/- The buffers the fourth layer region is entered with, index by index. -/
import proofs.«420535_j82145544503553_2_alg».proof.Proof.KI.HostReads2

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.LibRows

section Stretches
variable (W : Valuation τ sig (Elt Ideal))

theorem st3_c : (StableHlo.after hostOps3 W (Proc.devRef .tc main_c_20) : IVec S_ 32) = constantI S_ 32 0#32 := by
  after_results
theorem st3_1_v56 : (StableHlo.after hostOps3_1 W (Proc.devRef .tc main_v56) : Vec Ideal S128x128 .f32)
    = pad S128x128 ![0, 0] ![30, 30] ![0, 0] (W main_arg15 : Vec Ideal S98x98 .f32)
        (sitofp (F := Ideal) .f32 (W main_c_20 : IVec S_ 32)) pads_S98x98_S128x128_0300_0300 h_S_ := by
  after_results; rfl
theorem st3_2_c : (StableHlo.after hostOps3_2 W (Proc.devRef .tc main_c_21) : IVec S_ 32) = constantI S_ 32 0#32 := by
  after_results
theorem st3_3_v57 : (StableHlo.after hostOps3_3 W (Proc.devRef .tc main_v57) : Vec Ideal S128 .f32)
    = pad S128 ![0] ![30] ![0] (W main_arg16 : Vec Ideal S98 .f32)
        (sitofp (F := Ideal) .f32 (W main_c_21 : IVec S_ 32)) pads_S98_S128_0300 h_S_ := by
  after_results; rfl
theorem st3_4_v58 : (StableHlo.after hostOps3_4 W (Proc.devRef .tc main_v58) : Vec Ideal S1x128 .f32)
    = shapeCast S1x128 (W main_v57 : Vec Ideal S128 .f32) shapeCasts_S128_S1x128 := by
  after_results; rfl
theorem st3_4_c : (StableHlo.after hostOps3_4 W (Proc.devRef .tc main_c_22) : IVec S_ 32) = constantI S_ 32 0#32 := by
  after_results
theorem st3_5_v59 : (StableHlo.after hostOps3_5 W (Proc.devRef .tc main_v59) : Vec Ideal S128x128 .f32)
    = pad S128x128 ![0, 0] ![30, 30] ![0, 0] (W main_arg17 : Vec Ideal S98x98 .f32)
        (sitofp (F := Ideal) .f32 (W main_c_22 : IVec S_ 32)) pads_S98x98_S128x128_0300_0300 h_S_ := by
  after_results; rfl
theorem st3_6_c : (StableHlo.after hostOps3_6 W (Proc.devRef .tc main_c_23) : IVec S_ 32) = constantI S_ 32 0#32 := by
  after_results
theorem st3_7_v60 : (StableHlo.after hostOps3_7 W (Proc.devRef .tc main_v60) : Vec Ideal S128 .f32)
    = pad S128 ![0] ![30] ![0] (W main_arg18 : Vec Ideal S98 .f32)
        (sitofp (F := Ideal) .f32 (W main_c_23 : IVec S_ 32)) pads_S98_S128_0300 h_S_ := by
  after_results; rfl
set_option maxHeartbeats 1000000 in
theorem st3_8_v61 : (StableHlo.after hostOps3_8 W (Proc.devRef .tc main_v61) : Vec Ideal S1x128 .f32)
    = shapeCast S1x128 (W main_v60 : Vec Ideal S128 .f32) shapeCasts_S128_S1x128 := by
  after_results_simp; rfl
set_option maxHeartbeats 1000000 in
theorem st3_8_v71 : (StableHlo.after hostOps3_8 W (Proc.devRef .tc main_v71) : Vec Ideal S100000x128 .f32)
    = aggTerm (W main_v55 : Vec Ideal S100000x128 .f32) (W main_v1 : IVec S1600000 32) (W main_v3 : IVec S1600000 32) := by
  after_results_simp; rfl

end Stretches

section Layer
variable (m : (ℓ : Loc nD τ sig) → Buf (Elt Ideal) ℓ) (outs : GenP.Outs (F := Ideal)) (c : Dev nD)

theorem V41_arg (r : Ref sig .tc) (h : r ∈ argRefs) : V41 m outs c r = m ((c : Thread nD τ).loc r) :=
  (V41_of m outs c r ((by decide : ∀ x ∈ argRefs, x ∉ hostOps3_8_W) r h)).trans <|
  (V40_of m outs c r ((by decide : ∀ x ∈ argRefs, x ∉ hostOps3_7_W) r h)).trans <|
  (V39_of m outs c r ((by decide : ∀ x ∈ argRefs, x ∉ hostOps3_6_W) r h)).trans <|
  (V38_of m outs c r ((by decide : ∀ x ∈ argRefs, x ∉ hostOps3_5_W) r h)).trans <|
  (V37_of m outs c r ((by decide : ∀ x ∈ argRefs, x ∉ hostOps3_4_W) r h)).trans <|
  (V36_of m outs c r ((by decide : ∀ x ∈ argRefs, x ∉ hostOps3_3_W) r h)).trans <|
  (V35_of m outs c r ((by decide : ∀ x ∈ argRefs, x ∉ hostOps3_2_W) r h)).trans <|
  (V34_of m outs c r ((by decide : ∀ x ∈ argRefs, x ∉ hostOps3_1_W) r h)).trans <|
  (V33_of m outs c r ((by decide : ∀ x ∈ argRefs, x ∉ hostOps3_W) r h)).trans <|
  (V32_of m outs c r ((by decide : ∀ x ∈ argRefs, x ∉ ([main_v55] : List (Ref sig .tc))) r h)).trans <|
  V31_arg m outs c r h

theorem V40_main_v1 : (V40 m outs c main_v1 : IVec S1600000 32) = srcVec (m ((c : Thread nD τ).loc main_arg1) : IVec S2x1600000 32) := by
  have e : (V40 m outs c main_v1 : IVec S1600000 32) = V30 m outs c main_v1 := by
    unwritten [V40_of m outs c, V39_of m outs c, V38_of m outs c, V37_of m outs c, V36_of m outs c, V35_of m outs c, V34_of m outs c, V33_of m outs c, V32_of m outs c, V31_of m outs c]
  rw [e, V30_main_v1]
theorem V40_main_v3 : (V40 m outs c main_v3 : IVec S1600000 32) = dstVec (m ((c : Thread nD τ).loc main_arg1) : IVec S2x1600000 32) := by
  have e : (V40 m outs c main_v3 : IVec S1600000 32) = V30 m outs c main_v3 := by
    unwritten [V40_of m outs c, V39_of m outs c, V38_of m outs c, V37_of m outs c, V36_of m outs c, V35_of m outs c, V34_of m outs c, V33_of m outs c, V32_of m outs c, V31_of m outs c]
  rw [e, V30_main_v3]

theorem V41_main_v71 (n : Fin 100000) (q : Fin 128) :
    (V41 m outs c main_v71 : Vec Ideal S100000x128 .f32) (ix2 n q)
      = Cert.Spec.agg Cert.Spec.hN (fun n k => (V41 m outs c main_v55 : Vec Ideal S100000x128 .f32) (ix2 n k))
          (Cert.Spec.srcOf (m ((c : Thread nD τ).loc main_arg1) : IVec S2x1600000 32))
          (Cert.Spec.dstOf (m ((c : Thread nD τ).loc main_arg1) : IVec S2x1600000 32)) n q := by
  have eh : (V40 m outs c main_v55 : Vec Ideal S100000x128 .f32) = V41 m outs c main_v55 := (V41_of m outs c main_v55 (by decide)).symm
  have hv : (V41 m outs c main_v71 : Vec Ideal S100000x128 .f32) = _ := st3_8_v71 (V40 m outs c)
  rw [hv, eh, V40_main_v1, V40_main_v3]
  exact aggTerm_apply _ _ n q

theorem V41_main_v56 (k j : Fin 128) :
    (V41 m outs c main_v56 : Vec Ideal S128x128 .f32) (ix2 k j)
      = Cert.Spec.pad2 (Cert.Spec.mat (m ((c : Thread nD τ).loc main_arg15) : Vec Ideal S98x98 .f32)) k j := by
  have e : (V41 m outs c main_v56 : Vec Ideal S128x128 .f32) = V34 m outs c main_v56 := by
    unwritten [V41_of m outs c, V40_of m outs c, V39_of m outs c, V38_of m outs c, V37_of m outs c, V36_of m outs c, V35_of m outs c]
  have e0 : (V33 m outs c main_arg15 : Vec Ideal S98x98 .f32) = m ((c : Thread nD τ).loc main_arg15) :=
    (V33_of m outs c _ (by decide)).trans <| (V32_of m outs c _ (by decide)).trans <| V31_arg m outs c _ (by decide)
  have hc : (V33 m outs c main_c_20 : IVec S_ 32) = constantI S_ 32 0#32 := st3_c (V32 m outs c)
  have hv : (V34 m outs c main_v56 : Vec Ideal S128x128 .f32) = _ := st3_1_v56 (V33 m outs c)
  rw [e, hv, e0, hc]
  exact padMat_apply _ _ k j

theorem V41_main_v58 (u : Fin 1) (j : Fin 128) :
    (V41 m outs c main_v58 : Vec Ideal S1x128 .f32) (ix2 u j)
      = Cert.Spec.padv (Cert.Spec.vec (m ((c : Thread nD τ).loc main_arg16) : Vec Ideal S98 .f32)) j := by
  have e : (V41 m outs c main_v58 : Vec Ideal S1x128 .f32) = V37 m outs c main_v58 := by
    unwritten [V41_of m outs c, V40_of m outs c, V39_of m outs c, V38_of m outs c]
  have e0 : (V35 m outs c main_arg16 : Vec Ideal S98 .f32) = m ((c : Thread nD τ).loc main_arg16) :=
    (V35_of m outs c _ (by decide)).trans <| (V34_of m outs c _ (by decide)).trans <| (V33_of m outs c _ (by decide)).trans <|
      (V32_of m outs c _ (by decide)).trans <| V31_arg m outs c _ (by decide)
  have hc : (V35 m outs c main_c_21 : IVec S_ 32) = constantI S_ 32 0#32 := st3_2_c (V34 m outs c)
  have hp : (V36 m outs c main_v57 : Vec Ideal S128 .f32) = _ := st3_3_v57 (V35 m outs c)
  have hv : (V37 m outs c main_v58 : Vec Ideal S1x128 .f32) = _ := st3_4_v58 (V36 m outs c)
  rw [e, hv, hp, e0, hc]
  exact padRow_apply _ _ u j

theorem V41_main_v59 (k j : Fin 128) :
    (V41 m outs c main_v59 : Vec Ideal S128x128 .f32) (ix2 k j)
      = Cert.Spec.pad2 (Cert.Spec.mat (m ((c : Thread nD τ).loc main_arg17) : Vec Ideal S98x98 .f32)) k j := by
  have e : (V41 m outs c main_v59 : Vec Ideal S128x128 .f32) = V38 m outs c main_v59 := by
    unwritten [V41_of m outs c, V40_of m outs c, V39_of m outs c]
  have e0 : (V37 m outs c main_arg17 : Vec Ideal S98x98 .f32) = m ((c : Thread nD τ).loc main_arg17) :=
    (V37_of m outs c _ (by decide)).trans <| (V36_of m outs c _ (by decide)).trans <| (V35_of m outs c _ (by decide)).trans <|
      (V34_of m outs c _ (by decide)).trans <| (V33_of m outs c _ (by decide)).trans <|
      (V32_of m outs c _ (by decide)).trans <| V31_arg m outs c _ (by decide)
  have hc : (V37 m outs c main_c_22 : IVec S_ 32) = constantI S_ 32 0#32 := st3_4_c (V36 m outs c)
  have hv : (V38 m outs c main_v59 : Vec Ideal S128x128 .f32) = _ := st3_5_v59 (V37 m outs c)
  rw [e, hv, e0, hc]
  exact padMat_apply _ _ k j

theorem V41_main_v61 (u : Fin 1) (j : Fin 128) :
    (V41 m outs c main_v61 : Vec Ideal S1x128 .f32) (ix2 u j)
      = Cert.Spec.padv (Cert.Spec.vec (m ((c : Thread nD τ).loc main_arg18) : Vec Ideal S98 .f32)) j := by
  have e0 : (V39 m outs c main_arg18 : Vec Ideal S98 .f32) = m ((c : Thread nD τ).loc main_arg18) :=
    (V39_of m outs c _ (by decide)).trans <| (V38_of m outs c _ (by decide)).trans <| (V37_of m outs c _ (by decide)).trans <|
      (V36_of m outs c _ (by decide)).trans <| (V35_of m outs c _ (by decide)).trans <|
      (V34_of m outs c _ (by decide)).trans <| (V33_of m outs c _ (by decide)).trans <|
      (V32_of m outs c _ (by decide)).trans <| V31_arg m outs c _ (by decide)
  have hc : (V39 m outs c main_c_23 : IVec S_ 32) = constantI S_ 32 0#32 := st3_6_c (V38 m outs c)
  have hp : (V40 m outs c main_v60 : Vec Ideal S128 .f32) = _ := st3_7_v60 (V39 m outs c)
  have hv : (V41 m outs c main_v61 : Vec Ideal S1x128 .f32) = _ := st3_8_v61 (V40 m outs c)
  rw [hv, hp, e0, hc]
  exact padRow_apply _ _ u j

end Layer

end Cert.KernelIdeal.Hand

end
-- ==== Proof.KI.HostReads4.lean ====
/- The buffers the fifth layer region is entered with, index by index. -/
import proofs.«420535_j82145544503553_2_alg».proof.Proof.KI.HostReads3

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.ShloMosaic.LibRows

section Stretches
variable (W : Valuation τ sig (Elt Ideal))

theorem st4_c : (StableHlo.after hostOps4 W (Proc.devRef .tc main_c_27) : IVec S_ 32) = constantI S_ 32 0#32 := by
  after_results
theorem st4_1_v73 : (StableHlo.after hostOps4_1 W (Proc.devRef .tc main_v73) : Vec Ideal S128x128 .f32)
    = pad S128x128 ![0, 0] ![30, 30] ![0, 0] (W main_arg19 : Vec Ideal S98x98 .f32)
        (sitofp (F := Ideal) .f32 (W main_c_27 : IVec S_ 32)) pads_S98x98_S128x128_0300_0300 h_S_ := by
  after_results; rfl
theorem st4_2_c : (StableHlo.after hostOps4_2 W (Proc.devRef .tc main_c_28) : IVec S_ 32) = constantI S_ 32 0#32 := by
  after_results
theorem st4_3_v74 : (StableHlo.after hostOps4_3 W (Proc.devRef .tc main_v74) : Vec Ideal S128 .f32)
    = pad S128 ![0] ![30] ![0] (W main_arg20 : Vec Ideal S98 .f32)
        (sitofp (F := Ideal) .f32 (W main_c_28 : IVec S_ 32)) pads_S98_S128_0300 h_S_ := by
  after_results; rfl
theorem st4_4_v75 : (StableHlo.after hostOps4_4 W (Proc.devRef .tc main_v75) : Vec Ideal S1x128 .f32)
    = shapeCast S1x128 (W main_v74 : Vec Ideal S128 .f32) shapeCasts_S128_S1x128 := by
  after_results; rfl
theorem st4_4_c : (StableHlo.after hostOps4_4 W (Proc.devRef .tc main_c_29) : IVec S_ 32) = constantI S_ 32 0#32 := by
  after_results
theorem st4_5_v76 : (StableHlo.after hostOps4_5 W (Proc.devRef .tc main_v76) : Vec Ideal S128x128 .f32)
    = pad S128x128 ![0, 0] ![30, 30] ![0, 0] (W main_arg21 : Vec Ideal S98x98 .f32)
        (sitofp (F := Ideal) .f32 (W main_c_29 : IVec S_ 32)) pads_S98x98_S128x128_0300_0300 h_S_ := by
  after_results; rfl
theorem st4_6_c : (StableHlo.after hostOps4_6 W (Proc.devRef .tc main_c_30) : IVec S_ 32) = constantI S_ 32 0#32 := by
  after_results
theorem st4_7_v77 : (StableHlo.after hostOps4_7 W (Proc.devRef .tc main_v77) : Vec Ideal S128 .f32)
    = pad S128 ![0] ![30] ![0] (W main_arg22 : Vec Ideal S98 .f32)
        (sitofp (F := Ideal) .f32 (W main_c_30 : IVec S_ 32)) pads_S98_S128_0300 h_S_ := by
  after_results; rfl
set_option maxHeartbeats 1000000 in
theorem st4_8_v78 : (StableHlo.after hostOps4_8 W (Proc.devRef .tc main_v78) : Vec Ideal S1x128 .f32)
    = shapeCast S1x128 (W main_v77 : Vec Ideal S128 .f32) shapeCasts_S128_S1x128 := by
  after_results_simp; rfl
set_option maxHeartbeats 1000000 in
theorem st4_8_v88 : (StableHlo.after hostOps4_8 W (Proc.devRef .tc main_v88) : Vec Ideal S100000x128 .f32)
    = aggTerm (W main_v72 : Vec Ideal S100000x128 .f32) (W main_v1 : IVec S1600000 32) (W main_v3 : IVec S1600000 32) := by
  after_results_simp; rfl

end Stretches

section Layer
variable (m : (ℓ : Loc nD τ sig) → Buf (Elt Ideal) ℓ) (outs : GenP.Outs (F := Ideal)) (c : Dev nD)

theorem V50_main_v1 : (V50 m outs c main_v1 : IVec S1600000 32) = srcVec (m ((c : Thread nD τ).loc main_arg1) : IVec S2x1600000 32) := by
  have e : (V50 m outs c main_v1 : IVec S1600000 32) = V40 m outs c main_v1 := by
    unwritten [V50_of m outs c, V49_of m outs c, V48_of m outs c, V47_of m outs c, V46_of m outs c, V45_of m outs c, V44_of m outs c, V43_of m outs c, V42_of m outs c, V41_of m outs c]
  rw [e, V40_main_v1]
theorem V50_main_v3 : (V50 m outs c main_v3 : IVec S1600000 32) = dstVec (m ((c : Thread nD τ).loc main_arg1) : IVec S2x1600000 32) := by
  have e : (V50 m outs c main_v3 : IVec S1600000 32) = V40 m outs c main_v3 := by
    unwritten [V50_of m outs c, V49_of m outs c, V48_of m outs c, V47_of m outs c, V46_of m outs c, V45_of m outs c, V44_of m outs c, V43_of m outs c, V42_of m outs c, V41_of m outs c]
  rw [e, V40_main_v3]

theorem V51_main_v88 (n : Fin 100000) (q : Fin 128) :
    (V51 m outs c main_v88 : Vec Ideal S100000x128 .f32) (ix2 n q)
      = Cert.Spec.agg Cert.Spec.hN (fun n k => (V51 m outs c main_v72 : Vec Ideal S100000x128 .f32) (ix2 n k))
          (Cert.Spec.srcOf (m ((c : Thread nD τ).loc main_arg1) : IVec S2x1600000 32))
          (Cert.Spec.dstOf (m ((c : Thread nD τ).loc main_arg1) : IVec S2x1600000 32)) n q := by
  have eh : (V50 m outs c main_v72 : Vec Ideal S100000x128 .f32) = V51 m outs c main_v72 := (V51_of m outs c main_v72 (by decide)).symm
  have hv : (V51 m outs c main_v88 : Vec Ideal S100000x128 .f32) = _ := st4_8_v88 (V50 m outs c)
  rw [hv, eh, V50_main_v1, V50_main_v3]
  exact aggTerm_apply _ _ n q

theorem V51_main_v73 (k j : Fin 128) :
    (V51 m outs c main_v73 : Vec Ideal S128x128 .f32) (ix2 k j)
      = Cert.Spec.pad2 (Cert.Spec.mat (m ((c : Thread nD τ).loc main_arg19) : Vec Ideal S98x98 .f32)) k j := by
  have e : (V51 m outs c main_v73 : Vec Ideal S128x128 .f32) = V44 m outs c main_v73 := by
    unwritten [V51_of m outs c, V50_of m outs c, V49_of m outs c, V48_of m outs c, V47_of m outs c, V46_of m outs c, V45_of m outs c]
  have e0 : (V43 m outs c main_arg19 : Vec Ideal S98x98 .f32) = m ((c : Thread nD τ).loc main_arg19) :=
    (V43_of m outs c _ (by decide)).trans <| (V42_of m outs c _ (by decide)).trans <| V41_arg m outs c _ (by decide)
  have hc : (V43 m outs c main_c_27 : IVec S_ 32) = constantI S_ 32 0#32 := st4_c (V42 m outs c)
  have hv : (V44 m outs c main_v73 : Vec Ideal S128x128 .f32) = _ := st4_1_v73 (V43 m outs c)
  rw [e, hv, e0, hc]
  exact padMat_apply _ _ k j

theorem V51_main_v75 (u : Fin 1) (j : Fin 128) :
    (V51 m outs c main_v75 : Vec Ideal S1x128 .f32) (ix2 u j)
      = Cert.Spec.padv (Cert.Spec.vec (m ((c : Thread nD τ).loc main_arg20) : Vec Ideal S98 .f32)) j := by
  have e : (V51 m outs c main_v75 : Vec Ideal S1x128 .f32) = V47 m outs c main_v75 := by
    unwritten [V51_of m outs c, V50_of m outs c, V49_of m outs c, V48_of m outs c]
  have e0 : (V45 m outs c main_arg20 : Vec Ideal S98 .f32) = m ((c : Thread nD τ).loc main_arg20) :=
    (V45_of m outs c _ (by decide)).trans <| (V44_of m outs c _ (by decide)).trans <| (V43_of m outs c _ (by decide)).trans <|
      (V42_of m outs c _ (by decide)).trans <| V41_arg m outs c _ (by decide)
  have hc : (V45 m outs c main_c_28 : IVec S_ 32) = constantI S_ 32 0#32 := st4_2_c (V44 m outs c)
  have hp : (V46 m outs c main_v74 : Vec Ideal S128 .f32) = _ := st4_3_v74 (V45 m outs c)
  have hv : (V47 m outs c main_v75 : Vec Ideal S1x128 .f32) = _ := st4_4_v75 (V46 m outs c)
  rw [e, hv, hp, e0, hc]
  exact padRow_apply _ _ u j

theorem V51_main_v76 (k j : Fin 128) :
    (V51 m outs c main_v76 : Vec Ideal S128x128 .f32) (ix2 k j)
      = Cert.Spec.pad2 (Cert.Spec.mat (m ((c : Thread nD τ).loc main_arg21) : Vec Ideal S98x98 .f32)) k j := by
  have e : (V51 m outs c main_v76 : Vec Ideal S128x128 .f32) = V48 m outs c main_v76 := by
    unwritten [V51_of m outs c, V50_of m outs c, V49_of m outs c]
  have e0 : (V47 m outs c main_arg21 : Vec Ideal S98x98 .f32) = m ((c : Thread nD τ).loc main_arg21) :=
    (V47_of m outs c _ (by decide)).trans <| (V46_of m outs c _ (by decide)).trans <| (V45_of m outs c _ (by decide)).trans <|
      (V44_of m outs c _ (by decide)).trans <| (V43_of m outs c _ (by decide)).trans <|
      (V42_of m outs c _ (by decide)).trans <| V41_arg m outs c _ (by decide)
  have hc : (V47 m outs c main_c_29 : IVec S_ 32) = constantI S_ 32 0#32 := st4_4_c (V46 m outs c)
  have hv : (V48 m outs c main_v76 : Vec Ideal S128x128 .f32) = _ := st4_5_v76 (V47 m outs c)
  rw [e, hv, e0, hc]
  exact padMat_apply _ _ k j

theorem V51_main_v78 (u : Fin 1) (j : Fin 128) :
    (V51 m outs c main_v78 : Vec Ideal S1x128 .f32) (ix2 u j)
      = Cert.Spec.padv (Cert.Spec.vec (m ((c : Thread nD τ).loc main_arg22) : Vec Ideal S98 .f32)) j := by
  have e0 : (V49 m outs c main_arg22 : Vec Ideal S98 .f32) = m ((c : Thread nD τ).loc main_arg22) :=
    (V49_of m outs c _ (by decide)).trans <| (V48_of m outs c _ (by decide)).trans <| (V47_of m outs c _ (by decide)).trans <|
      (V46_of m outs c _ (by decide)).trans <| (V45_of m outs c _ (by decide)).trans <|
      (V44_of m outs c _ (by decide)).trans <| (V43_of m outs c _ (by decide)).trans <|
      (V42_of m outs c _ (by decide)).trans <| V41_arg m outs c _ (by decide)
  have hc : (V49 m outs c main_c_30 : IVec S_ 32) = constantI S_ 32 0#32 := st4_6_c (V48 m outs c)
  have hp : (V50 m outs c main_v77 : Vec Ideal S128 .f32) = _ := st4_7_v77 (V49 m outs c)
  have hv : (V51 m outs c main_v78 : Vec Ideal S1x128 .f32) = _ := st4_8_v78 (V50 m outs c)
  rw [hv, hp, e0, hc]
  exact padRow_apply _ _ u j

end Layer

end Cert.KernelIdeal.Hand

end
-- ==== Proof.KI.HostReads5.lean ====
/- The final region's operands at entry, index by index. -/
import proofs.«420535_j82145544503553_2_alg».proof.Proof.KernelIdealRegions
import proofs.«420535_j82145544503553_2_alg».proof.Proof.SpecArgs
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 1492

noncomputable section

namespace Cert.KernelIdeal.Hand

open Cert.KernelIdeal Cert.KernelIdeal.Gen Cert.KernelIdeal.GenP
open Idealize.ShloMosaic Idealize.ShloMosaic.TcCoe Idealize.ShloMosaic.ValueIdx

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem pad_hi2_apply {α : Type} {A B A' B' : ℕ} (hi : Fin 2 → ℕ) (x : (⟨2, ![A, B]⟩ : Shape).Idx → α)
    {u : Shape} (v : u.Idx → α) (h : (⟨2, ![A, B]⟩ : Shape).Pads ![0, 0] hi ![0, 0] ⟨2, ![A', B']⟩)
    (hu : 0 < u.numel) (k : Fin A') (j : Fin B') :
    pad ⟨2, ![A', B']⟩ ![0, 0] hi ![0, 0] x v h hu (ix2 k j)
      = if hkj : k.val < A ∧ j.val < B then x (ix2 ⟨k.val, hkj.1⟩ ⟨j.val, hkj.2⟩) else v (Shape.Idx.first hu) := by
  by_cases hkj : k.val < A ∧ j.val < B
  · rw [dif_pos hkj]
    refine pad_apply_of_inside _ _ _ x v h hu _ _ (fun a => ?_)
    match a with
    | ⟨0, _⟩ => show k.val = 0 + k.val * (0 + 1); omega
    | ⟨1, _⟩ => show j.val = 0 + j.val * (0 + 1); omega
  · rw [dif_neg hkj]
    by_cases hk : k.val < A
    · have hj : ¬ j.val < B := fun hj => hkj ⟨hk, hj⟩
      refine pad_apply_of_not_inside _ _ _ x v h hu _ 1 (fun hin => hj ?_)
      have h3 : (j.val - 0) / (0 + 1) < B := hin.2.2
      omega
    · refine pad_apply_of_not_inside _ _ _ x v h hu _ 0 (fun hin => hk ?_)
      have h3 : (k.val - 0) / (0 + 1) < A := hin.2.2
      omega

private theorem pad_hi1_apply {α : Type} {A A' : ℕ} (hi : Fin 1 → ℕ) (x : (⟨1, ![A]⟩ : Shape).Idx → α)
    {u : Shape} (v : u.Idx → α) (h : (⟨1, ![A]⟩ : Shape).Pads ![0] hi ![0] ⟨1, ![A']⟩) (hu : 0 < u.numel)
    (j : Fin A') :
    pad ⟨1, ![A']⟩ ![0] hi ![0] x v h hu (ix1 j)
      = if hj : j.val < A then x (ix1 ⟨j.val, hj⟩) else v (Shape.Idx.first hu) := by
  by_cases hj : j.val < A
  · rw [dif_pos hj]
    refine pad_apply_of_inside _ _ _ x v h hu _ _ (fun a => ?_)
    match a with
    | ⟨0, _⟩ => show j.val = 0 + j.val * (0 + 1); omega
  · rw [dif_neg hj]
    refine pad_apply_of_not_inside _ _ _ x v h hu _ 0 (fun hin => hj ?_)
    have h3 : (j.val - 0) / (0 + 1) < A := hin.2.2
    omega

private theorem padScalar_zero :
    sitofp (F := Ideal) .f32 (constantI S_ 32 0#32) (Shape.Idx.first h_S_) = (0 : EReal) := by
  show (((0#32 : BitVec 32).toInt : ℝ) : EReal) = 0
  simp

variable (m : (ℓ : Loc nD τ sig) → Buf (Elt Ideal) ℓ) (outs : GenP.Outs (F := Ideal))

private theorem V56_arg2 (c : Dev nD) : V56 m outs c main_arg2 = m ((c : Thread nD τ).loc main_arg2) :=
  (V57_of m outs c main_arg2 (by decide)).symm.trans <|
  (V58_of m outs c main_arg2 (by decide)).symm.trans (V58_main_arg2 m outs c)
private theorem V56_arg25 (c : Dev nD) : V56 m outs c main_arg25 = m ((c : Thread nD τ).loc main_arg25) :=
  (V57_of m outs c main_arg25 (by decide)).symm.trans <|
  (V58_of m outs c main_arg25 (by decide)).symm.trans (V58_main_arg25 m outs c)
private theorem V56_arg26 (c : Dev nD) : V56 m outs c main_arg26 = m ((c : Thread nD τ).loc main_arg26) :=
  (V57_of m outs c main_arg26 (by decide)).symm.trans <|
  (V58_of m outs c main_arg26 (by decide)).symm.trans (V58_main_arg26 m outs c)
private theorem V53_arg23 (c : Dev nD) : V53 m outs c main_arg23 = m ((c : Thread nD τ).loc main_arg23) :=
  (V54_of m outs c main_arg23 (by decide)).symm.trans <| (V55_of m outs c main_arg23 (by decide)).symm.trans <|
  (V56_of m outs c main_arg23 (by decide)).symm.trans <| (V57_of m outs c main_arg23 (by decide)).symm.trans <|
  (V58_of m outs c main_arg23 (by decide)).symm.trans (V58_main_arg23 m outs c)
private theorem V55_arg24 (c : Dev nD) : V55 m outs c main_arg24 = m ((c : Thread nD τ).loc main_arg24) :=
  (V56_of m outs c main_arg24 (by decide)).symm.trans <| (V57_of m outs c main_arg24 (by decide)).symm.trans <|
  (V58_of m outs c main_arg24 (by decide)).symm.trans (V58_main_arg24 m outs c)

private theorem V57_v95_eq (c : Dev nD) :
    (V57 m outs c main_v95 : Vec Ideal S100000x1 .i32)
      = shapeCast S100000x1 (V56 m outs c main_arg2 : Vec Ideal S100000 .i32) shapeCasts_S100000_S100000x1 := by
  show StableHlo.after hostOps5_4 (V56 m outs c) (Proc.devRef .tc main_v95) = _
  after_results
  rfl
private theorem V57_v93_eq (c : Dev nD) :
    (V57 m outs c main_v93 : Vec Ideal S1x120 .f32)
      = shapeCast S1x120 (V56 m outs c main_arg25 : Vec Ideal S120 .f32) shapeCasts_S120_S1x120 := by
  show StableHlo.after hostOps5_4 (V56 m outs c) (Proc.devRef .tc main_v93) = _
  after_results
  rfl
private theorem V57_v94_eq (c : Dev nD) :
    (V57 m outs c main_v94 : Vec Ideal S1x120 .f32)
      = shapeCast S1x120 (V56 m outs c main_arg26 : Vec Ideal S120 .f32) shapeCasts_S120_S1x120 := by
  show StableHlo.after hostOps5_4 (V56 m outs c) (Proc.devRef .tc main_v94) = _
  after_results
  rfl
private theorem V57_v92_eq (c : Dev nD) :
    (V57 m outs c main_v92 : Vec Ideal S1x128 .f32)
      = shapeCast S1x128 (V56 m outs c main_v91 : Vec Ideal S128 .f32) shapeCasts_S128_S1x128 := by
  show StableHlo.after hostOps5_4 (V56 m outs c) (Proc.devRef .tc main_v92) = _
  after_results
  rfl

private theorem V53_c34 (c : Dev nD) : (V53 m outs c main_c_34 : IVec S_ 32) = constantI S_ 32 0#32 := by
  show StableHlo.after hostOps5 (V52 m outs c) (Proc.devRef .tc main_c_34) = _
  after_results
private theorem V55_c35 (c : Dev nD) : (V55 m outs c main_c_35 : IVec S_ 32) = constantI S_ 32 0#32 := by
  show StableHlo.after hostOps5_2 (V54 m outs c) (Proc.devRef .tc main_c_35) = _
  after_results

private theorem V54_v90_eq (c : Dev nD) :
    (V54 m outs c main_v90 : Vec Ideal S128x128 .f32)
      = pad S128x128 ![0, 0] ![30, 8] ![0, 0] (V53 m outs c main_arg23 : Vec Ideal S98x120 .f32)
          (sitofp (F := Ideal) .f32 (V53 m outs c main_c_34 : IVec S_ 32)) pads_S98x120_S128x128_0300_080 h_S_ := by
  show StableHlo.after hostOps5_1 (V53 m outs c) (Proc.devRef .tc main_v90) = _
  after_results
  simp only [StableHlo.TRef.ofBuf, StableHlo.TRef.toBuf, cast_eq]
private theorem V56_v91_eq (c : Dev nD) :
    (V56 m outs c main_v91 : Vec Ideal S128 .f32)
      = pad S128 ![0] ![8] ![0] (V55 m outs c main_arg24 : Vec Ideal S120 .f32)
          (sitofp (F := Ideal) .f32 (V55 m outs c main_c_35 : IVec S_ 32)) pads_S120_S128_080 h_S_ := by
  show StableHlo.after hostOps5_3 (V55 m outs c) (Proc.devRef .tc main_v91) = _
  after_results
  simp only [StableHlo.TRef.ofBuf, StableHlo.TRef.toBuf, cast_eq]

theorem V57_ids (c : Dev nD) (n : Fin 100000) :
    (V57 m outs c main_v95 : Vec Ideal S100000x1 .i32) (ix2 n 0)
      = Cert.Spec.batchOf (m ((c : Thread nD τ).loc main_arg2) : Vec Ideal S100000 .i32) n := by
  rw [V57_v95_eq, V56_arg2]
  exact shapeCast_a_a1_apply (m ((c : Thread nD τ).loc main_arg2) : Vec Ideal S100000 .i32)
    shapeCasts_S100000_S100000x1 n 0

theorem V57_lw (c : Dev nD) (k j : Fin 128) :
    (V57 m outs c main_v90 : Vec Ideal S128x128 .f32) (ix2 k j)
      = Cert.Spec.pad2 (Cert.Spec.mat (m ((c : Thread nD τ).loc main_arg23) : Vec Ideal S98x120 .f32)) k j := by
  show _ = (if h : k.val < 98 ∧ j.val < 120 then
      (m ((c : Thread nD τ).loc main_arg23) : Vec Ideal S98x120 .f32) (ix2 ⟨k.val, h.1⟩ ⟨j.val, h.2⟩) else 0 : EReal)
  have e : V57 m outs c main_v90 = V54 m outs c main_v90 :=
    (V57_of m outs c main_v90 (by decide)).trans <| (V56_of m outs c main_v90 (by decide)).trans
      (V55_of m outs c main_v90 (by decide))
  rw [e, V54_v90_eq, V53_arg23, V53_c34]
  refine (pad_hi2_apply ![30, 8] (m ((c : Thread nD τ).loc main_arg23) : Vec Ideal S98x120 .f32) _
    pads_S98x120_S128x128_0300_080 h_S_ k j).trans ?_
  rw [padScalar_zero]

theorem V57_lb (c : Dev nD) (j : Fin 128) :
    (V57 m outs c main_v92 : Vec Ideal S1x128 .f32) (ix2 0 j)
      = Cert.Spec.padv (Cert.Spec.vec (m ((c : Thread nD τ).loc main_arg24) : Vec Ideal S120 .f32)) j := by
  show _ = (if h : j.val < 120 then
      (m ((c : Thread nD τ).loc main_arg24) : Vec Ideal S120 .f32) (ix1 ⟨j.val, h⟩) else 0 : EReal)
  rw [V57_v92_eq]
  refine (shapeCast_a_1a_apply (V56 m outs c main_v91 : Vec Ideal S128 .f32) shapeCasts_S128_S1x128 0 j).trans ?_
  rw [V56_v91_eq, V55_arg24, V55_c35]
  refine (pad_hi1_apply ![8] (m ((c : Thread nD τ).loc main_arg24) : Vec Ideal S120 .f32) _
    pads_S120_S128_080 h_S_ j).trans ?_
  rw [padScalar_zero]

theorem V57_gam (c : Dev nD) (j : Fin 120) :
    (V57 m outs c main_v93 : Vec Ideal S1x120 .f32) (ix2 0 j)
      = Cert.Spec.vec (m ((c : Thread nD τ).loc main_arg25) : Vec Ideal S120 .f32) j := by
  rw [V57_v93_eq, V56_arg25]
  exact shapeCast_a_1a_apply (m ((c : Thread nD τ).loc main_arg25) : Vec Ideal S120 .f32) shapeCasts_S120_S1x120 0 j

theorem V57_bet (c : Dev nD) (j : Fin 120) :
    (V57 m outs c main_v94 : Vec Ideal S1x120 .f32) (ix2 0 j)
      = Cert.Spec.vec (m ((c : Thread nD τ).loc main_arg26) : Vec Ideal S120 .f32) j := by
  rw [V57_v94_eq, V56_arg26]
  exact shapeCast_a_1a_apply (m ((c : Thread nD τ).loc main_arg26) : Vec Ideal S120 .f32) shapeCasts_S120_S1x120 0 j

end Cert.KernelIdeal.Hand

end
-- ==== Proof.KI.Value.lean ====
/- The idealized kernel program's result as the mathematics of its arguments, region by region. -/
import proofs.«420535_j82145544503553_2_alg».proof.Proof.KI.Run
import proofs.«420535_j82145544503553_2_alg».proof.Proof.KI.GinVal0
import proofs.«420535_j82145544503553_2_alg».proof.Proof.KI.GinVal1
import proofs.«420535_j82145544503553_2_alg».proof.Proof.KI.GinVal2
import proofs.«420535_j82145544503553_2_alg».proof.Proof.KI.GinVal3
import proofs.«420535_j82145544503553_2_alg».proof.Proof.KI.GinVal4
import proofs.«420535_j82145544503553_2_alg».proof.Proof.KI.FinVal
import proofs.«420535_j82145544503553_2_alg».proof.Proof.KI.HostReads
import proofs.«420535_j82145544503553_2_alg».proof.Proof.KI.HostReads1
import proofs.«420535_j82145544503553_2_alg».proof.Proof.KI.HostReads2
import proofs.«420535_j82145544503553_2_alg».proof.Proof.KI.HostReads3
import proofs.«420535_j82145544503553_2_alg».proof.Proof.KI.HostReads4
import proofs.«420535_j82145544503553_2_alg».proof.Proof.KI.HostReads5
import proofs.«420535_j82145544503553_2_alg».proof.Proof.Spec
import proofs.«420535_j82145544503553_2_alg».proof.Proof.SpecArgs
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window cellOf)

section Value
variable (m : (ℓ : Loc nD τ sig) → Buf (Elt Ideal) ℓ) (c : Dev nD)

abbrev xOf : Fin 100000 → Fin 108 → Cert.Spec.R := Cert.Spec.mat (m ((c.tc : Thread nD τ).loc main_arg0))

abbrev srcM : Fin 1600000 → BitVec 32 := Cert.Spec.srcOf (m ((c.tc : Thread nD τ).loc main_arg1))

abbrev dstM : Fin 1600000 → BitVec 32 := Cert.Spec.dstOf (m ((c.tc : Thread nD τ).loc main_arg1))

abbrev parOf : Cert.Spec.Params :=
  Cert.Spec.paramsOf (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))
    (m ((c.tc : Thread nD τ).loc main_arg21))
    (m ((c.tc : Thread nD τ).loc main_arg22))
    (m ((c.tc : Thread nD τ).loc main_arg23))
    (m ((c.tc : Thread nD τ).loc main_arg24))
    (m ((c.tc : Thread nD τ).loc main_arg25))
    (m ((c.tc : Thread nD τ).loc main_arg26))

def hK1 (n : Fin 100000) (q : Fin 128) : Cert.Spec.R :=
  ((dat0 (Vin0 m) c).arrAt 6 cfg0.N : Vec Ideal S100000x128 .f32) (ix2 n q)

theorem hK1_eq : hK1 m c = Cert.Spec.kH1 Cert.Spec.hN (xOf m c) (srcM m c) (dstM m c) (parOf m c) := by
  funext n q
  unfold hK1
  rw [gin0_val]
  have hh : ∀ p k, (Vin0 m c main_v4 : Vec Ideal S100000x128 .f32) (ix2 p k) = (Cert.Spec.kH0 (xOf m c)) p k := fun p k => V11_main_v4 m c p k
  have r0 : ∀ p k, arr0_0 (Vin0 m) c (ix2 p k) = (Cert.Spec.kH0 (xOf m c)) p k := hh
  have r1 : ∀ p k, arr0_1 (Vin0 m) c (ix2 p k) = Cert.Spec.agg Cert.Spec.hN (Cert.Spec.kH0 (xOf m c)) (srcM m c) (dstM m c) p k := by
    intro p k
    show (Vin0 m c main_v20 : Vec Ideal S100000x128 .f32) (ix2 p k) = _
    refine (V11_main_v20 m c p k).trans ?_
    refine congrArg (fun f => Cert.Spec.agg Cert.Spec.hN f (srcM m c) (dstM m c) p k) (funext fun n' => funext fun k' => ?_)
    exact hh n' k'
  have r2 : ∀ k j, arr0_2 (Vin0 m) c (ix2 k j) = Cert.Spec.pad2 (parOf m c).w11 k j := by
    intro k j
    show (Vin0 m c main_v5 : Vec Ideal S128x128 .f32) (ix2 k j) = _
    exact V11_main_v5 m c k j
  have r3 : ∀ j, arr0_3 (Vin0 m) c (ix2 0 j) = Cert.Spec.padv (parOf m c).b11 j := by
    intro j
    show (Vin0 m c main_v7 : Vec Ideal S1x128 .f32) (ix2 0 j) = _
    exact V11_main_v7 m c 0 j
  have r4 : ∀ k j, arr0_4 (Vin0 m) c (ix2 k j) = Cert.Spec.pad2 (parOf m c).w12 k j := by
    intro k j
    show (Vin0 m c main_v8 : Vec Ideal S128x128 .f32) (ix2 k j) = _
    exact V11_main_v8 m c k j
  have r5 : ∀ j, arr0_5 (Vin0 m) c (ix2 0 j) = Cert.Spec.padv (parOf m c).b12 j := by
    intro j
    show (Vin0 m c main_v10 : Vec Ideal S1x128 .f32) (ix2 0 j) = _
    exact V11_main_v10 m c 0 j
  simp only [r0, r1, r2, r3, r4, r5]
  rfl

def hK2 (n : Fin 100000) (q : Fin 128) : Cert.Spec.R :=
  ((dat1 (Vin1 m) c).arrAt 6 cfg1.N : Vec Ideal S100000x128 .f32) (ix2 n q)

theorem hK2_eq : hK2 m c = Cert.Spec.kH2 Cert.Spec.hN (xOf m c) (srcM m c) (dstM m c) (parOf m c) := by
  funext n q
  unfold hK2
  rw [gin1_val]
  have hh : ∀ p k, (Vin1 m c main_v21 : Vec Ideal S100000x128 .f32) (ix2 p k) = (Cert.Spec.kH1 Cert.Spec.hN (xOf m c) (srcM m c) (dstM m c) (parOf m c)) p k := by
    intro p k
    rw [Vin1_out m c]
    exact congrFun (congrFun (hK1_eq m c) p) k
  have r0 : ∀ p k, arr1_0 (Vin1 m) c (ix2 p k) = (Cert.Spec.kH1 Cert.Spec.hN (xOf m c) (srcM m c) (dstM m c) (parOf m c)) p k := hh
  have r1 : ∀ p k, arr1_1 (Vin1 m) c (ix2 p k) = Cert.Spec.agg Cert.Spec.hN (Cert.Spec.kH1 Cert.Spec.hN (xOf m c) (srcM m c) (dstM m c) (parOf m c)) (srcM m c) (dstM m c) p k := by
    intro p k
    show (Vin1 m c main_v37 : Vec Ideal S100000x128 .f32) (ix2 p k) = _
    rw [Vin1_eq m c main_v37]
    refine (V21_main_v37 m (outs m) c p k).trans ?_
    refine congrArg (fun f => Cert.Spec.agg Cert.Spec.hN f (srcM m c) (dstM m c) p k) (funext fun n' => funext fun k' => ?_)
    rw [← Vin1_eq m c main_v21]
    exact hh n' k'
  have r2 : ∀ k j, arr1_2 (Vin1 m) c (ix2 k j) = Cert.Spec.pad2 (parOf m c).w21 k j := by
    intro k j
    show (Vin1 m c main_v22 : Vec Ideal S128x128 .f32) (ix2 k j) = _
    rw [Vin1_eq m c main_v22]
    exact V21_main_v22 m (outs m) c k j
  have r3 : ∀ j, arr1_3 (Vin1 m) c (ix2 0 j) = Cert.Spec.padv (parOf m c).b21 j := by
    intro j
    show (Vin1 m c main_v24 : Vec Ideal S1x128 .f32) (ix2 0 j) = _
    rw [Vin1_eq m c main_v24]
    exact V21_main_v24 m (outs m) c 0 j
  have r4 : ∀ k j, arr1_4 (Vin1 m) c (ix2 k j) = Cert.Spec.pad2 (parOf m c).w22 k j := by
    intro k j
    show (Vin1 m c main_v25 : Vec Ideal S128x128 .f32) (ix2 k j) = _
    rw [Vin1_eq m c main_v25]
    exact V21_main_v25 m (outs m) c k j
  have r5 : ∀ j, arr1_5 (Vin1 m) c (ix2 0 j) = Cert.Spec.padv (parOf m c).b22 j := by
    intro j
    show (Vin1 m c main_v27 : Vec Ideal S1x128 .f32) (ix2 0 j) = _
    rw [Vin1_eq m c main_v27]
    exact V21_main_v27 m (outs m) c 0 j
  simp only [r0, r1, r2, r3, r4, r5]
  rfl

def hK3 (n : Fin 100000) (q : Fin 128) : Cert.Spec.R :=
  ((dat2 (Vin2 m) c).arrAt 6 cfg2.N : Vec Ideal S100000x128 .f32) (ix2 n q)

theorem hK3_eq : hK3 m c = Cert.Spec.kH3 Cert.Spec.hN (xOf m c) (srcM m c) (dstM m c) (parOf m c) := by
  funext n q
  unfold hK3
  rw [gin2_val]
  have hh : ∀ p k, (Vin2 m c main_v38 : Vec Ideal S100000x128 .f32) (ix2 p k) = (Cert.Spec.kH2 Cert.Spec.hN (xOf m c) (srcM m c) (dstM m c) (parOf m c)) p k := by
    intro p k
    rw [Vin2_out m c]
    exact congrFun (congrFun (hK2_eq m c) p) k
  have r0 : ∀ p k, arr2_0 (Vin2 m) c (ix2 p k) = (Cert.Spec.kH2 Cert.Spec.hN (xOf m c) (srcM m c) (dstM m c) (parOf m c)) p k := hh
  have r1 : ∀ p k, arr2_1 (Vin2 m) c (ix2 p k) = Cert.Spec.agg Cert.Spec.hN (Cert.Spec.kH2 Cert.Spec.hN (xOf m c) (srcM m c) (dstM m c) (parOf m c)) (srcM m c) (dstM m c) p k := by
    intro p k
    show (Vin2 m c main_v54 : Vec Ideal S100000x128 .f32) (ix2 p k) = _
    rw [Vin2_eq m c main_v54]
    refine (V31_main_v54 m (outs m) c p k).trans ?_
    refine congrArg (fun f => Cert.Spec.agg Cert.Spec.hN f (srcM m c) (dstM m c) p k) (funext fun n' => funext fun k' => ?_)
    rw [← Vin2_eq m c main_v38]
    exact hh n' k'
  have r2 : ∀ k j, arr2_2 (Vin2 m) c (ix2 k j) = Cert.Spec.pad2 (parOf m c).w31 k j := by
    intro k j
    show (Vin2 m c main_v39 : Vec Ideal S128x128 .f32) (ix2 k j) = _
    rw [Vin2_eq m c main_v39]
    exact V31_main_v39 m (outs m) c k j
  have r3 : ∀ j, arr2_3 (Vin2 m) c (ix2 0 j) = Cert.Spec.padv (parOf m c).b31 j := by
    intro j
    show (Vin2 m c main_v41 : Vec Ideal S1x128 .f32) (ix2 0 j) = _
    rw [Vin2_eq m c main_v41]
    exact V31_main_v41 m (outs m) c 0 j
  have r4 : ∀ k j, arr2_4 (Vin2 m) c (ix2 k j) = Cert.Spec.pad2 (parOf m c).w32 k j := by
    intro k j
    show (Vin2 m c main_v42 : Vec Ideal S128x128 .f32) (ix2 k j) = _
    rw [Vin2_eq m c main_v42]
    exact V31_main_v42 m (outs m) c k j
  have r5 : ∀ j, arr2_5 (Vin2 m) c (ix2 0 j) = Cert.Spec.padv (parOf m c).b32 j := by
    intro j
    show (Vin2 m c main_v44 : Vec Ideal S1x128 .f32) (ix2 0 j) = _
    rw [Vin2_eq m c main_v44]
    exact V31_main_v44 m (outs m) c 0 j
  simp only [r0, r1, r2, r3, r4, r5]
  rfl

def hK4 (n : Fin 100000) (q : Fin 128) : Cert.Spec.R :=
  ((dat3 (Vin3 m) c).arrAt 6 cfg3.N : Vec Ideal S100000x128 .f32) (ix2 n q)

theorem hK4_eq : hK4 m c = Cert.Spec.kH4 Cert.Spec.hN (xOf m c) (srcM m c) (dstM m c) (parOf m c) := by
  funext n q
  unfold hK4
  rw [gin3_val]
  have hh : ∀ p k, (Vin3 m c main_v55 : Vec Ideal S100000x128 .f32) (ix2 p k) = (Cert.Spec.kH3 Cert.Spec.hN (xOf m c) (srcM m c) (dstM m c) (parOf m c)) p k := by
    intro p k
    rw [Vin3_out m c]
    exact congrFun (congrFun (hK3_eq m c) p) k
  have r0 : ∀ p k, arr3_0 (Vin3 m) c (ix2 p k) = (Cert.Spec.kH3 Cert.Spec.hN (xOf m c) (srcM m c) (dstM m c) (parOf m c)) p k := hh
  have r1 : ∀ p k, arr3_1 (Vin3 m) c (ix2 p k) = Cert.Spec.agg Cert.Spec.hN (Cert.Spec.kH3 Cert.Spec.hN (xOf m c) (srcM m c) (dstM m c) (parOf m c)) (srcM m c) (dstM m c) p k := by
    intro p k
    show (Vin3 m c main_v71 : Vec Ideal S100000x128 .f32) (ix2 p k) = _
    rw [Vin3_eq m c main_v71]
    refine (V41_main_v71 m (outs m) c p k).trans ?_
    refine congrArg (fun f => Cert.Spec.agg Cert.Spec.hN f (srcM m c) (dstM m c) p k) (funext fun n' => funext fun k' => ?_)
    rw [← Vin3_eq m c main_v55]
    exact hh n' k'
  have r2 : ∀ k j, arr3_2 (Vin3 m) c (ix2 k j) = Cert.Spec.pad2 (parOf m c).w41 k j := by
    intro k j
    show (Vin3 m c main_v56 : Vec Ideal S128x128 .f32) (ix2 k j) = _
    rw [Vin3_eq m c main_v56]
    exact V41_main_v56 m (outs m) c k j
  have r3 : ∀ j, arr3_3 (Vin3 m) c (ix2 0 j) = Cert.Spec.padv (parOf m c).b41 j := by
    intro j
    show (Vin3 m c main_v58 : Vec Ideal S1x128 .f32) (ix2 0 j) = _
    rw [Vin3_eq m c main_v58]
    exact V41_main_v58 m (outs m) c 0 j
  have r4 : ∀ k j, arr3_4 (Vin3 m) c (ix2 k j) = Cert.Spec.pad2 (parOf m c).w42 k j := by
    intro k j
    show (Vin3 m c main_v59 : Vec Ideal S128x128 .f32) (ix2 k j) = _
    rw [Vin3_eq m c main_v59]
    exact V41_main_v59 m (outs m) c k j
  have r5 : ∀ j, arr3_5 (Vin3 m) c (ix2 0 j) = Cert.Spec.padv (parOf m c).b42 j := by
    intro j
    show (Vin3 m c main_v61 : Vec Ideal S1x128 .f32) (ix2 0 j) = _
    rw [Vin3_eq m c main_v61]
    exact V41_main_v61 m (outs m) c 0 j
  simp only [r0, r1, r2, r3, r4, r5]
  rfl

def hK5 (n : Fin 100000) (q : Fin 128) : Cert.Spec.R :=
  ((dat4 (Vin4 m) c).arrAt 6 cfg4.N : Vec Ideal S100000x128 .f32) (ix2 n q)

theorem hK5_eq : hK5 m c = Cert.Spec.kH5 Cert.Spec.hN (xOf m c) (srcM m c) (dstM m c) (parOf m c) := by
  funext n q
  unfold hK5
  rw [gin4_val]
  have hh : ∀ p k, (Vin4 m c main_v72 : Vec Ideal S100000x128 .f32) (ix2 p k) = (Cert.Spec.kH4 Cert.Spec.hN (xOf m c) (srcM m c) (dstM m c) (parOf m c)) p k := by
    intro p k
    rw [Vin4_out m c]
    exact congrFun (congrFun (hK4_eq m c) p) k
  have r0 : ∀ p k, arr4_0 (Vin4 m) c (ix2 p k) = (Cert.Spec.kH4 Cert.Spec.hN (xOf m c) (srcM m c) (dstM m c) (parOf m c)) p k := hh
  have r1 : ∀ p k, arr4_1 (Vin4 m) c (ix2 p k) = Cert.Spec.agg Cert.Spec.hN (Cert.Spec.kH4 Cert.Spec.hN (xOf m c) (srcM m c) (dstM m c) (parOf m c)) (srcM m c) (dstM m c) p k := by
    intro p k
    show (Vin4 m c main_v88 : Vec Ideal S100000x128 .f32) (ix2 p k) = _
    rw [Vin4_eq m c main_v88]
    refine (V51_main_v88 m (outs m) c p k).trans ?_
    refine congrArg (fun f => Cert.Spec.agg Cert.Spec.hN f (srcM m c) (dstM m c) p k) (funext fun n' => funext fun k' => ?_)
    rw [← Vin4_eq m c main_v72]
    exact hh n' k'
  have r2 : ∀ k j, arr4_2 (Vin4 m) c (ix2 k j) = Cert.Spec.pad2 (parOf m c).w51 k j := by
    intro k j
    show (Vin4 m c main_v73 : Vec Ideal S128x128 .f32) (ix2 k j) = _
    rw [Vin4_eq m c main_v73]
    exact V51_main_v73 m (outs m) c k j
  have r3 : ∀ j, arr4_3 (Vin4 m) c (ix2 0 j) = Cert.Spec.padv (parOf m c).b51 j := by
    intro j
    show (Vin4 m c main_v75 : Vec Ideal S1x128 .f32) (ix2 0 j) = _
    rw [Vin4_eq m c main_v75]
    exact V51_main_v75 m (outs m) c 0 j
  have r4 : ∀ k j, arr4_4 (Vin4 m) c (ix2 k j) = Cert.Spec.pad2 (parOf m c).w52 k j := by
    intro k j
    show (Vin4 m c main_v76 : Vec Ideal S128x128 .f32) (ix2 k j) = _
    rw [Vin4_eq m c main_v76]
    exact V51_main_v76 m (outs m) c k j
  have r5 : ∀ j, arr4_5 (Vin4 m) c (ix2 0 j) = Cert.Spec.padv (parOf m c).b52 j := by
    intro j
    show (Vin4 m c main_v78 : Vec Ideal S1x128 .f32) (ix2 0 j) = _
    rw [Vin4_eq m c main_v78]
    exact V51_main_v78 m (outs m) c 0 j
  simp only [r0, r1, r2, r3, r4, r5]
  rfl

theorem kernel_val (s : Fin 512) (j : Fin 120) :
    (resultH m c : Vec Ideal S512x120 .f32) (ix2 s j)
      = Cert.Spec.kernelOf (m ((c.tc : Thread nD τ).loc main_arg0)) (m ((c.tc : Thread nD τ).loc main_arg1)) (m ((c.tc : Thread nD τ).loc main_arg2))
          (Cert.Spec.paramsOf (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
            (m ((c.tc : Thread nD τ).loc main_arg26))) s j := by
  rw [resultH_eq, fin5_val]
  have r0 : ∀ p k, arr5_0 (Vin5 m) c (ix2 p k) = (Cert.Spec.kH5 Cert.Spec.hN (xOf m c) (srcM m c) (dstM m c) (parOf m c)) p k := by
    intro p k
    show (Vin5 m c main_v89 : Vec Ideal S100000x128 .f32) (ix2 p k) = _
    rw [Vin5_out m c]
    exact congrFun (congrFun (hK5_eq m c) p) k
  have r1 : ∀ n, arr5_1 (Vin5 m) c (ix2 n 0) = Cert.Spec.batchOf (m ((c.tc : Thread nD τ).loc main_arg2)) n := by
    intro n
    show (Vin5 m c main_v95 : Vec Ideal S100000x1 .i32) (ix2 n 0) = _
    rw [Vin5_eq m c main_v95]
    exact V57_ids m (outs m) c n
  have r2 : ∀ k j', arr5_2 (Vin5 m) c (ix2 k j') = Cert.Spec.pad2 (parOf m c).lw k j' := by
    intro k j'
    show (Vin5 m c main_v90 : Vec Ideal S128x128 .f32) (ix2 k j') = _
    rw [Vin5_eq m c main_v90]
    exact V57_lw m (outs m) c k j'
  have r3 : ∀ j', arr5_3 (Vin5 m) c (ix2 0 j') = Cert.Spec.padv (parOf m c).lb j' := by
    intro j'
    show (Vin5 m c main_v92 : Vec Ideal S1x128 .f32) (ix2 0 j') = _
    rw [Vin5_eq m c main_v92]
    exact V57_lb m (outs m) c j'
  have r4 : ∀ j', arr5_4 (Vin5 m) c (ix2 0 j') = (parOf m c).gam j' := by
    intro j'
    show (Vin5 m c main_v93 : Vec Ideal S1x120 .f32) (ix2 0 j') = _
    rw [Vin5_eq m c main_v93]
    exact V57_gam m (outs m) c j'
  have r5 : ∀ j', arr5_5 (Vin5 m) c (ix2 0 j') = (parOf m c).bet j' := by
    intro j'
    show (Vin5 m c main_v94 : Vec Ideal S1x120 .f32) (ix2 0 j') = _
    rw [Vin5_eq m c main_v94]
    exact V57_bet m (outs m) c j'
  simp only [r0, r1, r2, r3, r4, r5]
  rfl

end Value

end Cert.KernelIdeal.Hand

end
-- ==== Proof.Ref.Read.lean ====
/- The reference program one operation at a time: each result buffer as a stage of the arguments, and each stage read at an index. -/
import proofs.«420535_j82145544503553_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x108, .f32⟩ : BufTy).Contents (Elt F))
  (x1 : (⟨S2x1600000, .i32⟩ : BufTy).Contents (Elt F))
  (x2 : (⟨S100000, .i32⟩ : BufTy).Contents (Elt F))
  (x3 : (⟨S108x98, .f32⟩ : BufTy).Contents (Elt F))
  (x4 : (⟨S98, .f32⟩ : BufTy).Contents (Elt F))
  (x5 : (⟨S98x98, .f32⟩ : BufTy).Contents (Elt F))
  (x6 : (⟨S98, .f32⟩ : BufTy).Contents (Elt F))
  (x7 : (⟨S98x98, .f32⟩ : BufTy).Contents (Elt F))
  (x8 : (⟨S98, .f32⟩ : BufTy).Contents (Elt F))
  (x9 : (⟨S98x98, .f32⟩ : BufTy).Contents (Elt F))
  (x10 : (⟨S98, .f32⟩ : BufTy).Contents (Elt F))
  (x11 : (⟨S98x98, .f32⟩ : BufTy).Contents (Elt F))
  (x12 : (⟨S98, .f32⟩ : BufTy).Contents (Elt F))
  (x13 : (⟨S98x98, .f32⟩ : BufTy).Contents (Elt F))
  (x14 : (⟨S98, .f32⟩ : BufTy).Contents (Elt F))
  (x15 : (⟨S98x98, .f32⟩ : BufTy).Contents (Elt F))
  (x16 : (⟨S98, .f32⟩ : BufTy).Contents (Elt F))
  (x17 : (⟨S98x98, .f32⟩ : BufTy).Contents (Elt F))
  (x18 : (⟨S98, .f32⟩ : BufTy).Contents (Elt F))
  (x19 : (⟨S98x98, .f32⟩ : BufTy).Contents (Elt F))
  (x20 : (⟨S98, .f32⟩ : BufTy).Contents (Elt F))
  (x21 : (⟨S98x98, .f32⟩ : BufTy).Contents (Elt F))
  (x22 : (⟨S98, .f32⟩ : BufTy).Contents (Elt F))
  (x23 : (⟨S98x120, .f32⟩ : BufTy).Contents (Elt F))
  (x24 : (⟨S120, .f32⟩ : BufTy).Contents (Elt F))
  (x25 : (⟨S120, .f32⟩ : BufTy).Contents (Elt F))
  (x26 : (⟨S120, .f32⟩ : BufTy).Contents (Elt F))
variable (z0 : (⟨S100000x108, .f32⟩ : BufTy).Contents (Elt Ideal))
  (z1 : (⟨S2x1600000, .i32⟩ : BufTy).Contents (Elt Ideal))
  (z2 : (⟨S100000, .i32⟩ : BufTy).Contents (Elt Ideal))
  (z3 : (⟨S108x98, .f32⟩ : BufTy).Contents (Elt Ideal))
  (z4 : (⟨S98, .f32⟩ : BufTy).Contents (Elt Ideal))
  (z5 : (⟨S98x98, .f32⟩ : BufTy).Contents (Elt Ideal))
  (z6 : (⟨S98, .f32⟩ : BufTy).Contents (Elt Ideal))
  (z7 : (⟨S98x98, .f32⟩ : BufTy).Contents (Elt Ideal))
  (z8 : (⟨S98, .f32⟩ : BufTy).Contents (Elt Ideal))
  (z9 : (⟨S98x98, .f32⟩ : BufTy).Contents (Elt Ideal))
  (z10 : (⟨S98, .f32⟩ : BufTy).Contents (Elt Ideal))
  (z11 : (⟨S98x98, .f32⟩ : BufTy).Contents (Elt Ideal))
  (z12 : (⟨S98, .f32⟩ : BufTy).Contents (Elt Ideal))
  (z13 : (⟨S98x98, .f32⟩ : BufTy).Contents (Elt Ideal))
  (z14 : (⟨S98, .f32⟩ : BufTy).Contents (Elt Ideal))
  (z15 : (⟨S98x98, .f32⟩ : BufTy).Contents (Elt Ideal))
  (z16 : (⟨S98, .f32⟩ : BufTy).Contents (Elt Ideal))
  (z17 : (⟨S98x98, .f32⟩ : BufTy).Contents (Elt Ideal))
  (z18 : (⟨S98, .f32⟩ : BufTy).Contents (Elt Ideal))
  (z19 : (⟨S98x98, .f32⟩ : BufTy).Contents (Elt Ideal))
  (z20 : (⟨S98, .f32⟩ : BufTy).Contents (Elt Ideal))
  (z21 : (⟨S98x98, .f32⟩ : BufTy).Contents (Elt Ideal))
  (z22 : (⟨S98, .f32⟩ : BufTy).Contents (Elt Ideal))
  (z23 : (⟨S98x120, .f32⟩ : BufTy).Contents (Elt Ideal))
  (z24 : (⟨S120, .f32⟩ : BufTy).Contents (Elt Ideal))

def val_main_v0 : (⟨S1x1600000, .i32⟩ : BufTy).Contents (Elt F) :=
  extractStridedSlice S1x1600000 ![0, 0] (x1) slices_S2x1600000_S1x1600000_0_0
abbrev idx_main_v0 (i : S1x1600000.Idx) : S2x1600000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x1600000.Idx) :
    val_main_v0 (F := F) x1 i = x1 (idx_main_v0 i) := by
  unfold val_main_v0
  exact extractStridedSlice_apply ![0, 0] x1 slices_S2x1600000_S1x1600000_0_0 i (idx_main_v0 i) (fun a => match a with
    | ⟨0, _⟩ => by show (i 0).val = 0 + (i 0).val; omega
    | ⟨1, _⟩ => by show (i 1).val = 0 + (i 1).val; omega)

def val_main_v1 : (⟨S1600000, .i32⟩ : BufTy).Contents (Elt F) :=
  shapeCast _ (val_main_v0 (F := F) x1) shapeCasts_S1x1600000_S1600000
abbrev idx_main_v1 (i : S1600000.Idx) : S1x1600000.Idx := fun a => match a with
  | ⟨0, _⟩ => ⟨0, Nat.one_pos⟩
  | ⟨1, _⟩ => ⟨((i 0).val) % 1600000, by have h0 : (i 0).val < 1600000 := (i 0).isLt; show ((i 0).val) % 1600000 < 1600000; omega⟩
theorem val_main_v1_apply (i : S1600000.Idx) :
    val_main_v1 (F := F) x1 i = val_main_v0 (F := F) x1 (idx_main_v1 i) := by
  unfold val_main_v1
  generalize val_main_v0 (F := F) x1 = y
  exact shapeCast_apply y shapeCasts_S1x1600000_S1600000 i (idx_main_v1 i)
    (by rewrite [Shape.rowMajor_val_two, Shape.rowMajor_val_one]; have h0 : (i 0).val < 1600000 := (i 0).isLt; show 0 * 1600000 + ((i 0).val) % 1600000 = (i 0).val; omega)

def val_main_v2 : (⟨S1x1600000, .i32⟩ : BufTy).Contents (Elt F) :=
  extractStridedSlice S1x1600000 ![1, 0] (x1) slices_S2x1600000_S1x1600000_1_0
abbrev idx_main_v2 (i : S1x1600000.Idx) : S2x1600000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x1600000.Idx) :
    val_main_v2 (F := F) x1 i = x1 (idx_main_v2 i) := by
  unfold val_main_v2
  exact extractStridedSlice_apply ![1, 0] x1 slices_S2x1600000_S1x1600000_1_0 i (idx_main_v2 i) (fun a => match a with
    | ⟨0, _⟩ => by show 1 + (i 0).val = 1 + (i 0).val; omega
    | ⟨1, _⟩ => by show (i 1).val = 0 + (i 1).val; omega)

def val_main_v3 : (⟨S1600000, .i32⟩ : BufTy).Contents (Elt F) :=
  shapeCast _ (val_main_v2 (F := F) x1) shapeCasts_S1x1600000_S1600000
abbrev idx_main_v3 (i : S1600000.Idx) : S1x1600000.Idx := fun a => match a with
  | ⟨0, _⟩ => ⟨0, Nat.one_pos⟩
  | ⟨1, _⟩ => ⟨((i 0).val) % 1600000, by have h0 : (i 0).val < 1600000 := (i 0).isLt; show ((i 0).val) % 1600000 < 1600000; omega⟩
theorem val_main_v3_apply (i : S1600000.Idx) :
    val_main_v3 (F := F) x1 i = val_main_v2 (F := F) x1 (idx_main_v3 i) := by
  unfold val_main_v3
  generalize val_main_v2 (F := F) x1 = y
  exact shapeCast_apply y shapeCasts_S1x1600000_S1600000 i (idx_main_v3 i)
    (by rewrite [Shape.rowMajor_val_two, Shape.rowMajor_val_one]; have h0 : (i 0).val < 1600000 := (i 0).isLt; show 0 * 1600000 + ((i 0).val) % 1600000 = (i 0).val; omega)

def val_main_c : (⟨S_, .i32⟩ : BufTy).Contents (Elt F) :=
  constantI S_ 32 0#32
theorem val_main_c_apply (i : S_.Idx) :
    val_main_c (F := F) i = 0#32 := rfl

def val_main_v4 : (⟨S1600000, .i32⟩ : BufTy).Contents (Elt F) :=
  broadcastInDim S1600000 ![] bcast_S_S1600000 (val_main_c (F := F))
abbrev idx_main_v4 (i : S1600000.Idx) : S_.Idx := fun a => a.elim0
theorem val_main_v4_apply (i : S1600000.Idx) :
    val_main_v4 (F := F) i = val_main_c (F := F) (idx_main_v4 i) := by
  unfold val_main_v4
  generalize val_main_c (F := F) = y
  exact broadcastInDim_apply _ bcast_S_S1600000 y i (idx_main_v4 i) (fun a => a.elim0)

def val_main_v5 : (⟨S1600000, .i1⟩ : BufTy).Contents (Elt F) :=
  cmpi .slt (val_main_v1 (F := F) x1) (val_main_v4 (F := F))
theorem val_main_v5_apply (i : S1600000.Idx) :
    val_main_v5 (F := F) x1 i = IntOp.cmpi .slt (val_main_v1 (F := F) x1 i) (val_main_v4 (F := F) i) := rfl

def val_main_c_0 : (⟨S_, .i32⟩ : BufTy).Contents (Elt F) :=
  constantI S_ 32 100000#32
theorem val_main_c_0_apply (i : S_.Idx) :
    val_main_c_0 (F := F) i = 100000#32 := rfl

def val_main_v6 : (⟨S1600000, .i32⟩ : BufTy).Contents (Elt F) :=
  broadcastInDim S1600000 ![] bcast_S_S1600000 (val_main_c_0 (F := F))
abbrev idx_main_v6 (i : S1600000.Idx) : S_.Idx := fun a => a.elim0
theorem val_main_v6_apply (i : S1600000.Idx) :
    val_main_v6 (F := F) i = val_main_c_0 (F := F) (idx_main_v6 i) := by
  unfold val_main_v6
  generalize val_main_c_0 (F := F) = y
  exact broadcastInDim_apply _ bcast_S_S1600000 y i (idx_main_v6 i) (fun a => a.elim0)

def val_main_v7 : (⟨S1600000, .i32⟩ : BufTy).Contents (Elt F) :=
  addi (val_main_v1 (F := F) x1) (val_main_v6 (F := F))
theorem val_main_v7_apply (i : S1600000.Idx) :
    val_main_v7 (F := F) x1 i = IntOp.addi (val_main_v1 (F := F) x1 i) (val_main_v6 (F := F) i) := rfl

def val_main_v8 : (⟨S1600000, .i32⟩ : BufTy).Contents (Elt F) :=
  select (val_main_v5 (F := F) x1) (val_main_v7 (F := F) x1) (val_main_v1 (F := F) x1)
theorem val_main_v8_apply (i : S1600000.Idx) :
    val_main_v8 (F := F) x1 i = Scalar.select (val_main_v5 (F := F) x1 i) (val_main_v7 (F := F) x1 i) (val_main_v1 (F := F) x1 i) := rfl

def val_main_v9 : (⟨S1600000x1, .i32⟩ : BufTy).Contents (Elt F) :=
  broadcastInDim S1600000x1 ![0] bcast_S1600000_S1600000x1_0 (val_main_v8 (F := F) x1)
abbrev idx_main_v9 (i : S1600000x1.Idx) : S1600000.Idx := fun a => match a with
  | ⟨0, _⟩ => ⟨(i 0).val, (i 0).isLt⟩
theorem val_main_v9_apply (i : S1600000x1.Idx) :
    val_main_v9 (F := F) x1 i = val_main_v8 (F := F) x1 (idx_main_v9 i) := by
  unfold val_main_v9
  generalize val_main_v8 (F := F) x1 = y
  exact broadcastInDim_apply _ bcast_S1600000_S1600000x1_0 y i (idx_main_v9 i) (fun a => match a with
    | ⟨0, _⟩ => by show (i 0).val = if (1600000 : Nat) = 1 then 0 else (i 0).val; rw [if_neg (by decide)])

def val_main_v10 : (⟨S1600000x108, .f32⟩ : BufTy).Contents (Elt F) :=
  Host.gather gather_S100000x108_S1600000x1_S1600000x108_1_0_n_n_0_1_1108 (x0) (val_main_v9 (F := F) x1)

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v11 : (⟨S100000x108, .f32⟩ : BufTy).Contents (Elt F) :=
  broadcastInDim S100000x108 ![] bcast_S_S100000x108 (val_main_cst (F := F))
abbrev idx_main_v11 (i : S100000x108.Idx) : S_.Idx := fun a => a.elim0
theorem val_main_v11_apply (i : S100000x108.Idx) :
    val_main_v11 (F := F) i = val_main_cst (F := F) (idx_main_v11 i) := by
  unfold val_main_v11
  generalize val_main_cst (F := F) = y
  exact broadcastInDim_apply _ bcast_S_S100000x108 y i (idx_main_v11 i) (fun a => a.elim0)

def val_main_v12 : (⟨S1600000x1, .i32⟩ : BufTy).Contents (Elt F) :=
  broadcastInDim S1600000x1 ![0] bcast_S1600000_S1600000x1_0 (val_main_v3 (F := F) x1)
abbrev idx_main_v12 (i : S1600000x1.Idx) : S1600000.Idx := fun a => match a with
  | ⟨0, _⟩ => ⟨(i 0).val, (i 0).isLt⟩
theorem val_main_v12_apply (i : S1600000x1.Idx) :
    val_main_v12 (F := F) x1 i = val_main_v3 (F := F) x1 (idx_main_v12 i) := by
  unfold val_main_v12
  generalize val_main_v3 (F := F) x1 = y
  exact broadcastInDim_apply _ bcast_S1600000_S1600000x1_0 y i (idx_main_v12 i) (fun a => match a with
    | ⟨0, _⟩ => by show (i 0).val = if (1600000 : Nat) = 1 then 0 else (i 0).val; rw [if_neg (by decide)])

def val_main_v13 : (⟨S100000x108, .f32⟩ : BufTy).Contents (Elt F) :=
  Host.scatterAdd scatter_S100000x108_S1600000x1_S1600000x108_1_0_0_1 (val_main_v11 (F := F)) (val_main_v12 (F := F) x1) (val_main_v10 (F := F) x0 x1)

def val_main_v14 : (⟨S100000x108, .f32⟩ : BufTy).Contents (Elt F) :=
  addf (x0) (val_main_v13 (F := F) x0 x1)
theorem val_main_v14_apply (i : S100000x108.Idx) :
    val_main_v14 (F := F) x0 x1 i = FloatOps.addf (x0 i) (val_main_v13 (F := F) x0 x1 i) := rfl

def val_main_v15 : (⟨S100000x98, .f32⟩ : BufTy).Contents (Elt F) :=
  Host.dotGeneral dot_S100000x108_S108x98_S100000x98_1_0_0_1_n_n none (val_main_v14 (F := F) x0 x1) (x3)
theorem lhs_main_v15_0 (i : S100000x98.Idx) (q : dot_S100000x108_S108x98_S100000x98_1_0_0_1_n_n.contr.Idx) :
    (dot_S100000x108_S108x98_S100000x98_1_0_0_1_n_n.lhsIdx i q 0).val = (i 0).val := by
  unfold DotDims.lhsIdx
  rw [dif_neg (show ¬(0 : Fin S100000x108.rank) ∈ dot_S100000x108_S108x98_S100000x98_1_0_0_1_n_n.lhsBatch by decide), dif_pos (show (0 : Fin S100000x108.rank) ∈ dot_S100000x108_S108x98_S100000x98_1_0_0_1_n_n.lhsNonContracting by decide)]
  rfl
theorem lhs_main_v15_1 (i : S100000x98.Idx) (q : dot_S100000x108_S108x98_S100000x98_1_0_0_1_n_n.contr.Idx) :
    (dot_S100000x108_S108x98_S100000x98_1_0_0_1_n_n.lhsIdx i q 1).val = (q ⟨0, by decide⟩).val :=
  dot_S100000x108_S108x98_S100000x98_1_0_0_1_n_n.lhsIdx_val_of_single rfl i q
theorem rhs_main_v15_0 (i : S100000x98.Idx) (q : dot_S100000x108_S108x98_S100000x98_1_0_0_1_n_n.contr.Idx) :
    (dot_S100000x108_S108x98_S100000x98_1_0_0_1_n_n.rhsIdx i q 0).val = (q ⟨0, by decide⟩).val :=
  dot_S100000x108_S108x98_S100000x98_1_0_0_1_n_n.rhsIdx_val_of_single rfl i q
theorem rhs_main_v15_1 (i : S100000x98.Idx) (q : dot_S100000x108_S108x98_S100000x98_1_0_0_1_n_n.contr.Idx) :
    (dot_S100000x108_S108x98_S100000x98_1_0_0_1_n_n.rhsIdx i q 1).val = (i 1).val := by
  unfold DotDims.rhsIdx
  rw [dif_neg (show ¬(1 : Fin S108x98.rank) ∈ dot_S100000x108_S108x98_S100000x98_1_0_0_1_n_n.rhsBatch by decide), dif_pos (show (1 : Fin S108x98.rank) ∈ dot_S100000x108_S108x98_S100000x98_1_0_0_1_n_n.rhsNonContracting by decide)]
  rfl
abbrev lidx_main_v15 (i : S100000x98.Idx) (k : Fin 108) : S100000x108.Idx := fun a => match a with
  | ⟨0, _⟩ => ⟨(i 0).val, (i 0).isLt⟩
  | ⟨1, _⟩ => ⟨k.val, k.isLt⟩
abbrev ridx_main_v15 (i : S100000x98.Idx) (k : Fin 108) : S108x98.Idx := fun a => match a with
  | ⟨0, _⟩ => ⟨k.val, k.isLt⟩
  | ⟨1, _⟩ => ⟨(i 1).val, (i 1).isLt⟩

theorem val_main_v15_apply (i : S100000x98.Idx) :
    val_main_v15 (F := Ideal) z0 z1 z3 i = ∑ k : Fin 108, (val_main_v14 (F := Ideal) z0 z1) (lidx_main_v15 i k) * z3 (ridx_main_v15 i k) := by
  unfold val_main_v15
  generalize val_main_v14 (F := Ideal) z0 z1 = y0
  simp only [Host.dotGeneral]
  rw [Ideal.dotGeneral_apply, ← Equiv.sum_comp (ValueIdx.contrEquiv1 dot_S100000x108_S108x98_S100000x98_1_0_0_1_n_n 108 rfl rfl).symm]
  refine Finset.sum_congr rfl fun k _ => ?_
  have hk := ValueIdx.contrEquiv1_symm_val dot_S100000x108_S108x98_S100000x98_1_0_0_1_n_n 108 rfl rfl k
  have el : dot_S100000x108_S108x98_S100000x98_1_0_0_1_n_n.lhsIdx i ((ValueIdx.contrEquiv1 dot_S100000x108_S108x98_S100000x98_1_0_0_1_n_n 108 rfl rfl).symm k) = lidx_main_v15 i k := funext fun a => Fin.ext (by
    match a with
    | ⟨0, _⟩ => exact lhs_main_v15_0 _ _
    | ⟨1, _⟩ => exact (lhs_main_v15_1 _ _).trans hk)
  have er : dot_S100000x108_S108x98_S100000x98_1_0_0_1_n_n.rhsIdx i ((ValueIdx.contrEquiv1 dot_S100000x108_S108x98_S100000x98_1_0_0_1_n_n 108 rfl rfl).symm k) = ridx_main_v15 i k := funext fun a => Fin.ext (by
    match a with
    | ⟨0, _⟩ => exact (rhs_main_v15_0 _ _).trans hk
    | ⟨1, _⟩ => exact rhs_main_v15_1 _ _)
  rw [el, er]

def val_main_v16 : (⟨S1x98, .f32⟩ : BufTy).Contents (Elt F) :=
  broadcastInDim S1x98 ![1] bcast_S98_S1x98_1 (x4)
abbrev idx_main_v16 (i : S1x98.Idx) : S98.Idx := fun a => match a with
  | ⟨0, _⟩ => ⟨(i 1).val, (i 1).isLt⟩
theorem val_main_v16_apply (i : S1x98.Idx) :
    val_main_v16 (F := F) x4 i = x4 (idx_main_v16 i) := by
  unfold val_main_v16
  exact broadcastInDim_apply _ bcast_S98_S1x98_1 x4 i (idx_main_v16 i) (fun a => match a with
    | ⟨0, _⟩ => by show (i 1).val = if (98 : Nat) = 1 then 0 else (i 1).val; rw [if_neg (by decide)])

def val_main_v17 : (⟨S100000x98, .f32⟩ : BufTy).Contents (Elt F) :=
  broadcastInDim S100000x98 ![0, 1] bcast_S1x98_S100000x98_0_1 (val_main_v16 (F := F) x4)
abbrev idx_main_v17 (i : S100000x98.Idx) : S1x98.Idx := fun a => match a with
  | ⟨0, _⟩ => ⟨0, Nat.one_pos⟩
  | ⟨1, _⟩ => ⟨(i 1).val, (i 1).isLt⟩
theorem val_main_v17_apply (i : S100000x98.Idx) :
    val_main_v17 (F := F) x4 i = val_main_v16 (F := F) x4 (idx_main_v17 i) := by
  unfold val_main_v17
  generalize val_main_v16 (F := F) x4 = y
  exact broadcastInDim_apply _ bcast_S1x98_S100000x98_0_1 y i (idx_main_v17 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v18 : (⟨S100000x98, .f32⟩ : BufTy).Contents (Elt F) :=
  addf (val_main_v15 (F := F) x0 x1 x3) (val_main_v17 (F := F) x4)
theorem val_main_v18_apply (i : S100000x98.Idx) :
    val_main_v18 (F := F) x0 x1 x3 x4 i = FloatOps.addf (val_main_v15 (F := F) x0 x1 x3 i) (val_main_v17 (F := F) x4 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S100000x98, .f32⟩ : BufTy).Contents (Elt F) :=
  broadcastInDim S100000x98 ![] bcast_S_S100000x98 (val_main_call0_cst (F := F))
abbrev idx_main_call0_v0 (i : S100000x98.Idx) : S_.Idx := fun a => a.elim0
theorem val_main_call0_v0_apply (i : S100000x98.Idx) :
    val_main_call0_v0 (F := F) i = val_main_call0_cst (F := F) (idx_main_call0_v0 i) := by
  unfold val_main_call0_v0
  generalize val_main_call0_cst (F := F) = y
  exact broadcastInDim_apply _ bcast_S_S100000x98 y i (idx_main_call0_v0 i) (fun a => a.elim0)

def val_main_v19 : (⟨S100000x98, .f32⟩ : BufTy).Contents (Elt F) :=
  maximumf (val_main_v18 (F := F) x0 x1 x3 x4) (val_main_call0_v0 (F := F))
theorem val_main_v19_apply (i : S100000x98.Idx) :
    val_main_v19 (F := F) x0 x1 x3 x4 i = FloatOps.maximumf (val_main_v18 (F := F) x0 x1 x3 x4 i) (val_main_call0_v0 (F := F) i) := rfl

theorem lhs98_0 (i : S100000x98.Idx) (q : dot_S100000x98_S98x98_S100000x98_1_0_0_1_n_n.contr.Idx) :
    (dot_S100000x98_S98x98_S100000x98_1_0_0_1_n_n.lhsIdx i q 0).val = (i 0).val := by
  unfold DotDims.lhsIdx
  rw [dif_neg (show ¬(0 : Fin S100000x98.rank) ∈ dot_S100000x98_S98x98_S100000x98_1_0_0_1_n_n.lhsBatch by decide), dif_pos (show (0 : Fin S100000x98.rank) ∈ dot_S100000x98_S98x98_S100000x98_1_0_0_1_n_n.lhsNonContracting by decide)]
  rfl
theorem lhs98_1 (i : S100000x98.Idx) (q : dot_S100000x98_S98x98_S100000x98_1_0_0_1_n_n.contr.Idx) :
    (dot_S100000x98_S98x98_S100000x98_1_0_0_1_n_n.lhsIdx i q 1).val = (q ⟨0, by decide⟩).val :=
  dot_S100000x98_S98x98_S100000x98_1_0_0_1_n_n.lhsIdx_val_of_single rfl i q
theorem rhs98_0 (i : S100000x98.Idx) (q : dot_S100000x98_S98x98_S100000x98_1_0_0_1_n_n.contr.Idx) :
    (dot_S100000x98_S98x98_S100000x98_1_0_0_1_n_n.rhsIdx i q 0).val = (q ⟨0, by decide⟩).val :=
  dot_S100000x98_S98x98_S100000x98_1_0_0_1_n_n.rhsIdx_val_of_single rfl i q
theorem rhs98_1 (i : S100000x98.Idx) (q : dot_S100000x98_S98x98_S100000x98_1_0_0_1_n_n.contr.Idx) :
    (dot_S100000x98_S98x98_S100000x98_1_0_0_1_n_n.rhsIdx i q 1).val = (i 1).val := by
  unfold DotDims.rhsIdx
  rw [dif_neg (show ¬(1 : Fin S98x98.rank) ∈ dot_S100000x98_S98x98_S100000x98_1_0_0_1_n_n.rhsBatch by decide), dif_pos (show (1 : Fin S98x98.rank) ∈ dot_S100000x98_S98x98_S100000x98_1_0_0_1_n_n.rhsNonContracting by decide)]
  rfl
abbrev lidx98 (i : S100000x98.Idx) (k : Fin 98) : S100000x98.Idx := fun a => match a with
  | ⟨0, _⟩ => ⟨(i 0).val, (i 0).isLt⟩
  | ⟨1, _⟩ => ⟨k.val, k.isLt⟩
abbrev ridx98 (i : S100000x98.Idx) (k : Fin 98) : S98x98.Idx := fun a => match a with
  | ⟨0, _⟩ => ⟨k.val, k.isLt⟩
  | ⟨1, _⟩ => ⟨(i 1).val, (i 1).isLt⟩
-- At the extended reals the product of a 100000×98 by a 98×98 array is, entry by entry, the sum over the contracted axis.
theorem dg98_apply (y : FVec Ideal S100000x98 .f32) (w : FVec Ideal S98x98 .f32) (i : S100000x98.Idx) :
    Host.dotGeneral (F := Ideal) dot_S100000x98_S98x98_S100000x98_1_0_0_1_n_n none y w i = ∑ k : Fin 98, y (lidx98 i k) * w (ridx98 i k) := by
  simp only [Host.dotGeneral]
  rw [Ideal.dotGeneral_apply, ← Equiv.sum_comp (ValueIdx.contrEquiv1 dot_S100000x98_S98x98_S100000x98_1_0_0_1_n_n 98 rfl rfl).symm]
  refine Finset.sum_congr rfl fun k _ => ?_
  have hk := ValueIdx.contrEquiv1_symm_val dot_S100000x98_S98x98_S100000x98_1_0_0_1_n_n 98 rfl rfl k
  have el : dot_S100000x98_S98x98_S100000x98_1_0_0_1_n_n.lhsIdx i ((ValueIdx.contrEquiv1 dot_S100000x98_S98x98_S100000x98_1_0_0_1_n_n 98 rfl rfl).symm k) = lidx98 i k := funext fun a => Fin.ext (by
    match a with
    | ⟨0, _⟩ => exact lhs98_0 _ _
    | ⟨1, _⟩ => exact (lhs98_1 _ _).trans hk)
  have er : dot_S100000x98_S98x98_S100000x98_1_0_0_1_n_n.rhsIdx i ((ValueIdx.contrEquiv1 dot_S100000x98_S98x98_S100000x98_1_0_0_1_n_n 98 rfl rfl).symm k) = ridx98 i k := funext fun a => Fin.ext (by
    match a with
    | ⟨0, _⟩ => exact (rhs98_0 _ _).trans hk
    | ⟨1, _⟩ => exact rhs98_1 _ _)
  rw [el, er]

def val_main_v20 : (⟨S100000x98, .f32⟩ : BufTy).Contents (Elt F) :=
  Host.dotGeneral dot_S100000x98_S98x98_S100000x98_1_0_0_1_n_n none (val_main_v19 (F := F) x0 x1 x3 x4) (x5)
abbrev lidx_main_v20 := lidx98
abbrev ridx_main_v20 := ridx98
theorem val_main_v20_apply (i : S100000x98.Idx) :
    val_main_v20 (F := Ideal) z0 z1 z3 z4 z5 i = ∑ k : Fin 98, (val_main_v19 (F := Ideal) z0 z1 z3 z4) (lidx_main_v20 i k) * z5 (ridx_main_v20 i k) :=
  dg98_apply _ _ i

def val_main_v21 : (⟨S1x98, .f32⟩ : BufTy).Contents (Elt F) :=
  broadcastInDim S1x98 ![1] bcast_S98_S1x98_1 (x6)
abbrev idx_main_v21 (i : S1x98.Idx) : S98.Idx := fun a => match a with
  | ⟨0, _⟩ => ⟨(i 1).val, (i 1).isLt⟩
theorem val_main_v21_apply (i : S1x98.Idx) :
    val_main_v21 (F := F) x6 i = x6 (idx_main_v21 i) := by
  unfold val_main_v21
  exact broadcastInDim_apply _ bcast_S98_S1x98_1 x6 i (idx_main_v21 i) (fun a => match a with
    | ⟨0, _⟩ => by show (i 1).val = if (98 : Nat) = 1 then 0 else (i 1).val; rw [if_neg (by decide)])

def val_main_v22 : (⟨S100000x98, .f32⟩ : BufTy).Contents (Elt F) :=
  broadcastInDim S100000x98 ![0, 1] bcast_S1x98_S100000x98_0_1 (val_main_v21 (F := F) x6)
abbrev idx_main_v22 (i : S100000x98.Idx) : S1x98.Idx := fun a => match a with
  | ⟨0, _⟩ => ⟨0, Nat.one_pos⟩
  | ⟨1, _⟩ => ⟨(i 1).val, (i 1).isLt⟩
theorem val_main_v22_apply (i : S100000x98.Idx) :
    val_main_v22 (F := F) x6 i = val_main_v21 (F := F) x6 (idx_main_v22 i) := by
  unfold val_main_v22
  generalize val_main_v21 (F := F) x6 = y
  exact broadcastInDim_apply _ bcast_S1x98_S100000x98_0_1 y i (idx_main_v22 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v23 : (⟨S100000x98, .f32⟩ : BufTy).Contents (Elt F) :=
  addf (val_main_v20 (F := F) x0 x1 x3 x4 x5) (val_main_v22 (F := F) x6)
theorem val_main_v23_apply (i : S100000x98.Idx) :
    val_main_v23 (F := F) x0 x1 x3 x4 x5 x6 i = FloatOps.addf (val_main_v20 (F := F) x0 x1 x3 x4 x5 i) (val_main_v22 (F := F) x6 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v24 : (⟨S100000x98, .f32⟩ : BufTy).Contents (Elt F) :=
  broadcastInDim S100000x98 ![] bcast_S_S100000x98 (val_main_cst_1 (F := F))
abbrev idx_main_v24 (i : S100000x98.Idx) : S_.Idx := fun a => a.elim0
theorem val_main_v24_apply (i : S100000x98.Idx) :
    val_main_v24 (F := F) i = val_main_cst_1 (F := F) (idx_main_v24 i) := by
  unfold val_main_v24
  generalize val_main_cst_1 (F := F) = y
  exact broadcastInDim_apply _ bcast_S_S100000x98 y i (idx_main_v24 i) (fun a => a.elim0)

def val_main_v25 : (⟨S100000x98, .i1⟩ : BufTy).Contents (Elt F) :=
  cmpf .oge (val_main_v23 (F := F) x0 x1 x3 x4 x5 x6) (val_main_v24 (F := F))
theorem val_main_v25_apply (i : S100000x98.Idx) :
    val_main_v25 (F := F) x0 x1 x3 x4 x5 x6 i = FloatOps.cmpf .oge (val_main_v23 (F := F) x0 x1 x3 x4 x5 x6 i) (val_main_v24 (F := F) i) := rfl

def val_main_cst_2 : (⟨S_, .f32⟩ : BufTy).Contents (Elt F) :=
  constant S_ .f32 0x3E6AAAAB#32
theorem val_main_cst_2_apply (i : S_.Idx) :
    val_main_cst_2 (F := F) i = FloatOps.ofBits .f32 0x3E6AAAAB#32 := rfl

def val_main_v26 : (⟨S100000x98, .f32⟩ : BufTy).Contents (Elt F) :=
  broadcastInDim S100000x98 ![] bcast_S_S100000x98 (val_main_cst_2 (F := F))
abbrev idx_main_v26 (i : S100000x98.Idx) : S_.Idx := fun a => a.elim0
theorem val_main_v26_apply (i : S100000x98.Idx) :
    val_main_v26 (F := F) i = val_main_cst_2 (F := F) (idx_main_v26 i) := by
  unfold val_main_v26
  generalize val_main_cst_2 (F := F) = y
  exact broadcastInDim_apply _ bcast_S_S100000x98 y i (idx_main_v26 i) (fun a => a.elim0)

def val_main_v27 : (⟨S100000x98, .f32⟩ : BufTy).Contents (Elt F) :=
  mulf (val_main_v23 (F := F) x0 x1 x3 x4 x5 x6) (val_main_v26 (F := F))
theorem val_main_v27_apply (i : S100000x98.Idx) :
    val_main_v27 (F := F) x0 x1 x3 x4 x5 x6 i = FloatOps.mulf (val_main_v23 (F := F) x0 x1 x3 x4 x5 x6 i) (val_main_v26 (F := F) i) := rfl

def val_main_v28 : (⟨S100000x98, .f32⟩ : BufTy).Contents (Elt F) :=
  select (val_main_v25 (F := F) x0 x1 x3 x4 x5 x6) (val_main_v23 (F := F) x0 x1 x3 x4 x5 x6) (val_main_v27 (F := F) x0 x1 x3 x4 x5 x6)
theorem val_main_v28_apply (i : S100000x98.Idx) :
    val_main_v28 (F := F) x0 x1 x3 x4 x5 x6 i = Scalar.select (val_main_v25 (F := F) x0 x1 x3 x4 x5 x6 i) (val_main_v23 (F := F) x0 x1 x3 x4 x5 x6 i) (val_main_v27 (F := F) x0 x1 x3 x4 x5 x6 i) := rfl

def val_main_c_3 : (⟨S_, .i32⟩ : BufTy).Contents (Elt F) :=
  constantI S_ 32 0#32
theorem val_main_c_3_apply (i : S_.Idx) :
    val_main_c_3 (F := F) i = 0#32 := rfl

def val_main_v29 : (⟨S1600000, .i32⟩ : BufTy).Contents (Elt F) :=
  broadcastInDim S1600000 ![] bcast_S_S1600000 (val_main_c_3 (F := F))
abbrev idx_main_v29 (i : S1600000.Idx) : S_.Idx := fun a => a.elim0
theorem val_main_v29_apply (i : S1600000.Idx) :
    val_main_v29 (F := F) i = val_main_c_3 (F := F) (idx_main_v29 i) := by
  unfold val_main_v29
  generalize val_main_c_3 (F := F) = y
  exact broadcastInDim_apply _ bcast_S_S1600000 y i (idx_main_v29 i) (fun a => a.elim0)

def val_main_v30 : (⟨S1600000, .i1⟩ : BufTy).Contents (Elt F) :=
  cmpi .slt (val_main_v1 (F := F) x1) (val_main_v29 (F := F))
theorem val_main_v30_apply (i : S1600000.Idx) :
    val_main_v30 (F := F) x1 i = IntOp.cmpi .slt (val_main_v1 (F := F) x1 i) (val_main_v29 (F := F) i) := rfl

def val_main_c_4 : (⟨S_, .i32⟩ : BufTy).Contents (Elt F) :=
  constantI S_ 32 100000#32
theorem val_main_c_4_apply (i : S_.Idx) :
    val_main_c_4 (F := F) i = 100000#32 := rfl

def val_main_v31 : (⟨S1600000, .i32⟩ : BufTy).Contents (Elt F) :=
  broadcastInDim S1600000 ![] bcast_S_S1600000 (val_main_c_4 (F := F))
abbrev idx_main_v31 (i : S1600000.Idx) : S_.Idx := fun a => a.elim0
theorem val_main_v31_apply (i : S1600000.Idx) :
    val_main_v31 (F := F) i = val_main_c_4 (F := F) (idx_main_v31 i) := by
  unfold val_main_v31
  generalize val_main_c_4 (F := F) = y
  exact broadcastInDim_apply _ bcast_S_S1600000 y i (idx_main_v31 i) (fun a => a.elim0)

def val_main_v32 : (⟨S1600000, .i32⟩ : BufTy).Contents (Elt F) :=
  addi (val_main_v1 (F := F) x1) (val_main_v31 (F := F))
theorem val_main_v32_apply (i : S1600000.Idx) :
    val_main_v32 (F := F) x1 i = IntOp.addi (val_main_v1 (F := F) x1 i) (val_main_v31 (F := F) i) := rfl

def val_main_v33 : (⟨S1600000, .i32⟩ : BufTy).Contents (Elt F) :=
  select (val_main_v30 (F := F) x1) (val_main_v32 (F := F) x1) (val_main_v1 (F := F) x1)
theorem val_main_v33_apply (i : S1600000.Idx) :
    val_main_v33 (F := F) x1 i = Scalar.select (val_main_v30 (F := F) x1 i) (val_main_v32 (F := F) x1 i) (val_main_v1 (F := F) x1 i) := rfl

def val_main_v34 : (⟨S1600000x1, .i32⟩ : BufTy).Contents (Elt F) :=
  broadcastInDim S1600000x1 ![0] bcast_S1600000_S1600000x1_0 (val_main_v33 (F := F) x1)
abbrev idx_main_v34 (i : S1600000x1.Idx) : S1600000.Idx := fun a => match a with
  | ⟨0, _⟩ => ⟨(i 0).val, (i 0).isLt⟩
theorem val_main_v34_apply (i : S1600000x1.Idx) :
    val_main_v34 (F := F) x1 i = val_main_v33 (F := F) x1 (idx_main_v34 i) := by
  unfold val_main_v34
  generalize val_main_v33 (F := F) x1 = y
  exact broadcastInDim_apply _ bcast_S1600000_S1600000x1_0 y i (idx_main_v34 i) (fun a => match a with
    | ⟨0, _⟩ => by show (i 0).val = if (1600000 : Nat) = 1 then 0 else (i 0).val; rw [if_neg (by decide)])

def val_main_v35 : (⟨S1600000x98, .f32⟩ : BufTy).Contents (Elt F) :=
  Host.gather gather_S100000x98_S1600000x1_S1600000x98_1_0_n_n_0_1_198 (val_main_v28 (F := F) x0 x1 x3 x4 x5 x6) (val_main_v34 (F := F) x1)

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v36 : (⟨S100000x98, .f32⟩ : BufTy).Contents (Elt F) :=
  broadcastInDim S100000x98 ![] bcast_S_S100000x98 (val_main_cst_5 (F := F))
abbrev idx_main_v36 (i : S100000x98.Idx) : S_.Idx := fun a => a.elim0
theorem val_main_v36_apply (i : S100000x98.Idx) :
    val_main_v36 (F := F) i = val_main_cst_5 (F := F) (idx_main_v36 i) := by
  unfold val_main_v36
  generalize val_main_cst_5 (F := F) = y
  exact broadcastInDim_apply _ bcast_S_S100000x98 y i (idx_main_v36 i) (fun a => a.elim0)

def val_main_v37 : (⟨S1600000x1, .i32⟩ : BufTy).Contents (Elt F) :=
  broadcastInDim S1600000x1 ![0] bcast_S1600000_S1600000x1_0 (val_main_v3 (F := F) x1)
abbrev idx_main_v37 (i : S1600000x1.Idx) : S1600000.Idx := fun a => match a with
  | ⟨0, _⟩ => ⟨(i 0).val, (i 0).isLt⟩
theorem val_main_v37_apply (i : S1600000x1.Idx) :
    val_main_v37 (F := F) x1 i = val_main_v3 (F := F) x1 (idx_main_v37 i) := by
  unfold val_main_v37
  generalize val_main_v3 (F := F) x1 = y
  exact broadcastInDim_apply _ bcast_S1600000_S1600000x1_0 y i (idx_main_v37 i) (fun a => match a with
    | ⟨0, _⟩ => by show (i 0).val = if (1600000 : Nat) = 1 then 0 else (i 0).val; rw [if_neg (by decide)])

def val_main_v38 : (⟨S100000x98, .f32⟩ : BufTy).Contents (Elt F) :=
  Host.scatterAdd scatter_S100000x98_S1600000x1_S1600000x98_1_0_0_1 (val_main_v36 (F := F)) (val_main_v37 (F := F) x1) (val_main_v35 (F := F) x0 x1 x3 x4 x5 x6)

def val_main_v39 : (⟨S100000x98, .f32⟩ : BufTy).Contents (Elt F) :=
  addf (val_main_v28 (F := F) x0 x1 x3 x4 x5 x6) (val_main_v38 (F := F) x0 x1 x3 x4 x5 x6)
theorem val_main_v39_apply (i : S100000x98.Idx) :
    val_main_v39 (F := F) x0 x1 x3 x4 x5 x6 i = FloatOps.addf (val_main_v28 (F := F) x0 x1 x3 x4 x5 x6 i) (val_main_v38 (F := F) x0 x1 x3 x4 x5 x6 i) := rfl

def val_main_v40 : (⟨S100000x98, .f32⟩ : BufTy).Contents (Elt F) :=
  Host.dotGeneral dot_S100000x98_S98x98_S100000x98_1_0_0_1_n_n none (val_main_v39 (F := F) x0 x1 x3 x4 x5 x6) (x7)
abbrev lidx_main_v40 := lidx98
abbrev ridx_main_v40 := ridx98
theorem val_main_v40_apply (i : S100000x98.Idx) :
    val_main_v40 (F := Ideal) z0 z1 z3 z4 z5 z6 z7 i = ∑ k : Fin 98, (val_main_v39 (F := Ideal) z0 z1 z3 z4 z5 z6) (lidx_main_v40 i k) * z7 (ridx_main_v40 i k) :=
  dg98_apply _ _ i

def val_main_v41 : (⟨S1x98, .f32⟩ : BufTy).Contents (Elt F) :=
  broadcastInDim S1x98 ![1] bcast_S98_S1x98_1 (x8)
abbrev idx_main_v41 (i : S1x98.Idx) : S98.Idx := fun a => match a with
  | ⟨0, _⟩ => ⟨(i 1).val, (i 1).isLt⟩
theorem val_main_v41_apply (i : S1x98.Idx) :
    val_main_v41 (F := F) x8 i = x8 (idx_main_v41 i) := by
  unfold val_main_v41
  exact broadcastInDim_apply _ bcast_S98_S1x98_1 x8 i (idx_main_v41 i) (fun a => match a with
    | ⟨0, _⟩ => by show (i 1).val = if (98 : Nat) = 1 then 0 else (i 1).val; rw [if_neg (by decide)])

def val_main_v42 : (⟨S100000x98, .f32⟩ : BufTy).Contents (Elt F) :=
  broadcastInDim S100000x98 ![0, 1] bcast_S1x98_S100000x98_0_1 (val_main_v41 (F := F) x8)
abbrev idx_main_v42 (i : S100000x98.Idx) : S1x98.Idx := fun a => match a with
  | ⟨0, _⟩ => ⟨0, Nat.one_pos⟩
  | ⟨1, _⟩ => ⟨(i 1).val, (i 1).isLt⟩
theorem val_main_v42_apply (i : S100000x98.Idx) :
    val_main_v42 (F := F) x8 i = val_main_v41 (F := F) x8 (idx_main_v42 i) := by
  unfold val_main_v42
  generalize val_main_v41 (F := F) x8 = y
  exact broadcastInDim_apply _ bcast_S1x98_S100000x98_0_1 y i (idx_main_v42 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v43 : (⟨S100000x98, .f32⟩ : BufTy).Contents (Elt F) :=
  addf (val_main_v40 (F := F) x0 x1 x3 x4 x5 x6 x7) (val_main_v42 (F := F) x8)
theorem val_main_v43_apply (i : S100000x98.Idx) :
    val_main_v43 (F := F) x0 x1 x3 x4 x5 x6 x7 x8 i = FloatOps.addf (val_main_v40 (F := F) x0 x1 x3 x4 x5 x6 x7 i) (val_main_v42 (F := F) x8 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S100000x98, .f32⟩ : BufTy).Contents (Elt F) :=
  broadcastInDim S100000x98 ![] bcast_S_S100000x98 (val_main_call2_cst (F := F))
abbrev idx_main_call2_v0 (i : S100000x98.Idx) : S_.Idx := fun a => a.elim0
theorem val_main_call2_v0_apply (i : S100000x98.Idx) :
    val_main_call2_v0 (F := F) i = val_main_call2_cst (F := F) (idx_main_call2_v0 i) := by
  unfold val_main_call2_v0
  generalize val_main_call2_cst (F := F) = y
  exact broadcastInDim_apply _ bcast_S_S100000x98 y i (idx_main_call2_v0 i) (fun a => a.elim0)

def val_main_v44 : (⟨S100000x98, .f32⟩ : BufTy).Contents (Elt F) :=
  maximumf (val_main_v43 (F := F) x0 x1 x3 x4 x5 x6 x7 x8) (val_main_call2_v0 (F := F))
theorem val_main_v44_apply (i : S100000x98.Idx) :
    val_main_v44 (F := F) x0 x1 x3 x4 x5 x6 x7 x8 i = FloatOps.maximumf (val_main_v43 (F := F) x0 x1 x3 x4 x5 x6 x7 x8 i) (val_main_call2_v0 (F := F) i) := rfl

def val_main_v45 : (⟨S100000x98, .f32⟩ : BufTy).Contents (Elt F) :=
  Host.dotGeneral dot_S100000x98_S98x98_S100000x98_1_0_0_1_n_n none (val_main_v44 (F := F) x0 x1 x3 x4 x5 x6 x7 x8) (x9)
abbrev lidx_main_v45 := lidx98
abbrev ridx_main_v45 := ridx98
theorem val_main_v45_apply (i : S100000x98.Idx) :
    val_main_v45 (F := Ideal) z0 z1 z3 z4 z5 z6 z7 z8 z9 i = ∑ k : Fin 98, (val_main_v44 (F := Ideal) z0 z1 z3 z4 z5 z6 z7 z8) (lidx_main_v45 i k) * z9 (ridx_main_v45 i k) :=
  dg98_apply _ _ i

def val_main_v46 : (⟨S1x98, .f32⟩ : BufTy).Contents (Elt F) :=
  broadcastInDim S1x98 ![1] bcast_S98_S1x98_1 (x10)
abbrev idx_main_v46 (i : S1x98.Idx) : S98.Idx := fun a => match a with
  | ⟨0, _⟩ => ⟨(i 1).val, (i 1).isLt⟩
theorem val_main_v46_apply (i : S1x98.Idx) :
    val_main_v46 (F := F) x10 i = x10 (idx_main_v46 i) := by
  unfold val_main_v46
  exact broadcastInDim_apply _ bcast_S98_S1x98_1 x10 i (idx_main_v46 i) (fun a => match a with
    | ⟨0, _⟩ => by show (i 1).val = if (98 : Nat) = 1 then 0 else (i 1).val; rw [if_neg (by decide)])

def val_main_v47 : (⟨S100000x98, .f32⟩ : BufTy).Contents (Elt F) :=
  broadcastInDim S100000x98 ![0, 1] bcast_S1x98_S100000x98_0_1 (val_main_v46 (F := F) x10)
abbrev idx_main_v47 (i : S100000x98.Idx) : S1x98.Idx := fun a => match a with
  | ⟨0, _⟩ => ⟨0, Nat.one_pos⟩
  | ⟨1, _⟩ => ⟨(i 1).val, (i 1).isLt⟩
theorem val_main_v47_apply (i : S100000x98.Idx) :
    val_main_v47 (F := F) x10 i = val_main_v46 (F := F) x10 (idx_main_v47 i) := by
  unfold val_main_v47
  generalize val_main_v46 (F := F) x10 = y
  exact broadcastInDim_apply _ bcast_S1x98_S100000x98_0_1 y i (idx_main_v47 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v48 : (⟨S100000x98, .f32⟩ : BufTy).Contents (Elt F) :=
  addf (val_main_v45 (F := F) x0 x1 x3 x4 x5 x6 x7 x8 x9) (val_main_v47 (F := F) x10)
theorem val_main_v48_apply (i : S100000x98.Idx) :
    val_main_v48 (F := F) x0 x1 x3 x4 x5 x6 x7 x8 x9 x10 i = FloatOps.addf (val_main_v45 (F := F) x0 x1 x3 x4 x5 x6 x7 x8 x9 i) (val_main_v47 (F := F) x10 i) := rfl

def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

def val_main_v49 : (⟨S100000x98, .f32⟩ : BufTy).Contents (Elt F) :=
  broadcastInDim S100000x98 ![] bcast_S_S100000x98 (val_main_cst_6 (F := F))
abbrev idx_main_v49 (i : S100000x98.Idx) : S_.Idx := fun a => a.elim0
theorem val_main_v49_apply (i : S100000x98.Idx) :
    val_main_v49 (F := F) i = val_main_cst_6 (F := F) (idx_main_v49 i) := by
  unfold val_main_v49
  generalize val_main_cst_6 (F := F) = y
  exact broadcastInDim_apply _ bcast_S_S100000x98 y i (idx_main_v49 i) (fun a => a.elim0)

def val_main_v50 : (⟨S100000x98, .i1⟩ : BufTy).Contents (Elt F) :=
  cmpf .oge (val_main_v48 (F := F) x0 x1 x3 x4 x5 x6 x7 x8 x9 x10) (val_main_v49 (F := F))
theorem val_main_v50_apply (i : S100000x98.Idx) :
    val_main_v50 (F := F) x0 x1 x3 x4 x5 x6 x7 x8 x9 x10 i = FloatOps.cmpf .oge (val_main_v48 (F := F) x0 x1 x3 x4 x5 x6 x7 x8 x9 x10 i) (val_main_v49 (F := F) i) := rfl

def val_main_cst_7 : (⟨S_, .f32⟩ : BufTy).Contents (Elt F) :=
  constant S_ .f32 0x3E6AAAAB#32
theorem val_main_cst_7_apply (i : S_.Idx) :
    val_main_cst_7 (F := F) i = FloatOps.ofBits .f32 0x3E6AAAAB#32 := rfl

def val_main_v51 : (⟨S100000x98, .f32⟩ : BufTy).Contents (Elt F) :=
  broadcastInDim S100000x98 ![] bcast_S_S100000x98 (val_main_cst_7 (F := F))
abbrev idx_main_v51 (i : S100000x98.Idx) : S_.Idx := fun a => a.elim0
theorem val_main_v51_apply (i : S100000x98.Idx) :
    val_main_v51 (F := F) i = val_main_cst_7 (F := F) (idx_main_v51 i) := by
  unfold val_main_v51
  generalize val_main_cst_7 (F := F) = y
  exact broadcastInDim_apply _ bcast_S_S100000x98 y i (idx_main_v51 i) (fun a => a.elim0)

def val_main_v52 : (⟨S100000x98, .f32⟩ : BufTy).Contents (Elt F) :=
  mulf (val_main_v48 (F := F) x0 x1 x3 x4 x5 x6 x7 x8 x9 x10) (val_main_v51 (F := F))
theorem val_main_v52_apply (i : S100000x98.Idx) :
    val_main_v52 (F := F) x0 x1 x3 x4 x5 x6 x7 x8 x9 x10 i = FloatOps.mulf (val_main_v48 (F := F) x0 x1 x3 x4 x5 x6 x7 x8 x9 x10 i) (val_main_v51 (F := F) i) := rfl

def val_main_v53 : (⟨S100000x98, .f32⟩ : BufTy).Contents (Elt F) :=
  select (val_main_v50 (F := F) x0 x1 x3 x4 x5 x6 x7 x8 x9 x10) (val_main_v48 (F := F) x0 x1 x3 x4 x5 x6 x7 x8 x9 x10) (val_main_v52 (F := F) x0 x1 x3 x4 x5 x6 x7 x8 x9 x10)
theorem val_main_v53_apply (i : S100000x98.Idx) :
    val_main_v53 (F := F) x0 x1 x3 x4 x5 x6 x7 x8 x9 x10 i = Scalar.select (val_main_v50 (F := F) x0 x1 x3 x4 x5 x6 x7 x8 x9 x10 i) (val_main_v48 (F := F) x0 x1 x3 x4 x5 x6 x7 x8 x9 x10 i) (val_main_v52 (F := F) x0 x1 x3 x4 x5 x6 x7 x8 x9 x10 i) := rfl

def val_main_c_8 : (⟨S_, .i32⟩ : BufTy).Contents (Elt F) :=
  constantI S_ 32 0#32
theorem val_main_c_8_apply (i : S_.Idx) :
    val_main_c_8 (F := F) i = 0#32 := rfl

def val_main_v54 : (⟨S1600000, .i32⟩ : BufTy).Contents (Elt F) :=
  broadcastInDim S1600000 ![] bcast_S_S1600000 (val_main_c_8 (F := F))
abbrev idx_main_v54 (i : S1600000.Idx) : S_.Idx := fun a => a.elim0
theorem val_main_v54_apply (i : S1600000.Idx) :
    val_main_v54 (F := F) i = val_main_c_8 (F := F) (idx_main_v54 i) := by
  unfold val_main_v54
  generalize val_main_c_8 (F := F) = y
  exact broadcastInDim_apply _ bcast_S_S1600000 y i (idx_main_v54 i) (fun a => a.elim0)

def val_main_v55 : (⟨S1600000, .i1⟩ : BufTy).Contents (Elt F) :=
  cmpi .slt (val_main_v1 (F := F) x1) (val_main_v54 (F := F))
theorem val_main_v55_apply (i : S1600000.Idx) :
    val_main_v55 (F := F) x1 i = IntOp.cmpi .slt (val_main_v1 (F := F) x1 i) (val_main_v54 (F := F) i) := rfl

def val_main_c_9 : (⟨S_, .i32⟩ : BufTy).Contents (Elt F) :=
  constantI S_ 32 100000#32
theorem val_main_c_9_apply (i : S_.Idx) :
    val_main_c_9 (F := F) i = 100000#32 := rfl

def val_main_v56 : (⟨S1600000, .i32⟩ : BufTy).Contents (Elt F) :=
  broadcastInDim S1600000 ![] bcast_S_S1600000 (val_main_c_9 (F := F))
abbrev idx_main_v56 (i : S1600000.Idx) : S_.Idx := fun a => a.elim0
theorem val_main_v56_apply (i : S1600000.Idx) :
    val_main_v56 (F := F) i = val_main_c_9 (F := F) (idx_main_v56 i) := by
  unfold val_main_v56
  generalize val_main_c_9 (F := F) = y
  exact broadcastInDim_apply _ bcast_S_S1600000 y i (idx_main_v56 i) (fun a => a.elim0)

def val_main_v57 : (⟨S1600000, .i32⟩ : BufTy).Contents (Elt F) :=
  addi (val_main_v1 (F := F) x1) (val_main_v56 (F := F))
theorem val_main_v57_apply (i : S1600000.Idx) :
    val_main_v57 (F := F) x1 i = IntOp.addi (val_main_v1 (F := F) x1 i) (val_main_v56 (F := F) i) := rfl

def val_main_v58 : (⟨S1600000, .i32⟩ : BufTy).Contents (Elt F) :=
  select (val_main_v55 (F := F) x1) (val_main_v57 (F := F) x1) (val_main_v1 (F := F) x1)
theorem val_main_v58_apply (i : S1600000.Idx) :
    val_main_v58 (F := F) x1 i = Scalar.select (val_main_v55 (F := F) x1 i) (val_main_v57 (F := F) x1 i) (val_main_v1 (F := F) x1 i) := rfl

def val_main_v59 : (⟨S1600000x1, .i32⟩ : BufTy).Contents (Elt F) :=
  broadcastInDim S1600000x1 ![0] bcast_S1600000_S1600000x1_0 (val_main_v58 (F := F) x1)
abbrev idx_main_v59 (i : S1600000x1.Idx) : S1600000.Idx := fun a => match a with
  | ⟨0, _⟩ => ⟨(i 0).val, (i 0).isLt⟩
theorem val_main_v59_apply (i : S1600000x1.Idx) :
    val_main_v59 (F := F) x1 i = val_main_v58 (F := F) x1 (idx_main_v59 i) := by
  unfold val_main_v59
  generalize val_main_v58 (F := F) x1 = y
  exact broadcastInDim_apply _ bcast_S1600000_S1600000x1_0 y i (idx_main_v59 i) (fun a => match a with
    | ⟨0, _⟩ => by show (i 0).val = if (1600000 : Nat) = 1 then 0 else (i 0).val; rw [if_neg (by decide)])

def val_main_v60 : (⟨S1600000x98, .f32⟩ : BufTy).Contents (Elt F) :=
  Host.gather gather_S100000x98_S1600000x1_S1600000x98_1_0_n_n_0_1_198 (val_main_v53 (F := F) x0 x1 x3 x4 x5 x6 x7 x8 x9 x10) (val_main_v59 (F := F) x1)

def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

def val_main_v61 : (⟨S100000x98, .f32⟩ : BufTy).Contents (Elt F) :=
  broadcastInDim S100000x98 ![] bcast_S_S100000x98 (val_main_cst_10 (F := F))
abbrev idx_main_v61 (i : S100000x98.Idx) : S_.Idx := fun a => a.elim0
theorem val_main_v61_apply (i : S100000x98.Idx) :
    val_main_v61 (F := F) i = val_main_cst_10 (F := F) (idx_main_v61 i) := by
  unfold val_main_v61
  generalize val_main_cst_10 (F := F) = y
  exact broadcastInDim_apply _ bcast_S_S100000x98 y i (idx_main_v61 i) (fun a => a.elim0)

def val_main_v62 : (⟨S1600000x1, .i32⟩ : BufTy).Contents (Elt F) :=
  broadcastInDim S1600000x1 ![0] bcast_S1600000_S1600000x1_0 (val_main_v3 (F := F) x1)
abbrev idx_main_v62 (i : S1600000x1.Idx) : S1600000.Idx := fun a => match a with
  | ⟨0, _⟩ => ⟨(i 0).val, (i 0).isLt⟩
theorem val_main_v62_apply (i : S1600000x1.Idx) :
    val_main_v62 (F := F) x1 i = val_main_v3 (F := F) x1 (idx_main_v62 i) := by
  unfold val_main_v62
  generalize val_main_v3 (F := F) x1 = y
  exact broadcastInDim_apply _ bcast_S1600000_S1600000x1_0 y i (idx_main_v62 i) (fun a => match a with
    | ⟨0, _⟩ => by show (i 0).val = if (1600000 : Nat) = 1 then 0 else (i 0).val; rw [if_neg (by decide)])

def val_main_v63 : (⟨S100000x98, .f32⟩ : BufTy).Contents (Elt F) :=
  Host.scatterAdd scatter_S100000x98_S1600000x1_S1600000x98_1_0_0_1 (val_main_v61 (F := F)) (val_main_v62 (F := F) x1) (val_main_v60 (F := F) x0 x1 x3 x4 x5 x6 x7 x8 x9 x10)

def val_main_v64 : (⟨S100000x98, .f32⟩ : BufTy).Contents (Elt F) :=
  addf (val_main_v53 (F := F) x0 x1 x3 x4 x5 x6 x7 x8 x9 x10) (val_main_v63 (F := F) x0 x1 x3 x4 x5 x6 x7 x8 x9 x10)
theorem val_main_v64_apply (i : S100000x98.Idx) :
    val_main_v64 (F := F) x0 x1 x3 x4 x5 x6 x7 x8 x9 x10 i = FloatOps.addf (val_main_v53 (F := F) x0 x1 x3 x4 x5 x6 x7 x8 x9 x10 i) (val_main_v63 (F := F) x0 x1 x3 x4 x5 x6 x7 x8 x9 x10 i) := rfl

def val_main_v65 : (⟨S100000x98, .f32⟩ : BufTy).Contents (Elt F) :=
  Host.dotGeneral dot_S100000x98_S98x98_S100000x98_1_0_0_1_n_n none (val_main_v64 (F := F) x0 x1 x3 x4 x5 x6 x7 x8 x9 x10) (x11)
abbrev lidx_main_v65 := lidx98
abbrev ridx_main_v65 := ridx98
theorem val_main_v65_apply (i : S100000x98.Idx) :
    val_main_v65 (F := Ideal) z0 z1 z3 z4 z5 z6 z7 z8 z9 z10 z11 i = ∑ k : Fin 98, (val_main_v64 (F := Ideal) z0 z1 z3 z4 z5 z6 z7 z8 z9 z10) (lidx_main_v65 i k) * z11 (ridx_main_v65 i k) :=
  dg98_apply _ _ i

def val_main_v66 : (⟨S1x98, .f32⟩ : BufTy).Contents (Elt F) :=
  broadcastInDim S1x98 ![1] bcast_S98_S1x98_1 (x12)
abbrev idx_main_v66 (i : S1x98.Idx) : S98.Idx := fun a => match a with
  | ⟨0, _⟩ => ⟨(i 1).val, (i 1).isLt⟩
theorem val_main_v66_apply (i : S1x98.Idx) :
    val_main_v66 (F := F) x12 i = x12 (idx_main_v66 i) := by
  unfold val_main_v66
  exact broadcastInDim_apply _ bcast_S98_S1x98_1 x12 i (idx_main_v66 i) (fun a => match a with
    | ⟨0, _⟩ => by show (i 1).val = if (98 : Nat) = 1 then 0 else (i 1).val; rw [if_neg (by decide)])

def val_main_v67 : (⟨S100000x98, .f32⟩ : BufTy).Contents (Elt F) :=
  broadcastInDim S100000x98 ![0, 1] bcast_S1x98_S100000x98_0_1 (val_main_v66 (F := F) x12)
abbrev idx_main_v67 (i : S100000x98.Idx) : S1x98.Idx := fun a => match a with
  | ⟨0, _⟩ => ⟨0, Nat.one_pos⟩
  | ⟨1, _⟩ => ⟨(i 1).val, (i 1).isLt⟩
theorem val_main_v67_apply (i : S100000x98.Idx) :
    val_main_v67 (F := F) x12 i = val_main_v66 (F := F) x12 (idx_main_v67 i) := by
  unfold val_main_v67
  generalize val_main_v66 (F := F) x12 = y
  exact broadcastInDim_apply _ bcast_S1x98_S100000x98_0_1 y i (idx_main_v67 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v68 : (⟨S100000x98, .f32⟩ : BufTy).Contents (Elt F) :=
  addf (val_main_v65 (F := F) x0 x1 x3 x4 x5 x6 x7 x8 x9 x10 x11) (val_main_v67 (F := F) x12)
theorem val_main_v68_apply (i : S100000x98.Idx) :
    val_main_v68 (F := F) x0 x1 x3 x4 x5 x6 x7 x8 x9 x10 x11 x12 i = FloatOps.addf (val_main_v65 (F := F) x0 x1 x3 x4 x5 x6 x7 x8 x9 x10 x11 i) (val_main_v67 (F := F) x12 i) := rfl

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S100000x98, .f32⟩ : BufTy).Contents (Elt F) :=
  broadcastInDim S100000x98 ![] bcast_S_S100000x98 (val_main_call4_cst (F := F))
abbrev idx_main_call4_v0 (i : S100000x98.Idx) : S_.Idx := fun a => a.elim0
theorem val_main_call4_v0_apply (i : S100000x98.Idx) :
    val_main_call4_v0 (F := F) i = val_main_call4_cst (F := F) (idx_main_call4_v0 i) := by
  unfold val_main_call4_v0
  generalize val_main_call4_cst (F := F) = y
  exact broadcastInDim_apply _ bcast_S_S100000x98 y i (idx_main_call4_v0 i) (fun a => a.elim0)

def val_main_v69 : (⟨S100000x98, .f32⟩ : BufTy).Contents (Elt F) :=
  maximumf (val_main_v68 (F := F) x0 x1 x3 x4 x5 x6 x7 x8 x9 x10 x11 x12) (val_main_call4_v0 (F := F))
theorem val_main_v69_apply (i : S100000x98.Idx) :
    val_main_v69 (F := F) x0 x1 x3 x4 x5 x6 x7 x8 x9 x10 x11 x12 i = FloatOps.maximumf (val_main_v68 (F := F) x0 x1 x3 x4 x5 x6 x7 x8 x9 x10 x11 x12 i) (val_main_call4_v0 (F := F) i) := rfl

def val_main_v70 : (⟨S100000x98, .f32⟩ : BufTy).Contents (Elt F) :=
  Host.dotGeneral dot_S100000x98_S98x98_S100000x98_1_0_0_1_n_n none (val_main_v69 (F := F) x0 x1 x3 x4 x5 x6 x7 x8 x9 x10 x11 x12) (x13)
abbrev lidx_main_v70 := lidx98
abbrev ridx_main_v70 := ridx98
theorem val_main_v70_apply (i : S100000x98.Idx) :
    val_main_v70 (F := Ideal) z0 z1 z3 z4 z5 z6 z7 z8 z9 z10 z11 z12 z13 i = ∑ k : Fin 98, (val_main_v69 (F := Ideal) z0 z1 z3 z4 z5 z6 z7 z8 z9 z10 z11 z12) (lidx_main_v70 i k) * z13 (ridx_main_v70 i k) :=
  dg98_apply _ _ i

def val_main_v71 : (⟨S1x98, .f32⟩ : BufTy).Contents (Elt F) :=
  broadcastInDim S1x98 ![1] bcast_S98_S1x98_1 (x14)
abbrev idx_main_v71 (i : S1x98.Idx) : S98.Idx := fun a => match a with
  | ⟨0, _⟩ => ⟨(i 1).val, (i 1).isLt⟩
theorem val_main_v71_apply (i : S1x98.Idx) :
    val_main_v71 (F := F) x14 i = x14 (idx_main_v71 i) := by
  unfold val_main_v71
  exact broadcastInDim_apply _ bcast_S98_S1x98_1 x14 i (idx_main_v71 i) (fun a => match a with
    | ⟨0, _⟩ => by show (i 1).val = if (98 : Nat) = 1 then 0 else (i 1).val; rw [if_neg (by decide)])

def val_main_v72 : (⟨S100000x98, .f32⟩ : BufTy).Contents (Elt F) :=
  broadcastInDim S100000x98 ![0, 1] bcast_S1x98_S100000x98_0_1 (val_main_v71 (F := F) x14)
abbrev idx_main_v72 (i : S100000x98.Idx) : S1x98.Idx := fun a => match a with
  | ⟨0, _⟩ => ⟨0, Nat.one_pos⟩
  | ⟨1, _⟩ => ⟨(i 1).val, (i 1).isLt⟩
theorem val_main_v72_apply (i : S100000x98.Idx) :
    val_main_v72 (F := F) x14 i = val_main_v71 (F := F) x14 (idx_main_v72 i) := by
  unfold val_main_v72
  generalize val_main_v71 (F := F) x14 = y
  exact broadcastInDim_apply _ bcast_S1x98_S100000x98_0_1 y i (idx_main_v72 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v73 : (⟨S100000x98, .f32⟩ : BufTy).Contents (Elt F) :=
  addf (val_main_v70 (F := F) x0 x1 x3 x4 x5 x6 x7 x8 x9 x10 x11 x12 x13) (val_main_v72 (F := F) x14)
theorem val_main_v73_apply (i : S100000x98.Idx) :
    val_main_v73 (F := F) x0 x1 x3 x4 x5 x6 x7 x8 x9 x10 x11 x12 x13 x14 i = FloatOps.addf (val_main_v70 (F := F) x0 x1 x3 x4 x5 x6 x7 x8 x9 x10 x11 x12 x13 i) (val_main_v72 (F := F) x14 i) := rfl

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v74 : (⟨S100000x98, .f32⟩ : BufTy).Contents (Elt F) :=
  broadcastInDim S100000x98 ![] bcast_S_S100000x98 (val_main_cst_11 (F := F))
abbrev idx_main_v74 (i : S100000x98.Idx) : S_.Idx := fun a => a.elim0
theorem val_main_v74_apply (i : S100000x98.Idx) :
    val_main_v74 (F := F) i = val_main_cst_11 (F := F) (idx_main_v74 i) := by
  unfold val_main_v74
  generalize val_main_cst_11 (F := F) = y
  exact broadcastInDim_apply _ bcast_S_S100000x98 y i (idx_main_v74 i) (fun a => a.elim0)

def val_main_v75 : (⟨S100000x98, .i1⟩ : BufTy).Contents (Elt F) :=
  cmpf .oge (val_main_v73 (F := F) x0 x1 x3 x4 x5 x6 x7 x8 x9 x10 x11 x12 x13 x14) (val_main_v74 (F := F))
theorem val_main_v75_apply (i : S100000x98.Idx) :
    val_main_v75 (F := F) x0 x1 x3 x4 x5 x6 x7 x8 x9 x10 x11 x12 x13 x14 i = FloatOps.cmpf .oge (val_main_v73 (F := F) x0 x1 x3 x4 x5 x6 x7 x8 x9 x10 x11 x12 x13 x14 i) (val_main_v74 (F := F) i) := rfl

def val_main_cst_12 : (⟨S_, .f32⟩ : BufTy).Contents (Elt F) :=
  constant S_ .f32 0x3E6AAAAB#32
theorem val_main_cst_12_apply (i : S_.Idx) :
    val_main_cst_12 (F := F) i = FloatOps.ofBits .f32 0x3E6AAAAB#32 := rfl

def val_main_v76 : (⟨S100000x98, .f32⟩ : BufTy).Contents (Elt F) :=
  broadcastInDim S100000x98 ![] bcast_S_S100000x98 (val_main_cst_12 (F := F))
abbrev idx_main_v76 (i : S100000x98.Idx) : S_.Idx := fun a => a.elim0
theorem val_main_v76_apply (i : S100000x98.Idx) :
    val_main_v76 (F := F) i = val_main_cst_12 (F := F) (idx_main_v76 i) := by
  unfold val_main_v76
  generalize val_main_cst_12 (F := F) = y
  exact broadcastInDim_apply _ bcast_S_S100000x98 y i (idx_main_v76 i) (fun a => a.elim0)

def val_main_v77 : (⟨S100000x98, .f32⟩ : BufTy).Contents (Elt F) :=
  mulf (val_main_v73 (F := F) x0 x1 x3 x4 x5 x6 x7 x8 x9 x10 x11 x12 x13 x14) (val_main_v76 (F := F))
theorem val_main_v77_apply (i : S100000x98.Idx) :
    val_main_v77 (F := F) x0 x1 x3 x4 x5 x6 x7 x8 x9 x10 x11 x12 x13 x14 i = FloatOps.mulf (val_main_v73 (F := F) x0 x1 x3 x4 x5 x6 x7 x8 x9 x10 x11 x12 x13 x14 i) (val_main_v76 (F := F) i) := rfl

def val_main_v78 : (⟨S100000x98, .f32⟩ : BufTy).Contents (Elt F) :=
  select (val_main_v75 (F := F) x0 x1 x3 x4 x5 x6 x7 x8 x9 x10 x11 x12 x13 x14) (val_main_v73 (F := F) x0 x1 x3 x4 x5 x6 x7 x8 x9 x10 x11 x12 x13 x14) (val_main_v77 (F := F) x0 x1 x3 x4 x5 x6 x7 x8 x9 x10 x11 x12 x13 x14)
theorem val_main_v78_apply (i : S100000x98.Idx) :
    val_main_v78 (F := F) x0 x1 x3 x4 x5 x6 x7 x8 x9 x10 x11 x12 x13 x14 i = Scalar.select (val_main_v75 (F := F) x0 x1 x3 x4 x5 x6 x7 x8 x9 x10 x11 x12 x13 x14 i) (val_main_v73 (F := F) x0 x1 x3 x4 x5 x6 x7 x8 x9 x10 x11 x12 x13 x14 i) (val_main_v77 (F := F) x0 x1 x3 x4 x5 x6 x7 x8 x9 x10 x11 x12 x13 x14 i) := rfl

def val_main_c_13 : (⟨S_, .i32⟩ : BufTy).Contents (Elt F) :=
  constantI S_ 32 0#32
theorem val_main_c_13_apply (i : S_.Idx) :
    val_main_c_13 (F := F) i = 0#32 := rfl

def val_main_v79 : (⟨S1600000, .i32⟩ : BufTy).Contents (Elt F) :=
  broadcastInDim S1600000 ![] bcast_S_S1600000 (val_main_c_13 (F := F))
abbrev idx_main_v79 (i : S1600000.Idx) : S_.Idx := fun a => a.elim0
theorem val_main_v79_apply (i : S1600000.Idx) :
    val_main_v79 (F := F) i = val_main_c_13 (F := F) (idx_main_v79 i) := by
  unfold val_main_v79
  generalize val_main_c_13 (F := F) = y
  exact broadcastInDim_apply _ bcast_S_S1600000 y i (idx_main_v79 i) (fun a => a.elim0)

def val_main_v80 : (⟨S1600000, .i1⟩ : BufTy).Contents (Elt F) :=
  cmpi .slt (val_main_v1 (F := F) x1) (val_main_v79 (F := F))
theorem val_main_v80_apply (i : S1600000.Idx) :
    val_main_v80 (F := F) x1 i = IntOp.cmpi .slt (val_main_v1 (F := F) x1 i) (val_main_v79 (F := F) i) := rfl

def val_main_c_14 : (⟨S_, .i32⟩ : BufTy).Contents (Elt F) :=
  constantI S_ 32 100000#32
theorem val_main_c_14_apply (i : S_.Idx) :
    val_main_c_14 (F := F) i = 100000#32 := rfl

def val_main_v81 : (⟨S1600000, .i32⟩ : BufTy).Contents (Elt F) :=
  broadcastInDim S1600000 ![] bcast_S_S1600000 (val_main_c_14 (F := F))
abbrev idx_main_v81 (i : S1600000.Idx) : S_.Idx := fun a => a.elim0
theorem val_main_v81_apply (i : S1600000.Idx) :
    val_main_v81 (F := F) i = val_main_c_14 (F := F) (idx_main_v81 i) := by
  unfold val_main_v81
  generalize val_main_c_14 (F := F) = y
  exact broadcastInDim_apply _ bcast_S_S1600000 y i (idx_main_v81 i) (fun a => a.elim0)

def val_main_v82 : (⟨S1600000, .i32⟩ : BufTy).Contents (Elt F) :=
  addi (val_main_v1 (F := F) x1) (val_main_v81 (F := F))
theorem val_main_v82_apply (i : S1600000.Idx) :
    val_main_v82 (F := F) x1 i = IntOp.addi (val_main_v1 (F := F) x1 i) (val_main_v81 (F := F) i) := rfl

def val_main_v83 : (⟨S1600000, .i32⟩ : BufTy).Contents (Elt F) :=
  select (val_main_v80 (F := F) x1) (val_main_v82 (F := F) x1) (val_main_v1 (F := F) x1)
theorem val_main_v83_apply (i : S1600000.Idx) :
    val_main_v83 (F := F) x1 i = Scalar.select (val_main_v80 (F := F) x1 i) (val_main_v82 (F := F) x1 i) (val_main_v1 (F := F) x1 i) := rfl

def val_main_v84 : (⟨S1600000x1, .i32⟩ : BufTy).Contents (Elt F) :=
  broadcastInDim S1600000x1 ![0] bcast_S1600000_S1600000x1_0 (val_main_v83 (F := F) x1)
abbrev idx_main_v84 (i : S1600000x1.Idx) : S1600000.Idx := fun a => match a with
  | ⟨0, _⟩ => ⟨(i 0).val, (i 0).isLt⟩
theorem val_main_v84_apply (i : S1600000x1.Idx) :
    val_main_v84 (F := F) x1 i = val_main_v83 (F := F) x1 (idx_main_v84 i) := by
  unfold val_main_v84
  generalize val_main_v83 (F := F) x1 = y
  exact broadcastInDim_apply _ bcast_S1600000_S1600000x1_0 y i (idx_main_v84 i) (fun a => match a with
    | ⟨0, _⟩ => by show (i 0).val = if (1600000 : Nat) = 1 then 0 else (i 0).val; rw [if_neg (by decide)])

def val_main_v85 : (⟨S1600000x98, .f32⟩ : BufTy).Contents (Elt F) :=
  Host.gather gather_S100000x98_S1600000x1_S1600000x98_1_0_n_n_0_1_198 (val_main_v78 (F := F) x0 x1 x3 x4 x5 x6 x7 x8 x9 x10 x11 x12 x13 x14) (val_main_v84 (F := F) x1)

def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

def val_main_v86 : (⟨S100000x98, .f32⟩ : BufTy).Contents (Elt F) :=
  broadcastInDim S100000x98 ![] bcast_S_S100000x98 (val_main_cst_15 (F := F))
abbrev idx_main_v86 (i : S100000x98.Idx) : S_.Idx := fun a => a.elim0
theorem val_main_v86_apply (i : S100000x98.Idx) :
    val_main_v86 (F := F) i = val_main_cst_15 (F := F) (idx_main_v86 i) := by
  unfold val_main_v86
  generalize val_main_cst_15 (F := F) = y
  exact broadcastInDim_apply _ bcast_S_S100000x98 y i (idx_main_v86 i) (fun a => a.elim0)

def val_main_v87 : (⟨S1600000x1, .i32⟩ : BufTy).Contents (Elt F) :=
  broadcastInDim S1600000x1 ![0] bcast_S1600000_S1600000x1_0 (val_main_v3 (F := F) x1)
abbrev idx_main_v87 (i : S1600000x1.Idx) : S1600000.Idx := fun a => match a with
  | ⟨0, _⟩ => ⟨(i 0).val, (i 0).isLt⟩
theorem val_main_v87_apply (i : S1600000x1.Idx) :
    val_main_v87 (F := F) x1 i = val_main_v3 (F := F) x1 (idx_main_v87 i) := by
  unfold val_main_v87
  generalize val_main_v3 (F := F) x1 = y
  exact broadcastInDim_apply _ bcast_S1600000_S1600000x1_0 y i (idx_main_v87 i) (fun a => match a with
    | ⟨0, _⟩ => by show (i 0).val = if (1600000 : Nat) = 1 then 0 else (i 0).val; rw [if_neg (by decide)])

def val_main_v88 : (⟨S100000x98, .f32⟩ : BufTy).Contents (Elt F) :=
  Host.scatterAdd scatter_S100000x98_S1600000x1_S1600000x98_1_0_0_1 (val_main_v86 (F := F)) (val_main_v87 (F := F) x1) (val_main_v85 (F := F) x0 x1 x3 x4 x5 x6 x7 x8 x9 x10 x11 x12 x13 x14)

def val_main_v89 : (⟨S100000x98, .f32⟩ : BufTy).Contents (Elt F) :=
  addf (val_main_v78 (F := F) x0 x1 x3 x4 x5 x6 x7 x8 x9 x10 x11 x12 x13 x14) (val_main_v88 (F := F) x0 x1 x3 x4 x5 x6 x7 x8 x9 x10 x11 x12 x13 x14)
theorem val_main_v89_apply (i : S100000x98.Idx) :
    val_main_v89 (F := F) x0 x1 x3 x4 x5 x6 x7 x8 x9 x10 x11 x12 x13 x14 i = FloatOps.addf (val_main_v78 (F := F) x0 x1 x3 x4 x5 x6 x7 x8 x9 x10 x11 x12 x13 x14 i) (val_main_v88 (F := F) x0 x1 x3 x4 x5 x6 x7 x8 x9 x10 x11 x12 x13 x14 i) := rfl

def val_main_v90 : (⟨S100000x98, .f32⟩ : BufTy).Contents (Elt F) :=
  Host.dotGeneral dot_S100000x98_S98x98_S100000x98_1_0_0_1_n_n none (val_main_v89 (F := F) x0 x1 x3 x4 x5 x6 x7 x8 x9 x10 x11 x12 x13 x14) (x15)
abbrev lidx_main_v90 := lidx98
abbrev ridx_main_v90 := ridx98
theorem val_main_v90_apply (i : S100000x98.Idx) :
    val_main_v90 (F := Ideal) z0 z1 z3 z4 z5 z6 z7 z8 z9 z10 z11 z12 z13 z14 z15 i = ∑ k : Fin 98, (val_main_v89 (F := Ideal) z0 z1 z3 z4 z5 z6 z7 z8 z9 z10 z11 z12 z13 z14) (lidx_main_v90 i k) * z15 (ridx_main_v90 i k) :=
  dg98_apply _ _ i

def val_main_v91 : (⟨S1x98, .f32⟩ : BufTy).Contents (Elt F) :=
  broadcastInDim S1x98 ![1] bcast_S98_S1x98_1 (x16)
abbrev idx_main_v91 (i : S1x98.Idx) : S98.Idx := fun a => match a with
  | ⟨0, _⟩ => ⟨(i 1).val, (i 1).isLt⟩
theorem val_main_v91_apply (i : S1x98.Idx) :
    val_main_v91 (F := F) x16 i = x16 (idx_main_v91 i) := by
  unfold val_main_v91
  exact broadcastInDim_apply _ bcast_S98_S1x98_1 x16 i (idx_main_v91 i) (fun a => match a with
    | ⟨0, _⟩ => by show (i 1).val = if (98 : Nat) = 1 then 0 else (i 1).val; rw [if_neg (by decide)])

def val_main_v92 : (⟨S100000x98, .f32⟩ : BufTy).Contents (Elt F) :=
  broadcastInDim S100000x98 ![0, 1] bcast_S1x98_S100000x98_0_1 (val_main_v91 (F := F) x16)
abbrev idx_main_v92 (i : S100000x98.Idx) : S1x98.Idx := fun a => match a with
  | ⟨0, _⟩ => ⟨0, Nat.one_pos⟩
  | ⟨1, _⟩ => ⟨(i 1).val, (i 1).isLt⟩
theorem val_main_v92_apply (i : S100000x98.Idx) :
    val_main_v92 (F := F) x16 i = val_main_v91 (F := F) x16 (idx_main_v92 i) := by
  unfold val_main_v92
  generalize val_main_v91 (F := F) x16 = y
  exact broadcastInDim_apply _ bcast_S1x98_S100000x98_0_1 y i (idx_main_v92 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v93 : (⟨S100000x98, .f32⟩ : BufTy).Contents (Elt F) :=
  addf (val_main_v90 (F := F) x0 x1 x3 x4 x5 x6 x7 x8 x9 x10 x11 x12 x13 x14 x15) (val_main_v92 (F := F) x16)
theorem val_main_v93_apply (i : S100000x98.Idx) :
    val_main_v93 (F := F) x0 x1 x3 x4 x5 x6 x7 x8 x9 x10 x11 x12 x13 x14 x15 x16 i = FloatOps.addf (val_main_v90 (F := F) x0 x1 x3 x4 x5 x6 x7 x8 x9 x10 x11 x12 x13 x14 x15 i) (val_main_v92 (F := F) x16 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S100000x98, .f32⟩ : BufTy).Contents (Elt F) :=
  broadcastInDim S100000x98 ![] bcast_S_S100000x98 (val_main_call6_cst (F := F))
abbrev idx_main_call6_v0 (i : S100000x98.Idx) : S_.Idx := fun a => a.elim0
theorem val_main_call6_v0_apply (i : S100000x98.Idx) :
    val_main_call6_v0 (F := F) i = val_main_call6_cst (F := F) (idx_main_call6_v0 i) := by
  unfold val_main_call6_v0
  generalize val_main_call6_cst (F := F) = y
  exact broadcastInDim_apply _ bcast_S_S100000x98 y i (idx_main_call6_v0 i) (fun a => a.elim0)

def val_main_v94 : (⟨S100000x98, .f32⟩ : BufTy).Contents (Elt F) :=
  maximumf (val_main_v93 (F := F) x0 x1 x3 x4 x5 x6 x7 x8 x9 x10 x11 x12 x13 x14 x15 x16) (val_main_call6_v0 (F := F))
theorem val_main_v94_apply (i : S100000x98.Idx) :
    val_main_v94 (F := F) x0 x1 x3 x4 x5 x6 x7 x8 x9 x10 x11 x12 x13 x14 x15 x16 i = FloatOps.maximumf (val_main_v93 (F := F) x0 x1 x3 x4 x5 x6 x7 x8 x9 x10 x11 x12 x13 x14 x15 x16 i) (val_main_call6_v0 (F := F) i) := rfl

def val_main_v95 : (⟨S100000x98, .f32⟩ : BufTy).Contents (Elt F) :=
  Host.dotGeneral dot_S100000x98_S98x98_S100000x98_1_0_0_1_n_n none (val_main_v94 (F := F) x0 x1 x3 x4 x5 x6 x7 x8 x9 x10 x11 x12 x13 x14 x15 x16) (x17)
abbrev lidx_main_v95 := lidx98
abbrev ridx_main_v95 := ridx98
theorem val_main_v95_apply (i : S100000x98.Idx) :
    val_main_v95 (F := Ideal) z0 z1 z3 z4 z5 z6 z7 z8 z9 z10 z11 z12 z13 z14 z15 z16 z17 i = ∑ k : Fin 98, (val_main_v94 (F := Ideal) z0 z1 z3 z4 z5 z6 z7 z8 z9 z10 z11 z12 z13 z14 z15 z16) (lidx_main_v95 i k) * z17 (ridx_main_v95 i k) :=
  dg98_apply _ _ i

def val_main_v96 : (⟨S1x98, .f32⟩ : BufTy).Contents (Elt F) :=
  broadcastInDim S1x98 ![1] bcast_S98_S1x98_1 (x18)
abbrev idx_main_v96 (i : S1x98.Idx) : S98.Idx := fun a => match a with
  | ⟨0, _⟩ => ⟨(i 1).val, (i 1).isLt⟩
theorem val_main_v96_apply (i : S1x98.Idx) :
    val_main_v96 (F := F) x18 i = x18 (idx_main_v96 i) := by
  unfold val_main_v96
  exact broadcastInDim_apply _ bcast_S98_S1x98_1 x18 i (idx_main_v96 i) (fun a => match a with
    | ⟨0, _⟩ => by show (i 1).val = if (98 : Nat) = 1 then 0 else (i 1).val; rw [if_neg (by decide)])

def val_main_v97 : (⟨S100000x98, .f32⟩ : BufTy).Contents (Elt F) :=
  broadcastInDim S100000x98 ![0, 1] bcast_S1x98_S100000x98_0_1 (val_main_v96 (F := F) x18)
abbrev idx_main_v97 (i : S100000x98.Idx) : S1x98.Idx := fun a => match a with
  | ⟨0, _⟩ => ⟨0, Nat.one_pos⟩
  | ⟨1, _⟩ => ⟨(i 1).val, (i 1).isLt⟩
theorem val_main_v97_apply (i : S100000x98.Idx) :
    val_main_v97 (F := F) x18 i = val_main_v96 (F := F) x18 (idx_main_v97 i) := by
  unfold val_main_v97
  generalize val_main_v96 (F := F) x18 = y
  exact broadcastInDim_apply _ bcast_S1x98_S100000x98_0_1 y i (idx_main_v97 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v98 : (⟨S100000x98, .f32⟩ : BufTy).Contents (Elt F) :=
  addf (val_main_v95 (F := F) x0 x1 x3 x4 x5 x6 x7 x8 x9 x10 x11 x12 x13 x14 x15 x16 x17) (val_main_v97 (F := F) x18)
theorem val_main_v98_apply (i : S100000x98.Idx) :
    val_main_v98 (F := F) x0 x1 x3 x4 x5 x6 x7 x8 x9 x10 x11 x12 x13 x14 x15 x16 x17 x18 i = FloatOps.addf (val_main_v95 (F := F) x0 x1 x3 x4 x5 x6 x7 x8 x9 x10 x11 x12 x13 x14 x15 x16 x17 i) (val_main_v97 (F := F) x18 i) := rfl

def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

def val_main_v99 : (⟨S100000x98, .f32⟩ : BufTy).Contents (Elt F) :=
  broadcastInDim S100000x98 ![] bcast_S_S100000x98 (val_main_cst_16 (F := F))
abbrev idx_main_v99 (i : S100000x98.Idx) : S_.Idx := fun a => a.elim0
theorem val_main_v99_apply (i : S100000x98.Idx) :
    val_main_v99 (F := F) i = val_main_cst_16 (F := F) (idx_main_v99 i) := by
  unfold val_main_v99
  generalize val_main_cst_16 (F := F) = y
  exact broadcastInDim_apply _ bcast_S_S100000x98 y i (idx_main_v99 i) (fun a => a.elim0)

def val_main_v100 : (⟨S100000x98, .i1⟩ : BufTy).Contents (Elt F) :=
  cmpf .oge (val_main_v98 (F := F) x0 x1 x3 x4 x5 x6 x7 x8 x9 x10 x11 x12 x13 x14 x15 x16 x17 x18) (val_main_v99 (F := F))
theorem val_main_v100_apply (i : S100000x98.Idx) :
    val_main_v100 (F := F) x0 x1 x3 x4 x5 x6 x7 x8 x9 x10 x11 x12 x13 x14 x15 x16 x17 x18 i = FloatOps.cmpf .oge (val_main_v98 (F := F) x0 x1 x3 x4 x5 x6 x7 x8 x9 x10 x11 x12 x13 x14 x15 x16 x17 x18 i) (val_main_v99 (F := F) i) := rfl

def val_main_cst_17 : (⟨S_, .f32⟩ : BufTy).Contents (Elt F) :=
  constant S_ .f32 0x3E6AAAAB#32
theorem val_main_cst_17_apply (i : S_.Idx) :
    val_main_cst_17 (F := F) i = FloatOps.ofBits .f32 0x3E6AAAAB#32 := rfl

def val_main_v101 : (⟨S100000x98, .f32⟩ : BufTy).Contents (Elt F) :=
  broadcastInDim S100000x98 ![] bcast_S_S100000x98 (val_main_cst_17 (F := F))
abbrev idx_main_v101 (i : S100000x98.Idx) : S_.Idx := fun a => a.elim0
theorem val_main_v101_apply (i : S100000x98.Idx) :
    val_main_v101 (F := F) i = val_main_cst_17 (F := F) (idx_main_v101 i) := by
  unfold val_main_v101
  generalize val_main_cst_17 (F := F) = y
  exact broadcastInDim_apply _ bcast_S_S100000x98 y i (idx_main_v101 i) (fun a => a.elim0)

def val_main_v102 : (⟨S100000x98, .f32⟩ : BufTy).Contents (Elt F) :=
  mulf (val_main_v98 (F := F) x0 x1 x3 x4 x5 x6 x7 x8 x9 x10 x11 x12 x13 x14 x15 x16 x17 x18) (val_main_v101 (F := F))
theorem val_main_v102_apply (i : S100000x98.Idx) :
    val_main_v102 (F := F) x0 x1 x3 x4 x5 x6 x7 x8 x9 x10 x11 x12 x13 x14 x15 x16 x17 x18 i = FloatOps.mulf (val_main_v98 (F := F) x0 x1 x3 x4 x5 x6 x7 x8 x9 x10 x11 x12 x13 x14 x15 x16 x17 x18 i) (val_main_v101 (F := F) i) := rfl

def val_main_v103 : (⟨S100000x98, .f32⟩ : BufTy).Contents (Elt F) :=
  select (val_main_v100 (F := F) x0 x1 x3 x4 x5 x6 x7 x8 x9 x10 x11 x12 x13 x14 x15 x16 x17 x18) (val_main_v98 (F := F) x0 x1 x3 x4 x5 x6 x7 x8 x9 x10 x11 x12 x13 x14 x15 x16 x17 x18) (val_main_v102 (F := F) x0 x1 x3 x4 x5 x6 x7 x8 x9 x10 x11 x12 x13 x14 x15 x16 x17 x18)
theorem val_main_v103_apply (i : S100000x98.Idx) :
    val_main_v103 (F := F) x0 x1 x3 x4 x5 x6 x7 x8 x9 x10 x11 x12 x13 x14 x15 x16 x17 x18 i = Scalar.select (val_main_v100 (F := F) x0 x1 x3 x4 x5 x6 x7 x8 x9 x10 x11 x12 x13 x14 x15 x16 x17 x18 i) (val_main_v98 (F := F) x0 x1 x3 x4 x5 x6 x7 x8 x9 x10 x11 x12 x13 x14 x15 x16 x17 x18 i) (val_main_v102 (F := F) x0 x1 x3 x4 x5 x6 x7 x8 x9 x10 x11 x12 x13 x14 x15 x16 x17 x18 i) := rfl

def val_main_c_18 : (⟨S_, .i32⟩ : BufTy).Contents (Elt F) :=
  constantI S_ 32 0#32
theorem val_main_c_18_apply (i : S_.Idx) :
    val_main_c_18 (F := F) i = 0#32 := rfl

def val_main_v104 : (⟨S1600000, .i32⟩ : BufTy).Contents (Elt F) :=
  broadcastInDim S1600000 ![] bcast_S_S1600000 (val_main_c_18 (F := F))
abbrev idx_main_v104 (i : S1600000.Idx) : S_.Idx := fun a => a.elim0
theorem val_main_v104_apply (i : S1600000.Idx) :
    val_main_v104 (F := F) i = val_main_c_18 (F := F) (idx_main_v104 i) := by
  unfold val_main_v104
  generalize val_main_c_18 (F := F) = y
  exact broadcastInDim_apply _ bcast_S_S1600000 y i (idx_main_v104 i) (fun a => a.elim0)

def val_main_v105 : (⟨S1600000, .i1⟩ : BufTy).Contents (Elt F) :=
  cmpi .slt (val_main_v1 (F := F) x1) (val_main_v104 (F := F))
theorem val_main_v105_apply (i : S1600000.Idx) :
    val_main_v105 (F := F) x1 i = IntOp.cmpi .slt (val_main_v1 (F := F) x1 i) (val_main_v104 (F := F) i) := rfl

def val_main_c_19 : (⟨S_, .i32⟩ : BufTy).Contents (Elt F) :=
  constantI S_ 32 100000#32
theorem val_main_c_19_apply (i : S_.Idx) :
    val_main_c_19 (F := F) i = 100000#32 := rfl

def val_main_v106 : (⟨S1600000, .i32⟩ : BufTy).Contents (Elt F) :=
  broadcastInDim S1600000 ![] bcast_S_S1600000 (val_main_c_19 (F := F))
abbrev idx_main_v106 (i : S1600000.Idx) : S_.Idx := fun a => a.elim0
theorem val_main_v106_apply (i : S1600000.Idx) :
    val_main_v106 (F := F) i = val_main_c_19 (F := F) (idx_main_v106 i) := by
  unfold val_main_v106
  generalize val_main_c_19 (F := F) = y
  exact broadcastInDim_apply _ bcast_S_S1600000 y i (idx_main_v106 i) (fun a => a.elim0)

def val_main_v107 : (⟨S1600000, .i32⟩ : BufTy).Contents (Elt F) :=
  addi (val_main_v1 (F := F) x1) (val_main_v106 (F := F))
theorem val_main_v107_apply (i : S1600000.Idx) :
    val_main_v107 (F := F) x1 i = IntOp.addi (val_main_v1 (F := F) x1 i) (val_main_v106 (F := F) i) := rfl

def val_main_v108 : (⟨S1600000, .i32⟩ : BufTy).Contents (Elt F) :=
  select (val_main_v105 (F := F) x1) (val_main_v107 (F := F) x1) (val_main_v1 (F := F) x1)
theorem val_main_v108_apply (i : S1600000.Idx) :
    val_main_v108 (F := F) x1 i = Scalar.select (val_main_v105 (F := F) x1 i) (val_main_v107 (F := F) x1 i) (val_main_v1 (F := F) x1 i) := rfl

def val_main_v109 : (⟨S1600000x1, .i32⟩ : BufTy).Contents (Elt F) :=
  broadcastInDim S1600000x1 ![0] bcast_S1600000_S1600000x1_0 (val_main_v108 (F := F) x1)
abbrev idx_main_v109 (i : S1600000x1.Idx) : S1600000.Idx := fun a => match a with
  | ⟨0, _⟩ => ⟨(i 0).val, (i 0).isLt⟩
theorem val_main_v109_apply (i : S1600000x1.Idx) :
    val_main_v109 (F := F) x1 i = val_main_v108 (F := F) x1 (idx_main_v109 i) := by
  unfold val_main_v109
  generalize val_main_v108 (F := F) x1 = y
  exact broadcastInDim_apply _ bcast_S1600000_S1600000x1_0 y i (idx_main_v109 i) (fun a => match a with
    | ⟨0, _⟩ => by show (i 0).val = if (1600000 : Nat) = 1 then 0 else (i 0).val; rw [if_neg (by decide)])

def val_main_v110 : (⟨S1600000x98, .f32⟩ : BufTy).Contents (Elt F) :=
  Host.gather gather_S100000x98_S1600000x1_S1600000x98_1_0_n_n_0_1_198 (val_main_v103 (F := F) x0 x1 x3 x4 x5 x6 x7 x8 x9 x10 x11 x12 x13 x14 x15 x16 x17 x18) (val_main_v109 (F := F) x1)

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v111 : (⟨S100000x98, .f32⟩ : BufTy).Contents (Elt F) :=
  broadcastInDim S100000x98 ![] bcast_S_S100000x98 (val_main_cst_20 (F := F))
abbrev idx_main_v111 (i : S100000x98.Idx) : S_.Idx := fun a => a.elim0
theorem val_main_v111_apply (i : S100000x98.Idx) :
    val_main_v111 (F := F) i = val_main_cst_20 (F := F) (idx_main_v111 i) := by
  unfold val_main_v111
  generalize val_main_cst_20 (F := F) = y
  exact broadcastInDim_apply _ bcast_S_S100000x98 y i (idx_main_v111 i) (fun a => a.elim0)

def val_main_v112 : (⟨S1600000x1, .i32⟩ : BufTy).Contents (Elt F) :=
  broadcastInDim S1600000x1 ![0] bcast_S1600000_S1600000x1_0 (val_main_v3 (F := F) x1)
abbrev idx_main_v112 (i : S1600000x1.Idx) : S1600000.Idx := fun a => match a with
  | ⟨0, _⟩ => ⟨(i 0).val, (i 0).isLt⟩
theorem val_main_v112_apply (i : S1600000x1.Idx) :
    val_main_v112 (F := F) x1 i = val_main_v3 (F := F) x1 (idx_main_v112 i) := by
  unfold val_main_v112
  generalize val_main_v3 (F := F) x1 = y
  exact broadcastInDim_apply _ bcast_S1600000_S1600000x1_0 y i (idx_main_v112 i) (fun a => match a with
    | ⟨0, _⟩ => by show (i 0).val = if (1600000 : Nat) = 1 then 0 else (i 0).val; rw [if_neg (by decide)])

def val_main_v113 : (⟨S100000x98, .f32⟩ : BufTy).Contents (Elt F) :=
  Host.scatterAdd scatter_S100000x98_S1600000x1_S1600000x98_1_0_0_1 (val_main_v111 (F := F)) (val_main_v112 (F := F) x1) (val_main_v110 (F := F) x0 x1 x3 x4 x5 x6 x7 x8 x9 x10 x11 x12 x13 x14 x15 x16 x17 x18)

def val_main_v114 : (⟨S100000x98, .f32⟩ : BufTy).Contents (Elt F) :=
  addf (val_main_v103 (F := F) x0 x1 x3 x4 x5 x6 x7 x8 x9 x10 x11 x12 x13 x14 x15 x16 x17 x18) (val_main_v113 (F := F) x0 x1 x3 x4 x5 x6 x7 x8 x9 x10 x11 x12 x13 x14 x15 x16 x17 x18)
theorem val_main_v114_apply (i : S100000x98.Idx) :
    val_main_v114 (F := F) x0 x1 x3 x4 x5 x6 x7 x8 x9 x10 x11 x12 x13 x14 x15 x16 x17 x18 i = FloatOps.addf (val_main_v103 (F := F) x0 x1 x3 x4 x5 x6 x7 x8 x9 x10 x11 x12 x13 x14 x15 x16 x17 x18 i) (val_main_v113 (F := F) x0 x1 x3 x4 x5 x6 x7 x8 x9 x10 x11 x12 x13 x14 x15 x16 x17 x18 i) := rfl

def val_main_v115 : (⟨S100000x98, .f32⟩ : BufTy).Contents (Elt F) :=
  Host.dotGeneral dot_S100000x98_S98x98_S100000x98_1_0_0_1_n_n none (val_main_v114 (F := F) x0 x1 x3 x4 x5 x6 x7 x8 x9 x10 x11 x12 x13 x14 x15 x16 x17 x18) (x19)
abbrev lidx_main_v115 := lidx98
abbrev ridx_main_v115 := ridx98
theorem val_main_v115_apply (i : S100000x98.Idx) :
    val_main_v115 (F := Ideal) z0 z1 z3 z4 z5 z6 z7 z8 z9 z10 z11 z12 z13 z14 z15 z16 z17 z18 z19 i = ∑ k : Fin 98, (val_main_v114 (F := Ideal) z0 z1 z3 z4 z5 z6 z7 z8 z9 z10 z11 z12 z13 z14 z15 z16 z17 z18) (lidx_main_v115 i k) * z19 (ridx_main_v115 i k) :=
  dg98_apply _ _ i

def val_main_v116 : (⟨S1x98, .f32⟩ : BufTy).Contents (Elt F) :=
  broadcastInDim S1x98 ![1] bcast_S98_S1x98_1 (x20)
abbrev idx_main_v116 (i : S1x98.Idx) : S98.Idx := fun a => match a with
  | ⟨0, _⟩ => ⟨(i 1).val, (i 1).isLt⟩
theorem val_main_v116_apply (i : S1x98.Idx) :
    val_main_v116 (F := F) x20 i = x20 (idx_main_v116 i) := by
  unfold val_main_v116
  exact broadcastInDim_apply _ bcast_S98_S1x98_1 x20 i (idx_main_v116 i) (fun a => match a with
    | ⟨0, _⟩ => by show (i 1).val = if (98 : Nat) = 1 then 0 else (i 1).val; rw [if_neg (by decide)])

def val_main_v117 : (⟨S100000x98, .f32⟩ : BufTy).Contents (Elt F) :=
  broadcastInDim S100000x98 ![0, 1] bcast_S1x98_S100000x98_0_1 (val_main_v116 (F := F) x20)
abbrev idx_main_v117 (i : S100000x98.Idx) : S1x98.Idx := fun a => match a with
  | ⟨0, _⟩ => ⟨0, Nat.one_pos⟩
  | ⟨1, _⟩ => ⟨(i 1).val, (i 1).isLt⟩
theorem val_main_v117_apply (i : S100000x98.Idx) :
    val_main_v117 (F := F) x20 i = val_main_v116 (F := F) x20 (idx_main_v117 i) := by
  unfold val_main_v117
  generalize val_main_v116 (F := F) x20 = y
  exact broadcastInDim_apply _ bcast_S1x98_S100000x98_0_1 y i (idx_main_v117 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v118 : (⟨S100000x98, .f32⟩ : BufTy).Contents (Elt F) :=
  addf (val_main_v115 (F := F) x0 x1 x3 x4 x5 x6 x7 x8 x9 x10 x11 x12 x13 x14 x15 x16 x17 x18 x19) (val_main_v117 (F := F) x20)
theorem val_main_v118_apply (i : S100000x98.Idx) :
    val_main_v118 (F := F) x0 x1 x3 x4 x5 x6 x7 x8 x9 x10 x11 x12 x13 x14 x15 x16 x17 x18 x19 x20 i = FloatOps.addf (val_main_v115 (F := F) x0 x1 x3 x4 x5 x6 x7 x8 x9 x10 x11 x12 x13 x14 x15 x16 x17 x18 x19 i) (val_main_v117 (F := F) x20 i) := rfl

def val_main_call8_cst : (⟨S_, .f32⟩ : BufTy).Contents (Elt F) :=
  constant S_ .f32 0x00000000#32
theorem val_main_call8_cst_apply (i : S_.Idx) :
    val_main_call8_cst (F := F) i = FloatOps.ofBits .f32 0x00000000#32 := rfl

def val_main_call8_v0 : (⟨S100000x98, .f32⟩ : BufTy).Contents (Elt F) :=
  broadcastInDim S100000x98 ![] bcast_S_S100000x98 (val_main_call8_cst (F := F))
abbrev idx_main_call8_v0 (i : S100000x98.Idx) : S_.Idx := fun a => a.elim0
theorem val_main_call8_v0_apply (i : S100000x98.Idx) :
    val_main_call8_v0 (F := F) i = val_main_call8_cst (F := F) (idx_main_call8_v0 i) := by
  unfold val_main_call8_v0
  generalize val_main_call8_cst (F := F) = y
  exact broadcastInDim_apply _ bcast_S_S100000x98 y i (idx_main_call8_v0 i) (fun a => a.elim0)

def val_main_v119 : (⟨S100000x98, .f32⟩ : BufTy).Contents (Elt F) :=
  maximumf (val_main_v118 (F := F) x0 x1 x3 x4 x5 x6 x7 x8 x9 x10 x11 x12 x13 x14 x15 x16 x17 x18 x19 x20) (val_main_call8_v0 (F := F))
theorem val_main_v119_apply (i : S100000x98.Idx) :
    val_main_v119 (F := F) x0 x1 x3 x4 x5 x6 x7 x8 x9 x10 x11 x12 x13 x14 x15 x16 x17 x18 x19 x20 i = FloatOps.maximumf (val_main_v118 (F := F) x0 x1 x3 x4 x5 x6 x7 x8 x9 x10 x11 x12 x13 x14 x15 x16 x17 x18 x19 x20 i) (val_main_call8_v0 (F := F) i) := rfl

def val_main_v120 : (⟨S100000x98, .f32⟩ : BufTy).Contents (Elt F) :=
  Host.dotGeneral dot_S100000x98_S98x98_S100000x98_1_0_0_1_n_n none (val_main_v119 (F := F) x0 x1 x3 x4 x5 x6 x7 x8 x9 x10 x11 x12 x13 x14 x15 x16 x17 x18 x19 x20) (x21)
abbrev lidx_main_v120 := lidx98
abbrev ridx_main_v120 := ridx98
theorem val_main_v120_apply (i : S100000x98.Idx) :
    val_main_v120 (F := Ideal) z0 z1 z3 z4 z5 z6 z7 z8 z9 z10 z11 z12 z13 z14 z15 z16 z17 z18 z19 z20 z21 i = ∑ k : Fin 98, (val_main_v119 (F := Ideal) z0 z1 z3 z4 z5 z6 z7 z8 z9 z10 z11 z12 z13 z14 z15 z16 z17 z18 z19 z20) (lidx_main_v120 i k) * z21 (ridx_main_v120 i k) :=
  dg98_apply _ _ i

def val_main_v121 : (⟨S1x98, .f32⟩ : BufTy).Contents (Elt F) :=
  broadcastInDim S1x98 ![1] bcast_S98_S1x98_1 (x22)
abbrev idx_main_v121 (i : S1x98.Idx) : S98.Idx := fun a => match a with
  | ⟨0, _⟩ => ⟨(i 1).val, (i 1).isLt⟩
theorem val_main_v121_apply (i : S1x98.Idx) :
    val_main_v121 (F := F) x22 i = x22 (idx_main_v121 i) := by
  unfold val_main_v121
  exact broadcastInDim_apply _ bcast_S98_S1x98_1 x22 i (idx_main_v121 i) (fun a => match a with
    | ⟨0, _⟩ => by show (i 1).val = if (98 : Nat) = 1 then 0 else (i 1).val; rw [if_neg (by decide)])

def val_main_v122 : (⟨S100000x98, .f32⟩ : BufTy).Contents (Elt F) :=
  broadcastInDim S100000x98 ![0, 1] bcast_S1x98_S100000x98_0_1 (val_main_v121 (F := F) x22)
abbrev idx_main_v122 (i : S100000x98.Idx) : S1x98.Idx := fun a => match a with
  | ⟨0, _⟩ => ⟨0, Nat.one_pos⟩
  | ⟨1, _⟩ => ⟨(i 1).val, (i 1).isLt⟩
theorem val_main_v122_apply (i : S100000x98.Idx) :
    val_main_v122 (F := F) x22 i = val_main_v121 (F := F) x22 (idx_main_v122 i) := by
  unfold val_main_v122
  generalize val_main_v121 (F := F) x22 = y
  exact broadcastInDim_apply _ bcast_S1x98_S100000x98_0_1 y i (idx_main_v122 i) (fun a => match a with
    | ⟨0, _⟩ => by show 0 = if (1 : Nat) = 1 then 0 else (i 0).val; rw [if_pos rfl]
    | ⟨1, _⟩ => by show (i 1).val = if (98 : Nat) = 1 then 0 else (i 1).val; rw [if_neg (by decide)])

def val_main_v123 : (⟨S100000x98, .f32⟩ : BufTy).Contents (Elt F) :=
  addf (val_main_v120 (F := F) x0 x1 x3 x4 x5 x6 x7 x8 x9 x10 x11 x12 x13 x14 x15 x16 x17 x18 x19 x20 x21) (val_main_v122 (F := F) x22)
theorem val_main_v123_apply (i : S100000x98.Idx) :
    val_main_v123 (F := F) x0 x1 x3 x4 x5 x6 x7 x8 x9 x10 x11 x12 x13 x14 x15 x16 x17 x18 x19 x20 x21 x22 i = FloatOps.addf (val_main_v120 (F := F) x0 x1 x3 x4 x5 x6 x7 x8 x9 x10 x11 x12 x13 x14 x15 x16 x17 x18 x19 x20 x21 i) (val_main_v122 (F := F) x22 i) := rfl

def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl

def val_main_v124 : (⟨S100000x98, .f32⟩ : BufTy).Contents (Elt F) :=
  broadcastInDim S100000x98 ![] bcast_S_S100000x98 (val_main_cst_21 (F := F))
abbrev idx_main_v124 (i : S100000x98.Idx) : S_.Idx := fun a => a.elim0
theorem val_main_v124_apply (i : S100000x98.Idx) :
    val_main_v124 (F := F) i = val_main_cst_21 (F := F) (idx_main_v124 i) := by
  unfold val_main_v124
  generalize val_main_cst_21 (F := F) = y
  exact broadcastInDim_apply _ bcast_S_S100000x98 y i (idx_main_v124 i) (fun a => a.elim0)

def val_main_v125 : (⟨S100000x98, .i1⟩ : BufTy).Contents (Elt F) :=
  cmpf .oge (val_main_v123 (F := F) x0 x1 x3 x4 x5 x6 x7 x8 x9 x10 x11 x12 x13 x14 x15 x16 x17 x18 x19 x20 x21 x22) (val_main_v124 (F := F))
theorem val_main_v125_apply (i : S100000x98.Idx) :
    val_main_v125 (F := F) x0 x1 x3 x4 x5 x6 x7 x8 x9 x10 x11 x12 x13 x14 x15 x16 x17 x18 x19 x20 x21 x22 i = FloatOps.cmpf .oge (val_main_v123 (F := F) x0 x1 x3 x4 x5 x6 x7 x8 x9 x10 x11 x12 x13 x14 x15 x16 x17 x18 x19 x20 x21 x22 i) (val_main_v124 (F := F) i) := rfl

def val_main_cst_22 : (⟨S_, .f32⟩ : BufTy).Contents (Elt F) :=
  constant S_ .f32 0x3E6AAAAB#32
theorem val_main_cst_22_apply (i : S_.Idx) :
    val_main_cst_22 (F := F) i = FloatOps.ofBits .f32 0x3E6AAAAB#32 := rfl

def val_main_v126 : (⟨S100000x98, .f32⟩ : BufTy).Contents (Elt F) :=
  broadcastInDim S100000x98 ![] bcast_S_S100000x98 (val_main_cst_22 (F := F))
abbrev idx_main_v126 (i : S100000x98.Idx) : S_.Idx := fun a => a.elim0
theorem val_main_v126_apply (i : S100000x98.Idx) :
    val_main_v126 (F := F) i = val_main_cst_22 (F := F) (idx_main_v126 i) := by
  unfold val_main_v126
  generalize val_main_cst_22 (F := F) = y
  exact broadcastInDim_apply _ bcast_S_S100000x98 y i (idx_main_v126 i) (fun a => a.elim0)

def val_main_v127 : (⟨S100000x98, .f32⟩ : BufTy).Contents (Elt F) :=
  mulf (val_main_v123 (F := F) x0 x1 x3 x4 x5 x6 x7 x8 x9 x10 x11 x12 x13 x14 x15 x16 x17 x18 x19 x20 x21 x22) (val_main_v126 (F := F))
theorem val_main_v127_apply (i : S100000x98.Idx) :
    val_main_v127 (F := F) x0 x1 x3 x4 x5 x6 x7 x8 x9 x10 x11 x12 x13 x14 x15 x16 x17 x18 x19 x20 x21 x22 i = FloatOps.mulf (val_main_v123 (F := F) x0 x1 x3 x4 x5 x6 x7 x8 x9 x10 x11 x12 x13 x14 x15 x16 x17 x18 x19 x20 x21 x22 i) (val_main_v126 (F := F) i) := rfl

def val_main_v128 : (⟨S100000x98, .f32⟩ : BufTy).Contents (Elt F) :=
  select (val_main_v125 (F := F) x0 x1 x3 x4 x5 x6 x7 x8 x9 x10 x11 x12 x13 x14 x15 x16 x17 x18 x19 x20 x21 x22) (val_main_v123 (F := F) x0 x1 x3 x4 x5 x6 x7 x8 x9 x10 x11 x12 x13 x14 x15 x16 x17 x18 x19 x20 x21 x22) (val_main_v127 (F := F) x0 x1 x3 x4 x5 x6 x7 x8 x9 x10 x11 x12 x13 x14 x15 x16 x17 x18 x19 x20 x21 x22)
theorem val_main_v128_apply (i : S100000x98.Idx) :
    val_main_v128 (F := F) x0 x1 x3 x4 x5 x6 x7 x8 x9 x10 x11 x12 x13 x14 x15 x16 x17 x18 x19 x20 x21 x22 i = Scalar.select (val_main_v125 (F := F) x0 x1 x3 x4 x5 x6 x7 x8 x9 x10 x11 x12 x13 x14 x15 x16 x17 x18 x19 x20 x21 x22 i) (val_main_v123 (F := F) x0 x1 x3 x4 x5 x6 x7 x8 x9 x10 x11 x12 x13 x14 x15 x16 x17 x18 x19 x20 x21 x22 i) (val_main_v127 (F := F) x0 x1 x3 x4 x5 x6 x7 x8 x9 x10 x11 x12 x13 x14 x15 x16 x17 x18 x19 x20 x21 x22 i) := rfl

def val_main_v129 : (⟨S100000x120, .f32⟩ : BufTy).Contents (Elt F) :=
  Host.dotGeneral dot_S100000x98_S98x120_S100000x120_1_0_0_1_n_n none (val_main_v128 (F := F) x0 x1 x3 x4 x5 x6 x7 x8 x9 x10 x11 x12 x13 x14 x15 x16 x17 x18 x19 x20 x21 x22) (x23)
theorem lhs_main_v129_0 (i : S100000x120.Idx) (q : dot_S100000x98_S98x120_S100000x120_1_0_0_1_n_n.contr.Idx) :
    (dot_S100000x98_S98x120_S100000x120_1_0_0_1_n_n.lhsIdx i q 0).val = (i 0).val := by
  unfold DotDims.lhsIdx
  rw [dif_neg (show ¬(0 : Fin S100000x98.rank) ∈ dot_S100000x98_S98x120_S100000x120_1_0_0_1_n_n.lhsBatch by decide), dif_pos (show (0 : Fin S100000x98.rank) ∈ dot_S100000x98_S98x120_S100000x120_1_0_0_1_n_n.lhsNonContracting by decide)]
  rfl
theorem lhs_main_v129_1 (i : S100000x120.Idx) (q : dot_S100000x98_S98x120_S100000x120_1_0_0_1_n_n.contr.Idx) :
    (dot_S100000x98_S98x120_S100000x120_1_0_0_1_n_n.lhsIdx i q 1).val = (q ⟨0, by decide⟩).val :=
  dot_S100000x98_S98x120_S100000x120_1_0_0_1_n_n.lhsIdx_val_of_single rfl i q
theorem rhs_main_v129_0 (i : S100000x120.Idx) (q : dot_S100000x98_S98x120_S100000x120_1_0_0_1_n_n.contr.Idx) :
    (dot_S100000x98_S98x120_S100000x120_1_0_0_1_n_n.rhsIdx i q 0).val = (q ⟨0, by decide⟩).val :=
  dot_S100000x98_S98x120_S100000x120_1_0_0_1_n_n.rhsIdx_val_of_single rfl i q
theorem rhs_main_v129_1 (i : S100000x120.Idx) (q : dot_S100000x98_S98x120_S100000x120_1_0_0_1_n_n.contr.Idx) :
    (dot_S100000x98_S98x120_S100000x120_1_0_0_1_n_n.rhsIdx i q 1).val = (i 1).val := by
  unfold DotDims.rhsIdx
  rw [dif_neg (show ¬(1 : Fin S98x120.rank) ∈ dot_S100000x98_S98x120_S100000x120_1_0_0_1_n_n.rhsBatch by decide), dif_pos (show (1 : Fin S98x120.rank) ∈ dot_S100000x98_S98x120_S100000x120_1_0_0_1_n_n.rhsNonContracting by decide)]
  rfl
abbrev lidx_main_v129 (i : S100000x120.Idx) (k : Fin 98) : S100000x98.Idx := fun a => match a with
  | ⟨0, _⟩ => ⟨(i 0).val, (i 0).isLt⟩
  | ⟨1, _⟩ => ⟨k.val, k.isLt⟩
abbrev ridx_main_v129 (i : S100000x120.Idx) (k : Fin 98) : S98x120.Idx := fun a => match a with
  | ⟨0, _⟩ => ⟨k.val, k.isLt⟩
  | ⟨1, _⟩ => ⟨(i 1).val, (i 1).isLt⟩

theorem val_main_v129_apply (i : S100000x120.Idx) :
    val_main_v129 (F := Ideal) z0 z1 z3 z4 z5 z6 z7 z8 z9 z10 z11 z12 z13 z14 z15 z16 z17 z18 z19 z20 z21 z22 z23 i = ∑ k : Fin 98, (val_main_v128 (F := Ideal) z0 z1 z3 z4 z5 z6 z7 z8 z9 z10 z11 z12 z13 z14 z15 z16 z17 z18 z19 z20 z21 z22) (lidx_main_v129 i k) * z23 (ridx_main_v129 i k) := by
  unfold val_main_v129
  generalize val_main_v128 (F := Ideal) z0 z1 z3 z4 z5 z6 z7 z8 z9 z10 z11 z12 z13 z14 z15 z16 z17 z18 z19 z20 z21 z22 = y0
  simp only [Host.dotGeneral]
  rw [Ideal.dotGeneral_apply, ← Equiv.sum_comp (ValueIdx.contrEquiv1 dot_S100000x98_S98x120_S100000x120_1_0_0_1_n_n 98 rfl rfl).symm]
  refine Finset.sum_congr rfl fun k _ => ?_
  have hk := ValueIdx.contrEquiv1_symm_val dot_S100000x98_S98x120_S100000x120_1_0_0_1_n_n 98 rfl rfl k
  have el : dot_S100000x98_S98x120_S100000x120_1_0_0_1_n_n.lhsIdx i ((ValueIdx.contrEquiv1 dot_S100000x98_S98x120_S100000x120_1_0_0_1_n_n 98 rfl rfl).symm k) = lidx_main_v129 i k := funext fun a => Fin.ext (by
    match a with
    | ⟨0, _⟩ => exact lhs_main_v129_0 _ _
    | ⟨1, _⟩ => exact (lhs_main_v129_1 _ _).trans hk)
  have er : dot_S100000x98_S98x120_S100000x120_1_0_0_1_n_n.rhsIdx i ((ValueIdx.contrEquiv1 dot_S100000x98_S98x120_S100000x120_1_0_0_1_n_n 98 rfl rfl).symm k) = ridx_main_v129 i k := funext fun a => Fin.ext (by
    match a with
    | ⟨0, _⟩ => exact (rhs_main_v129_0 _ _).trans hk
    | ⟨1, _⟩ => exact rhs_main_v129_1 _ _)
  rw [el, er]

def val_main_v130 : (⟨S1x120, .f32⟩ : BufTy).Contents (Elt F) :=
  broadcastInDim S1x120 ![1] bcast_S120_S1x120_1 (x24)
abbrev idx_main_v130 (i : S1x120.Idx) : S120.Idx := fun a => match a with
  | ⟨0, _⟩ => ⟨(i 1).val, (i 1).isLt⟩
theorem val_main_v130_apply (i : S1x120.Idx) :
    val_main_v130 (F := F) x24 i = x24 (idx_main_v130 i) := by
  unfold val_main_v130
  exact broadcastInDim_apply _ bcast_S120_S1x120_1 x24 i (idx_main_v130 i) (fun a => match a with
    | ⟨0, _⟩ => by show (i 1).val = if (120 : Nat) = 1 then 0 else (i 1).val; rw [if_neg (by decide)])

def val_main_v131 : (⟨S100000x120, .f32⟩ : BufTy).Contents (Elt F) :=
  broadcastInDim S100000x120 ![0, 1] bcast_S1x120_S100000x120_0_1 (val_main_v130 (F := F) x24)
abbrev idx_main_v131 (i : S100000x120.Idx) : S1x120.Idx := fun a => match a with
  | ⟨0, _⟩ => ⟨0, Nat.one_pos⟩
  | ⟨1, _⟩ => ⟨(i 1).val, (i 1).isLt⟩
theorem val_main_v131_apply (i : S100000x120.Idx) :
    val_main_v131 (F := F) x24 i = val_main_v130 (F := F) x24 (idx_main_v131 i) := by
  unfold val_main_v131
  generalize val_main_v130 (F := F) x24 = y
  exact broadcastInDim_apply _ bcast_S1x120_S100000x120_0_1 y i (idx_main_v131 i) (fun a => match a with
    | ⟨0, _⟩ => by show 0 = if (1 : Nat) = 1 then 0 else (i 0).val; rw [if_pos rfl]
    | ⟨1, _⟩ => by show (i 1).val = if (120 : Nat) = 1 then 0 else (i 1).val; rw [if_neg (by decide)])

def val_main_v132 : (⟨S100000x120, .f32⟩ : BufTy).Contents (Elt F) :=
  addf (val_main_v129 (F := F) x0 x1 x3 x4 x5 x6 x7 x8 x9 x10 x11 x12 x13 x14 x15 x16 x17 x18 x19 x20 x21 x22 x23) (val_main_v131 (F := F) x24)
theorem val_main_v132_apply (i : S100000x120.Idx) :
    val_main_v132 (F := F) x0 x1 x3 x4 x5 x6 x7 x8 x9 x10 x11 x12 x13 x14 x15 x16 x17 x18 x19 x20 x21 x22 x23 x24 i = FloatOps.addf (val_main_v129 (F := F) x0 x1 x3 x4 x5 x6 x7 x8 x9 x10 x11 x12 x13 x14 x15 x16 x17 x18 x19 x20 x21 x22 x23 i) (val_main_v131 (F := F) x24 i) := rfl

def val_main_cst_23 : (⟨S_, .f32⟩ : BufTy).Contents (Elt F) :=
  constant S_ .f32 0x00000000#32
theorem val_main_cst_23_apply (i : S_.Idx) :
    val_main_cst_23 (F := F) i = FloatOps.ofBits .f32 0x00000000#32 := rfl

def val_main_v133 : (⟨S512x120, .f32⟩ : BufTy).Contents (Elt F) :=
  broadcastInDim S512x120 ![] bcast_S_S512x120 (val_main_cst_23 (F := F))
abbrev idx_main_v133 (i : S512x120.Idx) : S_.Idx := fun a => a.elim0
theorem val_main_v133_apply (i : S512x120.Idx) :
    val_main_v133 (F := F) i = val_main_cst_23 (F := F) (idx_main_v133 i) := by
  unfold val_main_v133
  generalize val_main_cst_23 (F := F) = y
  exact broadcastInDim_apply _ bcast_S_S512x120 y i (idx_main_v133 i) (fun a => a.elim0)

def val_main_v134 : (⟨S100000x1, .i32⟩ : BufTy).Contents (Elt F) :=
  broadcastInDim S100000x1 ![0] bcast_S100000_S100000x1_0 (x2)
abbrev idx_main_v134 (i : S100000x1.Idx) : S100000.Idx := fun a => match a with
  | ⟨0, _⟩ => ⟨(i 0).val, (i 0).isLt⟩
theorem val_main_v134_apply (i : S100000x1.Idx) :
    val_main_v134 (F := F) x2 i = x2 (idx_main_v134 i) := by
  unfold val_main_v134
  exact broadcastInDim_apply _ bcast_S100000_S100000x1_0 x2 i (idx_main_v134 i) (fun a => match a with
    | ⟨0, _⟩ => by show (i 0).val = if (100000 : Nat) = 1 then 0 else (i 0).val; rw [if_neg (by decide)])

def val_main_v135 : (⟨S512x120, .f32⟩ : BufTy).Contents (Elt F) :=
  Host.scatterAdd scatter_S512x120_S100000x1_S100000x120_1_0_0_1 (val_main_v133 (F := F)) (val_main_v134 (F := F) x2) (val_main_v132 (F := F) x0 x1 x3 x4 x5 x6 x7 x8 x9 x10 x11 x12 x13 x14 x15 x16 x17 x18 x19 x20 x21 x22 x23 x24)

def val_main_cst_24 : (⟨S_, .f32⟩ : BufTy).Contents (Elt F) :=
  constant S_ .f32 0x00000000#32
theorem val_main_cst_24_apply (i : S_.Idx) :
    val_main_cst_24 (F := F) i = FloatOps.ofBits .f32 0x00000000#32 := rfl

def val_main_v136 : (⟨S512, .f32⟩ : BufTy).Contents (Elt F) :=
  Host.reduceAdd (val_main_v135 (F := F) x0 x1 x2 x3 x4 x5 x6 x7 x8 x9 x10 x11 x12 x13 x14 x15 x16 x17 x18 x19 x20 x21 x22 x23 x24) (val_main_cst_24 (F := F)) reducesTo_S512x120_S512_d1 h_S_
abbrev idx_main_v136 (i : S512.Idx) (k : Fin 120) : S512x120.Idx := fun a => match a with
  | ⟨0, _⟩ => ⟨(i 0).val, (i 0).isLt⟩
  | ⟨1, _⟩ => ⟨k.val, k.isLt⟩

theorem val_main_v136_apply (i : S512.Idx) :
    val_main_v136 (F := Ideal) z0 z1 z2 z3 z4 z5 z6 z7 z8 z9 z10 z11 z12 z13 z14 z15 z16 z17 z18 z19 z20 z21 z22 z23 z24 i = (val_main_cst_24 (F := Ideal)) (Shape.Idx.first h_S_) + ∑ k : Fin 120, (val_main_v135 (F := Ideal) z0 z1 z2 z3 z4 z5 z6 z7 z8 z9 z10 z11 z12 z13 z14 z15 z16 z17 z18 z19 z20 z21 z22 z23 z24) (idx_main_v136 i k) := by
  unfold val_main_v136
  generalize val_main_v135 (F := Ideal) z0 z1 z2 z3 z4 z5 z6 z7 z8 z9 z10 z11 z12 z13 z14 z15 z16 z17 z18 z19 z20 z21 z22 z23 z24 = y0
  simp only [Host.reduceAdd, Ideal.hostReduceAdd_def]
  rw [Ideal.hostReduceAdd_single reducesTo_S512x120_S512_d1 (by decide)]
  refine congrArg (_ + ·) (Finset.sum_congr rfl fun k _ => ?_)
  exact congrArg y0 (funext fun a => Fin.ext (by match a with | ⟨0, _⟩ => rfl | ⟨1, _⟩ => rfl))

def val_main_v137 : (⟨S512x1, .f32⟩ : BufTy).Contents (Elt F) :=
  broadcastInDim S512x1 ![0] bcast_S512_S512x1_0 (val_main_v136 (F := F) x0 x1 x2 x3 x4 x5 x6 x7 x8 x9 x10 x11 x12 x13 x14 x15 x16 x17 x18 x19 x20 x21 x22 x23 x24)
abbrev idx_main_v137 (i : S512x1.Idx) : S512.Idx := fun a => match a with
  | ⟨0, _⟩ => ⟨(i 0).val, (i 0).isLt⟩
theorem val_main_v137_apply (i : S512x1.Idx) :
    val_main_v137 (F := F) x0 x1 x2 x3 x4 x5 x6 x7 x8 x9 x10 x11 x12 x13 x14 x15 x16 x17 x18 x19 x20 x21 x22 x23 x24 i = val_main_v136 (F := F) x0 x1 x2 x3 x4 x5 x6 x7 x8 x9 x10 x11 x12 x13 x14 x15 x16 x17 x18 x19 x20 x21 x22 x23 x24 (idx_main_v137 i) := by
  unfold val_main_v137
  generalize val_main_v136 (F := F) x0 x1 x2 x3 x4 x5 x6 x7 x8 x9 x10 x11 x12 x13 x14 x15 x16 x17 x18 x19 x20 x21 x22 x23 x24 = y
  exact broadcastInDim_apply _ bcast_S512_S512x1_0 y i (idx_main_v137 i) (fun a => match a with
    | ⟨0, _⟩ => by show (i 0).val = if (512 : Nat) = 1 then 0 else (i 0).val; rw [if_neg (by decide)])

def val_main_cst_25 : (⟨S_, .f32⟩ : BufTy).Contents (Elt F) :=
  constant S_ .f32 0x42F00000#32
theorem val_main_cst_25_apply (i : S_.Idx) :
    val_main_cst_25 (F := F) i = FloatOps.ofBits .f32 0x42F00000#32 := rfl

def val_main_v138 : (⟨S512x1, .f32⟩ : BufTy).Contents (Elt F) :=
  broadcastInDim S512x1 ![] bcast_S_S512x1 (val_main_cst_25 (F := F))
abbrev idx_main_v138 (i : S512x1.Idx) : S_.Idx := fun a => a.elim0
theorem val_main_v138_apply (i : S512x1.Idx) :
    val_main_v138 (F := F) i = val_main_cst_25 (F := F) (idx_main_v138 i) := by
  unfold val_main_v138
  generalize val_main_cst_25 (F := F) = y
  exact broadcastInDim_apply _ bcast_S_S512x1 y i (idx_main_v138 i) (fun a => a.elim0)

def val_main_v139 : (⟨S512x1, .f32⟩ : BufTy).Contents (Elt F) :=
  Host.divf (val_main_v137 (F := F) x0 x1 x2 x3 x4 x5 x6 x7 x8 x9 x10 x11 x12 x13 x14 x15 x16 x17 x18 x19 x20 x21 x22 x23 x24) (val_main_v138 (F := F))
theorem val_main_v139_apply (i : S512x1.Idx) :
    val_main_v139 (F := F) x0 x1 x2 x3 x4 x5 x6 x7 x8 x9 x10 x11 x12 x13 x14 x15 x16 x17 x18 x19 x20 x21 x22 x23 x24 i = FloatOps.hostDivf (val_main_v137 (F := F) x0 x1 x2 x3 x4 x5 x6 x7 x8 x9 x10 x11 x12 x13 x14 x15 x16 x17 x18 x19 x20 x21 x22 x23 x24 i) (val_main_v138 (F := F) i) := rfl

def val_main_v140 : (⟨S512x120, .f32⟩ : BufTy).Contents (Elt F) :=
  broadcastInDim S512x120 ![0, 1] bcast_S512x1_S512x120_0_1 (val_main_v139 (F := F) x0 x1 x2 x3 x4 x5 x6 x7 x8 x9 x10 x11 x12 x13 x14 x15 x16 x17 x18 x19 x20 x21 x22 x23 x24)
abbrev idx_main_v140 (i : S512x120.Idx) : S512x1.Idx := fun a => match a with
  | ⟨0, _⟩ => ⟨(i 0).val, (i 0).isLt⟩
  | ⟨1, _⟩ => ⟨0, Nat.one_pos⟩
theorem val_main_v140_apply (i : S512x120.Idx) :
    val_main_v140 (F := F) x0 x1 x2 x3 x4 x5 x6 x7 x8 x9 x10 x11 x12 x13 x14 x15 x16 x17 x18 x19 x20 x21 x22 x23 x24 i = val_main_v139 (F := F) x0 x1 x2 x3 x4 x5 x6 x7 x8 x9 x10 x11 x12 x13 x14 x15 x16 x17 x18 x19 x20 x21 x22 x23 x24 (idx_main_v140 i) := by
  unfold val_main_v140
  generalize val_main_v139 (F := F) x0 x1 x2 x3 x4 x5 x6 x7 x8 x9 x10 x11 x12 x13 x14 x15 x16 x17 x18 x19 x20 x21 x22 x23 x24 = y
  exact broadcastInDim_apply _ bcast_S512x1_S512x120_0_1 y i (idx_main_v140 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v141 : (⟨S512x120, .f32⟩ : BufTy).Contents (Elt F) :=
  subf (val_main_v135 (F := F) x0 x1 x2 x3 x4 x5 x6 x7 x8 x9 x10 x11 x12 x13 x14 x15 x16 x17 x18 x19 x20 x21 x22 x23 x24) (val_main_v140 (F := F) x0 x1 x2 x3 x4 x5 x6 x7 x8 x9 x10 x11 x12 x13 x14 x15 x16 x17 x18 x19 x20 x21 x22 x23 x24)
theorem val_main_v141_apply (i : S512x120.Idx) :
    val_main_v141 (F := F) x0 x1 x2 x3 x4 x5 x6 x7 x8 x9 x10 x11 x12 x13 x14 x15 x16 x17 x18 x19 x20 x21 x22 x23 x24 i = FloatOps.subf (val_main_v135 (F := F) x0 x1 x2 x3 x4 x5 x6 x7 x8 x9 x10 x11 x12 x13 x14 x15 x16 x17 x18 x19 x20 x21 x22 x23 x24 i) (val_main_v140 (F := F) x0 x1 x2 x3 x4 x5 x6 x7 x8 x9 x10 x11 x12 x13 x14 x15 x16 x17 x18 x19 x20 x21 x22 x23 x24 i) := rfl

def val_main_v142 : (⟨S512x120, .f32⟩ : BufTy).Contents (Elt F) :=
  mulf (val_main_v141 (F := F) x0 x1 x2 x3 x4 x5 x6 x7 x8 x9 x10 x11 x12 x13 x14 x15 x16 x17 x18 x19 x20 x21 x22 x23 x24) (val_main_v141 (F := F) x0 x1 x2 x3 x4 x5 x6 x7 x8 x9 x10 x11 x12 x13 x14 x15 x16 x17 x18 x19 x20 x21 x22 x23 x24)
theorem val_main_v142_apply (i : S512x120.Idx) :
    val_main_v142 (F := F) x0 x1 x2 x3 x4 x5 x6 x7 x8 x9 x10 x11 x12 x13 x14 x15 x16 x17 x18 x19 x20 x21 x22 x23 x24 i = FloatOps.mulf (val_main_v141 (F := F) x0 x1 x2 x3 x4 x5 x6 x7 x8 x9 x10 x11 x12 x13 x14 x15 x16 x17 x18 x19 x20 x21 x22 x23 x24 i) (val_main_v141 (F := F) x0 x1 x2 x3 x4 x5 x6 x7 x8 x9 x10 x11 x12 x13 x14 x15 x16 x17 x18 x19 x20 x21 x22 x23 x24 i) := rfl

def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl

def val_main_v143 : (⟨S512, .f32⟩ : BufTy).Contents (Elt F) :=
  Host.reduceAdd (val_main_v142 (F := F) x0 x1 x2 x3 x4 x5 x6 x7 x8 x9 x10 x11 x12 x13 x14 x15 x16 x17 x18 x19 x20 x21 x22 x23 x24) (val_main_cst_26 (F := F)) reducesTo_S512x120_S512_d1 h_S_
abbrev idx_main_v143 (i : S512.Idx) (k : Fin 120) : S512x120.Idx := fun a => match a with
  | ⟨0, _⟩ => ⟨(i 0).val, (i 0).isLt⟩
  | ⟨1, _⟩ => ⟨k.val, k.isLt⟩

theorem val_main_v143_apply (i : S512.Idx) :
    val_main_v143 (F := Ideal) z0 z1 z2 z3 z4 z5 z6 z7 z8 z9 z10 z11 z12 z13 z14 z15 z16 z17 z18 z19 z20 z21 z22 z23 z24 i = (val_main_cst_26 (F := Ideal)) (Shape.Idx.first h_S_) + ∑ k : Fin 120, (val_main_v142 (F := Ideal) z0 z1 z2 z3 z4 z5 z6 z7 z8 z9 z10 z11 z12 z13 z14 z15 z16 z17 z18 z19 z20 z21 z22 z23 z24) (idx_main_v143 i k) := by
  unfold val_main_v143
  generalize val_main_v142 (F := Ideal) z0 z1 z2 z3 z4 z5 z6 z7 z8 z9 z10 z11 z12 z13 z14 z15 z16 z17 z18 z19 z20 z21 z22 z23 z24 = y0
  simp only [Host.reduceAdd, Ideal.hostReduceAdd_def]
  rw [Ideal.hostReduceAdd_single reducesTo_S512x120_S512_d1 (by decide)]
  refine congrArg (_ + ·) (Finset.sum_congr rfl fun k _ => ?_)
  exact congrArg y0 (funext fun a => Fin.ext (by match a with | ⟨0, _⟩ => rfl | ⟨1, _⟩ => rfl))

def val_main_v144 : (⟨S512x1, .f32⟩ : BufTy).Contents (Elt F) :=
  broadcastInDim S512x1 ![0] bcast_S512_S512x1_0 (val_main_v143 (F := F) x0 x1 x2 x3 x4 x5 x6 x7 x8 x9 x10 x11 x12 x13 x14 x15 x16 x17 x18 x19 x20 x21 x22 x23 x24)
abbrev idx_main_v144 (i : S512x1.Idx) : S512.Idx := fun a => match a with
  | ⟨0, _⟩ => ⟨(i 0).val, (i 0).isLt⟩
theorem val_main_v144_apply (i : S512x1.Idx) :
    val_main_v144 (F := F) x0 x1 x2 x3 x4 x5 x6 x7 x8 x9 x10 x11 x12 x13 x14 x15 x16 x17 x18 x19 x20 x21 x22 x23 x24 i = val_main_v143 (F := F) x0 x1 x2 x3 x4 x5 x6 x7 x8 x9 x10 x11 x12 x13 x14 x15 x16 x17 x18 x19 x20 x21 x22 x23 x24 (idx_main_v144 i) := by
  unfold val_main_v144
  generalize val_main_v143 (F := F) x0 x1 x2 x3 x4 x5 x6 x7 x8 x9 x10 x11 x12 x13 x14 x15 x16 x17 x18 x19 x20 x21 x22 x23 x24 = y
  exact broadcastInDim_apply _ bcast_S512_S512x1_0 y i (idx_main_v144 i) (fun a => match a with
    | ⟨0, _⟩ => by show (i 0).val = if (512 : Nat) = 1 then 0 else (i 0).val; rw [if_neg (by decide)])

def val_main_cst_27 : (⟨S_, .f32⟩ : BufTy).Contents (Elt F) :=
  constant S_ .f32 0x42F00000#32
theorem val_main_cst_27_apply (i : S_.Idx) :
    val_main_cst_27 (F := F) i = FloatOps.ofBits .f32 0x42F00000#32 := rfl

def val_main_v145 : (⟨S512x1, .f32⟩ : BufTy).Contents (Elt F) :=
  broadcastInDim S512x1 ![] bcast_S_S512x1 (val_main_cst_27 (F := F))
abbrev idx_main_v145 (i : S512x1.Idx) : S_.Idx := fun a => a.elim0
theorem val_main_v145_apply (i : S512x1.Idx) :
    val_main_v145 (F := F) i = val_main_cst_27 (F := F) (idx_main_v145 i) := by
  unfold val_main_v145
  generalize val_main_cst_27 (F := F) = y
  exact broadcastInDim_apply _ bcast_S_S512x1 y i (idx_main_v145 i) (fun a => a.elim0)

def val_main_v146 : (⟨S512x1, .f32⟩ : BufTy).Contents (Elt F) :=
  Host.divf (val_main_v144 (F := F) x0 x1 x2 x3 x4 x5 x6 x7 x8 x9 x10 x11 x12 x13 x14 x15 x16 x17 x18 x19 x20 x21 x22 x23 x24) (val_main_v145 (F := F))
theorem val_main_v146_apply (i : S512x1.Idx) :
    val_main_v146 (F := F) x0 x1 x2 x3 x4 x5 x6 x7 x8 x9 x10 x11 x12 x13 x14 x15 x16 x17 x18 x19 x20 x21 x22 x23 x24 i = FloatOps.hostDivf (val_main_v144 (F := F) x0 x1 x2 x3 x4 x5 x6 x7 x8 x9 x10 x11 x12 x13 x14 x15 x16 x17 x18 x19 x20 x21 x22 x23 x24 i) (val_main_v145 (F := F) i) := rfl

def val_main_v147 : (⟨S512x120, .f32⟩ : BufTy).Contents (Elt F) :=
  broadcastInDim S512x120 ![0, 1] bcast_S512x1_S512x120_0_1 (val_main_v139 (F := F) x0 x1 x2 x3 x4 x5 x6 x7 x8 x9 x10 x11 x12 x13 x14 x15 x16 x17 x18 x19 x20 x21 x22 x23 x24)
abbrev idx_main_v147 (i : S512x120.Idx) : S512x1.Idx := fun a => match a with
  | ⟨0, _⟩ => ⟨(i 0).val, (i 0).isLt⟩
  | ⟨1, _⟩ => ⟨0, Nat.one_pos⟩
theorem val_main_v147_apply (i : S512x120.Idx) :
    val_main_v147 (F := F) x0 x1 x2 x3 x4 x5 x6 x7 x8 x9 x10 x11 x12 x13 x14 x15 x16 x17 x18 x19 x20 x21 x22 x23 x24 i = val_main_v139 (F := F) x0 x1 x2 x3 x4 x5 x6 x7 x8 x9 x10 x11 x12 x13 x14 x15 x16 x17 x18 x19 x20 x21 x22 x23 x24 (idx_main_v147 i) := by
  unfold val_main_v147
  generalize val_main_v139 (F := F) x0 x1 x2 x3 x4 x5 x6 x7 x8 x9 x10 x11 x12 x13 x14 x15 x16 x17 x18 x19 x20 x21 x22 x23 x24 = y
  exact broadcastInDim_apply _ bcast_S512x1_S512x120_0_1 y i (idx_main_v147 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v148 : (⟨S512x120, .f32⟩ : BufTy).Contents (Elt F) :=
  subf (val_main_v135 (F := F) x0 x1 x2 x3 x4 x5 x6 x7 x8 x9 x10 x11 x12 x13 x14 x15 x16 x17 x18 x19 x20 x21 x22 x23 x24) (val_main_v147 (F := F) x0 x1 x2 x3 x4 x5 x6 x7 x8 x9 x10 x11 x12 x13 x14 x15 x16 x17 x18 x19 x20 x21 x22 x23 x24)
theorem val_main_v148_apply (i : S512x120.Idx) :
    val_main_v148 (F := F) x0 x1 x2 x3 x4 x5 x6 x7 x8 x9 x10 x11 x12 x13 x14 x15 x16 x17 x18 x19 x20 x21 x22 x23 x24 i = FloatOps.subf (val_main_v135 (F := F) x0 x1 x2 x3 x4 x5 x6 x7 x8 x9 x10 x11 x12 x13 x14 x15 x16 x17 x18 x19 x20 x21 x22 x23 x24 i) (val_main_v147 (F := F) x0 x1 x2 x3 x4 x5 x6 x7 x8 x9 x10 x11 x12 x13 x14 x15 x16 x17 x18 x19 x20 x21 x22 x23 x24 i) := rfl

def val_main_cst_28 : (⟨S_, .f32⟩ : BufTy).Contents (Elt F) :=
  constant S_ .f32 0x3727C5AC#32
theorem val_main_cst_28_apply (i : S_.Idx) :
    val_main_cst_28 (F := F) i = FloatOps.ofBits .f32 0x3727C5AC#32 := rfl

def val_main_v149 : (⟨S512x1, .f32⟩ : BufTy).Contents (Elt F) :=
  broadcastInDim S512x1 ![] bcast_S_S512x1 (val_main_cst_28 (F := F))
abbrev idx_main_v149 (i : S512x1.Idx) : S_.Idx := fun a => a.elim0
theorem val_main_v149_apply (i : S512x1.Idx) :
    val_main_v149 (F := F) i = val_main_cst_28 (F := F) (idx_main_v149 i) := by
  unfold val_main_v149
  generalize val_main_cst_28 (F := F) = y
  exact broadcastInDim_apply _ bcast_S_S512x1 y i (idx_main_v149 i) (fun a => a.elim0)

def val_main_v150 : (⟨S512x1, .f32⟩ : BufTy).Contents (Elt F) :=
  addf (val_main_v146 (F := F) x0 x1 x2 x3 x4 x5 x6 x7 x8 x9 x10 x11 x12 x13 x14 x15 x16 x17 x18 x19 x20 x21 x22 x23 x24) (val_main_v149 (F := F))
theorem val_main_v150_apply (i : S512x1.Idx) :
    val_main_v150 (F := F) x0 x1 x2 x3 x4 x5 x6 x7 x8 x9 x10 x11 x12 x13 x14 x15 x16 x17 x18 x19 x20 x21 x22 x23 x24 i = FloatOps.addf (val_main_v146 (F := F) x0 x1 x2 x3 x4 x5 x6 x7 x8 x9 x10 x11 x12 x13 x14 x15 x16 x17 x18 x19 x20 x21 x22 x23 x24 i) (val_main_v149 (F := F) i) := rfl

def val_main_v151 : (⟨S512x1, .f32⟩ : BufTy).Contents (Elt F) :=
  Host.rsqrt (val_main_v150 (F := F) x0 x1 x2 x3 x4 x5 x6 x7 x8 x9 x10 x11 x12 x13 x14 x15 x16 x17 x18 x19 x20 x21 x22 x23 x24)
theorem val_main_v151_apply (i : S512x1.Idx) :
    val_main_v151 (F := F) x0 x1 x2 x3 x4 x5 x6 x7 x8 x9 x10 x11 x12 x13 x14 x15 x16 x17 x18 x19 x20 x21 x22 x23 x24 i = FloatOps.hostUnary .rsqrt (val_main_v150 (F := F) x0 x1 x2 x3 x4 x5 x6 x7 x8 x9 x10 x11 x12 x13 x14 x15 x16 x17 x18 x19 x20 x21 x22 x23 x24 i) := rfl

def val_main_v152 : (⟨S512x120, .f32⟩ : BufTy).Contents (Elt F) :=
  broadcastInDim S512x120 ![0, 1] bcast_S512x1_S512x120_0_1 (val_main_v151 (F := F) x0 x1 x2 x3 x4 x5 x6 x7 x8 x9 x10 x11 x12 x13 x14 x15 x16 x17 x18 x19 x20 x21 x22 x23 x24)
abbrev idx_main_v152 (i : S512x120.Idx) : S512x1.Idx := fun a => match a with
  | ⟨0, _⟩ => ⟨(i 0).val, (i 0).isLt⟩
  | ⟨1, _⟩ => ⟨0, Nat.one_pos⟩
theorem val_main_v152_apply (i : S512x120.Idx) :
    val_main_v152 (F := F) x0 x1 x2 x3 x4 x5 x6 x7 x8 x9 x10 x11 x12 x13 x14 x15 x16 x17 x18 x19 x20 x21 x22 x23 x24 i = val_main_v151 (F := F) x0 x1 x2 x3 x4 x5 x6 x7 x8 x9 x10 x11 x12 x13 x14 x15 x16 x17 x18 x19 x20 x21 x22 x23 x24 (idx_main_v152 i) := by
  unfold val_main_v152
  generalize val_main_v151 (F := F) x0 x1 x2 x3 x4 x5 x6 x7 x8 x9 x10 x11 x12 x13 x14 x15 x16 x17 x18 x19 x20 x21 x22 x23 x24 = y
  exact broadcastInDim_apply _ bcast_S512x1_S512x120_0_1 y i (idx_main_v152 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v153 : (⟨S512x120, .f32⟩ : BufTy).Contents (Elt F) :=
  mulf (val_main_v148 (F := F) x0 x1 x2 x3 x4 x5 x6 x7 x8 x9 x10 x11 x12 x13 x14 x15 x16 x17 x18 x19 x20 x21 x22 x23 x24) (val_main_v152 (F := F) x0 x1 x2 x3 x4 x5 x6 x7 x8 x9 x10 x11 x12 x13 x14 x15 x16 x17 x18 x19 x20 x21 x22 x23 x24)
theorem val_main_v153_apply (i : S512x120.Idx) :
    val_main_v153 (F := F) x0 x1 x2 x3 x4 x5 x6 x7 x8 x9 x10 x11 x12 x13 x14 x15 x16 x17 x18 x19 x20 x21 x22 x23 x24 i = FloatOps.mulf (val_main_v148 (F := F) x0 x1 x2 x3 x4 x5 x6 x7 x8 x9 x10 x11 x12 x13 x14 x15 x16 x17 x18 x19 x20 x21 x22 x23 x24 i) (val_main_v152 (F := F) x0 x1 x2 x3 x4 x5 x6 x7 x8 x9 x10 x11 x12 x13 x14 x15 x16 x17 x18 x19 x20 x21 x22 x23 x24 i) := rfl

def val_main_v154 : (⟨S1x120, .f32⟩ : BufTy).Contents (Elt F) :=
  broadcastInDim S1x120 ![1] bcast_S120_S1x120_1 (x25)
abbrev idx_main_v154 (i : S1x120.Idx) : S120.Idx := fun a => match a with
  | ⟨0, _⟩ => ⟨(i 1).val, (i 1).isLt⟩
theorem val_main_v154_apply (i : S1x120.Idx) :
    val_main_v154 (F := F) x25 i = x25 (idx_main_v154 i) := by
  unfold val_main_v154
  exact broadcastInDim_apply _ bcast_S120_S1x120_1 x25 i (idx_main_v154 i) (fun a => match a with
    | ⟨0, _⟩ => by show (i 1).val = if (120 : Nat) = 1 then 0 else (i 1).val; rw [if_neg (by decide)])

def val_main_v155 : (⟨S512x120, .f32⟩ : BufTy).Contents (Elt F) :=
  broadcastInDim S512x120 ![0, 1] bcast_S1x120_S512x120_0_1 (val_main_v154 (F := F) x25)
abbrev idx_main_v155 (i : S512x120.Idx) : S1x120.Idx := fun a => match a with
  | ⟨0, _⟩ => ⟨0, Nat.one_pos⟩
  | ⟨1, _⟩ => ⟨(i 1).val, (i 1).isLt⟩
theorem val_main_v155_apply (i : S512x120.Idx) :
    val_main_v155 (F := F) x25 i = val_main_v154 (F := F) x25 (idx_main_v155 i) := by
  unfold val_main_v155
  generalize val_main_v154 (F := F) x25 = y
  exact broadcastInDim_apply _ bcast_S1x120_S512x120_0_1 y i (idx_main_v155 i) (fun a => match a with
    | ⟨0, _⟩ => by show 0 = if (1 : Nat) = 1 then 0 else (i 0).val; rw [if_pos rfl]
    | ⟨1, _⟩ => by show (i 1).val = if (120 : Nat) = 1 then 0 else (i 1).val; rw [if_neg (by decide)])

def val_main_v156 (x24 x25 : (⟨S120, .f32⟩ : BufTy).Contents (Elt F)) : (⟨S512x120, .f32⟩ : BufTy).Contents (Elt F) :=
  mulf (val_main_v153 (F := F) x0 x1 x2 x3 x4 x5 x6 x7 x8 x9 x10 x11 x12 x13 x14 x15 x16 x17 x18 x19 x20 x21 x22 x23 x24) (val_main_v155 (F := F) x25)
theorem val_main_v156_apply (x24 x25 : (⟨S120, .f32⟩ : BufTy).Contents (Elt F)) (i : S512x120.Idx) :
    val_main_v156 (F := F) x0 x1 x2 x3 x4 x5 x6 x7 x8 x9 x10 x11 x12 x13 x14 x15 x16 x17 x18 x19 x20 x21 x22 x23 x24 x25 i = FloatOps.mulf (val_main_v153 (F := F) x0 x1 x2 x3 x4 x5 x6 x7 x8 x9 x10 x11 x12 x13 x14 x15 x16 x17 x18 x19 x20 x21 x22 x23 x24 i) (val_main_v155 (F := F) x25 i) := rfl

def val_main_v157 : (⟨S1x120, .f32⟩ : BufTy).Contents (Elt F) :=
  broadcastInDim S1x120 ![1] bcast_S120_S1x120_1 (x26)
abbrev idx_main_v157 (i : S1x120.Idx) : S120.Idx := fun a => match a with
  | ⟨0, _⟩ => ⟨(i 1).val, (i 1).isLt⟩
theorem val_main_v157_apply (i : S1x120.Idx) :
    val_main_v157 (F := F) x26 i = x26 (idx_main_v157 i) := by
  unfold val_main_v157
  exact broadcastInDim_apply _ bcast_S120_S1x120_1 x26 i (idx_main_v157 i) (fun a => match a with
    | ⟨0, _⟩ => by show (i 1).val = if (120 : Nat) = 1 then 0 else (i 1).val; rw [if_neg (by decide)])

def val_main_v158 : (⟨S512x120, .f32⟩ : BufTy).Contents (Elt F) :=
  broadcastInDim S512x120 ![0, 1] bcast_S1x120_S512x120_0_1 (val_main_v157 (F := F) x26)
abbrev idx_main_v158 (i : S512x120.Idx) : S1x120.Idx := fun a => match a with
  | ⟨0, _⟩ => ⟨0, Nat.one_pos⟩
  | ⟨1, _⟩ => ⟨(i 1).val, (i 1).isLt⟩
theorem val_main_v158_apply (i : S512x120.Idx) :
    val_main_v158 (F := F) x26 i = val_main_v157 (F := F) x26 (idx_main_v158 i) := by
  unfold val_main_v158
  generalize val_main_v157 (F := F) x26 = y
  exact broadcastInDim_apply _ bcast_S1x120_S512x120_0_1 y i (idx_main_v158 i) (fun a => match a with
    | ⟨0, _⟩ => by show 0 = if (1 : Nat) = 1 then 0 else (i 0).val; rw [if_pos rfl]
    | ⟨1, _⟩ => by show (i 1).val = if (120 : Nat) = 1 then 0 else (i 1).val; rw [if_neg (by decide)])

def val_main_v159 (x24 x25 x26 : (⟨S120, .f32⟩ : BufTy).Contents (Elt F)) : (⟨S512x120, .f32⟩ : BufTy).Contents (Elt F) :=
  addf (val_main_v156 (F := F) x0 x1 x2 x3 x4 x5 x6 x7 x8 x9 x10 x11 x12 x13 x14 x15 x16 x17 x18 x19 x20 x21 x22 x23 x24 x25) (val_main_v158 (F := F) x26)
theorem val_main_v159_apply (x24 x25 x26 : (⟨S120, .f32⟩ : BufTy).Contents (Elt F)) (i : S512x120.Idx) :
    val_main_v159 (F := F) x0 x1 x2 x3 x4 x5 x6 x7 x8 x9 x10 x11 x12 x13 x14 x15 x16 x17 x18 x19 x20 x21 x22 x23 x24 x25 x26 i = FloatOps.addf (val_main_v156 (F := F) x0 x1 x2 x3 x4 x5 x6 x7 x8 x9 x10 x11 x12 x13 x14 x15 x16 x17 x18 x19 x20 x21 x22 x23 x24 x25 i) (val_main_v158 (F := F) x26 i) := rfl

end Cert.ReferenceIdeal.ReadP

end
-- ==== Proof.Ref.Run1.lean ====
/- The reference program's operations cut into eight stretches; what each stretch writes and keeps. -/
import proofs.«420535_j82145544503553_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local macro "writes_one" : tactic =>
  `(tactic| (simp only [nullary_writes, unary_writes, binary_writes, ternary_writes, quaternary_writes, reshape_writes, Finset.singleton_subset_iff, List.mem_toFinset]; exact List.mem_map_of_mem (by decide)))

abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

theorem ops0_sub : (ops0 : List (HloOp τ sig (Elt F))).Forall fun op => op.bufs ⊆ tcRefs τ sig :=
  ⟨unary_bufs_sub .., reshape_bufs_sub .., unary_bufs_sub .., reshape_bufs_sub ..⟩

theorem ops0_fresh : (ops0 : List (HloOp τ sig (Elt F))).Forall fun op => op.fresh = ∅ := by
  simp only [List.Forall]; repeat' constructor

abbrev ops0_W : List (Ref sig .tc) := [main_v0, main_v1, main_v2, main_v3]

set_option maxRecDepth 8192 in
theorem ops0_writes : (ops0 : List (HloOp τ sig (Elt F))).Forall fun op => op.writes ⊆ (ops0_W.map (Proc.devRef (τ := τ) .tc)).toFinset := by
  simp only [List.Forall]; exact ⟨by writes_one, by writes_one, by writes_one, by writes_one⟩

theorem keep0 (V : Valuation τ sig (Elt F)) (r : Ref sig .tc) (h : r ∉ ops0_W) :
    after ops0 V (Proc.devRef .tc r) = V (Proc.devRef .tc r) :=
  after_of_writes_sub ops0 V ops0_writes h

abbrev ops1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x108_S1600000x1_S1600000x108_1_0_n_n_0_1_1108 x i) : (⟨S100000x108, .f32⟩ : BufTy).Contents (Elt F) → (⟨S1600000x1, .i32⟩ : BufTy).Contents (Elt F) → (⟨S1600000x108, .f32⟩ : BufTy).Contents (Elt F)),
    nullary main_cst (constant S_ .f32 0x00000000#32),
    unary main_cst main_v11 (broadcastInDim S100000x108 ![] bcast_S_S100000x108 : (⟨S_, .f32⟩ : BufTy).Contents (Elt F) → (⟨S100000x108, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x108_S1600000x1_S1600000x108_1_0_0_1 x i u) : (⟨S100000x108, .f32⟩ : BufTy).Contents (Elt F) → (⟨S1600000x1, .i32⟩ : BufTy).Contents (Elt F) → (⟨S1600000x108, .f32⟩ : BufTy).Contents (Elt F) → (⟨S100000x108, .f32⟩ : BufTy).Contents (Elt F)),
    binary main_arg0 main_v13 main_v14 (addf : (⟨S100000x108, .f32⟩ : BufTy).Contents (Elt F) → (⟨S100000x108, .f32⟩ : BufTy).Contents (Elt F) → (⟨S100000x108, .f32⟩ : BufTy).Contents (Elt F)),
    binary main_v14 main_arg3 main_v15 ((fun l r => Host.dotGeneral dot_S100000x108_S108x98_S100000x98_1_0_0_1_n_n none l r) : (⟨S100000x108, .f32⟩ : BufTy).Contents (Elt F) → (⟨S108x98, .f32⟩ : BufTy).Contents (Elt F) → (⟨S100000x98, .f32⟩ : BufTy).Contents (Elt F)),
    unary main_arg4 main_v16 (broadcastInDim S1x98 ![1] bcast_S98_S1x98_1 : (⟨S98, .f32⟩ : BufTy).Contents (Elt F) → (⟨S1x98, .f32⟩ : BufTy).Contents (Elt F)),
    unary main_v16 main_v17 (broadcastInDim S100000x98 ![0, 1] bcast_S1x98_S100000x98_0_1 : (⟨S1x98, .f32⟩ : BufTy).Contents (Elt F) → (⟨S100000x98, .f32⟩ : BufTy).Contents (Elt F)),
    binary main_v15 main_v17 main_v18 (addf : (⟨S100000x98, .f32⟩ : BufTy).Contents (Elt F) → (⟨S100000x98, .f32⟩ : BufTy).Contents (Elt F) → (⟨S100000x98, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x98, .f32⟩) main_call0_v0) (broadcastInDim S100000x98 ![] bcast_S_S100000x98),
    TRef.binary (TRef.of (T := ⟨S100000x98, .f32⟩) main_v18) (TRef.of (T := ⟨S100000x98, .f32⟩) main_call0_v0) (TRef.of (T := ⟨S100000x98, .f32⟩) main_v19) maximumf,
    binary main_v19 main_arg5 main_v20 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg6 main_v21 (broadcastInDim S1x98 ![1] bcast_S98_S1x98_1 : (⟨S98, .f32⟩ : BufTy).Contents (Elt F) → (⟨S1x98, .f32⟩ : BufTy).Contents (Elt F)),
    unary main_v21 main_v22 (broadcastInDim S100000x98 ![0, 1] bcast_S1x98_S100000x98_0_1 : (⟨S1x98, .f32⟩ : BufTy).Contents (Elt F) → (⟨S100000x98, .f32⟩ : BufTy).Contents (Elt F)),
    binary main_v20 main_v22 main_v23 (addf : (⟨S100000x98, .f32⟩ : BufTy).Contents (Elt F) → (⟨S100000x98, .f32⟩ : BufTy).Contents (Elt F) → (⟨S100000x98, .f32⟩ : BufTy).Contents (Elt F)),
    nullary main_cst_1 (constant S_ .f32 0x00000000#32),
    unary main_cst_1 main_v24 (broadcastInDim S100000x98 ![] bcast_S_S100000x98 : (⟨S_, .f32⟩ : BufTy).Contents (Elt F) → (⟨S100000x98, .f32⟩ : BufTy).Contents (Elt F)),
    binary main_v23 main_v24 main_v25 (cmpf .oge : (⟨S100000x98, .f32⟩ : BufTy).Contents (Elt F) → (⟨S100000x98, .f32⟩ : BufTy).Contents (Elt F) → (⟨S100000x98, .i1⟩ : BufTy).Contents (Elt F)),
    nullary main_cst_2 (constant S_ .f32 0x3E6AAAAB#32),
    unary main_cst_2 main_v26 (broadcastInDim S100000x98 ![] bcast_S_S100000x98 : (⟨S_, .f32⟩ : BufTy).Contents (Elt F) → (⟨S100000x98, .f32⟩ : BufTy).Contents (Elt F)),
    binary main_v23 main_v26 main_v27 (mulf : (⟨S100000x98, .f32⟩ : BufTy).Contents (Elt F) → (⟨S100000x98, .f32⟩ : BufTy).Contents (Elt F) → (⟨S100000x98, .f32⟩ : BufTy).Contents (Elt F)),
    TRef.ternary (TRef.of (T := ⟨S100000x98, .i1⟩) main_v25) (TRef.of (T := ⟨S100000x98, .f32⟩) main_v23) (TRef.of (T := ⟨S100000x98, .f32⟩) main_v27) (TRef.of (T := ⟨S100000x98, .f32⟩) main_v28) select ]

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops1_fresh : (ops1 : List (HloOp τ sig (Elt F))).Forall fun op => op.fresh = ∅ := by
  simp only [List.Forall]; repeat' constructor

abbrev ops1_W : List (Ref sig .tc) := [main_c, main_v4, main_v5, main_c_0, main_v6, main_v7, main_v8, main_v9, main_v10, main_cst, main_v11, main_v12, main_v13, main_v14, main_v15, main_v16, main_v17, main_v18, main_call0_cst, main_call0_v0, main_v19, main_v20, main_v21, main_v22, main_v23, main_cst_1, main_v24, main_v25, main_cst_2, main_v26, main_v27, main_v28]

set_option maxRecDepth 8192 in
theorem ops1_writes : (ops1 : List (HloOp τ sig (Elt F))).Forall fun op => op.writes ⊆ (ops1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep1 (V : Valuation τ sig (Elt F)) (r : Ref sig .tc) (h : r ∉ ops1_W) :
    after ops1 V (Proc.devRef .tc r) = V (Proc.devRef .tc r) :=
  after_of_writes_sub ops1 V ops1_writes h

abbrev ops2 : List (HloOp τ sig (Elt F)) :=
  [ nullary main_c_3 (constantI S_ 32 0#32),
    unary main_c_3 main_v29 (broadcastInDim S1600000 ![] bcast_S_S1600000 : (⟨S_, .i32⟩ : BufTy).Contents (Elt F) → (⟨S1600000, .i32⟩ : BufTy).Contents (Elt F)),
    binary main_v1 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v31 (broadcastInDim S1600000 ![] bcast_S_S1600000 : (⟨S_, .i32⟩ : BufTy).Contents (Elt F) → (⟨S1600000, .i32⟩ : BufTy).Contents (Elt F)),
    binary main_v1 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v28 main_v34 main_v35 ((fun x i => Host.gather gather_S100000x98_S1600000x1_S1600000x98_1_0_n_n_0_1_198 x i) : (⟨S100000x98, .f32⟩ : BufTy).Contents (Elt F) → (⟨S1600000x1, .i32⟩ : BufTy).Contents (Elt F) → (⟨S1600000x98, .f32⟩ : BufTy).Contents (Elt F)),
    nullary main_cst_5 (constant S_ .f32 0x00000000#32),
    unary main_cst_5 main_v36 (broadcastInDim S100000x98 ![] bcast_S_S100000x98 : (⟨S_, .f32⟩ : BufTy).Contents (Elt F) → (⟨S100000x98, .f32⟩ : BufTy).Contents (Elt F)),
    unary main_v3 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x98_S1600000x1_S1600000x98_1_0_0_1 x i u) : (⟨S100000x98, .f32⟩ : BufTy).Contents (Elt F) → (⟨S1600000x1, .i32⟩ : BufTy).Contents (Elt F) → (⟨S1600000x98, .f32⟩ : BufTy).Contents (Elt F) → (⟨S100000x98, .f32⟩ : BufTy).Contents (Elt F)),
    binary main_v28 main_v38 main_v39 (addf : (⟨S100000x98, .f32⟩ : BufTy).Contents (Elt F) → (⟨S100000x98, .f32⟩ : BufTy).Contents (Elt F) → (⟨S100000x98, .f32⟩ : BufTy).Contents (Elt F)),
    binary main_v39 main_arg7 main_v40 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg8 main_v41 (broadcastInDim S1x98 ![1] bcast_S98_S1x98_1 : (⟨S98, .f32⟩ : BufTy).Contents (Elt F) → (⟨S1x98, .f32⟩ : BufTy).Contents (Elt F)),
    unary main_v41 main_v42 (broadcastInDim S100000x98 ![0, 1] bcast_S1x98_S100000x98_0_1 : (⟨S1x98, .f32⟩ : BufTy).Contents (Elt F) → (⟨S100000x98, .f32⟩ : BufTy).Contents (Elt F)),
    binary main_v40 main_v42 main_v43 (addf : (⟨S100000x98, .f32⟩ : BufTy).Contents (Elt F) → (⟨S100000x98, .f32⟩ : BufTy).Contents (Elt F) → (⟨S100000x98, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x98, .f32⟩) main_call2_v0) (broadcastInDim S100000x98 ![] bcast_S_S100000x98),
    TRef.binary (TRef.of (T := ⟨S100000x98, .f32⟩) main_v43) (TRef.of (T := ⟨S100000x98, .f32⟩) main_call2_v0) (TRef.of (T := ⟨S100000x98, .f32⟩) main_v44) maximumf,
    binary main_v44 main_arg9 main_v45 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg10 main_v46 (broadcastInDim S1x98 ![1] bcast_S98_S1x98_1 : (⟨S98, .f32⟩ : BufTy).Contents (Elt F) → (⟨S1x98, .f32⟩ : BufTy).Contents (Elt F)),
    unary main_v46 main_v47 (broadcastInDim S100000x98 ![0, 1] bcast_S1x98_S100000x98_0_1 : (⟨S1x98, .f32⟩ : BufTy).Contents (Elt F) → (⟨S100000x98, .f32⟩ : BufTy).Contents (Elt F)),
    binary main_v45 main_v47 main_v48 (addf : (⟨S100000x98, .f32⟩ : BufTy).Contents (Elt F) → (⟨S100000x98, .f32⟩ : BufTy).Contents (Elt F) → (⟨S100000x98, .f32⟩ : BufTy).Contents (Elt F)),
    nullary main_cst_6 (constant S_ .f32 0x00000000#32),
    unary main_cst_6 main_v49 (broadcastInDim S100000x98 ![] bcast_S_S100000x98 : (⟨S_, .f32⟩ : BufTy).Contents (Elt F) → (⟨S100000x98, .f32⟩ : BufTy).Contents (Elt F)),
    binary main_v48 main_v49 main_v50 (cmpf .oge : (⟨S100000x98, .f32⟩ : BufTy).Contents (Elt F) → (⟨S100000x98, .f32⟩ : BufTy).Contents (Elt F) → (⟨S100000x98, .i1⟩ : BufTy).Contents (Elt F)),
    nullary main_cst_7 (constant S_ .f32 0x3E6AAAAB#32),
    unary main_cst_7 main_v51 (broadcastInDim S100000x98 ![] bcast_S_S100000x98 : (⟨S_, .f32⟩ : BufTy).Contents (Elt F) → (⟨S100000x98, .f32⟩ : BufTy).Contents (Elt F)),
    binary main_v48 main_v51 main_v52 (mulf : (⟨S100000x98, .f32⟩ : BufTy).Contents (Elt F) → (⟨S100000x98, .f32⟩ : BufTy).Contents (Elt F) → (⟨S100000x98, .f32⟩ : BufTy).Contents (Elt F)),
    TRef.ternary (TRef.of (T := ⟨S100000x98, .i1⟩) main_v50) (TRef.of (T := ⟨S100000x98, .f32⟩) main_v48) (TRef.of (T := ⟨S100000x98, .f32⟩) main_v52) (TRef.of (T := ⟨S100000x98, .f32⟩) main_v53) select ]

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops2_fresh : (ops2 : List (HloOp τ sig (Elt F))).Forall fun op => op.fresh = ∅ := by
  simp only [List.Forall]; repeat' constructor

abbrev ops2_W : List (Ref sig .tc) := [main_c_3, main_v29, main_v30, main_c_4, main_v31, main_v32, main_v33, main_v34, main_v35, main_cst_5, main_v36, main_v37, main_v38, main_v39, main_v40, main_v41, main_v42, main_v43, main_call2_cst, main_call2_v0, main_v44, main_v45, main_v46, main_v47, main_v48, main_cst_6, main_v49, main_v50, main_cst_7, main_v51, main_v52, main_v53]

set_option maxRecDepth 8192 in
theorem ops2_writes : (ops2 : List (HloOp τ sig (Elt F))).Forall fun op => op.writes ⊆ (ops2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep2 (V : Valuation τ sig (Elt F)) (r : Ref sig .tc) (h : r ∉ ops2_W) :
    after ops2 V (Proc.devRef .tc r) = V (Proc.devRef .tc r) :=
  after_of_writes_sub ops2 V ops2_writes h

abbrev ops3 : List (HloOp τ sig (Elt F)) :=
  [ nullary main_c_8 (constantI S_ 32 0#32),
    unary main_c_8 main_v54 (broadcastInDim S1600000 ![] bcast_S_S1600000 : (⟨S_, .i32⟩ : BufTy).Contents (Elt F) → (⟨S1600000, .i32⟩ : BufTy).Contents (Elt F)),
    binary main_v1 main_v54 main_v55 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v56 (broadcastInDim S1600000 ![] bcast_S_S1600000 : (⟨S_, .i32⟩ : BufTy).Contents (Elt F) → (⟨S1600000, .i32⟩ : BufTy).Contents (Elt F)),
    binary main_v1 main_v56 main_v57 (addi : (⟨S1600000, .i32⟩ : BufTy).Contents (Elt F) → (⟨S1600000, .i32⟩ : BufTy).Contents (Elt F) → (⟨S1600000, .i32⟩ : BufTy).Contents (Elt F)),
    ternary main_v55 main_v57 main_v1 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v58 main_v59 (broadcastInDim S1600000x1 ![0] bcast_S1600000_S1600000x1_0 : (⟨S1600000, .i32⟩ : BufTy).Contents (Elt F) → (⟨S1600000x1, .i32⟩ : BufTy).Contents (Elt F)),
    binary main_v53 main_v59 main_v60 ((fun x i => Host.gather gather_S100000x98_S1600000x1_S1600000x98_1_0_n_n_0_1_198 x i) : (⟨S100000x98, .f32⟩ : BufTy).Contents (Elt F) → (⟨S1600000x1, .i32⟩ : BufTy).Contents (Elt F) → (⟨S1600000x98, .f32⟩ : BufTy).Contents (Elt F)),
    nullary main_cst_10 (constant S_ .f32 0x00000000#32),
    unary main_cst_10 main_v61 (broadcastInDim S100000x98 ![] bcast_S_S100000x98 : (⟨S_, .f32⟩ : BufTy).Contents (Elt F) → (⟨S100000x98, .f32⟩ : BufTy).Contents (Elt F)),
    unary main_v3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x98_S1600000x1_S1600000x98_1_0_0_1 x i u) : (⟨S100000x98, .f32⟩ : BufTy).Contents (Elt F) → (⟨S1600000x1, .i32⟩ : BufTy).Contents (Elt F) → (⟨S1600000x98, .f32⟩ : BufTy).Contents (Elt F) → (⟨S100000x98, .f32⟩ : BufTy).Contents (Elt F)),
    binary main_v53 main_v63 main_v64 (addf : (⟨S100000x98, .f32⟩ : BufTy).Contents (Elt F) → (⟨S100000x98, .f32⟩ : BufTy).Contents (Elt F) → (⟨S100000x98, .f32⟩ : BufTy).Contents (Elt F)),
    binary main_v64 main_arg11 main_v65 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg12 main_v66 (broadcastInDim S1x98 ![1] bcast_S98_S1x98_1 : (⟨S98, .f32⟩ : BufTy).Contents (Elt F) → (⟨S1x98, .f32⟩ : BufTy).Contents (Elt F)),
    unary main_v66 main_v67 (broadcastInDim S100000x98 ![0, 1] bcast_S1x98_S100000x98_0_1 : (⟨S1x98, .f32⟩ : BufTy).Contents (Elt F) → (⟨S100000x98, .f32⟩ : BufTy).Contents (Elt F)),
    binary main_v65 main_v67 main_v68 (addf : (⟨S100000x98, .f32⟩ : BufTy).Contents (Elt F) → (⟨S100000x98, .f32⟩ : BufTy).Contents (Elt F) → (⟨S100000x98, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x98, .f32⟩) main_call4_v0) (broadcastInDim S100000x98 ![] bcast_S_S100000x98),
    TRef.binary (TRef.of (T := ⟨S100000x98, .f32⟩) main_v68) (TRef.of (T := ⟨S100000x98, .f32⟩) main_call4_v0) (TRef.of (T := ⟨S100000x98, .f32⟩) main_v69) maximumf,
    binary main_v69 main_arg13 main_v70 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg14 main_v71 (broadcastInDim S1x98 ![1] bcast_S98_S1x98_1 : (⟨S98, .f32⟩ : BufTy).Contents (Elt F) → (⟨S1x98, .f32⟩ : BufTy).Contents (Elt F)),
    unary main_v71 main_v72 (broadcastInDim S100000x98 ![0, 1] bcast_S1x98_S100000x98_0_1 : (⟨S1x98, .f32⟩ : BufTy).Contents (Elt F) → (⟨S100000x98, .f32⟩ : BufTy).Contents (Elt F)),
    binary main_v70 main_v72 main_v73 (addf : (⟨S100000x98, .f32⟩ : BufTy).Contents (Elt F) → (⟨S100000x98, .f32⟩ : BufTy).Contents (Elt F) → (⟨S100000x98, .f32⟩ : BufTy).Contents (Elt F)),
    nullary main_cst_11 (constant S_ .f32 0x00000000#32),
    unary main_cst_11 main_v74 (broadcastInDim S100000x98 ![] bcast_S_S100000x98 : (⟨S_, .f32⟩ : BufTy).Contents (Elt F) → (⟨S100000x98, .f32⟩ : BufTy).Contents (Elt F)),
    binary main_v73 main_v74 main_v75 (cmpf .oge : (⟨S100000x98, .f32⟩ : BufTy).Contents (Elt F) → (⟨S100000x98, .f32⟩ : BufTy).Contents (Elt F) → (⟨S100000x98, .i1⟩ : BufTy).Contents (Elt F)),
    nullary main_cst_12 (constant S_ .f32 0x3E6AAAAB#32),
    unary main_cst_12 main_v76 (broadcastInDim S100000x98 ![] bcast_S_S100000x98 : (⟨S_, .f32⟩ : BufTy).Contents (Elt F) → (⟨S100000x98, .f32⟩ : BufTy).Contents (Elt F)),
    binary main_v73 main_v76 main_v77 (mulf : (⟨S100000x98, .f32⟩ : BufTy).Contents (Elt F) → (⟨S100000x98, .f32⟩ : BufTy).Contents (Elt F) → (⟨S100000x98, .f32⟩ : BufTy).Contents (Elt F)),
    TRef.ternary (TRef.of (T := ⟨S100000x98, .i1⟩) main_v75) (TRef.of (T := ⟨S100000x98, .f32⟩) main_v73) (TRef.of (T := ⟨S100000x98, .f32⟩) main_v77) (TRef.of (T := ⟨S100000x98, .f32⟩) main_v78) select ]

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops3_fresh : (ops3 : List (HloOp τ sig (Elt F))).Forall fun op => op.fresh = ∅ := by
  simp only [List.Forall]; repeat' constructor

abbrev ops3_W : List (Ref sig .tc) := [main_c_8, main_v54, main_v55, main_c_9, main_v56, main_v57, main_v58, main_v59, main_v60, main_cst_10, main_v61, main_v62, main_v63, main_v64, main_v65, main_v66, main_v67, main_v68, main_call4_cst, main_call4_v0, main_v69, main_v70, main_v71, main_v72, main_v73, main_cst_11, main_v74, main_v75, main_cst_12, main_v76, main_v77, main_v78]

set_option maxRecDepth 8192 in
theorem ops3_writes : (ops3 : List (HloOp τ sig (Elt F))).Forall fun op => op.writes ⊆ (ops3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep3 (V : Valuation τ sig (Elt F)) (r : Ref sig .tc) (h : r ∉ ops3_W) :
    after ops3 V (Proc.devRef .tc r) = V (Proc.devRef .tc r) :=
  after_of_writes_sub ops3 V ops3_writes h

abbrev ops4 : List (HloOp τ sig (Elt F)) :=
  [ nullary main_c_13 (constantI S_ 32 0#32),
    unary main_c_13 main_v79 (broadcastInDim S1600000 ![] bcast_S_S1600000 : (⟨S_, .i32⟩ : BufTy).Contents (Elt F) → (⟨S1600000, .i32⟩ : BufTy).Contents (Elt F)),
    binary main_v1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v81 (broadcastInDim S1600000 ![] bcast_S_S1600000 : (⟨S_, .i32⟩ : BufTy).Contents (Elt F) → (⟨S1600000, .i32⟩ : BufTy).Contents (Elt F)),
    binary main_v1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x98_S1600000x1_S1600000x98_1_0_n_n_0_1_198 x i) : (⟨S100000x98, .f32⟩ : BufTy).Contents (Elt F) → (⟨S1600000x1, .i32⟩ : BufTy).Contents (Elt F) → (⟨S1600000x98, .f32⟩ : BufTy).Contents (Elt F)),
    nullary main_cst_15 (constant S_ .f32 0x00000000#32),
    unary main_cst_15 main_v86 (broadcastInDim S100000x98 ![] bcast_S_S100000x98 : (⟨S_, .f32⟩ : BufTy).Contents (Elt F) → (⟨S100000x98, .f32⟩ : BufTy).Contents (Elt F)),
    unary main_v3 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000x98_S1600000x1_S1600000x98_1_0_0_1 x i u) : (⟨S100000x98, .f32⟩ : BufTy).Contents (Elt F) → (⟨S1600000x1, .i32⟩ : BufTy).Contents (Elt F) → (⟨S1600000x98, .f32⟩ : BufTy).Contents (Elt F) → (⟨S100000x98, .f32⟩ : BufTy).Contents (Elt F)),
    binary main_v78 main_v88 main_v89 (addf : (⟨S100000x98, .f32⟩ : BufTy).Contents (Elt F) → (⟨S100000x98, .f32⟩ : BufTy).Contents (Elt F) → (⟨S100000x98, .f32⟩ : BufTy).Contents (Elt F)),
    binary main_v89 main_arg15 main_v90 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg16 main_v91 (broadcastInDim S1x98 ![1] bcast_S98_S1x98_1 : (⟨S98, .f32⟩ : BufTy).Contents (Elt F) → (⟨S1x98, .f32⟩ : BufTy).Contents (Elt F)),
    unary main_v91 main_v92 (broadcastInDim S100000x98 ![0, 1] bcast_S1x98_S100000x98_0_1 : (⟨S1x98, .f32⟩ : BufTy).Contents (Elt F) → (⟨S100000x98, .f32⟩ : BufTy).Contents (Elt F)),
    binary main_v90 main_v92 main_v93 (addf : (⟨S100000x98, .f32⟩ : BufTy).Contents (Elt F) → (⟨S100000x98, .f32⟩ : BufTy).Contents (Elt F) → (⟨S100000x98, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x98, .f32⟩) main_call6_v0) (broadcastInDim S100000x98 ![] bcast_S_S100000x98),
    TRef.binary (TRef.of (T := ⟨S100000x98, .f32⟩) main_v93) (TRef.of (T := ⟨S100000x98, .f32⟩) main_call6_v0) (TRef.of (T := ⟨S100000x98, .f32⟩) main_v94) maximumf,
    binary main_v94 main_arg17 main_v95 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg18 main_v96 (broadcastInDim S1x98 ![1] bcast_S98_S1x98_1 : (⟨S98, .f32⟩ : BufTy).Contents (Elt F) → (⟨S1x98, .f32⟩ : BufTy).Contents (Elt F)),
    unary main_v96 main_v97 (broadcastInDim S100000x98 ![0, 1] bcast_S1x98_S100000x98_0_1 : (⟨S1x98, .f32⟩ : BufTy).Contents (Elt F) → (⟨S100000x98, .f32⟩ : BufTy).Contents (Elt F)),
    binary main_v95 main_v97 main_v98 (addf : (⟨S100000x98, .f32⟩ : BufTy).Contents (Elt F) → (⟨S100000x98, .f32⟩ : BufTy).Contents (Elt F) → (⟨S100000x98, .f32⟩ : BufTy).Contents (Elt F)),
    nullary main_cst_16 (constant S_ .f32 0x00000000#32),
    unary main_cst_16 main_v99 (broadcastInDim S100000x98 ![] bcast_S_S100000x98 : (⟨S_, .f32⟩ : BufTy).Contents (Elt F) → (⟨S100000x98, .f32⟩ : BufTy).Contents (Elt F)),
    binary main_v98 main_v99 main_v100 (cmpf .oge : (⟨S100000x98, .f32⟩ : BufTy).Contents (Elt F) → (⟨S100000x98, .f32⟩ : BufTy).Contents (Elt F) → (⟨S100000x98, .i1⟩ : BufTy).Contents (Elt F)),
    nullary main_cst_17 (constant S_ .f32 0x3E6AAAAB#32),
    unary main_cst_17 main_v101 (broadcastInDim S100000x98 ![] bcast_S_S100000x98 : (⟨S_, .f32⟩ : BufTy).Contents (Elt F) → (⟨S100000x98, .f32⟩ : BufTy).Contents (Elt F)),
    binary main_v98 main_v101 main_v102 (mulf : (⟨S100000x98, .f32⟩ : BufTy).Contents (Elt F) → (⟨S100000x98, .f32⟩ : BufTy).Contents (Elt F) → (⟨S100000x98, .f32⟩ : BufTy).Contents (Elt F)),
    TRef.ternary (TRef.of (T := ⟨S100000x98, .i1⟩) main_v100) (TRef.of (T := ⟨S100000x98, .f32⟩) main_v98) (TRef.of (T := ⟨S100000x98, .f32⟩) main_v102) (TRef.of (T := ⟨S100000x98, .f32⟩) main_v103) select ]

theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops4_fresh : (ops4 : List (HloOp τ sig (Elt F))).Forall fun op => op.fresh = ∅ := by
  simp only [List.Forall]; repeat' constructor

abbrev ops4_W : List (Ref sig .tc) := [main_c_13, main_v79, main_v80, main_c_14, main_v81, main_v82, main_v83, main_v84, main_v85, main_cst_15, main_v86, main_v87, main_v88, main_v89, main_v90, main_v91, main_v92, main_v93, main_call6_cst, main_call6_v0, main_v94, main_v95, main_v96, main_v97, main_v98, main_cst_16, main_v99, main_v100, main_cst_17, main_v101, main_v102, main_v103]

set_option maxRecDepth 8192 in
theorem ops4_writes : (ops4 : List (HloOp τ sig (Elt F))).Forall fun op => op.writes ⊆ (ops4_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep4 (V : Valuation τ sig (Elt F)) (r : Ref sig .tc) (h : r ∉ ops4_W) :
    after ops4 V (Proc.devRef .tc r) = V (Proc.devRef .tc r) :=
  after_of_writes_sub ops4 V ops4_writes h

abbrev ops5 : List (HloOp τ sig (Elt F)) :=
  [ nullary main_c_18 (constantI S_ 32 0#32),
    unary main_c_18 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v103 main_v109 main_v110 ((fun x i => Host.gather gather_S100000x98_S1600000x1_S1600000x98_1_0_n_n_0_1_198 x i) : (⟨S100000x98, .f32⟩ : BufTy).Contents (Elt F) → (⟨S1600000x1, .i32⟩ : BufTy).Contents (Elt F) → (⟨S1600000x98, .f32⟩ : BufTy).Contents (Elt F)),
    nullary main_cst_20 (constant S_ .f32 0x00000000#32),
    unary main_cst_20 main_v111 (broadcastInDim S100000x98 ![] bcast_S_S100000x98 : (⟨S_, .f32⟩ : BufTy).Contents (Elt F) → (⟨S100000x98, .f32⟩ : BufTy).Contents (Elt F)),
    unary main_v3 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S100000x98_S1600000x1_S1600000x98_1_0_0_1 x i u) : (⟨S100000x98, .f32⟩ : BufTy).Contents (Elt F) → (⟨S1600000x1, .i32⟩ : BufTy).Contents (Elt F) → (⟨S1600000x98, .f32⟩ : BufTy).Contents (Elt F) → (⟨S100000x98, .f32⟩ : BufTy).Contents (Elt F)),
    binary main_v103 main_v113 main_v114 (addf : (⟨S100000x98, .f32⟩ : BufTy).Contents (Elt F) → (⟨S100000x98, .f32⟩ : BufTy).Contents (Elt F) → (⟨S100000x98, .f32⟩ : BufTy).Contents (Elt F)),
    binary main_v114 main_arg19 main_v115 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg20 main_v116 (broadcastInDim S1x98 ![1] bcast_S98_S1x98_1 : (⟨S98, .f32⟩ : BufTy).Contents (Elt F) → (⟨S1x98, .f32⟩ : BufTy).Contents (Elt F)),
    unary main_v116 main_v117 (broadcastInDim S100000x98 ![0, 1] bcast_S1x98_S100000x98_0_1 : (⟨S1x98, .f32⟩ : BufTy).Contents (Elt F) → (⟨S100000x98, .f32⟩ : BufTy).Contents (Elt F)),
    binary main_v115 main_v117 main_v118 (addf : (⟨S100000x98, .f32⟩ : BufTy).Contents (Elt F) → (⟨S100000x98, .f32⟩ : BufTy).Contents (Elt F) → (⟨S100000x98, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x98, .f32⟩) main_call8_v0) (broadcastInDim S100000x98 ![] bcast_S_S100000x98),
    TRef.binary (TRef.of (T := ⟨S100000x98, .f32⟩) main_v118) (TRef.of (T := ⟨S100000x98, .f32⟩) main_call8_v0) (TRef.of (T := ⟨S100000x98, .f32⟩) main_v119) maximumf,
    binary main_v119 main_arg21 main_v120 ((fun l r => Host.dotGeneral dot_S100000x98_S98x98_S100000x98_1_0_0_1_n_n none l r) : (⟨S100000x98, .f32⟩ : BufTy).Contents (Elt F) → (⟨S98x98, .f32⟩ : BufTy).Contents (Elt F) → (⟨S100000x98, .f32⟩ : BufTy).Contents (Elt F)),
    unary main_arg22 main_v121 (broadcastInDim S1x98 ![1] bcast_S98_S1x98_1 : (⟨S98, .f32⟩ : BufTy).Contents (Elt F) → (⟨S1x98, .f32⟩ : BufTy).Contents (Elt F)),
    unary main_v121 main_v122 (broadcastInDim S100000x98 ![0, 1] bcast_S1x98_S100000x98_0_1 : (⟨S1x98, .f32⟩ : BufTy).Contents (Elt F) → (⟨S100000x98, .f32⟩ : BufTy).Contents (Elt F)),
    binary main_v120 main_v122 main_v123 (addf : (⟨S100000x98, .f32⟩ : BufTy).Contents (Elt F) → (⟨S100000x98, .f32⟩ : BufTy).Contents (Elt F) → (⟨S100000x98, .f32⟩ : BufTy).Contents (Elt F)),
    nullary main_cst_21 (constant S_ .f32 0x00000000#32),
    unary main_cst_21 main_v124 (broadcastInDim S100000x98 ![] bcast_S_S100000x98 : (⟨S_, .f32⟩ : BufTy).Contents (Elt F) → (⟨S100000x98, .f32⟩ : BufTy).Contents (Elt F)),
    binary main_v123 main_v124 main_v125 (cmpf .oge : (⟨S100000x98, .f32⟩ : BufTy).Contents (Elt F) → (⟨S100000x98, .f32⟩ : BufTy).Contents (Elt F) → (⟨S100000x98, .i1⟩ : BufTy).Contents (Elt F)),
    nullary main_cst_22 (constant S_ .f32 0x3E6AAAAB#32),
    unary main_cst_22 main_v126 (broadcastInDim S100000x98 ![] bcast_S_S100000x98 : (⟨S_, .f32⟩ : BufTy).Contents (Elt F) → (⟨S100000x98, .f32⟩ : BufTy).Contents (Elt F)),
    binary main_v123 main_v126 main_v127 (mulf : (⟨S100000x98, .f32⟩ : BufTy).Contents (Elt F) → (⟨S100000x98, .f32⟩ : BufTy).Contents (Elt F) → (⟨S100000x98, .f32⟩ : BufTy).Contents (Elt F)),
    TRef.ternary (TRef.of (T := ⟨S100000x98, .i1⟩) main_v125) (TRef.of (T := ⟨S100000x98, .f32⟩) main_v123) (TRef.of (T := ⟨S100000x98, .f32⟩) main_v127) (TRef.of (T := ⟨S100000x98, .f32⟩) main_v128) select ]

theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem ops5_fresh : (ops5 : List (HloOp τ sig (Elt F))).Forall fun op => op.fresh = ∅ := by
  simp only [List.Forall]; repeat' constructor

abbrev ops5_W : List (Ref sig .tc) := [main_c_18, main_v104, main_v105, main_c_19, main_v106, main_v107, main_v108, main_v109, main_v110, main_cst_20, main_v111, main_v112, main_v113, main_v114, main_v115, main_v116, main_v117, main_v118, main_call8_cst, main_call8_v0, main_v119, main_v120, main_v121, main_v122, main_v123, main_cst_21, main_v124, main_v125, main_cst_22, main_v126, main_v127, main_v128]

set_option maxRecDepth 8192 in
theorem ops5_writes : (ops5 : List (HloOp τ sig (Elt F))).Forall fun op => op.writes ⊆ (ops5_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep5 (V : Valuation τ sig (Elt F)) (r : Ref sig .tc) (h : r ∉ ops5_W) :
    after ops5 V (Proc.devRef .tc r) = V (Proc.devRef .tc r) :=
  after_of_writes_sub ops5 V ops5_writes h

abbrev ops6 : List (HloOp τ sig (Elt F)) :=
  [ binary main_v128 main_arg23 main_v129 ((fun l r => Host.dotGeneral dot_S100000x98_S98x120_S100000x120_1_0_0_1_n_n none l r) : (⟨S100000x98, .f32⟩ : BufTy).Contents (Elt F) → (⟨S98x120, .f32⟩ : BufTy).Contents (Elt F) → (⟨S100000x120, .f32⟩ : BufTy).Contents (Elt F)),
    unary main_arg24 main_v130 (broadcastInDim S1x120 ![1] bcast_S120_S1x120_1 : (⟨S120, .f32⟩ : BufTy).Contents (Elt F) → (⟨S1x120, .f32⟩ : BufTy).Contents (Elt F)),
    unary main_v130 main_v131 (broadcastInDim S100000x120 ![0, 1] bcast_S1x120_S100000x120_0_1 : (⟨S1x120, .f32⟩ : BufTy).Contents (Elt F) → (⟨S100000x120, .f32⟩ : BufTy).Contents (Elt F)),
    binary main_v129 main_v131 main_v132 (addf : (⟨S100000x120, .f32⟩ : BufTy).Contents (Elt F) → (⟨S100000x120, .f32⟩ : BufTy).Contents (Elt F) → (⟨S100000x120, .f32⟩ : BufTy).Contents (Elt F)),
    nullary main_cst_23 (constant S_ .f32 0x00000000#32),
    unary main_cst_23 main_v133 (broadcastInDim S512x120 ![] bcast_S_S512x120 : (⟨S_, .f32⟩ : BufTy).Contents (Elt F) → (⟨S512x120, .f32⟩ : BufTy).Contents (Elt F)),
    unary main_arg2 main_v134 (broadcastInDim S100000x1 ![0] bcast_S100000_S100000x1_0 : (⟨S100000, .i32⟩ : BufTy).Contents (Elt F) → (⟨S100000x1, .i32⟩ : BufTy).Contents (Elt F)),
    ternary main_v133 main_v134 main_v132 main_v135 ((fun x i u => Host.scatterAdd scatter_S512x120_S100000x1_S100000x120_1_0_0_1 x i u) : (⟨S512x120, .f32⟩ : BufTy).Contents (Elt F) → (⟨S100000x1, .i32⟩ : BufTy).Contents (Elt F) → (⟨S100000x120, .f32⟩ : BufTy).Contents (Elt F) → (⟨S512x120, .f32⟩ : BufTy).Contents (Elt F)) ]

theorem ops6_sub : (ops6 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub ..⟩

theorem ops6_fresh : (ops6 : List (HloOp τ sig (Elt F))).Forall fun op => op.fresh = ∅ := by
  simp only [List.Forall]; repeat' constructor

abbrev ops6_W : List (Ref sig .tc) := [main_v129, main_v130, main_v131, main_v132, main_cst_23, main_v133, main_v134, main_v135]

set_option maxRecDepth 8192 in
theorem ops6_writes : (ops6 : List (HloOp τ sig (Elt F))).Forall fun op => op.writes ⊆ (ops6_W.map (Proc.devRef (τ := τ) .tc)).toFinset := by
  simp only [List.Forall]; exact ⟨by writes_one, by writes_one, by writes_one, by writes_one, by writes_one, by writes_one, by writes_one, by writes_one⟩

theorem keep6 (V : Valuation τ sig (Elt F)) (r : Ref sig .tc) (h : r ∉ ops6_W) :
    after ops6 V (Proc.devRef .tc r) = V (Proc.devRef .tc r) :=
  after_of_writes_sub ops6 V ops6_writes h

abbrev ops7 : List (HloOp τ sig (Elt F)) :=
  [ nullary main_cst_24 (constant S_ .f32 0x00000000#32),
    binary main_v135 main_cst_24 main_v136 ((fun x v => Host.reduceAdd x v reducesTo_S512x120_S512_d1 h_S_) : (⟨S512x120, .f32⟩ : BufTy).Contents (Elt F) → (⟨S_, .f32⟩ : BufTy).Contents (Elt F) → (⟨S512, .f32⟩ : BufTy).Contents (Elt F)),
    unary main_v136 main_v137 (broadcastInDim S512x1 ![0] bcast_S512_S512x1_0 : (⟨S512, .f32⟩ : BufTy).Contents (Elt F) → (⟨S512x1, .f32⟩ : BufTy).Contents (Elt F)),
    nullary main_cst_25 (constant S_ .f32 0x42F00000#32),
    unary main_cst_25 main_v138 (broadcastInDim S512x1 ![] bcast_S_S512x1 : (⟨S_, .f32⟩ : BufTy).Contents (Elt F) → (⟨S512x1, .f32⟩ : BufTy).Contents (Elt F)),
    binary main_v137 main_v138 main_v139 (Host.divf : (⟨S512x1, .f32⟩ : BufTy).Contents (Elt F) → (⟨S512x1, .f32⟩ : BufTy).Contents (Elt F) → (⟨S512x1, .f32⟩ : BufTy).Contents (Elt F)),
    unary main_v139 main_v140 (broadcastInDim S512x120 ![0, 1] bcast_S512x1_S512x120_0_1 : (⟨S512x1, .f32⟩ : BufTy).Contents (Elt F) → (⟨S512x120, .f32⟩ : BufTy).Contents (Elt F)),
    binary main_v135 main_v140 main_v141 (subf : (⟨S512x120, .f32⟩ : BufTy).Contents (Elt F) → (⟨S512x120, .f32⟩ : BufTy).Contents (Elt F) → (⟨S512x120, .f32⟩ : BufTy).Contents (Elt F)),
    binary main_v141 main_v141 main_v142 (mulf : (⟨S512x120, .f32⟩ : BufTy).Contents (Elt F) → (⟨S512x120, .f32⟩ : BufTy).Contents (Elt F) → (⟨S512x120, .f32⟩ : BufTy).Contents (Elt F)),
    nullary main_cst_26 (constant S_ .f32 0x00000000#32),
    binary main_v142 main_cst_26 main_v143 ((fun x v => Host.reduceAdd x v reducesTo_S512x120_S512_d1 h_S_) : (⟨S512x120, .f32⟩ : BufTy).Contents (Elt F) → (⟨S_, .f32⟩ : BufTy).Contents (Elt F) → (⟨S512, .f32⟩ : BufTy).Contents (Elt F)),
    unary main_v143 main_v144 (broadcastInDim S512x1 ![0] bcast_S512_S512x1_0 : (⟨S512, .f32⟩ : BufTy).Contents (Elt F) → (⟨S512x1, .f32⟩ : BufTy).Contents (Elt F)),
    nullary main_cst_27 (constant S_ .f32 0x42F00000#32),
    unary main_cst_27 main_v145 (broadcastInDim S512x1 ![] bcast_S_S512x1 : (⟨S_, .f32⟩ : BufTy).Contents (Elt F) → (⟨S512x1, .f32⟩ : BufTy).Contents (Elt F)),
    binary main_v144 main_v145 main_v146 (Host.divf : (⟨S512x1, .f32⟩ : BufTy).Contents (Elt F) → (⟨S512x1, .f32⟩ : BufTy).Contents (Elt F) → (⟨S512x1, .f32⟩ : BufTy).Contents (Elt F)),
    unary main_v139 main_v147 (broadcastInDim S512x120 ![0, 1] bcast_S512x1_S512x120_0_1 : (⟨S512x1, .f32⟩ : BufTy).Contents (Elt F) → (⟨S512x120, .f32⟩ : BufTy).Contents (Elt F)),
    binary main_v135 main_v147 main_v148 (subf : (⟨S512x120, .f32⟩ : BufTy).Contents (Elt F) → (⟨S512x120, .f32⟩ : BufTy).Contents (Elt F) → (⟨S512x120, .f32⟩ : BufTy).Contents (Elt F)),
    nullary main_cst_28 (constant S_ .f32 0x3727C5AC#32),
    unary main_cst_28 main_v149 (broadcastInDim S512x1 ![] bcast_S_S512x1 : (⟨S_, .f32⟩ : BufTy).Contents (Elt F) → (⟨S512x1, .f32⟩ : BufTy).Contents (Elt F)),
    binary main_v146 main_v149 main_v150 (addf : (⟨S512x1, .f32⟩ : BufTy).Contents (Elt F) → (⟨S512x1, .f32⟩ : BufTy).Contents (Elt F) → (⟨S512x1, .f32⟩ : BufTy).Contents (Elt F)),
    unary main_v150 main_v151 (Host.rsqrt : (⟨S512x1, .f32⟩ : BufTy).Contents (Elt F) → (⟨S512x1, .f32⟩ : BufTy).Contents (Elt F)),
    unary main_v151 main_v152 (broadcastInDim S512x120 ![0, 1] bcast_S512x1_S512x120_0_1 : (⟨S512x1, .f32⟩ : BufTy).Contents (Elt F) → (⟨S512x120, .f32⟩ : BufTy).Contents (Elt F)),
    binary main_v148 main_v152 main_v153 (mulf : (⟨S512x120, .f32⟩ : BufTy).Contents (Elt F) → (⟨S512x120, .f32⟩ : BufTy).Contents (Elt F) → (⟨S512x120, .f32⟩ : BufTy).Contents (Elt F)),
    unary main_arg25 main_v154 (broadcastInDim S1x120 ![1] bcast_S120_S1x120_1 : (⟨S120, .f32⟩ : BufTy).Contents (Elt F) → (⟨S1x120, .f32⟩ : BufTy).Contents (Elt F)),
    unary main_v154 main_v155 (broadcastInDim S512x120 ![0, 1] bcast_S1x120_S512x120_0_1 : (⟨S1x120, .f32⟩ : BufTy).Contents (Elt F) → (⟨S512x120, .f32⟩ : BufTy).Contents (Elt F)),
    binary main_v153 main_v155 main_v156 (mulf : (⟨S512x120, .f32⟩ : BufTy).Contents (Elt F) → (⟨S512x120, .f32⟩ : BufTy).Contents (Elt F) → (⟨S512x120, .f32⟩ : BufTy).Contents (Elt F)),
    unary main_arg26 main_v157 (broadcastInDim S1x120 ![1] bcast_S120_S1x120_1 : (⟨S120, .f32⟩ : BufTy).Contents (Elt F) → (⟨S1x120, .f32⟩ : BufTy).Contents (Elt F)),
    unary main_v157 main_v158 (broadcastInDim S512x120 ![0, 1] bcast_S1x120_S512x120_0_1 : (⟨S1x120, .f32⟩ : BufTy).Contents (Elt F) → (⟨S512x120, .f32⟩ : BufTy).Contents (Elt F)),
    binary main_v156 main_v158 main_v159 (addf : (⟨S512x120, .f32⟩ : BufTy).Contents (Elt F) → (⟨S512x120, .f32⟩ : BufTy).Contents (Elt F) → (⟨S512x120, .f32⟩ : BufTy).Contents (Elt F)) ]

theorem ops7_sub : (ops7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops7_fresh : (ops7 : List (HloOp τ sig (Elt F))).Forall fun op => op.fresh = ∅ := by
  simp only [List.Forall]; repeat' constructor

abbrev ops7_W : List (Ref sig .tc) := [main_cst_24, main_v136, main_v137, main_cst_25, main_v138, main_v139, main_v140, main_v141, main_v142, main_cst_26, main_v143, main_v144, main_cst_27, main_v145, main_v146, main_v147, main_v148, main_cst_28, main_v149, main_v150, main_v151, main_v152, main_v153, main_v154, main_v155, main_v156, main_v157, main_v158, main_v159]

set_option maxRecDepth 8192 in
theorem ops7_writes : (ops7 : List (HloOp τ sig (Elt F))).Forall fun op => op.writes ⊆ (ops7_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

theorem keep7 (V : Valuation τ sig (Elt F)) (r : Ref sig .tc) (h : r ∉ ops7_W) :
    after ops7 V (Proc.devRef .tc r) = V (Proc.devRef .tc r) :=
  after_of_writes_sub ops7 V ops7_writes h

abbrev ops : List (HloOp τ sig (Elt F)) :=
  ops0 ++ (ops1 ++ (ops2 ++ (ops3 ++ (ops4 ++ (ops5 ++ (ops6 ++ (ops7)))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ⟨ops1_sub, ⟨ops2_sub, ⟨ops3_sub, ⟨ops4_sub, ⟨ops5_sub, ⟨ops6_sub, ops7_sub⟩⟩⟩⟩⟩⟩⟩

theorem ops_fresh : ∀ op ∈ (ops : List (HloOp τ sig (Elt F))), op.fresh = ∅ := by
  refine List.forall_iff_forall_mem.1 ?_
  simp only [ops, List.forall_append]
  exact ⟨ops0_fresh, ⟨ops1_fresh, ⟨ops2_fresh, ⟨ops3_fresh, ⟨ops4_fresh, ⟨ops5_fresh, ⟨ops6_fresh, ops7_fresh⟩⟩⟩⟩⟩⟩⟩

theorem after_ops (V : Valuation τ sig (Elt F)) :
    after ops V = after ops7 (after ops6 (after ops5 (after ops4 (after ops3 (after ops2 (after ops1 (after ops0 V))))))) := by
  simp only [ops, StableHlo.after_append]

theorem keep_ops (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, keep7 _ r h7, keep6 _ r h6, keep5 _ r h5, keep4 _ r h4, keep3 _ r h3, keep2 _ r h2, keep1 _ r h1, keep0 _ r h0]

end Cert.ReferenceIdeal.RefRun

end
-- ==== Proof.Ref.Run.lean ====
/- The run of the reference program, stretch by stretch: the result buffer ends at the last stage of the arguments, every argument unchanged. -/
import proofs.«420535_j82145544503553_2_alg».proof.Proof.Ref.Read
import proofs.«420535_j82145544503553_2_alg».proof.Proof.Ref.Run1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (W : Valuation τ sig (Elt F))
variable (a0 : (⟨S100000x108, .f32⟩ : BufTy).Contents (Elt F))
  (a1 : (⟨S2x1600000, .i32⟩ : BufTy).Contents (Elt F))
  (a2 : (⟨S100000, .i32⟩ : BufTy).Contents (Elt F))
  (a3 : (⟨S108x98, .f32⟩ : BufTy).Contents (Elt F))
  (a4 : (⟨S98, .f32⟩ : BufTy).Contents (Elt F))
  (a5 : (⟨S98x98, .f32⟩ : BufTy).Contents (Elt F))
  (a6 : (⟨S98, .f32⟩ : BufTy).Contents (Elt F))
  (a7 : (⟨S98x98, .f32⟩ : BufTy).Contents (Elt F))
  (a8 : (⟨S98, .f32⟩ : BufTy).Contents (Elt F))
  (a9 : (⟨S98x98, .f32⟩ : BufTy).Contents (Elt F))
  (a10 : (⟨S98, .f32⟩ : BufTy).Contents (Elt F))
  (a11 : (⟨S98x98, .f32⟩ : BufTy).Contents (Elt F))
  (a12 : (⟨S98, .f32⟩ : BufTy).Contents (Elt F))
  (a13 : (⟨S98x98, .f32⟩ : BufTy).Contents (Elt F))
  (a14 : (⟨S98, .f32⟩ : BufTy).Contents (Elt F))
  (a15 : (⟨S98x98, .f32⟩ : BufTy).Contents (Elt F))
  (a16 : (⟨S98, .f32⟩ : BufTy).Contents (Elt F))
  (a17 : (⟨S98x98, .f32⟩ : BufTy).Contents (Elt F))
  (a18 : (⟨S98, .f32⟩ : BufTy).Contents (Elt F))
  (a19 : (⟨S98x98, .f32⟩ : BufTy).Contents (Elt F))
  (a20 : (⟨S98, .f32⟩ : BufTy).Contents (Elt F))
  (a21 : (⟨S98x98, .f32⟩ : BufTy).Contents (Elt F))
  (a22 : (⟨S98, .f32⟩ : BufTy).Contents (Elt F))
  (a23 : (⟨S98x120, .f32⟩ : BufTy).Contents (Elt F))
  (a24 : (⟨S120, .f32⟩ : BufTy).Contents (Elt F))
  (a25 : (⟨S120, .f32⟩ : BufTy).Contents (Elt F))
  (a26 : (⟨S120, .f32⟩ : BufTy).Contents (Elt F))

theorem head_v1
    (e1 : W (Proc.devRef .tc main_arg1) = a1) :
    after ops0 W (Proc.devRef .tc main_v1) = ReadP.val_main_v1 (F := F) a1 := by
  subst e1
  after_results
  rfl

theorem head_v3
    (e1 : W (Proc.devRef .tc main_arg1) = a1) :
    after ops0 W (Proc.devRef .tc main_v3) = ReadP.val_main_v3 (F := F) a1 := by
  subst e1
  after_results
  rfl

set_option maxRecDepth 8192 in
set_option maxHeartbeats 2000000 in

theorem layer1
    (h1 : W (Proc.devRef .tc main_v1) = ReadP.val_main_v1 (F := F) a1)
    (h3 : W (Proc.devRef .tc main_v3) = ReadP.val_main_v3 (F := F) a1)
    (e0 : W (Proc.devRef .tc main_arg0) = a0) (e3 : W (Proc.devRef .tc main_arg3) = a3) (e4 : W (Proc.devRef .tc main_arg4) = a4) (e5 : W (Proc.devRef .tc main_arg5) = a5) (e6 : W (Proc.devRef .tc main_arg6) = a6) :
    after ops1 W (Proc.devRef .tc main_v28) = ReadP.val_main_v28 (F := F) a0 a1 a3 a4 a5 a6 := by
  subst e0 e3 e4 e5 e6
  after_results_simp
  rw [h1, h3]
  rfl

set_option maxRecDepth 8192 in
set_option maxHeartbeats 2000000 in

theorem layer2
    (h1 : W (Proc.devRef .tc main_v1) = ReadP.val_main_v1 (F := F) a1)
    (h3 : W (Proc.devRef .tc main_v3) = ReadP.val_main_v3 (F := F) a1)
    (hp : W (Proc.devRef .tc main_v28) = ReadP.val_main_v28 (F := F) a0 a1 a3 a4 a5 a6)
    (e7 : W (Proc.devRef .tc main_arg7) = a7) (e8 : W (Proc.devRef .tc main_arg8) = a8) (e9 : W (Proc.devRef .tc main_arg9) = a9) (e10 : W (Proc.devRef .tc main_arg10) = a10) :
    after ops2 W (Proc.devRef .tc main_v53) = ReadP.val_main_v53 (F := F) a0 a1 a3 a4 a5 a6 a7 a8 a9 a10 := by
  subst e7 e8 e9 e10
  after_results_simp
  rw [h1, h3, hp]
  rfl

set_option maxRecDepth 8192 in
set_option maxHeartbeats 2000000 in

theorem layer3
    (h1 : W (Proc.devRef .tc main_v1) = ReadP.val_main_v1 (F := F) a1)
    (h3 : W (Proc.devRef .tc main_v3) = ReadP.val_main_v3 (F := F) a1)
    (hp : W (Proc.devRef .tc main_v53) = ReadP.val_main_v53 (F := F) a0 a1 a3 a4 a5 a6 a7 a8 a9 a10)
    (e11 : W (Proc.devRef .tc main_arg11) = a11) (e12 : W (Proc.devRef .tc main_arg12) = a12) (e13 : W (Proc.devRef .tc main_arg13) = a13) (e14 : W (Proc.devRef .tc main_arg14) = a14) :
    after ops3 W (Proc.devRef .tc main_v78) = ReadP.val_main_v78 (F := F) a0 a1 a3 a4 a5 a6 a7 a8 a9 a10 a11 a12 a13 a14 := by
  subst e11 e12 e13 e14
  after_results_simp
  rw [h1, h3, hp]
  rfl

set_option maxRecDepth 8192 in
set_option maxHeartbeats 2000000 in

theorem layer4
    (h1 : W (Proc.devRef .tc main_v1) = ReadP.val_main_v1 (F := F) a1)
    (h3 : W (Proc.devRef .tc main_v3) = ReadP.val_main_v3 (F := F) a1)
    (hp : W (Proc.devRef .tc main_v78) = ReadP.val_main_v78 (F := F) a0 a1 a3 a4 a5 a6 a7 a8 a9 a10 a11 a12 a13 a14)
    (e15 : W (Proc.devRef .tc main_arg15) = a15) (e16 : W (Proc.devRef .tc main_arg16) = a16) (e17 : W (Proc.devRef .tc main_arg17) = a17) (e18 : W (Proc.devRef .tc main_arg18) = a18) :
    after ops4 W (Proc.devRef .tc main_v103) = ReadP.val_main_v103 (F := F) a0 a1 a3 a4 a5 a6 a7 a8 a9 a10 a11 a12 a13 a14 a15 a16 a17 a18 := by
  subst e15 e16 e17 e18
  after_results_simp
  rw [h1, h3, hp]
  rfl

set_option maxRecDepth 8192 in
set_option maxHeartbeats 2000000 in

theorem layer5
    (h1 : W (Proc.devRef .tc main_v1) = ReadP.val_main_v1 (F := F) a1)
    (h3 : W (Proc.devRef .tc main_v3) = ReadP.val_main_v3 (F := F) a1)
    (hp : W (Proc.devRef .tc main_v103) = ReadP.val_main_v103 (F := F) a0 a1 a3 a4 a5 a6 a7 a8 a9 a10 a11 a12 a13 a14 a15 a16 a17 a18)
    (e19 : W (Proc.devRef .tc main_arg19) = a19) (e20 : W (Proc.devRef .tc main_arg20) = a20) (e21 : W (Proc.devRef .tc main_arg21) = a21) (e22 : W (Proc.devRef .tc main_arg22) = a22) :
    after ops5 W (Proc.devRef .tc main_v128) = ReadP.val_main_v128 (F := F) a0 a1 a3 a4 a5 a6 a7 a8 a9 a10 a11 a12 a13 a14 a15 a16 a17 a18 a19 a20 a21 a22 := by
  subst e19 e20 e21 e22
  after_results_simp
  rw [h1, h3, hp]
  rfl

set_option maxRecDepth 8192 in
set_option maxHeartbeats 2000000 in

theorem proj
    (hp : W (Proc.devRef .tc main_v128) = ReadP.val_main_v128 (F := F) a0 a1 a3 a4 a5 a6 a7 a8 a9 a10 a11 a12 a13 a14 a15 a16 a17 a18 a19 a20 a21 a22)
    (e2 : W (Proc.devRef .tc main_arg2) = a2) (e23 : W (Proc.devRef .tc main_arg23) = a23) (e24 : W (Proc.devRef .tc main_arg24) = a24) :
    after ops6 W (Proc.devRef .tc main_v135) = ReadP.val_main_v135 (F := F) a0 a1 a2 a3 a4 a5 a6 a7 a8 a9 a10 a11 a12 a13 a14 a15 a16 a17 a18 a19 a20 a21 a22 a23 a24 := by
  subst e2 e23 e24
  after_results_simp
  rw [hp]
  rfl

set_option maxRecDepth 8192 in
set_option maxHeartbeats 2000000 in

theorem norm
    (hp : W (Proc.devRef .tc main_v135) = ReadP.val_main_v135 (F := F) a0 a1 a2 a3 a4 a5 a6 a7 a8 a9 a10 a11 a12 a13 a14 a15 a16 a17 a18 a19 a20 a21 a22 a23 a24)
    (e25 : W (Proc.devRef .tc main_arg25) = a25) (e26 : W (Proc.devRef .tc main_arg26) = a26) :
    after ops7 W (Proc.devRef .tc main_v159) = ReadP.val_main_v159 (F := F) a0 a1 a2 a3 a4 a5 a6 a7 a8 a9 a10 a11 a12 a13 a14 a15 a16 a17 a18 a19 a20 a21 a22 a23 a24 a25 a26 := by
  subst e25 e26
  after_results_simp
  rw [hp]
  rfl

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem arg_nw0 : ∀ r ∈ argRefs, r ∉ ops0_W := by decide
theorem arg_nw1 : ∀ r ∈ argRefs, r ∉ ops1_W := by decide
theorem arg_nw2 : ∀ r ∈ argRefs, r ∉ ops2_W := by decide
theorem arg_nw3 : ∀ r ∈ argRefs, r ∉ ops3_W := by decide
theorem arg_nw4 : ∀ r ∈ argRefs, r ∉ ops4_W := by decide
theorem arg_nw5 : ∀ r ∈ argRefs, r ∉ ops5_W := by decide
theorem arg_nw6 : ∀ r ∈ argRefs, r ∉ ops6_W := by decide

set_option maxRecDepth 8192 in
set_option maxHeartbeats 2000000 in

theorem after_v159 (V : Valuation τ sig (Elt F)) :
    after ops V (Proc.devRef .tc main_v159) = ReadP.val_main_v159 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  rw [after_ops]

  have A : ∀ r ∈ argRefs, after ops0 V (Proc.devRef .tc r) = V (Proc.devRef .tc r) :=
    fun r hr => keep0 V r (arg_nw0 r hr)
  have h1 := head_v1 V _ rfl
  have h3 := head_v3 V _ rfl
  generalize after ops0 V = W at A h1 h3 ⊢

  have hp1 := layer1 W _ _ _ _ _ _ h1 h3 (A main_arg0 (by decide)) (A main_arg3 (by decide)) (A main_arg4 (by decide)) (A main_arg5 (by decide)) (A main_arg6 (by decide))
  replace h1 := (keep1 W main_v1 (by decide)).trans h1
  replace h3 := (keep1 W main_v3 (by decide)).trans h3
  replace A : ∀ r ∈ argRefs, after ops1 W (Proc.devRef .tc r) = V (Proc.devRef .tc r) :=
    fun r hr => (keep1 W r (arg_nw1 r hr)).trans (A r hr)
  generalize after ops1 W = W' at A h1 h3 hp1 ⊢
  clear W; rename' W' => W

  have hp2 := layer2 W _ _ _ _ _ _ _ _ _ _ h1 h3 hp1 (A main_arg7 (by decide)) (A main_arg8 (by decide)) (A main_arg9 (by decide)) (A main_arg10 (by decide))
  replace h1 := (keep2 W main_v1 (by decide)).trans h1
  replace h3 := (keep2 W main_v3 (by decide)).trans h3
  replace A : ∀ r ∈ argRefs, after ops2 W (Proc.devRef .tc r) = V (Proc.devRef .tc r) :=
    fun r hr => (keep2 W r (arg_nw2 r hr)).trans (A r hr)
  clear hp1
  generalize after ops2 W = W' at A h1 h3 hp2 ⊢
  clear W; rename' W' => W

  have hp3 := layer3 W _ _ _ _ _ _ _ _ _ _ _ _ _ _ h1 h3 hp2 (A main_arg11 (by decide)) (A main_arg12 (by decide)) (A main_arg13 (by decide)) (A main_arg14 (by decide))
  replace h1 := (keep3 W main_v1 (by decide)).trans h1
  replace h3 := (keep3 W main_v3 (by decide)).trans h3
  replace A : ∀ r ∈ argRefs, after ops3 W (Proc.devRef .tc r) = V (Proc.devRef .tc r) :=
    fun r hr => (keep3 W r (arg_nw3 r hr)).trans (A r hr)
  clear hp2
  generalize after ops3 W = W' at A h1 h3 hp3 ⊢
  clear W; rename' W' => W

  have hp4 := layer4 W _ _ _ _ _ _ _ _ _ _ _ _ _ _ _ _ _ _ h1 h3 hp3 (A main_arg15 (by decide)) (A main_arg16 (by decide)) (A main_arg17 (by decide)) (A main_arg18 (by decide))
  replace h1 := (keep4 W main_v1 (by decide)).trans h1
  replace h3 := (keep4 W main_v3 (by decide)).trans h3
  replace A : ∀ r ∈ argRefs, after ops4 W (Proc.devRef .tc r) = V (Proc.devRef .tc r) :=
    fun r hr => (keep4 W r (arg_nw4 r hr)).trans (A r hr)
  clear hp3
  generalize after ops4 W = W' at A h1 h3 hp4 ⊢
  clear W; rename' W' => W

  have hp5 := layer5 W _ _ _ _ _ _ _ _ _ _ _ _ _ _ _ _ _ _ _ _ _ _ h1 h3 hp4 (A main_arg19 (by decide)) (A main_arg20 (by decide)) (A main_arg21 (by decide)) (A main_arg22 (by decide))
  replace h1 := (keep5 W main_v1 (by decide)).trans h1
  replace h3 := (keep5 W main_v3 (by decide)).trans h3
  replace A : ∀ r ∈ argRefs, after ops5 W (Proc.devRef .tc r) = V (Proc.devRef .tc r) :=
    fun r hr => (keep5 W r (arg_nw5 r hr)).trans (A r hr)
  clear hp4
  generalize after ops5 W = W' at A h1 h3 hp5 ⊢
  clear W; rename' W' => W

  have hp6 := proj W _ _ _ _ _ _ _ _ _ _ _ _ _ _ _ _ _ _ _ _ _ _ _ _ _ hp5 (A main_arg2 (by decide)) (A main_arg23 (by decide)) (A main_arg24 (by decide))
  replace A : ∀ r ∈ argRefs, after ops6 W (Proc.devRef .tc r) = V (Proc.devRef .tc r) :=
    fun r hr => (keep6 W r (arg_nw6 r hr)).trans (A r hr)
  clear hp5 h1 h3
  generalize after ops6 W = W' at A hp6 ⊢
  clear W; rename' W' => W

  exact norm W _ _ _ _ _ _ _ _ _ _ _ _ _ _ _ _ _ _ _ _ _ _ _ _ _ _ _ hp6 (A main_arg25 (by decide)) (A main_arg26 (by decide))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = ReadP.val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v159).trans (after_v159 (launchContents m c)),
      (h c main_arg0).trans (keep_ops (launchContents m c) main_arg0 (by decide) (by decide) (by decide) (by decide) (by decide) (by decide) (by decide) (by decide)),
      (h c main_arg1).trans (keep_ops (launchContents m c) main_arg1 (by decide) (by decide) (by decide) (by decide) (by decide) (by decide) (by decide) (by decide)),
      (h c main_arg2).trans (keep_ops (launchContents m c) main_arg2 (by decide) (by decide) (by decide) (by decide) (by decide) (by decide) (by decide) (by decide)),
      (h c main_arg3).trans (keep_ops (launchContents m c) main_arg3 (by decide) (by decide) (by decide) (by decide) (by decide) (by decide) (by decide) (by decide)),
      (h c main_arg4).trans (keep_ops (launchContents m c) main_arg4 (by decide) (by decide) (by decide) (by decide) (by decide) (by decide) (by decide) (by decide)),
      (h c main_arg5).trans (keep_ops (launchContents m c) main_arg5 (by decide) (by decide) (by decide) (by decide) (by decide) (by decide) (by decide) (by decide)),
      (h c main_arg6).trans (keep_ops (launchContents m c) main_arg6 (by decide) (by decide) (by decide) (by decide) (by decide) (by decide) (by decide) (by decide)),
      (h c main_arg7).trans (keep_ops (launchContents m c) main_arg7 (by decide) (by decide) (by decide) (by decide) (by decide) (by decide) (by decide) (by decide)),
      (h c main_arg8).trans (keep_ops (launchContents m c) main_arg8 (by decide) (by decide) (by decide) (by decide) (by decide) (by decide) (by decide) (by decide)),
      (h c main_arg9).trans (keep_ops (launchContents m c) main_arg9 (by decide) (by decide) (by decide) (by decide) (by decide) (by decide) (by decide) (by decide)),
      (h c main_arg10).trans (keep_ops (launchContents m c) main_arg10 (by decide) (by decide) (by decide) (by decide) (by decide) (by decide) (by decide) (by decide)),
      (h c main_arg11).trans (keep_ops (launchContents m c) main_arg11 (by decide) (by decide) (by decide) (by decide) (by decide) (by decide) (by decide) (by decide)),
      (h c main_arg12).trans (keep_ops (launchContents m c) main_arg12 (by decide) (by decide) (by decide) (by decide) (by decide) (by decide) (by decide) (by decide)),
      (h c main_arg13).trans (keep_ops (launchContents m c) main_arg13 (by decide) (by decide) (by decide) (by decide) (by decide) (by decide) (by decide) (by decide)),
      (h c main_arg14).trans (keep_ops (launchContents m c) main_arg14 (by decide) (by decide) (by decide) (by decide) (by decide) (by decide) (by decide) (by decide)),
      (h c main_arg15).trans (keep_ops (launchContents m c) main_arg15 (by decide) (by decide) (by decide) (by decide) (by decide) (by decide) (by decide) (by decide)),
      (h c main_arg16).trans (keep_ops (launchContents m c) main_arg16 (by decide) (by decide) (by decide) (by decide) (by decide) (by decide) (by decide) (by decide)),
      (h c main_arg17).trans (keep_ops (launchContents m c) main_arg17 (by decide) (by decide) (by decide) (by decide) (by decide) (by decide) (by decide) (by decide)),
      (h c main_arg18).trans (keep_ops (launchContents m c) main_arg18 (by decide) (by decide) (by decide) (by decide) (by decide) (by decide) (by decide) (by decide)),
      (h c main_arg19).trans (keep_ops (launchContents m c) main_arg19 (by decide) (by decide) (by decide) (by decide) (by decide) (by decide) (by decide) (by decide)),
      (h c main_arg20).trans (keep_ops (launchContents m c) main_arg20 (by decide) (by decide) (by decide) (by decide) (by decide) (by decide) (by decide) (by decide)),
      (h c main_arg21).trans (keep_ops (launchContents m c) main_arg21 (by decide) (by decide) (by decide) (by decide) (by decide) (by decide) (by decide) (by decide)),
      (h c main_arg22).trans (keep_ops (launchContents m c) main_arg22 (by decide) (by decide) (by decide) (by decide) (by decide) (by decide) (by decide) (by decide)),
      (h c main_arg23).trans (keep_ops (launchContents m c) main_arg23 (by decide) (by decide) (by decide) (by decide) (by decide) (by decide) (by decide) (by decide)),
      (h c main_arg24).trans (keep_ops (launchContents m c) main_arg24 (by decide) (by decide) (by decide) (by decide) (by decide) (by decide) (by decide) (by decide)),
      (h c main_arg25).trans (keep_ops (launchContents m c) main_arg25 (by decide) (by decide) (by decide) (by decide) (by decide) (by decide) (by decide) (by decide)),
      (h c main_arg26).trans (keep_ops (launchContents m c) main_arg26 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.Ref.Common.lean ====
/- What the reference's five layers and tail share, read as the mathematics. -/
import proofs.«420535_j82145544503553_2_alg».proof.Proof.Ref.Read
import proofs.«420535_j82145544503553_2_alg».proof.Proof.SpecArgs
import proofs.«420535_j82145544503553_2_alg».proof.Proof.LibRows

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

theorem rrelu_read (z : Ideal .f32) :
    Scalar.select (FloatOps.cmpf .oge z (FloatOps.ofBits (F := Ideal) .f32 0x00000000#32)) z
        (FloatOps.mulf z (FloatOps.ofBits (F := Ideal) .f32 0x3E6AAAAB#32))
      = Cert.Spec.rrelu z := by
  rw [Ideal.cmpf_def, Ideal.ofBits_def, Ideal.ofBits_def, Ideal.ofBits_zero_f32, Ideal.mulf_def]
  unfold Cert.Spec.rrelu Cert.Spec.slope Ideal.cmp Scalar.select
  by_cases h : (0 : EReal) ≤ z <;> simp [h]

theorem v1_read (x1 : (⟨S2x1600000, .i32⟩ : BufTy).Contents (Elt Ideal)) (e : Fin 1600000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

theorem v3_read (x1 : (⟨S2x1600000, .i32⟩ : BufTy).Contents (Elt Ideal)) (e : Fin 1600000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

theorem gather108_eq : gather_S100000x108_S1600000x1_S1600000x108_1_0_n_n_0_1_1108
    = rowGatherDims 100000 1600000 108 Cert.ReferenceIdeal.Gen.gather_S100000x108_S1600000x1_S1600000x108_1_0_n_n_0_1_1108_wf := rfl
theorem gather98_eq : gather_S100000x98_S1600000x1_S1600000x98_1_0_n_n_0_1_198
    = rowGatherDims 100000 1600000 98 Cert.ReferenceIdeal.Gen.gather_S100000x98_S1600000x1_S1600000x98_1_0_n_n_0_1_198_wf := rfl
theorem scatter108_eq : scatter_S100000x108_S1600000x1_S1600000x108_1_0_0_1
    = rowScatterDims 100000 1600000 108 Cert.ReferenceIdeal.Gen.scatter_S100000x108_S1600000x1_S1600000x108_1_0_0_1_wf := rfl
theorem scatter98_eq : scatter_S100000x98_S1600000x1_S1600000x98_1_0_0_1
    = rowScatterDims 100000 1600000 98 Cert.ReferenceIdeal.Gen.scatter_S100000x98_S1600000x1_S1600000x98_1_0_0_1_wf := rfl
theorem scatter120_eq : scatter_S512x120_S100000x1_S100000x120_1_0_0_1
    = rowScatterDims 512 100000 120 Cert.ReferenceIdeal.Gen.scatter_S512x120_S100000x1_S100000x120_1_0_0_1_wf := rfl

end Cert.ReferenceIdeal.RefValue

end
-- ==== Proof.Ref.Layer1.lean ====
/- The reference's first layer read as the mathematics' layer of the node features. -/
import proofs.«420535_j82145544503553_2_alg».proof.Proof.Ref.Common

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))

theorem src_l1 (e : Fin 1600000) :
    val_main_v9 (F := Ideal) x1 (ix2 e 0) = Cert.Spec.srcOf x1 e := by
  have hi : idx_main_v9 (ix2 e (0 : Fin 1)) = ix1 e := funext fun a => by match a with | ⟨0, _⟩ => rfl
  rw [val_main_v9_apply, hi, val_main_v8_apply, val_main_v5_apply, val_main_v7_apply, val_main_v4_apply, val_main_v6_apply,
    val_main_c_apply, val_main_c_0_apply, v1_read]
  rfl

theorem dst_l1 (e : Fin 1600000) :
    val_main_v12 (F := Ideal) x1 (ix2 e 0) = Cert.Spec.dstOf x1 e := by
  have hi : idx_main_v12 (ix2 e (0 : Fin 1)) = ix1 e := funext fun a => by match a with | ⟨0, _⟩ => rfl
  rw [val_main_v12_apply, hi, v3_read]
  rfl

theorem gath_l1 (e : Fin 1600000) (q : Fin 108) :
    val_main_v10 (F := Ideal) x0 x1 (ix2 e q)
      = (Cert.Spec.mat x0) ⟨min (Cert.Spec.srcOf x1 e).toInt.toNat (100000 - 1), by omega⟩ q := by
  unfold val_main_v10
  rw [gather108_eq, gather_rows_apply Cert.Spec.hN]
  simp only [src_l1]
  rfl

theorem agg_l1 (n : Fin 100000) (q : Fin 108) :
    val_main_v13 (F := Ideal) x0 x1 (ix2 n q) = Cert.Spec.agg Cert.Spec.hN (Cert.Spec.mat x0) (Cert.Spec.srcOf x1) (Cert.Spec.dstOf x1) n q := by
  unfold val_main_v13
  rw [scatter108_eq, Host_scatterAdd_rows_apply, val_main_v11_apply, val_main_cst_apply, Ideal.ofBits_def, Ideal.ofBits_zero_f32, zero_add]
  simp only [dst_l1, gath_l1 x0 x1]
  rfl

theorem hid_l1 (n : Fin 100000) (k : Fin 98) :
    val_main_v19 (F := Ideal) x0 x1 x3 x4 (ix2 n k)
      = max ((∑ k' : Fin 108, ((Cert.Spec.mat x0) n k' + Cert.Spec.agg Cert.Spec.hN (Cert.Spec.mat x0) (Cert.Spec.srcOf x1) (Cert.Spec.dstOf x1) n k') * Cert.Spec.mat x3 k' k) + Cert.Spec.vec x4 k) 0 := by
  have hl : ∀ k' : Fin 108, lidx_main_v15 (ix2 n k) k' = ix2 n k' := fun k' => funext fun a => by match a with | ⟨0, _⟩ => rfl | ⟨1, _⟩ => rfl
  have hr : ∀ k' : Fin 108, ridx_main_v15 (ix2 n k) k' = ix2 k' k := fun k' => funext fun a => by match a with | ⟨0, _⟩ => rfl | ⟨1, _⟩ => rfl
  have hb : idx_main_v16 (idx_main_v17 (ix2 n k)) = ix1 k := funext fun a => by match a with | ⟨0, _⟩ => rfl
  rw [val_main_v19_apply, val_main_call0_v0_apply, val_main_call0_cst_apply, val_main_v18_apply, val_main_v15_apply, val_main_v17_apply, val_main_v16_apply, hb]
  simp only [hl, hr, val_main_v14_apply, agg_l1 x0 x1, Ideal.addf_def, Ideal.maximumf_def, Ideal.ofBits_def, Ideal.ofBits_zero_f32]
  rfl

theorem layer_l1 (n : Fin 100000) (j : Fin 98) :
    val_main_v28 (F := Ideal) x0 x1 x3 x4 x5 x6 (ix2 n j)
      = Cert.Spec.layer Cert.Spec.hN (Cert.Spec.mat x0) (Cert.Spec.srcOf x1) (Cert.Spec.dstOf x1) (Cert.Spec.mat x3) (Cert.Spec.vec x4) (Cert.Spec.mat x5) (Cert.Spec.vec x6) n j := by
  have hl : ∀ k : Fin 98, lidx_main_v20 (ix2 n j) k = ix2 n k := fun k => funext fun a => by match a with | ⟨0, _⟩ => rfl | ⟨1, _⟩ => rfl
  have hr : ∀ k : Fin 98, ridx_main_v20 (ix2 n j) k = ix2 k j := fun k => funext fun a => by match a with | ⟨0, _⟩ => rfl | ⟨1, _⟩ => rfl
  have hb : idx_main_v21 (idx_main_v22 (ix2 n j)) = ix1 j := funext fun a => by match a with | ⟨0, _⟩ => rfl
  rw [val_main_v28_apply, val_main_v25_apply, val_main_v27_apply, val_main_v24_apply, val_main_v26_apply, val_main_cst_1_apply, val_main_cst_2_apply,
    rrelu_read, val_main_v23_apply, val_main_v20_apply, val_main_v22_apply, val_main_v21_apply, hb]
  simp only [hl, hr, hid_l1 x0 x1 x3 x4, Ideal.addf_def]
  rfl

end Cert.ReferenceIdeal.RefValue

end
-- ==== Proof.Ref.Layer2.lean ====
/- The reference's layer 2 read as the mathematics' layer of its input stage. -/
import proofs.«420535_j82145544503553_2_alg».proof.Proof.Ref.Common

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))
  (x7 : (⟨S98x98, .f32⟩ : BufTy).Contents (Elt Ideal))
  (x8 : (⟨S98, .f32⟩ : BufTy).Contents (Elt Ideal))
  (x9 : (⟨S98x98, .f32⟩ : BufTy).Contents (Elt Ideal))
  (x10 : (⟨S98, .f32⟩ : BufTy).Contents (Elt Ideal))

theorem src_l2 (e : Fin 1600000) :
    val_main_v34 (F := Ideal) x1 (ix2 e 0) = Cert.Spec.srcOf x1 e := by
  have hi : idx_main_v34 (ix2 e (0 : Fin 1)) = ix1 e := funext fun a => by match a with | ⟨0, _⟩ => rfl
  rw [val_main_v34_apply, hi, val_main_v33_apply, val_main_v30_apply, val_main_v32_apply, val_main_v29_apply, val_main_v31_apply,
    val_main_c_3_apply, val_main_c_4_apply, v1_read]
  rfl

theorem dst_l2 (e : Fin 1600000) :
    val_main_v37 (F := Ideal) x1 (ix2 e 0) = Cert.Spec.dstOf x1 e := by
  have hi : idx_main_v37 (ix2 e (0 : Fin 1)) = ix1 e := funext fun a => by match a with | ⟨0, _⟩ => rfl
  rw [val_main_v37_apply, hi, v3_read]
  rfl

theorem gath_l2 (h : Fin 100000 → Fin 98 → Cert.Spec.R) (hin : ∀ (n : Fin 100000) (k : Fin 98), val_main_v28 (F := Ideal) x0 x1 x3 x4 x5 x6 (ix2 n k) = h n k) (e : Fin 1600000) (q : Fin 98) :
    val_main_v35 (F := Ideal) x0 x1 x3 x4 x5 x6 (ix2 e q)
      = h ⟨min (Cert.Spec.srcOf x1 e).toInt.toNat (100000 - 1), by omega⟩ q := by
  unfold val_main_v35
  rw [gather98_eq, gather_rows_apply Cert.Spec.hN]
  simp only [src_l2, hin]

theorem agg_l2 (h : Fin 100000 → Fin 98 → Cert.Spec.R) (hin : ∀ (n : Fin 100000) (k : Fin 98), val_main_v28 (F := Ideal) x0 x1 x3 x4 x5 x6 (ix2 n k) = h n k) (n : Fin 100000) (q : Fin 98) :
    val_main_v38 (F := Ideal) x0 x1 x3 x4 x5 x6 (ix2 n q) = Cert.Spec.agg Cert.Spec.hN h (Cert.Spec.srcOf x1) (Cert.Spec.dstOf x1) n q := by
  unfold val_main_v38
  rw [scatter98_eq, Host_scatterAdd_rows_apply, val_main_v36_apply, val_main_cst_5_apply, Ideal.ofBits_def, Ideal.ofBits_zero_f32, zero_add]
  simp only [dst_l2, gath_l2 x0 x1 x3 x4 x5 x6 h hin]
  rfl

theorem hid_l2 (h : Fin 100000 → Fin 98 → Cert.Spec.R) (hin : ∀ (n : Fin 100000) (k : Fin 98), val_main_v28 (F := Ideal) x0 x1 x3 x4 x5 x6 (ix2 n k) = h n k) (n : Fin 100000) (k : Fin 98) :
    val_main_v44 (F := Ideal) x0 x1 x3 x4 x5 x6 x7 x8 (ix2 n k)
      = max ((∑ k' : Fin 98, (h n k' + Cert.Spec.agg Cert.Spec.hN h (Cert.Spec.srcOf x1) (Cert.Spec.dstOf x1) n k') * Cert.Spec.mat x7 k' k) + Cert.Spec.vec x8 k) 0 := by
  have hl : ∀ k' : Fin 98, lidx_main_v40 (ix2 n k) k' = ix2 n k' := fun k' => funext fun a => by match a with | ⟨0, _⟩ => rfl | ⟨1, _⟩ => rfl
  have hr : ∀ k' : Fin 98, ridx_main_v40 (ix2 n k) k' = ix2 k' k := fun k' => funext fun a => by match a with | ⟨0, _⟩ => rfl | ⟨1, _⟩ => rfl
  have hb : idx_main_v41 (idx_main_v42 (ix2 n k)) = ix1 k := funext fun a => by match a with | ⟨0, _⟩ => rfl
  rw [val_main_v44_apply, val_main_call2_v0_apply, val_main_call2_cst_apply, val_main_v43_apply, val_main_v40_apply, val_main_v42_apply, val_main_v41_apply, hb]
  simp only [hl, hr, val_main_v39_apply, agg_l2 x0 x1 x3 x4 x5 x6 h hin, hin, Ideal.addf_def, Ideal.maximumf_def, Ideal.ofBits_def, Ideal.ofBits_zero_f32]
  rfl

theorem layer_l2 (h : Fin 100000 → Fin 98 → Cert.Spec.R) (hin : ∀ (n : Fin 100000) (k : Fin 98), val_main_v28 (F := Ideal) x0 x1 x3 x4 x5 x6 (ix2 n k) = h n k) (n : Fin 100000) (j : Fin 98) :
    val_main_v53 (F := Ideal) x0 x1 x3 x4 x5 x6 x7 x8 x9 x10 (ix2 n j)
      = Cert.Spec.layer Cert.Spec.hN h (Cert.Spec.srcOf x1) (Cert.Spec.dstOf x1) (Cert.Spec.mat x7) (Cert.Spec.vec x8) (Cert.Spec.mat x9) (Cert.Spec.vec x10) n j := by
  have hl : ∀ k : Fin 98, lidx_main_v45 (ix2 n j) k = ix2 n k := fun k => funext fun a => by match a with | ⟨0, _⟩ => rfl | ⟨1, _⟩ => rfl
  have hr : ∀ k : Fin 98, ridx_main_v45 (ix2 n j) k = ix2 k j := fun k => funext fun a => by match a with | ⟨0, _⟩ => rfl | ⟨1, _⟩ => rfl
  have hb : idx_main_v46 (idx_main_v47 (ix2 n j)) = ix1 j := funext fun a => by match a with | ⟨0, _⟩ => rfl
  rw [val_main_v53_apply, val_main_v50_apply, val_main_v52_apply, val_main_v49_apply, val_main_v51_apply, val_main_cst_6_apply, val_main_cst_7_apply,
    rrelu_read, val_main_v48_apply, val_main_v45_apply, val_main_v47_apply, val_main_v46_apply, hb]
  simp only [hl, hr, hid_l2 x0 x1 x3 x4 x5 x6 x7 x8 h hin, Ideal.addf_def]
  rfl

end Cert.ReferenceIdeal.RefValue

end
-- ==== Proof.Ref.Layer3.lean ====
/- The reference's layer 3 read as the mathematics' layer of its input stage. -/
import proofs.«420535_j82145544503553_2_alg».proof.Proof.Ref.Common

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))
  (x7 : (⟨S98x98, .f32⟩ : BufTy).Contents (Elt Ideal))
  (x8 : (⟨S98, .f32⟩ : BufTy).Contents (Elt Ideal))
  (x9 : (⟨S98x98, .f32⟩ : BufTy).Contents (Elt Ideal))
  (x10 : (⟨S98, .f32⟩ : BufTy).Contents (Elt Ideal))
  (x11 : (⟨S98x98, .f32⟩ : BufTy).Contents (Elt Ideal))
  (x12 : (⟨S98, .f32⟩ : BufTy).Contents (Elt Ideal))
  (x13 : (⟨S98x98, .f32⟩ : BufTy).Contents (Elt Ideal))
  (x14 : (⟨S98, .f32⟩ : BufTy).Contents (Elt Ideal))

theorem src_l3 (e : Fin 1600000) :
    val_main_v59 (F := Ideal) x1 (ix2 e 0) = Cert.Spec.srcOf x1 e := by
  have hi : idx_main_v59 (ix2 e (0 : Fin 1)) = ix1 e := funext fun a => by match a with | ⟨0, _⟩ => rfl
  rw [val_main_v59_apply, hi, val_main_v58_apply, val_main_v55_apply, val_main_v57_apply, val_main_v54_apply, val_main_v56_apply,
    val_main_c_8_apply, val_main_c_9_apply, v1_read]
  rfl

theorem dst_l3 (e : Fin 1600000) :
    val_main_v62 (F := Ideal) x1 (ix2 e 0) = Cert.Spec.dstOf x1 e := by
  have hi : idx_main_v62 (ix2 e (0 : Fin 1)) = ix1 e := funext fun a => by match a with | ⟨0, _⟩ => rfl
  rw [val_main_v62_apply, hi, v3_read]
  rfl

theorem gath_l3 (h : Fin 100000 → Fin 98 → Cert.Spec.R) (hin : ∀ (n : Fin 100000) (k : Fin 98), val_main_v53 (F := Ideal) x0 x1 x3 x4 x5 x6 x7 x8 x9 x10 (ix2 n k) = h n k) (e : Fin 1600000) (q : Fin 98) :
    val_main_v60 (F := Ideal) x0 x1 x3 x4 x5 x6 x7 x8 x9 x10 (ix2 e q)
      = h ⟨min (Cert.Spec.srcOf x1 e).toInt.toNat (100000 - 1), by omega⟩ q := by
  unfold val_main_v60
  rw [gather98_eq, gather_rows_apply Cert.Spec.hN]
  simp only [src_l3, hin]

theorem agg_l3 (h : Fin 100000 → Fin 98 → Cert.Spec.R) (hin : ∀ (n : Fin 100000) (k : Fin 98), val_main_v53 (F := Ideal) x0 x1 x3 x4 x5 x6 x7 x8 x9 x10 (ix2 n k) = h n k) (n : Fin 100000) (q : Fin 98) :
    val_main_v63 (F := Ideal) x0 x1 x3 x4 x5 x6 x7 x8 x9 x10 (ix2 n q) = Cert.Spec.agg Cert.Spec.hN h (Cert.Spec.srcOf x1) (Cert.Spec.dstOf x1) n q := by
  unfold val_main_v63
  rw [scatter98_eq, Host_scatterAdd_rows_apply, val_main_v61_apply, val_main_cst_10_apply, Ideal.ofBits_def, Ideal.ofBits_zero_f32, zero_add]
  simp only [dst_l3, gath_l3 x0 x1 x3 x4 x5 x6 x7 x8 x9 x10 h hin]
  rfl

theorem hid_l3 (h : Fin 100000 → Fin 98 → Cert.Spec.R) (hin : ∀ (n : Fin 100000) (k : Fin 98), val_main_v53 (F := Ideal) x0 x1 x3 x4 x5 x6 x7 x8 x9 x10 (ix2 n k) = h n k) (n : Fin 100000) (k : Fin 98) :
    val_main_v69 (F := Ideal) x0 x1 x3 x4 x5 x6 x7 x8 x9 x10 x11 x12 (ix2 n k)
      = max ((∑ k' : Fin 98, (h n k' + Cert.Spec.agg Cert.Spec.hN h (Cert.Spec.srcOf x1) (Cert.Spec.dstOf x1) n k') * Cert.Spec.mat x11 k' k) + Cert.Spec.vec x12 k) 0 := by
  have hl : ∀ k' : Fin 98, lidx_main_v65 (ix2 n k) k' = ix2 n k' := fun k' => funext fun a => by match a with | ⟨0, _⟩ => rfl | ⟨1, _⟩ => rfl
  have hr : ∀ k' : Fin 98, ridx_main_v65 (ix2 n k) k' = ix2 k' k := fun k' => funext fun a => by match a with | ⟨0, _⟩ => rfl | ⟨1, _⟩ => rfl
  have hb : idx_main_v66 (idx_main_v67 (ix2 n k)) = ix1 k := funext fun a => by match a with | ⟨0, _⟩ => rfl
  rw [val_main_v69_apply, val_main_call4_v0_apply, val_main_call4_cst_apply, val_main_v68_apply, val_main_v65_apply, val_main_v67_apply, val_main_v66_apply, hb]
  simp only [hl, hr, val_main_v64_apply, agg_l3 x0 x1 x3 x4 x5 x6 x7 x8 x9 x10 h hin, hin, Ideal.addf_def, Ideal.maximumf_def, Ideal.ofBits_def, Ideal.ofBits_zero_f32]
  rfl

theorem layer_l3 (h : Fin 100000 → Fin 98 → Cert.Spec.R) (hin : ∀ (n : Fin 100000) (k : Fin 98), val_main_v53 (F := Ideal) x0 x1 x3 x4 x5 x6 x7 x8 x9 x10 (ix2 n k) = h n k) (n : Fin 100000) (j : Fin 98) :
    val_main_v78 (F := Ideal) x0 x1 x3 x4 x5 x6 x7 x8 x9 x10 x11 x12 x13 x14 (ix2 n j)
      = Cert.Spec.layer Cert.Spec.hN h (Cert.Spec.srcOf x1) (Cert.Spec.dstOf x1) (Cert.Spec.mat x11) (Cert.Spec.vec x12) (Cert.Spec.mat x13) (Cert.Spec.vec x14) n j := by
  have hl : ∀ k : Fin 98, lidx_main_v70 (ix2 n j) k = ix2 n k := fun k => funext fun a => by match a with | ⟨0, _⟩ => rfl | ⟨1, _⟩ => rfl
  have hr : ∀ k : Fin 98, ridx_main_v70 (ix2 n j) k = ix2 k j := fun k => funext fun a => by match a with | ⟨0, _⟩ => rfl | ⟨1, _⟩ => rfl
  have hb : idx_main_v71 (idx_main_v72 (ix2 n j)) = ix1 j := funext fun a => by match a with | ⟨0, _⟩ => rfl
  rw [val_main_v78_apply, val_main_v75_apply, val_main_v77_apply, val_main_v74_apply, val_main_v76_apply, val_main_cst_11_apply, val_main_cst_12_apply,
    rrelu_read, val_main_v73_apply, val_main_v70_apply, val_main_v72_apply, val_main_v71_apply, hb]
  simp only [hl, hr, hid_l3 x0 x1 x3 x4 x5 x6 x7 x8 x9 x10 x11 x12 h hin, Ideal.addf_def]
  rfl

end Cert.ReferenceIdeal.RefValue

end
-- ==== Proof.Ref.Layer4.lean ====
/- The reference's layer 4 read as the mathematics' layer of its input stage. -/
import proofs.«420535_j82145544503553_2_alg».proof.Proof.Ref.Common

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))
  (x7 : (⟨S98x98, .f32⟩ : BufTy).Contents (Elt Ideal))
  (x8 : (⟨S98, .f32⟩ : BufTy).Contents (Elt Ideal))
  (x9 : (⟨S98x98, .f32⟩ : BufTy).Contents (Elt Ideal))
  (x10 : (⟨S98, .f32⟩ : BufTy).Contents (Elt Ideal))
  (x11 : (⟨S98x98, .f32⟩ : BufTy).Contents (Elt Ideal))
  (x12 : (⟨S98, .f32⟩ : BufTy).Contents (Elt Ideal))
  (x13 : (⟨S98x98, .f32⟩ : BufTy).Contents (Elt Ideal))
  (x14 : (⟨S98, .f32⟩ : BufTy).Contents (Elt Ideal))
  (x15 : (⟨S98x98, .f32⟩ : BufTy).Contents (Elt Ideal))
  (x16 : (⟨S98, .f32⟩ : BufTy).Contents (Elt Ideal))
  (x17 : (⟨S98x98, .f32⟩ : BufTy).Contents (Elt Ideal))
  (x18 : (⟨S98, .f32⟩ : BufTy).Contents (Elt Ideal))

theorem src_l4 (e : Fin 1600000) :
    val_main_v84 (F := Ideal) x1 (ix2 e 0) = Cert.Spec.srcOf x1 e := by
  have hi : idx_main_v84 (ix2 e (0 : Fin 1)) = ix1 e := funext fun a => by match a with | ⟨0, _⟩ => rfl
  rw [val_main_v84_apply, hi, val_main_v83_apply, val_main_v80_apply, val_main_v82_apply, val_main_v79_apply, val_main_v81_apply,
    val_main_c_13_apply, val_main_c_14_apply, v1_read]
  rfl

theorem dst_l4 (e : Fin 1600000) :
    val_main_v87 (F := Ideal) x1 (ix2 e 0) = Cert.Spec.dstOf x1 e := by
  have hi : idx_main_v87 (ix2 e (0 : Fin 1)) = ix1 e := funext fun a => by match a with | ⟨0, _⟩ => rfl
  rw [val_main_v87_apply, hi, v3_read]
  rfl

theorem gath_l4 (h : Fin 100000 → Fin 98 → Cert.Spec.R) (hin : ∀ (n : Fin 100000) (k : Fin 98), val_main_v78 (F := Ideal) x0 x1 x3 x4 x5 x6 x7 x8 x9 x10 x11 x12 x13 x14 (ix2 n k) = h n k) (e : Fin 1600000) (q : Fin 98) :
    val_main_v85 (F := Ideal) x0 x1 x3 x4 x5 x6 x7 x8 x9 x10 x11 x12 x13 x14 (ix2 e q)
      = h ⟨min (Cert.Spec.srcOf x1 e).toInt.toNat (100000 - 1), by omega⟩ q := by
  unfold val_main_v85
  rw [gather98_eq, gather_rows_apply Cert.Spec.hN]
  simp only [src_l4, hin]

theorem agg_l4 (h : Fin 100000 → Fin 98 → Cert.Spec.R) (hin : ∀ (n : Fin 100000) (k : Fin 98), val_main_v78 (F := Ideal) x0 x1 x3 x4 x5 x6 x7 x8 x9 x10 x11 x12 x13 x14 (ix2 n k) = h n k) (n : Fin 100000) (q : Fin 98) :
    val_main_v88 (F := Ideal) x0 x1 x3 x4 x5 x6 x7 x8 x9 x10 x11 x12 x13 x14 (ix2 n q) = Cert.Spec.agg Cert.Spec.hN h (Cert.Spec.srcOf x1) (Cert.Spec.dstOf x1) n q := by
  unfold val_main_v88
  rw [scatter98_eq, Host_scatterAdd_rows_apply, val_main_v86_apply, val_main_cst_15_apply, Ideal.ofBits_def, Ideal.ofBits_zero_f32, zero_add]
  simp only [dst_l4, gath_l4 x0 x1 x3 x4 x5 x6 x7 x8 x9 x10 x11 x12 x13 x14 h hin]
  rfl

theorem hid_l4 (h : Fin 100000 → Fin 98 → Cert.Spec.R) (hin : ∀ (n : Fin 100000) (k : Fin 98), val_main_v78 (F := Ideal) x0 x1 x3 x4 x5 x6 x7 x8 x9 x10 x11 x12 x13 x14 (ix2 n k) = h n k) (n : Fin 100000) (k : Fin 98) :
    val_main_v94 (F := Ideal) x0 x1 x3 x4 x5 x6 x7 x8 x9 x10 x11 x12 x13 x14 x15 x16 (ix2 n k)
      = max ((∑ k' : Fin 98, (h n k' + Cert.Spec.agg Cert.Spec.hN h (Cert.Spec.srcOf x1) (Cert.Spec.dstOf x1) n k') * Cert.Spec.mat x15 k' k) + Cert.Spec.vec x16 k) 0 := by
  have hl : ∀ k' : Fin 98, lidx_main_v90 (ix2 n k) k' = ix2 n k' := fun k' => funext fun a => by match a with | ⟨0, _⟩ => rfl | ⟨1, _⟩ => rfl
  have hr : ∀ k' : Fin 98, ridx_main_v90 (ix2 n k) k' = ix2 k' k := fun k' => funext fun a => by match a with | ⟨0, _⟩ => rfl | ⟨1, _⟩ => rfl
  have hb : idx_main_v91 (idx_main_v92 (ix2 n k)) = ix1 k := funext fun a => by match a with | ⟨0, _⟩ => rfl
  rw [val_main_v94_apply, val_main_call6_v0_apply, val_main_call6_cst_apply, val_main_v93_apply, val_main_v90_apply, val_main_v92_apply, val_main_v91_apply, hb]
  simp only [hl, hr, val_main_v89_apply, agg_l4 x0 x1 x3 x4 x5 x6 x7 x8 x9 x10 x11 x12 x13 x14 h hin, hin, Ideal.addf_def, Ideal.maximumf_def, Ideal.ofBits_def, Ideal.ofBits_zero_f32]
  rfl

theorem layer_l4 (h : Fin 100000 → Fin 98 → Cert.Spec.R) (hin : ∀ (n : Fin 100000) (k : Fin 98), val_main_v78 (F := Ideal) x0 x1 x3 x4 x5 x6 x7 x8 x9 x10 x11 x12 x13 x14 (ix2 n k) = h n k) (n : Fin 100000) (j : Fin 98) :
    val_main_v103 (F := Ideal) x0 x1 x3 x4 x5 x6 x7 x8 x9 x10 x11 x12 x13 x14 x15 x16 x17 x18 (ix2 n j)
      = Cert.Spec.layer Cert.Spec.hN h (Cert.Spec.srcOf x1) (Cert.Spec.dstOf x1) (Cert.Spec.mat x15) (Cert.Spec.vec x16) (Cert.Spec.mat x17) (Cert.Spec.vec x18) n j := by
  have hl : ∀ k : Fin 98, lidx_main_v95 (ix2 n j) k = ix2 n k := fun k => funext fun a => by match a with | ⟨0, _⟩ => rfl | ⟨1, _⟩ => rfl
  have hr : ∀ k : Fin 98, ridx_main_v95 (ix2 n j) k = ix2 k j := fun k => funext fun a => by match a with | ⟨0, _⟩ => rfl | ⟨1, _⟩ => rfl
  have hb : idx_main_v96 (idx_main_v97 (ix2 n j)) = ix1 j := funext fun a => by match a with | ⟨0, _⟩ => rfl
  rw [val_main_v103_apply, val_main_v100_apply, val_main_v102_apply, val_main_v99_apply, val_main_v101_apply, val_main_cst_16_apply, val_main_cst_17_apply,
    rrelu_read, val_main_v98_apply, val_main_v95_apply, val_main_v97_apply, val_main_v96_apply, hb]
  simp only [hl, hr, hid_l4 x0 x1 x3 x4 x5 x6 x7 x8 x9 x10 x11 x12 x13 x14 x15 x16 h hin, Ideal.addf_def]
  rfl

end Cert.ReferenceIdeal.RefValue

end
-- ==== Proof.Ref.Layer5.lean ====
/- The reference's layer 5 read as the mathematics' layer of its input stage. -/
import proofs.«420535_j82145544503553_2_alg».proof.Proof.Ref.Common

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))
  (x7 : (⟨S98x98, .f32⟩ : BufTy).Contents (Elt Ideal))
  (x8 : (⟨S98, .f32⟩ : BufTy).Contents (Elt Ideal))
  (x9 : (⟨S98x98, .f32⟩ : BufTy).Contents (Elt Ideal))
  (x10 : (⟨S98, .f32⟩ : BufTy).Contents (Elt Ideal))
  (x11 : (⟨S98x98, .f32⟩ : BufTy).Contents (Elt Ideal))
  (x12 : (⟨S98, .f32⟩ : BufTy).Contents (Elt Ideal))
  (x13 : (⟨S98x98, .f32⟩ : BufTy).Contents (Elt Ideal))
  (x14 : (⟨S98, .f32⟩ : BufTy).Contents (Elt Ideal))
  (x15 : (⟨S98x98, .f32⟩ : BufTy).Contents (Elt Ideal))
  (x16 : (⟨S98, .f32⟩ : BufTy).Contents (Elt Ideal))
  (x17 : (⟨S98x98, .f32⟩ : BufTy).Contents (Elt Ideal))
  (x18 : (⟨S98, .f32⟩ : BufTy).Contents (Elt Ideal))
  (x19 : (⟨S98x98, .f32⟩ : BufTy).Contents (Elt Ideal))
  (x20 : (⟨S98, .f32⟩ : BufTy).Contents (Elt Ideal))
  (x21 : (⟨S98x98, .f32⟩ : BufTy).Contents (Elt Ideal))
  (x22 : (⟨S98, .f32⟩ : BufTy).Contents (Elt Ideal))

theorem src_l5 (e : Fin 1600000) :
    val_main_v109 (F := Ideal) x1 (ix2 e 0) = Cert.Spec.srcOf x1 e := by
  have hi : idx_main_v109 (ix2 e (0 : Fin 1)) = ix1 e := funext fun a => by match a with | ⟨0, _⟩ => rfl
  rw [val_main_v109_apply, hi, val_main_v108_apply, val_main_v105_apply, val_main_v107_apply, val_main_v104_apply, val_main_v106_apply,
    val_main_c_18_apply, val_main_c_19_apply, v1_read]
  rfl

theorem dst_l5 (e : Fin 1600000) :
    val_main_v112 (F := Ideal) x1 (ix2 e 0) = Cert.Spec.dstOf x1 e := by
  have hi : idx_main_v112 (ix2 e (0 : Fin 1)) = ix1 e := funext fun a => by match a with | ⟨0, _⟩ => rfl
  rw [val_main_v112_apply, hi, v3_read]
  rfl

theorem gath_l5 (h : Fin 100000 → Fin 98 → Cert.Spec.R) (hin : ∀ (n : Fin 100000) (k : Fin 98), val_main_v103 (F := Ideal) x0 x1 x3 x4 x5 x6 x7 x8 x9 x10 x11 x12 x13 x14 x15 x16 x17 x18 (ix2 n k) = h n k) (e : Fin 1600000) (q : Fin 98) :
    val_main_v110 (F := Ideal) x0 x1 x3 x4 x5 x6 x7 x8 x9 x10 x11 x12 x13 x14 x15 x16 x17 x18 (ix2 e q)
      = h ⟨min (Cert.Spec.srcOf x1 e).toInt.toNat (100000 - 1), by omega⟩ q := by
  unfold val_main_v110
  rw [gather98_eq, gather_rows_apply Cert.Spec.hN]
  simp only [src_l5, hin]

theorem agg_l5 (h : Fin 100000 → Fin 98 → Cert.Spec.R) (hin : ∀ (n : Fin 100000) (k : Fin 98), val_main_v103 (F := Ideal) x0 x1 x3 x4 x5 x6 x7 x8 x9 x10 x11 x12 x13 x14 x15 x16 x17 x18 (ix2 n k) = h n k) (n : Fin 100000) (q : Fin 98) :
    val_main_v113 (F := Ideal) x0 x1 x3 x4 x5 x6 x7 x8 x9 x10 x11 x12 x13 x14 x15 x16 x17 x18 (ix2 n q) = Cert.Spec.agg Cert.Spec.hN h (Cert.Spec.srcOf x1) (Cert.Spec.dstOf x1) n q := by
  unfold val_main_v113
  rw [scatter98_eq, Host_scatterAdd_rows_apply, val_main_v111_apply, val_main_cst_20_apply, Ideal.ofBits_def, Ideal.ofBits_zero_f32, zero_add]
  simp only [dst_l5, gath_l5 x0 x1 x3 x4 x5 x6 x7 x8 x9 x10 x11 x12 x13 x14 x15 x16 x17 x18 h hin]
  rfl

theorem hid_l5 (h : Fin 100000 → Fin 98 → Cert.Spec.R) (hin : ∀ (n : Fin 100000) (k : Fin 98), val_main_v103 (F := Ideal) x0 x1 x3 x4 x5 x6 x7 x8 x9 x10 x11 x12 x13 x14 x15 x16 x17 x18 (ix2 n k) = h n k) (n : Fin 100000) (k : Fin 98) :
    val_main_v119 (F := Ideal) x0 x1 x3 x4 x5 x6 x7 x8 x9 x10 x11 x12 x13 x14 x15 x16 x17 x18 x19 x20 (ix2 n k)
      = max ((∑ k' : Fin 98, (h n k' + Cert.Spec.agg Cert.Spec.hN h (Cert.Spec.srcOf x1) (Cert.Spec.dstOf x1) n k') * Cert.Spec.mat x19 k' k) + Cert.Spec.vec x20 k) 0 := by
  have hl : ∀ k' : Fin 98, lidx_main_v115 (ix2 n k) k' = ix2 n k' := fun k' => funext fun a => by match a with | ⟨0, _⟩ => rfl | ⟨1, _⟩ => rfl
  have hr : ∀ k' : Fin 98, ridx_main_v115 (ix2 n k) k' = ix2 k' k := fun k' => funext fun a => by match a with | ⟨0, _⟩ => rfl | ⟨1, _⟩ => rfl
  have hb : idx_main_v116 (idx_main_v117 (ix2 n k)) = ix1 k := funext fun a => by match a with | ⟨0, _⟩ => rfl
  rw [val_main_v119_apply, val_main_call8_v0_apply, val_main_call8_cst_apply, val_main_v118_apply, val_main_v115_apply, val_main_v117_apply, val_main_v116_apply, hb]
  simp only [hl, hr, val_main_v114_apply, agg_l5 x0 x1 x3 x4 x5 x6 x7 x8 x9 x10 x11 x12 x13 x14 x15 x16 x17 x18 h hin, hin, Ideal.addf_def, Ideal.maximumf_def, Ideal.ofBits_def, Ideal.ofBits_zero_f32]
  rfl

theorem layer_l5 (h : Fin 100000 → Fin 98 → Cert.Spec.R) (hin : ∀ (n : Fin 100000) (k : Fin 98), val_main_v103 (F := Ideal) x0 x1 x3 x4 x5 x6 x7 x8 x9 x10 x11 x12 x13 x14 x15 x16 x17 x18 (ix2 n k) = h n k) (n : Fin 100000) (j : Fin 98) :
    val_main_v128 (F := Ideal) x0 x1 x3 x4 x5 x6 x7 x8 x9 x10 x11 x12 x13 x14 x15 x16 x17 x18 x19 x20 x21 x22 (ix2 n j)
      = Cert.Spec.layer Cert.Spec.hN h (Cert.Spec.srcOf x1) (Cert.Spec.dstOf x1) (Cert.Spec.mat x19) (Cert.Spec.vec x20) (Cert.Spec.mat x21) (Cert.Spec.vec x22) n j := by
  have hl : ∀ k : Fin 98, lidx_main_v120 (ix2 n j) k = ix2 n k := fun k => funext fun a => by match a with | ⟨0, _⟩ => rfl | ⟨1, _⟩ => rfl
  have hr : ∀ k : Fin 98, ridx_main_v120 (ix2 n j) k = ix2 k j := fun k => funext fun a => by match a with | ⟨0, _⟩ => rfl | ⟨1, _⟩ => rfl
  have hb : idx_main_v121 (idx_main_v122 (ix2 n j)) = ix1 j := funext fun a => by match a with | ⟨0, _⟩ => rfl
  rw [val_main_v128_apply, val_main_v125_apply, val_main_v127_apply, val_main_v124_apply, val_main_v126_apply, val_main_cst_21_apply, val_main_cst_22_apply,
    rrelu_read, val_main_v123_apply, val_main_v120_apply, val_main_v122_apply, val_main_v121_apply, hb]
  simp only [hl, hr, hid_l5 x0 x1 x3 x4 x5 x6 x7 x8 x9 x10 x11 x12 x13 x14 x15 x16 x17 x18 x19 x20 h hin, Ideal.addf_def]
  rfl

end Cert.ReferenceIdeal.RefValue

end
-- ==== Proof.Ref.Val.lean ====
/- The reference's result stage is the mathematics' reference result: five layers chained, the projection, the per-graph sum, the layer normalisation. -/
import proofs.«420535_j82145544503553_2_alg».proof.Proof.Ref.Layer1
import proofs.«420535_j82145544503553_2_alg».proof.Proof.Ref.Layer2
import proofs.«420535_j82145544503553_2_alg».proof.Proof.Ref.Layer3
import proofs.«420535_j82145544503553_2_alg».proof.Proof.Ref.Layer4
import proofs.«420535_j82145544503553_2_alg».proof.Proof.Ref.Layer5

noncomputable section

namespace Cert.ReferenceIdeal.RefValue

open Cert.ReferenceIdeal Cert.ReferenceIdeal.Gen Cert.ReferenceIdeal.ReadP Idealize.ShloMosaic Idealize.ShloMosaic.TcCoe
  Idealize.ShloMosaic.StableHlo Idealize.ShloMosaic.ValueIdx Idealize.ShloMosaic.LibRows

open scoped BigOperators

variable (x0 : (⟨S100000x108, .f32⟩ : BufTy).Contents (Elt Ideal))
  (x1 : (⟨S2x1600000, .i32⟩ : BufTy).Contents (Elt Ideal))
  (x2 : (⟨S100000, .i32⟩ : BufTy).Contents (Elt Ideal))
  (x3 : (⟨S108x98, .f32⟩ : BufTy).Contents (Elt Ideal))
  (x4 : (⟨S98, .f32⟩ : BufTy).Contents (Elt Ideal))
  (x5 : (⟨S98x98, .f32⟩ : BufTy).Contents (Elt Ideal))
  (x6 : (⟨S98, .f32⟩ : BufTy).Contents (Elt Ideal))
  (x7 : (⟨S98x98, .f32⟩ : BufTy).Contents (Elt Ideal))
  (x8 : (⟨S98, .f32⟩ : BufTy).Contents (Elt Ideal))
  (x9 : (⟨S98x98, .f32⟩ : BufTy).Contents (Elt Ideal))
  (x10 : (⟨S98, .f32⟩ : BufTy).Contents (Elt Ideal))
  (x11 : (⟨S98x98, .f32⟩ : BufTy).Contents (Elt Ideal))
  (x12 : (⟨S98, .f32⟩ : BufTy).Contents (Elt Ideal))
  (x13 : (⟨S98x98, .f32⟩ : BufTy).Contents (Elt Ideal))
  (x14 : (⟨S98, .f32⟩ : BufTy).Contents (Elt Ideal))
  (x15 : (⟨S98x98, .f32⟩ : BufTy).Contents (Elt Ideal))
  (x16 : (⟨S98, .f32⟩ : BufTy).Contents (Elt Ideal))
  (x17 : (⟨S98x98, .f32⟩ : BufTy).Contents (Elt Ideal))
  (x18 : (⟨S98, .f32⟩ : BufTy).Contents (Elt Ideal))
  (x19 : (⟨S98x98, .f32⟩ : BufTy).Contents (Elt Ideal))
  (x20 : (⟨S98, .f32⟩ : BufTy).Contents (Elt Ideal))
  (x21 : (⟨S98x98, .f32⟩ : BufTy).Contents (Elt Ideal))
  (x22 : (⟨S98, .f32⟩ : BufTy).Contents (Elt Ideal))
  (x23 : (⟨S98x120, .f32⟩ : BufTy).Contents (Elt Ideal))
  (x24 : (⟨S120, .f32⟩ : BufTy).Contents (Elt Ideal))
  (x25 : (⟨S120, .f32⟩ : BufTy).Contents (Elt Ideal))
  (x26 : (⟨S120, .f32⟩ : BufTy).Contents (Elt Ideal))

theorem proj_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (n : Fin 100000) (j : Fin 120) :
    val_main_v132 (F := Ideal) x0 x1 x3 x4 x5 x6 x7 x8 x9 x10 x11 x12 x13 x14 x15 x16 x17 x18 x19 x20 x21 x22 x23 x24 (ix2 n j)
      = Cert.Spec.proj h (Cert.Spec.mat x23) (Cert.Spec.vec x24) n j := by
  have hl : ∀ k : Fin 98, lidx_main_v129 (ix2 n j) k = ix2 n k := fun k => funext fun a => by match a with | ⟨0, _⟩ => rfl | ⟨1, _⟩ => rfl
  have hr : ∀ k : Fin 98, ridx_main_v129 (ix2 n j) k = ix2 k j := fun k => funext fun a => by match a with | ⟨0, _⟩ => rfl | ⟨1, _⟩ => rfl
  have hb : idx_main_v130 (idx_main_v131 (ix2 n j)) = ix1 j := funext fun a => by match a with | ⟨0, _⟩ => rfl
  rw [val_main_v132_apply, val_main_v129_apply, val_main_v131_apply, val_main_v130_apply, hb]
  simp only [hl, hr, hin, Ideal.addf_def]
  rfl

theorem seg_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (s : Fin 512) (j : Fin 120) :
    val_main_v135 (F := Ideal) x0 x1 x2 x3 x4 x5 x6 x7 x8 x9 x10 x11 x12 x13 x14 x15 x16 x17 x18 x19 x20 x21 x22 x23 x24 (ix2 s j) = Cert.Spec.segIdx (Cert.Spec.proj h (Cert.Spec.mat x23) (Cert.Spec.vec x24)) (Cert.Spec.batchOf x2) s j := by
  have hi : ∀ e : Fin 100000, idx_main_v134 (ix2 e (0 : Fin 1)) = ix1 e := fun e => funext fun a => by match a with | ⟨0, _⟩ => rfl
  unfold val_main_v135
  rw [scatter120_eq, Host_scatterAdd_rows_apply, val_main_v133_apply, val_main_cst_23_apply, Ideal.ofBits_def, Ideal.ofBits_zero_f32, zero_add]
  simp only [val_main_v134_apply, hi, proj_read x0 x1 x3 x4 x5 x6 x7 x8 x9 x10 x11 x12 x13 x14 x15 x16 x17 x18 x19 x20 x21 x22 x23 x24 h hin]
  rfl

theorem mean_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (s : Fin 512) :
    val_main_v139 (F := Ideal) x0 x1 x2 x3 x4 x5 x6 x7 x8 x9 x10 x11 x12 x13 x14 x15 x16 x17 x18 x19 x20 x21 x22 x23 x24 (ix2 s 0) = Ideal.div (∑ k : Fin 120, Cert.Spec.segIdx (Cert.Spec.proj h (Cert.Spec.mat x23) (Cert.Spec.vec x24)) (Cert.Spec.batchOf x2) s k) Cert.Spec.c120 := by
  have hi : ∀ k : Fin 120, idx_main_v136 (idx_main_v137 (ix2 s (0 : Fin 1))) k = ix2 s k := fun k => funext fun a => by match a with | ⟨0, _⟩ => rfl | ⟨1, _⟩ => rfl
  rw [val_main_v139_apply, val_main_v137_apply, val_main_v136_apply, val_main_cst_24_apply, val_main_v138_apply, val_main_cst_25_apply,
    Ideal.hostDivf_def, Ideal.ofBits_def, Ideal.ofBits_def, Ideal.ofBits_zero_f32, zero_add]
  simp only [hi, seg_read x0 x1 x2 x3 x4 x5 x6 x7 x8 x9 x10 x11 x12 x13 x14 x15 x16 x17 x18 x19 x20 x21 x22 x23 x24 h hin]
  rfl

theorem cen_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (s : Fin 512) (k : Fin 120) :
    val_main_v141 (F := Ideal) x0 x1 x2 x3 x4 x5 x6 x7 x8 x9 x10 x11 x12 x13 x14 x15 x16 x17 x18 x19 x20 x21 x22 x23 x24 (ix2 s k) = Cert.Spec.segIdx (Cert.Spec.proj h (Cert.Spec.mat x23) (Cert.Spec.vec x24)) (Cert.Spec.batchOf x2) s k - Ideal.div (∑ k : Fin 120, Cert.Spec.segIdx (Cert.Spec.proj h (Cert.Spec.mat x23) (Cert.Spec.vec x24)) (Cert.Spec.batchOf x2) s k) Cert.Spec.c120 := by
  have hi : idx_main_v140 (ix2 s k) = ix2 s (0 : Fin 1) := funext fun a => by match a with | ⟨0, _⟩ => rfl | ⟨1, _⟩ => rfl
  rw [val_main_v141_apply, val_main_v140_apply, hi, mean_read x0 x1 x2 x3 x4 x5 x6 x7 x8 x9 x10 x11 x12 x13 x14 x15 x16 x17 x18 x19 x20 x21 x22 x23 x24 h hin, seg_read x0 x1 x2 x3 x4 x5 x6 x7 x8 x9 x10 x11 x12 x13 x14 x15 x16 x17 x18 x19 x20 x21 x22 x23 x24 h hin, Ideal.subf_def]

theorem var_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (s : Fin 512) :
    val_main_v146 (F := Ideal) x0 x1 x2 x3 x4 x5 x6 x7 x8 x9 x10 x11 x12 x13 x14 x15 x16 x17 x18 x19 x20 x21 x22 x23 x24 (ix2 s 0) = Ideal.div (∑ k : Fin 120, (Cert.Spec.segIdx (Cert.Spec.proj h (Cert.Spec.mat x23) (Cert.Spec.vec x24)) (Cert.Spec.batchOf x2) s k - Ideal.div (∑ k : Fin 120, Cert.Spec.segIdx (Cert.Spec.proj h (Cert.Spec.mat x23) (Cert.Spec.vec x24)) (Cert.Spec.batchOf x2) s k) Cert.Spec.c120) * (Cert.Spec.segIdx (Cert.Spec.proj h (Cert.Spec.mat x23) (Cert.Spec.vec x24)) (Cert.Spec.batchOf x2) s k - Ideal.div (∑ k : Fin 120, Cert.Spec.segIdx (Cert.Spec.proj h (Cert.Spec.mat x23) (Cert.Spec.vec x24)) (Cert.Spec.batchOf x2) s k) Cert.Spec.c120)) Cert.Spec.c120 := by
  have hi : ∀ k : Fin 120, idx_main_v143 (idx_main_v144 (ix2 s (0 : Fin 1))) k = ix2 s k := fun k => funext fun a => by match a with | ⟨0, _⟩ => rfl | ⟨1, _⟩ => rfl
  rw [val_main_v146_apply, val_main_v144_apply, val_main_v143_apply, val_main_cst_26_apply, val_main_v145_apply, val_main_cst_27_apply,
    Ideal.hostDivf_def, Ideal.ofBits_def, Ideal.ofBits_def, Ideal.ofBits_zero_f32, zero_add]
  simp only [hi, val_main_v142_apply, cen_read x0 x1 x2 x3 x4 x5 x6 x7 x8 x9 x10 x11 x12 x13 x14 x15 x16 x17 x18 x19 x20 x21 x22 x23 x24 h hin, Ideal.mulf_def]
  rfl

theorem norm_read (h : Fin 100000 → Fin 98 → Cert.Spec.R) (hin : ∀ (n : Fin 100000) (k : Fin 98), val_main_v128 (F := Ideal) x0 x1 x3 x4 x5 x6 x7 x8 x9 x10 x11 x12 x13 x14 x15 x16 x17 x18 x19 x20 x21 x22 (ix2 n k) = h n k) (s : Fin 512) (j : Fin 120) :
    val_main_v159 (F := Ideal) x0 x1 x2 x3 x4 x5 x6 x7 x8 x9 x10 x11 x12 x13 x14 x15 x16 x17 x18 x19 x20 x21 x22 x23 x24 x25 x26 (ix2 s j)
      = Cert.Spec.layerNorm (fun k => Cert.Spec.segIdx (Cert.Spec.proj h (Cert.Spec.mat x23) (Cert.Spec.vec x24)) (Cert.Spec.batchOf x2) s k) (Cert.Spec.vec x25) (Cert.Spec.vec x26) j := by
  have h147 : idx_main_v147 (ix2 s j) = ix2 s (0 : Fin 1) := funext fun a => by match a with | ⟨0, _⟩ => rfl | ⟨1, _⟩ => rfl
  have h152 : idx_main_v152 (ix2 s j) = ix2 s (0 : Fin 1) := funext fun a => by match a with | ⟨0, _⟩ => rfl | ⟨1, _⟩ => rfl
  have h155 : idx_main_v154 (idx_main_v155 (ix2 s j)) = ix1 j := funext fun a => by match a with | ⟨0, _⟩ => rfl
  have h158 : idx_main_v157 (idx_main_v158 (ix2 s j)) = ix1 j := funext fun a => by match a with | ⟨0, _⟩ => rfl
  rw [val_main_v159_apply, val_main_v156_apply, val_main_v153_apply, val_main_v148_apply, val_main_v147_apply, h147, val_main_v152_apply, h152,
    val_main_v151_apply, val_main_v150_apply, val_main_v149_apply, val_main_cst_28_apply, val_main_v155_apply, val_main_v154_apply, h155,
    val_main_v158_apply, val_main_v157_apply, h158, mean_read x0 x1 x2 x3 x4 x5 x6 x7 x8 x9 x10 x11 x12 x13 x14 x15 x16 x17 x18 x19 x20 x21 x22 x23 x24 h hin, var_read x0 x1 x2 x3 x4 x5 x6 x7 x8 x9 x10 x11 x12 x13 x14 x15 x16 x17 x18 x19 x20 x21 x22 x23 x24 h hin, seg_read x0 x1 x2 x3 x4 x5 x6 x7 x8 x9 x10 x11 x12 x13 x14 x15 x16 x17 x18 x19 x20 x21 x22 x23 x24 h hin,
    Ideal.addf_def, Ideal.addf_def, Ideal.mulf_def, Ideal.mulf_def, Ideal.subf_def, Ideal.hostUnary_rsqrt_def, Ideal.ofBits_def]
  rfl

theorem res_apply (s : Fin 512) (j : Fin 120) :
    (val_main_v159 (F := Ideal) x0 x1 x2 x3 x4 x5 x6 x7 x8 x9 x10 x11 x12 x13 x14 x15 x16 x17 x18 x19 x20 x21 x22 x23 x24 x25 x26 : Vec Ideal S512x120 .f32) (ix2 s j)
      = Cert.Spec.refOf x0 x1 x2 (Cert.Spec.paramsOf x3 x4 x5 x6 x7 x8 x9 x10 x11 x12 x13 x14 x15 x16 x17 x18 x19 x20 x21 x22 x23 x24 x25 x26) s j := by
  have h1 : ∀ (n : Fin 100000) (k : Fin 98), val_main_v28 (F := Ideal) x0 x1 x3 x4 x5 x6 (ix2 n k) = Cert.Spec.rH1 Cert.Spec.hN (Cert.Spec.mat x0) (Cert.Spec.srcOf x1) (Cert.Spec.dstOf x1) (Cert.Spec.paramsOf x3 x4 x5 x6 x7 x8 x9 x10 x11 x12 x13 x14 x15 x16 x17 x18 x19 x20 x21 x22 x23 x24 x25 x26) n k :=
    fun n k => layer_l1 x0 x1 x3 x4 x5 x6 n k
  have h2 : ∀ (n : Fin 100000) (k : Fin 98), val_main_v53 (F := Ideal) x0 x1 x3 x4 x5 x6 x7 x8 x9 x10 (ix2 n k) = Cert.Spec.rH2 Cert.Spec.hN (Cert.Spec.mat x0) (Cert.Spec.srcOf x1) (Cert.Spec.dstOf x1) (Cert.Spec.paramsOf x3 x4 x5 x6 x7 x8 x9 x10 x11 x12 x13 x14 x15 x16 x17 x18 x19 x20 x21 x22 x23 x24 x25 x26) n k :=
    fun n k => layer_l2 x0 x1 x3 x4 x5 x6 x7 x8 x9 x10 _ h1 n k
  have h3 : ∀ (n : Fin 100000) (k : Fin 98), val_main_v78 (F := Ideal) x0 x1 x3 x4 x5 x6 x7 x8 x9 x10 x11 x12 x13 x14 (ix2 n k) = Cert.Spec.rH3 Cert.Spec.hN (Cert.Spec.mat x0) (Cert.Spec.srcOf x1) (Cert.Spec.dstOf x1) (Cert.Spec.paramsOf x3 x4 x5 x6 x7 x8 x9 x10 x11 x12 x13 x14 x15 x16 x17 x18 x19 x20 x21 x22 x23 x24 x25 x26) n k :=
    fun n k => layer_l3 x0 x1 x3 x4 x5 x6 x7 x8 x9 x10 x11 x12 x13 x14 _ h2 n k
  have h4 : ∀ (n : Fin 100000) (k : Fin 98), val_main_v103 (F := Ideal) x0 x1 x3 x4 x5 x6 x7 x8 x9 x10 x11 x12 x13 x14 x15 x16 x17 x18 (ix2 n k) = Cert.Spec.rH4 Cert.Spec.hN (Cert.Spec.mat x0) (Cert.Spec.srcOf x1) (Cert.Spec.dstOf x1) (Cert.Spec.paramsOf x3 x4 x5 x6 x7 x8 x9 x10 x11 x12 x13 x14 x15 x16 x17 x18 x19 x20 x21 x22 x23 x24 x25 x26) n k :=
    fun n k => layer_l4 x0 x1 x3 x4 x5 x6 x7 x8 x9 x10 x11 x12 x13 x14 x15 x16 x17 x18 _ h3 n k
  have h5 : ∀ (n : Fin 100000) (k : Fin 98), val_main_v128 (F := Ideal) x0 x1 x3 x4 x5 x6 x7 x8 x9 x10 x11 x12 x13 x14 x15 x16 x17 x18 x19 x20 x21 x22 (ix2 n k) = Cert.Spec.rH5 Cert.Spec.hN (Cert.Spec.mat x0) (Cert.Spec.srcOf x1) (Cert.Spec.dstOf x1) (Cert.Spec.paramsOf x3 x4 x5 x6 x7 x8 x9 x10 x11 x12 x13 x14 x15 x16 x17 x18 x19 x20 x21 x22 x23 x24 x25 x26) n k :=
    fun n k => layer_l5 x0 x1 x3 x4 x5 x6 x7 x8 x9 x10 x11 x12 x13 x14 x15 x16 x17 x18 x19 x20 x21 x22 _ h4 n k
  exact norm_read x0 x1 x2 x3 x4 x5 x6 x7 x8 x9 x10 x11 x12 x13 x14 x15 x16 x17 x18 x19 x20 x21 x22 x23 x24 x25 x26 _ h5 s j

end Cert.ReferenceIdeal.RefValue

end
-- ==== Proof.SpecAlgebra.lean ====
/- The two compositions agree: zero-padded features stay zero through every layer, and a masked sum is the sum over the graph's rows. -/
import proofs.«420535_j82145544503553_2_alg».proof.Proof.Spec

noncomputable section

namespace Cert.Spec

open Idealize.ShloMosaic

theorem padv_of_lt {B B' : ℕ} (v : Fin B → R) (b : Fin B') (h : b.val < B) :
    padv (B' := B') v b = v ⟨b.val, h⟩ := dif_pos h

theorem padv_of_ge {B B' : ℕ} (v : Fin B → R) (b : Fin B') (h : B ≤ b.val) :
    padv (B' := B') v b = 0 := dif_neg (not_lt.mpr h)

theorem padc_of_lt {N D D' : ℕ} (f : Fin N → Fin D → R) (n : Fin N) (q : Fin D') (h : q.val < D) :
    padc (D' := D') f n q = f n ⟨q.val, h⟩ := dif_pos h

theorem padc_of_ge {N D D' : ℕ} (f : Fin N → Fin D → R) (n : Fin N) (q : Fin D') (h : D ≤ q.val) :
    padc (D' := D') f n q = 0 := dif_neg (not_lt.mpr h)

theorem pad2_of_lt {A B A' B' : ℕ} (w : Fin A → Fin B → R) (a : Fin A') (b : Fin B') (ha : a.val < A)
    (hb : b.val < B) : pad2 (A' := A') (B' := B') w a b = w ⟨a.val, ha⟩ ⟨b.val, hb⟩ := dif_pos ⟨ha, hb⟩

theorem pad2_of_ge_left {A B A' B' : ℕ} (w : Fin A → Fin B → R) (a : Fin A') (b : Fin B') (ha : A ≤ a.val) :
    pad2 (A' := A') (B' := B') w a b = 0 := dif_neg (fun h => absurd h.1 (not_lt.mpr ha))

theorem pad2_of_ge_right {A B A' B' : ℕ} (w : Fin A → Fin B → R) (a : Fin A') (b : Fin B') (hb : B ≤ b.val) :
    pad2 (A' := A') (B' := B') w a b = 0 := dif_neg (fun h => absurd h.2 (not_lt.mpr hb))

theorem sum_pad {D D' : ℕ} (h : D ≤ D') (f : Fin D' → R) (hf : ∀ k : Fin D', D ≤ k.val → f k = 0) :
    ∑ k, f k = ∑ k : Fin D, f (Fin.castLE h k) := by
  obtain ⟨m, rfl⟩ := Nat.exists_eq_add_of_le h
  rw [Fin.sum_univ_add]
  have hz : ∑ i : Fin m, f (Fin.natAdd D i) = 0 :=
    Finset.sum_eq_zero (fun i _ => hf _ (by simp [Fin.natAdd]))
  rw [hz, add_zero]
  rfl

theorem dot_pad {D D' H H' : ℕ} (hD : D ≤ D') (u : Fin D → R) (w : Fin D → Fin H → R) (k : Fin H')
    (hk : k.val < H) :
    ∑ k' : Fin D', padv (B' := D') u k' * pad2 (A' := D') (B' := H') w k' k
      = ∑ k' : Fin D, u k' * w k' ⟨k.val, hk⟩ := by
  rw [sum_pad hD]
  · refine Finset.sum_congr rfl (fun k' _ => ?_)
    have hk' : (Fin.castLE hD k').val < D := k'.isLt
    rw [padv_of_lt u _ hk', pad2_of_lt w _ _ hk' hk]
    rfl
  · intro k' hk'
    rw [padv_of_ge u _ hk', zero_mul]

theorem rrelu_zero : rrelu 0 = 0 := by
  unfold rrelu
  rw [if_pos (le_refl (0 : R))]

theorem mlp_pad {D D' H H' : ℕ} (hD : D ≤ D') (hH : H ≤ H') (u : Fin D → R) (w1 : Fin D → Fin H → R)
    (b1 : Fin H → R) (w2 : Fin H → Fin H → R) (b2 : Fin H → R) (j : Fin H') :
    mlp (padv (B' := D') u) (pad2 (A' := D') (B' := H') w1) (padv (B' := H') b1)
        (pad2 (A' := H') (B' := H') w2) (padv (B' := H') b2) j
      = padv (B' := H') (mlp u w1 b1 w2 b2) j := by
  by_cases hj : j.val < H
  · rw [padv_of_lt (mlp u w1 b1 w2 b2) j hj]
    unfold mlp
    rw [padv_of_lt b2 j hj]
    congr 2
    rw [sum_pad hH]
    · refine Finset.sum_congr rfl (fun k _ => ?_)
      have hk : (Fin.castLE hH k).val < H := k.isLt
      rw [dot_pad hD u w1 _ hk, padv_of_lt b1 _ hk, pad2_of_lt w2 _ _ hk hj]
      rfl
    · intro k hk
      rw [pad2_of_ge_left w2 _ _ hk, mul_zero]
  · have hj' : H ≤ j.val := not_lt.mp hj
    rw [padv_of_ge (mlp u w1 b1 w2 b2) j hj']
    unfold mlp
    rw [padv_of_ge b2 j hj']
    have hz : ∑ k : Fin H', max ((∑ k' : Fin D', padv (B' := D') u k' * pad2 (A' := D') (B' := H') w1 k' k)
        + padv (B' := H') b1 k) 0 * pad2 (A' := H') (B' := H') w2 k j = 0 :=
      Finset.sum_eq_zero (fun k _ => by rw [pad2_of_ge_right w2 k j hj', mul_zero])
    rw [hz, add_zero, rrelu_zero]

theorem agg_padc {N E D D' : ℕ} (hN : 0 < N) (h : Fin N → Fin D → R) (srcN dst : Fin E → BitVec 32)
    (n : Fin N) (q : Fin D') :
    agg hN (padc (D' := D') h) srcN dst n q = padc (D' := D') (agg hN h srcN dst) n q := by
  by_cases hq : q.val < D
  · rw [padc_of_lt (agg hN h srcN dst) n q hq]
    unfold agg
    exact Finset.sum_congr rfl (fun e _ => padc_of_lt h _ q hq)
  · have hq' : D ≤ q.val := not_lt.mp hq
    rw [padc_of_ge (agg hN h srcN dst) n q hq']
    unfold agg
    exact Finset.sum_eq_zero (fun e _ => padc_of_ge h _ q hq')

theorem layer_padc {N E D D' H H' : ℕ} (hD : D ≤ D') (hH : H ≤ H') (hN : 0 < N) (h : Fin N → Fin D → R)
    (srcN dst : Fin E → BitVec 32) (w1 : Fin D → Fin H → R) (b1 : Fin H → R) (w2 : Fin H → Fin H → R)
    (b2 : Fin H → R) :
    layer hN (padc (D' := D') h) srcN dst (pad2 (A' := D') (B' := H') w1) (padv (B' := H') b1)
        (pad2 (A' := H') (B' := H') w2) (padv (B' := H') b2)
      = padc (D' := H') (layer hN h srcN dst w1 b1 w2 b2) := by
  funext n j
  have hu : (fun k : Fin D' => padc (D' := D') h n k + agg hN (padc (D' := D') h) srcN dst n k)
      = padv (B' := D') (fun k : Fin D => h n k + agg hN h srcN dst n k) := by
    funext k
    rw [agg_padc]
    by_cases hk : k.val < D
    · rw [padc_of_lt h n k hk, padc_of_lt (agg hN h srcN dst) n k hk, padv_of_lt _ k hk]
    · have hk' : D ≤ k.val := not_lt.mp hk
      rw [padc_of_ge h n k hk', padc_of_ge (agg hN h srcN dst) n k hk', padv_of_ge _ k hk', add_zero]
  unfold layer
  rw [hu, mlp_pad hD hH]
  rfl

theorem proj_pad {N D D' O O' : ℕ} (hD : D ≤ D') (h : Fin N → Fin D → R) (lw : Fin D → Fin O → R)
    (lb : Fin O → R) (n : Fin N) (j : Fin O') (hj : j.val < O) :
    proj (padc (D' := D') h) (pad2 (A' := D') (B' := O') lw) (padv (B' := O') lb) n j
      = proj h lw lb n ⟨j.val, hj⟩ := by
  unfold proj
  rw [padv_of_lt lb j hj]
  congr 1
  exact dot_pad hD (h n) lw j hj

theorem toInt_ofNat_small (s : ℕ) (hs : s < 2 ^ 31) : (BitVec.ofNat 32 s).toInt = (s : ℤ) := by
  rw [BitVec.toInt_eq_toNat_cond, BitVec.toNat_ofNat]
  have h1 : s % 2 ^ 32 = s := Nat.mod_eq_of_lt (by omega)
  rw [h1, if_pos (by omega)]

theorem eq_ofNat_iff_toInt (b : BitVec 32) (s : ℕ) (hs : s < 2 ^ 31) :
    b = BitVec.ofNat 32 s ↔ b.toInt = (s : ℤ) := by
  rw [← toInt_ofNat_small s hs, BitVec.toInt_inj]

theorem segMask_eq_segIdx {N G O : ℕ} (hG : G ≤ 2 ^ 31) (x : Fin N → Fin O → R) (ids : Fin N → BitVec 32)
    (s : Fin G) (j : Fin O) : segMask x ids s j = segIdx x ids s j := by
  have hs : s.val < 2 ^ 31 := lt_of_lt_of_le s.isLt hG
  unfold segMask segIdx
  rw [Finset.sum_filter]
  refine Finset.sum_congr rfl (fun n _ => ?_)
  by_cases hb : ids n = BitVec.ofNat 32 s.val
  · rw [if_pos hb, one_mul, if_pos ((eq_ofNat_iff_toInt _ _ hs).mp hb)]
  · rw [if_neg hb, zero_mul, if_neg (fun h => hb ((eq_ofNat_iff_toInt _ _ hs).mpr h))]

section Programs
variable {N E : ℕ} (hN : 0 < N) (x : Fin N → Fin 108 → R) (srcN dst : Fin E → BitVec 32)
  (batch : Fin N → BitVec 32) (P : Params)

theorem kH1_eq : kH1 hN x srcN dst P = padc (rH1 hN x srcN dst P) := by
  unfold kH1 kH0 rH1
  exact layer_padc (by norm_num) (by norm_num) hN x srcN dst _ _ _ _

theorem kH2_eq : kH2 hN x srcN dst P = padc (rH2 hN x srcN dst P) := by
  unfold kH2 rH2
  rw [kH1_eq]
  exact layer_padc (by norm_num) (by norm_num) hN _ srcN dst _ _ _ _

theorem kH3_eq : kH3 hN x srcN dst P = padc (rH3 hN x srcN dst P) := by
  unfold kH3 rH3
  rw [kH2_eq]
  exact layer_padc (by norm_num) (by norm_num) hN _ srcN dst _ _ _ _

theorem kH4_eq : kH4 hN x srcN dst P = padc (rH4 hN x srcN dst P) := by
  unfold kH4 rH4
  rw [kH3_eq]
  exact layer_padc (by norm_num) (by norm_num) hN _ srcN dst _ _ _ _

theorem kH5_eq : kH5 hN x srcN dst P = padc (rH5 hN x srcN dst P) := by
  unfold kH5 rH5
  rw [kH4_eq]
  exact layer_padc (by norm_num) (by norm_num) hN _ srcN dst _ _ _ _

theorem kAcc_eq_rG (s : Fin 512) (k : Fin 120) :
    kAcc hN x srcN dst batch P s ⟨k.val, by omega⟩ = rG hN x srcN dst batch P s k := by
  unfold kAcc rG
  rw [segMask_eq_segIdx (by norm_num), kH5_eq]
  unfold segIdx
  exact Finset.sum_congr rfl (fun n _ => proj_pad (by norm_num) _ _ _ n _ k.isLt)

theorem kernelOut_eq_refOut (s : Fin 512) (j : Fin 120) :
    kernelOut hN x srcN dst batch P s j = refOut hN x srcN dst batch P s j := by
  unfold kernelOut refOut
  have hg : (fun k : Fin 120 => kAcc hN x srcN dst batch P s ⟨k.val, by omega⟩) = rG hN x srcN dst batch P s :=
    funext (fun k => kAcc_eq_rG hN x srcN dst batch P s k)
  rw [hg]

end Programs

end Cert.Spec

end
-- ==== Proof.lean ====
/- The five claims: both kernel programs run region by region and the reference stage by stage; at the extended reals both results are one function of the arguments. -/
import proofs.«420535_j82145544503553_2_alg».proof.Defs
import proofs.«420535_j82145544503553_2_alg».proof.Proof.Gen.Kernel
import proofs.«420535_j82145544503553_2_alg».proof.Proof.Gen.KernelIdeal
import proofs.«420535_j82145544503553_2_alg».proof.Proof.Gen.ReferenceIdeal
import proofs.«420535_j82145544503553_2_alg».proof.Proof.Gen.Pre_finite_inputs
import proofs.«420535_j82145544503553_2_alg».proof.Proof.K.Run
import proofs.«420535_j82145544503553_2_alg».proof.Proof.KI.Run
import proofs.«420535_j82145544503553_2_alg».proof.Proof.KI.Value
import proofs.«420535_j82145544503553_2_alg».proof.Proof.Ref.Run
import proofs.«420535_j82145544503553_2_alg».proof.Proof.Ref.Val
import proofs.«420535_j82145544503553_2_alg».proof.Proof.SpecAlgebra

noncomputable section

namespace Cert.Proof

open Idealize.ShloMosaic Idealize.SL.Sem Idealize.ShloMosaic.ValueIdx

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run (Cert.ReferenceIdeal.defs (F := Ideal)) _ _).mono (fun _ h c => (h c).2) (Cert.ReferenceIdeal.RefRun.run (F := Ideal) m ρ)

theorem algebraic : Cert.algebraic_KernelIdeal_ReferenceIdeal := by
  intro m ρ m' ρ' _ hagree
  refine ⟨fun c => Cert.KernelIdeal.Hand.resultH (F := Ideal) m c, Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18, h19, h20, h21, h22, h23, h24, h25, h26⟩ := hagree c
  rw [h0, h1, h2, h3, h4, h5, h6, h7, h8, h9, h10, h11, h12, h13, h14, h15, h16, h17, h18, h19, h20, h21, h22, h23, h24, h25, h26]
  funext i
  obtain ⟨s, j, rfl⟩ : ∃ (s : Fin 512) (j : Fin 120), i = ix2 s j := ⟨i 0, i 1, eq_ix2 i⟩
  refine (Cert.ReferenceIdeal.RefValue.res_apply _ _ _ _ _ _ _ _ _ _ _ _ _ _ _ _ _ _ _ _ _ _ _ _ _ _ _ s j).trans ?_
  refine Eq.trans ?_ (Cert.KernelIdeal.Hand.kernel_val m c s j).symm
  exact (Cert.Spec.kernelOut_eq_refOut Cert.Spec.hN _ _ _ _ _ s j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
